-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v291)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v291) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S27x64x64 : Shape := ⟨3, ![27, 64, 64]⟩
abbrev S64 : Shape := ⟨1, ![64]⟩
abbrev S27x100000 : Shape := ⟨2, ![27, 100000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_
  bcast_S_S27x100000 : S_.BroadcastsInDim S27x100000 (![] : Fin 0 → Fin S27x100000.rank)
  reducesTo_S27x100000_S_d0_1 : S27x100000.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg7 : IVec S27x100000 32) (main_arg9 : IVec S100000 32) (main_v33 : IVec S_ 1) : IVec S_ 1 :=
  let main_c_12 : IVec S_ 32 := constantI S_ 32 0#32
  let main_v34 : IVec S27x100000 32 := broadcastInDim S27x100000 ![] bcast_S_S27x100000 main_c_12
  let main_v35 : IVec S27x100000 1 := cmpi .sge main_arg7 main_v34
  let main_c_13 : IVec S_ 32 := constantI S_ 32 100000#32
  let main_v36 : IVec S27x100000 32 := broadcastInDim S27x100000 ![] bcast_S_S27x100000 main_c_13
  let main_v37 : IVec S27x100000 1 := cmpi .slt main_arg7 main_v36
  let main_v38 : IVec S27x100000 1 := andi main_v35 main_v37
  let main_c_14 : IVec S_ 1 := constantI S_ 1 1#1
  let main_v39 : IVec S_ 1 := (fun x v => Host.reduce IntOp.andi x v reducesTo_S27x100000_S_d0_1 h_S_) main_v38 main_c_14
  let main_v40 : IVec S_ 1 := andi main_v33 main_v39
  let main_c_15 : IVec S_ 32 := constantI S_ 32 0#32
  let main_v41 : IVec S100000 32 := broadcastInDim S100000 ![] bcast_S_S100000 main_c_15
  let main_v42 : IVec S100000 1 := cmpi .sge main_arg9 main_v41
  let main_c_16 : IVec S_ 32 := constantI S_ 32 8#32
  let main_v43 : IVec S100000 32 := broadcastInDim S100000 ![] bcast_S_S100000 main_c_16
  let main_v44 : IVec S100000 1 := cmpi .slt main_arg9 main_v43
  let main_v45 : IVec S100000 1 := andi main_v42 main_v44
  let main_c_17 : IVec S_ 1 := constantI S_ 1 1#1
  let main_v46 : IVec S_ 1 := (fun x v => Host.reduce IntOp.andi x v reducesTo_S100000_S_d0 h_S_) main_v45 main_c_17
  let main_v47 : IVec S_ 1 := andi main_v40 main_v46
  main_v47

def fn_part1 {F : FTy → Type} [FloatOps F] (main_arg4 : FVec F S27x64x64 .f32) (main_arg5 : FVec F S64 .f32) (main_arg6 : FVec F S64 .f32) (main_arg7 : IVec S27x100000 32) (main_arg9 : IVec S100000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S27x64x64 .f32 := Host.absf main_arg4
  let main_cst_6 : FVec F S_ .f32 := constant S_ .f32 0x7F800000#32
  let main_v20 : FVec F S27x64x64 .f32 := broadcastInDim S27x64x64 ![] bcast_S_S27x64x64 main_cst_6
  let main_v21 : IVec S27x64x64 1 := cmpf .olt main_v19 main_v20
  let main_c_7 : IVec S_ 1 := constantI S_ 1 1#1
  let main_v22 : IVec S_ 1 := (fun x v => Host.reduce IntOp.andi x v reducesTo_S27x64x64_S_d0_1_2 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg9 main_v33

def fn {F : FTy → Type} [FloatOps F] (main_arg0 : FVec F S100000x64 .f32) (main_arg1 : FVec F S27x64x64 .f32) (main_arg2 : FVec F S64 .f32) (main_arg3 : FVec F S64 .f32) (main_arg4 : FVec F S27x64x64 .f32) (main_arg5 : FVec F S64 .f32) (main_arg6 : FVec F S64 .f32) (main_arg7 : IVec S27x100000 32) (main_arg8 : IVec S27x100000 32) (main_arg9 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg9 main_v13 main_v16
-- ==== Kernel.lean ====
abbrev S100000x64 : Shape := ⟨2, ![100000, 64]⟩
abbrev S27x64x64 : Shape := ⟨3, ![27, 64, 64]⟩
abbrev S64 : Shape := ⟨1, ![64]⟩
abbrev S27x100000 : Shape := ⟨2, ![27, 100000]⟩
abbrev S100000 : Shape := ⟨1, ![100000]⟩
abbrev S64x27x64 : Shape := ⟨3, ![64, 27, 64]⟩
abbrev S64x1728 : Shape := ⟨2, ![64, 1728]⟩
abbrev S100000x1728 : Shape := ⟨2, ![100000, 1728]⟩
abbrev S1000x64 : Shape := ⟨2, ![1000, 64]⟩
abbrev S1000x1728 : Shape := ⟨2, ![1000, 1728]⟩
abbrev S1x100000 : Shape := ⟨2, ![1, 100000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S1600000x64 : Shape := ⟨2, ![1600000, 64]⟩
abbrev S1100000x64 : Shape := ⟨2, ![1100000, 64]⟩
abbrev S2700000x64 : Shape := ⟨2, ![2700000, 64]⟩
abbrev S2700000 : Shape := ⟨1, ![2700000]⟩
abbrev S2700000x1 : Shape := ⟨2, ![2700000, 1]⟩
abbrev S1x8 : Shape := ⟨2, ![1, 8]⟩
abbrev S100000x8 : Shape := ⟨2, ![100000, 8]⟩
abbrev S8 : Shape := ⟨1, ![8]⟩
abbrev S8x64 : Shape := ⟨2, ![8, 64]⟩
abbrev S5000x64 : Shape := ⟨2, ![5000, 64]⟩
abbrev S5000x8 : Shape := ⟨2, ![5000, 8]⟩
abbrev S8x1 : Shape := ⟨2, ![8, 1]⟩
abbrev S1x64 : Shape := ⟨2, ![1, 64]⟩

abbrev nBuf : Space → Nat
  | .hbm => 1516
  | .vmem => 44
  | .smem => 0
  | _ => 0

abbrev hbmTy0_0 (i : Nat) : BufTy := match i % 128 with
  | 0 => ⟨S100000x64, .f32⟩
  | 1 => ⟨S27x64x64, .f32⟩
  | 2 => ⟨S64, .f32⟩
  | 3 => ⟨S64, .f32⟩
  | 4 => ⟨S27x64x64, .f32⟩
  | 5 => ⟨S64, .f32⟩
  | 6 => ⟨S64, .f32⟩
  | 7 => ⟨S27x100000, .i32⟩
  | 8 => ⟨S27x100000, .i32⟩
  | 9 => ⟨S100000, .i32⟩
  | 10 => ⟨S100000x64, .bf16⟩
  | 11 => ⟨S64x27x64, .f32⟩
  | 12 => ⟨S64x1728, .f32⟩
  | 13 => ⟨S64x1728, .bf16⟩
  | 14 => ⟨S100000x1728, .f32⟩
  | 15 => ⟨S100000x64, .f32⟩
  | 16 => ⟨S1x100000, .i32⟩
  | 17 => ⟨S100000, .i32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S1, .i32⟩
  | 27 => ⟨S_, .i32⟩
  | 28 => ⟨S100000x1, .i32⟩
  | 29 => ⟨S100000x1, .i1⟩
  | 30 => ⟨S1x1, .i32⟩
  | 31 => ⟨S100000x1, .i32⟩
  | 32 => ⟨S100000x1, .i1⟩
  | 33 => ⟨S100000x1, .i1⟩
  | 34 => ⟨S_, .i1⟩
  | 35 => ⟨S100000, .i1⟩
  | 36 => ⟨S100000x64, .f32⟩
  | 37 => ⟨S100000x64, .i1⟩
  | 38 => ⟨S_, .f32⟩
  | 39 => ⟨S100000x64, .f32⟩
  | 40 => ⟨S100000x64, .f32⟩
  | 41 => ⟨S100000x64, .f32⟩
  | 42 => ⟨S1x100000, .i32⟩
  | 43 => ⟨S100000, .i32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S1, .i32⟩
  | 53 => ⟨S_, .i32⟩
  | 54 => ⟨S100000x1, .i32⟩
  | 55 => ⟨S100000x1, .i1⟩
  | 56 => ⟨S1x1, .i32⟩
  | 57 => ⟨S100000x1, .i32⟩
  | 58 => ⟨S100000x1, .i1⟩
  | 59 => ⟨S100000x1, .i1⟩
  | 60 => ⟨S_, .i1⟩
  | 61 => ⟨S100000, .i1⟩
  | 62 => ⟨S100000x64, .f32⟩
  | 63 => ⟨S100000x64, .i1⟩
  | 64 => ⟨S_, .f32⟩
  | 65 => ⟨S100000x64, .f32⟩
  | 66 => ⟨S100000x64, .f32⟩
  | 67 => ⟨S100000x64, .f32⟩
  | 68 => ⟨S1x100000, .i32⟩
  | 69 => ⟨S100000, .i32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S1, .i32⟩
  | 79 => ⟨S_, .i32⟩
  | 80 => ⟨S100000x1, .i32⟩
  | 81 => ⟨S100000x1, .i1⟩
  | 82 => ⟨S1x1, .i32⟩
  | 83 => ⟨S100000x1, .i32⟩
  | 84 => ⟨S100000x1, .i1⟩
  | 85 => ⟨S100000x1, .i1⟩
  | 86 => ⟨S_, .i1⟩
  | 87 => ⟨S100000, .i1⟩
  | 88 => ⟨S100000x64, .f32⟩
  | 89 => ⟨S100000x64, .i1⟩
  | 90 => ⟨S_, .f32⟩
  | 91 => ⟨S100000x64, .f32⟩
  | 92 => ⟨S100000x64, .f32⟩
  | 93 => ⟨S100000x64, .f32⟩
  | 94 => ⟨S1x100000, .i32⟩
  | 95 => ⟨S100000, .i32⟩
  | 96 => ⟨S_, .i32⟩
  | 97 => ⟨S100000, .i32⟩
  | 98 => ⟨S100000, .i1⟩
  | 99 => ⟨S_, .i32⟩
  | 100 => ⟨S100000, .i32⟩
  | 101 => ⟨S100000, .i32⟩
  | 102 => ⟨S100000, .i32⟩
  | 103 => ⟨S100000x1, .i32⟩
  | 104 => ⟨S1, .i32⟩
  | 105 => ⟨S_, .i32⟩
  | 106 => ⟨S100000x1, .i32⟩
  | 107 => ⟨S100000x1, .i1⟩
  | 108 => ⟨S1x1, .i32⟩
  | 109 => ⟨S100000x1, .i32⟩
  | 110 => ⟨S100000x1, .i1⟩
  | 111 => ⟨S100000x1, .i1⟩
  | 112 => ⟨S_, .i1⟩
  | 113 => ⟨S100000, .i1⟩
  | 114 => ⟨S100000x64, .f32⟩
  | 115 => ⟨S100000x64, .i1⟩
  | 116 => ⟨S_, .f32⟩
  | 117 => ⟨S100000x64, .f32⟩
  | 118 => ⟨S100000x64, .f32⟩
  | 119 => ⟨S100000x64, .f32⟩
  | 120 => ⟨S1x100000, .i32⟩
  | 121 => ⟨S100000, .i32⟩
  | 122 => ⟨S_, .i32⟩
  | 123 => ⟨S100000, .i32⟩
  | 124 => ⟨S100000, .i1⟩
  | 125 => ⟨S_, .i32⟩
  | 126 => ⟨S100000, .i32⟩
  | 127 => ⟨S100000, .i32⟩
  | _ => ⟨S100000x64, .f32⟩

abbrev hbmTy0_1 (i : Nat) : BufTy := match i % 128 with
  | 0 => ⟨S100000, .i32⟩
  | 1 => ⟨S100000x1, .i32⟩
  | 2 => ⟨S1, .i32⟩
  | 3 => ⟨S_, .i32⟩
  | 4 => ⟨S100000x1, .i32⟩
  | 5 => ⟨S100000x1, .i1⟩
  | 6 => ⟨S1x1, .i32⟩
  | 7 => ⟨S100000x1, .i32⟩
  | 8 => ⟨S100000x1, .i1⟩
  | 9 => ⟨S100000x1, .i1⟩
  | 10 => ⟨S_, .i1⟩
  | 11 => ⟨S100000, .i1⟩
  | 12 => ⟨S100000x64, .f32⟩
  | 13 => ⟨S100000x64, .i1⟩
  | 14 => ⟨S_, .f32⟩
  | 15 => ⟨S100000x64, .f32⟩
  | 16 => ⟨S100000x64, .f32⟩
  | 17 => ⟨S100000x64, .f32⟩
  | 18 => ⟨S1x100000, .i32⟩
  | 19 => ⟨S100000, .i32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S1, .i32⟩
  | 29 => ⟨S_, .i32⟩
  | 30 => ⟨S100000x1, .i32⟩
  | 31 => ⟨S100000x1, .i1⟩
  | 32 => ⟨S1x1, .i32⟩
  | 33 => ⟨S100000x1, .i32⟩
  | 34 => ⟨S100000x1, .i1⟩
  | 35 => ⟨S100000x1, .i1⟩
  | 36 => ⟨S_, .i1⟩
  | 37 => ⟨S100000, .i1⟩
  | 38 => ⟨S100000x64, .f32⟩
  | 39 => ⟨S100000x64, .i1⟩
  | 40 => ⟨S_, .f32⟩
  | 41 => ⟨S100000x64, .f32⟩
  | 42 => ⟨S100000x64, .f32⟩
  | 43 => ⟨S100000x64, .f32⟩
  | 44 => ⟨S1x100000, .i32⟩
  | 45 => ⟨S100000, .i32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S100000x1, .i32⟩
  | 54 => ⟨S1, .i32⟩
  | 55 => ⟨S_, .i32⟩
  | 56 => ⟨S100000x1, .i32⟩
  | 57 => ⟨S100000x1, .i1⟩
  | 58 => ⟨S1x1, .i32⟩
  | 59 => ⟨S100000x1, .i32⟩
  | 60 => ⟨S100000x1, .i1⟩
  | 61 => ⟨S100000x1, .i1⟩
  | 62 => ⟨S_, .i1⟩
  | 63 => ⟨S100000, .i1⟩
  | 64 => ⟨S100000x64, .f32⟩
  | 65 => ⟨S100000x64, .i1⟩
  | 66 => ⟨S_, .f32⟩
  | 67 => ⟨S100000x64, .f32⟩
  | 68 => ⟨S100000x64, .f32⟩
  | 69 => ⟨S100000x64, .f32⟩
  | 70 => ⟨S1x100000, .i32⟩
  | 71 => ⟨S100000, .i32⟩
  | 72 => ⟨S_, .i32⟩
  | 73 => ⟨S100000, .i32⟩
  | 74 => ⟨S100000, .i1⟩
  | 75 => ⟨S_, .i32⟩
  | 76 => ⟨S100000, .i32⟩
  | 77 => ⟨S100000, .i32⟩
  | 78 => ⟨S100000, .i32⟩
  | 79 => ⟨S100000x1, .i32⟩
  | 80 => ⟨S1, .i32⟩
  | 81 => ⟨S_, .i32⟩
  | 82 => ⟨S100000x1, .i32⟩
  | 83 => ⟨S100000x1, .i1⟩
  | 84 => ⟨S1x1, .i32⟩
  | 85 => ⟨S100000x1, .i32⟩
  | 86 => ⟨S100000x1, .i1⟩
  | 87 => ⟨S100000x1, .i1⟩
  | 88 => ⟨S_, .i1⟩
  | 89 => ⟨S100000, .i1⟩
  | 90 => ⟨S100000x64, .f32⟩
  | 91 => ⟨S100000x64, .i1⟩
  | 92 => ⟨S_, .f32⟩
  | 93 => ⟨S100000x64, .f32⟩
  | 94 => ⟨S100000x64, .f32⟩
  | 95 => ⟨S100000x64, .f32⟩
  | 96 => ⟨S1x100000, .i32⟩
  | 97 => ⟨S100000, .i32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S1, .i32⟩
  | 107 => ⟨S_, .i32⟩
  | 108 => ⟨S100000x1, .i32⟩
  | 109 => ⟨S100000x1, .i1⟩
  | 110 => ⟨S1x1, .i32⟩
  | 111 => ⟨S100000x1, .i32⟩
  | 112 => ⟨S100000x1, .i1⟩
  | 113 => ⟨S100000x1, .i1⟩
  | 114 => ⟨S_, .i1⟩
  | 115 => ⟨S100000, .i1⟩
  | 116 => ⟨S100000x64, .f32⟩
  | 117 => ⟨S100000x64, .i1⟩
  | 118 => ⟨S_, .f32⟩
  | 119 => ⟨S100000x64, .f32⟩
  | 120 => ⟨S100000x64, .f32⟩
  | 121 => ⟨S100000x64, .f32⟩
  | 122 => ⟨S1x100000, .i32⟩
  | 123 => ⟨S100000, .i32⟩
  | 124 => ⟨S_, .i32⟩
  | 125 => ⟨S100000, .i32⟩
  | 126 => ⟨S100000, .i1⟩
  | 127 => ⟨S_, .i32⟩
  | _ => ⟨S100000x64, .f32⟩

abbrev hbmTy0_2 (i : Nat) : BufTy := match i % 128 with
  | 0 => ⟨S100000, .i32⟩
  | 1 => ⟨S100000, .i32⟩
  | 2 => ⟨S100000, .i32⟩
  | 3 => ⟨S100000x1, .i32⟩
  | 4 => ⟨S1, .i32⟩
  | 5 => ⟨S_, .i32⟩
  | 6 => ⟨S100000x1, .i32⟩
  | 7 => ⟨S100000x1, .i1⟩
  | 8 => ⟨S1x1, .i32⟩
  | 9 => ⟨S100000x1, .i32⟩
  | 10 => ⟨S100000x1, .i1⟩
  | 11 => ⟨S100000x1, .i1⟩
  | 12 => ⟨S_, .i1⟩
  | 13 => ⟨S100000, .i1⟩
  | 14 => ⟨S100000x64, .f32⟩
  | 15 => ⟨S100000x64, .i1⟩
  | 16 => ⟨S_, .f32⟩
  | 17 => ⟨S100000x64, .f32⟩
  | 18 => ⟨S100000x64, .f32⟩
  | 19 => ⟨S100000x64, .f32⟩
  | 20 => ⟨S1x100000, .i32⟩
  | 21 => ⟨S100000, .i32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S1, .i32⟩
  | 31 => ⟨S_, .i32⟩
  | 32 => ⟨S100000x1, .i32⟩
  | 33 => ⟨S100000x1, .i1⟩
  | 34 => ⟨S1x1, .i32⟩
  | 35 => ⟨S100000x1, .i32⟩
  | 36 => ⟨S100000x1, .i1⟩
  | 37 => ⟨S100000x1, .i1⟩
  | 38 => ⟨S_, .i1⟩
  | 39 => ⟨S100000, .i1⟩
  | 40 => ⟨S100000x64, .f32⟩
  | 41 => ⟨S100000x64, .i1⟩
  | 42 => ⟨S_, .f32⟩
  | 43 => ⟨S100000x64, .f32⟩
  | 44 => ⟨S100000x64, .f32⟩
  | 45 => ⟨S100000x64, .f32⟩
  | 46 => ⟨S1x100000, .i32⟩
  | 47 => ⟨S100000, .i32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S1, .i32⟩
  | 57 => ⟨S_, .i32⟩
  | 58 => ⟨S100000x1, .i32⟩
  | 59 => ⟨S100000x1, .i1⟩
  | 60 => ⟨S1x1, .i32⟩
  | 61 => ⟨S100000x1, .i32⟩
  | 62 => ⟨S100000x1, .i1⟩
  | 63 => ⟨S100000x1, .i1⟩
  | 64 => ⟨S_, .i1⟩
  | 65 => ⟨S100000, .i1⟩
  | 66 => ⟨S100000x64, .f32⟩
  | 67 => ⟨S100000x64, .i1⟩
  | 68 => ⟨S_, .f32⟩
  | 69 => ⟨S100000x64, .f32⟩
  | 70 => ⟨S100000x64, .f32⟩
  | 71 => ⟨S100000x64, .f32⟩
  | 72 => ⟨S1x100000, .i32⟩
  | 73 => ⟨S100000, .i32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S1, .i32⟩
  | 83 => ⟨S_, .i32⟩
  | 84 => ⟨S100000x1, .i32⟩
  | 85 => ⟨S100000x1, .i1⟩
  | 86 => ⟨S1x1, .i32⟩
  | 87 => ⟨S100000x1, .i32⟩
  | 88 => ⟨S100000x1, .i1⟩
  | 89 => ⟨S100000x1, .i1⟩
  | 90 => ⟨S_, .i1⟩
  | 91 => ⟨S100000, .i1⟩
  | 92 => ⟨S100000x64, .f32⟩
  | 93 => ⟨S100000x64, .i1⟩
  | 94 => ⟨S_, .f32⟩
  | 95 => ⟨S100000x64, .f32⟩
  | 96 => ⟨S100000x64, .f32⟩
  | 97 => ⟨S100000x64, .f32⟩
  | 98 => ⟨S1x100000, .i32⟩
  | 99 => ⟨S100000, .i32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S1, .i32⟩
  | 109 => ⟨S_, .i32⟩
  | 110 => ⟨S100000x1, .i32⟩
  | 111 => ⟨S100000x1, .i1⟩
  | 112 => ⟨S1x1, .i32⟩
  | 113 => ⟨S100000x1, .i32⟩
  | 114 => ⟨S100000x1, .i1⟩
  | 115 => ⟨S100000x1, .i1⟩
  | 116 => ⟨S_, .i1⟩
  | 117 => ⟨S100000, .i1⟩
  | 118 => ⟨S100000x64, .f32⟩
  | 119 => ⟨S100000x64, .i1⟩
  | 120 => ⟨S_, .f32⟩
  | 121 => ⟨S100000x64, .f32⟩
  | 122 => ⟨S100000x64, .f32⟩
  | 123 => ⟨S100000x64, .f32⟩
  | 124 => ⟨S1x100000, .i32⟩
  | 125 => ⟨S100000, .i32⟩
  | 126 => ⟨S_, .i32⟩
  | 127 => ⟨S100000, .i32⟩
  | _ => ⟨S100000x64, .f32⟩

abbrev hbmTy0_3 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S100000x1, .i32⟩
  | 6 => ⟨S1, .i32⟩
  | 7 => ⟨S_, .i32⟩
  | 8 => ⟨S100000x1, .i32⟩
  | 9 => ⟨S100000x1, .i1⟩
  | 10 => ⟨S1x1, .i32⟩
  | 11 => ⟨S100000x1, .i32⟩
  | 12 => ⟨S100000x1, .i1⟩
  | 13 => ⟨S100000x1, .i1⟩
  | 14 => ⟨S_, .i1⟩
  | 15 => ⟨S100000, .i1⟩
  | 16 => ⟨S100000x64, .f32⟩
  | 17 => ⟨S100000x64, .i1⟩
  | 18 => ⟨S_, .f32⟩
  | 19 => ⟨S100000x64, .f32⟩
  | 20 => ⟨S100000x64, .f32⟩
  | 21 => ⟨S100000x64, .f32⟩
  | 22 => ⟨S1x100000, .i32⟩
  | 23 => ⟨S100000, .i32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S1, .i32⟩
  | 33 => ⟨S_, .i32⟩
  | 34 => ⟨S100000x1, .i32⟩
  | 35 => ⟨S100000x1, .i1⟩
  | 36 => ⟨S1x1, .i32⟩
  | 37 => ⟨S100000x1, .i32⟩
  | 38 => ⟨S100000x1, .i1⟩
  | 39 => ⟨S100000x1, .i1⟩
  | 40 => ⟨S_, .i1⟩
  | 41 => ⟨S100000, .i1⟩
  | 42 => ⟨S100000x64, .f32⟩
  | 43 => ⟨S100000x64, .i1⟩
  | 44 => ⟨S_, .f32⟩
  | 45 => ⟨S100000x64, .f32⟩
  | 46 => ⟨S100000x64, .f32⟩
  | 47 => ⟨S100000x64, .f32⟩
  | 48 => ⟨S1x100000, .i32⟩
  | 49 => ⟨S100000, .i32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S1, .i32⟩
  | 59 => ⟨S_, .i32⟩
  | 60 => ⟨S100000x1, .i32⟩
  | 61 => ⟨S100000x1, .i1⟩
  | 62 => ⟨S1x1, .i32⟩
  | 63 => ⟨S100000x1, .i32⟩
  | 64 => ⟨S100000x1, .i1⟩
  | 65 => ⟨S100000x1, .i1⟩
  | 66 => ⟨S_, .i1⟩
  | 67 => ⟨S100000, .i1⟩
  | 68 => ⟨S100000x64, .f32⟩
  | 69 => ⟨S100000x64, .i1⟩
  | 70 => ⟨S_, .f32⟩
  | 71 => ⟨S100000x64, .f32⟩
  | 72 => ⟨S100000x64, .f32⟩
  | 73 => ⟨S100000x64, .f32⟩
  | 74 => ⟨S1x100000, .i32⟩
  | 75 => ⟨S100000, .i32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S1, .i32⟩
  | 85 => ⟨S_, .i32⟩
  | 86 => ⟨S100000x1, .i32⟩
  | 87 => ⟨S100000x1, .i1⟩
  | 88 => ⟨S1x1, .i32⟩
  | 89 => ⟨S100000x1, .i32⟩
  | 90 => ⟨S100000x1, .i1⟩
  | 91 => ⟨S100000x1, .i1⟩
  | 92 => ⟨S_, .i1⟩
  | 93 => ⟨S100000, .i1⟩
  | 94 => ⟨S100000x64, .f32⟩
  | 95 => ⟨S100000x64, .i1⟩
  | 96 => ⟨S_, .f32⟩
  | 97 => ⟨S100000x64, .f32⟩
  | 98 => ⟨S100000x64, .f32⟩
  | 99 => ⟨S100000x64, .f32⟩
  | 100 => ⟨S1x100000, .i32⟩
  | 101 => ⟨S100000, .i32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S1, .i32⟩
  | 111 => ⟨S_, .i32⟩
  | 112 => ⟨S100000x1, .i32⟩
  | 113 => ⟨S100000x1, .i1⟩
  | 114 => ⟨S1x1, .i32⟩
  | 115 => ⟨S100000x1, .i32⟩
  | 116 => ⟨S100000x1, .i1⟩
  | 117 => ⟨S100000x1, .i1⟩
  | 118 => ⟨S_, .i1⟩
  | 119 => ⟨S100000, .i1⟩
  | 120 => ⟨S100000x64, .f32⟩
  | 121 => ⟨S100000x64, .i1⟩
  | 122 => ⟨S_, .f32⟩
  | 123 => ⟨S100000x64, .f32⟩
  | 124 => ⟨S100000x64, .f32⟩
  | 125 => ⟨S100000x64, .f32⟩
  | 126 => ⟨S1x100000, .i32⟩
  | 127 => ⟨S100000, .i32⟩
  | _ => ⟨S100000x64, .f32⟩

abbrev hbmTy0_4 (i : Nat) : BufTy := match i % 128 with
  | 0 => ⟨S_, .i32⟩
  | 1 => ⟨S100000, .i32⟩
  | 2 => ⟨S100000, .i1⟩
  | 3 => ⟨S_, .i32⟩
  | 4 => ⟨S100000, .i32⟩
  | 5 => ⟨S100000, .i32⟩
  | 6 => ⟨S100000, .i32⟩
  | 7 => ⟨S100000x1, .i32⟩
  | 8 => ⟨S1, .i32⟩
  | 9 => ⟨S_, .i32⟩
  | 10 => ⟨S100000x1, .i32⟩
  | 11 => ⟨S100000x1, .i1⟩
  | 12 => ⟨S1x1, .i32⟩
  | 13 => ⟨S100000x1, .i32⟩
  | 14 => ⟨S100000x1, .i1⟩
  | 15 => ⟨S100000x1, .i1⟩
  | 16 => ⟨S_, .i1⟩
  | 17 => ⟨S100000, .i1⟩
  | 18 => ⟨S100000x64, .f32⟩
  | 19 => ⟨S100000x64, .i1⟩
  | 20 => ⟨S_, .f32⟩
  | 21 => ⟨S100000x64, .f32⟩
  | 22 => ⟨S100000x64, .f32⟩
  | 23 => ⟨S100000x64, .f32⟩
  | 24 => ⟨S1x100000, .i32⟩
  | 25 => ⟨S100000, .i32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S1, .i32⟩
  | 35 => ⟨S_, .i32⟩
  | 36 => ⟨S100000x1, .i32⟩
  | 37 => ⟨S100000x1, .i1⟩
  | 38 => ⟨S1x1, .i32⟩
  | 39 => ⟨S100000x1, .i32⟩
  | 40 => ⟨S100000x1, .i1⟩
  | 41 => ⟨S100000x1, .i1⟩
  | 42 => ⟨S_, .i1⟩
  | 43 => ⟨S100000, .i1⟩
  | 44 => ⟨S100000x64, .f32⟩
  | 45 => ⟨S100000x64, .i1⟩
  | 46 => ⟨S_, .f32⟩
  | 47 => ⟨S100000x64, .f32⟩
  | 48 => ⟨S100000x64, .f32⟩
  | 49 => ⟨S100000x64, .f32⟩
  | 50 => ⟨S1x100000, .i32⟩
  | 51 => ⟨S100000, .i32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S1, .i32⟩
  | 61 => ⟨S_, .i32⟩
  | 62 => ⟨S100000x1, .i32⟩
  | 63 => ⟨S100000x1, .i1⟩
  | 64 => ⟨S1x1, .i32⟩
  | 65 => ⟨S100000x1, .i32⟩
  | 66 => ⟨S100000x1, .i1⟩
  | 67 => ⟨S100000x1, .i1⟩
  | 68 => ⟨S_, .i1⟩
  | 69 => ⟨S100000, .i1⟩
  | 70 => ⟨S100000x64, .f32⟩
  | 71 => ⟨S100000x64, .i1⟩
  | 72 => ⟨S_, .f32⟩
  | 73 => ⟨S100000x64, .f32⟩
  | 74 => ⟨S100000x64, .f32⟩
  | 75 => ⟨S100000x64, .f32⟩
  | 76 => ⟨S1x100000, .i32⟩
  | 77 => ⟨S100000, .i32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S100000x1, .i32⟩
  | 86 => ⟨S1, .i32⟩
  | 87 => ⟨S_, .i32⟩
  | 88 => ⟨S100000x1, .i32⟩
  | 89 => ⟨S100000x1, .i1⟩
  | 90 => ⟨S1x1, .i32⟩
  | 91 => ⟨S100000x1, .i32⟩
  | 92 => ⟨S100000x1, .i1⟩
  | 93 => ⟨S100000x1, .i1⟩
  | 94 => ⟨S_, .i1⟩
  | 95 => ⟨S100000, .i1⟩
  | 96 => ⟨S100000x64, .f32⟩
  | 97 => ⟨S100000x64, .i1⟩
  | 98 => ⟨S_, .f32⟩
  | 99 => ⟨S100000x64, .f32⟩
  | 100 => ⟨S100000x64, .f32⟩
  | 101 => ⟨S100000x64, .f32⟩
  | 102 => ⟨S1x100000, .i32⟩
  | 103 => ⟨S100000, .i32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S1, .i32⟩
  | 113 => ⟨S_, .i32⟩
  | 114 => ⟨S100000x1, .i32⟩
  | 115 => ⟨S100000x1, .i1⟩
  | 116 => ⟨S1x1, .i32⟩
  | 117 => ⟨S100000x1, .i32⟩
  | 118 => ⟨S100000x1, .i1⟩
  | 119 => ⟨S100000x1, .i1⟩
  | 120 => ⟨S_, .i1⟩
  | 121 => ⟨S100000, .i1⟩
  | 122 => ⟨S100000x64, .f32⟩
  | 123 => ⟨S100000x64, .i1⟩
  | 124 => ⟨S_, .f32⟩
  | 125 => ⟨S100000x64, .f32⟩
  | 126 => ⟨S100000x64, .f32⟩
  | 127 => ⟨S100000x64, .f32⟩
  | _ => ⟨S100000x64, .f32⟩

abbrev hbmTy0_5 (i : Nat) : BufTy := match i % 128 with
  | 0 => ⟨S1x100000, .i32⟩
  | 1 => ⟨S100000, .i32⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S1, .i32⟩
  | 11 => ⟨S_, .i32⟩
  | 12 => ⟨S100000x1, .i32⟩
  | 13 => ⟨S100000x1, .i1⟩
  | 14 => ⟨S1x1, .i32⟩
  | 15 => ⟨S100000x1, .i32⟩
  | 16 => ⟨S100000x1, .i1⟩
  | 17 => ⟨S100000x1, .i1⟩
  | 18 => ⟨S_, .i1⟩
  | 19 => ⟨S100000, .i1⟩
  | 20 => ⟨S100000x64, .f32⟩
  | 21 => ⟨S100000x64, .i1⟩
  | 22 => ⟨S_, .f32⟩
  | 23 => ⟨S100000x64, .f32⟩
  | 24 => ⟨S100000x64, .f32⟩
  | 25 => ⟨S100000x64, .f32⟩
  | 26 => ⟨S1x100000, .i32⟩
  | 27 => ⟨S100000, .i32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S100000x1, .i32⟩
  | 36 => ⟨S1, .i32⟩
  | 37 => ⟨S_, .i32⟩
  | 38 => ⟨S100000x1, .i32⟩
  | 39 => ⟨S100000x1, .i1⟩
  | 40 => ⟨S1x1, .i32⟩
  | 41 => ⟨S100000x1, .i32⟩
  | 42 => ⟨S100000x1, .i1⟩
  | 43 => ⟨S100000x1, .i1⟩
  | 44 => ⟨S_, .i1⟩
  | 45 => ⟨S100000, .i1⟩
  | 46 => ⟨S100000x64, .f32⟩
  | 47 => ⟨S100000x64, .i1⟩
  | 48 => ⟨S_, .f32⟩
  | 49 => ⟨S100000x64, .f32⟩
  | 50 => ⟨S100000x64, .f32⟩
  | 51 => ⟨S100000x64, .f32⟩
  | 52 => ⟨S1x100000, .i32⟩
  | 53 => ⟨S100000, .i32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S1, .i32⟩
  | 63 => ⟨S_, .i32⟩
  | 64 => ⟨S100000x1, .i32⟩
  | 65 => ⟨S100000x1, .i1⟩
  | 66 => ⟨S1x1, .i32⟩
  | 67 => ⟨S100000x1, .i32⟩
  | 68 => ⟨S100000x1, .i1⟩
  | 69 => ⟨S100000x1, .i1⟩
  | 70 => ⟨S_, .i1⟩
  | 71 => ⟨S100000, .i1⟩
  | 72 => ⟨S100000x64, .f32⟩
  | 73 => ⟨S100000x64, .i1⟩
  | 74 => ⟨S_, .f32⟩
  | 75 => ⟨S100000x64, .f32⟩
  | 76 => ⟨S100000x64, .f32⟩
  | 77 => ⟨S1600000x64, .f32⟩
  | 78 => ⟨S1100000x64, .f32⟩
  | 79 => ⟨S2700000x64, .f32⟩
  | 80 => ⟨S2700000, .i32⟩
  | 81 => ⟨S_, .f32⟩
  | 82 => ⟨S100000x64, .f32⟩
  | 83 => ⟨S_, .i32⟩
  | 84 => ⟨S2700000, .i32⟩
  | 85 => ⟨S2700000, .i1⟩
  | 86 => ⟨S_, .i32⟩
  | 87 => ⟨S2700000, .i32⟩
  | 88 => ⟨S2700000, .i32⟩
  | 89 => ⟨S2700000, .i32⟩
  | 90 => ⟨S2700000x1, .i32⟩
  | 91 => ⟨S100000x64, .f32⟩
  | 92 => ⟨S100000x1, .i32⟩
  | 93 => ⟨S1x8, .i32⟩
  | 94 => ⟨S100000x8, .i32⟩
  | 95 => ⟨S100000x8, .i32⟩
  | 96 => ⟨S100000x8, .i1⟩
  | 97 => ⟨S100000x8, .bf16⟩
  | 98 => ⟨S_, .f32⟩
  | 99 => ⟨S100000, .f32⟩
  | 100 => ⟨S_, .f32⟩
  | 101 => ⟨S8, .f32⟩
  | 102 => ⟨S100000x1, .i32⟩
  | 103 => ⟨S8, .f32⟩
  | 104 => ⟨S_, .f32⟩
  | 105 => ⟨S8, .f32⟩
  | 106 => ⟨S8, .f32⟩
  | 107 => ⟨S8x64, .f32⟩
  | 108 => ⟨S8x64, .f32⟩
  | 109 => ⟨S8x1, .f32⟩
  | 110 => ⟨S8x64, .f32⟩
  | 111 => ⟨S8x64, .f32⟩
  | 112 => ⟨S8x1, .f32⟩
  | 113 => ⟨S8x64, .f32⟩
  | 114 => ⟨S8x64, .f32⟩
  | 115 => ⟨S8x64, .f32⟩
  | 116 => ⟨S8x64, .f32⟩
  | 117 => ⟨S_, .f32⟩
  | 118 => ⟨S8x64, .f32⟩
  | 119 => ⟨S8x64, .f32⟩
  | 120 => ⟨S1x64, .f32⟩
  | 121 => ⟨S1x64, .f32⟩
  | 122 => ⟨S100000x64, .f32⟩
  | 123 => ⟨S100000x64, .bf16⟩
  | 124 => ⟨S64x27x64, .f32⟩
  | 125 => ⟨S64x1728, .f32⟩
  | 126 => ⟨S64x1728, .bf16⟩
  | 127 => ⟨S100000x1728, .f32⟩
  | _ => ⟨S100000x64, .f32⟩

abbrev hbmTy0_6 (i : Nat) : BufTy := match i % 128 with
  | 0 => ⟨S100000x64, .f32⟩
  | 1 => ⟨S1x100000, .i32⟩
  | 2 => ⟨S100000, .i32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S1, .i32⟩
  | 12 => ⟨S_, .i32⟩
  | 13 => ⟨S100000x1, .i32⟩
  | 14 => ⟨S100000x1, .i1⟩
  | 15 => ⟨S1x1, .i32⟩
  | 16 => ⟨S100000x1, .i32⟩
  | 17 => ⟨S100000x1, .i1⟩
  | 18 => ⟨S100000x1, .i1⟩
  | 19 => ⟨S_, .i1⟩
  | 20 => ⟨S100000, .i1⟩
  | 21 => ⟨S100000x64, .f32⟩
  | 22 => ⟨S100000x64, .i1⟩
  | 23 => ⟨S_, .f32⟩
  | 24 => ⟨S100000x64, .f32⟩
  | 25 => ⟨S100000x64, .f32⟩
  | 26 => ⟨S100000x64, .f32⟩
  | 27 => ⟨S1x100000, .i32⟩
  | 28 => ⟨S100000, .i32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S1, .i32⟩
  | 38 => ⟨S_, .i32⟩
  | 39 => ⟨S100000x1, .i32⟩
  | 40 => ⟨S100000x1, .i1⟩
  | 41 => ⟨S1x1, .i32⟩
  | 42 => ⟨S100000x1, .i32⟩
  | 43 => ⟨S100000x1, .i1⟩
  | 44 => ⟨S100000x1, .i1⟩
  | 45 => ⟨S_, .i1⟩
  | 46 => ⟨S100000, .i1⟩
  | 47 => ⟨S100000x64, .f32⟩
  | 48 => ⟨S100000x64, .i1⟩
  | 49 => ⟨S_, .f32⟩
  | 50 => ⟨S100000x64, .f32⟩
  | 51 => ⟨S100000x64, .f32⟩
  | 52 => ⟨S100000x64, .f32⟩
  | 53 => ⟨S1x100000, .i32⟩
  | 54 => ⟨S100000, .i32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S1, .i32⟩
  | 64 => ⟨S_, .i32⟩
  | 65 => ⟨S100000x1, .i32⟩
  | 66 => ⟨S100000x1, .i1⟩
  | 67 => ⟨S1x1, .i32⟩
  | 68 => ⟨S100000x1, .i32⟩
  | 69 => ⟨S100000x1, .i1⟩
  | 70 => ⟨S100000x1, .i1⟩
  | 71 => ⟨S_, .i1⟩
  | 72 => ⟨S100000, .i1⟩
  | 73 => ⟨S100000x64, .f32⟩
  | 74 => ⟨S100000x64, .i1⟩
  | 75 => ⟨S_, .f32⟩
  | 76 => ⟨S100000x64, .f32⟩
  | 77 => ⟨S100000x64, .f32⟩
  | 78 => ⟨S100000x64, .f32⟩
  | 79 => ⟨S1x100000, .i32⟩
  | 80 => ⟨S100000, .i32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S1, .i32⟩
  | 90 => ⟨S_, .i32⟩
  | 91 => ⟨S100000x1, .i32⟩
  | 92 => ⟨S100000x1, .i1⟩
  | 93 => ⟨S1x1, .i32⟩
  | 94 => ⟨S100000x1, .i32⟩
  | 95 => ⟨S100000x1, .i1⟩
  | 96 => ⟨S100000x1, .i1⟩
  | 97 => ⟨S_, .i1⟩
  | 98 => ⟨S100000, .i1⟩
  | 99 => ⟨S100000x64, .f32⟩
  | 100 => ⟨S100000x64, .i1⟩
  | 101 => ⟨S_, .f32⟩
  | 102 => ⟨S100000x64, .f32⟩
  | 103 => ⟨S100000x64, .f32⟩
  | 104 => ⟨S100000x64, .f32⟩
  | 105 => ⟨S1x100000, .i32⟩
  | 106 => ⟨S100000, .i32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S1, .i32⟩
  | 116 => ⟨S_, .i32⟩
  | 117 => ⟨S100000x1, .i32⟩
  | 118 => ⟨S100000x1, .i1⟩
  | 119 => ⟨S1x1, .i32⟩
  | 120 => ⟨S100000x1, .i32⟩
  | 121 => ⟨S100000x1, .i1⟩
  | 122 => ⟨S100000x1, .i1⟩
  | 123 => ⟨S_, .i1⟩
  | 124 => ⟨S100000, .i1⟩
  | 125 => ⟨S100000x64, .f32⟩
  | 126 => ⟨S100000x64, .i1⟩
  | 127 => ⟨S_, .f32⟩
  | _ => ⟨S100000x64, .f32⟩

abbrev hbmTy0_7 (i : Nat) : BufTy := match i % 128 with
  | 0 => ⟨S100000x64, .f32⟩
  | 1 => ⟨S100000x64, .f32⟩
  | 2 => ⟨S100000x64, .f32⟩
  | 3 => ⟨S1x100000, .i32⟩
  | 4 => ⟨S100000, .i32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S1, .i32⟩
  | 14 => ⟨S_, .i32⟩
  | 15 => ⟨S100000x1, .i32⟩
  | 16 => ⟨S100000x1, .i1⟩
  | 17 => ⟨S1x1, .i32⟩
  | 18 => ⟨S100000x1, .i32⟩
  | 19 => ⟨S100000x1, .i1⟩
  | 20 => ⟨S100000x1, .i1⟩
  | 21 => ⟨S_, .i1⟩
  | 22 => ⟨S100000, .i1⟩
  | 23 => ⟨S100000x64, .f32⟩
  | 24 => ⟨S100000x64, .i1⟩
  | 25 => ⟨S_, .f32⟩
  | 26 => ⟨S100000x64, .f32⟩
  | 27 => ⟨S100000x64, .f32⟩
  | 28 => ⟨S100000x64, .f32⟩
  | 29 => ⟨S1x100000, .i32⟩
  | 30 => ⟨S100000, .i32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S1, .i32⟩
  | 40 => ⟨S_, .i32⟩
  | 41 => ⟨S100000x1, .i32⟩
  | 42 => ⟨S100000x1, .i1⟩
  | 43 => ⟨S1x1, .i32⟩
  | 44 => ⟨S100000x1, .i32⟩
  | 45 => ⟨S100000x1, .i1⟩
  | 46 => ⟨S100000x1, .i1⟩
  | 47 => ⟨S_, .i1⟩
  | 48 => ⟨S100000, .i1⟩
  | 49 => ⟨S100000x64, .f32⟩
  | 50 => ⟨S100000x64, .i1⟩
  | 51 => ⟨S_, .f32⟩
  | 52 => ⟨S100000x64, .f32⟩
  | 53 => ⟨S100000x64, .f32⟩
  | 54 => ⟨S100000x64, .f32⟩
  | 55 => ⟨S1x100000, .i32⟩
  | 56 => ⟨S100000, .i32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S1, .i32⟩
  | 66 => ⟨S_, .i32⟩
  | 67 => ⟨S100000x1, .i32⟩
  | 68 => ⟨S100000x1, .i1⟩
  | 69 => ⟨S1x1, .i32⟩
  | 70 => ⟨S100000x1, .i32⟩
  | 71 => ⟨S100000x1, .i1⟩
  | 72 => ⟨S100000x1, .i1⟩
  | 73 => ⟨S_, .i1⟩
  | 74 => ⟨S100000, .i1⟩
  | 75 => ⟨S100000x64, .f32⟩
  | 76 => ⟨S100000x64, .i1⟩
  | 77 => ⟨S_, .f32⟩
  | 78 => ⟨S100000x64, .f32⟩
  | 79 => ⟨S100000x64, .f32⟩
  | 80 => ⟨S100000x64, .f32⟩
  | 81 => ⟨S1x100000, .i32⟩
  | 82 => ⟨S100000, .i32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S1, .i32⟩
  | 92 => ⟨S_, .i32⟩
  | 93 => ⟨S100000x1, .i32⟩
  | 94 => ⟨S100000x1, .i1⟩
  | 95 => ⟨S1x1, .i32⟩
  | 96 => ⟨S100000x1, .i32⟩
  | 97 => ⟨S100000x1, .i1⟩
  | 98 => ⟨S100000x1, .i1⟩
  | 99 => ⟨S_, .i1⟩
  | 100 => ⟨S100000, .i1⟩
  | 101 => ⟨S100000x64, .f32⟩
  | 102 => ⟨S100000x64, .i1⟩
  | 103 => ⟨S_, .f32⟩
  | 104 => ⟨S100000x64, .f32⟩
  | 105 => ⟨S100000x64, .f32⟩
  | 106 => ⟨S100000x64, .f32⟩
  | 107 => ⟨S1x100000, .i32⟩
  | 108 => ⟨S100000, .i32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S100000x1, .i32⟩
  | 117 => ⟨S1, .i32⟩
  | 118 => ⟨S_, .i32⟩
  | 119 => ⟨S100000x1, .i32⟩
  | 120 => ⟨S100000x1, .i1⟩
  | 121 => ⟨S1x1, .i32⟩
  | 122 => ⟨S100000x1, .i32⟩
  | 123 => ⟨S100000x1, .i1⟩
  | 124 => ⟨S100000x1, .i1⟩
  | 125 => ⟨S_, .i1⟩
  | 126 => ⟨S100000, .i1⟩
  | 127 => ⟨S100000x64, .f32⟩
  | _ => ⟨S100000x64, .f32⟩

abbrev hbmTy0_8 (i : Nat) : BufTy := match i % 128 with
  | 0 => ⟨S100000x64, .i1⟩
  | 1 => ⟨S_, .f32⟩
  | 2 => ⟨S100000x64, .f32⟩
  | 3 => ⟨S100000x64, .f32⟩
  | 4 => ⟨S100000x64, .f32⟩
  | 5 => ⟨S1x100000, .i32⟩
  | 6 => ⟨S100000, .i32⟩
  | 7 => ⟨S_, .i32⟩
  | 8 => ⟨S100000, .i32⟩
  | 9 => ⟨S100000, .i1⟩
  | 10 => ⟨S_, .i32⟩
  | 11 => ⟨S100000, .i32⟩
  | 12 => ⟨S100000, .i32⟩
  | 13 => ⟨S100000, .i32⟩
  | 14 => ⟨S100000x1, .i32⟩
  | 15 => ⟨S1, .i32⟩
  | 16 => ⟨S_, .i32⟩
  | 17 => ⟨S100000x1, .i32⟩
  | 18 => ⟨S100000x1, .i1⟩
  | 19 => ⟨S1x1, .i32⟩
  | 20 => ⟨S100000x1, .i32⟩
  | 21 => ⟨S100000x1, .i1⟩
  | 22 => ⟨S100000x1, .i1⟩
  | 23 => ⟨S_, .i1⟩
  | 24 => ⟨S100000, .i1⟩
  | 25 => ⟨S100000x64, .f32⟩
  | 26 => ⟨S100000x64, .i1⟩
  | 27 => ⟨S_, .f32⟩
  | 28 => ⟨S100000x64, .f32⟩
  | 29 => ⟨S100000x64, .f32⟩
  | 30 => ⟨S100000x64, .f32⟩
  | 31 => ⟨S1x100000, .i32⟩
  | 32 => ⟨S100000, .i32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S1, .i32⟩
  | 42 => ⟨S_, .i32⟩
  | 43 => ⟨S100000x1, .i32⟩
  | 44 => ⟨S100000x1, .i1⟩
  | 45 => ⟨S1x1, .i32⟩
  | 46 => ⟨S100000x1, .i32⟩
  | 47 => ⟨S100000x1, .i1⟩
  | 48 => ⟨S100000x1, .i1⟩
  | 49 => ⟨S_, .i1⟩
  | 50 => ⟨S100000, .i1⟩
  | 51 => ⟨S100000x64, .f32⟩
  | 52 => ⟨S100000x64, .i1⟩
  | 53 => ⟨S_, .f32⟩
  | 54 => ⟨S100000x64, .f32⟩
  | 55 => ⟨S100000x64, .f32⟩
  | 56 => ⟨S100000x64, .f32⟩
  | 57 => ⟨S1x100000, .i32⟩
  | 58 => ⟨S100000, .i32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S1, .i32⟩
  | 68 => ⟨S_, .i32⟩
  | 69 => ⟨S100000x1, .i32⟩
  | 70 => ⟨S100000x1, .i1⟩
  | 71 => ⟨S1x1, .i32⟩
  | 72 => ⟨S100000x1, .i32⟩
  | 73 => ⟨S100000x1, .i1⟩
  | 74 => ⟨S100000x1, .i1⟩
  | 75 => ⟨S_, .i1⟩
  | 76 => ⟨S100000, .i1⟩
  | 77 => ⟨S100000x64, .f32⟩
  | 78 => ⟨S100000x64, .i1⟩
  | 79 => ⟨S_, .f32⟩
  | 80 => ⟨S100000x64, .f32⟩
  | 81 => ⟨S100000x64, .f32⟩
  | 82 => ⟨S100000x64, .f32⟩
  | 83 => ⟨S1x100000, .i32⟩
  | 84 => ⟨S100000, .i32⟩
  | 85 => ⟨S_, .i32⟩
  | 86 => ⟨S100000, .i32⟩
  | 87 => ⟨S100000, .i1⟩
  | 88 => ⟨S_, .i32⟩
  | 89 => ⟨S100000, .i32⟩
  | 90 => ⟨S100000, .i32⟩
  | 91 => ⟨S100000, .i32⟩
  | 92 => ⟨S100000x1, .i32⟩
  | 93 => ⟨S1, .i32⟩
  | 94 => ⟨S_, .i32⟩
  | 95 => ⟨S100000x1, .i32⟩
  | 96 => ⟨S100000x1, .i1⟩
  | 97 => ⟨S1x1, .i32⟩
  | 98 => ⟨S100000x1, .i32⟩
  | 99 => ⟨S100000x1, .i1⟩
  | 100 => ⟨S100000x1, .i1⟩
  | 101 => ⟨S_, .i1⟩
  | 102 => ⟨S100000, .i1⟩
  | 103 => ⟨S100000x64, .f32⟩
  | 104 => ⟨S100000x64, .i1⟩
  | 105 => ⟨S_, .f32⟩
  | 106 => ⟨S100000x64, .f32⟩
  | 107 => ⟨S100000x64, .f32⟩
  | 108 => ⟨S100000x64, .f32⟩
  | 109 => ⟨S1x100000, .i32⟩
  | 110 => ⟨S100000, .i32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S1, .i32⟩
  | 120 => ⟨S_, .i32⟩
  | 121 => ⟨S100000x1, .i32⟩
  | 122 => ⟨S100000x1, .i1⟩
  | 123 => ⟨S1x1, .i32⟩
  | 124 => ⟨S100000x1, .i32⟩
  | 125 => ⟨S100000x1, .i1⟩
  | 126 => ⟨S100000x1, .i1⟩
  | 127 => ⟨S_, .i1⟩
  | _ => ⟨S100000x64, .f32⟩

abbrev hbmTy0_9 (i : Nat) : BufTy := match i % 128 with
  | 0 => ⟨S100000, .i1⟩
  | 1 => ⟨S100000x64, .f32⟩
  | 2 => ⟨S100000x64, .i1⟩
  | 3 => ⟨S_, .f32⟩
  | 4 => ⟨S100000x64, .f32⟩
  | 5 => ⟨S100000x64, .f32⟩
  | 6 => ⟨S100000x64, .f32⟩
  | 7 => ⟨S1x100000, .i32⟩
  | 8 => ⟨S100000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S1, .i32⟩
  | 18 => ⟨S_, .i32⟩
  | 19 => ⟨S100000x1, .i32⟩
  | 20 => ⟨S100000x1, .i1⟩
  | 21 => ⟨S1x1, .i32⟩
  | 22 => ⟨S100000x1, .i32⟩
  | 23 => ⟨S100000x1, .i1⟩
  | 24 => ⟨S100000x1, .i1⟩
  | 25 => ⟨S_, .i1⟩
  | 26 => ⟨S100000, .i1⟩
  | 27 => ⟨S100000x64, .f32⟩
  | 28 => ⟨S100000x64, .i1⟩
  | 29 => ⟨S_, .f32⟩
  | 30 => ⟨S100000x64, .f32⟩
  | 31 => ⟨S100000x64, .f32⟩
  | 32 => ⟨S100000x64, .f32⟩
  | 33 => ⟨S1x100000, .i32⟩
  | 34 => ⟨S100000, .i32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S1, .i32⟩
  | 44 => ⟨S_, .i32⟩
  | 45 => ⟨S100000x1, .i32⟩
  | 46 => ⟨S100000x1, .i1⟩
  | 47 => ⟨S1x1, .i32⟩
  | 48 => ⟨S100000x1, .i32⟩
  | 49 => ⟨S100000x1, .i1⟩
  | 50 => ⟨S100000x1, .i1⟩
  | 51 => ⟨S_, .i1⟩
  | 52 => ⟨S100000, .i1⟩
  | 53 => ⟨S100000x64, .f32⟩
  | 54 => ⟨S100000x64, .i1⟩
  | 55 => ⟨S_, .f32⟩
  | 56 => ⟨S100000x64, .f32⟩
  | 57 => ⟨S100000x64, .f32⟩
  | 58 => ⟨S100000x64, .f32⟩
  | 59 => ⟨S1x100000, .i32⟩
  | 60 => ⟨S100000, .i32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S1, .i32⟩
  | 70 => ⟨S_, .i32⟩
  | 71 => ⟨S100000x1, .i32⟩
  | 72 => ⟨S100000x1, .i1⟩
  | 73 => ⟨S1x1, .i32⟩
  | 74 => ⟨S100000x1, .i32⟩
  | 75 => ⟨S100000x1, .i1⟩
  | 76 => ⟨S100000x1, .i1⟩
  | 77 => ⟨S_, .i1⟩
  | 78 => ⟨S100000, .i1⟩
  | 79 => ⟨S100000x64, .f32⟩
  | 80 => ⟨S100000x64, .i1⟩
  | 81 => ⟨S_, .f32⟩
  | 82 => ⟨S100000x64, .f32⟩
  | 83 => ⟨S100000x64, .f32⟩
  | 84 => ⟨S100000x64, .f32⟩
  | 85 => ⟨S1x100000, .i32⟩
  | 86 => ⟨S100000, .i32⟩
  | 87 => ⟨S_, .i32⟩
  | 88 => ⟨S100000, .i32⟩
  | 89 => ⟨S100000, .i1⟩
  | 90 => ⟨S_, .i32⟩
  | 91 => ⟨S100000, .i32⟩
  | 92 => ⟨S100000, .i32⟩
  | 93 => ⟨S100000, .i32⟩
  | 94 => ⟨S100000x1, .i32⟩
  | 95 => ⟨S1, .i32⟩
  | 96 => ⟨S_, .i32⟩
  | 97 => ⟨S100000x1, .i32⟩
  | 98 => ⟨S100000x1, .i1⟩
  | 99 => ⟨S1x1, .i32⟩
  | 100 => ⟨S100000x1, .i32⟩
  | 101 => ⟨S100000x1, .i1⟩
  | 102 => ⟨S100000x1, .i1⟩
  | 103 => ⟨S_, .i1⟩
  | 104 => ⟨S100000, .i1⟩
  | 105 => ⟨S100000x64, .f32⟩
  | 106 => ⟨S100000x64, .i1⟩
  | 107 => ⟨S_, .f32⟩
  | 108 => ⟨S100000x64, .f32⟩
  | 109 => ⟨S100000x64, .f32⟩
  | 110 => ⟨S100000x64, .f32⟩
  | 111 => ⟨S1x100000, .i32⟩
  | 112 => ⟨S100000, .i32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S1, .i32⟩
  | 122 => ⟨S_, .i32⟩
  | 123 => ⟨S100000x1, .i32⟩
  | 124 => ⟨S100000x1, .i1⟩
  | 125 => ⟨S1x1, .i32⟩
  | 126 => ⟨S100000x1, .i32⟩
  | 127 => ⟨S100000x1, .i1⟩
  | _ => ⟨S100000x64, .f32⟩

abbrev hbmTy0_10 (i : Nat) : BufTy := match i % 128 with
  | 0 => ⟨S100000x1, .i1⟩
  | 1 => ⟨S_, .i1⟩
  | 2 => ⟨S100000, .i1⟩
  | 3 => ⟨S100000x64, .f32⟩
  | 4 => ⟨S100000x64, .i1⟩
  | 5 => ⟨S_, .f32⟩
  | 6 => ⟨S100000x64, .f32⟩
  | 7 => ⟨S100000x64, .f32⟩
  | 8 => ⟨S100000x64, .f32⟩
  | 9 => ⟨S1x100000, .i32⟩
  | 10 => ⟨S100000, .i32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S1, .i32⟩
  | 20 => ⟨S_, .i32⟩
  | 21 => ⟨S100000x1, .i32⟩
  | 22 => ⟨S100000x1, .i1⟩
  | 23 => ⟨S1x1, .i32⟩
  | 24 => ⟨S100000x1, .i32⟩
  | 25 => ⟨S100000x1, .i1⟩
  | 26 => ⟨S100000x1, .i1⟩
  | 27 => ⟨S_, .i1⟩
  | 28 => ⟨S100000, .i1⟩
  | 29 => ⟨S100000x64, .f32⟩
  | 30 => ⟨S100000x64, .i1⟩
  | 31 => ⟨S_, .f32⟩
  | 32 => ⟨S100000x64, .f32⟩
  | 33 => ⟨S100000x64, .f32⟩
  | 34 => ⟨S100000x64, .f32⟩
  | 35 => ⟨S1x100000, .i32⟩
  | 36 => ⟨S100000, .i32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S1, .i32⟩
  | 46 => ⟨S_, .i32⟩
  | 47 => ⟨S100000x1, .i32⟩
  | 48 => ⟨S100000x1, .i1⟩
  | 49 => ⟨S1x1, .i32⟩
  | 50 => ⟨S100000x1, .i32⟩
  | 51 => ⟨S100000x1, .i1⟩
  | 52 => ⟨S100000x1, .i1⟩
  | 53 => ⟨S_, .i1⟩
  | 54 => ⟨S100000, .i1⟩
  | 55 => ⟨S100000x64, .f32⟩
  | 56 => ⟨S100000x64, .i1⟩
  | 57 => ⟨S_, .f32⟩
  | 58 => ⟨S100000x64, .f32⟩
  | 59 => ⟨S100000x64, .f32⟩
  | 60 => ⟨S100000x64, .f32⟩
  | 61 => ⟨S1x100000, .i32⟩
  | 62 => ⟨S100000, .i32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S1, .i32⟩
  | 72 => ⟨S_, .i32⟩
  | 73 => ⟨S100000x1, .i32⟩
  | 74 => ⟨S100000x1, .i1⟩
  | 75 => ⟨S1x1, .i32⟩
  | 76 => ⟨S100000x1, .i32⟩
  | 77 => ⟨S100000x1, .i1⟩
  | 78 => ⟨S100000x1, .i1⟩
  | 79 => ⟨S_, .i1⟩
  | 80 => ⟨S100000, .i1⟩
  | 81 => ⟨S100000x64, .f32⟩
  | 82 => ⟨S100000x64, .i1⟩
  | 83 => ⟨S_, .f32⟩
  | 84 => ⟨S100000x64, .f32⟩
  | 85 => ⟨S100000x64, .f32⟩
  | 86 => ⟨S100000x64, .f32⟩
  | 87 => ⟨S1x100000, .i32⟩
  | 88 => ⟨S100000, .i32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S1, .i32⟩
  | 98 => ⟨S_, .i32⟩
  | 99 => ⟨S100000x1, .i32⟩
  | 100 => ⟨S100000x1, .i1⟩
  | 101 => ⟨S1x1, .i32⟩
  | 102 => ⟨S100000x1, .i32⟩
  | 103 => ⟨S100000x1, .i1⟩
  | 104 => ⟨S100000x1, .i1⟩
  | 105 => ⟨S_, .i1⟩
  | 106 => ⟨S100000, .i1⟩
  | 107 => ⟨S100000x64, .f32⟩
  | 108 => ⟨S100000x64, .i1⟩
  | 109 => ⟨S_, .f32⟩
  | 110 => ⟨S100000x64, .f32⟩
  | 111 => ⟨S100000x64, .f32⟩
  | 112 => ⟨S100000x64, .f32⟩
  | 113 => ⟨S1x100000, .i32⟩
  | 114 => ⟨S100000, .i32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S1, .i32⟩
  | 124 => ⟨S_, .i32⟩
  | 125 => ⟨S100000x1, .i32⟩
  | 126 => ⟨S100000x1, .i1⟩
  | 127 => ⟨S1x1, .i32⟩
  | _ => ⟨S100000x64, .f32⟩

abbrev hbmTy0_11 (i : Nat) : BufTy := match i % 128 with
  | 0 => ⟨S100000x1, .i32⟩
  | 1 => ⟨S100000x1, .i1⟩
  | 2 => ⟨S100000x1, .i1⟩
  | 3 => ⟨S_, .i1⟩
  | 4 => ⟨S100000, .i1⟩
  | 5 => ⟨S100000x64, .f32⟩
  | 6 => ⟨S100000x64, .i1⟩
  | 7 => ⟨S_, .f32⟩
  | 8 => ⟨S100000x64, .f32⟩
  | 9 => ⟨S100000x64, .f32⟩
  | 10 => ⟨S100000x64, .f32⟩
  | 11 => ⟨S1x100000, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S1, .i32⟩
  | 22 => ⟨S_, .i32⟩
  | 23 => ⟨S100000x1, .i32⟩
  | 24 => ⟨S100000x1, .i1⟩
  | 25 => ⟨S1x1, .i32⟩
  | 26 => ⟨S100000x1, .i32⟩
  | 27 => ⟨S100000x1, .i1⟩
  | 28 => ⟨S100000x1, .i1⟩
  | 29 => ⟨S_, .i1⟩
  | 30 => ⟨S100000, .i1⟩
  | 31 => ⟨S100000x64, .f32⟩
  | 32 => ⟨S100000x64, .i1⟩
  | 33 => ⟨S_, .f32⟩
  | 34 => ⟨S100000x64, .f32⟩
  | 35 => ⟨S100000x64, .f32⟩
  | 36 => ⟨S100000x64, .f32⟩
  | 37 => ⟨S1x100000, .i32⟩
  | 38 => ⟨S100000, .i32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S1, .i32⟩
  | 48 => ⟨S_, .i32⟩
  | 49 => ⟨S100000x1, .i32⟩
  | 50 => ⟨S100000x1, .i1⟩
  | 51 => ⟨S1x1, .i32⟩
  | 52 => ⟨S100000x1, .i32⟩
  | 53 => ⟨S100000x1, .i1⟩
  | 54 => ⟨S100000x1, .i1⟩
  | 55 => ⟨S_, .i1⟩
  | 56 => ⟨S100000, .i1⟩
  | 57 => ⟨S100000x64, .f32⟩
  | 58 => ⟨S100000x64, .i1⟩
  | 59 => ⟨S_, .f32⟩
  | 60 => ⟨S100000x64, .f32⟩
  | 61 => ⟨S100000x64, .f32⟩
  | 62 => ⟨S1600000x64, .f32⟩
  | 63 => ⟨S1100000x64, .f32⟩
  | 64 => ⟨S2700000x64, .f32⟩
  | 65 => ⟨S2700000, .i32⟩
  | 66 => ⟨S_, .f32⟩
  | 67 => ⟨S100000x64, .f32⟩
  | 68 => ⟨S_, .i32⟩
  | 69 => ⟨S2700000, .i32⟩
  | 70 => ⟨S2700000, .i1⟩
  | 71 => ⟨S_, .i32⟩
  | 72 => ⟨S2700000, .i32⟩
  | 73 => ⟨S2700000, .i32⟩
  | 74 => ⟨S2700000, .i32⟩
  | 75 => ⟨S2700000x1, .i32⟩
  | 76 => ⟨S100000x64, .f32⟩
  | 77 => ⟨S100000x1, .i32⟩
  | 78 => ⟨S1x8, .i32⟩
  | 79 => ⟨S100000x8, .i32⟩
  | 80 => ⟨S100000x8, .i32⟩
  | 81 => ⟨S100000x8, .i1⟩
  | 82 => ⟨S100000x8, .bf16⟩
  | 83 => ⟨S_, .f32⟩
  | 84 => ⟨S100000, .f32⟩
  | 85 => ⟨S_, .f32⟩
  | 86 => ⟨S8, .f32⟩
  | 87 => ⟨S100000x1, .i32⟩
  | 88 => ⟨S8, .f32⟩
  | 89 => ⟨S_, .f32⟩
  | 90 => ⟨S8, .f32⟩
  | 91 => ⟨S8, .f32⟩
  | 92 => ⟨S8x64, .f32⟩
  | 93 => ⟨S8x64, .f32⟩
  | 94 => ⟨S8x1, .f32⟩
  | 95 => ⟨S8x64, .f32⟩
  | 96 => ⟨S8x64, .f32⟩
  | 97 => ⟨S8x1, .f32⟩
  | 98 => ⟨S8x64, .f32⟩
  | 99 => ⟨S8x64, .f32⟩
  | 100 => ⟨S8x64, .f32⟩
  | 101 => ⟨S8x64, .f32⟩
  | 102 => ⟨S_, .f32⟩
  | 103 => ⟨S8x64, .f32⟩
  | 104 => ⟨S8x64, .f32⟩
  | 105 => ⟨S1x64, .f32⟩
  | 106 => ⟨S1x64, .f32⟩
  | 107 => ⟨S100000x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S100000x64, .f32⟩

abbrev bufTy : (tb : Table) → Fin (tcTables nBuf tb) → BufTy
  | .hbm, ⟨i, _⟩ => hbmTy i
  | .local _ .vmem, ⟨0, _⟩ => ⟨S1000x64, .bf16⟩
  | .local _ .vmem, ⟨1, _⟩ => ⟨S1000x64, .bf16⟩
  | .local _ .vmem, ⟨2, _⟩ => ⟨S64x1728, .bf16⟩
  | .local _ .vmem, ⟨3, _⟩ => ⟨S1000x1728, .f32⟩
  | .local _ .vmem, ⟨4, _⟩ => ⟨S1000x1728, .f32⟩
  | .local _ .vmem, ⟨5, _⟩ => ⟨S5000x64, .f32⟩
  | .local _ .vmem, ⟨6, _⟩ => ⟨S5000x64, .f32⟩
  | .local _ .vmem, ⟨7, _⟩ => ⟨S5000x8, .bf16⟩
  | .local _ .vmem, ⟨8, _⟩ => ⟨S5000x8, .bf16⟩
  | .local _ .vmem, ⟨9, _⟩ => ⟨S8x64, .f32⟩
  | .local _ .vmem, ⟨10, _⟩ => ⟨S8x64, .f32⟩
  | .local _ .vmem, ⟨11, _⟩ => ⟨S5000x64, .f32⟩
  | .local _ .vmem, ⟨12, _⟩ => ⟨S5000x64, .f32⟩
  | .local _ .vmem, ⟨13, _⟩ => ⟨S5000x8, .bf16⟩
  | .local _ .vmem, ⟨14, _⟩ => ⟨S5000x8, .bf16⟩
  | .local _ .vmem, ⟨15, _⟩ => ⟨S8x64, .f32⟩
  | .local _ .vmem, ⟨16, _⟩ => ⟨S8x64, .f32⟩
  | .local _ .vmem, ⟨17, _⟩ => ⟨S1x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S1000x64, .bf16⟩
  | .local _ .vmem, ⟨22, _⟩ => ⟨S1000x64, .bf16⟩
  | .local _ .vmem, ⟨23, _⟩ => ⟨S64x1728, .bf16⟩
  | .local _ .vmem, ⟨24, _⟩ => ⟨S1000x1728, .f32⟩
  | .local _ .vmem, ⟨25, _⟩ => ⟨S1000x1728, .f32⟩
  | .local _ .vmem, ⟨26, _⟩ => ⟨S5000x64, .f32⟩
  | .local _ .vmem, ⟨27, _⟩ => ⟨S5000x64, .f32⟩
  | .local _ .vmem, ⟨28, _⟩ => ⟨S5000x8, .bf16⟩
  | .local _ .vmem, ⟨29, _⟩ => ⟨S5000x8, .bf16⟩
  | .local _ .vmem, ⟨30, _⟩ => ⟨S8x64, .f32⟩
  | .local _ .vmem, ⟨31, _⟩ => ⟨S8x64, .f32⟩
  | .local _ .vmem, ⟨32, _⟩ => ⟨S5000x64, .f32⟩
  | .local _ .vmem, ⟨33, _⟩ => ⟨S5000x64, .f32⟩
  | .local _ .vmem, ⟨34, _⟩ => ⟨S5000x8, .bf16⟩
  | .local _ .vmem, ⟨35, _⟩ => ⟨S5000x8, .bf16⟩
  | .local _ .vmem, ⟨36, _⟩ => ⟨S8x64, .f32⟩
  | .local _ .vmem, ⟨37, _⟩ => ⟨S8x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v20 : Ref sig .tc := ⟨.hbm, 118, rfl⟩
abbrev main_v21 : Ref sig .tc := ⟨.hbm, 119, rfl⟩
abbrev main_v22 : Ref sig .tc := ⟨.hbm, 120, rfl⟩
abbrev main_v23 : Ref sig .tc := ⟨.hbm, 121, rfl⟩
abbrev main_call4_c : Ref sig .tc := ⟨.hbm, 122, rfl⟩
abbrev main_call4_v0 : Ref sig .tc := ⟨.hbm, 123, rfl⟩
abbrev main_call4_v1 : Ref sig .tc := ⟨.hbm, 124, rfl⟩
abbrev main_call4_c_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_c_1 : Ref sig .tc := ⟨.hbm, 130, rfl⟩
abbrev main_call4_c_2 : Ref sig .tc := ⟨.hbm, 131, rfl⟩
abbrev main_call4_v6 : Ref sig .tc := ⟨.hbm, 132, rfl⟩
abbrev main_call4_v7 : Ref sig .tc := ⟨.hbm, 133, rfl⟩
abbrev main_call4_v8 : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_c_3 : Ref sig .tc := ⟨.hbm, 138, rfl⟩
abbrev main_call4_v12 : Ref sig .tc := ⟨.hbm, 139, rfl⟩
abbrev main_call4_v13 : Ref sig .tc := ⟨.hbm, 140, rfl⟩
abbrev main_call4_v14 : Ref sig .tc := ⟨.hbm, 141, rfl⟩
abbrev main_call4_cst : Ref sig .tc := ⟨.hbm, 142, rfl⟩
abbrev main_call4_v15 : Ref sig .tc := ⟨.hbm, 143, rfl⟩
abbrev main_v24 : Ref sig .tc := ⟨.hbm, 144, rfl⟩
abbrev main_v25 : Ref sig .tc := ⟨.hbm, 145, rfl⟩
abbrev main_v26 : Ref sig .tc := ⟨.hbm, 146, rfl⟩
abbrev main_v27 : Ref sig .tc := ⟨.hbm, 147, rfl⟩
abbrev main_call5_c : Ref sig .tc := ⟨.hbm, 148, rfl⟩
abbrev main_call5_v0 : Ref sig .tc := ⟨.hbm, 149, rfl⟩
abbrev main_call5_v1 : Ref sig .tc := ⟨.hbm, 150, rfl⟩
abbrev main_call5_c_0 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_v5 : Ref sig .tc := ⟨.hbm, 155, rfl⟩
abbrev main_call5_c_1 : Ref sig .tc := ⟨.hbm, 156, rfl⟩
abbrev main_call5_c_2 : Ref sig .tc := ⟨.hbm, 157, rfl⟩
abbrev main_call5_v6 : Ref sig .tc := ⟨.hbm, 158, rfl⟩
abbrev main_call5_v7 : Ref sig .tc := ⟨.hbm, 159, rfl⟩
abbrev main_call5_v8 : Ref sig .tc := ⟨.hbm, 160, rfl⟩
abbrev main_call5_v9 : Ref sig .tc := ⟨.hbm, 161, rfl⟩
abbrev main_call5_v10 : Ref sig .tc := ⟨.hbm, 162, rfl⟩
abbrev main_call5_v11 : Ref sig .tc := ⟨.hbm, 163, rfl⟩
abbrev main_call5_c_3 : Ref sig .tc := ⟨.hbm, 164, rfl⟩
abbrev main_call5_v12 : Ref sig .tc := ⟨.hbm, 165, rfl⟩
abbrev main_call5_v13 : Ref sig .tc := ⟨.hbm, 166, rfl⟩
abbrev main_call5_v14 : Ref sig .tc := ⟨.hbm, 167, rfl⟩
abbrev main_call5_cst : Ref sig .tc := ⟨.hbm, 168, rfl⟩
abbrev main_call5_v15 : Ref sig .tc := ⟨.hbm, 169, rfl⟩
abbrev main_v28 : Ref sig .tc := ⟨.hbm, 170, rfl⟩
abbrev main_v29 : Ref sig .tc := ⟨.hbm, 171, rfl⟩
abbrev main_v30 : Ref sig .tc := ⟨.hbm, 172, rfl⟩
abbrev main_v31 : Ref sig .tc := ⟨.hbm, 173, rfl⟩
abbrev main_call6_c : Ref sig .tc := ⟨.hbm, 174, rfl⟩
abbrev main_call6_v0 : Ref sig .tc := ⟨.hbm, 175, rfl⟩
abbrev main_call6_v1 : Ref sig .tc := ⟨.hbm, 176, rfl⟩
abbrev main_call6_c_0 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_call6_v5 : Ref sig .tc := ⟨.hbm, 181, rfl⟩
abbrev main_call6_c_1 : Ref sig .tc := ⟨.hbm, 182, rfl⟩
abbrev main_call6_c_2 : Ref sig .tc := ⟨.hbm, 183, rfl⟩
abbrev main_call6_v6 : Ref sig .tc := ⟨.hbm, 184, rfl⟩
abbrev main_call6_v7 : Ref sig .tc := ⟨.hbm, 185, rfl⟩
abbrev main_call6_v8 : Ref sig .tc := ⟨.hbm, 186, rfl⟩
abbrev main_call6_v9 : Ref sig .tc := ⟨.hbm, 187, rfl⟩
abbrev main_call6_v10 : Ref sig .tc := ⟨.hbm, 188, rfl⟩
abbrev main_call6_v11 : Ref sig .tc := ⟨.hbm, 189, rfl⟩
abbrev main_call6_c_3 : Ref sig .tc := ⟨.hbm, 190, rfl⟩
abbrev main_call6_v12 : Ref sig .tc := ⟨.hbm, 191, rfl⟩
abbrev main_call6_v13 : Ref sig .tc := ⟨.hbm, 192, rfl⟩
abbrev main_call6_v14 : Ref sig .tc := ⟨.hbm, 193, rfl⟩
abbrev main_call6_cst : Ref sig .tc := ⟨.hbm, 194, rfl⟩
abbrev main_call6_v15 : Ref sig .tc := ⟨.hbm, 195, rfl⟩
abbrev main_v32 : Ref sig .tc := ⟨.hbm, 196, rfl⟩
abbrev main_v33 : Ref sig .tc := ⟨.hbm, 197, rfl⟩
abbrev main_v34 : Ref sig .tc := ⟨.hbm, 198, rfl⟩
abbrev main_v35 : Ref sig .tc := ⟨.hbm, 199, rfl⟩
abbrev main_call7_c : Ref sig .tc := ⟨.hbm, 200, rfl⟩
abbrev main_call7_v0 : Ref sig .tc := ⟨.hbm, 201, rfl⟩
abbrev main_call7_v1 : Ref sig .tc := ⟨.hbm, 202, rfl⟩
abbrev main_call7_c_0 : Ref sig .tc := ⟨.hbm, 203, rfl⟩
abbrev main_call7_v2 : Ref sig .tc := ⟨.hbm, 204, rfl⟩
abbrev main_call7_v3 : Ref sig .tc := ⟨.hbm, 205, rfl⟩
abbrev main_call7_v4 : Ref sig .tc := ⟨.hbm, 206, rfl⟩
abbrev main_call7_v5 : Ref sig .tc := ⟨.hbm, 207, rfl⟩
abbrev main_call7_c_1 : Ref sig .tc := ⟨.hbm, 208, rfl⟩
abbrev main_call7_c_2 : Ref sig .tc := ⟨.hbm, 209, rfl⟩
abbrev main_call7_v6 : Ref sig .tc := ⟨.hbm, 210, rfl⟩
abbrev main_call7_v7 : Ref sig .tc := ⟨.hbm, 211, rfl⟩
abbrev main_call7_v8 : Ref sig .tc := ⟨.hbm, 212, rfl⟩
abbrev main_call7_v9 : Ref sig .tc := ⟨.hbm, 213, rfl⟩
abbrev main_call7_v10 : Ref sig .tc := ⟨.hbm, 214, rfl⟩
abbrev main_call7_v11 : Ref sig .tc := ⟨.hbm, 215, rfl⟩
abbrev main_call7_c_3 : Ref sig .tc := ⟨.hbm, 216, rfl⟩
abbrev main_call7_v12 : Ref sig .tc := ⟨.hbm, 217, rfl⟩
abbrev main_call7_v13 : Ref sig .tc := ⟨.hbm, 218, rfl⟩
abbrev main_call7_v14 : Ref sig .tc := ⟨.hbm, 219, rfl⟩
abbrev main_call7_cst : Ref sig .tc := ⟨.hbm, 220, rfl⟩
abbrev main_call7_v15 : Ref sig .tc := ⟨.hbm, 221, rfl⟩
abbrev main_v36 : Ref sig .tc := ⟨.hbm, 222, rfl⟩
abbrev main_v37 : Ref sig .tc := ⟨.hbm, 223, rfl⟩
abbrev main_v38 : Ref sig .tc := ⟨.hbm, 224, rfl⟩
abbrev main_v39 : Ref sig .tc := ⟨.hbm, 225, rfl⟩
abbrev main_call8_c : Ref sig .tc := ⟨.hbm, 226, rfl⟩
abbrev main_call8_v0 : Ref sig .tc := ⟨.hbm, 227, rfl⟩
abbrev main_call8_v1 : Ref sig .tc := ⟨.hbm, 228, rfl⟩
abbrev main_call8_c_0 : Ref sig .tc := ⟨.hbm, 229, rfl⟩
abbrev main_call8_v2 : Ref sig .tc := ⟨.hbm, 230, rfl⟩
abbrev main_call8_v3 : Ref sig .tc := ⟨.hbm, 231, rfl⟩
abbrev main_call8_v4 : Ref sig .tc := ⟨.hbm, 232, rfl⟩
abbrev main_call8_v5 : Ref sig .tc := ⟨.hbm, 233, rfl⟩
abbrev main_call8_c_1 : Ref sig .tc := ⟨.hbm, 234, rfl⟩
abbrev main_call8_c_2 : Ref sig .tc := ⟨.hbm, 235, rfl⟩
abbrev main_call8_v6 : Ref sig .tc := ⟨.hbm, 236, rfl⟩
abbrev main_call8_v7 : Ref sig .tc := ⟨.hbm, 237, rfl⟩
abbrev main_call8_v8 : Ref sig .tc := ⟨.hbm, 238, rfl⟩
abbrev main_call8_v9 : Ref sig .tc := ⟨.hbm, 239, rfl⟩
abbrev main_call8_v10 : Ref sig .tc := ⟨.hbm, 240, rfl⟩
abbrev main_call8_v11 : Ref sig .tc := ⟨.hbm, 241, rfl⟩
abbrev main_call8_c_3 : Ref sig .tc := ⟨.hbm, 242, rfl⟩
abbrev main_call8_v12 : Ref sig .tc := ⟨.hbm, 243, rfl⟩
abbrev main_call8_v13 : Ref sig .tc := ⟨.hbm, 244, rfl⟩
abbrev main_call8_v14 : Ref sig .tc := ⟨.hbm, 245, rfl⟩
abbrev main_call8_cst : Ref sig .tc := ⟨.hbm, 246, rfl⟩
abbrev main_call8_v15 : Ref sig .tc := ⟨.hbm, 247, rfl⟩
abbrev main_v40 : Ref sig .tc := ⟨.hbm, 248, rfl⟩
abbrev main_v41 : Ref sig .tc := ⟨.hbm, 249, rfl⟩
abbrev main_v42 : Ref sig .tc := ⟨.hbm, 250, rfl⟩
abbrev main_v43 : Ref sig .tc := ⟨.hbm, 251, rfl⟩
abbrev main_call9_c : Ref sig .tc := ⟨.hbm, 252, rfl⟩
abbrev main_call9_v0 : Ref sig .tc := ⟨.hbm, 253, rfl⟩
abbrev main_call9_v1 : Ref sig .tc := ⟨.hbm, 254, rfl⟩
abbrev main_call9_c_0 : Ref sig .tc := ⟨.hbm, 255, rfl⟩
abbrev main_call9_v2 : Ref sig .tc := ⟨.hbm, 256, rfl⟩
abbrev main_call9_v3 : Ref sig .tc := ⟨.hbm, 257, rfl⟩
abbrev main_call9_v4 : Ref sig .tc := ⟨.hbm, 258, rfl⟩
abbrev main_call9_v5 : Ref sig .tc := ⟨.hbm, 259, rfl⟩
abbrev main_call9_c_1 : Ref sig .tc := ⟨.hbm, 260, rfl⟩
abbrev main_call9_c_2 : Ref sig .tc := ⟨.hbm, 261, rfl⟩
abbrev main_call9_v6 : Ref sig .tc := ⟨.hbm, 262, rfl⟩
abbrev main_call9_v7 : Ref sig .tc := ⟨.hbm, 263, rfl⟩
abbrev main_call9_v8 : Ref sig .tc := ⟨.hbm, 264, rfl⟩
abbrev main_call9_v9 : Ref sig .tc := ⟨.hbm, 265, rfl⟩
abbrev main_call9_v10 : Ref sig .tc := ⟨.hbm, 266, rfl⟩
abbrev main_call9_v11 : Ref sig .tc := ⟨.hbm, 267, rfl⟩
abbrev main_call9_c_3 : Ref sig .tc := ⟨.hbm, 268, rfl⟩
abbrev main_call9_v12 : Ref sig .tc := ⟨.hbm, 269, rfl⟩
abbrev main_call9_v13 : Ref sig .tc := ⟨.hbm, 270, rfl⟩
abbrev main_call9_v14 : Ref sig .tc := ⟨.hbm, 271, rfl⟩
abbrev main_call9_cst : Ref sig .tc := ⟨.hbm, 272, rfl⟩
abbrev main_call9_v15 : Ref sig .tc := ⟨.hbm, 273, rfl⟩
abbrev main_v44 : Ref sig .tc := ⟨.hbm, 274, rfl⟩
abbrev main_v45 : Ref sig .tc := ⟨.hbm, 275, rfl⟩
abbrev main_v46 : Ref sig .tc := ⟨.hbm, 276, rfl⟩
abbrev main_v47 : Ref sig .tc := ⟨.hbm, 277, rfl⟩
abbrev main_call10_c : Ref sig .tc := ⟨.hbm, 278, rfl⟩
abbrev main_call10_v0 : Ref sig .tc := ⟨.hbm, 279, rfl⟩
abbrev main_call10_v1 : Ref sig .tc := ⟨.hbm, 280, rfl⟩
abbrev main_call10_c_0 : Ref sig .tc := ⟨.hbm, 281, rfl⟩
abbrev main_call10_v2 : Ref sig .tc := ⟨.hbm, 282, rfl⟩
abbrev main_call10_v3 : Ref sig .tc := ⟨.hbm, 283, rfl⟩
abbrev main_call10_v4 : Ref sig .tc := ⟨.hbm, 284, rfl⟩
abbrev main_call10_v5 : Ref sig .tc := ⟨.hbm, 285, rfl⟩
abbrev main_call10_c_1 : Ref sig .tc := ⟨.hbm, 286, rfl⟩
abbrev main_call10_c_2 : Ref sig .tc := ⟨.hbm, 287, rfl⟩
abbrev main_call10_v6 : Ref sig .tc := ⟨.hbm, 288, rfl⟩
abbrev main_call10_v7 : Ref sig .tc := ⟨.hbm, 289, rfl⟩
abbrev main_call10_v8 : Ref sig .tc := ⟨.hbm, 290, rfl⟩
abbrev main_call10_v9 : Ref sig .tc := ⟨.hbm, 291, rfl⟩
abbrev main_call10_v10 : Ref sig .tc := ⟨.hbm, 292, rfl⟩
abbrev main_call10_v11 : Ref sig .tc := ⟨.hbm, 293, rfl⟩
abbrev main_call10_c_3 : Ref sig .tc := ⟨.hbm, 294, rfl⟩
abbrev main_call10_v12 : Ref sig .tc := ⟨.hbm, 295, rfl⟩
abbrev main_call10_v13 : Ref sig .tc := ⟨.hbm, 296, rfl⟩
abbrev main_call10_v14 : Ref sig .tc := ⟨.hbm, 297, rfl⟩
abbrev main_call10_cst : Ref sig .tc := ⟨.hbm, 298, rfl⟩
abbrev main_call10_v15 : Ref sig .tc := ⟨.hbm, 299, rfl⟩
abbrev main_v48 : Ref sig .tc := ⟨.hbm, 300, rfl⟩
abbrev main_v49 : Ref sig .tc := ⟨.hbm, 301, rfl⟩
abbrev main_v50 : Ref sig .tc := ⟨.hbm, 302, rfl⟩
abbrev main_v51 : Ref sig .tc := ⟨.hbm, 303, rfl⟩
abbrev main_call11_c : Ref sig .tc := ⟨.hbm, 304, rfl⟩
abbrev main_call11_v0 : Ref sig .tc := ⟨.hbm, 305, rfl⟩
abbrev main_call11_v1 : Ref sig .tc := ⟨.hbm, 306, rfl⟩
abbrev main_call11_c_0 : Ref sig .tc := ⟨.hbm, 307, rfl⟩
abbrev main_call11_v2 : Ref sig .tc := ⟨.hbm, 308, rfl⟩
abbrev main_call11_v3 : Ref sig .tc := ⟨.hbm, 309, rfl⟩
abbrev main_call11_v4 : Ref sig .tc := ⟨.hbm, 310, rfl⟩
abbrev main_call11_v5 : Ref sig .tc := ⟨.hbm, 311, rfl⟩
abbrev main_call11_c_1 : Ref sig .tc := ⟨.hbm, 312, rfl⟩
abbrev main_call11_c_2 : Ref sig .tc := ⟨.hbm, 313, rfl⟩
abbrev main_call11_v6 : Ref sig .tc := ⟨.hbm, 314, rfl⟩
abbrev main_call11_v7 : Ref sig .tc := ⟨.hbm, 315, rfl⟩
abbrev main_call11_v8 : Ref sig .tc := ⟨.hbm, 316, rfl⟩
abbrev main_call11_v9 : Ref sig .tc := ⟨.hbm, 317, rfl⟩
abbrev main_call11_v10 : Ref sig .tc := ⟨.hbm, 318, rfl⟩
abbrev main_call11_v11 : Ref sig .tc := ⟨.hbm, 319, rfl⟩
abbrev main_call11_c_3 : Ref sig .tc := ⟨.hbm, 320, rfl⟩
abbrev main_call11_v12 : Ref sig .tc := ⟨.hbm, 321, rfl⟩
abbrev main_call11_v13 : Ref sig .tc := ⟨.hbm, 322, rfl⟩
abbrev main_call11_v14 : Ref sig .tc := ⟨.hbm, 323, rfl⟩
abbrev main_call11_cst : Ref sig .tc := ⟨.hbm, 324, rfl⟩
abbrev main_call11_v15 : Ref sig .tc := ⟨.hbm, 325, rfl⟩
abbrev main_v52 : Ref sig .tc := ⟨.hbm, 326, rfl⟩
abbrev main_v53 : Ref sig .tc := ⟨.hbm, 327, rfl⟩
abbrev main_v54 : Ref sig .tc := ⟨.hbm, 328, rfl⟩
abbrev main_v55 : Ref sig .tc := ⟨.hbm, 329, rfl⟩
abbrev main_call12_c : Ref sig .tc := ⟨.hbm, 330, rfl⟩
abbrev main_call12_v0 : Ref sig .tc := ⟨.hbm, 331, rfl⟩
abbrev main_call12_v1 : Ref sig .tc := ⟨.hbm, 332, rfl⟩
abbrev main_call12_c_0 : Ref sig .tc := ⟨.hbm, 333, rfl⟩
abbrev main_call12_v2 : Ref sig .tc := ⟨.hbm, 334, rfl⟩
abbrev main_call12_v3 : Ref sig .tc := ⟨.hbm, 335, rfl⟩
abbrev main_call12_v4 : Ref sig .tc := ⟨.hbm, 336, rfl⟩
abbrev main_call12_v5 : Ref sig .tc := ⟨.hbm, 337, rfl⟩
abbrev main_call12_c_1 : Ref sig .tc := ⟨.hbm, 338, rfl⟩
abbrev main_call12_c_2 : Ref sig .tc := ⟨.hbm, 339, rfl⟩
abbrev main_call12_v6 : Ref sig .tc := ⟨.hbm, 340, rfl⟩
abbrev main_call12_v7 : Ref sig .tc := ⟨.hbm, 341, rfl⟩
abbrev main_call12_v8 : Ref sig .tc := ⟨.hbm, 342, rfl⟩
abbrev main_call12_v9 : Ref sig .tc := ⟨.hbm, 343, rfl⟩
abbrev main_call12_v10 : Ref sig .tc := ⟨.hbm, 344, rfl⟩
abbrev main_call12_v11 : Ref sig .tc := ⟨.hbm, 345, rfl⟩
abbrev main_call12_c_3 : Ref sig .tc := ⟨.hbm, 346, rfl⟩
abbrev main_call12_v12 : Ref sig .tc := ⟨.hbm, 347, rfl⟩
abbrev main_call12_v13 : Ref sig .tc := ⟨.hbm, 348, rfl⟩
abbrev main_call12_v14 : Ref sig .tc := ⟨.hbm, 349, rfl⟩
abbrev main_call12_cst : Ref sig .tc := ⟨.hbm, 350, rfl⟩
abbrev main_call12_v15 : Ref sig .tc := ⟨.hbm, 351, rfl⟩
abbrev main_v56 : Ref sig .tc := ⟨.hbm, 352, rfl⟩
abbrev main_v57 : Ref sig .tc := ⟨.hbm, 353, rfl⟩
abbrev main_v58 : Ref sig .tc := ⟨.hbm, 354, rfl⟩
abbrev main_v59 : Ref sig .tc := ⟨.hbm, 355, rfl⟩
abbrev main_call13_c : Ref sig .tc := ⟨.hbm, 356, rfl⟩
abbrev main_call13_v0 : Ref sig .tc := ⟨.hbm, 357, rfl⟩
abbrev main_call13_v1 : Ref sig .tc := ⟨.hbm, 358, rfl⟩
abbrev main_call13_c_0 : Ref sig .tc := ⟨.hbm, 359, rfl⟩
abbrev main_call13_v2 : Ref sig .tc := ⟨.hbm, 360, rfl⟩
abbrev main_call13_v3 : Ref sig .tc := ⟨.hbm, 361, rfl⟩
abbrev main_call13_v4 : Ref sig .tc := ⟨.hbm, 362, rfl⟩
abbrev main_call13_v5 : Ref sig .tc := ⟨.hbm, 363, rfl⟩
abbrev main_call13_c_1 : Ref sig .tc := ⟨.hbm, 364, rfl⟩
abbrev main_call13_c_2 : Ref sig .tc := ⟨.hbm, 365, rfl⟩
abbrev main_call13_v6 : Ref sig .tc := ⟨.hbm, 366, rfl⟩
abbrev main_call13_v7 : Ref sig .tc := ⟨.hbm, 367, rfl⟩
abbrev main_call13_v8 : Ref sig .tc := ⟨.hbm, 368, rfl⟩
abbrev main_call13_v9 : Ref sig .tc := ⟨.hbm, 369, rfl⟩
abbrev main_call13_v10 : Ref sig .tc := ⟨.hbm, 370, rfl⟩
abbrev main_call13_v11 : Ref sig .tc := ⟨.hbm, 371, rfl⟩
abbrev main_call13_c_3 : Ref sig .tc := ⟨.hbm, 372, rfl⟩
abbrev main_call13_v12 : Ref sig .tc := ⟨.hbm, 373, rfl⟩
abbrev main_call13_v13 : Ref sig .tc := ⟨.hbm, 374, rfl⟩
abbrev main_call13_v14 : Ref sig .tc := ⟨.hbm, 375, rfl⟩
abbrev main_call13_cst : Ref sig .tc := ⟨.hbm, 376, rfl⟩
abbrev main_call13_v15 : Ref sig .tc := ⟨.hbm, 377, rfl⟩
abbrev main_v60 : Ref sig .tc := ⟨.hbm, 378, rfl⟩
abbrev main_v61 : Ref sig .tc := ⟨.hbm, 379, rfl⟩
abbrev main_v62 : Ref sig .tc := ⟨.hbm, 380, rfl⟩
abbrev main_v63 : Ref sig .tc := ⟨.hbm, 381, rfl⟩
abbrev main_call14_c : Ref sig .tc := ⟨.hbm, 382, rfl⟩
abbrev main_call14_v0 : Ref sig .tc := ⟨.hbm, 383, rfl⟩
abbrev main_call14_v1 : Ref sig .tc := ⟨.hbm, 384, rfl⟩
abbrev main_call14_c_0 : Ref sig .tc := ⟨.hbm, 385, rfl⟩
abbrev main_call14_v2 : Ref sig .tc := ⟨.hbm, 386, rfl⟩
abbrev main_call14_v3 : Ref sig .tc := ⟨.hbm, 387, rfl⟩
abbrev main_call14_v4 : Ref sig .tc := ⟨.hbm, 388, rfl⟩
abbrev main_call14_v5 : Ref sig .tc := ⟨.hbm, 389, rfl⟩
abbrev main_call14_c_1 : Ref sig .tc := ⟨.hbm, 390, rfl⟩
abbrev main_call14_c_2 : Ref sig .tc := ⟨.hbm, 391, rfl⟩
abbrev main_call14_v6 : Ref sig .tc := ⟨.hbm, 392, rfl⟩
abbrev main_call14_v7 : Ref sig .tc := ⟨.hbm, 393, rfl⟩
abbrev main_call14_v8 : Ref sig .tc := ⟨.hbm, 394, rfl⟩
abbrev main_call14_v9 : Ref sig .tc := ⟨.hbm, 395, rfl⟩
abbrev main_call14_v10 : Ref sig .tc := ⟨.hbm, 396, rfl⟩
abbrev main_call14_v11 : Ref sig .tc := ⟨.hbm, 397, rfl⟩
abbrev main_call14_c_3 : Ref sig .tc := ⟨.hbm, 398, rfl⟩
abbrev main_call14_v12 : Ref sig .tc := ⟨.hbm, 399, rfl⟩
abbrev main_call14_v13 : Ref sig .tc := ⟨.hbm, 400, rfl⟩
abbrev main_call14_v14 : Ref sig .tc := ⟨.hbm, 401, rfl⟩
abbrev main_call14_cst : Ref sig .tc := ⟨.hbm, 402, rfl⟩
abbrev main_call14_v15 : Ref sig .tc := ⟨.hbm, 403, rfl⟩
abbrev main_v64 : Ref sig .tc := ⟨.hbm, 404, rfl⟩
abbrev main_v65 : Ref sig .tc := ⟨.hbm, 405, rfl⟩
abbrev main_v66 : Ref sig .tc := ⟨.hbm, 406, rfl⟩
abbrev main_v67 : Ref sig .tc := ⟨.hbm, 407, rfl⟩
abbrev main_call15_c : Ref sig .tc := ⟨.hbm, 408, rfl⟩
abbrev main_call15_v0 : Ref sig .tc := ⟨.hbm, 409, rfl⟩
abbrev main_call15_v1 : Ref sig .tc := ⟨.hbm, 410, rfl⟩
abbrev main_call15_c_0 : Ref sig .tc := ⟨.hbm, 411, rfl⟩
abbrev main_call15_v2 : Ref sig .tc := ⟨.hbm, 412, rfl⟩
abbrev main_call15_v3 : Ref sig .tc := ⟨.hbm, 413, rfl⟩
abbrev main_call15_v4 : Ref sig .tc := ⟨.hbm, 414, rfl⟩
abbrev main_call15_v5 : Ref sig .tc := ⟨.hbm, 415, rfl⟩
abbrev main_call15_c_1 : Ref sig .tc := ⟨.hbm, 416, rfl⟩
abbrev main_call15_c_2 : Ref sig .tc := ⟨.hbm, 417, rfl⟩
abbrev main_call15_v6 : Ref sig .tc := ⟨.hbm, 418, rfl⟩
abbrev main_call15_v7 : Ref sig .tc := ⟨.hbm, 419, rfl⟩
abbrev main_call15_v8 : Ref sig .tc := ⟨.hbm, 420, rfl⟩
abbrev main_call15_v9 : Ref sig .tc := ⟨.hbm, 421, rfl⟩
abbrev main_call15_v10 : Ref sig .tc := ⟨.hbm, 422, rfl⟩
abbrev main_call15_v11 : Ref sig .tc := ⟨.hbm, 423, rfl⟩
abbrev main_call15_c_3 : Ref sig .tc := ⟨.hbm, 424, rfl⟩
abbrev main_call15_v12 : Ref sig .tc := ⟨.hbm, 425, rfl⟩
abbrev main_call15_v13 : Ref sig .tc := ⟨.hbm, 426, rfl⟩
abbrev main_call15_v14 : Ref sig .tc := ⟨.hbm, 427, rfl⟩
abbrev main_call15_cst : Ref sig .tc := ⟨.hbm, 428, rfl⟩
abbrev main_call15_v15 : Ref sig .tc := ⟨.hbm, 429, rfl⟩
abbrev main_v68 : Ref sig .tc := ⟨.hbm, 430, rfl⟩
abbrev main_v69 : Ref sig .tc := ⟨.hbm, 431, rfl⟩
abbrev main_v70 : Ref sig .tc := ⟨.hbm, 432, rfl⟩
abbrev main_v71 : Ref sig .tc := ⟨.hbm, 433, rfl⟩
abbrev main_call16_c : Ref sig .tc := ⟨.hbm, 434, rfl⟩
abbrev main_call16_v0 : Ref sig .tc := ⟨.hbm, 435, rfl⟩
abbrev main_call16_v1 : Ref sig .tc := ⟨.hbm, 436, rfl⟩
abbrev main_call16_c_0 : Ref sig .tc := ⟨.hbm, 437, rfl⟩
abbrev main_call16_v2 : Ref sig .tc := ⟨.hbm, 438, rfl⟩
abbrev main_call16_v3 : Ref sig .tc := ⟨.hbm, 439, rfl⟩
abbrev main_call16_v4 : Ref sig .tc := ⟨.hbm, 440, rfl⟩
abbrev main_call16_v5 : Ref sig .tc := ⟨.hbm, 441, rfl⟩
abbrev main_call16_c_1 : Ref sig .tc := ⟨.hbm, 442, rfl⟩
abbrev main_call16_c_2 : Ref sig .tc := ⟨.hbm, 443, rfl⟩
abbrev main_call16_v6 : Ref sig .tc := ⟨.hbm, 444, rfl⟩
abbrev main_call16_v7 : Ref sig .tc := ⟨.hbm, 445, rfl⟩
abbrev main_call16_v8 : Ref sig .tc := ⟨.hbm, 446, rfl⟩
abbrev main_call16_v9 : Ref sig .tc := ⟨.hbm, 447, rfl⟩
abbrev main_call16_v10 : Ref sig .tc := ⟨.hbm, 448, rfl⟩
abbrev main_call16_v11 : Ref sig .tc := ⟨.hbm, 449, rfl⟩
abbrev main_call16_c_3 : Ref sig .tc := ⟨.hbm, 450, rfl⟩
abbrev main_call16_v12 : Ref sig .tc := ⟨.hbm, 451, rfl⟩
abbrev main_call16_v13 : Ref sig .tc := ⟨.hbm, 452, rfl⟩
abbrev main_call16_v14 : Ref sig .tc := ⟨.hbm, 453, rfl⟩
abbrev main_call16_cst : Ref sig .tc := ⟨.hbm, 454, rfl⟩
abbrev main_call16_v15 : Ref sig .tc := ⟨.hbm, 455, rfl⟩
abbrev main_v72 : Ref sig .tc := ⟨.hbm, 456, rfl⟩
abbrev main_v73 : Ref sig .tc := ⟨.hbm, 457, rfl⟩
abbrev main_v74 : Ref sig .tc := ⟨.hbm, 458, rfl⟩
abbrev main_v75 : Ref sig .tc := ⟨.hbm, 459, rfl⟩
abbrev main_call17_c : Ref sig .tc := ⟨.hbm, 460, rfl⟩
abbrev main_call17_v0 : Ref sig .tc := ⟨.hbm, 461, rfl⟩
abbrev main_call17_v1 : Ref sig .tc := ⟨.hbm, 462, rfl⟩
abbrev main_call17_c_0 : Ref sig .tc := ⟨.hbm, 463, rfl⟩
abbrev main_call17_v2 : Ref sig .tc := ⟨.hbm, 464, rfl⟩
abbrev main_call17_v3 : Ref sig .tc := ⟨.hbm, 465, rfl⟩
abbrev main_call17_v4 : Ref sig .tc := ⟨.hbm, 466, rfl⟩
abbrev main_call17_v5 : Ref sig .tc := ⟨.hbm, 467, rfl⟩
abbrev main_call17_c_1 : Ref sig .tc := ⟨.hbm, 468, rfl⟩
abbrev main_call17_c_2 : Ref sig .tc := ⟨.hbm, 469, rfl⟩
abbrev main_call17_v6 : Ref sig .tc := ⟨.hbm, 470, rfl⟩
abbrev main_call17_v7 : Ref sig .tc := ⟨.hbm, 471, rfl⟩
abbrev main_call17_v8 : Ref sig .tc := ⟨.hbm, 472, rfl⟩
abbrev main_call17_v9 : Ref sig .tc := ⟨.hbm, 473, rfl⟩
abbrev main_call17_v10 : Ref sig .tc := ⟨.hbm, 474, rfl⟩
abbrev main_call17_v11 : Ref sig .tc := ⟨.hbm, 475, rfl⟩
abbrev main_call17_c_3 : Ref sig .tc := ⟨.hbm, 476, rfl⟩
abbrev main_call17_v12 : Ref sig .tc := ⟨.hbm, 477, rfl⟩
abbrev main_call17_v13 : Ref sig .tc := ⟨.hbm, 478, rfl⟩
abbrev main_call17_v14 : Ref sig .tc := ⟨.hbm, 479, rfl⟩
abbrev main_call17_cst : Ref sig .tc := ⟨.hbm, 480, rfl⟩
abbrev main_call17_v15 : Ref sig .tc := ⟨.hbm, 481, rfl⟩
abbrev main_v76 : Ref sig .tc := ⟨.hbm, 482, rfl⟩
abbrev main_v77 : Ref sig .tc := ⟨.hbm, 483, rfl⟩
abbrev main_v78 : Ref sig .tc := ⟨.hbm, 484, rfl⟩
abbrev main_v79 : Ref sig .tc := ⟨.hbm, 485, rfl⟩
abbrev main_call18_c : Ref sig .tc := ⟨.hbm, 486, rfl⟩
abbrev main_call18_v0 : Ref sig .tc := ⟨.hbm, 487, rfl⟩
abbrev main_call18_v1 : Ref sig .tc := ⟨.hbm, 488, rfl⟩
abbrev main_call18_c_0 : Ref sig .tc := ⟨.hbm, 489, rfl⟩
abbrev main_call18_v2 : Ref sig .tc := ⟨.hbm, 490, rfl⟩
abbrev main_call18_v3 : Ref sig .tc := ⟨.hbm, 491, rfl⟩
abbrev main_call18_v4 : Ref sig .tc := ⟨.hbm, 492, rfl⟩
abbrev main_call18_v5 : Ref sig .tc := ⟨.hbm, 493, rfl⟩
abbrev main_call18_c_1 : Ref sig .tc := ⟨.hbm, 494, rfl⟩
abbrev main_call18_c_2 : Ref sig .tc := ⟨.hbm, 495, rfl⟩
abbrev main_call18_v6 : Ref sig .tc := ⟨.hbm, 496, rfl⟩
abbrev main_call18_v7 : Ref sig .tc := ⟨.hbm, 497, rfl⟩
abbrev main_call18_v8 : Ref sig .tc := ⟨.hbm, 498, rfl⟩
abbrev main_call18_v9 : Ref sig .tc := ⟨.hbm, 499, rfl⟩
abbrev main_call18_v10 : Ref sig .tc := ⟨.hbm, 500, rfl⟩
abbrev main_call18_v11 : Ref sig .tc := ⟨.hbm, 501, rfl⟩
abbrev main_call18_c_3 : Ref sig .tc := ⟨.hbm, 502, rfl⟩
abbrev main_call18_v12 : Ref sig .tc := ⟨.hbm, 503, rfl⟩
abbrev main_call18_v13 : Ref sig .tc := ⟨.hbm, 504, rfl⟩
abbrev main_call18_v14 : Ref sig .tc := ⟨.hbm, 505, rfl⟩
abbrev main_call18_cst : Ref sig .tc := ⟨.hbm, 506, rfl⟩
abbrev main_call18_v15 : Ref sig .tc := ⟨.hbm, 507, rfl⟩
abbrev main_v80 : Ref sig .tc := ⟨.hbm, 508, rfl⟩
abbrev main_v81 : Ref sig .tc := ⟨.hbm, 509, rfl⟩
abbrev main_v82 : Ref sig .tc := ⟨.hbm, 510, rfl⟩
abbrev main_v83 : Ref sig .tc := ⟨.hbm, 511, rfl⟩
abbrev main_call19_c : Ref sig .tc := ⟨.hbm, 512, rfl⟩
abbrev main_call19_v0 : Ref sig .tc := ⟨.hbm, 513, rfl⟩
abbrev main_call19_v1 : Ref sig .tc := ⟨.hbm, 514, rfl⟩
abbrev main_call19_c_0 : Ref sig .tc := ⟨.hbm, 515, rfl⟩
abbrev main_call19_v2 : Ref sig .tc := ⟨.hbm, 516, rfl⟩
abbrev main_call19_v3 : Ref sig .tc := ⟨.hbm, 517, rfl⟩
abbrev main_call19_v4 : Ref sig .tc := ⟨.hbm, 518, rfl⟩
abbrev main_call19_v5 : Ref sig .tc := ⟨.hbm, 519, rfl⟩
abbrev main_call19_c_1 : Ref sig .tc := ⟨.hbm, 520, rfl⟩
abbrev main_call19_c_2 : Ref sig .tc := ⟨.hbm, 521, rfl⟩
abbrev main_call19_v6 : Ref sig .tc := ⟨.hbm, 522, rfl⟩
abbrev main_call19_v7 : Ref sig .tc := ⟨.hbm, 523, rfl⟩
abbrev main_call19_v8 : Ref sig .tc := ⟨.hbm, 524, rfl⟩
abbrev main_call19_v9 : Ref sig .tc := ⟨.hbm, 525, rfl⟩
abbrev main_call19_v10 : Ref sig .tc := ⟨.hbm, 526, rfl⟩
abbrev main_call19_v11 : Ref sig .tc := ⟨.hbm, 527, rfl⟩
abbrev main_call19_c_3 : Ref sig .tc := ⟨.hbm, 528, rfl⟩
abbrev main_call19_v12 : Ref sig .tc := ⟨.hbm, 529, rfl⟩
abbrev main_call19_v13 : Ref sig .tc := ⟨.hbm, 530, rfl⟩
abbrev main_call19_v14 : Ref sig .tc := ⟨.hbm, 531, rfl⟩
abbrev main_call19_cst : Ref sig .tc := ⟨.hbm, 532, rfl⟩
abbrev main_call19_v15 : Ref sig .tc := ⟨.hbm, 533, rfl⟩
abbrev main_v84 : Ref sig .tc := ⟨.hbm, 534, rfl⟩
abbrev main_v85 : Ref sig .tc := ⟨.hbm, 535, rfl⟩
abbrev main_v86 : Ref sig .tc := ⟨.hbm, 536, rfl⟩
abbrev main_v87 : Ref sig .tc := ⟨.hbm, 537, rfl⟩
abbrev main_call20_c : Ref sig .tc := ⟨.hbm, 538, rfl⟩
abbrev main_call20_v0 : Ref sig .tc := ⟨.hbm, 539, rfl⟩
abbrev main_call20_v1 : Ref sig .tc := ⟨.hbm, 540, rfl⟩
abbrev main_call20_c_0 : Ref sig .tc := ⟨.hbm, 541, rfl⟩
abbrev main_call20_v2 : Ref sig .tc := ⟨.hbm, 542, rfl⟩
abbrev main_call20_v3 : Ref sig .tc := ⟨.hbm, 543, rfl⟩
abbrev main_call20_v4 : Ref sig .tc := ⟨.hbm, 544, rfl⟩
abbrev main_call20_v5 : Ref sig .tc := ⟨.hbm, 545, rfl⟩
abbrev main_call20_c_1 : Ref sig .tc := ⟨.hbm, 546, rfl⟩
abbrev main_call20_c_2 : Ref sig .tc := ⟨.hbm, 547, rfl⟩
abbrev main_call20_v6 : Ref sig .tc := ⟨.hbm, 548, rfl⟩
abbrev main_call20_v7 : Ref sig .tc := ⟨.hbm, 549, rfl⟩
abbrev main_call20_v8 : Ref sig .tc := ⟨.hbm, 550, rfl⟩
abbrev main_call20_v9 : Ref sig .tc := ⟨.hbm, 551, rfl⟩
abbrev main_call20_v10 : Ref sig .tc := ⟨.hbm, 552, rfl⟩
abbrev main_call20_v11 : Ref sig .tc := ⟨.hbm, 553, rfl⟩
abbrev main_call20_c_3 : Ref sig .tc := ⟨.hbm, 554, rfl⟩
abbrev main_call20_v12 : Ref sig .tc := ⟨.hbm, 555, rfl⟩
abbrev main_call20_v13 : Ref sig .tc := ⟨.hbm, 556, rfl⟩
abbrev main_call20_v14 : Ref sig .tc := ⟨.hbm, 557, rfl⟩
abbrev main_call20_cst : Ref sig .tc := ⟨.hbm, 558, rfl⟩
abbrev main_call20_v15 : Ref sig .tc := ⟨.hbm, 559, rfl⟩
abbrev main_v88 : Ref sig .tc := ⟨.hbm, 560, rfl⟩
abbrev main_v89 : Ref sig .tc := ⟨.hbm, 561, rfl⟩
abbrev main_v90 : Ref sig .tc := ⟨.hbm, 562, rfl⟩
abbrev main_v91 : Ref sig .tc := ⟨.hbm, 563, rfl⟩
abbrev main_call21_c : Ref sig .tc := ⟨.hbm, 564, rfl⟩
abbrev main_call21_v0 : Ref sig .tc := ⟨.hbm, 565, rfl⟩
abbrev main_call21_v1 : Ref sig .tc := ⟨.hbm, 566, rfl⟩
abbrev main_call21_c_0 : Ref sig .tc := ⟨.hbm, 567, rfl⟩
abbrev main_call21_v2 : Ref sig .tc := ⟨.hbm, 568, rfl⟩
abbrev main_call21_v3 : Ref sig .tc := ⟨.hbm, 569, rfl⟩
abbrev main_call21_v4 : Ref sig .tc := ⟨.hbm, 570, rfl⟩
abbrev main_call21_v5 : Ref sig .tc := ⟨.hbm, 571, rfl⟩
abbrev main_call21_c_1 : Ref sig .tc := ⟨.hbm, 572, rfl⟩
abbrev main_call21_c_2 : Ref sig .tc := ⟨.hbm, 573, rfl⟩
abbrev main_call21_v6 : Ref sig .tc := ⟨.hbm, 574, rfl⟩
abbrev main_call21_v7 : Ref sig .tc := ⟨.hbm, 575, rfl⟩
abbrev main_call21_v8 : Ref sig .tc := ⟨.hbm, 576, rfl⟩
abbrev main_call21_v9 : Ref sig .tc := ⟨.hbm, 577, rfl⟩
abbrev main_call21_v10 : Ref sig .tc := ⟨.hbm, 578, rfl⟩
abbrev main_call21_v11 : Ref sig .tc := ⟨.hbm, 579, rfl⟩
abbrev main_call21_c_3 : Ref sig .tc := ⟨.hbm, 580, rfl⟩
abbrev main_call21_v12 : Ref sig .tc := ⟨.hbm, 581, rfl⟩
abbrev main_call21_v13 : Ref sig .tc := ⟨.hbm, 582, rfl⟩
abbrev main_call21_v14 : Ref sig .tc := ⟨.hbm, 583, rfl⟩
abbrev main_call21_cst : Ref sig .tc := ⟨.hbm, 584, rfl⟩
abbrev main_call21_v15 : Ref sig .tc := ⟨.hbm, 585, rfl⟩
abbrev main_v92 : Ref sig .tc := ⟨.hbm, 586, rfl⟩
abbrev main_v93 : Ref sig .tc := ⟨.hbm, 587, rfl⟩
abbrev main_v94 : Ref sig .tc := ⟨.hbm, 588, rfl⟩
abbrev main_v95 : Ref sig .tc := ⟨.hbm, 589, rfl⟩
abbrev main_call22_c : Ref sig .tc := ⟨.hbm, 590, rfl⟩
abbrev main_call22_v0 : Ref sig .tc := ⟨.hbm, 591, rfl⟩
abbrev main_call22_v1 : Ref sig .tc := ⟨.hbm, 592, rfl⟩
abbrev main_call22_c_0 : Ref sig .tc := ⟨.hbm, 593, rfl⟩
abbrev main_call22_v2 : Ref sig .tc := ⟨.hbm, 594, rfl⟩
abbrev main_call22_v3 : Ref sig .tc := ⟨.hbm, 595, rfl⟩
abbrev main_call22_v4 : Ref sig .tc := ⟨.hbm, 596, rfl⟩
abbrev main_call22_v5 : Ref sig .tc := ⟨.hbm, 597, rfl⟩
abbrev main_call22_c_1 : Ref sig .tc := ⟨.hbm, 598, rfl⟩
abbrev main_call22_c_2 : Ref sig .tc := ⟨.hbm, 599, rfl⟩
abbrev main_call22_v6 : Ref sig .tc := ⟨.hbm, 600, rfl⟩
abbrev main_call22_v7 : Ref sig .tc := ⟨.hbm, 601, rfl⟩
abbrev main_call22_v8 : Ref sig .tc := ⟨.hbm, 602, rfl⟩
abbrev main_call22_v9 : Ref sig .tc := ⟨.hbm, 603, rfl⟩
abbrev main_call22_v10 : Ref sig .tc := ⟨.hbm, 604, rfl⟩
abbrev main_call22_v11 : Ref sig .tc := ⟨.hbm, 605, rfl⟩
abbrev main_call22_c_3 : Ref sig .tc := ⟨.hbm, 606, rfl⟩
abbrev main_call22_v12 : Ref sig .tc := ⟨.hbm, 607, rfl⟩
abbrev main_call22_v13 : Ref sig .tc := ⟨.hbm, 608, rfl⟩
abbrev main_call22_v14 : Ref sig .tc := ⟨.hbm, 609, rfl⟩
abbrev main_call22_cst : Ref sig .tc := ⟨.hbm, 610, rfl⟩
abbrev main_call22_v15 : Ref sig .tc := ⟨.hbm, 611, rfl⟩
abbrev main_v96 : Ref sig .tc := ⟨.hbm, 612, rfl⟩
abbrev main_v97 : Ref sig .tc := ⟨.hbm, 613, rfl⟩
abbrev main_v98 : Ref sig .tc := ⟨.hbm, 614, rfl⟩
abbrev main_v99 : Ref sig .tc := ⟨.hbm, 615, rfl⟩
abbrev main_call23_c : Ref sig .tc := ⟨.hbm, 616, rfl⟩
abbrev main_call23_v0 : Ref sig .tc := ⟨.hbm, 617, rfl⟩
abbrev main_call23_v1 : Ref sig .tc := ⟨.hbm, 618, rfl⟩
abbrev main_call23_c_0 : Ref sig .tc := ⟨.hbm, 619, rfl⟩
abbrev main_call23_v2 : Ref sig .tc := ⟨.hbm, 620, rfl⟩
abbrev main_call23_v3 : Ref sig .tc := ⟨.hbm, 621, rfl⟩
abbrev main_call23_v4 : Ref sig .tc := ⟨.hbm, 622, rfl⟩
abbrev main_call23_v5 : Ref sig .tc := ⟨.hbm, 623, rfl⟩
abbrev main_call23_c_1 : Ref sig .tc := ⟨.hbm, 624, rfl⟩
abbrev main_call23_c_2 : Ref sig .tc := ⟨.hbm, 625, rfl⟩
abbrev main_call23_v6 : Ref sig .tc := ⟨.hbm, 626, rfl⟩
abbrev main_call23_v7 : Ref sig .tc := ⟨.hbm, 627, rfl⟩
abbrev main_call23_v8 : Ref sig .tc := ⟨.hbm, 628, rfl⟩
abbrev main_call23_v9 : Ref sig .tc := ⟨.hbm, 629, rfl⟩
abbrev main_call23_v10 : Ref sig .tc := ⟨.hbm, 630, rfl⟩
abbrev main_call23_v11 : Ref sig .tc := ⟨.hbm, 631, rfl⟩
abbrev main_call23_c_3 : Ref sig .tc := ⟨.hbm, 632, rfl⟩
abbrev main_call23_v12 : Ref sig .tc := ⟨.hbm, 633, rfl⟩
abbrev main_call23_v13 : Ref sig .tc := ⟨.hbm, 634, rfl⟩
abbrev main_call23_v14 : Ref sig .tc := ⟨.hbm, 635, rfl⟩
abbrev main_call23_cst : Ref sig .tc := ⟨.hbm, 636, rfl⟩
abbrev main_call23_v15 : Ref sig .tc := ⟨.hbm, 637, rfl⟩
abbrev main_v100 : Ref sig .tc := ⟨.hbm, 638, rfl⟩
abbrev main_v101 : Ref sig .tc := ⟨.hbm, 639, rfl⟩
abbrev main_v102 : Ref sig .tc := ⟨.hbm, 640, rfl⟩
abbrev main_v103 : Ref sig .tc := ⟨.hbm, 641, rfl⟩
abbrev main_call24_c : Ref sig .tc := ⟨.hbm, 642, rfl⟩
abbrev main_call24_v0 : Ref sig .tc := ⟨.hbm, 643, rfl⟩
abbrev main_call24_v1 : Ref sig .tc := ⟨.hbm, 644, rfl⟩
abbrev main_call24_c_0 : Ref sig .tc := ⟨.hbm, 645, rfl⟩
abbrev main_call24_v2 : Ref sig .tc := ⟨.hbm, 646, rfl⟩
abbrev main_call24_v3 : Ref sig .tc := ⟨.hbm, 647, rfl⟩
abbrev main_call24_v4 : Ref sig .tc := ⟨.hbm, 648, rfl⟩
abbrev main_call24_v5 : Ref sig .tc := ⟨.hbm, 649, rfl⟩
abbrev main_call24_c_1 : Ref sig .tc := ⟨.hbm, 650, rfl⟩
abbrev main_call24_c_2 : Ref sig .tc := ⟨.hbm, 651, rfl⟩
abbrev main_call24_v6 : Ref sig .tc := ⟨.hbm, 652, rfl⟩
abbrev main_call24_v7 : Ref sig .tc := ⟨.hbm, 653, rfl⟩
abbrev main_call24_v8 : Ref sig .tc := ⟨.hbm, 654, rfl⟩
abbrev main_call24_v9 : Ref sig .tc := ⟨.hbm, 655, rfl⟩
abbrev main_call24_v10 : Ref sig .tc := ⟨.hbm, 656, rfl⟩
abbrev main_call24_v11 : Ref sig .tc := ⟨.hbm, 657, rfl⟩
abbrev main_call24_c_3 : Ref sig .tc := ⟨.hbm, 658, rfl⟩
abbrev main_call24_v12 : Ref sig .tc := ⟨.hbm, 659, rfl⟩
abbrev main_call24_v13 : Ref sig .tc := ⟨.hbm, 660, rfl⟩
abbrev main_call24_v14 : Ref sig .tc := ⟨.hbm, 661, rfl⟩
abbrev main_call24_cst : Ref sig .tc := ⟨.hbm, 662, rfl⟩
abbrev main_call24_v15 : Ref sig .tc := ⟨.hbm, 663, rfl⟩
abbrev main_v104 : Ref sig .tc := ⟨.hbm, 664, rfl⟩
abbrev main_v105 : Ref sig .tc := ⟨.hbm, 665, rfl⟩
abbrev main_v106 : Ref sig .tc := ⟨.hbm, 666, rfl⟩
abbrev main_v107 : Ref sig .tc := ⟨.hbm, 667, rfl⟩
abbrev main_call25_c : Ref sig .tc := ⟨.hbm, 668, rfl⟩
abbrev main_call25_v0 : Ref sig .tc := ⟨.hbm, 669, rfl⟩
abbrev main_call25_v1 : Ref sig .tc := ⟨.hbm, 670, rfl⟩
abbrev main_call25_c_0 : Ref sig .tc := ⟨.hbm, 671, rfl⟩
abbrev main_call25_v2 : Ref sig .tc := ⟨.hbm, 672, rfl⟩
abbrev main_call25_v3 : Ref sig .tc := ⟨.hbm, 673, rfl⟩
abbrev main_call25_v4 : Ref sig .tc := ⟨.hbm, 674, rfl⟩
abbrev main_call25_v5 : Ref sig .tc := ⟨.hbm, 675, rfl⟩
abbrev main_call25_c_1 : Ref sig .tc := ⟨.hbm, 676, rfl⟩
abbrev main_call25_c_2 : Ref sig .tc := ⟨.hbm, 677, rfl⟩
abbrev main_call25_v6 : Ref sig .tc := ⟨.hbm, 678, rfl⟩
abbrev main_call25_v7 : Ref sig .tc := ⟨.hbm, 679, rfl⟩
abbrev main_call25_v8 : Ref sig .tc := ⟨.hbm, 680, rfl⟩
abbrev main_call25_v9 : Ref sig .tc := ⟨.hbm, 681, rfl⟩
abbrev main_call25_v10 : Ref sig .tc := ⟨.hbm, 682, rfl⟩
abbrev main_call25_v11 : Ref sig .tc := ⟨.hbm, 683, rfl⟩
abbrev main_call25_c_3 : Ref sig .tc := ⟨.hbm, 684, rfl⟩
abbrev main_call25_v12 : Ref sig .tc := ⟨.hbm, 685, rfl⟩
abbrev main_call25_v13 : Ref sig .tc := ⟨.hbm, 686, rfl⟩
abbrev main_call25_v14 : Ref sig .tc := ⟨.hbm, 687, rfl⟩
abbrev main_call25_cst : Ref sig .tc := ⟨.hbm, 688, rfl⟩
abbrev main_call25_v15 : Ref sig .tc := ⟨.hbm, 689, rfl⟩
abbrev main_v108 : Ref sig .tc := ⟨.hbm, 690, rfl⟩
abbrev main_v109 : Ref sig .tc := ⟨.hbm, 691, rfl⟩
abbrev main_v110 : Ref sig .tc := ⟨.hbm, 692, rfl⟩
abbrev main_v111 : Ref sig .tc := ⟨.hbm, 693, rfl⟩
abbrev main_call26_c : Ref sig .tc := ⟨.hbm, 694, rfl⟩
abbrev main_call26_v0 : Ref sig .tc := ⟨.hbm, 695, rfl⟩
abbrev main_call26_v1 : Ref sig .tc := ⟨.hbm, 696, rfl⟩
abbrev main_call26_c_0 : Ref sig .tc := ⟨.hbm, 697, rfl⟩
abbrev main_call26_v2 : Ref sig .tc := ⟨.hbm, 698, rfl⟩
abbrev main_call26_v3 : Ref sig .tc := ⟨.hbm, 699, rfl⟩
abbrev main_call26_v4 : Ref sig .tc := ⟨.hbm, 700, rfl⟩
abbrev main_call26_v5 : Ref sig .tc := ⟨.hbm, 701, rfl⟩
abbrev main_call26_c_1 : Ref sig .tc := ⟨.hbm, 702, rfl⟩
abbrev main_call26_c_2 : Ref sig .tc := ⟨.hbm, 703, rfl⟩
abbrev main_call26_v6 : Ref sig .tc := ⟨.hbm, 704, rfl⟩
abbrev main_call26_v7 : Ref sig .tc := ⟨.hbm, 705, rfl⟩
abbrev main_call26_v8 : Ref sig .tc := ⟨.hbm, 706, rfl⟩
abbrev main_call26_v9 : Ref sig .tc := ⟨.hbm, 707, rfl⟩
abbrev main_call26_v10 : Ref sig .tc := ⟨.hbm, 708, rfl⟩
abbrev main_call26_v11 : Ref sig .tc := ⟨.hbm, 709, rfl⟩
abbrev main_call26_c_3 : Ref sig .tc := ⟨.hbm, 710, rfl⟩
abbrev main_call26_v12 : Ref sig .tc := ⟨.hbm, 711, rfl⟩
abbrev main_call26_v13 : Ref sig .tc := ⟨.hbm, 712, rfl⟩
abbrev main_call26_v14 : Ref sig .tc := ⟨.hbm, 713, rfl⟩
abbrev main_call26_cst : Ref sig .tc := ⟨.hbm, 714, rfl⟩
abbrev main_call26_v15 : Ref sig .tc := ⟨.hbm, 715, rfl⟩
abbrev main_v112 : Ref sig .tc := ⟨.hbm, 716, rfl⟩
abbrev main_v113 : Ref sig .tc := ⟨.hbm, 717, rfl⟩
abbrev main_v114 : Ref sig .tc := ⟨.hbm, 718, rfl⟩
abbrev main_v115 : Ref sig .tc := ⟨.hbm, 719, rfl⟩
abbrev main_v116 : Ref sig .tc := ⟨.hbm, 720, rfl⟩
abbrev main_cst : Ref sig .tc := ⟨.hbm, 721, rfl⟩
abbrev main_v117 : Ref sig .tc := ⟨.hbm, 722, rfl⟩
abbrev main_c : Ref sig .tc := ⟨.hbm, 723, rfl⟩
abbrev main_v118 : Ref sig .tc := ⟨.hbm, 724, rfl⟩
abbrev main_v119 : Ref sig .tc := ⟨.hbm, 725, rfl⟩
abbrev main_c_0 : Ref sig .tc := ⟨.hbm, 726, rfl⟩
abbrev main_v120 : Ref sig .tc := ⟨.hbm, 727, rfl⟩
abbrev main_v121 : Ref sig .tc := ⟨.hbm, 728, rfl⟩
abbrev main_v122 : Ref sig .tc := ⟨.hbm, 729, rfl⟩
abbrev main_v123 : Ref sig .tc := ⟨.hbm, 730, rfl⟩
abbrev main_v124 : Ref sig .tc := ⟨.hbm, 731, rfl⟩
abbrev main_call27_v0 : Ref sig .tc := ⟨.hbm, 732, rfl⟩
abbrev main_call27_v1 : Ref sig .tc := ⟨.hbm, 733, rfl⟩
abbrev main_call27_v2 : Ref sig .tc := ⟨.hbm, 734, rfl⟩
abbrev main_call27_v3 : Ref sig .tc := ⟨.hbm, 735, rfl⟩
abbrev main_call27_v4 : Ref sig .tc := ⟨.hbm, 736, rfl⟩
abbrev main_v125 : Ref sig .tc := ⟨.hbm, 737, rfl⟩
abbrev main_cst_1 : Ref sig .tc := ⟨.hbm, 738, rfl⟩
abbrev main_v126 : Ref sig .tc := ⟨.hbm, 739, rfl⟩
abbrev main_cst_2 : Ref sig .tc := ⟨.hbm, 740, rfl⟩
abbrev main_v127 : Ref sig .tc := ⟨.hbm, 741, rfl⟩
abbrev main_v128 : Ref sig .tc := ⟨.hbm, 742, rfl⟩
abbrev main_v129 : Ref sig .tc := ⟨.hbm, 743, rfl⟩
abbrev main_cst_3 : Ref sig .tc := ⟨.hbm, 744, rfl⟩
abbrev main_v130 : Ref sig .tc := ⟨.hbm, 745, rfl⟩
abbrev main_v131 : Ref sig .tc := ⟨.hbm, 746, rfl⟩
abbrev main_v132_0 : Ref sig .tc := ⟨.hbm, 747, rfl⟩
abbrev main_v132_1 : Ref sig .tc := ⟨.hbm, 748, rfl⟩
abbrev main_v133 : Ref sig .tc := ⟨.hbm, 749, rfl⟩
abbrev main_v134 : Ref sig .tc := ⟨.hbm, 750, rfl⟩
abbrev main_v135 : Ref sig .tc := ⟨.hbm, 751, rfl⟩
abbrev main_v136 : Ref sig .tc := ⟨.hbm, 752, rfl⟩
abbrev main_v137 : Ref sig .tc := ⟨.hbm, 753, rfl⟩
abbrev main_v138 : Ref sig .tc := ⟨.hbm, 754, rfl⟩
abbrev main_v139 : Ref sig .tc := ⟨.hbm, 755, rfl⟩
abbrev main_v140 : Ref sig .tc := ⟨.hbm, 756, rfl⟩
abbrev main_cst_4 : Ref sig .tc := ⟨.hbm, 757, rfl⟩
abbrev main_v141 : Ref sig .tc := ⟨.hbm, 758, rfl⟩
abbrev main_v142 : Ref sig .tc := ⟨.hbm, 759, rfl⟩
abbrev main_v143 : Ref sig .tc := ⟨.hbm, 760, rfl⟩
abbrev main_v144 : Ref sig .tc := ⟨.hbm, 761, rfl⟩
abbrev main_v145 : Ref sig .tc := ⟨.hbm, 762, rfl⟩
abbrev main_v146 : Ref sig .tc := ⟨.hbm, 763, rfl⟩
abbrev main_v147 : Ref sig .tc := ⟨.hbm, 764, rfl⟩
abbrev main_v148 : Ref sig .tc := ⟨.hbm, 765, rfl⟩
abbrev main_v149 : Ref sig .tc := ⟨.hbm, 766, rfl⟩
abbrev main_v150 : Ref sig .tc := ⟨.hbm, 767, rfl⟩
abbrev main_v151 : Ref sig .tc := ⟨.hbm, 768, rfl⟩
abbrev main_v152 : Ref sig .tc := ⟨.hbm, 769, rfl⟩
abbrev main_v153 : Ref sig .tc := ⟨.hbm, 770, rfl⟩
abbrev main_call28_c : Ref sig .tc := ⟨.hbm, 771, rfl⟩
abbrev main_call28_v0 : Ref sig .tc := ⟨.hbm, 772, rfl⟩
abbrev main_call28_v1 : Ref sig .tc := ⟨.hbm, 773, rfl⟩
abbrev main_call28_c_0 : Ref sig .tc := ⟨.hbm, 774, rfl⟩
abbrev main_call28_v2 : Ref sig .tc := ⟨.hbm, 775, rfl⟩
abbrev main_call28_v3 : Ref sig .tc := ⟨.hbm, 776, rfl⟩
abbrev main_call28_v4 : Ref sig .tc := ⟨.hbm, 777, rfl⟩
abbrev main_call28_v5 : Ref sig .tc := ⟨.hbm, 778, rfl⟩
abbrev main_call28_c_1 : Ref sig .tc := ⟨.hbm, 779, rfl⟩
abbrev main_call28_c_2 : Ref sig .tc := ⟨.hbm, 780, rfl⟩
abbrev main_call28_v6 : Ref sig .tc := ⟨.hbm, 781, rfl⟩
abbrev main_call28_v7 : Ref sig .tc := ⟨.hbm, 782, rfl⟩
abbrev main_call28_v8 : Ref sig .tc := ⟨.hbm, 783, rfl⟩
abbrev main_call28_v9 : Ref sig .tc := ⟨.hbm, 784, rfl⟩
abbrev main_call28_v10 : Ref sig .tc := ⟨.hbm, 785, rfl⟩
abbrev main_call28_v11 : Ref sig .tc := ⟨.hbm, 786, rfl⟩
abbrev main_call28_c_3 : Ref sig .tc := ⟨.hbm, 787, rfl⟩
abbrev main_call28_v12 : Ref sig .tc := ⟨.hbm, 788, rfl⟩
abbrev main_call28_v13 : Ref sig .tc := ⟨.hbm, 789, rfl⟩
abbrev main_call28_v14 : Ref sig .tc := ⟨.hbm, 790, rfl⟩
abbrev main_call28_cst : Ref sig .tc := ⟨.hbm, 791, rfl⟩
abbrev main_call28_v15 : Ref sig .tc := ⟨.hbm, 792, rfl⟩
abbrev main_v154 : Ref sig .tc := ⟨.hbm, 793, rfl⟩
abbrev main_v155 : Ref sig .tc := ⟨.hbm, 794, rfl⟩
abbrev main_v156 : Ref sig .tc := ⟨.hbm, 795, rfl⟩
abbrev main_v157 : Ref sig .tc := ⟨.hbm, 796, rfl⟩
abbrev main_call29_c : Ref sig .tc := ⟨.hbm, 797, rfl⟩
abbrev main_call29_v0 : Ref sig .tc := ⟨.hbm, 798, rfl⟩
abbrev main_call29_v1 : Ref sig .tc := ⟨.hbm, 799, rfl⟩
abbrev main_call29_c_0 : Ref sig .tc := ⟨.hbm, 800, rfl⟩
abbrev main_call29_v2 : Ref sig .tc := ⟨.hbm, 801, rfl⟩
abbrev main_call29_v3 : Ref sig .tc := ⟨.hbm, 802, rfl⟩
abbrev main_call29_v4 : Ref sig .tc := ⟨.hbm, 803, rfl⟩
abbrev main_call29_v5 : Ref sig .tc := ⟨.hbm, 804, rfl⟩
abbrev main_call29_c_1 : Ref sig .tc := ⟨.hbm, 805, rfl⟩
abbrev main_call29_c_2 : Ref sig .tc := ⟨.hbm, 806, rfl⟩
abbrev main_call29_v6 : Ref sig .tc := ⟨.hbm, 807, rfl⟩
abbrev main_call29_v7 : Ref sig .tc := ⟨.hbm, 808, rfl⟩
abbrev main_call29_v8 : Ref sig .tc := ⟨.hbm, 809, rfl⟩
abbrev main_call29_v9 : Ref sig .tc := ⟨.hbm, 810, rfl⟩
abbrev main_call29_v10 : Ref sig .tc := ⟨.hbm, 811, rfl⟩
abbrev main_call29_v11 : Ref sig .tc := ⟨.hbm, 812, rfl⟩
abbrev main_call29_c_3 : Ref sig .tc := ⟨.hbm, 813, rfl⟩
abbrev main_call29_v12 : Ref sig .tc := ⟨.hbm, 814, rfl⟩
abbrev main_call29_v13 : Ref sig .tc := ⟨.hbm, 815, rfl⟩
abbrev main_call29_v14 : Ref sig .tc := ⟨.hbm, 816, rfl⟩
abbrev main_call29_cst : Ref sig .tc := ⟨.hbm, 817, rfl⟩
abbrev main_call29_v15 : Ref sig .tc := ⟨.hbm, 818, rfl⟩
abbrev main_v158 : Ref sig .tc := ⟨.hbm, 819, rfl⟩
abbrev main_v159 : Ref sig .tc := ⟨.hbm, 820, rfl⟩
abbrev main_v160 : Ref sig .tc := ⟨.hbm, 821, rfl⟩
abbrev main_v161 : Ref sig .tc := ⟨.hbm, 822, rfl⟩
abbrev main_call30_c : Ref sig .tc := ⟨.hbm, 823, rfl⟩
abbrev main_call30_v0 : Ref sig .tc := ⟨.hbm, 824, rfl⟩
abbrev main_call30_v1 : Ref sig .tc := ⟨.hbm, 825, rfl⟩
abbrev main_call30_c_0 : Ref sig .tc := ⟨.hbm, 826, rfl⟩
abbrev main_call30_v2 : Ref sig .tc := ⟨.hbm, 827, rfl⟩
abbrev main_call30_v3 : Ref sig .tc := ⟨.hbm, 828, rfl⟩
abbrev main_call30_v4 : Ref sig .tc := ⟨.hbm, 829, rfl⟩
abbrev main_call30_v5 : Ref sig .tc := ⟨.hbm, 830, rfl⟩
abbrev main_call30_c_1 : Ref sig .tc := ⟨.hbm, 831, rfl⟩
abbrev main_call30_c_2 : Ref sig .tc := ⟨.hbm, 832, rfl⟩
abbrev main_call30_v6 : Ref sig .tc := ⟨.hbm, 833, rfl⟩
abbrev main_call30_v7 : Ref sig .tc := ⟨.hbm, 834, rfl⟩
abbrev main_call30_v8 : Ref sig .tc := ⟨.hbm, 835, rfl⟩
abbrev main_call30_v9 : Ref sig .tc := ⟨.hbm, 836, rfl⟩
abbrev main_call30_v10 : Ref sig .tc := ⟨.hbm, 837, rfl⟩
abbrev main_call30_v11 : Ref sig .tc := ⟨.hbm, 838, rfl⟩
abbrev main_call30_c_3 : Ref sig .tc := ⟨.hbm, 839, rfl⟩
abbrev main_call30_v12 : Ref sig .tc := ⟨.hbm, 840, rfl⟩
abbrev main_call30_v13 : Ref sig .tc := ⟨.hbm, 841, rfl⟩
abbrev main_call30_v14 : Ref sig .tc := ⟨.hbm, 842, rfl⟩
abbrev main_call30_cst : Ref sig .tc := ⟨.hbm, 843, rfl⟩
abbrev main_call30_v15 : Ref sig .tc := ⟨.hbm, 844, rfl⟩
abbrev main_v162 : Ref sig .tc := ⟨.hbm, 845, rfl⟩
abbrev main_v163 : Ref sig .tc := ⟨.hbm, 846, rfl⟩
abbrev main_v164 : Ref sig .tc := ⟨.hbm, 847, rfl⟩
abbrev main_v165 : Ref sig .tc := ⟨.hbm, 848, rfl⟩
abbrev main_call31_c : Ref sig .tc := ⟨.hbm, 849, rfl⟩
abbrev main_call31_v0 : Ref sig .tc := ⟨.hbm, 850, rfl⟩
abbrev main_call31_v1 : Ref sig .tc := ⟨.hbm, 851, rfl⟩
abbrev main_call31_c_0 : Ref sig .tc := ⟨.hbm, 852, rfl⟩
abbrev main_call31_v2 : Ref sig .tc := ⟨.hbm, 853, rfl⟩
abbrev main_call31_v3 : Ref sig .tc := ⟨.hbm, 854, rfl⟩
abbrev main_call31_v4 : Ref sig .tc := ⟨.hbm, 855, rfl⟩
abbrev main_call31_v5 : Ref sig .tc := ⟨.hbm, 856, rfl⟩
abbrev main_call31_c_1 : Ref sig .tc := ⟨.hbm, 857, rfl⟩
abbrev main_call31_c_2 : Ref sig .tc := ⟨.hbm, 858, rfl⟩
abbrev main_call31_v6 : Ref sig .tc := ⟨.hbm, 859, rfl⟩
abbrev main_call31_v7 : Ref sig .tc := ⟨.hbm, 860, rfl⟩
abbrev main_call31_v8 : Ref sig .tc := ⟨.hbm, 861, rfl⟩
abbrev main_call31_v9 : Ref sig .tc := ⟨.hbm, 862, rfl⟩
abbrev main_call31_v10 : Ref sig .tc := ⟨.hbm, 863, rfl⟩
abbrev main_call31_v11 : Ref sig .tc := ⟨.hbm, 864, rfl⟩
abbrev main_call31_c_3 : Ref sig .tc := ⟨.hbm, 865, rfl⟩
abbrev main_call31_v12 : Ref sig .tc := ⟨.hbm, 866, rfl⟩
abbrev main_call31_v13 : Ref sig .tc := ⟨.hbm, 867, rfl⟩
abbrev main_call31_v14 : Ref sig .tc := ⟨.hbm, 868, rfl⟩
abbrev main_call31_cst : Ref sig .tc := ⟨.hbm, 869, rfl⟩
abbrev main_call31_v15 : Ref sig .tc := ⟨.hbm, 870, rfl⟩
abbrev main_v166 : Ref sig .tc := ⟨.hbm, 871, rfl⟩
abbrev main_v167 : Ref sig .tc := ⟨.hbm, 872, rfl⟩
abbrev main_v168 : Ref sig .tc := ⟨.hbm, 873, rfl⟩
abbrev main_v169 : Ref sig .tc := ⟨.hbm, 874, rfl⟩
abbrev main_call32_c : Ref sig .tc := ⟨.hbm, 875, rfl⟩
abbrev main_call32_v0 : Ref sig .tc := ⟨.hbm, 876, rfl⟩
abbrev main_call32_v1 : Ref sig .tc := ⟨.hbm, 877, rfl⟩
abbrev main_call32_c_0 : Ref sig .tc := ⟨.hbm, 878, rfl⟩
abbrev main_call32_v2 : Ref sig .tc := ⟨.hbm, 879, rfl⟩
abbrev main_call32_v3 : Ref sig .tc := ⟨.hbm, 880, rfl⟩
abbrev main_call32_v4 : Ref sig .tc := ⟨.hbm, 881, rfl⟩
abbrev main_call32_v5 : Ref sig .tc := ⟨.hbm, 882, rfl⟩
abbrev main_call32_c_1 : Ref sig .tc := ⟨.hbm, 883, rfl⟩
abbrev main_call32_c_2 : Ref sig .tc := ⟨.hbm, 884, rfl⟩
abbrev main_call32_v6 : Ref sig .tc := ⟨.hbm, 885, rfl⟩
abbrev main_call32_v7 : Ref sig .tc := ⟨.hbm, 886, rfl⟩
abbrev main_call32_v8 : Ref sig .tc := ⟨.hbm, 887, rfl⟩
abbrev main_call32_v9 : Ref sig .tc := ⟨.hbm, 888, rfl⟩
abbrev main_call32_v10 : Ref sig .tc := ⟨.hbm, 889, rfl⟩
abbrev main_call32_v11 : Ref sig .tc := ⟨.hbm, 890, rfl⟩
abbrev main_call32_c_3 : Ref sig .tc := ⟨.hbm, 891, rfl⟩
abbrev main_call32_v12 : Ref sig .tc := ⟨.hbm, 892, rfl⟩
abbrev main_call32_v13 : Ref sig .tc := ⟨.hbm, 893, rfl⟩
abbrev main_call32_v14 : Ref sig .tc := ⟨.hbm, 894, rfl⟩
abbrev main_call32_cst : Ref sig .tc := ⟨.hbm, 895, rfl⟩
abbrev main_call32_v15 : Ref sig .tc := ⟨.hbm, 896, rfl⟩
abbrev main_v170 : Ref sig .tc := ⟨.hbm, 897, rfl⟩
abbrev main_v171 : Ref sig .tc := ⟨.hbm, 898, rfl⟩
abbrev main_v172 : Ref sig .tc := ⟨.hbm, 899, rfl⟩
abbrev main_v173 : Ref sig .tc := ⟨.hbm, 900, rfl⟩
abbrev main_call33_c : Ref sig .tc := ⟨.hbm, 901, rfl⟩
abbrev main_call33_v0 : Ref sig .tc := ⟨.hbm, 902, rfl⟩
abbrev main_call33_v1 : Ref sig .tc := ⟨.hbm, 903, rfl⟩
abbrev main_call33_c_0 : Ref sig .tc := ⟨.hbm, 904, rfl⟩
abbrev main_call33_v2 : Ref sig .tc := ⟨.hbm, 905, rfl⟩
abbrev main_call33_v3 : Ref sig .tc := ⟨.hbm, 906, rfl⟩
abbrev main_call33_v4 : Ref sig .tc := ⟨.hbm, 907, rfl⟩
abbrev main_call33_v5 : Ref sig .tc := ⟨.hbm, 908, rfl⟩
abbrev main_call33_c_1 : Ref sig .tc := ⟨.hbm, 909, rfl⟩
abbrev main_call33_c_2 : Ref sig .tc := ⟨.hbm, 910, rfl⟩
abbrev main_call33_v6 : Ref sig .tc := ⟨.hbm, 911, rfl⟩
abbrev main_call33_v7 : Ref sig .tc := ⟨.hbm, 912, rfl⟩
abbrev main_call33_v8 : Ref sig .tc := ⟨.hbm, 913, rfl⟩
abbrev main_call33_v9 : Ref sig .tc := ⟨.hbm, 914, rfl⟩
abbrev main_call33_v10 : Ref sig .tc := ⟨.hbm, 915, rfl⟩
abbrev main_call33_v11 : Ref sig .tc := ⟨.hbm, 916, rfl⟩
abbrev main_call33_c_3 : Ref sig .tc := ⟨.hbm, 917, rfl⟩
abbrev main_call33_v12 : Ref sig .tc := ⟨.hbm, 918, rfl⟩
abbrev main_call33_v13 : Ref sig .tc := ⟨.hbm, 919, rfl⟩
abbrev main_call33_v14 : Ref sig .tc := ⟨.hbm, 920, rfl⟩
abbrev main_call33_cst : Ref sig .tc := ⟨.hbm, 921, rfl⟩
abbrev main_call33_v15 : Ref sig .tc := ⟨.hbm, 922, rfl⟩
abbrev main_v174 : Ref sig .tc := ⟨.hbm, 923, rfl⟩
abbrev main_v175 : Ref sig .tc := ⟨.hbm, 924, rfl⟩
abbrev main_v176 : Ref sig .tc := ⟨.hbm, 925, rfl⟩
abbrev main_v177 : Ref sig .tc := ⟨.hbm, 926, rfl⟩
abbrev main_call34_c : Ref sig .tc := ⟨.hbm, 927, rfl⟩
abbrev main_call34_v0 : Ref sig .tc := ⟨.hbm, 928, rfl⟩
abbrev main_call34_v1 : Ref sig .tc := ⟨.hbm, 929, rfl⟩
abbrev main_call34_c_0 : Ref sig .tc := ⟨.hbm, 930, rfl⟩
abbrev main_call34_v2 : Ref sig .tc := ⟨.hbm, 931, rfl⟩
abbrev main_call34_v3 : Ref sig .tc := ⟨.hbm, 932, rfl⟩
abbrev main_call34_v4 : Ref sig .tc := ⟨.hbm, 933, rfl⟩
abbrev main_call34_v5 : Ref sig .tc := ⟨.hbm, 934, rfl⟩
abbrev main_call34_c_1 : Ref sig .tc := ⟨.hbm, 935, rfl⟩
abbrev main_call34_c_2 : Ref sig .tc := ⟨.hbm, 936, rfl⟩
abbrev main_call34_v6 : Ref sig .tc := ⟨.hbm, 937, rfl⟩
abbrev main_call34_v7 : Ref sig .tc := ⟨.hbm, 938, rfl⟩
abbrev main_call34_v8 : Ref sig .tc := ⟨.hbm, 939, rfl⟩
abbrev main_call34_v9 : Ref sig .tc := ⟨.hbm, 940, rfl⟩
abbrev main_call34_v10 : Ref sig .tc := ⟨.hbm, 941, rfl⟩
abbrev main_call34_v11 : Ref sig .tc := ⟨.hbm, 942, rfl⟩
abbrev main_call34_c_3 : Ref sig .tc := ⟨.hbm, 943, rfl⟩
abbrev main_call34_v12 : Ref sig .tc := ⟨.hbm, 944, rfl⟩
abbrev main_call34_v13 : Ref sig .tc := ⟨.hbm, 945, rfl⟩
abbrev main_call34_v14 : Ref sig .tc := ⟨.hbm, 946, rfl⟩
abbrev main_call34_cst : Ref sig .tc := ⟨.hbm, 947, rfl⟩
abbrev main_call34_v15 : Ref sig .tc := ⟨.hbm, 948, rfl⟩
abbrev main_v178 : Ref sig .tc := ⟨.hbm, 949, rfl⟩
abbrev main_v179 : Ref sig .tc := ⟨.hbm, 950, rfl⟩
abbrev main_v180 : Ref sig .tc := ⟨.hbm, 951, rfl⟩
abbrev main_v181 : Ref sig .tc := ⟨.hbm, 952, rfl⟩
abbrev main_call35_c : Ref sig .tc := ⟨.hbm, 953, rfl⟩
abbrev main_call35_v0 : Ref sig .tc := ⟨.hbm, 954, rfl⟩
abbrev main_call35_v1 : Ref sig .tc := ⟨.hbm, 955, rfl⟩
abbrev main_call35_c_0 : Ref sig .tc := ⟨.hbm, 956, rfl⟩
abbrev main_call35_v2 : Ref sig .tc := ⟨.hbm, 957, rfl⟩
abbrev main_call35_v3 : Ref sig .tc := ⟨.hbm, 958, rfl⟩
abbrev main_call35_v4 : Ref sig .tc := ⟨.hbm, 959, rfl⟩
abbrev main_call35_v5 : Ref sig .tc := ⟨.hbm, 960, rfl⟩
abbrev main_call35_c_1 : Ref sig .tc := ⟨.hbm, 961, rfl⟩
abbrev main_call35_c_2 : Ref sig .tc := ⟨.hbm, 962, rfl⟩
abbrev main_call35_v6 : Ref sig .tc := ⟨.hbm, 963, rfl⟩
abbrev main_call35_v7 : Ref sig .tc := ⟨.hbm, 964, rfl⟩
abbrev main_call35_v8 : Ref sig .tc := ⟨.hbm, 965, rfl⟩
abbrev main_call35_v9 : Ref sig .tc := ⟨.hbm, 966, rfl⟩
abbrev main_call35_v10 : Ref sig .tc := ⟨.hbm, 967, rfl⟩
abbrev main_call35_v11 : Ref sig .tc := ⟨.hbm, 968, rfl⟩
abbrev main_call35_c_3 : Ref sig .tc := ⟨.hbm, 969, rfl⟩
abbrev main_call35_v12 : Ref sig .tc := ⟨.hbm, 970, rfl⟩
abbrev main_call35_v13 : Ref sig .tc := ⟨.hbm, 971, rfl⟩
abbrev main_call35_v14 : Ref sig .tc := ⟨.hbm, 972, rfl⟩
abbrev main_call35_cst : Ref sig .tc := ⟨.hbm, 973, rfl⟩
abbrev main_call35_v15 : Ref sig .tc := ⟨.hbm, 974, rfl⟩
abbrev main_v182 : Ref sig .tc := ⟨.hbm, 975, rfl⟩
abbrev main_v183 : Ref sig .tc := ⟨.hbm, 976, rfl⟩
abbrev main_v184 : Ref sig .tc := ⟨.hbm, 977, rfl⟩
abbrev main_v185 : Ref sig .tc := ⟨.hbm, 978, rfl⟩
abbrev main_call36_c : Ref sig .tc := ⟨.hbm, 979, rfl⟩
abbrev main_call36_v0 : Ref sig .tc := ⟨.hbm, 980, rfl⟩
abbrev main_call36_v1 : Ref sig .tc := ⟨.hbm, 981, rfl⟩
abbrev main_call36_c_0 : Ref sig .tc := ⟨.hbm, 982, rfl⟩
abbrev main_call36_v2 : Ref sig .tc := ⟨.hbm, 983, rfl⟩
abbrev main_call36_v3 : Ref sig .tc := ⟨.hbm, 984, rfl⟩
abbrev main_call36_v4 : Ref sig .tc := ⟨.hbm, 985, rfl⟩
abbrev main_call36_v5 : Ref sig .tc := ⟨.hbm, 986, rfl⟩
abbrev main_call36_c_1 : Ref sig .tc := ⟨.hbm, 987, rfl⟩
abbrev main_call36_c_2 : Ref sig .tc := ⟨.hbm, 988, rfl⟩
abbrev main_call36_v6 : Ref sig .tc := ⟨.hbm, 989, rfl⟩
abbrev main_call36_v7 : Ref sig .tc := ⟨.hbm, 990, rfl⟩
abbrev main_call36_v8 : Ref sig .tc := ⟨.hbm, 991, rfl⟩
abbrev main_call36_v9 : Ref sig .tc := ⟨.hbm, 992, rfl⟩
abbrev main_call36_v10 : Ref sig .tc := ⟨.hbm, 993, rfl⟩
abbrev main_call36_v11 : Ref sig .tc := ⟨.hbm, 994, rfl⟩
abbrev main_call36_c_3 : Ref sig .tc := ⟨.hbm, 995, rfl⟩
abbrev main_call36_v12 : Ref sig .tc := ⟨.hbm, 996, rfl⟩
abbrev main_call36_v13 : Ref sig .tc := ⟨.hbm, 997, rfl⟩
abbrev main_call36_v14 : Ref sig .tc := ⟨.hbm, 998, rfl⟩
abbrev main_call36_cst : Ref sig .tc := ⟨.hbm, 999, rfl⟩
abbrev main_call36_v15 : Ref sig .tc := ⟨.hbm, 1000, rfl⟩
abbrev main_v186 : Ref sig .tc := ⟨.hbm, 1001, rfl⟩
abbrev main_v187 : Ref sig .tc := ⟨.hbm, 1002, rfl⟩
abbrev main_v188 : Ref sig .tc := ⟨.hbm, 1003, rfl⟩
abbrev main_v189 : Ref sig .tc := ⟨.hbm, 1004, rfl⟩
abbrev main_call37_c : Ref sig .tc := ⟨.hbm, 1005, rfl⟩
abbrev main_call37_v0 : Ref sig .tc := ⟨.hbm, 1006, rfl⟩
abbrev main_call37_v1 : Ref sig .tc := ⟨.hbm, 1007, rfl⟩
abbrev main_call37_c_0 : Ref sig .tc := ⟨.hbm, 1008, rfl⟩
abbrev main_call37_v2 : Ref sig .tc := ⟨.hbm, 1009, rfl⟩
abbrev main_call37_v3 : Ref sig .tc := ⟨.hbm, 1010, rfl⟩
abbrev main_call37_v4 : Ref sig .tc := ⟨.hbm, 1011, rfl⟩
abbrev main_call37_v5 : Ref sig .tc := ⟨.hbm, 1012, rfl⟩
abbrev main_call37_c_1 : Ref sig .tc := ⟨.hbm, 1013, rfl⟩
abbrev main_call37_c_2 : Ref sig .tc := ⟨.hbm, 1014, rfl⟩
abbrev main_call37_v6 : Ref sig .tc := ⟨.hbm, 1015, rfl⟩
abbrev main_call37_v7 : Ref sig .tc := ⟨.hbm, 1016, rfl⟩
abbrev main_call37_v8 : Ref sig .tc := ⟨.hbm, 1017, rfl⟩
abbrev main_call37_v9 : Ref sig .tc := ⟨.hbm, 1018, rfl⟩
abbrev main_call37_v10 : Ref sig .tc := ⟨.hbm, 1019, rfl⟩
abbrev main_call37_v11 : Ref sig .tc := ⟨.hbm, 1020, rfl⟩
abbrev main_call37_c_3 : Ref sig .tc := ⟨.hbm, 1021, rfl⟩
abbrev main_call37_v12 : Ref sig .tc := ⟨.hbm, 1022, rfl⟩
abbrev main_call37_v13 : Ref sig .tc := ⟨.hbm, 1023, rfl⟩
abbrev main_call37_v14 : Ref sig .tc := ⟨.hbm, 1024, rfl⟩
abbrev main_call37_cst : Ref sig .tc := ⟨.hbm, 1025, rfl⟩
abbrev main_call37_v15 : Ref sig .tc := ⟨.hbm, 1026, rfl⟩
abbrev main_v190 : Ref sig .tc := ⟨.hbm, 1027, rfl⟩
abbrev main_v191 : Ref sig .tc := ⟨.hbm, 1028, rfl⟩
abbrev main_v192 : Ref sig .tc := ⟨.hbm, 1029, rfl⟩
abbrev main_v193 : Ref sig .tc := ⟨.hbm, 1030, rfl⟩
abbrev main_call38_c : Ref sig .tc := ⟨.hbm, 1031, rfl⟩
abbrev main_call38_v0 : Ref sig .tc := ⟨.hbm, 1032, rfl⟩
abbrev main_call38_v1 : Ref sig .tc := ⟨.hbm, 1033, rfl⟩
abbrev main_call38_c_0 : Ref sig .tc := ⟨.hbm, 1034, rfl⟩
abbrev main_call38_v2 : Ref sig .tc := ⟨.hbm, 1035, rfl⟩
abbrev main_call38_v3 : Ref sig .tc := ⟨.hbm, 1036, rfl⟩
abbrev main_call38_v4 : Ref sig .tc := ⟨.hbm, 1037, rfl⟩
abbrev main_call38_v5 : Ref sig .tc := ⟨.hbm, 1038, rfl⟩
abbrev main_call38_c_1 : Ref sig .tc := ⟨.hbm, 1039, rfl⟩
abbrev main_call38_c_2 : Ref sig .tc := ⟨.hbm, 1040, rfl⟩
abbrev main_call38_v6 : Ref sig .tc := ⟨.hbm, 1041, rfl⟩
abbrev main_call38_v7 : Ref sig .tc := ⟨.hbm, 1042, rfl⟩
abbrev main_call38_v8 : Ref sig .tc := ⟨.hbm, 1043, rfl⟩
abbrev main_call38_v9 : Ref sig .tc := ⟨.hbm, 1044, rfl⟩
abbrev main_call38_v10 : Ref sig .tc := ⟨.hbm, 1045, rfl⟩
abbrev main_call38_v11 : Ref sig .tc := ⟨.hbm, 1046, rfl⟩
abbrev main_call38_c_3 : Ref sig .tc := ⟨.hbm, 1047, rfl⟩
abbrev main_call38_v12 : Ref sig .tc := ⟨.hbm, 1048, rfl⟩
abbrev main_call38_v13 : Ref sig .tc := ⟨.hbm, 1049, rfl⟩
abbrev main_call38_v14 : Ref sig .tc := ⟨.hbm, 1050, rfl⟩
abbrev main_call38_cst : Ref sig .tc := ⟨.hbm, 1051, rfl⟩
abbrev main_call38_v15 : Ref sig .tc := ⟨.hbm, 1052, rfl⟩
abbrev main_v194 : Ref sig .tc := ⟨.hbm, 1053, rfl⟩
abbrev main_v195 : Ref sig .tc := ⟨.hbm, 1054, rfl⟩
abbrev main_v196 : Ref sig .tc := ⟨.hbm, 1055, rfl⟩
abbrev main_v197 : Ref sig .tc := ⟨.hbm, 1056, rfl⟩
abbrev main_call39_c : Ref sig .tc := ⟨.hbm, 1057, rfl⟩
abbrev main_call39_v0 : Ref sig .tc := ⟨.hbm, 1058, rfl⟩
abbrev main_call39_v1 : Ref sig .tc := ⟨.hbm, 1059, rfl⟩
abbrev main_call39_c_0 : Ref sig .tc := ⟨.hbm, 1060, rfl⟩
abbrev main_call39_v2 : Ref sig .tc := ⟨.hbm, 1061, rfl⟩
abbrev main_call39_v3 : Ref sig .tc := ⟨.hbm, 1062, rfl⟩
abbrev main_call39_v4 : Ref sig .tc := ⟨.hbm, 1063, rfl⟩
abbrev main_call39_v5 : Ref sig .tc := ⟨.hbm, 1064, rfl⟩
abbrev main_call39_c_1 : Ref sig .tc := ⟨.hbm, 1065, rfl⟩
abbrev main_call39_c_2 : Ref sig .tc := ⟨.hbm, 1066, rfl⟩
abbrev main_call39_v6 : Ref sig .tc := ⟨.hbm, 1067, rfl⟩
abbrev main_call39_v7 : Ref sig .tc := ⟨.hbm, 1068, rfl⟩
abbrev main_call39_v8 : Ref sig .tc := ⟨.hbm, 1069, rfl⟩
abbrev main_call39_v9 : Ref sig .tc := ⟨.hbm, 1070, rfl⟩
abbrev main_call39_v10 : Ref sig .tc := ⟨.hbm, 1071, rfl⟩
abbrev main_call39_v11 : Ref sig .tc := ⟨.hbm, 1072, rfl⟩
abbrev main_call39_c_3 : Ref sig .tc := ⟨.hbm, 1073, rfl⟩
abbrev main_call39_v12 : Ref sig .tc := ⟨.hbm, 1074, rfl⟩
abbrev main_call39_v13 : Ref sig .tc := ⟨.hbm, 1075, rfl⟩
abbrev main_call39_v14 : Ref sig .tc := ⟨.hbm, 1076, rfl⟩
abbrev main_call39_cst : Ref sig .tc := ⟨.hbm, 1077, rfl⟩
abbrev main_call39_v15 : Ref sig .tc := ⟨.hbm, 1078, rfl⟩
abbrev main_v198 : Ref sig .tc := ⟨.hbm, 1079, rfl⟩
abbrev main_v199 : Ref sig .tc := ⟨.hbm, 1080, rfl⟩
abbrev main_v200 : Ref sig .tc := ⟨.hbm, 1081, rfl⟩
abbrev main_v201 : Ref sig .tc := ⟨.hbm, 1082, rfl⟩
abbrev main_call40_c : Ref sig .tc := ⟨.hbm, 1083, rfl⟩
abbrev main_call40_v0 : Ref sig .tc := ⟨.hbm, 1084, rfl⟩
abbrev main_call40_v1 : Ref sig .tc := ⟨.hbm, 1085, rfl⟩
abbrev main_call40_c_0 : Ref sig .tc := ⟨.hbm, 1086, rfl⟩
abbrev main_call40_v2 : Ref sig .tc := ⟨.hbm, 1087, rfl⟩
abbrev main_call40_v3 : Ref sig .tc := ⟨.hbm, 1088, rfl⟩
abbrev main_call40_v4 : Ref sig .tc := ⟨.hbm, 1089, rfl⟩
abbrev main_call40_v5 : Ref sig .tc := ⟨.hbm, 1090, rfl⟩
abbrev main_call40_c_1 : Ref sig .tc := ⟨.hbm, 1091, rfl⟩
abbrev main_call40_c_2 : Ref sig .tc := ⟨.hbm, 1092, rfl⟩
abbrev main_call40_v6 : Ref sig .tc := ⟨.hbm, 1093, rfl⟩
abbrev main_call40_v7 : Ref sig .tc := ⟨.hbm, 1094, rfl⟩
abbrev main_call40_v8 : Ref sig .tc := ⟨.hbm, 1095, rfl⟩
abbrev main_call40_v9 : Ref sig .tc := ⟨.hbm, 1096, rfl⟩
abbrev main_call40_v10 : Ref sig .tc := ⟨.hbm, 1097, rfl⟩
abbrev main_call40_v11 : Ref sig .tc := ⟨.hbm, 1098, rfl⟩
abbrev main_call40_c_3 : Ref sig .tc := ⟨.hbm, 1099, rfl⟩
abbrev main_call40_v12 : Ref sig .tc := ⟨.hbm, 1100, rfl⟩
abbrev main_call40_v13 : Ref sig .tc := ⟨.hbm, 1101, rfl⟩
abbrev main_call40_v14 : Ref sig .tc := ⟨.hbm, 1102, rfl⟩
abbrev main_call40_cst : Ref sig .tc := ⟨.hbm, 1103, rfl⟩
abbrev main_call40_v15 : Ref sig .tc := ⟨.hbm, 1104, rfl⟩
abbrev main_v202 : Ref sig .tc := ⟨.hbm, 1105, rfl⟩
abbrev main_v203 : Ref sig .tc := ⟨.hbm, 1106, rfl⟩
abbrev main_v204 : Ref sig .tc := ⟨.hbm, 1107, rfl⟩
abbrev main_v205 : Ref sig .tc := ⟨.hbm, 1108, rfl⟩
abbrev main_call41_c : Ref sig .tc := ⟨.hbm, 1109, rfl⟩
abbrev main_call41_v0 : Ref sig .tc := ⟨.hbm, 1110, rfl⟩
abbrev main_call41_v1 : Ref sig .tc := ⟨.hbm, 1111, rfl⟩
abbrev main_call41_c_0 : Ref sig .tc := ⟨.hbm, 1112, rfl⟩
abbrev main_call41_v2 : Ref sig .tc := ⟨.hbm, 1113, rfl⟩
abbrev main_call41_v3 : Ref sig .tc := ⟨.hbm, 1114, rfl⟩
abbrev main_call41_v4 : Ref sig .tc := ⟨.hbm, 1115, rfl⟩
abbrev main_call41_v5 : Ref sig .tc := ⟨.hbm, 1116, rfl⟩
abbrev main_call41_c_1 : Ref sig .tc := ⟨.hbm, 1117, rfl⟩
abbrev main_call41_c_2 : Ref sig .tc := ⟨.hbm, 1118, rfl⟩
abbrev main_call41_v6 : Ref sig .tc := ⟨.hbm, 1119, rfl⟩
abbrev main_call41_v7 : Ref sig .tc := ⟨.hbm, 1120, rfl⟩
abbrev main_call41_v8 : Ref sig .tc := ⟨.hbm, 1121, rfl⟩
abbrev main_call41_v9 : Ref sig .tc := ⟨.hbm, 1122, rfl⟩
abbrev main_call41_v10 : Ref sig .tc := ⟨.hbm, 1123, rfl⟩
abbrev main_call41_v11 : Ref sig .tc := ⟨.hbm, 1124, rfl⟩
abbrev main_call41_c_3 : Ref sig .tc := ⟨.hbm, 1125, rfl⟩
abbrev main_call41_v12 : Ref sig .tc := ⟨.hbm, 1126, rfl⟩
abbrev main_call41_v13 : Ref sig .tc := ⟨.hbm, 1127, rfl⟩
abbrev main_call41_v14 : Ref sig .tc := ⟨.hbm, 1128, rfl⟩
abbrev main_call41_cst : Ref sig .tc := ⟨.hbm, 1129, rfl⟩
abbrev main_call41_v15 : Ref sig .tc := ⟨.hbm, 1130, rfl⟩
abbrev main_v206 : Ref sig .tc := ⟨.hbm, 1131, rfl⟩
abbrev main_v207 : Ref sig .tc := ⟨.hbm, 1132, rfl⟩
abbrev main_v208 : Ref sig .tc := ⟨.hbm, 1133, rfl⟩
abbrev main_v209 : Ref sig .tc := ⟨.hbm, 1134, rfl⟩
abbrev main_call42_c : Ref sig .tc := ⟨.hbm, 1135, rfl⟩
abbrev main_call42_v0 : Ref sig .tc := ⟨.hbm, 1136, rfl⟩
abbrev main_call42_v1 : Ref sig .tc := ⟨.hbm, 1137, rfl⟩
abbrev main_call42_c_0 : Ref sig .tc := ⟨.hbm, 1138, rfl⟩
abbrev main_call42_v2 : Ref sig .tc := ⟨.hbm, 1139, rfl⟩
abbrev main_call42_v3 : Ref sig .tc := ⟨.hbm, 1140, rfl⟩
abbrev main_call42_v4 : Ref sig .tc := ⟨.hbm, 1141, rfl⟩
abbrev main_call42_v5 : Ref sig .tc := ⟨.hbm, 1142, rfl⟩
abbrev main_call42_c_1 : Ref sig .tc := ⟨.hbm, 1143, rfl⟩
abbrev main_call42_c_2 : Ref sig .tc := ⟨.hbm, 1144, rfl⟩
abbrev main_call42_v6 : Ref sig .tc := ⟨.hbm, 1145, rfl⟩
abbrev main_call42_v7 : Ref sig .tc := ⟨.hbm, 1146, rfl⟩
abbrev main_call42_v8 : Ref sig .tc := ⟨.hbm, 1147, rfl⟩
abbrev main_call42_v9 : Ref sig .tc := ⟨.hbm, 1148, rfl⟩
abbrev main_call42_v10 : Ref sig .tc := ⟨.hbm, 1149, rfl⟩
abbrev main_call42_v11 : Ref sig .tc := ⟨.hbm, 1150, rfl⟩
abbrev main_call42_c_3 : Ref sig .tc := ⟨.hbm, 1151, rfl⟩
abbrev main_call42_v12 : Ref sig .tc := ⟨.hbm, 1152, rfl⟩
abbrev main_call42_v13 : Ref sig .tc := ⟨.hbm, 1153, rfl⟩
abbrev main_call42_v14 : Ref sig .tc := ⟨.hbm, 1154, rfl⟩
abbrev main_call42_cst : Ref sig .tc := ⟨.hbm, 1155, rfl⟩
abbrev main_call42_v15 : Ref sig .tc := ⟨.hbm, 1156, rfl⟩
abbrev main_v210 : Ref sig .tc := ⟨.hbm, 1157, rfl⟩
abbrev main_v211 : Ref sig .tc := ⟨.hbm, 1158, rfl⟩
abbrev main_v212 : Ref sig .tc := ⟨.hbm, 1159, rfl⟩
abbrev main_v213 : Ref sig .tc := ⟨.hbm, 1160, rfl⟩
abbrev main_call43_c : Ref sig .tc := ⟨.hbm, 1161, rfl⟩
abbrev main_call43_v0 : Ref sig .tc := ⟨.hbm, 1162, rfl⟩
abbrev main_call43_v1 : Ref sig .tc := ⟨.hbm, 1163, rfl⟩
abbrev main_call43_c_0 : Ref sig .tc := ⟨.hbm, 1164, rfl⟩
abbrev main_call43_v2 : Ref sig .tc := ⟨.hbm, 1165, rfl⟩
abbrev main_call43_v3 : Ref sig .tc := ⟨.hbm, 1166, rfl⟩
abbrev main_call43_v4 : Ref sig .tc := ⟨.hbm, 1167, rfl⟩
abbrev main_call43_v5 : Ref sig .tc := ⟨.hbm, 1168, rfl⟩
abbrev main_call43_c_1 : Ref sig .tc := ⟨.hbm, 1169, rfl⟩
abbrev main_call43_c_2 : Ref sig .tc := ⟨.hbm, 1170, rfl⟩
abbrev main_call43_v6 : Ref sig .tc := ⟨.hbm, 1171, rfl⟩
abbrev main_call43_v7 : Ref sig .tc := ⟨.hbm, 1172, rfl⟩
abbrev main_call43_v8 : Ref sig .tc := ⟨.hbm, 1173, rfl⟩
abbrev main_call43_v9 : Ref sig .tc := ⟨.hbm, 1174, rfl⟩
abbrev main_call43_v10 : Ref sig .tc := ⟨.hbm, 1175, rfl⟩
abbrev main_call43_v11 : Ref sig .tc := ⟨.hbm, 1176, rfl⟩
abbrev main_call43_c_3 : Ref sig .tc := ⟨.hbm, 1177, rfl⟩
abbrev main_call43_v12 : Ref sig .tc := ⟨.hbm, 1178, rfl⟩
abbrev main_call43_v13 : Ref sig .tc := ⟨.hbm, 1179, rfl⟩
abbrev main_call43_v14 : Ref sig .tc := ⟨.hbm, 1180, rfl⟩
abbrev main_call43_cst : Ref sig .tc := ⟨.hbm, 1181, rfl⟩
abbrev main_call43_v15 : Ref sig .tc := ⟨.hbm, 1182, rfl⟩
abbrev main_v214 : Ref sig .tc := ⟨.hbm, 1183, rfl⟩
abbrev main_v215 : Ref sig .tc := ⟨.hbm, 1184, rfl⟩
abbrev main_v216 : Ref sig .tc := ⟨.hbm, 1185, rfl⟩
abbrev main_v217 : Ref sig .tc := ⟨.hbm, 1186, rfl⟩
abbrev main_call44_c : Ref sig .tc := ⟨.hbm, 1187, rfl⟩
abbrev main_call44_v0 : Ref sig .tc := ⟨.hbm, 1188, rfl⟩
abbrev main_call44_v1 : Ref sig .tc := ⟨.hbm, 1189, rfl⟩
abbrev main_call44_c_0 : Ref sig .tc := ⟨.hbm, 1190, rfl⟩
abbrev main_call44_v2 : Ref sig .tc := ⟨.hbm, 1191, rfl⟩
abbrev main_call44_v3 : Ref sig .tc := ⟨.hbm, 1192, rfl⟩
abbrev main_call44_v4 : Ref sig .tc := ⟨.hbm, 1193, rfl⟩
abbrev main_call44_v5 : Ref sig .tc := ⟨.hbm, 1194, rfl⟩
abbrev main_call44_c_1 : Ref sig .tc := ⟨.hbm, 1195, rfl⟩
abbrev main_call44_c_2 : Ref sig .tc := ⟨.hbm, 1196, rfl⟩
abbrev main_call44_v6 : Ref sig .tc := ⟨.hbm, 1197, rfl⟩
abbrev main_call44_v7 : Ref sig .tc := ⟨.hbm, 1198, rfl⟩
abbrev main_call44_v8 : Ref sig .tc := ⟨.hbm, 1199, rfl⟩
abbrev main_call44_v9 : Ref sig .tc := ⟨.hbm, 1200, rfl⟩
abbrev main_call44_v10 : Ref sig .tc := ⟨.hbm, 1201, rfl⟩
abbrev main_call44_v11 : Ref sig .tc := ⟨.hbm, 1202, rfl⟩
abbrev main_call44_c_3 : Ref sig .tc := ⟨.hbm, 1203, rfl⟩
abbrev main_call44_v12 : Ref sig .tc := ⟨.hbm, 1204, rfl⟩
abbrev main_call44_v13 : Ref sig .tc := ⟨.hbm, 1205, rfl⟩
abbrev main_call44_v14 : Ref sig .tc := ⟨.hbm, 1206, rfl⟩
abbrev main_call44_cst : Ref sig .tc := ⟨.hbm, 1207, rfl⟩
abbrev main_call44_v15 : Ref sig .tc := ⟨.hbm, 1208, rfl⟩
abbrev main_v218 : Ref sig .tc := ⟨.hbm, 1209, rfl⟩
abbrev main_v219 : Ref sig .tc := ⟨.hbm, 1210, rfl⟩
abbrev main_v220 : Ref sig .tc := ⟨.hbm, 1211, rfl⟩
abbrev main_v221 : Ref sig .tc := ⟨.hbm, 1212, rfl⟩
abbrev main_call45_c : Ref sig .tc := ⟨.hbm, 1213, rfl⟩
abbrev main_call45_v0 : Ref sig .tc := ⟨.hbm, 1214, rfl⟩
abbrev main_call45_v1 : Ref sig .tc := ⟨.hbm, 1215, rfl⟩
abbrev main_call45_c_0 : Ref sig .tc := ⟨.hbm, 1216, rfl⟩
abbrev main_call45_v2 : Ref sig .tc := ⟨.hbm, 1217, rfl⟩
abbrev main_call45_v3 : Ref sig .tc := ⟨.hbm, 1218, rfl⟩
abbrev main_call45_v4 : Ref sig .tc := ⟨.hbm, 1219, rfl⟩
abbrev main_call45_v5 : Ref sig .tc := ⟨.hbm, 1220, rfl⟩
abbrev main_call45_c_1 : Ref sig .tc := ⟨.hbm, 1221, rfl⟩
abbrev main_call45_c_2 : Ref sig .tc := ⟨.hbm, 1222, rfl⟩
abbrev main_call45_v6 : Ref sig .tc := ⟨.hbm, 1223, rfl⟩
abbrev main_call45_v7 : Ref sig .tc := ⟨.hbm, 1224, rfl⟩
abbrev main_call45_v8 : Ref sig .tc := ⟨.hbm, 1225, rfl⟩
abbrev main_call45_v9 : Ref sig .tc := ⟨.hbm, 1226, rfl⟩
abbrev main_call45_v10 : Ref sig .tc := ⟨.hbm, 1227, rfl⟩
abbrev main_call45_v11 : Ref sig .tc := ⟨.hbm, 1228, rfl⟩
abbrev main_call45_c_3 : Ref sig .tc := ⟨.hbm, 1229, rfl⟩
abbrev main_call45_v12 : Ref sig .tc := ⟨.hbm, 1230, rfl⟩
abbrev main_call45_v13 : Ref sig .tc := ⟨.hbm, 1231, rfl⟩
abbrev main_call45_v14 : Ref sig .tc := ⟨.hbm, 1232, rfl⟩
abbrev main_call45_cst : Ref sig .tc := ⟨.hbm, 1233, rfl⟩
abbrev main_call45_v15 : Ref sig .tc := ⟨.hbm, 1234, rfl⟩
abbrev main_v222 : Ref sig .tc := ⟨.hbm, 1235, rfl⟩
abbrev main_v223 : Ref sig .tc := ⟨.hbm, 1236, rfl⟩
abbrev main_v224 : Ref sig .tc := ⟨.hbm, 1237, rfl⟩
abbrev main_v225 : Ref sig .tc := ⟨.hbm, 1238, rfl⟩
abbrev main_call46_c : Ref sig .tc := ⟨.hbm, 1239, rfl⟩
abbrev main_call46_v0 : Ref sig .tc := ⟨.hbm, 1240, rfl⟩
abbrev main_call46_v1 : Ref sig .tc := ⟨.hbm, 1241, rfl⟩
abbrev main_call46_c_0 : Ref sig .tc := ⟨.hbm, 1242, rfl⟩
abbrev main_call46_v2 : Ref sig .tc := ⟨.hbm, 1243, rfl⟩
abbrev main_call46_v3 : Ref sig .tc := ⟨.hbm, 1244, rfl⟩
abbrev main_call46_v4 : Ref sig .tc := ⟨.hbm, 1245, rfl⟩
abbrev main_call46_v5 : Ref sig .tc := ⟨.hbm, 1246, rfl⟩
abbrev main_call46_c_1 : Ref sig .tc := ⟨.hbm, 1247, rfl⟩
abbrev main_call46_c_2 : Ref sig .tc := ⟨.hbm, 1248, rfl⟩
abbrev main_call46_v6 : Ref sig .tc := ⟨.hbm, 1249, rfl⟩
abbrev main_call46_v7 : Ref sig .tc := ⟨.hbm, 1250, rfl⟩
abbrev main_call46_v8 : Ref sig .tc := ⟨.hbm, 1251, rfl⟩
abbrev main_call46_v9 : Ref sig .tc := ⟨.hbm, 1252, rfl⟩
abbrev main_call46_v10 : Ref sig .tc := ⟨.hbm, 1253, rfl⟩
abbrev main_call46_v11 : Ref sig .tc := ⟨.hbm, 1254, rfl⟩
abbrev main_call46_c_3 : Ref sig .tc := ⟨.hbm, 1255, rfl⟩
abbrev main_call46_v12 : Ref sig .tc := ⟨.hbm, 1256, rfl⟩
abbrev main_call46_v13 : Ref sig .tc := ⟨.hbm, 1257, rfl⟩
abbrev main_call46_v14 : Ref sig .tc := ⟨.hbm, 1258, rfl⟩
abbrev main_call46_cst : Ref sig .tc := ⟨.hbm, 1259, rfl⟩
abbrev main_call46_v15 : Ref sig .tc := ⟨.hbm, 1260, rfl⟩
abbrev main_v226 : Ref sig .tc := ⟨.hbm, 1261, rfl⟩
abbrev main_v227 : Ref sig .tc := ⟨.hbm, 1262, rfl⟩
abbrev main_v228 : Ref sig .tc := ⟨.hbm, 1263, rfl⟩
abbrev main_v229 : Ref sig .tc := ⟨.hbm, 1264, rfl⟩
abbrev main_call47_c : Ref sig .tc := ⟨.hbm, 1265, rfl⟩
abbrev main_call47_v0 : Ref sig .tc := ⟨.hbm, 1266, rfl⟩
abbrev main_call47_v1 : Ref sig .tc := ⟨.hbm, 1267, rfl⟩
abbrev main_call47_c_0 : Ref sig .tc := ⟨.hbm, 1268, rfl⟩
abbrev main_call47_v2 : Ref sig .tc := ⟨.hbm, 1269, rfl⟩
abbrev main_call47_v3 : Ref sig .tc := ⟨.hbm, 1270, rfl⟩
abbrev main_call47_v4 : Ref sig .tc := ⟨.hbm, 1271, rfl⟩
abbrev main_call47_v5 : Ref sig .tc := ⟨.hbm, 1272, rfl⟩
abbrev main_call47_c_1 : Ref sig .tc := ⟨.hbm, 1273, rfl⟩
abbrev main_call47_c_2 : Ref sig .tc := ⟨.hbm, 1274, rfl⟩
abbrev main_call47_v6 : Ref sig .tc := ⟨.hbm, 1275, rfl⟩
abbrev main_call47_v7 : Ref sig .tc := ⟨.hbm, 1276, rfl⟩
abbrev main_call47_v8 : Ref sig .tc := ⟨.hbm, 1277, rfl⟩
abbrev main_call47_v9 : Ref sig .tc := ⟨.hbm, 1278, rfl⟩
abbrev main_call47_v10 : Ref sig .tc := ⟨.hbm, 1279, rfl⟩
abbrev main_call47_v11 : Ref sig .tc := ⟨.hbm, 1280, rfl⟩
abbrev main_call47_c_3 : Ref sig .tc := ⟨.hbm, 1281, rfl⟩
abbrev main_call47_v12 : Ref sig .tc := ⟨.hbm, 1282, rfl⟩
abbrev main_call47_v13 : Ref sig .tc := ⟨.hbm, 1283, rfl⟩
abbrev main_call47_v14 : Ref sig .tc := ⟨.hbm, 1284, rfl⟩
abbrev main_call47_cst : Ref sig .tc := ⟨.hbm, 1285, rfl⟩
abbrev main_call47_v15 : Ref sig .tc := ⟨.hbm, 1286, rfl⟩
abbrev main_v230 : Ref sig .tc := ⟨.hbm, 1287, rfl⟩
abbrev main_v231 : Ref sig .tc := ⟨.hbm, 1288, rfl⟩
abbrev main_v232 : Ref sig .tc := ⟨.hbm, 1289, rfl⟩
abbrev main_v233 : Ref sig .tc := ⟨.hbm, 1290, rfl⟩
abbrev main_call48_c : Ref sig .tc := ⟨.hbm, 1291, rfl⟩
abbrev main_call48_v0 : Ref sig .tc := ⟨.hbm, 1292, rfl⟩
abbrev main_call48_v1 : Ref sig .tc := ⟨.hbm, 1293, rfl⟩
abbrev main_call48_c_0 : Ref sig .tc := ⟨.hbm, 1294, rfl⟩
abbrev main_call48_v2 : Ref sig .tc := ⟨.hbm, 1295, rfl⟩
abbrev main_call48_v3 : Ref sig .tc := ⟨.hbm, 1296, rfl⟩
abbrev main_call48_v4 : Ref sig .tc := ⟨.hbm, 1297, rfl⟩
abbrev main_call48_v5 : Ref sig .tc := ⟨.hbm, 1298, rfl⟩
abbrev main_call48_c_1 : Ref sig .tc := ⟨.hbm, 1299, rfl⟩
abbrev main_call48_c_2 : Ref sig .tc := ⟨.hbm, 1300, rfl⟩
abbrev main_call48_v6 : Ref sig .tc := ⟨.hbm, 1301, rfl⟩
abbrev main_call48_v7 : Ref sig .tc := ⟨.hbm, 1302, rfl⟩
abbrev main_call48_v8 : Ref sig .tc := ⟨.hbm, 1303, rfl⟩
abbrev main_call48_v9 : Ref sig .tc := ⟨.hbm, 1304, rfl⟩
abbrev main_call48_v10 : Ref sig .tc := ⟨.hbm, 1305, rfl⟩
abbrev main_call48_v11 : Ref sig .tc := ⟨.hbm, 1306, rfl⟩
abbrev main_call48_c_3 : Ref sig .tc := ⟨.hbm, 1307, rfl⟩
abbrev main_call48_v12 : Ref sig .tc := ⟨.hbm, 1308, rfl⟩
abbrev main_call48_v13 : Ref sig .tc := ⟨.hbm, 1309, rfl⟩
abbrev main_call48_v14 : Ref sig .tc := ⟨.hbm, 1310, rfl⟩
abbrev main_call48_cst : Ref sig .tc := ⟨.hbm, 1311, rfl⟩
abbrev main_call48_v15 : Ref sig .tc := ⟨.hbm, 1312, rfl⟩
abbrev main_v234 : Ref sig .tc := ⟨.hbm, 1313, rfl⟩
abbrev main_v235 : Ref sig .tc := ⟨.hbm, 1314, rfl⟩
abbrev main_v236 : Ref sig .tc := ⟨.hbm, 1315, rfl⟩
abbrev main_v237 : Ref sig .tc := ⟨.hbm, 1316, rfl⟩
abbrev main_call49_c : Ref sig .tc := ⟨.hbm, 1317, rfl⟩
abbrev main_call49_v0 : Ref sig .tc := ⟨.hbm, 1318, rfl⟩
abbrev main_call49_v1 : Ref sig .tc := ⟨.hbm, 1319, rfl⟩
abbrev main_call49_c_0 : Ref sig .tc := ⟨.hbm, 1320, rfl⟩
abbrev main_call49_v2 : Ref sig .tc := ⟨.hbm, 1321, rfl⟩
abbrev main_call49_v3 : Ref sig .tc := ⟨.hbm, 1322, rfl⟩
abbrev main_call49_v4 : Ref sig .tc := ⟨.hbm, 1323, rfl⟩
abbrev main_call49_v5 : Ref sig .tc := ⟨.hbm, 1324, rfl⟩
abbrev main_call49_c_1 : Ref sig .tc := ⟨.hbm, 1325, rfl⟩
abbrev main_call49_c_2 : Ref sig .tc := ⟨.hbm, 1326, rfl⟩
abbrev main_call49_v6 : Ref sig .tc := ⟨.hbm, 1327, rfl⟩
abbrev main_call49_v7 : Ref sig .tc := ⟨.hbm, 1328, rfl⟩
abbrev main_call49_v8 : Ref sig .tc := ⟨.hbm, 1329, rfl⟩
abbrev main_call49_v9 : Ref sig .tc := ⟨.hbm, 1330, rfl⟩
abbrev main_call49_v10 : Ref sig .tc := ⟨.hbm, 1331, rfl⟩
abbrev main_call49_v11 : Ref sig .tc := ⟨.hbm, 1332, rfl⟩
abbrev main_call49_c_3 : Ref sig .tc := ⟨.hbm, 1333, rfl⟩
abbrev main_call49_v12 : Ref sig .tc := ⟨.hbm, 1334, rfl⟩
abbrev main_call49_v13 : Ref sig .tc := ⟨.hbm, 1335, rfl⟩
abbrev main_call49_v14 : Ref sig .tc := ⟨.hbm, 1336, rfl⟩
abbrev main_call49_cst : Ref sig .tc := ⟨.hbm, 1337, rfl⟩
abbrev main_call49_v15 : Ref sig .tc := ⟨.hbm, 1338, rfl⟩
abbrev main_v238 : Ref sig .tc := ⟨.hbm, 1339, rfl⟩
abbrev main_v239 : Ref sig .tc := ⟨.hbm, 1340, rfl⟩
abbrev main_v240 : Ref sig .tc := ⟨.hbm, 1341, rfl⟩
abbrev main_v241 : Ref sig .tc := ⟨.hbm, 1342, rfl⟩
abbrev main_call50_c : Ref sig .tc := ⟨.hbm, 1343, rfl⟩
abbrev main_call50_v0 : Ref sig .tc := ⟨.hbm, 1344, rfl⟩
abbrev main_call50_v1 : Ref sig .tc := ⟨.hbm, 1345, rfl⟩
abbrev main_call50_c_0 : Ref sig .tc := ⟨.hbm, 1346, rfl⟩
abbrev main_call50_v2 : Ref sig .tc := ⟨.hbm, 1347, rfl⟩
abbrev main_call50_v3 : Ref sig .tc := ⟨.hbm, 1348, rfl⟩
abbrev main_call50_v4 : Ref sig .tc := ⟨.hbm, 1349, rfl⟩
abbrev main_call50_v5 : Ref sig .tc := ⟨.hbm, 1350, rfl⟩
abbrev main_call50_c_1 : Ref sig .tc := ⟨.hbm, 1351, rfl⟩
abbrev main_call50_c_2 : Ref sig .tc := ⟨.hbm, 1352, rfl⟩
abbrev main_call50_v6 : Ref sig .tc := ⟨.hbm, 1353, rfl⟩
abbrev main_call50_v7 : Ref sig .tc := ⟨.hbm, 1354, rfl⟩
abbrev main_call50_v8 : Ref sig .tc := ⟨.hbm, 1355, rfl⟩
abbrev main_call50_v9 : Ref sig .tc := ⟨.hbm, 1356, rfl⟩
abbrev main_call50_v10 : Ref sig .tc := ⟨.hbm, 1357, rfl⟩
abbrev main_call50_v11 : Ref sig .tc := ⟨.hbm, 1358, rfl⟩
abbrev main_call50_c_3 : Ref sig .tc := ⟨.hbm, 1359, rfl⟩
abbrev main_call50_v12 : Ref sig .tc := ⟨.hbm, 1360, rfl⟩
abbrev main_call50_v13 : Ref sig .tc := ⟨.hbm, 1361, rfl⟩
abbrev main_call50_v14 : Ref sig .tc := ⟨.hbm, 1362, rfl⟩
abbrev main_call50_cst : Ref sig .tc := ⟨.hbm, 1363, rfl⟩
abbrev main_call50_v15 : Ref sig .tc := ⟨.hbm, 1364, rfl⟩
abbrev main_v242 : Ref sig .tc := ⟨.hbm, 1365, rfl⟩
abbrev main_v243 : Ref sig .tc := ⟨.hbm, 1366, rfl⟩
abbrev main_v244 : Ref sig .tc := ⟨.hbm, 1367, rfl⟩
abbrev main_v245 : Ref sig .tc := ⟨.hbm, 1368, rfl⟩
abbrev main_call51_c : Ref sig .tc := ⟨.hbm, 1369, rfl⟩
abbrev main_call51_v0 : Ref sig .tc := ⟨.hbm, 1370, rfl⟩
abbrev main_call51_v1 : Ref sig .tc := ⟨.hbm, 1371, rfl⟩
abbrev main_call51_c_0 : Ref sig .tc := ⟨.hbm, 1372, rfl⟩
abbrev main_call51_v2 : Ref sig .tc := ⟨.hbm, 1373, rfl⟩
abbrev main_call51_v3 : Ref sig .tc := ⟨.hbm, 1374, rfl⟩
abbrev main_call51_v4 : Ref sig .tc := ⟨.hbm, 1375, rfl⟩
abbrev main_call51_v5 : Ref sig .tc := ⟨.hbm, 1376, rfl⟩
abbrev main_call51_c_1 : Ref sig .tc := ⟨.hbm, 1377, rfl⟩
abbrev main_call51_c_2 : Ref sig .tc := ⟨.hbm, 1378, rfl⟩
abbrev main_call51_v6 : Ref sig .tc := ⟨.hbm, 1379, rfl⟩
abbrev main_call51_v7 : Ref sig .tc := ⟨.hbm, 1380, rfl⟩
abbrev main_call51_v8 : Ref sig .tc := ⟨.hbm, 1381, rfl⟩
abbrev main_call51_v9 : Ref sig .tc := ⟨.hbm, 1382, rfl⟩
abbrev main_call51_v10 : Ref sig .tc := ⟨.hbm, 1383, rfl⟩
abbrev main_call51_v11 : Ref sig .tc := ⟨.hbm, 1384, rfl⟩
abbrev main_call51_c_3 : Ref sig .tc := ⟨.hbm, 1385, rfl⟩
abbrev main_call51_v12 : Ref sig .tc := ⟨.hbm, 1386, rfl⟩
abbrev main_call51_v13 : Ref sig .tc := ⟨.hbm, 1387, rfl⟩
abbrev main_call51_v14 : Ref sig .tc := ⟨.hbm, 1388, rfl⟩
abbrev main_call51_cst : Ref sig .tc := ⟨.hbm, 1389, rfl⟩
abbrev main_call51_v15 : Ref sig .tc := ⟨.hbm, 1390, rfl⟩
abbrev main_v246 : Ref sig .tc := ⟨.hbm, 1391, rfl⟩
abbrev main_v247 : Ref sig .tc := ⟨.hbm, 1392, rfl⟩
abbrev main_v248 : Ref sig .tc := ⟨.hbm, 1393, rfl⟩
abbrev main_v249 : Ref sig .tc := ⟨.hbm, 1394, rfl⟩
abbrev main_call52_c : Ref sig .tc := ⟨.hbm, 1395, rfl⟩
abbrev main_call52_v0 : Ref sig .tc := ⟨.hbm, 1396, rfl⟩
abbrev main_call52_v1 : Ref sig .tc := ⟨.hbm, 1397, rfl⟩
abbrev main_call52_c_0 : Ref sig .tc := ⟨.hbm, 1398, rfl⟩
abbrev main_call52_v2 : Ref sig .tc := ⟨.hbm, 1399, rfl⟩
abbrev main_call52_v3 : Ref sig .tc := ⟨.hbm, 1400, rfl⟩
abbrev main_call52_v4 : Ref sig .tc := ⟨.hbm, 1401, rfl⟩
abbrev main_call52_v5 : Ref sig .tc := ⟨.hbm, 1402, rfl⟩
abbrev main_call52_c_1 : Ref sig .tc := ⟨.hbm, 1403, rfl⟩
abbrev main_call52_c_2 : Ref sig .tc := ⟨.hbm, 1404, rfl⟩
abbrev main_call52_v6 : Ref sig .tc := ⟨.hbm, 1405, rfl⟩
abbrev main_call52_v7 : Ref sig .tc := ⟨.hbm, 1406, rfl⟩
abbrev main_call52_v8 : Ref sig .tc := ⟨.hbm, 1407, rfl⟩
abbrev main_call52_v9 : Ref sig .tc := ⟨.hbm, 1408, rfl⟩
abbrev main_call52_v10 : Ref sig .tc := ⟨.hbm, 1409, rfl⟩
abbrev main_call52_v11 : Ref sig .tc := ⟨.hbm, 1410, rfl⟩
abbrev main_call52_c_3 : Ref sig .tc := ⟨.hbm, 1411, rfl⟩
abbrev main_call52_v12 : Ref sig .tc := ⟨.hbm, 1412, rfl⟩
abbrev main_call52_v13 : Ref sig .tc := ⟨.hbm, 1413, rfl⟩
abbrev main_call52_v14 : Ref sig .tc := ⟨.hbm, 1414, rfl⟩
abbrev main_call52_cst : Ref sig .tc := ⟨.hbm, 1415, rfl⟩
abbrev main_call52_v15 : Ref sig .tc := ⟨.hbm, 1416, rfl⟩
abbrev main_v250 : Ref sig .tc := ⟨.hbm, 1417, rfl⟩
abbrev main_v251 : Ref sig .tc := ⟨.hbm, 1418, rfl⟩
abbrev main_v252 : Ref sig .tc := ⟨.hbm, 1419, rfl⟩
abbrev main_v253 : Ref sig .tc := ⟨.hbm, 1420, rfl⟩
abbrev main_call53_c : Ref sig .tc := ⟨.hbm, 1421, rfl⟩
abbrev main_call53_v0 : Ref sig .tc := ⟨.hbm, 1422, rfl⟩
abbrev main_call53_v1 : Ref sig .tc := ⟨.hbm, 1423, rfl⟩
abbrev main_call53_c_0 : Ref sig .tc := ⟨.hbm, 1424, rfl⟩
abbrev main_call53_v2 : Ref sig .tc := ⟨.hbm, 1425, rfl⟩
abbrev main_call53_v3 : Ref sig .tc := ⟨.hbm, 1426, rfl⟩
abbrev main_call53_v4 : Ref sig .tc := ⟨.hbm, 1427, rfl⟩
abbrev main_call53_v5 : Ref sig .tc := ⟨.hbm, 1428, rfl⟩
abbrev main_call53_c_1 : Ref sig .tc := ⟨.hbm, 1429, rfl⟩
abbrev main_call53_c_2 : Ref sig .tc := ⟨.hbm, 1430, rfl⟩
abbrev main_call53_v6 : Ref sig .tc := ⟨.hbm, 1431, rfl⟩
abbrev main_call53_v7 : Ref sig .tc := ⟨.hbm, 1432, rfl⟩
abbrev main_call53_v8 : Ref sig .tc := ⟨.hbm, 1433, rfl⟩
abbrev main_call53_v9 : Ref sig .tc := ⟨.hbm, 1434, rfl⟩
abbrev main_call53_v10 : Ref sig .tc := ⟨.hbm, 1435, rfl⟩
abbrev main_call53_v11 : Ref sig .tc := ⟨.hbm, 1436, rfl⟩
abbrev main_call53_c_3 : Ref sig .tc := ⟨.hbm, 1437, rfl⟩
abbrev main_call53_v12 : Ref sig .tc := ⟨.hbm, 1438, rfl⟩
abbrev main_call53_v13 : Ref sig .tc := ⟨.hbm, 1439, rfl⟩
abbrev main_call53_v14 : Ref sig .tc := ⟨.hbm, 1440, rfl⟩
abbrev main_call53_cst : Ref sig .tc := ⟨.hbm, 1441, rfl⟩
abbrev main_call53_v15 : Ref sig .tc := ⟨.hbm, 1442, rfl⟩
abbrev main_v254 : Ref sig .tc := ⟨.hbm, 1443, rfl⟩
abbrev main_v255 : Ref sig .tc := ⟨.hbm, 1444, rfl⟩
abbrev main_v256 : Ref sig .tc := ⟨.hbm, 1445, rfl⟩
abbrev main_v257 : Ref sig .tc := ⟨.hbm, 1446, rfl⟩
abbrev main_call54_c : Ref sig .tc := ⟨.hbm, 1447, rfl⟩
abbrev main_call54_v0 : Ref sig .tc := ⟨.hbm, 1448, rfl⟩
abbrev main_call54_v1 : Ref sig .tc := ⟨.hbm, 1449, rfl⟩
abbrev main_call54_c_0 : Ref sig .tc := ⟨.hbm, 1450, rfl⟩
abbrev main_call54_v2 : Ref sig .tc := ⟨.hbm, 1451, rfl⟩
abbrev main_call54_v3 : Ref sig .tc := ⟨.hbm, 1452, rfl⟩
abbrev main_call54_v4 : Ref sig .tc := ⟨.hbm, 1453, rfl⟩
abbrev main_call54_v5 : Ref sig .tc := ⟨.hbm, 1454, rfl⟩
abbrev main_call54_c_1 : Ref sig .tc := ⟨.hbm, 1455, rfl⟩
abbrev main_call54_c_2 : Ref sig .tc := ⟨.hbm, 1456, rfl⟩
abbrev main_call54_v6 : Ref sig .tc := ⟨.hbm, 1457, rfl⟩
abbrev main_call54_v7 : Ref sig .tc := ⟨.hbm, 1458, rfl⟩
abbrev main_call54_v8 : Ref sig .tc := ⟨.hbm, 1459, rfl⟩
abbrev main_call54_v9 : Ref sig .tc := ⟨.hbm, 1460, rfl⟩
abbrev main_call54_v10 : Ref sig .tc := ⟨.hbm, 1461, rfl⟩
abbrev main_call54_v11 : Ref sig .tc := ⟨.hbm, 1462, rfl⟩
abbrev main_call54_c_3 : Ref sig .tc := ⟨.hbm, 1463, rfl⟩
abbrev main_call54_v12 : Ref sig .tc := ⟨.hbm, 1464, rfl⟩
abbrev main_call54_v13 : Ref sig .tc := ⟨.hbm, 1465, rfl⟩
abbrev main_call54_v14 : Ref sig .tc := ⟨.hbm, 1466, rfl⟩
abbrev main_call54_cst : Ref sig .tc := ⟨.hbm, 1467, rfl⟩
abbrev main_call54_v15 : Ref sig .tc := ⟨.hbm, 1468, rfl⟩
abbrev main_v258 : Ref sig .tc := ⟨.hbm, 1469, rfl⟩
abbrev main_v259 : Ref sig .tc := ⟨.hbm, 1470, rfl⟩
abbrev main_v260 : Ref sig .tc := ⟨.hbm, 1471, rfl⟩
abbrev main_v261 : Ref sig .tc := ⟨.hbm, 1472, rfl⟩
abbrev main_v262 : Ref sig .tc := ⟨.hbm, 1473, rfl⟩
abbrev main_cst_5 : Ref sig .tc := ⟨.hbm, 1474, rfl⟩
abbrev main_v263 : Ref sig .tc := ⟨.hbm, 1475, rfl⟩
abbrev main_c_6 : Ref sig .tc := ⟨.hbm, 1476, rfl⟩
abbrev main_v264 : Ref sig .tc := ⟨.hbm, 1477, rfl⟩
abbrev main_v265 : Ref sig .tc := ⟨.hbm, 1478, rfl⟩
abbrev main_c_7 : Ref sig .tc := ⟨.hbm, 1479, rfl⟩
abbrev main_v266 : Ref sig .tc := ⟨.hbm, 1480, rfl⟩
abbrev main_v267 : Ref sig .tc := ⟨.hbm, 1481, rfl⟩
abbrev main_v268 : Ref sig .tc := ⟨.hbm, 1482, rfl⟩
abbrev main_v269 : Ref sig .tc := ⟨.hbm, 1483, rfl⟩
abbrev main_v270 : Ref sig .tc := ⟨.hbm, 1484, rfl⟩
abbrev main_call55_v0 : Ref sig .tc := ⟨.hbm, 1485, rfl⟩
abbrev main_call55_v1 : Ref sig .tc := ⟨.hbm, 1486, rfl⟩
abbrev main_call55_v2 : Ref sig .tc := ⟨.hbm, 1487, rfl⟩
abbrev main_call55_v3 : Ref sig .tc := ⟨.hbm, 1488, rfl⟩
abbrev main_call55_v4 : Ref sig .tc := ⟨.hbm, 1489, rfl⟩
abbrev main_v271 : Ref sig .tc := ⟨.hbm, 1490, rfl⟩
abbrev main_cst_8 : Ref sig .tc := ⟨.hbm, 1491, rfl⟩
abbrev main_v272 : Ref sig .tc := ⟨.hbm, 1492, rfl⟩
abbrev main_cst_9 : Ref sig .tc := ⟨.hbm, 1493, rfl⟩
abbrev main_v273 : Ref sig .tc := ⟨.hbm, 1494, rfl⟩
abbrev main_v274 : Ref sig .tc := ⟨.hbm, 1495, rfl⟩
abbrev main_v275 : Ref sig .tc := ⟨.hbm, 1496, rfl⟩
abbrev main_cst_10 : Ref sig .tc := ⟨.hbm, 1497, rfl⟩
abbrev main_v276 : Ref sig .tc := ⟨.hbm, 1498, rfl⟩
abbrev main_v277 : Ref sig .tc := ⟨.hbm, 1499, rfl⟩
abbrev main_v278_0 : Ref sig .tc := ⟨.hbm, 1500, rfl⟩
abbrev main_v278_1 : Ref sig .tc := ⟨.hbm, 1501, rfl⟩
abbrev main_v279 : Ref sig .tc := ⟨.hbm, 1502, rfl⟩
abbrev main_v280 : Ref sig .tc := ⟨.hbm, 1503, rfl⟩
abbrev main_v281 : Ref sig .tc := ⟨.hbm, 1504, rfl⟩
abbrev main_v282 : Ref sig .tc := ⟨.hbm, 1505, rfl⟩
abbrev main_v283 : Ref sig .tc := ⟨.hbm, 1506, rfl⟩
abbrev main_v284 : Ref sig .tc := ⟨.hbm, 1507, rfl⟩
abbrev main_v285 : Ref sig .tc := ⟨.hbm, 1508, rfl⟩
abbrev main_v286 : Ref sig .tc := ⟨.hbm, 1509, rfl⟩
abbrev main_cst_11 : Ref sig .tc := ⟨.hbm, 1510, rfl⟩
abbrev main_v287 : Ref sig .tc := ⟨.hbm, 1511, rfl⟩
abbrev main_v288 : Ref sig .tc := ⟨.hbm, 1512, rfl⟩
abbrev main_v289 : Ref sig .tc := ⟨.hbm, 1513, rfl⟩
abbrev main_v290 : Ref sig .tc := ⟨.hbm, 1514, rfl⟩
abbrev main_v291 : Ref sig .tc := ⟨.hbm, 1515, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc5_stg7_0 : Ref sig .tc := ⟨.vmem, 42, rfl⟩
abbrev cc5_stg7_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc5_sem7_0 : DmaSem sig := 42
abbrev cc5_sem7_1 : DmaSem sig := 43

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1728 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1728 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x8 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x8 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x1728 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x1728 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x8 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S8x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S8x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x8 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S8x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S8x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  bitsLt_bf16_f32 : FTy.bits .bf16 < FTy.bits .f32
  transposes_S27x64x64_S64x27x64_1_0_2 : S27x64x64.Transposes [1, 0, 2] S64x27x64
  shapeCasts_S64x27x64_S64x1728 : S64x27x64.ShapeCasts S64x1728
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x1728_S64x1728_0_0 : ∀ a, (![0, 0] : Fin 2 → Nat) a + S64x1728.size a ≤ S64x1728.size a
  h_S64x1728 : 0 < S64x1728.numel
  shapeCasts_S64x1728_S64x1728 : S64x1728.ShapeCasts S64x1728
  inb_S1000x1728_S1000x1728_0_0 : ∀ a, (![0, 0] : Fin 2 → Nat) a + S1000x1728.size a ≤ S1000x1728.size a
  h_S1000x1728 : 0 < S1000x1728.numel
  slices_S100000x1728_S100000x64_0_0 : S100000x1728.Slices ![0, 0] S100000x64
  slices_S27x100000_S1x100000_0_0 : S27x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  bcast_S_S100000x64 : S_.BroadcastsInDim S100000x64 (![] : Fin 0 → Fin S100000x64.rank)
  slices_S100000x1728_S100000x64_0_64 : S100000x1728.Slices ![0, 64] S100000x64
  slices_S27x100000_S1x100000_1_0 : S27x100000.Slices ![1, 0] S1x100000
  slices_S100000x1728_S100000x64_0_128 : S100000x1728.Slices ![0, 128] S100000x64
  slices_S27x100000_S1x100000_2_0 : S27x100000.Slices ![2, 0] S1x100000
  slices_S100000x1728_S100000x64_0_192 : S100000x1728.Slices ![0, 192] S100000x64
  slices_S27x100000_S1x100000_3_0 : S27x100000.Slices ![3, 0] S1x100000
  slices_S100000x1728_S100000x64_0_256 : S100000x1728.Slices ![0, 256] S100000x64
  slices_S27x100000_S1x100000_4_0 : S27x100000.Slices ![4, 0] S1x100000
  slices_S100000x1728_S100000x64_0_320 : S100000x1728.Slices ![0, 320] S100000x64
  slices_S27x100000_S1x100000_5_0 : S27x100000.Slices ![5, 0] S1x100000
  slices_S100000x1728_S100000x64_0_384 : S100000x1728.Slices ![0, 384] S100000x64
  slices_S27x100000_S1x100000_6_0 : S27x100000.Slices ![6, 0] S1x100000
  slices_S100000x1728_S100000x64_0_448 : S100000x1728.Slices ![0, 448] S100000x64
  slices_S27x100000_S1x100000_7_0 : S27x100000.Slices ![7, 0] S1x100000
  slices_S100000x1728_S100000x64_0_512 : S100000x1728.Slices ![0, 512] S100000x64
  slices_S27x100000_S1x100000_8_0 : S27x100000.Slices ![8, 0] S1x100000
  slices_S100000x1728_S100000x64_0_576 : S100000x1728.Slices ![0, 576] S100000x64
  slices_S27x100000_S1x100000_9_0 : S27x100000.Slices ![9, 0] S1x100000
  slices_S100000x1728_S100000x64_0_640 : S100000x1728.Slices ![0, 640] S100000x64
  slices_S27x100000_S1x100000_10_0 : S27x100000.Slices ![10, 0] S1x100000
  slices_S100000x1728_S100000x64_0_704 : S100000x1728.Slices ![0, 704] S100000x64
  slices_S27x100000_S1x100000_11_0 : S27x100000.Slices ![11, 0] S1x100000
  slices_S100000x1728_S100000x64_0_768 : S100000x1728.Slices ![0, 768] S100000x64
  slices_S27x100000_S1x100000_12_0 : S27x100000.Slices ![12, 0] S1x100000
  slices_S100000x1728_S100000x64_0_832 : S100000x1728.Slices ![0, 832] S100000x64
  slices_S27x100000_S1x100000_13_0 : S27x100000.Slices ![13, 0] S1x100000
  slices_S100000x1728_S100000x64_0_896 : S100000x1728.Slices ![0, 896] S100000x64
  slices_S27x100000_S1x100000_14_0 : S27x100000.Slices ![14, 0] S1x100000
  slices_S100000x1728_S100000x64_0_960 : S100000x1728.Slices ![0, 960] S100000x64
  slices_S27x100000_S1x100000_15_0 : S27x100000.Slices ![15, 0] S1x100000
  slices_S100000x1728_S100000x64_0_1024 : S100000x1728.Slices ![0, 1024] S100000x64
  slices_S27x100000_S1x100000_16_0 : S27x100000.Slices ![16, 0] S1x100000
  slices_S100000x1728_S100000x64_0_1088 : S100000x1728.Slices ![0, 1088] S100000x64
  slices_S27x100000_S1x100000_17_0 : S27x100000.Slices ![17, 0] S1x100000
  slices_S100000x1728_S100000x64_0_1152 : S100000x1728.Slices ![0, 1152] S100000x64
  slices_S27x100000_S1x100000_18_0 : S27x100000.Slices ![18, 0] S1x100000
  slices_S100000x1728_S100000x64_0_1216 : S100000x1728.Slices ![0, 1216] S100000x64
  slices_S27x100000_S1x100000_19_0 : S27x100000.Slices ![19, 0] S1x100000
  slices_S100000x1728_S100000x64_0_1280 : S100000x1728.Slices ![0, 1280] S100000x64
  slices_S27x100000_S1x100000_20_0 : S27x100000.Slices ![20, 0] S1x100000
  slices_S100000x1728_S100000x64_0_1344 : S100000x1728.Slices ![0, 1344] S100000x64
  slices_S27x100000_S1x100000_21_0 : S27x100000.Slices ![21, 0] S1x100000
  slices_S100000x1728_S100000x64_0_1408 : S100000x1728.Slices ![0, 1408] S100000x64
  slices_S27x100000_S1x100000_22_0 : S27x100000.Slices ![22, 0] S1x100000
  slices_S100000x1728_S100000x64_0_1472 : S100000x1728.Slices ![0, 1472] S100000x64
  slices_S27x100000_S1x100000_23_0 : S27x100000.Slices ![23, 0] S1x100000
  slices_S100000x1728_S100000x64_0_1536 : S100000x1728.Slices ![0, 1536] S100000x64
  slices_S27x100000_S1x100000_24_0 : S27x100000.Slices ![24, 0] S1x100000
  slices_S100000x1728_S100000x64_0_1600 : S100000x1728.Slices ![0, 1600] S100000x64
  slices_S27x100000_S1x100000_25_0 : S27x100000.Slices ![25, 0] S1x100000
  slices_S100000x1728_S100000x64_0_1664 : S100000x1728.Slices ![0, 1664] S100000x64
  slices_S27x100000_S1x100000_26_0 : S27x100000.Slices ![26, 0] S1x100000
  concatenates_S100000x64_S100000x64_S100000x64_S100000x64_S100000x64_S100000x64_S100000x64_S100000x64_S100000x64_S100000x64_S100000x64_S100000x64_S100000x64_S100000x64_S100000x64_S100000x64_S1600000x64_d0 : Shape.Concatenates [S100000x64, S100000x64, S100000x64, S100000x64, S100000x64, S100000x64, S100000x64, S100000x64, S100000x64, S100000x64, S100000x64, S100000x64, S100000x64, S100000x64, S100000x64, S100000x64] S1600000x64 0
  concatenates_S100000x64_S100000x64_S100000x64_S100000x64_S100000x64_S100000x64_S100000x64_S100000x64_S100000x64_S100000x64_S100000x64_S1100000x64_d0 : Shape.Concatenates [S100000x64, S100000x64, S100000x64, S100000x64, S100000x64, S100000x64, S100000x64, S100000x64, S100000x64, S100000x64, S100000x64] S1100000x64 0
  concatenates_S1600000x64_S1100000x64_S2700000x64_d0 : Shape.Concatenates [S1600000x64, S1100000x64] S2700000x64 0
  shapeCasts_S27x100000_S2700000 : S27x100000.ShapeCasts S2700000
  bcast_S_S2700000 : S_.BroadcastsInDim S2700000 (![] : Fin 0 → Fin S2700000.rank)
  bcast_S2700000_S2700000x1_0 : S2700000.BroadcastsInDim S2700000x1 (![0] : Fin 1 → Fin S2700000x1.rank)
  bcast_S100000x1_S100000x8_0_1 : S100000x1.BroadcastsInDim S100000x8 (![0, 1] : Fin 2 → Fin S100000x8.rank)
  bcast_S1x8_S100000x8_0_1 : S1x8.BroadcastsInDim S100000x8 (![0, 1] : Fin 2 → Fin S100000x8.rank)
  bcast_S_S8 : S_.BroadcastsInDim S8 (![] : Fin 0 → Fin S8.rank)
  inb_S8x64_S8x64_0_0 : ∀ a, (![0, 0] : Fin 2 → Nat) a + S8x64.size a ≤ S8x64.size a
  h_S8x64 : 0 < S8x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  shapeCasts_S8x64_S8x64 : S8x64.ShapeCasts S8x64
  bcast_S8_S8x1_0 : S8.BroadcastsInDim S8x1 (![0] : Fin 1 → Fin S8x1.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S1000x64_S64x1728_S1000x1728_1_0_0_1_n_n_wf : DotDims.WF S1000x64 S64x1728 S1000x1728 [1] [0] [0] [1] [] []
  gather_S100000x64_S100000x1_S100000x64_1_0_n_n_0_1_164_wf : GatherDims.WF S100000x64 S100000x1 S100000x64 [1] [0] [] [0] [] 1 ![1, 64]
  scatter_S100000x64_S2700000x1_S2700000x64_1_0_0_1_wf : ScatterDims.WF S100000x64 S2700000x1 S2700000x64 [1] [0] [0] 1
  scatter_S8_S100000x1_S100000_n_0_0_1_wf : ScatterDims.WF S8 S100000x1 S100000 [] [0] [0] 1
  dot_S5000x8_S5000x64_S8x64_0_0_1_1_n_n_wf : DotDims.WF S5000x8 S5000x64 S8x64 [0] [0] [1] [1] [] []
  dot_S5000x8_S8x64_S5000x64_1_0_0_1_n_n_wf : DotDims.WF S5000x8 S8x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S100000x64.size a
  hwx0_0 : ∀ i : grid0.Coords, EltTy.bits .bf16 = 32 ∨ (Rect.block (s := S100000x64) S1000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1728.size a ≤ S64x1728.size a
  hwx0_1 : ∀ i : grid0.Coords, EltTy.bits .bf16 = 32 ∨ (Rect.block (s := S64x1728) S64x1728.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1728.size a ≤ S100000x1728.size a
  hwx0_2 : ∀ i : grid0.Coords, EltTy.bits .f32 = 32 ∨ (Rect.block (s := S100000x1728) S1000x1728.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x8.size a ≤ S100000x8.size a
  hwx1_1 : ∀ i : grid1.Coords, EltTy.bits .bf16 = 32 ∨ (Rect.block (s := S100000x8) S5000x8.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S8x64.size a
  hwx1_2 : ∀ i : grid1.Coords, EltTy.bits .f32 = 32 ∨ (Rect.block (s := S8x64) S8x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S8x64.size a
  hwx1_3 : ∀ i : grid1.Coords, EltTy.bits .f32 = 32 ∨ (Rect.block (s := S8x64) S8x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x8.size a ≤ S100000x8.size a
  hwx2_1 : ∀ i : grid2.Coords, EltTy.bits .bf16 = 32 ∨ (Rect.block (s := S100000x8) S5000x8.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x64.size a ≤ S8x64.size a
  hwx2_2 : ∀ i : grid2.Coords, EltTy.bits .f32 = 32 ∨ (Rect.block (s := S8x64) S8x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x64.size a ≤ S8x64.size a
  hwx2_3 : ∀ i : grid2.Coords, EltTy.bits .f32 = 32 ∨ (Rect.block (s := S8x64) S8x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S100000x64.size a
  hwx3_0 : ∀ i : grid3.Coords, EltTy.bits .bf16 = 32 ∨ (Rect.block (s := S100000x64) S1000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1728.size a ≤ S64x1728.size a
  hwx3_1 : ∀ i : grid3.Coords, EltTy.bits .bf16 = 32 ∨ (Rect.block (s := S64x1728) S64x1728.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1728.size a ≤ S100000x1728.size a
  hwx3_2 : ∀ i : grid3.Coords, EltTy.bits .f32 = 32 ∨ (Rect.block (s := S100000x1728) S1000x1728.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x8.size a ≤ S100000x8.size a
  hwx4_1 : ∀ i : grid4.Coords, EltTy.bits .bf16 = 32 ∨ (Rect.block (s := S100000x8) S5000x8.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S8x64.size a ≤ S8x64.size a
  hwx4_2 : ∀ i : grid4.Coords, EltTy.bits .f32 = 32 ∨ (Rect.block (s := S8x64) S8x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S8x64.size a ≤ S8x64.size a
  hwx4_3 : ∀ i : grid4.Coords, EltTy.bits .f32 = 32 ∨ (Rect.block (s := S8x64) S8x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x8.size a ≤ S100000x8.size a
  hwx5_1 : ∀ i : grid5.Coords, EltTy.bits .bf16 = 32 ∨ (Rect.block (s := S100000x8) S5000x8.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S8x64.size a ≤ S8x64.size a
  hwx5_2 : ∀ i : grid5.Coords, EltTy.bits .f32 = 32 ∨ (Rect.block (s := S8x64) S8x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S8x64.size a ≤ S8x64.size a
  hwx5_3 : ∀ i : grid5.Coords, EltTy.bits .f32 = 32 ∨ (Rect.block (s := S8x64) S8x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S100000x64.size a
  hwx5_7 : ∀ i : grid5.Coords, EltTy.bits .f32 = 32 ∨ (Rect.block (s := S100000x64) S5000x64.size (cc5_transform_7 i) (hinb5_7 i)).WholeWords (EltTy.packing .f32)

variable [Facts₀]

def dot_S1000x64_S64x1728_S1000x1728_1_0_0_1_n_n : DotDims S1000x64 S64x1728 S1000x1728 where
  lhsContracting := [1]
  rhsContracting := [0]
  lhsNonContracting := [0]
  rhsNonContracting := [1]
  lhsBatch := []
  rhsBatch := []
  wf := dot_S1000x64_S64x1728_S1000x1728_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def scatter_S100000x64_S2700000x1_S2700000x64_1_0_0_1 : ScatterDims S100000x64 S2700000x1 S2700000x64 where
  updateWindowDims := [1]
  insertedWindowDims := [0]
  scatterDimsToOperandDims := [0]
  indexVectorDim := 1
  wf := scatter_S100000x64_S2700000x1_S2700000x64_1_0_0_1_wf
def scatter_S8_S100000x1_S100000_n_0_0_1 : ScatterDims S8 S100000x1 S100000 where
  updateWindowDims := []
  insertedWindowDims := [0]
  scatterDimsToOperandDims := [0]
  indexVectorDim := 1
  wf := scatter_S8_S100000x1_S100000_n_0_0_1_wf
def dot_S5000x8_S5000x64_S8x64_0_0_1_1_n_n : DotDims S5000x8 S5000x64 S8x64 where
  lhsContracting := [0]
  rhsContracting := [0]
  lhsNonContracting := [1]
  rhsNonContracting := [1]
  lhsBatch := []
  rhsBatch := []
  wf := dot_S5000x8_S5000x64_S8x64_0_0_1_1_n_n_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf

abbrev win0_0 : Pipeline.Window sig grid0 :=
  Pipeline.Window.ofSpec (Memref.whole main_v0) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x1728.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x1728.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v124) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v125) S5000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v132_0) S8x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v132_1) S8x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v124) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v125) S5000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v135) S8x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v142) S8x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v143) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v144) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v145) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v146) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v149) S64x1728.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v150) S1000x1728.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v270) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v271) S5000x8.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v278_0) S8x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v278_1) S8x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v270) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v271) S5000x8.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v281) S8x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v288) S8x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v289) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v290) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg0) S5000x64.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v291) S5000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x64 : Shape := ⟨2, ![100000, 64]⟩
abbrev S27x64x64 : Shape := ⟨3, ![27, 64, 64]⟩
abbrev S64 : Shape := ⟨1, ![64]⟩
abbrev S27x100000 : Shape := ⟨2, ![27, 100000]⟩
abbrev S100000 : Shape := ⟨1, ![100000]⟩
abbrev S_ : Shape := ⟨0, ![]⟩
abbrev S1x100000 : Shape := ⟨2, ![1, 100000]⟩
abbrev S100000x1 : Shape := ⟨2, ![100000, 1]⟩
abbrev S1x64x64 : Shape := ⟨3, ![1, 64, 64]⟩
abbrev S64x64 : Shape := ⟨2, ![64, 64]⟩
abbrev S8x1 : Shape := ⟨2, ![8, 1]⟩
abbrev S8x64 : Shape := ⟨2, ![8, 64]⟩
abbrev S1x64 : Shape := ⟨2, ![1, 64]⟩

abbrev nBuf : Space → Nat
  | .hbm => 1477
  | .vmem => 0
  | .smem => 0
  | _ => 0

abbrev hbmTy0_0 (i : Nat) : BufTy := match i % 128 with
  | 0 => ⟨S100000x64, .f32⟩
  | 1 => ⟨S27x64x64, .f32⟩
  | 2 => ⟨S64, .f32⟩
  | 3 => ⟨S64, .f32⟩
  | 4 => ⟨S27x64x64, .f32⟩
  | 5 => ⟨S64, .f32⟩
  | 6 => ⟨S64, .f32⟩
  | 7 => ⟨S27x100000, .i32⟩
  | 8 => ⟨S27x100000, .i32⟩
  | 9 => ⟨S100000, .i32⟩
  | 10 => ⟨S_, .f32⟩
  | 11 => ⟨S100000x64, .f32⟩
  | 12 => ⟨S1x100000, .i32⟩
  | 13 => ⟨S100000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x64, .f32⟩
  | 23 => ⟨S1x64x64, .f32⟩
  | 24 => ⟨S64x64, .f32⟩
  | 25 => ⟨S100000x64, .f32⟩
  | 26 => ⟨S1x100000, .i32⟩
  | 27 => ⟨S100000, .i32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S100000x1, .i32⟩
  | 36 => ⟨S100000x64, .f32⟩
  | 37 => ⟨S1x100000, .i32⟩
  | 38 => ⟨S100000, .i32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x64, .f32⟩
  | 48 => ⟨S1x64x64, .f32⟩
  | 49 => ⟨S64x64, .f32⟩
  | 50 => ⟨S100000x64, .f32⟩
  | 51 => ⟨S1x100000, .i32⟩
  | 52 => ⟨S100000, .i32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000x64, .f32⟩
  | 62 => ⟨S1x100000, .i32⟩
  | 63 => ⟨S100000, .i32⟩
  | 64 => ⟨S_, .i32⟩
  | 65 => ⟨S100000, .i32⟩
  | 66 => ⟨S100000, .i1⟩
  | 67 => ⟨S_, .i32⟩
  | 68 => ⟨S100000, .i32⟩
  | 69 => ⟨S100000, .i32⟩
  | 70 => ⟨S100000, .i32⟩
  | 71 => ⟨S100000x1, .i32⟩
  | 72 => ⟨S100000x64, .f32⟩
  | 73 => ⟨S1x64x64, .f32⟩
  | 74 => ⟨S64x64, .f32⟩
  | 75 => ⟨S100000x64, .f32⟩
  | 76 => ⟨S1x100000, .i32⟩
  | 77 => ⟨S100000, .i32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S100000x1, .i32⟩
  | 86 => ⟨S100000x64, .f32⟩
  | 87 => ⟨S1x100000, .i32⟩
  | 88 => ⟨S100000, .i32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S100000x64, .f32⟩
  | 98 => ⟨S1x64x64, .f32⟩
  | 99 => ⟨S64x64, .f32⟩
  | 100 => ⟨S100000x64, .f32⟩
  | 101 => ⟨S1x100000, .i32⟩
  | 102 => ⟨S100000, .i32⟩
  | 103 => ⟨S_, .i32⟩
  | 104 => ⟨S100000, .i32⟩
  | 105 => ⟨S100000, .i1⟩
  | 106 => ⟨S_, .i32⟩
  | 107 => ⟨S100000, .i32⟩
  | 108 => ⟨S100000, .i32⟩
  | 109 => ⟨S100000, .i32⟩
  | 110 => ⟨S100000x1, .i32⟩
  | 111 => ⟨S100000x64, .f32⟩
  | 112 => ⟨S1x100000, .i32⟩
  | 113 => ⟨S100000, .i32⟩
  | 114 => ⟨S_, .i32⟩
  | 115 => ⟨S100000, .i32⟩
  | 116 => ⟨S100000, .i1⟩
  | 117 => ⟨S_, .i32⟩
  | 118 => ⟨S100000, .i32⟩
  | 119 => ⟨S100000, .i32⟩
  | 120 => ⟨S100000, .i32⟩
  | 121 => ⟨S100000x1, .i32⟩
  | 122 => ⟨S100000x64, .f32⟩
  | 123 => ⟨S1x64x64, .f32⟩
  | 124 => ⟨S64x64, .f32⟩
  | 125 => ⟨S100000x64, .f32⟩
  | 126 => ⟨S1x100000, .i32⟩
  | 127 => ⟨S100000, .i32⟩
  | _ => ⟨S100000x64, .f32⟩

abbrev hbmTy0_1 (i : Nat) : BufTy := match i % 128 with
  | 0 => ⟨S_, .i32⟩
  | 1 => ⟨S100000, .i32⟩
  | 2 => ⟨S100000, .i1⟩
  | 3 => ⟨S_, .i32⟩
  | 4 => ⟨S100000, .i32⟩
  | 5 => ⟨S100000, .i32⟩
  | 6 => ⟨S100000, .i32⟩
  | 7 => ⟨S100000x1, .i32⟩
  | 8 => ⟨S100000x64, .f32⟩
  | 9 => ⟨S1x100000, .i32⟩
  | 10 => ⟨S100000, .i32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x64, .f32⟩
  | 20 => ⟨S1x64x64, .f32⟩
  | 21 => ⟨S64x64, .f32⟩
  | 22 => ⟨S100000x64, .f32⟩
  | 23 => ⟨S1x100000, .i32⟩
  | 24 => ⟨S100000, .i32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x64, .f32⟩
  | 34 => ⟨S1x100000, .i32⟩
  | 35 => ⟨S100000, .i32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S100000x1, .i32⟩
  | 44 => ⟨S100000x64, .f32⟩
  | 45 => ⟨S1x64x64, .f32⟩
  | 46 => ⟨S64x64, .f32⟩
  | 47 => ⟨S100000x64, .f32⟩
  | 48 => ⟨S1x100000, .i32⟩
  | 49 => ⟨S100000, .i32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000x64, .f32⟩
  | 59 => ⟨S1x100000, .i32⟩
  | 60 => ⟨S100000, .i32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000x64, .f32⟩
  | 70 => ⟨S1x64x64, .f32⟩
  | 71 => ⟨S64x64, .f32⟩
  | 72 => ⟨S100000x64, .f32⟩
  | 73 => ⟨S1x100000, .i32⟩
  | 74 => ⟨S100000, .i32⟩
  | 75 => ⟨S_, .i32⟩
  | 76 => ⟨S100000, .i32⟩
  | 77 => ⟨S100000, .i1⟩
  | 78 => ⟨S_, .i32⟩
  | 79 => ⟨S100000, .i32⟩
  | 80 => ⟨S100000, .i32⟩
  | 81 => ⟨S100000, .i32⟩
  | 82 => ⟨S100000x1, .i32⟩
  | 83 => ⟨S100000x64, .f32⟩
  | 84 => ⟨S1x100000, .i32⟩
  | 85 => ⟨S100000, .i32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000x64, .f32⟩
  | 95 => ⟨S1x64x64, .f32⟩
  | 96 => ⟨S64x64, .f32⟩
  | 97 => ⟨S100000x64, .f32⟩
  | 98 => ⟨S1x100000, .i32⟩
  | 99 => ⟨S100000, .i32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S100000x64, .f32⟩
  | 109 => ⟨S1x100000, .i32⟩
  | 110 => ⟨S100000, .i32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S100000x64, .f32⟩
  | 120 => ⟨S1x64x64, .f32⟩
  | 121 => ⟨S64x64, .f32⟩
  | 122 => ⟨S100000x64, .f32⟩
  | 123 => ⟨S1x100000, .i32⟩
  | 124 => ⟨S100000, .i32⟩
  | 125 => ⟨S_, .i32⟩
  | 126 => ⟨S100000, .i32⟩
  | 127 => ⟨S100000, .i1⟩
  | _ => ⟨S100000x64, .f32⟩

abbrev hbmTy0_2 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S100000x64, .f32⟩
  | 6 => ⟨S1x100000, .i32⟩
  | 7 => ⟨S100000, .i32⟩
  | 8 => ⟨S_, .i32⟩
  | 9 => ⟨S100000, .i32⟩
  | 10 => ⟨S100000, .i1⟩
  | 11 => ⟨S_, .i32⟩
  | 12 => ⟨S100000, .i32⟩
  | 13 => ⟨S100000, .i32⟩
  | 14 => ⟨S100000, .i32⟩
  | 15 => ⟨S100000x1, .i32⟩
  | 16 => ⟨S100000x64, .f32⟩
  | 17 => ⟨S1x64x64, .f32⟩
  | 18 => ⟨S64x64, .f32⟩
  | 19 => ⟨S100000x64, .f32⟩
  | 20 => ⟨S1x100000, .i32⟩
  | 21 => ⟨S100000, .i32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x64, .f32⟩
  | 31 => ⟨S1x100000, .i32⟩
  | 32 => ⟨S100000, .i32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000x64, .f32⟩
  | 42 => ⟨S1x64x64, .f32⟩
  | 43 => ⟨S64x64, .f32⟩
  | 44 => ⟨S100000x64, .f32⟩
  | 45 => ⟨S1x100000, .i32⟩
  | 46 => ⟨S100000, .i32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S100000x64, .f32⟩
  | 56 => ⟨S1x100000, .i32⟩
  | 57 => ⟨S100000, .i32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S100000x1, .i32⟩
  | 66 => ⟨S100000x64, .f32⟩
  | 67 => ⟨S1x64x64, .f32⟩
  | 68 => ⟨S64x64, .f32⟩
  | 69 => ⟨S100000x64, .f32⟩
  | 70 => ⟨S1x100000, .i32⟩
  | 71 => ⟨S100000, .i32⟩
  | 72 => ⟨S_, .i32⟩
  | 73 => ⟨S100000, .i32⟩
  | 74 => ⟨S100000, .i1⟩
  | 75 => ⟨S_, .i32⟩
  | 76 => ⟨S100000, .i32⟩
  | 77 => ⟨S100000, .i32⟩
  | 78 => ⟨S100000, .i32⟩
  | 79 => ⟨S100000x1, .i32⟩
  | 80 => ⟨S100000x64, .f32⟩
  | 81 => ⟨S1x100000, .i32⟩
  | 82 => ⟨S100000, .i32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000x64, .f32⟩
  | 92 => ⟨S1x64x64, .f32⟩
  | 93 => ⟨S64x64, .f32⟩
  | 94 => ⟨S100000x64, .f32⟩
  | 95 => ⟨S1x100000, .i32⟩
  | 96 => ⟨S100000, .i32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x64, .f32⟩
  | 106 => ⟨S1x100000, .i32⟩
  | 107 => ⟨S100000, .i32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S100000x64, .f32⟩
  | 117 => ⟨S1x64x64, .f32⟩
  | 118 => ⟨S64x64, .f32⟩
  | 119 => ⟨S100000x64, .f32⟩
  | 120 => ⟨S1x100000, .i32⟩
  | 121 => ⟨S100000, .i32⟩
  | 122 => ⟨S_, .i32⟩
  | 123 => ⟨S100000, .i32⟩
  | 124 => ⟨S100000, .i1⟩
  | 125 => ⟨S_, .i32⟩
  | 126 => ⟨S100000, .i32⟩
  | 127 => ⟨S100000, .i32⟩
  | _ => ⟨S100000x64, .f32⟩

abbrev hbmTy0_3 (i : Nat) : BufTy := match i % 128 with
  | 0 => ⟨S100000, .i32⟩
  | 1 => ⟨S100000x1, .i32⟩
  | 2 => ⟨S100000x64, .f32⟩
  | 3 => ⟨S1x100000, .i32⟩
  | 4 => ⟨S100000, .i32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S100000x64, .f32⟩
  | 14 => ⟨S1x64x64, .f32⟩
  | 15 => ⟨S64x64, .f32⟩
  | 16 => ⟨S100000x64, .f32⟩
  | 17 => ⟨S1x100000, .i32⟩
  | 18 => ⟨S100000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x64, .f32⟩
  | 28 => ⟨S1x100000, .i32⟩
  | 29 => ⟨S100000, .i32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000x64, .f32⟩
  | 39 => ⟨S1x64x64, .f32⟩
  | 40 => ⟨S64x64, .f32⟩
  | 41 => ⟨S100000x64, .f32⟩
  | 42 => ⟨S1x100000, .i32⟩
  | 43 => ⟨S100000, .i32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S100000x64, .f32⟩
  | 53 => ⟨S1x100000, .i32⟩
  | 54 => ⟨S100000, .i32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S100000x64, .f32⟩
  | 64 => ⟨S1x64x64, .f32⟩
  | 65 => ⟨S64x64, .f32⟩
  | 66 => ⟨S100000x64, .f32⟩
  | 67 => ⟨S1x100000, .i32⟩
  | 68 => ⟨S100000, .i32⟩
  | 69 => ⟨S_, .i32⟩
  | 70 => ⟨S100000, .i32⟩
  | 71 => ⟨S100000, .i1⟩
  | 72 => ⟨S_, .i32⟩
  | 73 => ⟨S100000, .i32⟩
  | 74 => ⟨S100000, .i32⟩
  | 75 => ⟨S100000, .i32⟩
  | 76 => ⟨S100000x1, .i32⟩
  | 77 => ⟨S100000x64, .f32⟩
  | 78 => ⟨S1x100000, .i32⟩
  | 79 => ⟨S100000, .i32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x64, .f32⟩
  | 89 => ⟨S1x64x64, .f32⟩
  | 90 => ⟨S64x64, .f32⟩
  | 91 => ⟨S100000x64, .f32⟩
  | 92 => ⟨S1x100000, .i32⟩
  | 93 => ⟨S100000, .i32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000x64, .f32⟩
  | 103 => ⟨S1x100000, .i32⟩
  | 104 => ⟨S100000, .i32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S100000x64, .f32⟩
  | 114 => ⟨S1x64x64, .f32⟩
  | 115 => ⟨S64x64, .f32⟩
  | 116 => ⟨S100000x64, .f32⟩
  | 117 => ⟨S1x100000, .i32⟩
  | 118 => ⟨S100000, .i32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S100000x64, .f32⟩
  | _ => ⟨S100000x64, .f32⟩

abbrev hbmTy0_4 (i : Nat) : BufTy := match i % 128 with
  | 0 => ⟨S1x100000, .i32⟩
  | 1 => ⟨S100000, .i32⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S100000x64, .f32⟩
  | 11 => ⟨S1x64x64, .f32⟩
  | 12 => ⟨S64x64, .f32⟩
  | 13 => ⟨S100000x64, .f32⟩
  | 14 => ⟨S1x100000, .i32⟩
  | 15 => ⟨S100000, .i32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000x64, .f32⟩
  | 25 => ⟨S1x100000, .i32⟩
  | 26 => ⟨S100000, .i32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x64, .f32⟩
  | 36 => ⟨S1x64x64, .f32⟩
  | 37 => ⟨S64x64, .f32⟩
  | 38 => ⟨S100000x64, .f32⟩
  | 39 => ⟨S1x100000, .i32⟩
  | 40 => ⟨S100000, .i32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x64, .f32⟩
  | 50 => ⟨S1x100000, .i32⟩
  | 51 => ⟨S100000, .i32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000x64, .f32⟩
  | 61 => ⟨S1x64x64, .f32⟩
  | 62 => ⟨S64x64, .f32⟩
  | 63 => ⟨S100000x64, .f32⟩
  | 64 => ⟨S1x100000, .i32⟩
  | 65 => ⟨S100000, .i32⟩
  | 66 => ⟨S_, .i32⟩
  | 67 => ⟨S100000, .i32⟩
  | 68 => ⟨S100000, .i1⟩
  | 69 => ⟨S_, .i32⟩
  | 70 => ⟨S100000, .i32⟩
  | 71 => ⟨S100000, .i32⟩
  | 72 => ⟨S100000, .i32⟩
  | 73 => ⟨S100000x1, .i32⟩
  | 74 => ⟨S100000x64, .f32⟩
  | 75 => ⟨S1x100000, .i32⟩
  | 76 => ⟨S100000, .i32⟩
  | 77 => ⟨S_, .i32⟩
  | 78 => ⟨S100000, .i32⟩
  | 79 => ⟨S100000, .i1⟩
  | 80 => ⟨S_, .i32⟩
  | 81 => ⟨S100000, .i32⟩
  | 82 => ⟨S100000, .i32⟩
  | 83 => ⟨S100000, .i32⟩
  | 84 => ⟨S100000x1, .i32⟩
  | 85 => ⟨S100000x64, .f32⟩
  | 86 => ⟨S1x64x64, .f32⟩
  | 87 => ⟨S64x64, .f32⟩
  | 88 => ⟨S100000x64, .f32⟩
  | 89 => ⟨S1x100000, .i32⟩
  | 90 => ⟨S100000, .i32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S100000x1, .i32⟩
  | 99 => ⟨S100000x64, .f32⟩
  | 100 => ⟨S1x100000, .i32⟩
  | 101 => ⟨S100000, .i32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S100000x64, .f32⟩
  | 111 => ⟨S1x64x64, .f32⟩
  | 112 => ⟨S64x64, .f32⟩
  | 113 => ⟨S100000x64, .f32⟩
  | 114 => ⟨S1x100000, .i32⟩
  | 115 => ⟨S100000, .i32⟩
  | 116 => ⟨S_, .i32⟩
  | 117 => ⟨S100000, .i32⟩
  | 118 => ⟨S100000, .i1⟩
  | 119 => ⟨S_, .i32⟩
  | 120 => ⟨S100000, .i32⟩
  | 121 => ⟨S100000, .i32⟩
  | 122 => ⟨S100000, .i32⟩
  | 123 => ⟨S100000x1, .i32⟩
  | 124 => ⟨S100000x64, .f32⟩
  | 125 => ⟨S1x100000, .i32⟩
  | 126 => ⟨S100000, .i32⟩
  | 127 => ⟨S_, .i32⟩
  | _ => ⟨S100000x64, .f32⟩

abbrev hbmTy0_5 (i : Nat) : BufTy := match i % 128 with
  | 0 => ⟨S100000, .i32⟩
  | 1 => ⟨S100000, .i1⟩
  | 2 => ⟨S_, .i32⟩
  | 3 => ⟨S100000, .i32⟩
  | 4 => ⟨S100000, .i32⟩
  | 5 => ⟨S100000, .i32⟩
  | 6 => ⟨S100000x1, .i32⟩
  | 7 => ⟨S100000x64, .f32⟩
  | 8 => ⟨S1x64x64, .f32⟩
  | 9 => ⟨S64x64, .f32⟩
  | 10 => ⟨S100000x64, .f32⟩
  | 11 => ⟨S1x100000, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x64, .f32⟩
  | 22 => ⟨S1x100000, .i32⟩
  | 23 => ⟨S100000, .i32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S100000x64, .f32⟩
  | 33 => ⟨S1x64x64, .f32⟩
  | 34 => ⟨S64x64, .f32⟩
  | 35 => ⟨S100000x64, .f32⟩
  | 36 => ⟨S1x100000, .i32⟩
  | 37 => ⟨S100000, .i32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S100000x64, .f32⟩
  | 47 => ⟨S_, .f32⟩
  | 48 => ⟨S100000x1, .f32⟩
  | 49 => ⟨S_, .f32⟩
  | 50 => ⟨S8x1, .f32⟩
  | 51 => ⟨S100000x1, .i32⟩
  | 52 => ⟨S8x1, .f32⟩
  | 53 => ⟨S_, .f32⟩
  | 54 => ⟨S8x64, .f32⟩
  | 55 => ⟨S100000x1, .i32⟩
  | 56 => ⟨S8x64, .f32⟩
  | 57 => ⟨S8x64, .f32⟩
  | 58 => ⟨S8x64, .f32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000x64, .f32⟩
  | 68 => ⟨S100000x64, .f32⟩
  | 69 => ⟨S100000x64, .f32⟩
  | 70 => ⟨S_, .f32⟩
  | 71 => ⟨S8x64, .f32⟩
  | 72 => ⟨S100000x1, .i32⟩
  | 73 => ⟨S8x64, .f32⟩
  | 74 => ⟨S8x64, .f32⟩
  | 75 => ⟨S8x64, .f32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S100000x64, .f32⟩
  | 85 => ⟨S_, .f32⟩
  | 86 => ⟨S100000x64, .f32⟩
  | 87 => ⟨S100000x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .i1⟩
  | 99 => ⟨S_, .f32⟩
  | 100 => ⟨S100000x64, .f32⟩
  | 101 => ⟨S100000x64, .f32⟩
  | 102 => ⟨S100000x64, .f32⟩
  | 103 => ⟨S_, .f32⟩
  | 104 => ⟨S100000x64, .f32⟩
  | 105 => ⟨S1x100000, .i32⟩
  | 106 => ⟨S100000, .i32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S100000x64, .f32⟩
  | 116 => ⟨S1x64x64, .f32⟩
  | 117 => ⟨S64x64, .f32⟩
  | 118 => ⟨S100000x64, .f32⟩
  | 119 => ⟨S1x100000, .i32⟩
  | 120 => ⟨S100000, .i32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S100000x64, .f32⟩

abbrev hbmTy0_6 (i : Nat) : BufTy := match i % 128 with
  | 0 => ⟨S100000x1, .i32⟩
  | 1 => ⟨S100000x64, .f32⟩
  | 2 => ⟨S1x100000, .i32⟩
  | 3 => ⟨S100000, .i32⟩
  | 4 => ⟨S_, .i32⟩
  | 5 => ⟨S100000, .i32⟩
  | 6 => ⟨S100000, .i1⟩
  | 7 => ⟨S_, .i32⟩
  | 8 => ⟨S100000, .i32⟩
  | 9 => ⟨S100000, .i32⟩
  | 10 => ⟨S100000, .i32⟩
  | 11 => ⟨S100000x1, .i32⟩
  | 12 => ⟨S100000x64, .f32⟩
  | 13 => ⟨S1x64x64, .f32⟩
  | 14 => ⟨S64x64, .f32⟩
  | 15 => ⟨S100000x64, .f32⟩
  | 16 => ⟨S1x100000, .i32⟩
  | 17 => ⟨S100000, .i32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x64, .f32⟩
  | 27 => ⟨S1x100000, .i32⟩
  | 28 => ⟨S100000, .i32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000x64, .f32⟩
  | 38 => ⟨S1x64x64, .f32⟩
  | 39 => ⟨S64x64, .f32⟩
  | 40 => ⟨S100000x64, .f32⟩
  | 41 => ⟨S1x100000, .i32⟩
  | 42 => ⟨S100000, .i32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000x64, .f32⟩
  | 52 => ⟨S1x100000, .i32⟩
  | 53 => ⟨S100000, .i32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x64, .f32⟩
  | 63 => ⟨S1x64x64, .f32⟩
  | 64 => ⟨S64x64, .f32⟩
  | 65 => ⟨S100000x64, .f32⟩
  | 66 => ⟨S1x100000, .i32⟩
  | 67 => ⟨S100000, .i32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000x64, .f32⟩
  | 77 => ⟨S1x100000, .i32⟩
  | 78 => ⟨S100000, .i32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x64, .f32⟩
  | 88 => ⟨S1x64x64, .f32⟩
  | 89 => ⟨S64x64, .f32⟩
  | 90 => ⟨S100000x64, .f32⟩
  | 91 => ⟨S1x100000, .i32⟩
  | 92 => ⟨S100000, .i32⟩
  | 93 => ⟨S_, .i32⟩
  | 94 => ⟨S100000, .i32⟩
  | 95 => ⟨S100000, .i1⟩
  | 96 => ⟨S_, .i32⟩
  | 97 => ⟨S100000, .i32⟩
  | 98 => ⟨S100000, .i32⟩
  | 99 => ⟨S100000, .i32⟩
  | 100 => ⟨S100000x1, .i32⟩
  | 101 => ⟨S100000x64, .f32⟩
  | 102 => ⟨S1x100000, .i32⟩
  | 103 => ⟨S100000, .i32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S100000x64, .f32⟩
  | 113 => ⟨S1x64x64, .f32⟩
  | 114 => ⟨S64x64, .f32⟩
  | 115 => ⟨S100000x64, .f32⟩
  | 116 => ⟨S1x100000, .i32⟩
  | 117 => ⟨S100000, .i32⟩
  | 118 => ⟨S_, .i32⟩
  | 119 => ⟨S100000, .i32⟩
  | 120 => ⟨S100000, .i1⟩
  | 121 => ⟨S_, .i32⟩
  | 122 => ⟨S100000, .i32⟩
  | 123 => ⟨S100000, .i32⟩
  | 124 => ⟨S100000, .i32⟩
  | 125 => ⟨S100000x1, .i32⟩
  | 126 => ⟨S100000x64, .f32⟩
  | 127 => ⟨S1x100000, .i32⟩
  | _ => ⟨S100000x64, .f32⟩

abbrev hbmTy0_7 (i : Nat) : BufTy := match i % 128 with
  | 0 => ⟨S100000, .i32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S100000x64, .f32⟩
  | 10 => ⟨S1x64x64, .f32⟩
  | 11 => ⟨S64x64, .f32⟩
  | 12 => ⟨S100000x64, .f32⟩
  | 13 => ⟨S1x100000, .i32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x64, .f32⟩
  | 24 => ⟨S1x100000, .i32⟩
  | 25 => ⟨S100000, .i32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000x64, .f32⟩
  | 35 => ⟨S1x64x64, .f32⟩
  | 36 => ⟨S64x64, .f32⟩
  | 37 => ⟨S100000x64, .f32⟩
  | 38 => ⟨S1x100000, .i32⟩
  | 39 => ⟨S100000, .i32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S100000x64, .f32⟩
  | 49 => ⟨S1x100000, .i32⟩
  | 50 => ⟨S100000, .i32⟩
  | 51 => ⟨S_, .i32⟩
  | 52 => ⟨S100000, .i32⟩
  | 53 => ⟨S100000, .i1⟩
  | 54 => ⟨S_, .i32⟩
  | 55 => ⟨S100000, .i32⟩
  | 56 => ⟨S100000, .i32⟩
  | 57 => ⟨S100000, .i32⟩
  | 58 => ⟨S100000x1, .i32⟩
  | 59 => ⟨S100000x64, .f32⟩
  | 60 => ⟨S1x64x64, .f32⟩
  | 61 => ⟨S64x64, .f32⟩
  | 62 => ⟨S100000x64, .f32⟩
  | 63 => ⟨S1x100000, .i32⟩
  | 64 => ⟨S100000, .i32⟩
  | 65 => ⟨S_, .i32⟩
  | 66 => ⟨S100000, .i32⟩
  | 67 => ⟨S100000, .i1⟩
  | 68 => ⟨S_, .i32⟩
  | 69 => ⟨S100000, .i32⟩
  | 70 => ⟨S100000, .i32⟩
  | 71 => ⟨S100000, .i32⟩
  | 72 => ⟨S100000x1, .i32⟩
  | 73 => ⟨S100000x64, .f32⟩
  | 74 => ⟨S1x100000, .i32⟩
  | 75 => ⟨S100000, .i32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S100000x64, .f32⟩
  | 85 => ⟨S1x64x64, .f32⟩
  | 86 => ⟨S64x64, .f32⟩
  | 87 => ⟨S100000x64, .f32⟩
  | 88 => ⟨S1x100000, .i32⟩
  | 89 => ⟨S100000, .i32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000x64, .f32⟩
  | 99 => ⟨S1x100000, .i32⟩
  | 100 => ⟨S100000, .i32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S100000x64, .f32⟩
  | 110 => ⟨S1x64x64, .f32⟩
  | 111 => ⟨S64x64, .f32⟩
  | 112 => ⟨S100000x64, .f32⟩
  | 113 => ⟨S1x100000, .i32⟩
  | 114 => ⟨S100000, .i32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S100000x64, .f32⟩
  | 124 => ⟨S1x100000, .i32⟩
  | 125 => ⟨S100000, .i32⟩
  | 126 => ⟨S_, .i32⟩
  | 127 => ⟨S100000, .i32⟩
  | _ => ⟨S100000x64, .f32⟩

abbrev hbmTy0_8 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S100000x1, .i32⟩
  | 6 => ⟨S100000x64, .f32⟩
  | 7 => ⟨S1x64x64, .f32⟩
  | 8 => ⟨S64x64, .f32⟩
  | 9 => ⟨S100000x64, .f32⟩
  | 10 => ⟨S1x100000, .i32⟩
  | 11 => ⟨S100000, .i32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000x64, .f32⟩
  | 21 => ⟨S1x100000, .i32⟩
  | 22 => ⟨S100000, .i32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x64, .f32⟩
  | 32 => ⟨S1x64x64, .f32⟩
  | 33 => ⟨S64x64, .f32⟩
  | 34 => ⟨S100000x64, .f32⟩
  | 35 => ⟨S1x100000, .i32⟩
  | 36 => ⟨S100000, .i32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S100000x64, .f32⟩
  | 46 => ⟨S1x100000, .i32⟩
  | 47 => ⟨S100000, .i32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S100000x64, .f32⟩
  | 57 => ⟨S1x64x64, .f32⟩
  | 58 => ⟨S64x64, .f32⟩
  | 59 => ⟨S100000x64, .f32⟩
  | 60 => ⟨S1x100000, .i32⟩
  | 61 => ⟨S100000, .i32⟩
  | 62 => ⟨S_, .i32⟩
  | 63 => ⟨S100000, .i32⟩
  | 64 => ⟨S100000, .i1⟩
  | 65 => ⟨S_, .i32⟩
  | 66 => ⟨S100000, .i32⟩
  | 67 => ⟨S100000, .i32⟩
  | 68 => ⟨S100000, .i32⟩
  | 69 => ⟨S100000x1, .i32⟩
  | 70 => ⟨S100000x64, .f32⟩
  | 71 => ⟨S1x100000, .i32⟩
  | 72 => ⟨S100000, .i32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S100000x64, .f32⟩
  | 82 => ⟨S1x64x64, .f32⟩
  | 83 => ⟨S64x64, .f32⟩
  | 84 => ⟨S100000x64, .f32⟩
  | 85 => ⟨S1x100000, .i32⟩
  | 86 => ⟨S100000, .i32⟩
  | 87 => ⟨S_, .i32⟩
  | 88 => ⟨S100000, .i32⟩
  | 89 => ⟨S100000, .i1⟩
  | 90 => ⟨S_, .i32⟩
  | 91 => ⟨S100000, .i32⟩
  | 92 => ⟨S100000, .i32⟩
  | 93 => ⟨S100000, .i32⟩
  | 94 => ⟨S100000x1, .i32⟩
  | 95 => ⟨S100000x64, .f32⟩
  | 96 => ⟨S1x100000, .i32⟩
  | 97 => ⟨S100000, .i32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000x64, .f32⟩
  | 107 => ⟨S1x64x64, .f32⟩
  | 108 => ⟨S64x64, .f32⟩
  | 109 => ⟨S100000x64, .f32⟩
  | 110 => ⟨S1x100000, .i32⟩
  | 111 => ⟨S100000, .i32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000x64, .f32⟩
  | 121 => ⟨S1x100000, .i32⟩
  | 122 => ⟨S100000, .i32⟩
  | 123 => ⟨S_, .i32⟩
  | 124 => ⟨S100000, .i32⟩
  | 125 => ⟨S100000, .i1⟩
  | 126 => ⟨S_, .i32⟩
  | 127 => ⟨S100000, .i32⟩
  | _ => ⟨S100000x64, .f32⟩

abbrev hbmTy0_9 (i : Nat) : BufTy := match i % 128 with
  | 0 => ⟨S100000, .i32⟩
  | 1 => ⟨S100000, .i32⟩
  | 2 => ⟨S100000x1, .i32⟩
  | 3 => ⟨S100000x64, .f32⟩
  | 4 => ⟨S1x64x64, .f32⟩
  | 5 => ⟨S64x64, .f32⟩
  | 6 => ⟨S100000x64, .f32⟩
  | 7 => ⟨S1x100000, .i32⟩
  | 8 => ⟨S100000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x64, .f32⟩
  | 18 => ⟨S1x100000, .i32⟩
  | 19 => ⟨S100000, .i32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S100000x64, .f32⟩
  | 29 => ⟨S1x64x64, .f32⟩
  | 30 => ⟨S64x64, .f32⟩
  | 31 => ⟨S100000x64, .f32⟩
  | 32 => ⟨S1x100000, .i32⟩
  | 33 => ⟨S100000, .i32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x64, .f32⟩
  | 43 => ⟨S1x100000, .i32⟩
  | 44 => ⟨S100000, .i32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S100000x64, .f32⟩
  | 54 => ⟨S1x64x64, .f32⟩
  | 55 => ⟨S64x64, .f32⟩
  | 56 => ⟨S100000x64, .f32⟩
  | 57 => ⟨S1x100000, .i32⟩
  | 58 => ⟨S100000, .i32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000x64, .f32⟩
  | 68 => ⟨S1x100000, .i32⟩
  | 69 => ⟨S100000, .i32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000x64, .f32⟩
  | 79 => ⟨S1x64x64, .f32⟩
  | 80 => ⟨S64x64, .f32⟩
  | 81 => ⟨S100000x64, .f32⟩
  | 82 => ⟨S1x100000, .i32⟩
  | 83 => ⟨S100000, .i32⟩
  | 84 => ⟨S_, .i32⟩
  | 85 => ⟨S100000, .i32⟩
  | 86 => ⟨S100000, .i1⟩
  | 87 => ⟨S_, .i32⟩
  | 88 => ⟨S100000, .i32⟩
  | 89 => ⟨S100000, .i32⟩
  | 90 => ⟨S100000, .i32⟩
  | 91 => ⟨S100000x1, .i32⟩
  | 92 => ⟨S100000x64, .f32⟩
  | 93 => ⟨S1x100000, .i32⟩
  | 94 => ⟨S100000, .i32⟩
  | 95 => ⟨S_, .i32⟩
  | 96 => ⟨S100000, .i32⟩
  | 97 => ⟨S100000, .i1⟩
  | 98 => ⟨S_, .i32⟩
  | 99 => ⟨S100000, .i32⟩
  | 100 => ⟨S100000, .i32⟩
  | 101 => ⟨S100000, .i32⟩
  | 102 => ⟨S100000x1, .i32⟩
  | 103 => ⟨S100000x64, .f32⟩
  | 104 => ⟨S1x64x64, .f32⟩
  | 105 => ⟨S64x64, .f32⟩
  | 106 => ⟨S100000x64, .f32⟩
  | 107 => ⟨S1x100000, .i32⟩
  | 108 => ⟨S100000, .i32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S100000x1, .i32⟩
  | 117 => ⟨S100000x64, .f32⟩
  | 118 => ⟨S1x100000, .i32⟩
  | 119 => ⟨S100000, .i32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S100000x1, .i32⟩
  | _ => ⟨S100000x64, .f32⟩

abbrev hbmTy0_10 (i : Nat) : BufTy := match i % 128 with
  | 0 => ⟨S100000x64, .f32⟩
  | 1 => ⟨S1x64x64, .f32⟩
  | 2 => ⟨S64x64, .f32⟩
  | 3 => ⟨S100000x64, .f32⟩
  | 4 => ⟨S1x100000, .i32⟩
  | 5 => ⟨S100000, .i32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S100000x64, .f32⟩
  | 15 => ⟨S1x100000, .i32⟩
  | 16 => ⟨S100000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x64, .f32⟩
  | 26 => ⟨S1x64x64, .f32⟩
  | 27 => ⟨S64x64, .f32⟩
  | 28 => ⟨S100000x64, .f32⟩
  | 29 => ⟨S1x100000, .i32⟩
  | 30 => ⟨S100000, .i32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S100000x64, .f32⟩
  | 40 => ⟨S1x100000, .i32⟩
  | 41 => ⟨S100000, .i32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x64, .f32⟩
  | 51 => ⟨S1x64x64, .f32⟩
  | 52 => ⟨S64x64, .f32⟩
  | 53 => ⟨S100000x64, .f32⟩
  | 54 => ⟨S1x100000, .i32⟩
  | 55 => ⟨S100000, .i32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S100000x64, .f32⟩
  | 65 => ⟨S1x100000, .i32⟩
  | 66 => ⟨S100000, .i32⟩
  | 67 => ⟨S_, .i32⟩
  | 68 => ⟨S100000, .i32⟩
  | 69 => ⟨S100000, .i1⟩
  | 70 => ⟨S_, .i32⟩
  | 71 => ⟨S100000, .i32⟩
  | 72 => ⟨S100000, .i32⟩
  | 73 => ⟨S100000, .i32⟩
  | 74 => ⟨S100000x1, .i32⟩
  | 75 => ⟨S100000x64, .f32⟩
  | 76 => ⟨S1x64x64, .f32⟩
  | 77 => ⟨S64x64, .f32⟩
  | 78 => ⟨S100000x64, .f32⟩
  | 79 => ⟨S1x100000, .i32⟩
  | 80 => ⟨S100000, .i32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S100000x64, .f32⟩
  | 90 => ⟨S1x100000, .i32⟩
  | 91 => ⟨S100000, .i32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S100000x64, .f32⟩
  | 101 => ⟨S1x64x64, .f32⟩
  | 102 => ⟨S64x64, .f32⟩
  | 103 => ⟨S100000x64, .f32⟩
  | 104 => ⟨S1x100000, .i32⟩
  | 105 => ⟨S100000, .i32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000x64, .f32⟩
  | 115 => ⟨S1x100000, .i32⟩
  | 116 => ⟨S100000, .i32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000x64, .f32⟩
  | 126 => ⟨S1x64x64, .f32⟩
  | 127 => ⟨S64x64, .f32⟩
  | _ => ⟨S100000x64, .f32⟩

abbrev hbmTy0_11 (i : Nat) : BufTy := match i % 128 with
  | 0 => ⟨S100000x64, .f32⟩
  | 1 => ⟨S1x100000, .i32⟩
  | 2 => ⟨S100000, .i32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S100000x64, .f32⟩
  | 12 => ⟨S_, .f32⟩
  | 13 => ⟨S100000x1, .f32⟩
  | 14 => ⟨S_, .f32⟩
  | 15 => ⟨S8x1, .f32⟩
  | 16 => ⟨S100000x1, .i32⟩
  | 17 => ⟨S8x1, .f32⟩
  | 18 => ⟨S_, .f32⟩
  | 19 => ⟨S8x64, .f32⟩
  | 20 => ⟨S100000x1, .i32⟩
  | 21 => ⟨S8x64, .f32⟩
  | 22 => ⟨S8x64, .f32⟩
  | 23 => ⟨S8x64, .f32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S100000x64, .f32⟩
  | 33 => ⟨S100000x64, .f32⟩
  | 34 => ⟨S100000x64, .f32⟩
  | 35 => ⟨S_, .f32⟩
  | 36 => ⟨S8x64, .f32⟩
  | 37 => ⟨S100000x1, .i32⟩
  | 38 => ⟨S8x64, .f32⟩
  | 39 => ⟨S8x64, .f32⟩
  | 40 => ⟨S8x64, .f32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x64, .f32⟩
  | 50 => ⟨S_, .f32⟩
  | 51 => ⟨S100000x64, .f32⟩
  | 52 => ⟨S100000x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S100000x64, .f32⟩
  | 64 => ⟨S100000x64, .i1⟩
  | 65 => ⟨S_, .f32⟩
  | 66 => ⟨S100000x64, .f32⟩
  | 67 => ⟨S100000x64, .f32⟩
  | 68 => ⟨S100000x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_7 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_9 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_11 : Ref sig .tc := ⟨.hbm, 89, rfl⟩
abbrev main_v66 : Ref sig .tc := ⟨.hbm, 90, rfl⟩
abbrev main_v67 : Ref sig .tc := ⟨.hbm, 91, rfl⟩
abbrev main_c_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_13 : Ref sig .tc := ⟨.hbm, 103, rfl⟩
abbrev main_v78 : Ref sig .tc := ⟨.hbm, 104, rfl⟩
abbrev main_v79 : Ref sig .tc := ⟨.hbm, 105, rfl⟩
abbrev main_c_14 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_15 : Ref sig .tc := ⟨.hbm, 114, rfl⟩
abbrev main_v87 : Ref sig .tc := ⟨.hbm, 115, rfl⟩
abbrev main_v88 : Ref sig .tc := ⟨.hbm, 116, rfl⟩
abbrev main_c_16 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_17 : Ref sig .tc := ⟨.hbm, 128, rfl⟩
abbrev main_v99 : Ref sig .tc := ⟨.hbm, 129, rfl⟩
abbrev main_v100 : Ref sig .tc := ⟨.hbm, 130, rfl⟩
abbrev main_c_18 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_c_19 : Ref sig .tc := ⟨.hbm, 139, rfl⟩
abbrev main_v108 : Ref sig .tc := ⟨.hbm, 140, rfl⟩
abbrev main_v109 : Ref sig .tc := ⟨.hbm, 141, rfl⟩
abbrev main_c_20 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_c_21 : Ref sig .tc := ⟨.hbm, 153, rfl⟩
abbrev main_v120 : Ref sig .tc := ⟨.hbm, 154, rfl⟩
abbrev main_v121 : Ref sig .tc := ⟨.hbm, 155, rfl⟩
abbrev main_c_22 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_c_23 : Ref sig .tc := ⟨.hbm, 164, rfl⟩
abbrev main_v129 : Ref sig .tc := ⟨.hbm, 165, rfl⟩
abbrev main_v130 : Ref sig .tc := ⟨.hbm, 166, rfl⟩
abbrev main_c_24 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_c_25 : Ref sig .tc := ⟨.hbm, 178, rfl⟩
abbrev main_v141 : Ref sig .tc := ⟨.hbm, 179, rfl⟩
abbrev main_v142 : Ref sig .tc := ⟨.hbm, 180, rfl⟩
abbrev main_c_26 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_c_27 : Ref sig .tc := ⟨.hbm, 189, rfl⟩
abbrev main_v150 : Ref sig .tc := ⟨.hbm, 190, rfl⟩
abbrev main_v151 : Ref sig .tc := ⟨.hbm, 191, rfl⟩
abbrev main_c_28 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_c_29 : Ref sig .tc := ⟨.hbm, 203, rfl⟩
abbrev main_v162 : Ref sig .tc := ⟨.hbm, 204, rfl⟩
abbrev main_v163 : Ref sig .tc := ⟨.hbm, 205, rfl⟩
abbrev main_c_30 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_c_31 : Ref sig .tc := ⟨.hbm, 214, rfl⟩
abbrev main_v171 : Ref sig .tc := ⟨.hbm, 215, rfl⟩
abbrev main_v172 : Ref sig .tc := ⟨.hbm, 216, rfl⟩
abbrev main_c_32 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_c_33 : Ref sig .tc := ⟨.hbm, 228, rfl⟩
abbrev main_v183 : Ref sig .tc := ⟨.hbm, 229, rfl⟩
abbrev main_v184 : Ref sig .tc := ⟨.hbm, 230, rfl⟩
abbrev main_c_34 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_c_35 : Ref sig .tc := ⟨.hbm, 239, rfl⟩
abbrev main_v192 : Ref sig .tc := ⟨.hbm, 240, rfl⟩
abbrev main_v193 : Ref sig .tc := ⟨.hbm, 241, rfl⟩
abbrev main_c_36 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_c_37 : Ref sig .tc := ⟨.hbm, 253, rfl⟩
abbrev main_v204 : Ref sig .tc := ⟨.hbm, 254, rfl⟩
abbrev main_v205 : Ref sig .tc := ⟨.hbm, 255, rfl⟩
abbrev main_c_38 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_c_39 : Ref sig .tc := ⟨.hbm, 264, rfl⟩
abbrev main_v213 : Ref sig .tc := ⟨.hbm, 265, rfl⟩
abbrev main_v214 : Ref sig .tc := ⟨.hbm, 266, rfl⟩
abbrev main_c_40 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_c_41 : Ref sig .tc := ⟨.hbm, 278, rfl⟩
abbrev main_v225 : Ref sig .tc := ⟨.hbm, 279, rfl⟩
abbrev main_v226 : Ref sig .tc := ⟨.hbm, 280, rfl⟩
abbrev main_c_42 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_c_43 : Ref sig .tc := ⟨.hbm, 289, rfl⟩
abbrev main_v234 : Ref sig .tc := ⟨.hbm, 290, rfl⟩
abbrev main_v235 : Ref sig .tc := ⟨.hbm, 291, rfl⟩
abbrev main_c_44 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_c_45 : Ref sig .tc := ⟨.hbm, 303, rfl⟩
abbrev main_v246 : Ref sig .tc := ⟨.hbm, 304, rfl⟩
abbrev main_v247 : Ref sig .tc := ⟨.hbm, 305, rfl⟩
abbrev main_c_46 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_c_47 : Ref sig .tc := ⟨.hbm, 314, rfl⟩
abbrev main_v255 : Ref sig .tc := ⟨.hbm, 315, rfl⟩
abbrev main_v256 : Ref sig .tc := ⟨.hbm, 316, rfl⟩
abbrev main_c_48 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_c_49 : Ref sig .tc := ⟨.hbm, 328, rfl⟩
abbrev main_v267 : Ref sig .tc := ⟨.hbm, 329, rfl⟩
abbrev main_v268 : Ref sig .tc := ⟨.hbm, 330, rfl⟩
abbrev main_c_50 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_c_51 : Ref sig .tc := ⟨.hbm, 339, rfl⟩
abbrev main_v276 : Ref sig .tc := ⟨.hbm, 340, rfl⟩
abbrev main_v277 : Ref sig .tc := ⟨.hbm, 341, rfl⟩
abbrev main_c_52 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_c_53 : Ref sig .tc := ⟨.hbm, 353, rfl⟩
abbrev main_v288 : Ref sig .tc := ⟨.hbm, 354, rfl⟩
abbrev main_v289 : Ref sig .tc := ⟨.hbm, 355, rfl⟩
abbrev main_c_54 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_c_55 : Ref sig .tc := ⟨.hbm, 364, rfl⟩
abbrev main_v297 : Ref sig .tc := ⟨.hbm, 365, rfl⟩
abbrev main_v298 : Ref sig .tc := ⟨.hbm, 366, rfl⟩
abbrev main_c_56 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_v302 : Ref sig .tc := ⟨.hbm, 371, rfl⟩
abbrev main_v303 : Ref sig .tc := ⟨.hbm, 372, rfl⟩
abbrev main_v304 : Ref sig .tc := ⟨.hbm, 373, rfl⟩
abbrev main_v305 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_c_57 : Ref sig .tc := ⟨.hbm, 378, rfl⟩
abbrev main_v309 : Ref sig .tc := ⟨.hbm, 379, rfl⟩
abbrev main_v310 : Ref sig .tc := ⟨.hbm, 380, rfl⟩
abbrev main_c_58 : Ref sig .tc := ⟨.hbm, 381, rfl⟩
abbrev main_v311 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_c_59 : Ref sig .tc := ⟨.hbm, 389, rfl⟩
abbrev main_v318 : Ref sig .tc := ⟨.hbm, 390, rfl⟩
abbrev main_v319 : Ref sig .tc := ⟨.hbm, 391, rfl⟩
abbrev main_c_60 : Ref sig .tc := ⟨.hbm, 392, rfl⟩
abbrev main_v320 : Ref sig .tc := ⟨.hbm, 393, rfl⟩
abbrev main_v321 : Ref sig .tc := ⟨.hbm, 394, rfl⟩
abbrev main_v322 : Ref sig .tc := ⟨.hbm, 395, rfl⟩
abbrev main_v323 : Ref sig .tc := ⟨.hbm, 396, rfl⟩
abbrev main_v324 : Ref sig .tc := ⟨.hbm, 397, rfl⟩
abbrev main_v325 : Ref sig .tc := ⟨.hbm, 398, rfl⟩
abbrev main_v326 : Ref sig .tc := ⟨.hbm, 399, rfl⟩
abbrev main_v327 : Ref sig .tc := ⟨.hbm, 400, rfl⟩
abbrev main_v328 : Ref sig .tc := ⟨.hbm, 401, rfl⟩
abbrev main_v329 : Ref sig .tc := ⟨.hbm, 402, rfl⟩
abbrev main_c_61 : Ref sig .tc := ⟨.hbm, 403, rfl⟩
abbrev main_v330 : Ref sig .tc := ⟨.hbm, 404, rfl⟩
abbrev main_v331 : Ref sig .tc := ⟨.hbm, 405, rfl⟩
abbrev main_c_62 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_c_63 : Ref sig .tc := ⟨.hbm, 414, rfl⟩
abbrev main_v339 : Ref sig .tc := ⟨.hbm, 415, rfl⟩
abbrev main_v340 : Ref sig .tc := ⟨.hbm, 416, rfl⟩
abbrev main_c_64 : Ref sig .tc := ⟨.hbm, 417, rfl⟩
abbrev main_v341 : Ref sig .tc := ⟨.hbm, 418, rfl⟩
abbrev main_v342 : Ref sig .tc := ⟨.hbm, 419, rfl⟩
abbrev main_v343 : Ref sig .tc := ⟨.hbm, 420, rfl⟩
abbrev main_v344 : Ref sig .tc := ⟨.hbm, 421, rfl⟩
abbrev main_v345 : Ref sig .tc := ⟨.hbm, 422, rfl⟩
abbrev main_v346 : Ref sig .tc := ⟨.hbm, 423, rfl⟩
abbrev main_v347 : Ref sig .tc := ⟨.hbm, 424, rfl⟩
abbrev main_v348 : Ref sig .tc := ⟨.hbm, 425, rfl⟩
abbrev main_v349 : Ref sig .tc := ⟨.hbm, 426, rfl⟩
abbrev main_v350 : Ref sig .tc := ⟨.hbm, 427, rfl⟩
abbrev main_c_65 : Ref sig .tc := ⟨.hbm, 428, rfl⟩
abbrev main_v351 : Ref sig .tc := ⟨.hbm, 429, rfl⟩
abbrev main_v352 : Ref sig .tc := ⟨.hbm, 430, rfl⟩
abbrev main_c_66 : Ref sig .tc := ⟨.hbm, 431, rfl⟩
abbrev main_v353 : Ref sig .tc := ⟨.hbm, 432, rfl⟩
abbrev main_v354 : Ref sig .tc := ⟨.hbm, 433, rfl⟩
abbrev main_v355 : Ref sig .tc := ⟨.hbm, 434, rfl⟩
abbrev main_v356 : Ref sig .tc := ⟨.hbm, 435, rfl⟩
abbrev main_v357 : Ref sig .tc := ⟨.hbm, 436, rfl⟩
abbrev main_v358 : Ref sig .tc := ⟨.hbm, 437, rfl⟩
abbrev main_v359 : Ref sig .tc := ⟨.hbm, 438, rfl⟩
abbrev main_c_67 : Ref sig .tc := ⟨.hbm, 439, rfl⟩
abbrev main_v360 : Ref sig .tc := ⟨.hbm, 440, rfl⟩
abbrev main_v361 : Ref sig .tc := ⟨.hbm, 441, rfl⟩
abbrev main_c_68 : Ref sig .tc := ⟨.hbm, 442, rfl⟩
abbrev main_v362 : Ref sig .tc := ⟨.hbm, 443, rfl⟩
abbrev main_v363 : Ref sig .tc := ⟨.hbm, 444, rfl⟩
abbrev main_v364 : Ref sig .tc := ⟨.hbm, 445, rfl⟩
abbrev main_v365 : Ref sig .tc := ⟨.hbm, 446, rfl⟩
abbrev main_v366 : Ref sig .tc := ⟨.hbm, 447, rfl⟩
abbrev main_v367 : Ref sig .tc := ⟨.hbm, 448, rfl⟩
abbrev main_v368 : Ref sig .tc := ⟨.hbm, 449, rfl⟩
abbrev main_v369 : Ref sig .tc := ⟨.hbm, 450, rfl⟩
abbrev main_v370 : Ref sig .tc := ⟨.hbm, 451, rfl⟩
abbrev main_v371 : Ref sig .tc := ⟨.hbm, 452, rfl⟩
abbrev main_c_69 : Ref sig .tc := ⟨.hbm, 453, rfl⟩
abbrev main_v372 : Ref sig .tc := ⟨.hbm, 454, rfl⟩
abbrev main_v373 : Ref sig .tc := ⟨.hbm, 455, rfl⟩
abbrev main_c_70 : Ref sig .tc := ⟨.hbm, 456, rfl⟩
abbrev main_v374 : Ref sig .tc := ⟨.hbm, 457, rfl⟩
abbrev main_v375 : Ref sig .tc := ⟨.hbm, 458, rfl⟩
abbrev main_v376 : Ref sig .tc := ⟨.hbm, 459, rfl⟩
abbrev main_v377 : Ref sig .tc := ⟨.hbm, 460, rfl⟩
abbrev main_v378 : Ref sig .tc := ⟨.hbm, 461, rfl⟩
abbrev main_v379 : Ref sig .tc := ⟨.hbm, 462, rfl⟩
abbrev main_v380 : Ref sig .tc := ⟨.hbm, 463, rfl⟩
abbrev main_c_71 : Ref sig .tc := ⟨.hbm, 464, rfl⟩
abbrev main_v381 : Ref sig .tc := ⟨.hbm, 465, rfl⟩
abbrev main_v382 : Ref sig .tc := ⟨.hbm, 466, rfl⟩
abbrev main_c_72 : Ref sig .tc := ⟨.hbm, 467, rfl⟩
abbrev main_v383 : Ref sig .tc := ⟨.hbm, 468, rfl⟩
abbrev main_v384 : Ref sig .tc := ⟨.hbm, 469, rfl⟩
abbrev main_v385 : Ref sig .tc := ⟨.hbm, 470, rfl⟩
abbrev main_v386 : Ref sig .tc := ⟨.hbm, 471, rfl⟩
abbrev main_v387 : Ref sig .tc := ⟨.hbm, 472, rfl⟩
abbrev main_v388 : Ref sig .tc := ⟨.hbm, 473, rfl⟩
abbrev main_v389 : Ref sig .tc := ⟨.hbm, 474, rfl⟩
abbrev main_v390 : Ref sig .tc := ⟨.hbm, 475, rfl⟩
abbrev main_v391 : Ref sig .tc := ⟨.hbm, 476, rfl⟩
abbrev main_v392 : Ref sig .tc := ⟨.hbm, 477, rfl⟩
abbrev main_c_73 : Ref sig .tc := ⟨.hbm, 478, rfl⟩
abbrev main_v393 : Ref sig .tc := ⟨.hbm, 479, rfl⟩
abbrev main_v394 : Ref sig .tc := ⟨.hbm, 480, rfl⟩
abbrev main_c_74 : Ref sig .tc := ⟨.hbm, 481, rfl⟩
abbrev main_v395 : Ref sig .tc := ⟨.hbm, 482, rfl⟩
abbrev main_v396 : Ref sig .tc := ⟨.hbm, 483, rfl⟩
abbrev main_v397 : Ref sig .tc := ⟨.hbm, 484, rfl⟩
abbrev main_v398 : Ref sig .tc := ⟨.hbm, 485, rfl⟩
abbrev main_v399 : Ref sig .tc := ⟨.hbm, 486, rfl⟩
abbrev main_v400 : Ref sig .tc := ⟨.hbm, 487, rfl⟩
abbrev main_v401 : Ref sig .tc := ⟨.hbm, 488, rfl⟩
abbrev main_c_75 : Ref sig .tc := ⟨.hbm, 489, rfl⟩
abbrev main_v402 : Ref sig .tc := ⟨.hbm, 490, rfl⟩
abbrev main_v403 : Ref sig .tc := ⟨.hbm, 491, rfl⟩
abbrev main_c_76 : Ref sig .tc := ⟨.hbm, 492, rfl⟩
abbrev main_v404 : Ref sig .tc := ⟨.hbm, 493, rfl⟩
abbrev main_v405 : Ref sig .tc := ⟨.hbm, 494, rfl⟩
abbrev main_v406 : Ref sig .tc := ⟨.hbm, 495, rfl⟩
abbrev main_v407 : Ref sig .tc := ⟨.hbm, 496, rfl⟩
abbrev main_v408 : Ref sig .tc := ⟨.hbm, 497, rfl⟩
abbrev main_v409 : Ref sig .tc := ⟨.hbm, 498, rfl⟩
abbrev main_v410 : Ref sig .tc := ⟨.hbm, 499, rfl⟩
abbrev main_v411 : Ref sig .tc := ⟨.hbm, 500, rfl⟩
abbrev main_v412 : Ref sig .tc := ⟨.hbm, 501, rfl⟩
abbrev main_v413 : Ref sig .tc := ⟨.hbm, 502, rfl⟩
abbrev main_c_77 : Ref sig .tc := ⟨.hbm, 503, rfl⟩
abbrev main_v414 : Ref sig .tc := ⟨.hbm, 504, rfl⟩
abbrev main_v415 : Ref sig .tc := ⟨.hbm, 505, rfl⟩
abbrev main_c_78 : Ref sig .tc := ⟨.hbm, 506, rfl⟩
abbrev main_v416 : Ref sig .tc := ⟨.hbm, 507, rfl⟩
abbrev main_v417 : Ref sig .tc := ⟨.hbm, 508, rfl⟩
abbrev main_v418 : Ref sig .tc := ⟨.hbm, 509, rfl⟩
abbrev main_v419 : Ref sig .tc := ⟨.hbm, 510, rfl⟩
abbrev main_v420 : Ref sig .tc := ⟨.hbm, 511, rfl⟩
abbrev main_v421 : Ref sig .tc := ⟨.hbm, 512, rfl⟩
abbrev main_v422 : Ref sig .tc := ⟨.hbm, 513, rfl⟩
abbrev main_c_79 : Ref sig .tc := ⟨.hbm, 514, rfl⟩
abbrev main_v423 : Ref sig .tc := ⟨.hbm, 515, rfl⟩
abbrev main_v424 : Ref sig .tc := ⟨.hbm, 516, rfl⟩
abbrev main_c_80 : Ref sig .tc := ⟨.hbm, 517, rfl⟩
abbrev main_v425 : Ref sig .tc := ⟨.hbm, 518, rfl⟩
abbrev main_v426 : Ref sig .tc := ⟨.hbm, 519, rfl⟩
abbrev main_v427 : Ref sig .tc := ⟨.hbm, 520, rfl⟩
abbrev main_v428 : Ref sig .tc := ⟨.hbm, 521, rfl⟩
abbrev main_v429 : Ref sig .tc := ⟨.hbm, 522, rfl⟩
abbrev main_v430 : Ref sig .tc := ⟨.hbm, 523, rfl⟩
abbrev main_v431 : Ref sig .tc := ⟨.hbm, 524, rfl⟩
abbrev main_v432 : Ref sig .tc := ⟨.hbm, 525, rfl⟩
abbrev main_v433 : Ref sig .tc := ⟨.hbm, 526, rfl⟩
abbrev main_v434 : Ref sig .tc := ⟨.hbm, 527, rfl⟩
abbrev main_c_81 : Ref sig .tc := ⟨.hbm, 528, rfl⟩
abbrev main_v435 : Ref sig .tc := ⟨.hbm, 529, rfl⟩
abbrev main_v436 : Ref sig .tc := ⟨.hbm, 530, rfl⟩
abbrev main_c_82 : Ref sig .tc := ⟨.hbm, 531, rfl⟩
abbrev main_v437 : Ref sig .tc := ⟨.hbm, 532, rfl⟩
abbrev main_v438 : Ref sig .tc := ⟨.hbm, 533, rfl⟩
abbrev main_v439 : Ref sig .tc := ⟨.hbm, 534, rfl⟩
abbrev main_v440 : Ref sig .tc := ⟨.hbm, 535, rfl⟩
abbrev main_v441 : Ref sig .tc := ⟨.hbm, 536, rfl⟩
abbrev main_v442 : Ref sig .tc := ⟨.hbm, 537, rfl⟩
abbrev main_v443 : Ref sig .tc := ⟨.hbm, 538, rfl⟩
abbrev main_c_83 : Ref sig .tc := ⟨.hbm, 539, rfl⟩
abbrev main_v444 : Ref sig .tc := ⟨.hbm, 540, rfl⟩
abbrev main_v445 : Ref sig .tc := ⟨.hbm, 541, rfl⟩
abbrev main_c_84 : Ref sig .tc := ⟨.hbm, 542, rfl⟩
abbrev main_v446 : Ref sig .tc := ⟨.hbm, 543, rfl⟩
abbrev main_v447 : Ref sig .tc := ⟨.hbm, 544, rfl⟩
abbrev main_v448 : Ref sig .tc := ⟨.hbm, 545, rfl⟩
abbrev main_v449 : Ref sig .tc := ⟨.hbm, 546, rfl⟩
abbrev main_v450 : Ref sig .tc := ⟨.hbm, 547, rfl⟩
abbrev main_v451 : Ref sig .tc := ⟨.hbm, 548, rfl⟩
abbrev main_v452 : Ref sig .tc := ⟨.hbm, 549, rfl⟩
abbrev main_v453 : Ref sig .tc := ⟨.hbm, 550, rfl⟩
abbrev main_v454 : Ref sig .tc := ⟨.hbm, 551, rfl⟩
abbrev main_v455 : Ref sig .tc := ⟨.hbm, 552, rfl⟩
abbrev main_c_85 : Ref sig .tc := ⟨.hbm, 553, rfl⟩
abbrev main_v456 : Ref sig .tc := ⟨.hbm, 554, rfl⟩
abbrev main_v457 : Ref sig .tc := ⟨.hbm, 555, rfl⟩
abbrev main_c_86 : Ref sig .tc := ⟨.hbm, 556, rfl⟩
abbrev main_v458 : Ref sig .tc := ⟨.hbm, 557, rfl⟩
abbrev main_v459 : Ref sig .tc := ⟨.hbm, 558, rfl⟩
abbrev main_v460 : Ref sig .tc := ⟨.hbm, 559, rfl⟩
abbrev main_v461 : Ref sig .tc := ⟨.hbm, 560, rfl⟩
abbrev main_v462 : Ref sig .tc := ⟨.hbm, 561, rfl⟩
abbrev main_v463 : Ref sig .tc := ⟨.hbm, 562, rfl⟩
abbrev main_v464 : Ref sig .tc := ⟨.hbm, 563, rfl⟩
abbrev main_c_87 : Ref sig .tc := ⟨.hbm, 564, rfl⟩
abbrev main_v465 : Ref sig .tc := ⟨.hbm, 565, rfl⟩
abbrev main_v466 : Ref sig .tc := ⟨.hbm, 566, rfl⟩
abbrev main_c_88 : Ref sig .tc := ⟨.hbm, 567, rfl⟩
abbrev main_v467 : Ref sig .tc := ⟨.hbm, 568, rfl⟩
abbrev main_v468 : Ref sig .tc := ⟨.hbm, 569, rfl⟩
abbrev main_v469 : Ref sig .tc := ⟨.hbm, 570, rfl⟩
abbrev main_v470 : Ref sig .tc := ⟨.hbm, 571, rfl⟩
abbrev main_v471 : Ref sig .tc := ⟨.hbm, 572, rfl⟩
abbrev main_v472 : Ref sig .tc := ⟨.hbm, 573, rfl⟩
abbrev main_v473 : Ref sig .tc := ⟨.hbm, 574, rfl⟩
abbrev main_v474 : Ref sig .tc := ⟨.hbm, 575, rfl⟩
abbrev main_v475 : Ref sig .tc := ⟨.hbm, 576, rfl⟩
abbrev main_v476 : Ref sig .tc := ⟨.hbm, 577, rfl⟩
abbrev main_c_89 : Ref sig .tc := ⟨.hbm, 578, rfl⟩
abbrev main_v477 : Ref sig .tc := ⟨.hbm, 579, rfl⟩
abbrev main_v478 : Ref sig .tc := ⟨.hbm, 580, rfl⟩
abbrev main_c_90 : Ref sig .tc := ⟨.hbm, 581, rfl⟩
abbrev main_v479 : Ref sig .tc := ⟨.hbm, 582, rfl⟩
abbrev main_v480 : Ref sig .tc := ⟨.hbm, 583, rfl⟩
abbrev main_v481 : Ref sig .tc := ⟨.hbm, 584, rfl⟩
abbrev main_v482 : Ref sig .tc := ⟨.hbm, 585, rfl⟩
abbrev main_v483 : Ref sig .tc := ⟨.hbm, 586, rfl⟩
abbrev main_v484 : Ref sig .tc := ⟨.hbm, 587, rfl⟩
abbrev main_v485 : Ref sig .tc := ⟨.hbm, 588, rfl⟩
abbrev main_c_91 : Ref sig .tc := ⟨.hbm, 589, rfl⟩
abbrev main_v486 : Ref sig .tc := ⟨.hbm, 590, rfl⟩
abbrev main_v487 : Ref sig .tc := ⟨.hbm, 591, rfl⟩
abbrev main_c_92 : Ref sig .tc := ⟨.hbm, 592, rfl⟩
abbrev main_v488 : Ref sig .tc := ⟨.hbm, 593, rfl⟩
abbrev main_v489 : Ref sig .tc := ⟨.hbm, 594, rfl⟩
abbrev main_v490 : Ref sig .tc := ⟨.hbm, 595, rfl⟩
abbrev main_v491 : Ref sig .tc := ⟨.hbm, 596, rfl⟩
abbrev main_v492 : Ref sig .tc := ⟨.hbm, 597, rfl⟩
abbrev main_v493 : Ref sig .tc := ⟨.hbm, 598, rfl⟩
abbrev main_v494 : Ref sig .tc := ⟨.hbm, 599, rfl⟩
abbrev main_v495 : Ref sig .tc := ⟨.hbm, 600, rfl⟩
abbrev main_v496 : Ref sig .tc := ⟨.hbm, 601, rfl⟩
abbrev main_v497 : Ref sig .tc := ⟨.hbm, 602, rfl⟩
abbrev main_c_93 : Ref sig .tc := ⟨.hbm, 603, rfl⟩
abbrev main_v498 : Ref sig .tc := ⟨.hbm, 604, rfl⟩
abbrev main_v499 : Ref sig .tc := ⟨.hbm, 605, rfl⟩
abbrev main_c_94 : Ref sig .tc := ⟨.hbm, 606, rfl⟩
abbrev main_v500 : Ref sig .tc := ⟨.hbm, 607, rfl⟩
abbrev main_v501 : Ref sig .tc := ⟨.hbm, 608, rfl⟩
abbrev main_v502 : Ref sig .tc := ⟨.hbm, 609, rfl⟩
abbrev main_v503 : Ref sig .tc := ⟨.hbm, 610, rfl⟩
abbrev main_v504 : Ref sig .tc := ⟨.hbm, 611, rfl⟩
abbrev main_v505 : Ref sig .tc := ⟨.hbm, 612, rfl⟩
abbrev main_v506 : Ref sig .tc := ⟨.hbm, 613, rfl⟩
abbrev main_c_95 : Ref sig .tc := ⟨.hbm, 614, rfl⟩
abbrev main_v507 : Ref sig .tc := ⟨.hbm, 615, rfl⟩
abbrev main_v508 : Ref sig .tc := ⟨.hbm, 616, rfl⟩
abbrev main_c_96 : Ref sig .tc := ⟨.hbm, 617, rfl⟩
abbrev main_v509 : Ref sig .tc := ⟨.hbm, 618, rfl⟩
abbrev main_v510 : Ref sig .tc := ⟨.hbm, 619, rfl⟩
abbrev main_v511 : Ref sig .tc := ⟨.hbm, 620, rfl⟩
abbrev main_v512 : Ref sig .tc := ⟨.hbm, 621, rfl⟩
abbrev main_v513 : Ref sig .tc := ⟨.hbm, 622, rfl⟩
abbrev main_v514 : Ref sig .tc := ⟨.hbm, 623, rfl⟩
abbrev main_v515 : Ref sig .tc := ⟨.hbm, 624, rfl⟩
abbrev main_v516 : Ref sig .tc := ⟨.hbm, 625, rfl⟩
abbrev main_v517 : Ref sig .tc := ⟨.hbm, 626, rfl⟩
abbrev main_v518 : Ref sig .tc := ⟨.hbm, 627, rfl⟩
abbrev main_c_97 : Ref sig .tc := ⟨.hbm, 628, rfl⟩
abbrev main_v519 : Ref sig .tc := ⟨.hbm, 629, rfl⟩
abbrev main_v520 : Ref sig .tc := ⟨.hbm, 630, rfl⟩
abbrev main_c_98 : Ref sig .tc := ⟨.hbm, 631, rfl⟩
abbrev main_v521 : Ref sig .tc := ⟨.hbm, 632, rfl⟩
abbrev main_v522 : Ref sig .tc := ⟨.hbm, 633, rfl⟩
abbrev main_v523 : Ref sig .tc := ⟨.hbm, 634, rfl⟩
abbrev main_v524 : Ref sig .tc := ⟨.hbm, 635, rfl⟩
abbrev main_v525 : Ref sig .tc := ⟨.hbm, 636, rfl⟩
abbrev main_v526 : Ref sig .tc := ⟨.hbm, 637, rfl⟩
abbrev main_v527 : Ref sig .tc := ⟨.hbm, 638, rfl⟩
abbrev main_c_99 : Ref sig .tc := ⟨.hbm, 639, rfl⟩
abbrev main_v528 : Ref sig .tc := ⟨.hbm, 640, rfl⟩
abbrev main_v529 : Ref sig .tc := ⟨.hbm, 641, rfl⟩
abbrev main_c_100 : Ref sig .tc := ⟨.hbm, 642, rfl⟩
abbrev main_v530 : Ref sig .tc := ⟨.hbm, 643, rfl⟩
abbrev main_v531 : Ref sig .tc := ⟨.hbm, 644, rfl⟩
abbrev main_v532 : Ref sig .tc := ⟨.hbm, 645, rfl⟩
abbrev main_v533 : Ref sig .tc := ⟨.hbm, 646, rfl⟩
abbrev main_v534 : Ref sig .tc := ⟨.hbm, 647, rfl⟩
abbrev main_v535 : Ref sig .tc := ⟨.hbm, 648, rfl⟩
abbrev main_v536 : Ref sig .tc := ⟨.hbm, 649, rfl⟩
abbrev main_v537 : Ref sig .tc := ⟨.hbm, 650, rfl⟩
abbrev main_v538 : Ref sig .tc := ⟨.hbm, 651, rfl⟩
abbrev main_v539 : Ref sig .tc := ⟨.hbm, 652, rfl⟩
abbrev main_c_101 : Ref sig .tc := ⟨.hbm, 653, rfl⟩
abbrev main_v540 : Ref sig .tc := ⟨.hbm, 654, rfl⟩
abbrev main_v541 : Ref sig .tc := ⟨.hbm, 655, rfl⟩
abbrev main_c_102 : Ref sig .tc := ⟨.hbm, 656, rfl⟩
abbrev main_v542 : Ref sig .tc := ⟨.hbm, 657, rfl⟩
abbrev main_v543 : Ref sig .tc := ⟨.hbm, 658, rfl⟩
abbrev main_v544 : Ref sig .tc := ⟨.hbm, 659, rfl⟩
abbrev main_v545 : Ref sig .tc := ⟨.hbm, 660, rfl⟩
abbrev main_v546 : Ref sig .tc := ⟨.hbm, 661, rfl⟩
abbrev main_v547 : Ref sig .tc := ⟨.hbm, 662, rfl⟩
abbrev main_v548 : Ref sig .tc := ⟨.hbm, 663, rfl⟩
abbrev main_c_103 : Ref sig .tc := ⟨.hbm, 664, rfl⟩
abbrev main_v549 : Ref sig .tc := ⟨.hbm, 665, rfl⟩
abbrev main_v550 : Ref sig .tc := ⟨.hbm, 666, rfl⟩
abbrev main_c_104 : Ref sig .tc := ⟨.hbm, 667, rfl⟩
abbrev main_v551 : Ref sig .tc := ⟨.hbm, 668, rfl⟩
abbrev main_v552 : Ref sig .tc := ⟨.hbm, 669, rfl⟩
abbrev main_v553 : Ref sig .tc := ⟨.hbm, 670, rfl⟩
abbrev main_v554 : Ref sig .tc := ⟨.hbm, 671, rfl⟩
abbrev main_v555 : Ref sig .tc := ⟨.hbm, 672, rfl⟩
abbrev main_v556 : Ref sig .tc := ⟨.hbm, 673, rfl⟩
abbrev main_v557 : Ref sig .tc := ⟨.hbm, 674, rfl⟩
abbrev main_v558 : Ref sig .tc := ⟨.hbm, 675, rfl⟩
abbrev main_v559 : Ref sig .tc := ⟨.hbm, 676, rfl⟩
abbrev main_v560 : Ref sig .tc := ⟨.hbm, 677, rfl⟩
abbrev main_c_105 : Ref sig .tc := ⟨.hbm, 678, rfl⟩
abbrev main_v561 : Ref sig .tc := ⟨.hbm, 679, rfl⟩
abbrev main_v562 : Ref sig .tc := ⟨.hbm, 680, rfl⟩
abbrev main_c_106 : Ref sig .tc := ⟨.hbm, 681, rfl⟩
abbrev main_v563 : Ref sig .tc := ⟨.hbm, 682, rfl⟩
abbrev main_v564 : Ref sig .tc := ⟨.hbm, 683, rfl⟩
abbrev main_v565 : Ref sig .tc := ⟨.hbm, 684, rfl⟩
abbrev main_v566 : Ref sig .tc := ⟨.hbm, 685, rfl⟩
abbrev main_v567 : Ref sig .tc := ⟨.hbm, 686, rfl⟩
abbrev main_cst_107 : Ref sig .tc := ⟨.hbm, 687, rfl⟩
abbrev main_v568 : Ref sig .tc := ⟨.hbm, 688, rfl⟩
abbrev main_cst_108 : Ref sig .tc := ⟨.hbm, 689, rfl⟩
abbrev main_v569 : Ref sig .tc := ⟨.hbm, 690, rfl⟩
abbrev main_v570 : Ref sig .tc := ⟨.hbm, 691, rfl⟩
abbrev main_v571 : Ref sig .tc := ⟨.hbm, 692, rfl⟩
abbrev main_cst_109 : Ref sig .tc := ⟨.hbm, 693, rfl⟩
abbrev main_v572 : Ref sig .tc := ⟨.hbm, 694, rfl⟩
abbrev main_v573 : Ref sig .tc := ⟨.hbm, 695, rfl⟩
abbrev main_v574 : Ref sig .tc := ⟨.hbm, 696, rfl⟩
abbrev main_v575 : Ref sig .tc := ⟨.hbm, 697, rfl⟩
abbrev main_v576 : Ref sig .tc := ⟨.hbm, 698, rfl⟩
abbrev main_c_110 : Ref sig .tc := ⟨.hbm, 699, rfl⟩
abbrev main_v577 : Ref sig .tc := ⟨.hbm, 700, rfl⟩
abbrev main_v578 : Ref sig .tc := ⟨.hbm, 701, rfl⟩
abbrev main_c_111 : Ref sig .tc := ⟨.hbm, 702, rfl⟩
abbrev main_v579 : Ref sig .tc := ⟨.hbm, 703, rfl⟩
abbrev main_v580 : Ref sig .tc := ⟨.hbm, 704, rfl⟩
abbrev main_v581 : Ref sig .tc := ⟨.hbm, 705, rfl⟩
abbrev main_v582 : Ref sig .tc := ⟨.hbm, 706, rfl⟩
abbrev main_v583 : Ref sig .tc := ⟨.hbm, 707, rfl⟩
abbrev main_v584 : Ref sig .tc := ⟨.hbm, 708, rfl⟩
abbrev main_v585 : Ref sig .tc := ⟨.hbm, 709, rfl⟩
abbrev main_cst_112 : Ref sig .tc := ⟨.hbm, 710, rfl⟩
abbrev main_v586 : Ref sig .tc := ⟨.hbm, 711, rfl⟩
abbrev main_v587 : Ref sig .tc := ⟨.hbm, 712, rfl⟩
abbrev main_v588 : Ref sig .tc := ⟨.hbm, 713, rfl⟩
abbrev main_v589 : Ref sig .tc := ⟨.hbm, 714, rfl⟩
abbrev main_v590 : Ref sig .tc := ⟨.hbm, 715, rfl⟩
abbrev main_c_113 : Ref sig .tc := ⟨.hbm, 716, rfl⟩
abbrev main_v591 : Ref sig .tc := ⟨.hbm, 717, rfl⟩
abbrev main_v592 : Ref sig .tc := ⟨.hbm, 718, rfl⟩
abbrev main_c_114 : Ref sig .tc := ⟨.hbm, 719, rfl⟩
abbrev main_v593 : Ref sig .tc := ⟨.hbm, 720, rfl⟩
abbrev main_v594 : Ref sig .tc := ⟨.hbm, 721, rfl⟩
abbrev main_v595 : Ref sig .tc := ⟨.hbm, 722, rfl⟩
abbrev main_v596 : Ref sig .tc := ⟨.hbm, 723, rfl⟩
abbrev main_v597 : Ref sig .tc := ⟨.hbm, 724, rfl⟩
abbrev main_cst_115 : Ref sig .tc := ⟨.hbm, 725, rfl⟩
abbrev main_v598 : Ref sig .tc := ⟨.hbm, 726, rfl⟩
abbrev main_v599 : Ref sig .tc := ⟨.hbm, 727, rfl⟩
abbrev main_v600 : Ref sig .tc := ⟨.hbm, 728, rfl⟩
abbrev main_v601 : Ref sig .tc := ⟨.hbm, 729, rfl⟩
abbrev main_v602 : Ref sig .tc := ⟨.hbm, 730, rfl⟩
abbrev main_v603 : Ref sig .tc := ⟨.hbm, 731, rfl⟩
abbrev main_v604 : Ref sig .tc := ⟨.hbm, 732, rfl⟩
abbrev main_v605 : Ref sig .tc := ⟨.hbm, 733, rfl⟩
abbrev main_v606 : Ref sig .tc := ⟨.hbm, 734, rfl⟩
abbrev main_v607 : Ref sig .tc := ⟨.hbm, 735, rfl⟩
abbrev main_cst_116 : Ref sig .tc := ⟨.hbm, 736, rfl⟩
abbrev main_v608 : Ref sig .tc := ⟨.hbm, 737, rfl⟩
abbrev main_v609 : Ref sig .tc := ⟨.hbm, 738, rfl⟩
abbrev main_cst_117 : Ref sig .tc := ⟨.hbm, 739, rfl⟩
abbrev main_v610 : Ref sig .tc := ⟨.hbm, 740, rfl⟩
abbrev main_v611 : Ref sig .tc := ⟨.hbm, 741, rfl⟩
abbrev main_v612 : Ref sig .tc := ⟨.hbm, 742, rfl⟩
abbrev main_cst_118 : Ref sig .tc := ⟨.hbm, 743, rfl⟩
abbrev main_v613 : Ref sig .tc := ⟨.hbm, 744, rfl⟩
abbrev main_v614 : Ref sig .tc := ⟨.hbm, 745, rfl⟩
abbrev main_v615 : Ref sig .tc := ⟨.hbm, 746, rfl⟩
abbrev main_c_119 : Ref sig .tc := ⟨.hbm, 747, rfl⟩
abbrev main_v616 : Ref sig .tc := ⟨.hbm, 748, rfl⟩
abbrev main_v617 : Ref sig .tc := ⟨.hbm, 749, rfl⟩
abbrev main_c_120 : Ref sig .tc := ⟨.hbm, 750, rfl⟩
abbrev main_v618 : Ref sig .tc := ⟨.hbm, 751, rfl⟩
abbrev main_v619 : Ref sig .tc := ⟨.hbm, 752, rfl⟩
abbrev main_v620 : Ref sig .tc := ⟨.hbm, 753, rfl⟩
abbrev main_v621 : Ref sig .tc := ⟨.hbm, 754, rfl⟩
abbrev main_v622 : Ref sig .tc := ⟨.hbm, 755, rfl⟩
abbrev main_v623 : Ref sig .tc := ⟨.hbm, 756, rfl⟩
abbrev main_v624 : Ref sig .tc := ⟨.hbm, 757, rfl⟩
abbrev main_v625 : Ref sig .tc := ⟨.hbm, 758, rfl⟩
abbrev main_v626 : Ref sig .tc := ⟨.hbm, 759, rfl⟩
abbrev main_v627 : Ref sig .tc := ⟨.hbm, 760, rfl⟩
abbrev main_c_121 : Ref sig .tc := ⟨.hbm, 761, rfl⟩
abbrev main_v628 : Ref sig .tc := ⟨.hbm, 762, rfl⟩
abbrev main_v629 : Ref sig .tc := ⟨.hbm, 763, rfl⟩
abbrev main_c_122 : Ref sig .tc := ⟨.hbm, 764, rfl⟩
abbrev main_v630 : Ref sig .tc := ⟨.hbm, 765, rfl⟩
abbrev main_v631 : Ref sig .tc := ⟨.hbm, 766, rfl⟩
abbrev main_v632 : Ref sig .tc := ⟨.hbm, 767, rfl⟩
abbrev main_v633 : Ref sig .tc := ⟨.hbm, 768, rfl⟩
abbrev main_v634 : Ref sig .tc := ⟨.hbm, 769, rfl⟩
abbrev main_v635 : Ref sig .tc := ⟨.hbm, 770, rfl⟩
abbrev main_v636 : Ref sig .tc := ⟨.hbm, 771, rfl⟩
abbrev main_c_123 : Ref sig .tc := ⟨.hbm, 772, rfl⟩
abbrev main_v637 : Ref sig .tc := ⟨.hbm, 773, rfl⟩
abbrev main_v638 : Ref sig .tc := ⟨.hbm, 774, rfl⟩
abbrev main_c_124 : Ref sig .tc := ⟨.hbm, 775, rfl⟩
abbrev main_v639 : Ref sig .tc := ⟨.hbm, 776, rfl⟩
abbrev main_v640 : Ref sig .tc := ⟨.hbm, 777, rfl⟩
abbrev main_v641 : Ref sig .tc := ⟨.hbm, 778, rfl⟩
abbrev main_v642 : Ref sig .tc := ⟨.hbm, 779, rfl⟩
abbrev main_v643 : Ref sig .tc := ⟨.hbm, 780, rfl⟩
abbrev main_v644 : Ref sig .tc := ⟨.hbm, 781, rfl⟩
abbrev main_v645 : Ref sig .tc := ⟨.hbm, 782, rfl⟩
abbrev main_v646 : Ref sig .tc := ⟨.hbm, 783, rfl⟩
abbrev main_v647 : Ref sig .tc := ⟨.hbm, 784, rfl⟩
abbrev main_v648 : Ref sig .tc := ⟨.hbm, 785, rfl⟩
abbrev main_c_125 : Ref sig .tc := ⟨.hbm, 786, rfl⟩
abbrev main_v649 : Ref sig .tc := ⟨.hbm, 787, rfl⟩
abbrev main_v650 : Ref sig .tc := ⟨.hbm, 788, rfl⟩
abbrev main_c_126 : Ref sig .tc := ⟨.hbm, 789, rfl⟩
abbrev main_v651 : Ref sig .tc := ⟨.hbm, 790, rfl⟩
abbrev main_v652 : Ref sig .tc := ⟨.hbm, 791, rfl⟩
abbrev main_v653 : Ref sig .tc := ⟨.hbm, 792, rfl⟩
abbrev main_v654 : Ref sig .tc := ⟨.hbm, 793, rfl⟩
abbrev main_v655 : Ref sig .tc := ⟨.hbm, 794, rfl⟩
abbrev main_v656 : Ref sig .tc := ⟨.hbm, 795, rfl⟩
abbrev main_v657 : Ref sig .tc := ⟨.hbm, 796, rfl⟩
abbrev main_c_127 : Ref sig .tc := ⟨.hbm, 797, rfl⟩
abbrev main_v658 : Ref sig .tc := ⟨.hbm, 798, rfl⟩
abbrev main_v659 : Ref sig .tc := ⟨.hbm, 799, rfl⟩
abbrev main_c_128 : Ref sig .tc := ⟨.hbm, 800, rfl⟩
abbrev main_v660 : Ref sig .tc := ⟨.hbm, 801, rfl⟩
abbrev main_v661 : Ref sig .tc := ⟨.hbm, 802, rfl⟩
abbrev main_v662 : Ref sig .tc := ⟨.hbm, 803, rfl⟩
abbrev main_v663 : Ref sig .tc := ⟨.hbm, 804, rfl⟩
abbrev main_v664 : Ref sig .tc := ⟨.hbm, 805, rfl⟩
abbrev main_v665 : Ref sig .tc := ⟨.hbm, 806, rfl⟩
abbrev main_v666 : Ref sig .tc := ⟨.hbm, 807, rfl⟩
abbrev main_v667 : Ref sig .tc := ⟨.hbm, 808, rfl⟩
abbrev main_v668 : Ref sig .tc := ⟨.hbm, 809, rfl⟩
abbrev main_v669 : Ref sig .tc := ⟨.hbm, 810, rfl⟩
abbrev main_c_129 : Ref sig .tc := ⟨.hbm, 811, rfl⟩
abbrev main_v670 : Ref sig .tc := ⟨.hbm, 812, rfl⟩
abbrev main_v671 : Ref sig .tc := ⟨.hbm, 813, rfl⟩
abbrev main_c_130 : Ref sig .tc := ⟨.hbm, 814, rfl⟩
abbrev main_v672 : Ref sig .tc := ⟨.hbm, 815, rfl⟩
abbrev main_v673 : Ref sig .tc := ⟨.hbm, 816, rfl⟩
abbrev main_v674 : Ref sig .tc := ⟨.hbm, 817, rfl⟩
abbrev main_v675 : Ref sig .tc := ⟨.hbm, 818, rfl⟩
abbrev main_v676 : Ref sig .tc := ⟨.hbm, 819, rfl⟩
abbrev main_v677 : Ref sig .tc := ⟨.hbm, 820, rfl⟩
abbrev main_v678 : Ref sig .tc := ⟨.hbm, 821, rfl⟩
abbrev main_c_131 : Ref sig .tc := ⟨.hbm, 822, rfl⟩
abbrev main_v679 : Ref sig .tc := ⟨.hbm, 823, rfl⟩
abbrev main_v680 : Ref sig .tc := ⟨.hbm, 824, rfl⟩
abbrev main_c_132 : Ref sig .tc := ⟨.hbm, 825, rfl⟩
abbrev main_v681 : Ref sig .tc := ⟨.hbm, 826, rfl⟩
abbrev main_v682 : Ref sig .tc := ⟨.hbm, 827, rfl⟩
abbrev main_v683 : Ref sig .tc := ⟨.hbm, 828, rfl⟩
abbrev main_v684 : Ref sig .tc := ⟨.hbm, 829, rfl⟩
abbrev main_v685 : Ref sig .tc := ⟨.hbm, 830, rfl⟩
abbrev main_v686 : Ref sig .tc := ⟨.hbm, 831, rfl⟩
abbrev main_v687 : Ref sig .tc := ⟨.hbm, 832, rfl⟩
abbrev main_v688 : Ref sig .tc := ⟨.hbm, 833, rfl⟩
abbrev main_v689 : Ref sig .tc := ⟨.hbm, 834, rfl⟩
abbrev main_v690 : Ref sig .tc := ⟨.hbm, 835, rfl⟩
abbrev main_c_133 : Ref sig .tc := ⟨.hbm, 836, rfl⟩
abbrev main_v691 : Ref sig .tc := ⟨.hbm, 837, rfl⟩
abbrev main_v692 : Ref sig .tc := ⟨.hbm, 838, rfl⟩
abbrev main_c_134 : Ref sig .tc := ⟨.hbm, 839, rfl⟩
abbrev main_v693 : Ref sig .tc := ⟨.hbm, 840, rfl⟩
abbrev main_v694 : Ref sig .tc := ⟨.hbm, 841, rfl⟩
abbrev main_v695 : Ref sig .tc := ⟨.hbm, 842, rfl⟩
abbrev main_v696 : Ref sig .tc := ⟨.hbm, 843, rfl⟩
abbrev main_v697 : Ref sig .tc := ⟨.hbm, 844, rfl⟩
abbrev main_v698 : Ref sig .tc := ⟨.hbm, 845, rfl⟩
abbrev main_v699 : Ref sig .tc := ⟨.hbm, 846, rfl⟩
abbrev main_c_135 : Ref sig .tc := ⟨.hbm, 847, rfl⟩
abbrev main_v700 : Ref sig .tc := ⟨.hbm, 848, rfl⟩
abbrev main_v701 : Ref sig .tc := ⟨.hbm, 849, rfl⟩
abbrev main_c_136 : Ref sig .tc := ⟨.hbm, 850, rfl⟩
abbrev main_v702 : Ref sig .tc := ⟨.hbm, 851, rfl⟩
abbrev main_v703 : Ref sig .tc := ⟨.hbm, 852, rfl⟩
abbrev main_v704 : Ref sig .tc := ⟨.hbm, 853, rfl⟩
abbrev main_v705 : Ref sig .tc := ⟨.hbm, 854, rfl⟩
abbrev main_v706 : Ref sig .tc := ⟨.hbm, 855, rfl⟩
abbrev main_v707 : Ref sig .tc := ⟨.hbm, 856, rfl⟩
abbrev main_v708 : Ref sig .tc := ⟨.hbm, 857, rfl⟩
abbrev main_v709 : Ref sig .tc := ⟨.hbm, 858, rfl⟩
abbrev main_v710 : Ref sig .tc := ⟨.hbm, 859, rfl⟩
abbrev main_v711 : Ref sig .tc := ⟨.hbm, 860, rfl⟩
abbrev main_c_137 : Ref sig .tc := ⟨.hbm, 861, rfl⟩
abbrev main_v712 : Ref sig .tc := ⟨.hbm, 862, rfl⟩
abbrev main_v713 : Ref sig .tc := ⟨.hbm, 863, rfl⟩
abbrev main_c_138 : Ref sig .tc := ⟨.hbm, 864, rfl⟩
abbrev main_v714 : Ref sig .tc := ⟨.hbm, 865, rfl⟩
abbrev main_v715 : Ref sig .tc := ⟨.hbm, 866, rfl⟩
abbrev main_v716 : Ref sig .tc := ⟨.hbm, 867, rfl⟩
abbrev main_v717 : Ref sig .tc := ⟨.hbm, 868, rfl⟩
abbrev main_v718 : Ref sig .tc := ⟨.hbm, 869, rfl⟩
abbrev main_v719 : Ref sig .tc := ⟨.hbm, 870, rfl⟩
abbrev main_v720 : Ref sig .tc := ⟨.hbm, 871, rfl⟩
abbrev main_c_139 : Ref sig .tc := ⟨.hbm, 872, rfl⟩
abbrev main_v721 : Ref sig .tc := ⟨.hbm, 873, rfl⟩
abbrev main_v722 : Ref sig .tc := ⟨.hbm, 874, rfl⟩
abbrev main_c_140 : Ref sig .tc := ⟨.hbm, 875, rfl⟩
abbrev main_v723 : Ref sig .tc := ⟨.hbm, 876, rfl⟩
abbrev main_v724 : Ref sig .tc := ⟨.hbm, 877, rfl⟩
abbrev main_v725 : Ref sig .tc := ⟨.hbm, 878, rfl⟩
abbrev main_v726 : Ref sig .tc := ⟨.hbm, 879, rfl⟩
abbrev main_v727 : Ref sig .tc := ⟨.hbm, 880, rfl⟩
abbrev main_v728 : Ref sig .tc := ⟨.hbm, 881, rfl⟩
abbrev main_v729 : Ref sig .tc := ⟨.hbm, 882, rfl⟩
abbrev main_v730 : Ref sig .tc := ⟨.hbm, 883, rfl⟩
abbrev main_v731 : Ref sig .tc := ⟨.hbm, 884, rfl⟩
abbrev main_v732 : Ref sig .tc := ⟨.hbm, 885, rfl⟩
abbrev main_c_141 : Ref sig .tc := ⟨.hbm, 886, rfl⟩
abbrev main_v733 : Ref sig .tc := ⟨.hbm, 887, rfl⟩
abbrev main_v734 : Ref sig .tc := ⟨.hbm, 888, rfl⟩
abbrev main_c_142 : Ref sig .tc := ⟨.hbm, 889, rfl⟩
abbrev main_v735 : Ref sig .tc := ⟨.hbm, 890, rfl⟩
abbrev main_v736 : Ref sig .tc := ⟨.hbm, 891, rfl⟩
abbrev main_v737 : Ref sig .tc := ⟨.hbm, 892, rfl⟩
abbrev main_v738 : Ref sig .tc := ⟨.hbm, 893, rfl⟩
abbrev main_v739 : Ref sig .tc := ⟨.hbm, 894, rfl⟩
abbrev main_v740 : Ref sig .tc := ⟨.hbm, 895, rfl⟩
abbrev main_v741 : Ref sig .tc := ⟨.hbm, 896, rfl⟩
abbrev main_c_143 : Ref sig .tc := ⟨.hbm, 897, rfl⟩
abbrev main_v742 : Ref sig .tc := ⟨.hbm, 898, rfl⟩
abbrev main_v743 : Ref sig .tc := ⟨.hbm, 899, rfl⟩
abbrev main_c_144 : Ref sig .tc := ⟨.hbm, 900, rfl⟩
abbrev main_v744 : Ref sig .tc := ⟨.hbm, 901, rfl⟩
abbrev main_v745 : Ref sig .tc := ⟨.hbm, 902, rfl⟩
abbrev main_v746 : Ref sig .tc := ⟨.hbm, 903, rfl⟩
abbrev main_v747 : Ref sig .tc := ⟨.hbm, 904, rfl⟩
abbrev main_v748 : Ref sig .tc := ⟨.hbm, 905, rfl⟩
abbrev main_v749 : Ref sig .tc := ⟨.hbm, 906, rfl⟩
abbrev main_v750 : Ref sig .tc := ⟨.hbm, 907, rfl⟩
abbrev main_v751 : Ref sig .tc := ⟨.hbm, 908, rfl⟩
abbrev main_v752 : Ref sig .tc := ⟨.hbm, 909, rfl⟩
abbrev main_v753 : Ref sig .tc := ⟨.hbm, 910, rfl⟩
abbrev main_c_145 : Ref sig .tc := ⟨.hbm, 911, rfl⟩
abbrev main_v754 : Ref sig .tc := ⟨.hbm, 912, rfl⟩
abbrev main_v755 : Ref sig .tc := ⟨.hbm, 913, rfl⟩
abbrev main_c_146 : Ref sig .tc := ⟨.hbm, 914, rfl⟩
abbrev main_v756 : Ref sig .tc := ⟨.hbm, 915, rfl⟩
abbrev main_v757 : Ref sig .tc := ⟨.hbm, 916, rfl⟩
abbrev main_v758 : Ref sig .tc := ⟨.hbm, 917, rfl⟩
abbrev main_v759 : Ref sig .tc := ⟨.hbm, 918, rfl⟩
abbrev main_v760 : Ref sig .tc := ⟨.hbm, 919, rfl⟩
abbrev main_v761 : Ref sig .tc := ⟨.hbm, 920, rfl⟩
abbrev main_v762 : Ref sig .tc := ⟨.hbm, 921, rfl⟩
abbrev main_c_147 : Ref sig .tc := ⟨.hbm, 922, rfl⟩
abbrev main_v763 : Ref sig .tc := ⟨.hbm, 923, rfl⟩
abbrev main_v764 : Ref sig .tc := ⟨.hbm, 924, rfl⟩
abbrev main_c_148 : Ref sig .tc := ⟨.hbm, 925, rfl⟩
abbrev main_v765 : Ref sig .tc := ⟨.hbm, 926, rfl⟩
abbrev main_v766 : Ref sig .tc := ⟨.hbm, 927, rfl⟩
abbrev main_v767 : Ref sig .tc := ⟨.hbm, 928, rfl⟩
abbrev main_v768 : Ref sig .tc := ⟨.hbm, 929, rfl⟩
abbrev main_v769 : Ref sig .tc := ⟨.hbm, 930, rfl⟩
abbrev main_v770 : Ref sig .tc := ⟨.hbm, 931, rfl⟩
abbrev main_v771 : Ref sig .tc := ⟨.hbm, 932, rfl⟩
abbrev main_v772 : Ref sig .tc := ⟨.hbm, 933, rfl⟩
abbrev main_v773 : Ref sig .tc := ⟨.hbm, 934, rfl⟩
abbrev main_v774 : Ref sig .tc := ⟨.hbm, 935, rfl⟩
abbrev main_c_149 : Ref sig .tc := ⟨.hbm, 936, rfl⟩
abbrev main_v775 : Ref sig .tc := ⟨.hbm, 937, rfl⟩
abbrev main_v776 : Ref sig .tc := ⟨.hbm, 938, rfl⟩
abbrev main_c_150 : Ref sig .tc := ⟨.hbm, 939, rfl⟩
abbrev main_v777 : Ref sig .tc := ⟨.hbm, 940, rfl⟩
abbrev main_v778 : Ref sig .tc := ⟨.hbm, 941, rfl⟩
abbrev main_v779 : Ref sig .tc := ⟨.hbm, 942, rfl⟩
abbrev main_v780 : Ref sig .tc := ⟨.hbm, 943, rfl⟩
abbrev main_v781 : Ref sig .tc := ⟨.hbm, 944, rfl⟩
abbrev main_v782 : Ref sig .tc := ⟨.hbm, 945, rfl⟩
abbrev main_v783 : Ref sig .tc := ⟨.hbm, 946, rfl⟩
abbrev main_c_151 : Ref sig .tc := ⟨.hbm, 947, rfl⟩
abbrev main_v784 : Ref sig .tc := ⟨.hbm, 948, rfl⟩
abbrev main_v785 : Ref sig .tc := ⟨.hbm, 949, rfl⟩
abbrev main_c_152 : Ref sig .tc := ⟨.hbm, 950, rfl⟩
abbrev main_v786 : Ref sig .tc := ⟨.hbm, 951, rfl⟩
abbrev main_v787 : Ref sig .tc := ⟨.hbm, 952, rfl⟩
abbrev main_v788 : Ref sig .tc := ⟨.hbm, 953, rfl⟩
abbrev main_v789 : Ref sig .tc := ⟨.hbm, 954, rfl⟩
abbrev main_v790 : Ref sig .tc := ⟨.hbm, 955, rfl⟩
abbrev main_v791 : Ref sig .tc := ⟨.hbm, 956, rfl⟩
abbrev main_v792 : Ref sig .tc := ⟨.hbm, 957, rfl⟩
abbrev main_v793 : Ref sig .tc := ⟨.hbm, 958, rfl⟩
abbrev main_v794 : Ref sig .tc := ⟨.hbm, 959, rfl⟩
abbrev main_v795 : Ref sig .tc := ⟨.hbm, 960, rfl⟩
abbrev main_c_153 : Ref sig .tc := ⟨.hbm, 961, rfl⟩
abbrev main_v796 : Ref sig .tc := ⟨.hbm, 962, rfl⟩
abbrev main_v797 : Ref sig .tc := ⟨.hbm, 963, rfl⟩
abbrev main_c_154 : Ref sig .tc := ⟨.hbm, 964, rfl⟩
abbrev main_v798 : Ref sig .tc := ⟨.hbm, 965, rfl⟩
abbrev main_v799 : Ref sig .tc := ⟨.hbm, 966, rfl⟩
abbrev main_v800 : Ref sig .tc := ⟨.hbm, 967, rfl⟩
abbrev main_v801 : Ref sig .tc := ⟨.hbm, 968, rfl⟩
abbrev main_v802 : Ref sig .tc := ⟨.hbm, 969, rfl⟩
abbrev main_v803 : Ref sig .tc := ⟨.hbm, 970, rfl⟩
abbrev main_v804 : Ref sig .tc := ⟨.hbm, 971, rfl⟩
abbrev main_c_155 : Ref sig .tc := ⟨.hbm, 972, rfl⟩
abbrev main_v805 : Ref sig .tc := ⟨.hbm, 973, rfl⟩
abbrev main_v806 : Ref sig .tc := ⟨.hbm, 974, rfl⟩
abbrev main_c_156 : Ref sig .tc := ⟨.hbm, 975, rfl⟩
abbrev main_v807 : Ref sig .tc := ⟨.hbm, 976, rfl⟩
abbrev main_v808 : Ref sig .tc := ⟨.hbm, 977, rfl⟩
abbrev main_v809 : Ref sig .tc := ⟨.hbm, 978, rfl⟩
abbrev main_v810 : Ref sig .tc := ⟨.hbm, 979, rfl⟩
abbrev main_v811 : Ref sig .tc := ⟨.hbm, 980, rfl⟩
abbrev main_v812 : Ref sig .tc := ⟨.hbm, 981, rfl⟩
abbrev main_v813 : Ref sig .tc := ⟨.hbm, 982, rfl⟩
abbrev main_v814 : Ref sig .tc := ⟨.hbm, 983, rfl⟩
abbrev main_v815 : Ref sig .tc := ⟨.hbm, 984, rfl⟩
abbrev main_v816 : Ref sig .tc := ⟨.hbm, 985, rfl⟩
abbrev main_c_157 : Ref sig .tc := ⟨.hbm, 986, rfl⟩
abbrev main_v817 : Ref sig .tc := ⟨.hbm, 987, rfl⟩
abbrev main_v818 : Ref sig .tc := ⟨.hbm, 988, rfl⟩
abbrev main_c_158 : Ref sig .tc := ⟨.hbm, 989, rfl⟩
abbrev main_v819 : Ref sig .tc := ⟨.hbm, 990, rfl⟩
abbrev main_v820 : Ref sig .tc := ⟨.hbm, 991, rfl⟩
abbrev main_v821 : Ref sig .tc := ⟨.hbm, 992, rfl⟩
abbrev main_v822 : Ref sig .tc := ⟨.hbm, 993, rfl⟩
abbrev main_v823 : Ref sig .tc := ⟨.hbm, 994, rfl⟩
abbrev main_v824 : Ref sig .tc := ⟨.hbm, 995, rfl⟩
abbrev main_v825 : Ref sig .tc := ⟨.hbm, 996, rfl⟩
abbrev main_c_159 : Ref sig .tc := ⟨.hbm, 997, rfl⟩
abbrev main_v826 : Ref sig .tc := ⟨.hbm, 998, rfl⟩
abbrev main_v827 : Ref sig .tc := ⟨.hbm, 999, rfl⟩
abbrev main_c_160 : Ref sig .tc := ⟨.hbm, 1000, rfl⟩
abbrev main_v828 : Ref sig .tc := ⟨.hbm, 1001, rfl⟩
abbrev main_v829 : Ref sig .tc := ⟨.hbm, 1002, rfl⟩
abbrev main_v830 : Ref sig .tc := ⟨.hbm, 1003, rfl⟩
abbrev main_v831 : Ref sig .tc := ⟨.hbm, 1004, rfl⟩
abbrev main_v832 : Ref sig .tc := ⟨.hbm, 1005, rfl⟩
abbrev main_v833 : Ref sig .tc := ⟨.hbm, 1006, rfl⟩
abbrev main_v834 : Ref sig .tc := ⟨.hbm, 1007, rfl⟩
abbrev main_v835 : Ref sig .tc := ⟨.hbm, 1008, rfl⟩
abbrev main_v836 : Ref sig .tc := ⟨.hbm, 1009, rfl⟩
abbrev main_v837 : Ref sig .tc := ⟨.hbm, 1010, rfl⟩
abbrev main_c_161 : Ref sig .tc := ⟨.hbm, 1011, rfl⟩
abbrev main_v838 : Ref sig .tc := ⟨.hbm, 1012, rfl⟩
abbrev main_v839 : Ref sig .tc := ⟨.hbm, 1013, rfl⟩
abbrev main_c_162 : Ref sig .tc := ⟨.hbm, 1014, rfl⟩
abbrev main_v840 : Ref sig .tc := ⟨.hbm, 1015, rfl⟩
abbrev main_v841 : Ref sig .tc := ⟨.hbm, 1016, rfl⟩
abbrev main_v842 : Ref sig .tc := ⟨.hbm, 1017, rfl⟩
abbrev main_v843 : Ref sig .tc := ⟨.hbm, 1018, rfl⟩
abbrev main_v844 : Ref sig .tc := ⟨.hbm, 1019, rfl⟩
abbrev main_v845 : Ref sig .tc := ⟨.hbm, 1020, rfl⟩
abbrev main_v846 : Ref sig .tc := ⟨.hbm, 1021, rfl⟩
abbrev main_c_163 : Ref sig .tc := ⟨.hbm, 1022, rfl⟩
abbrev main_v847 : Ref sig .tc := ⟨.hbm, 1023, rfl⟩
abbrev main_v848 : Ref sig .tc := ⟨.hbm, 1024, rfl⟩
abbrev main_c_164 : Ref sig .tc := ⟨.hbm, 1025, rfl⟩
abbrev main_v849 : Ref sig .tc := ⟨.hbm, 1026, rfl⟩
abbrev main_v850 : Ref sig .tc := ⟨.hbm, 1027, rfl⟩
abbrev main_v851 : Ref sig .tc := ⟨.hbm, 1028, rfl⟩
abbrev main_v852 : Ref sig .tc := ⟨.hbm, 1029, rfl⟩
abbrev main_v853 : Ref sig .tc := ⟨.hbm, 1030, rfl⟩
abbrev main_v854 : Ref sig .tc := ⟨.hbm, 1031, rfl⟩
abbrev main_v855 : Ref sig .tc := ⟨.hbm, 1032, rfl⟩
abbrev main_v856 : Ref sig .tc := ⟨.hbm, 1033, rfl⟩
abbrev main_v857 : Ref sig .tc := ⟨.hbm, 1034, rfl⟩
abbrev main_v858 : Ref sig .tc := ⟨.hbm, 1035, rfl⟩
abbrev main_c_165 : Ref sig .tc := ⟨.hbm, 1036, rfl⟩
abbrev main_v859 : Ref sig .tc := ⟨.hbm, 1037, rfl⟩
abbrev main_v860 : Ref sig .tc := ⟨.hbm, 1038, rfl⟩
abbrev main_c_166 : Ref sig .tc := ⟨.hbm, 1039, rfl⟩
abbrev main_v861 : Ref sig .tc := ⟨.hbm, 1040, rfl⟩
abbrev main_v862 : Ref sig .tc := ⟨.hbm, 1041, rfl⟩
abbrev main_v863 : Ref sig .tc := ⟨.hbm, 1042, rfl⟩
abbrev main_v864 : Ref sig .tc := ⟨.hbm, 1043, rfl⟩
abbrev main_v865 : Ref sig .tc := ⟨.hbm, 1044, rfl⟩
abbrev main_v866 : Ref sig .tc := ⟨.hbm, 1045, rfl⟩
abbrev main_v867 : Ref sig .tc := ⟨.hbm, 1046, rfl⟩
abbrev main_c_167 : Ref sig .tc := ⟨.hbm, 1047, rfl⟩
abbrev main_v868 : Ref sig .tc := ⟨.hbm, 1048, rfl⟩
abbrev main_v869 : Ref sig .tc := ⟨.hbm, 1049, rfl⟩
abbrev main_c_168 : Ref sig .tc := ⟨.hbm, 1050, rfl⟩
abbrev main_v870 : Ref sig .tc := ⟨.hbm, 1051, rfl⟩
abbrev main_v871 : Ref sig .tc := ⟨.hbm, 1052, rfl⟩
abbrev main_v872 : Ref sig .tc := ⟨.hbm, 1053, rfl⟩
abbrev main_v873 : Ref sig .tc := ⟨.hbm, 1054, rfl⟩
abbrev main_v874 : Ref sig .tc := ⟨.hbm, 1055, rfl⟩
abbrev main_v875 : Ref sig .tc := ⟨.hbm, 1056, rfl⟩
abbrev main_v876 : Ref sig .tc := ⟨.hbm, 1057, rfl⟩
abbrev main_v877 : Ref sig .tc := ⟨.hbm, 1058, rfl⟩
abbrev main_v878 : Ref sig .tc := ⟨.hbm, 1059, rfl⟩
abbrev main_v879 : Ref sig .tc := ⟨.hbm, 1060, rfl⟩
abbrev main_c_169 : Ref sig .tc := ⟨.hbm, 1061, rfl⟩
abbrev main_v880 : Ref sig .tc := ⟨.hbm, 1062, rfl⟩
abbrev main_v881 : Ref sig .tc := ⟨.hbm, 1063, rfl⟩
abbrev main_c_170 : Ref sig .tc := ⟨.hbm, 1064, rfl⟩
abbrev main_v882 : Ref sig .tc := ⟨.hbm, 1065, rfl⟩
abbrev main_v883 : Ref sig .tc := ⟨.hbm, 1066, rfl⟩
abbrev main_v884 : Ref sig .tc := ⟨.hbm, 1067, rfl⟩
abbrev main_v885 : Ref sig .tc := ⟨.hbm, 1068, rfl⟩
abbrev main_v886 : Ref sig .tc := ⟨.hbm, 1069, rfl⟩
abbrev main_v887 : Ref sig .tc := ⟨.hbm, 1070, rfl⟩
abbrev main_v888 : Ref sig .tc := ⟨.hbm, 1071, rfl⟩
abbrev main_c_171 : Ref sig .tc := ⟨.hbm, 1072, rfl⟩
abbrev main_v889 : Ref sig .tc := ⟨.hbm, 1073, rfl⟩
abbrev main_v890 : Ref sig .tc := ⟨.hbm, 1074, rfl⟩
abbrev main_c_172 : Ref sig .tc := ⟨.hbm, 1075, rfl⟩
abbrev main_v891 : Ref sig .tc := ⟨.hbm, 1076, rfl⟩
abbrev main_v892 : Ref sig .tc := ⟨.hbm, 1077, rfl⟩
abbrev main_v893 : Ref sig .tc := ⟨.hbm, 1078, rfl⟩
abbrev main_v894 : Ref sig .tc := ⟨.hbm, 1079, rfl⟩
abbrev main_v895 : Ref sig .tc := ⟨.hbm, 1080, rfl⟩
abbrev main_v896 : Ref sig .tc := ⟨.hbm, 1081, rfl⟩
abbrev main_v897 : Ref sig .tc := ⟨.hbm, 1082, rfl⟩
abbrev main_v898 : Ref sig .tc := ⟨.hbm, 1083, rfl⟩
abbrev main_v899 : Ref sig .tc := ⟨.hbm, 1084, rfl⟩
abbrev main_v900 : Ref sig .tc := ⟨.hbm, 1085, rfl⟩
abbrev main_c_173 : Ref sig .tc := ⟨.hbm, 1086, rfl⟩
abbrev main_v901 : Ref sig .tc := ⟨.hbm, 1087, rfl⟩
abbrev main_v902 : Ref sig .tc := ⟨.hbm, 1088, rfl⟩
abbrev main_c_174 : Ref sig .tc := ⟨.hbm, 1089, rfl⟩
abbrev main_v903 : Ref sig .tc := ⟨.hbm, 1090, rfl⟩
abbrev main_v904 : Ref sig .tc := ⟨.hbm, 1091, rfl⟩
abbrev main_v905 : Ref sig .tc := ⟨.hbm, 1092, rfl⟩
abbrev main_v906 : Ref sig .tc := ⟨.hbm, 1093, rfl⟩
abbrev main_v907 : Ref sig .tc := ⟨.hbm, 1094, rfl⟩
abbrev main_v908 : Ref sig .tc := ⟨.hbm, 1095, rfl⟩
abbrev main_v909 : Ref sig .tc := ⟨.hbm, 1096, rfl⟩
abbrev main_c_175 : Ref sig .tc := ⟨.hbm, 1097, rfl⟩
abbrev main_v910 : Ref sig .tc := ⟨.hbm, 1098, rfl⟩
abbrev main_v911 : Ref sig .tc := ⟨.hbm, 1099, rfl⟩
abbrev main_c_176 : Ref sig .tc := ⟨.hbm, 1100, rfl⟩
abbrev main_v912 : Ref sig .tc := ⟨.hbm, 1101, rfl⟩
abbrev main_v913 : Ref sig .tc := ⟨.hbm, 1102, rfl⟩
abbrev main_v914 : Ref sig .tc := ⟨.hbm, 1103, rfl⟩
abbrev main_v915 : Ref sig .tc := ⟨.hbm, 1104, rfl⟩
abbrev main_v916 : Ref sig .tc := ⟨.hbm, 1105, rfl⟩
abbrev main_v917 : Ref sig .tc := ⟨.hbm, 1106, rfl⟩
abbrev main_v918 : Ref sig .tc := ⟨.hbm, 1107, rfl⟩
abbrev main_v919 : Ref sig .tc := ⟨.hbm, 1108, rfl⟩
abbrev main_v920 : Ref sig .tc := ⟨.hbm, 1109, rfl⟩
abbrev main_v921 : Ref sig .tc := ⟨.hbm, 1110, rfl⟩
abbrev main_c_177 : Ref sig .tc := ⟨.hbm, 1111, rfl⟩
abbrev main_v922 : Ref sig .tc := ⟨.hbm, 1112, rfl⟩
abbrev main_v923 : Ref sig .tc := ⟨.hbm, 1113, rfl⟩
abbrev main_c_178 : Ref sig .tc := ⟨.hbm, 1114, rfl⟩
abbrev main_v924 : Ref sig .tc := ⟨.hbm, 1115, rfl⟩
abbrev main_v925 : Ref sig .tc := ⟨.hbm, 1116, rfl⟩
abbrev main_v926 : Ref sig .tc := ⟨.hbm, 1117, rfl⟩
abbrev main_v927 : Ref sig .tc := ⟨.hbm, 1118, rfl⟩
abbrev main_v928 : Ref sig .tc := ⟨.hbm, 1119, rfl⟩
abbrev main_v929 : Ref sig .tc := ⟨.hbm, 1120, rfl⟩
abbrev main_v930 : Ref sig .tc := ⟨.hbm, 1121, rfl⟩
abbrev main_c_179 : Ref sig .tc := ⟨.hbm, 1122, rfl⟩
abbrev main_v931 : Ref sig .tc := ⟨.hbm, 1123, rfl⟩
abbrev main_v932 : Ref sig .tc := ⟨.hbm, 1124, rfl⟩
abbrev main_c_180 : Ref sig .tc := ⟨.hbm, 1125, rfl⟩
abbrev main_v933 : Ref sig .tc := ⟨.hbm, 1126, rfl⟩
abbrev main_v934 : Ref sig .tc := ⟨.hbm, 1127, rfl⟩
abbrev main_v935 : Ref sig .tc := ⟨.hbm, 1128, rfl⟩
abbrev main_v936 : Ref sig .tc := ⟨.hbm, 1129, rfl⟩
abbrev main_v937 : Ref sig .tc := ⟨.hbm, 1130, rfl⟩
abbrev main_v938 : Ref sig .tc := ⟨.hbm, 1131, rfl⟩
abbrev main_v939 : Ref sig .tc := ⟨.hbm, 1132, rfl⟩
abbrev main_v940 : Ref sig .tc := ⟨.hbm, 1133, rfl⟩
abbrev main_v941 : Ref sig .tc := ⟨.hbm, 1134, rfl⟩
abbrev main_v942 : Ref sig .tc := ⟨.hbm, 1135, rfl⟩
abbrev main_c_181 : Ref sig .tc := ⟨.hbm, 1136, rfl⟩
abbrev main_v943 : Ref sig .tc := ⟨.hbm, 1137, rfl⟩
abbrev main_v944 : Ref sig .tc := ⟨.hbm, 1138, rfl⟩
abbrev main_c_182 : Ref sig .tc := ⟨.hbm, 1139, rfl⟩
abbrev main_v945 : Ref sig .tc := ⟨.hbm, 1140, rfl⟩
abbrev main_v946 : Ref sig .tc := ⟨.hbm, 1141, rfl⟩
abbrev main_v947 : Ref sig .tc := ⟨.hbm, 1142, rfl⟩
abbrev main_v948 : Ref sig .tc := ⟨.hbm, 1143, rfl⟩
abbrev main_v949 : Ref sig .tc := ⟨.hbm, 1144, rfl⟩
abbrev main_v950 : Ref sig .tc := ⟨.hbm, 1145, rfl⟩
abbrev main_v951 : Ref sig .tc := ⟨.hbm, 1146, rfl⟩
abbrev main_c_183 : Ref sig .tc := ⟨.hbm, 1147, rfl⟩
abbrev main_v952 : Ref sig .tc := ⟨.hbm, 1148, rfl⟩
abbrev main_v953 : Ref sig .tc := ⟨.hbm, 1149, rfl⟩
abbrev main_c_184 : Ref sig .tc := ⟨.hbm, 1150, rfl⟩
abbrev main_v954 : Ref sig .tc := ⟨.hbm, 1151, rfl⟩
abbrev main_v955 : Ref sig .tc := ⟨.hbm, 1152, rfl⟩
abbrev main_v956 : Ref sig .tc := ⟨.hbm, 1153, rfl⟩
abbrev main_v957 : Ref sig .tc := ⟨.hbm, 1154, rfl⟩
abbrev main_v958 : Ref sig .tc := ⟨.hbm, 1155, rfl⟩
abbrev main_v959 : Ref sig .tc := ⟨.hbm, 1156, rfl⟩
abbrev main_v960 : Ref sig .tc := ⟨.hbm, 1157, rfl⟩
abbrev main_v961 : Ref sig .tc := ⟨.hbm, 1158, rfl⟩
abbrev main_v962 : Ref sig .tc := ⟨.hbm, 1159, rfl⟩
abbrev main_v963 : Ref sig .tc := ⟨.hbm, 1160, rfl⟩
abbrev main_c_185 : Ref sig .tc := ⟨.hbm, 1161, rfl⟩
abbrev main_v964 : Ref sig .tc := ⟨.hbm, 1162, rfl⟩
abbrev main_v965 : Ref sig .tc := ⟨.hbm, 1163, rfl⟩
abbrev main_c_186 : Ref sig .tc := ⟨.hbm, 1164, rfl⟩
abbrev main_v966 : Ref sig .tc := ⟨.hbm, 1165, rfl⟩
abbrev main_v967 : Ref sig .tc := ⟨.hbm, 1166, rfl⟩
abbrev main_v968 : Ref sig .tc := ⟨.hbm, 1167, rfl⟩
abbrev main_v969 : Ref sig .tc := ⟨.hbm, 1168, rfl⟩
abbrev main_v970 : Ref sig .tc := ⟨.hbm, 1169, rfl⟩
abbrev main_v971 : Ref sig .tc := ⟨.hbm, 1170, rfl⟩
abbrev main_v972 : Ref sig .tc := ⟨.hbm, 1171, rfl⟩
abbrev main_c_187 : Ref sig .tc := ⟨.hbm, 1172, rfl⟩
abbrev main_v973 : Ref sig .tc := ⟨.hbm, 1173, rfl⟩
abbrev main_v974 : Ref sig .tc := ⟨.hbm, 1174, rfl⟩
abbrev main_c_188 : Ref sig .tc := ⟨.hbm, 1175, rfl⟩
abbrev main_v975 : Ref sig .tc := ⟨.hbm, 1176, rfl⟩
abbrev main_v976 : Ref sig .tc := ⟨.hbm, 1177, rfl⟩
abbrev main_v977 : Ref sig .tc := ⟨.hbm, 1178, rfl⟩
abbrev main_v978 : Ref sig .tc := ⟨.hbm, 1179, rfl⟩
abbrev main_v979 : Ref sig .tc := ⟨.hbm, 1180, rfl⟩
abbrev main_v980 : Ref sig .tc := ⟨.hbm, 1181, rfl⟩
abbrev main_v981 : Ref sig .tc := ⟨.hbm, 1182, rfl⟩
abbrev main_v982 : Ref sig .tc := ⟨.hbm, 1183, rfl⟩
abbrev main_v983 : Ref sig .tc := ⟨.hbm, 1184, rfl⟩
abbrev main_v984 : Ref sig .tc := ⟨.hbm, 1185, rfl⟩
abbrev main_c_189 : Ref sig .tc := ⟨.hbm, 1186, rfl⟩
abbrev main_v985 : Ref sig .tc := ⟨.hbm, 1187, rfl⟩
abbrev main_v986 : Ref sig .tc := ⟨.hbm, 1188, rfl⟩
abbrev main_c_190 : Ref sig .tc := ⟨.hbm, 1189, rfl⟩
abbrev main_v987 : Ref sig .tc := ⟨.hbm, 1190, rfl⟩
abbrev main_v988 : Ref sig .tc := ⟨.hbm, 1191, rfl⟩
abbrev main_v989 : Ref sig .tc := ⟨.hbm, 1192, rfl⟩
abbrev main_v990 : Ref sig .tc := ⟨.hbm, 1193, rfl⟩
abbrev main_v991 : Ref sig .tc := ⟨.hbm, 1194, rfl⟩
abbrev main_v992 : Ref sig .tc := ⟨.hbm, 1195, rfl⟩
abbrev main_v993 : Ref sig .tc := ⟨.hbm, 1196, rfl⟩
abbrev main_c_191 : Ref sig .tc := ⟨.hbm, 1197, rfl⟩
abbrev main_v994 : Ref sig .tc := ⟨.hbm, 1198, rfl⟩
abbrev main_v995 : Ref sig .tc := ⟨.hbm, 1199, rfl⟩
abbrev main_c_192 : Ref sig .tc := ⟨.hbm, 1200, rfl⟩
abbrev main_v996 : Ref sig .tc := ⟨.hbm, 1201, rfl⟩
abbrev main_v997 : Ref sig .tc := ⟨.hbm, 1202, rfl⟩
abbrev main_v998 : Ref sig .tc := ⟨.hbm, 1203, rfl⟩
abbrev main_v999 : Ref sig .tc := ⟨.hbm, 1204, rfl⟩
abbrev main_v1000 : Ref sig .tc := ⟨.hbm, 1205, rfl⟩
abbrev main_v1001 : Ref sig .tc := ⟨.hbm, 1206, rfl⟩
abbrev main_v1002 : Ref sig .tc := ⟨.hbm, 1207, rfl⟩
abbrev main_v1003 : Ref sig .tc := ⟨.hbm, 1208, rfl⟩
abbrev main_v1004 : Ref sig .tc := ⟨.hbm, 1209, rfl⟩
abbrev main_v1005 : Ref sig .tc := ⟨.hbm, 1210, rfl⟩
abbrev main_c_193 : Ref sig .tc := ⟨.hbm, 1211, rfl⟩
abbrev main_v1006 : Ref sig .tc := ⟨.hbm, 1212, rfl⟩
abbrev main_v1007 : Ref sig .tc := ⟨.hbm, 1213, rfl⟩
abbrev main_c_194 : Ref sig .tc := ⟨.hbm, 1214, rfl⟩
abbrev main_v1008 : Ref sig .tc := ⟨.hbm, 1215, rfl⟩
abbrev main_v1009 : Ref sig .tc := ⟨.hbm, 1216, rfl⟩
abbrev main_v1010 : Ref sig .tc := ⟨.hbm, 1217, rfl⟩
abbrev main_v1011 : Ref sig .tc := ⟨.hbm, 1218, rfl⟩
abbrev main_v1012 : Ref sig .tc := ⟨.hbm, 1219, rfl⟩
abbrev main_v1013 : Ref sig .tc := ⟨.hbm, 1220, rfl⟩
abbrev main_v1014 : Ref sig .tc := ⟨.hbm, 1221, rfl⟩
abbrev main_c_195 : Ref sig .tc := ⟨.hbm, 1222, rfl⟩
abbrev main_v1015 : Ref sig .tc := ⟨.hbm, 1223, rfl⟩
abbrev main_v1016 : Ref sig .tc := ⟨.hbm, 1224, rfl⟩
abbrev main_c_196 : Ref sig .tc := ⟨.hbm, 1225, rfl⟩
abbrev main_v1017 : Ref sig .tc := ⟨.hbm, 1226, rfl⟩
abbrev main_v1018 : Ref sig .tc := ⟨.hbm, 1227, rfl⟩
abbrev main_v1019 : Ref sig .tc := ⟨.hbm, 1228, rfl⟩
abbrev main_v1020 : Ref sig .tc := ⟨.hbm, 1229, rfl⟩
abbrev main_v1021 : Ref sig .tc := ⟨.hbm, 1230, rfl⟩
abbrev main_v1022 : Ref sig .tc := ⟨.hbm, 1231, rfl⟩
abbrev main_v1023 : Ref sig .tc := ⟨.hbm, 1232, rfl⟩
abbrev main_v1024 : Ref sig .tc := ⟨.hbm, 1233, rfl⟩
abbrev main_v1025 : Ref sig .tc := ⟨.hbm, 1234, rfl⟩
abbrev main_v1026 : Ref sig .tc := ⟨.hbm, 1235, rfl⟩
abbrev main_c_197 : Ref sig .tc := ⟨.hbm, 1236, rfl⟩
abbrev main_v1027 : Ref sig .tc := ⟨.hbm, 1237, rfl⟩
abbrev main_v1028 : Ref sig .tc := ⟨.hbm, 1238, rfl⟩
abbrev main_c_198 : Ref sig .tc := ⟨.hbm, 1239, rfl⟩
abbrev main_v1029 : Ref sig .tc := ⟨.hbm, 1240, rfl⟩
abbrev main_v1030 : Ref sig .tc := ⟨.hbm, 1241, rfl⟩
abbrev main_v1031 : Ref sig .tc := ⟨.hbm, 1242, rfl⟩
abbrev main_v1032 : Ref sig .tc := ⟨.hbm, 1243, rfl⟩
abbrev main_v1033 : Ref sig .tc := ⟨.hbm, 1244, rfl⟩
abbrev main_v1034 : Ref sig .tc := ⟨.hbm, 1245, rfl⟩
abbrev main_v1035 : Ref sig .tc := ⟨.hbm, 1246, rfl⟩
abbrev main_c_199 : Ref sig .tc := ⟨.hbm, 1247, rfl⟩
abbrev main_v1036 : Ref sig .tc := ⟨.hbm, 1248, rfl⟩
abbrev main_v1037 : Ref sig .tc := ⟨.hbm, 1249, rfl⟩
abbrev main_c_200 : Ref sig .tc := ⟨.hbm, 1250, rfl⟩
abbrev main_v1038 : Ref sig .tc := ⟨.hbm, 1251, rfl⟩
abbrev main_v1039 : Ref sig .tc := ⟨.hbm, 1252, rfl⟩
abbrev main_v1040 : Ref sig .tc := ⟨.hbm, 1253, rfl⟩
abbrev main_v1041 : Ref sig .tc := ⟨.hbm, 1254, rfl⟩
abbrev main_v1042 : Ref sig .tc := ⟨.hbm, 1255, rfl⟩
abbrev main_v1043 : Ref sig .tc := ⟨.hbm, 1256, rfl⟩
abbrev main_v1044 : Ref sig .tc := ⟨.hbm, 1257, rfl⟩
abbrev main_v1045 : Ref sig .tc := ⟨.hbm, 1258, rfl⟩
abbrev main_v1046 : Ref sig .tc := ⟨.hbm, 1259, rfl⟩
abbrev main_v1047 : Ref sig .tc := ⟨.hbm, 1260, rfl⟩
abbrev main_c_201 : Ref sig .tc := ⟨.hbm, 1261, rfl⟩
abbrev main_v1048 : Ref sig .tc := ⟨.hbm, 1262, rfl⟩
abbrev main_v1049 : Ref sig .tc := ⟨.hbm, 1263, rfl⟩
abbrev main_c_202 : Ref sig .tc := ⟨.hbm, 1264, rfl⟩
abbrev main_v1050 : Ref sig .tc := ⟨.hbm, 1265, rfl⟩
abbrev main_v1051 : Ref sig .tc := ⟨.hbm, 1266, rfl⟩
abbrev main_v1052 : Ref sig .tc := ⟨.hbm, 1267, rfl⟩
abbrev main_v1053 : Ref sig .tc := ⟨.hbm, 1268, rfl⟩
abbrev main_v1054 : Ref sig .tc := ⟨.hbm, 1269, rfl⟩
abbrev main_v1055 : Ref sig .tc := ⟨.hbm, 1270, rfl⟩
abbrev main_v1056 : Ref sig .tc := ⟨.hbm, 1271, rfl⟩
abbrev main_c_203 : Ref sig .tc := ⟨.hbm, 1272, rfl⟩
abbrev main_v1057 : Ref sig .tc := ⟨.hbm, 1273, rfl⟩
abbrev main_v1058 : Ref sig .tc := ⟨.hbm, 1274, rfl⟩
abbrev main_c_204 : Ref sig .tc := ⟨.hbm, 1275, rfl⟩
abbrev main_v1059 : Ref sig .tc := ⟨.hbm, 1276, rfl⟩
abbrev main_v1060 : Ref sig .tc := ⟨.hbm, 1277, rfl⟩
abbrev main_v1061 : Ref sig .tc := ⟨.hbm, 1278, rfl⟩
abbrev main_v1062 : Ref sig .tc := ⟨.hbm, 1279, rfl⟩
abbrev main_v1063 : Ref sig .tc := ⟨.hbm, 1280, rfl⟩
abbrev main_v1064 : Ref sig .tc := ⟨.hbm, 1281, rfl⟩
abbrev main_v1065 : Ref sig .tc := ⟨.hbm, 1282, rfl⟩
abbrev main_v1066 : Ref sig .tc := ⟨.hbm, 1283, rfl⟩
abbrev main_v1067 : Ref sig .tc := ⟨.hbm, 1284, rfl⟩
abbrev main_v1068 : Ref sig .tc := ⟨.hbm, 1285, rfl⟩
abbrev main_c_205 : Ref sig .tc := ⟨.hbm, 1286, rfl⟩
abbrev main_v1069 : Ref sig .tc := ⟨.hbm, 1287, rfl⟩
abbrev main_v1070 : Ref sig .tc := ⟨.hbm, 1288, rfl⟩
abbrev main_c_206 : Ref sig .tc := ⟨.hbm, 1289, rfl⟩
abbrev main_v1071 : Ref sig .tc := ⟨.hbm, 1290, rfl⟩
abbrev main_v1072 : Ref sig .tc := ⟨.hbm, 1291, rfl⟩
abbrev main_v1073 : Ref sig .tc := ⟨.hbm, 1292, rfl⟩
abbrev main_v1074 : Ref sig .tc := ⟨.hbm, 1293, rfl⟩
abbrev main_v1075 : Ref sig .tc := ⟨.hbm, 1294, rfl⟩
abbrev main_v1076 : Ref sig .tc := ⟨.hbm, 1295, rfl⟩
abbrev main_v1077 : Ref sig .tc := ⟨.hbm, 1296, rfl⟩
abbrev main_c_207 : Ref sig .tc := ⟨.hbm, 1297, rfl⟩
abbrev main_v1078 : Ref sig .tc := ⟨.hbm, 1298, rfl⟩
abbrev main_v1079 : Ref sig .tc := ⟨.hbm, 1299, rfl⟩
abbrev main_c_208 : Ref sig .tc := ⟨.hbm, 1300, rfl⟩
abbrev main_v1080 : Ref sig .tc := ⟨.hbm, 1301, rfl⟩
abbrev main_v1081 : Ref sig .tc := ⟨.hbm, 1302, rfl⟩
abbrev main_v1082 : Ref sig .tc := ⟨.hbm, 1303, rfl⟩
abbrev main_v1083 : Ref sig .tc := ⟨.hbm, 1304, rfl⟩
abbrev main_v1084 : Ref sig .tc := ⟨.hbm, 1305, rfl⟩
abbrev main_v1085 : Ref sig .tc := ⟨.hbm, 1306, rfl⟩
abbrev main_v1086 : Ref sig .tc := ⟨.hbm, 1307, rfl⟩
abbrev main_v1087 : Ref sig .tc := ⟨.hbm, 1308, rfl⟩
abbrev main_v1088 : Ref sig .tc := ⟨.hbm, 1309, rfl⟩
abbrev main_v1089 : Ref sig .tc := ⟨.hbm, 1310, rfl⟩
abbrev main_c_209 : Ref sig .tc := ⟨.hbm, 1311, rfl⟩
abbrev main_v1090 : Ref sig .tc := ⟨.hbm, 1312, rfl⟩
abbrev main_v1091 : Ref sig .tc := ⟨.hbm, 1313, rfl⟩
abbrev main_c_210 : Ref sig .tc := ⟨.hbm, 1314, rfl⟩
abbrev main_v1092 : Ref sig .tc := ⟨.hbm, 1315, rfl⟩
abbrev main_v1093 : Ref sig .tc := ⟨.hbm, 1316, rfl⟩
abbrev main_v1094 : Ref sig .tc := ⟨.hbm, 1317, rfl⟩
abbrev main_v1095 : Ref sig .tc := ⟨.hbm, 1318, rfl⟩
abbrev main_v1096 : Ref sig .tc := ⟨.hbm, 1319, rfl⟩
abbrev main_v1097 : Ref sig .tc := ⟨.hbm, 1320, rfl⟩
abbrev main_v1098 : Ref sig .tc := ⟨.hbm, 1321, rfl⟩
abbrev main_c_211 : Ref sig .tc := ⟨.hbm, 1322, rfl⟩
abbrev main_v1099 : Ref sig .tc := ⟨.hbm, 1323, rfl⟩
abbrev main_v1100 : Ref sig .tc := ⟨.hbm, 1324, rfl⟩
abbrev main_c_212 : Ref sig .tc := ⟨.hbm, 1325, rfl⟩
abbrev main_v1101 : Ref sig .tc := ⟨.hbm, 1326, rfl⟩
abbrev main_v1102 : Ref sig .tc := ⟨.hbm, 1327, rfl⟩
abbrev main_v1103 : Ref sig .tc := ⟨.hbm, 1328, rfl⟩
abbrev main_v1104 : Ref sig .tc := ⟨.hbm, 1329, rfl⟩
abbrev main_v1105 : Ref sig .tc := ⟨.hbm, 1330, rfl⟩
abbrev main_v1106 : Ref sig .tc := ⟨.hbm, 1331, rfl⟩
abbrev main_v1107 : Ref sig .tc := ⟨.hbm, 1332, rfl⟩
abbrev main_v1108 : Ref sig .tc := ⟨.hbm, 1333, rfl⟩
abbrev main_v1109 : Ref sig .tc := ⟨.hbm, 1334, rfl⟩
abbrev main_v1110 : Ref sig .tc := ⟨.hbm, 1335, rfl⟩
abbrev main_c_213 : Ref sig .tc := ⟨.hbm, 1336, rfl⟩
abbrev main_v1111 : Ref sig .tc := ⟨.hbm, 1337, rfl⟩
abbrev main_v1112 : Ref sig .tc := ⟨.hbm, 1338, rfl⟩
abbrev main_c_214 : Ref sig .tc := ⟨.hbm, 1339, rfl⟩
abbrev main_v1113 : Ref sig .tc := ⟨.hbm, 1340, rfl⟩
abbrev main_v1114 : Ref sig .tc := ⟨.hbm, 1341, rfl⟩
abbrev main_v1115 : Ref sig .tc := ⟨.hbm, 1342, rfl⟩
abbrev main_v1116 : Ref sig .tc := ⟨.hbm, 1343, rfl⟩
abbrev main_v1117 : Ref sig .tc := ⟨.hbm, 1344, rfl⟩
abbrev main_v1118 : Ref sig .tc := ⟨.hbm, 1345, rfl⟩
abbrev main_v1119 : Ref sig .tc := ⟨.hbm, 1346, rfl⟩
abbrev main_c_215 : Ref sig .tc := ⟨.hbm, 1347, rfl⟩
abbrev main_v1120 : Ref sig .tc := ⟨.hbm, 1348, rfl⟩
abbrev main_v1121 : Ref sig .tc := ⟨.hbm, 1349, rfl⟩
abbrev main_c_216 : Ref sig .tc := ⟨.hbm, 1350, rfl⟩
abbrev main_v1122 : Ref sig .tc := ⟨.hbm, 1351, rfl⟩
abbrev main_v1123 : Ref sig .tc := ⟨.hbm, 1352, rfl⟩
abbrev main_v1124 : Ref sig .tc := ⟨.hbm, 1353, rfl⟩
abbrev main_v1125 : Ref sig .tc := ⟨.hbm, 1354, rfl⟩
abbrev main_v1126 : Ref sig .tc := ⟨.hbm, 1355, rfl⟩
abbrev main_v1127 : Ref sig .tc := ⟨.hbm, 1356, rfl⟩
abbrev main_v1128 : Ref sig .tc := ⟨.hbm, 1357, rfl⟩
abbrev main_v1129 : Ref sig .tc := ⟨.hbm, 1358, rfl⟩
abbrev main_v1130 : Ref sig .tc := ⟨.hbm, 1359, rfl⟩
abbrev main_v1131 : Ref sig .tc := ⟨.hbm, 1360, rfl⟩
abbrev main_c_217 : Ref sig .tc := ⟨.hbm, 1361, rfl⟩
abbrev main_v1132 : Ref sig .tc := ⟨.hbm, 1362, rfl⟩
abbrev main_v1133 : Ref sig .tc := ⟨.hbm, 1363, rfl⟩
abbrev main_c_218 : Ref sig .tc := ⟨.hbm, 1364, rfl⟩
abbrev main_v1134 : Ref sig .tc := ⟨.hbm, 1365, rfl⟩
abbrev main_v1135 : Ref sig .tc := ⟨.hbm, 1366, rfl⟩
abbrev main_v1136 : Ref sig .tc := ⟨.hbm, 1367, rfl⟩
abbrev main_v1137 : Ref sig .tc := ⟨.hbm, 1368, rfl⟩
abbrev main_v1138 : Ref sig .tc := ⟨.hbm, 1369, rfl⟩
abbrev main_v1139 : Ref sig .tc := ⟨.hbm, 1370, rfl⟩
abbrev main_v1140 : Ref sig .tc := ⟨.hbm, 1371, rfl⟩
abbrev main_c_219 : Ref sig .tc := ⟨.hbm, 1372, rfl⟩
abbrev main_v1141 : Ref sig .tc := ⟨.hbm, 1373, rfl⟩
abbrev main_v1142 : Ref sig .tc := ⟨.hbm, 1374, rfl⟩
abbrev main_c_220 : Ref sig .tc := ⟨.hbm, 1375, rfl⟩
abbrev main_v1143 : Ref sig .tc := ⟨.hbm, 1376, rfl⟩
abbrev main_v1144 : Ref sig .tc := ⟨.hbm, 1377, rfl⟩
abbrev main_v1145 : Ref sig .tc := ⟨.hbm, 1378, rfl⟩
abbrev main_v1146 : Ref sig .tc := ⟨.hbm, 1379, rfl⟩
abbrev main_v1147 : Ref sig .tc := ⟨.hbm, 1380, rfl⟩
abbrev main_v1148 : Ref sig .tc := ⟨.hbm, 1381, rfl⟩
abbrev main_v1149 : Ref sig .tc := ⟨.hbm, 1382, rfl⟩
abbrev main_v1150 : Ref sig .tc := ⟨.hbm, 1383, rfl⟩
abbrev main_v1151 : Ref sig .tc := ⟨.hbm, 1384, rfl⟩
abbrev main_v1152 : Ref sig .tc := ⟨.hbm, 1385, rfl⟩
abbrev main_c_221 : Ref sig .tc := ⟨.hbm, 1386, rfl⟩
abbrev main_v1153 : Ref sig .tc := ⟨.hbm, 1387, rfl⟩
abbrev main_v1154 : Ref sig .tc := ⟨.hbm, 1388, rfl⟩
abbrev main_c_222 : Ref sig .tc := ⟨.hbm, 1389, rfl⟩
abbrev main_v1155 : Ref sig .tc := ⟨.hbm, 1390, rfl⟩
abbrev main_v1156 : Ref sig .tc := ⟨.hbm, 1391, rfl⟩
abbrev main_v1157 : Ref sig .tc := ⟨.hbm, 1392, rfl⟩
abbrev main_v1158 : Ref sig .tc := ⟨.hbm, 1393, rfl⟩
abbrev main_v1159 : Ref sig .tc := ⟨.hbm, 1394, rfl⟩
abbrev main_v1160 : Ref sig .tc := ⟨.hbm, 1395, rfl⟩
abbrev main_v1161 : Ref sig .tc := ⟨.hbm, 1396, rfl⟩
abbrev main_c_223 : Ref sig .tc := ⟨.hbm, 1397, rfl⟩
abbrev main_v1162 : Ref sig .tc := ⟨.hbm, 1398, rfl⟩
abbrev main_v1163 : Ref sig .tc := ⟨.hbm, 1399, rfl⟩
abbrev main_c_224 : Ref sig .tc := ⟨.hbm, 1400, rfl⟩
abbrev main_v1164 : Ref sig .tc := ⟨.hbm, 1401, rfl⟩
abbrev main_v1165 : Ref sig .tc := ⟨.hbm, 1402, rfl⟩
abbrev main_v1166 : Ref sig .tc := ⟨.hbm, 1403, rfl⟩
abbrev main_v1167 : Ref sig .tc := ⟨.hbm, 1404, rfl⟩
abbrev main_v1168 : Ref sig .tc := ⟨.hbm, 1405, rfl⟩
abbrev main_v1169 : Ref sig .tc := ⟨.hbm, 1406, rfl⟩
abbrev main_v1170 : Ref sig .tc := ⟨.hbm, 1407, rfl⟩
abbrev main_v1171 : Ref sig .tc := ⟨.hbm, 1408, rfl⟩
abbrev main_v1172 : Ref sig .tc := ⟨.hbm, 1409, rfl⟩
abbrev main_v1173 : Ref sig .tc := ⟨.hbm, 1410, rfl⟩
abbrev main_c_225 : Ref sig .tc := ⟨.hbm, 1411, rfl⟩
abbrev main_v1174 : Ref sig .tc := ⟨.hbm, 1412, rfl⟩
abbrev main_v1175 : Ref sig .tc := ⟨.hbm, 1413, rfl⟩
abbrev main_c_226 : Ref sig .tc := ⟨.hbm, 1414, rfl⟩
abbrev main_v1176 : Ref sig .tc := ⟨.hbm, 1415, rfl⟩
abbrev main_v1177 : Ref sig .tc := ⟨.hbm, 1416, rfl⟩
abbrev main_v1178 : Ref sig .tc := ⟨.hbm, 1417, rfl⟩
abbrev main_v1179 : Ref sig .tc := ⟨.hbm, 1418, rfl⟩
abbrev main_v1180 : Ref sig .tc := ⟨.hbm, 1419, rfl⟩
abbrev main_cst_227 : Ref sig .tc := ⟨.hbm, 1420, rfl⟩
abbrev main_v1181 : Ref sig .tc := ⟨.hbm, 1421, rfl⟩
abbrev main_cst_228 : Ref sig .tc := ⟨.hbm, 1422, rfl⟩
abbrev main_v1182 : Ref sig .tc := ⟨.hbm, 1423, rfl⟩
abbrev main_v1183 : Ref sig .tc := ⟨.hbm, 1424, rfl⟩
abbrev main_v1184 : Ref sig .tc := ⟨.hbm, 1425, rfl⟩
abbrev main_cst_229 : Ref sig .tc := ⟨.hbm, 1426, rfl⟩
abbrev main_v1185 : Ref sig .tc := ⟨.hbm, 1427, rfl⟩
abbrev main_v1186 : Ref sig .tc := ⟨.hbm, 1428, rfl⟩
abbrev main_v1187 : Ref sig .tc := ⟨.hbm, 1429, rfl⟩
abbrev main_v1188 : Ref sig .tc := ⟨.hbm, 1430, rfl⟩
abbrev main_v1189 : Ref sig .tc := ⟨.hbm, 1431, rfl⟩
abbrev main_c_230 : Ref sig .tc := ⟨.hbm, 1432, rfl⟩
abbrev main_v1190 : Ref sig .tc := ⟨.hbm, 1433, rfl⟩
abbrev main_v1191 : Ref sig .tc := ⟨.hbm, 1434, rfl⟩
abbrev main_c_231 : Ref sig .tc := ⟨.hbm, 1435, rfl⟩
abbrev main_v1192 : Ref sig .tc := ⟨.hbm, 1436, rfl⟩
abbrev main_v1193 : Ref sig .tc := ⟨.hbm, 1437, rfl⟩
abbrev main_v1194 : Ref sig .tc := ⟨.hbm, 1438, rfl⟩
abbrev main_v1195 : Ref sig .tc := ⟨.hbm, 1439, rfl⟩
abbrev main_v1196 : Ref sig .tc := ⟨.hbm, 1440, rfl⟩
abbrev main_v1197 : Ref sig .tc := ⟨.hbm, 1441, rfl⟩
abbrev main_v1198 : Ref sig .tc := ⟨.hbm, 1442, rfl⟩
abbrev main_cst_232 : Ref sig .tc := ⟨.hbm, 1443, rfl⟩
abbrev main_v1199 : Ref sig .tc := ⟨.hbm, 1444, rfl⟩
abbrev main_v1200 : Ref sig .tc := ⟨.hbm, 1445, rfl⟩
abbrev main_v1201 : Ref sig .tc := ⟨.hbm, 1446, rfl⟩
abbrev main_v1202 : Ref sig .tc := ⟨.hbm, 1447, rfl⟩
abbrev main_v1203 : Ref sig .tc := ⟨.hbm, 1448, rfl⟩
abbrev main_c_233 : Ref sig .tc := ⟨.hbm, 1449, rfl⟩
abbrev main_v1204 : Ref sig .tc := ⟨.hbm, 1450, rfl⟩
abbrev main_v1205 : Ref sig .tc := ⟨.hbm, 1451, rfl⟩
abbrev main_c_234 : Ref sig .tc := ⟨.hbm, 1452, rfl⟩
abbrev main_v1206 : Ref sig .tc := ⟨.hbm, 1453, rfl⟩
abbrev main_v1207 : Ref sig .tc := ⟨.hbm, 1454, rfl⟩
abbrev main_v1208 : Ref sig .tc := ⟨.hbm, 1455, rfl⟩
abbrev main_v1209 : Ref sig .tc := ⟨.hbm, 1456, rfl⟩
abbrev main_v1210 : Ref sig .tc := ⟨.hbm, 1457, rfl⟩
abbrev main_cst_235 : Ref sig .tc := ⟨.hbm, 1458, rfl⟩
abbrev main_v1211 : Ref sig .tc := ⟨.hbm, 1459, rfl⟩
abbrev main_v1212 : Ref sig .tc := ⟨.hbm, 1460, rfl⟩
abbrev main_v1213 : Ref sig .tc := ⟨.hbm, 1461, rfl⟩
abbrev main_v1214 : Ref sig .tc := ⟨.hbm, 1462, rfl⟩
abbrev main_v1215 : Ref sig .tc := ⟨.hbm, 1463, rfl⟩
abbrev main_v1216 : Ref sig .tc := ⟨.hbm, 1464, rfl⟩
abbrev main_v1217 : Ref sig .tc := ⟨.hbm, 1465, rfl⟩
abbrev main_v1218 : Ref sig .tc := ⟨.hbm, 1466, rfl⟩
abbrev main_v1219 : Ref sig .tc := ⟨.hbm, 1467, rfl⟩
abbrev main_v1220 : Ref sig .tc := ⟨.hbm, 1468, rfl⟩
abbrev main_v1221 : Ref sig .tc := ⟨.hbm, 1469, rfl⟩
abbrev main_cst_236 : Ref sig .tc := ⟨.hbm, 1470, rfl⟩
abbrev main_v1222 : Ref sig .tc := ⟨.hbm, 1471, rfl⟩
abbrev main_v1223 : Ref sig .tc := ⟨.hbm, 1472, rfl⟩
abbrev main_cst_237 : Ref sig .tc := ⟨.hbm, 1473, rfl⟩
abbrev main_v1224 : Ref sig .tc := ⟨.hbm, 1474, rfl⟩
abbrev main_v1225 : Ref sig .tc := ⟨.hbm, 1475, rfl⟩
abbrev main_v1226 : Ref sig .tc := ⟨.hbm, 1476, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  slices_S27x100000_S1x100000_0_0 : S27x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S27x64x64_S1x64x64_0_0_0 : S27x64x64.Slices ![0, 0, 0] S1x64x64
  shapeCasts_S1x64x64_S64x64 : S1x64x64.ShapeCasts S64x64
  slices_S27x100000_S1x100000_1_0 : S27x100000.Slices ![1, 0] S1x100000
  slices_S27x64x64_S1x64x64_1_0_0 : S27x64x64.Slices ![1, 0, 0] S1x64x64
  slices_S27x100000_S1x100000_2_0 : S27x100000.Slices ![2, 0] S1x100000
  slices_S27x64x64_S1x64x64_2_0_0 : S27x64x64.Slices ![2, 0, 0] S1x64x64
  slices_S27x100000_S1x100000_3_0 : S27x100000.Slices ![3, 0] S1x100000
  slices_S27x64x64_S1x64x64_3_0_0 : S27x64x64.Slices ![3, 0, 0] S1x64x64
  slices_S27x100000_S1x100000_4_0 : S27x100000.Slices ![4, 0] S1x100000
  slices_S27x64x64_S1x64x64_4_0_0 : S27x64x64.Slices ![4, 0, 0] S1x64x64
  slices_S27x100000_S1x100000_5_0 : S27x100000.Slices ![5, 0] S1x100000
  slices_S27x64x64_S1x64x64_5_0_0 : S27x64x64.Slices ![5, 0, 0] S1x64x64
  slices_S27x100000_S1x100000_6_0 : S27x100000.Slices ![6, 0] S1x100000
  slices_S27x64x64_S1x64x64_6_0_0 : S27x64x64.Slices ![6, 0, 0] S1x64x64
  slices_S27x100000_S1x100000_7_0 : S27x100000.Slices ![7, 0] S1x100000
  slices_S27x64x64_S1x64x64_7_0_0 : S27x64x64.Slices ![7, 0, 0] S1x64x64
  slices_S27x100000_S1x100000_8_0 : S27x100000.Slices ![8, 0] S1x100000
  slices_S27x64x64_S1x64x64_8_0_0 : S27x64x64.Slices ![8, 0, 0] S1x64x64
  slices_S27x100000_S1x100000_9_0 : S27x100000.Slices ![9, 0] S1x100000
  slices_S27x64x64_S1x64x64_9_0_0 : S27x64x64.Slices ![9, 0, 0] S1x64x64
  slices_S27x100000_S1x100000_10_0 : S27x100000.Slices ![10, 0] S1x100000
  slices_S27x64x64_S1x64x64_10_0_0 : S27x64x64.Slices ![10, 0, 0] S1x64x64
  slices_S27x100000_S1x100000_11_0 : S27x100000.Slices ![11, 0] S1x100000
  slices_S27x64x64_S1x64x64_11_0_0 : S27x64x64.Slices ![11, 0, 0] S1x64x64
  slices_S27x100000_S1x100000_12_0 : S27x100000.Slices ![12, 0] S1x100000
  slices_S27x64x64_S1x64x64_12_0_0 : S27x64x64.Slices ![12, 0, 0] S1x64x64
  slices_S27x100000_S1x100000_13_0 : S27x100000.Slices ![13, 0] S1x100000
  slices_S27x64x64_S1x64x64_13_0_0 : S27x64x64.Slices ![13, 0, 0] S1x64x64
  slices_S27x100000_S1x100000_14_0 : S27x100000.Slices ![14, 0] S1x100000
  slices_S27x64x64_S1x64x64_14_0_0 : S27x64x64.Slices ![14, 0, 0] S1x64x64
  slices_S27x100000_S1x100000_15_0 : S27x100000.Slices ![15, 0] S1x100000
  slices_S27x64x64_S1x64x64_15_0_0 : S27x64x64.Slices ![15, 0, 0] S1x64x64
  slices_S27x100000_S1x100000_16_0 : S27x100000.Slices ![16, 0] S1x100000
  slices_S27x64x64_S1x64x64_16_0_0 : S27x64x64.Slices ![16, 0, 0] S1x64x64
  slices_S27x100000_S1x100000_17_0 : S27x100000.Slices ![17, 0] S1x100000
  slices_S27x64x64_S1x64x64_17_0_0 : S27x64x64.Slices ![17, 0, 0] S1x64x64
  slices_S27x100000_S1x100000_18_0 : S27x100000.Slices ![18, 0] S1x100000
  slices_S27x64x64_S1x64x64_18_0_0 : S27x64x64.Slices ![18, 0, 0] S1x64x64
  slices_S27x100000_S1x100000_19_0 : S27x100000.Slices ![19, 0] S1x100000
  slices_S27x64x64_S1x64x64_19_0_0 : S27x64x64.Slices ![19, 0, 0] S1x64x64
  slices_S27x100000_S1x100000_20_0 : S27x100000.Slices ![20, 0] S1x100000
  slices_S27x64x64_S1x64x64_20_0_0 : S27x64x64.Slices ![20, 0, 0] S1x64x64
  slices_S27x100000_S1x100000_21_0 : S27x100000.Slices ![21, 0] S1x100000
  slices_S27x64x64_S1x64x64_21_0_0 : S27x64x64.Slices ![21, 0, 0] S1x64x64
  slices_S27x100000_S1x100000_22_0 : S27x100000.Slices ![22, 0] S1x100000
  slices_S27x64x64_S1x64x64_22_0_0 : S27x64x64.Slices ![22, 0, 0] S1x64x64
  slices_S27x100000_S1x100000_23_0 : S27x100000.Slices ![23, 0] S1x100000
  slices_S27x64x64_S1x64x64_23_0_0 : S27x64x64.Slices ![23, 0, 0] S1x64x64
  slices_S27x100000_S1x100000_24_0 : S27x100000.Slices ![24, 0] S1x100000
  slices_S27x64x64_S1x64x64_24_0_0 : S27x64x64.Slices ![24, 0, 0] S1x64x64
  slices_S27x100000_S1x100000_25_0 : S27x100000.Slices ![25, 0] S1x100000
  slices_S27x64x64_S1x64x64_25_0_0 : S27x64x64.Slices ![25, 0, 0] S1x64x64
  slices_S27x100000_S1x100000_26_0 : S27x100000.Slices ![26, 0] S1x100000
  slices_S27x64x64_S1x64x64_26_0_0 : S27x64x64.Slices ![26, 0, 0] S1x64x64
  bcast_S_S100000x1 : S_.BroadcastsInDim S100000x1 (![] : Fin 0 → Fin S100000x1.rank)
  bcast_S_S8x1 : S_.BroadcastsInDim S8x1 (![] : Fin 0 → Fin S8x1.rank)
  bcast_S_S8x64 : S_.BroadcastsInDim S8x64 (![] : Fin 0 → Fin S8x64.rank)
  bcast_S8x1_S8x64_0_1 : S8x1.BroadcastsInDim S8x64 (![0, 1] : Fin 2 → Fin S8x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S100000x1_S100000x64_1_0_n_n_0_1_164_wf : GatherDims.WF S100000x64 S100000x1 S100000x64 [1] [0] [] [0] [] 1 ![1, 64]
  dot_S100000x64_S64x64_S100000x64_1_0_0_1_n_n_wf : DotDims.WF S100000x64 S64x64 S100000x64 [1] [0] [0] [1] [] []
  scatter_S100000x64_S100000x1_S100000x64_1_0_0_1_wf : ScatterDims.WF S100000x64 S100000x1 S100000x64 [1] [0] [0] 1
  scatter_S8x1_S100000x1_S100000x1_1_0_0_1_wf : ScatterDims.WF S8x1 S100000x1 S100000x1 [1] [0] [0] 1
  scatter_S8x64_S100000x1_S100000x64_1_0_0_1_wf : ScatterDims.WF S8x64 S100000x1 S100000x64 [1] [0] [0] 1
  gather_S8x64_S100000x1_S100000x64_1_0_n_n_0_1_164_wf : GatherDims.WF S8x64 S100000x1 S100000x64 [1] [0] [] [0] [] 1 ![1, 64]

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000x64_S100000x1_S100000x64_1_0_0_1 : ScatterDims S100000x64 S100000x1 S100000x64 where
  updateWindowDims := [1]
  insertedWindowDims := [0]
  scatterDimsToOperandDims := [0]
  indexVectorDim := 1
  wf := scatter_S100000x64_S100000x1_S100000x64_1_0_0_1_wf
def scatter_S8x1_S100000x1_S100000x1_1_0_0_1 : ScatterDims S8x1 S100000x1 S100000x1 where
  updateWindowDims := [1]
  insertedWindowDims := [0]
  scatterDimsToOperandDims := [0]
  indexVectorDim := 1
  wf := scatter_S8x1_S100000x1_S100000x1_1_0_0_1_wf
def scatter_S8x64_S100000x1_S100000x64_1_0_0_1 : ScatterDims S8x64 S100000x1 S100000x64 where
  updateWindowDims := [1]
  insertedWindowDims := [0]
  scatterDimsToOperandDims := [0]
  indexVectorDim := 1
  wf := scatter_S8x64_S100000x1_S100000x64_1_0_0_1_wf
def gather_S8x64_S100000x1_S100000x64_1_0_n_n_0_1_164 : GatherDims S8x64 S100000x1 S100000x64 where
  offsetDims := [1]
  collapsedSliceDims := [0]
  operandBatchingDims := []
  startIndicesBatchingDims := []
  startIndexMap := [0]
  indexVectorDim := 1
  sliceSizes := ![1, 64]
  wf := gather_S8x64_S100000x1_S100000x64_1_0_n_n_0_1_164_wf

class Facts : Prop extends Facts₀ where

variable [Facts]
-- ==== Proof.BRunCongr.lean ====
import proofs.«404940_j85761906966882_2_alg».proof.Proof.BRegionsP

set_option maxRecDepth 6752

noncomputable section

namespace Cert.Kernel.Gen

open Idealize.ShloMosaic Idealize.ShloMosaic.TcCoe

variable {F : FTy → Type} [FloatOps F]
variable (m : (ℓ : Loc nD τ sig) → Buf (Elt F) ℓ) {o o' : Outs (F := F)}

def setAt (o : Outs (F := F)) (r₀ : Ref sig .tc) (x : (c : Dev nD) → Buf (Elt F) ((c : Thread nD τ).loc r₀)) : Outs (F := F) :=
  fun J r c => if h : r = r₀ then h ▸ x c else o J r c

theorem setAt_self (o : Outs (F := F)) (r₀ : Ref sig .tc) (x : (c : Dev nD) → Buf (Elt F) ((c : Thread nD τ).loc r₀)) (J : ℕ) (c : Dev nD) :
    setAt o r₀ x J r₀ c = x c := by
  unfold setAt; rw [dif_pos rfl]

theorem setAt_of_ne (o : Outs (F := F)) (r₀ : Ref sig .tc) (x : (c : Dev nD) → Buf (Elt F) ((c : Thread nD τ).loc r₀)) (J : ℕ) {r : Ref sig .tc}
    (h : r ≠ r₀) (c : Dev nD) : setAt o r₀ x J r c = o J r c := by
  unfold setAt; rw [dif_neg h]

def AgreeOn (S : List (Ref sig .tc)) (o o' : Outs (F := F)) : Prop := ∀ J r c, r ∈ S → o J r c = o' J r c

-- Changing a family at a reference outside `S` keeps it in agreement on `S`.
theorem agree_setAt {S : List (Ref sig .tc)} {r₀ : Ref sig .tc} {x : (c : Dev nD) → Buf (Elt F) ((c : Thread nD τ).loc r₀)}
    (hr : r₀ ∉ S) (h : AgreeOn S o o') : AgreeOn S (setAt o r₀ x) o' := fun J r c hm =>
  (setAt_of_ne o r₀ x J (fun e : r = r₀ => hr (e ▸ hm)) c).trans (h J r c hm)

abbrev Made1 : List (Ref sig .tc) := [main_v4]
abbrev Made2 : List (Ref sig .tc) := main_v132_1 :: main_v132_0 :: Made1
abbrev Made3 : List (Ref sig .tc) := main_v145 :: Made2
abbrev Made4 : List (Ref sig .tc) := main_v150 :: Made3
abbrev Made5 : List (Ref sig .tc) := main_v278_1 :: main_v278_0 :: Made4

-- A region's entry valuation reads the regions' contents only at the arrays the earlier regions leave.
theorem V59_congr (h : AgreeOn Made1 o o') : V59 m o = V59 m o' := funext fun c => by
  unfold V59 V58 V57 V56 V55 V54 V53 V52 V51 V50 V49 V48 V47 V46 V45 V44 V43 V42 V41 V40 V39 V38 V37 V36 V35 V34 V33 V32 V31 V30 V29 V28 V27 V26 V25 V24 V23 V22 V21 V20 V19 V18 V17 V16 V15 V14 V13 V12 V11 V10 V9 V8 V7 V6 V5 V4 V3 V2; rw [h 2 main_v4 c (.head _)]
theorem V61_congr (h : AgreeOn Made2 o o') : V61 m o = V61 m o' := funext fun c => by
  unfold V61 V60
  rw [V59_congr m fun J r c hr => h J r c (.tail _ (.tail _ hr)), h 60 main_v132_0 c (.tail _ (.head _)), h 60 main_v132_1 c (.head _)]
theorem V63_congr (h : AgreeOn Made3 o o') : V63 m o = V63 m o' := funext fun c => by
  unfold V63 V62; rw [V61_congr m fun J r c hr => h J r c (.tail _ hr), h 62 main_v145 c (.head _)]
theorem V121_congr (h : AgreeOn Made4 o o') : V121 m o = V121 m o' := funext fun c => by
  unfold V121 V120 V119 V118 V117 V116 V115 V114 V113 V112 V111 V110 V109 V108 V107 V106 V105 V104 V103 V102 V101 V100 V99 V98 V97 V96 V95 V94 V93 V92 V91 V90 V89 V88 V87 V86 V85 V84 V83 V82 V81 V80 V79 V78 V77 V76 V75 V74 V73 V72 V71 V70 V69 V68 V67 V66 V65 V64; rw [V63_congr m fun J r c hr => h J r c (.tail _ hr), h 64 main_v150 c (.head _)]
theorem V123_congr (h : AgreeOn Made5 o o') : V123 m o = V123 m o' := funext fun c => by
  unfold V123 V122
  rw [V121_congr m fun J r c hr => h J r c (.tail _ (.tail _ hr)), h 122 main_v278_0 c (.tail _ (.head _)), h 122 main_v278_1 c (.head _)]

end Cert.Kernel.Gen

end
-- ==== Proof.BRegGemm.lean ====
import proofs.«404940_j85761906966882_2_alg».proof.Proof.Gen.Kernel.Launch
import proofs.«404940_j85761906966882_2_alg».proof.Proof.Gen.Kernel.Skeleton
import proofs.«404940_j85761906966882_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Gemm0

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

noncomputable abbrev rx0 : Rect S1000x64 := Rect.unit (s := S1000x64) ![0, 0] S1000x64.size inb_S1000x64_S1000x64_0_0
noncomputable abbrev rw0 : Rect S64x1728 := Rect.unit (s := S64x1728) ![0, 0] S64x1728.size inb_S64x1728_S64x1728_0_0
noncomputable abbrev ro0 : Rect S1000x1728 := Rect.unit (s := S1000x1728) ![0, 0] S1000x1728.size inb_S1000x1728_S1000x1728_0_0

noncomputable def out0_2 (x0 : Vec F S1000x64 .bf16) (x1 : Vec F S64x1728 .bf16) : Vec F S1000x1728 .f32 :=
  View.canon [⟨ro0, k0_pay1 (View.ld x0 rx0) (View.ld x1 rw0)⟩]

theorem cover0_2 (p0 : Vec F S1000x1728 .f32) (y : S1000x1728.Idx) :
    ∃ pc ∈ ([⟨ro0, p0⟩] : List (View.Piece (Elt F) S1000x1728 .f32)), y ∈ pc.1.set :=
  View.cover_of_tiled [⟨ro0, p0⟩] S1000x1728.size (by rfl) y

set_option maxHeartbeats 1000000 in

theorem sound_kernel0 (c : Dev nD) (E : Set ℕ) (i : grid0.Coords)
    (arg1 : Memref sig .tc .vmem S1000x64 .bf16) (harg1 : arg1.IsWhole)
    (arg2 : Memref sig .tc .vmem S64x1728 .bf16) (harg2 : arg2.IsWhole)
    (arg3 : Memref sig .tc .vmem S1000x1728 .f32) (harg3 : arg3.IsWhole)
    (x0 : Vec F S1000x64 .bf16) (x1 : Vec F S64x1728 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__wide_gemm_kernel i arg1 harg1 arg2 harg2 arg3 harg3) K := by
  simp only [cc0__wide_gemm_kernel_eq_skeleton]; unfold cc0__wide_gemm_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Gemm0

end Cert.Kernel.Gen

end
-- ==== Proof.BRegGemm3.lean ====
import proofs.«404940_j85761906966882_2_alg».proof.Proof.Gen.Kernel.Launch
import proofs.«404940_j85761906966882_2_alg».proof.Proof.Gen.Kernel.Skeleton
import proofs.«404940_j85761906966882_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Gemm3

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

noncomputable abbrev rx3 : Rect S1000x64 := Rect.unit (s := S1000x64) ![0, 0] S1000x64.size inb_S1000x64_S1000x64_0_0
noncomputable abbrev rw3 : Rect S64x1728 := Rect.unit (s := S64x1728) ![0, 0] S64x1728.size inb_S64x1728_S64x1728_0_0
noncomputable abbrev ro3 : Rect S1000x1728 := Rect.unit (s := S1000x1728) ![0, 0] S1000x1728.size inb_S1000x1728_S1000x1728_0_0

noncomputable def out3_2 (x0 : Vec F S1000x64 .bf16) (x1 : Vec F S64x1728 .bf16) : Vec F S1000x1728 .f32 :=
  View.canon [⟨ro3, k3_pay1 (View.ld x0 rx3) (View.ld x1 rw3)⟩]

theorem cover3_2 (p0 : Vec F S1000x1728 .f32) (y : S1000x1728.Idx) :
    ∃ pc ∈ ([⟨ro3, p0⟩] : List (View.Piece (Elt F) S1000x1728 .f32)), y ∈ pc.1.set :=
  View.cover_of_tiled [⟨ro3, p0⟩] S1000x1728.size (by rfl) y

set_option maxHeartbeats 1000000 in

theorem sound_kernel3 (c : Dev nD) (E : Set ℕ) (i : grid3.Coords)
    (arg1 : Memref sig .tc .vmem S1000x64 .bf16) (harg1 : arg1.IsWhole)
    (arg2 : Memref sig .tc .vmem S64x1728 .bf16) (harg2 : arg2.IsWhole)
    (arg3 : Memref sig .tc .vmem S1000x1728 .f32) (harg3 : arg3.IsWhole)
    (x0 : Vec F S1000x64 .bf16) (x1 : Vec F S64x1728 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__wide_gemm_kernel i arg1 harg1 arg2 harg2 arg3 harg3) K := by
  simp only [cc3__wide_gemm_kernel_eq_skeleton]; unfold cc3__wide_gemm_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Gemm3

end Cert.Kernel.Gen

end
-- ==== Proof.BRegStatsRun1.lean ====
import proofs.«404940_j85761906966882_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

theorem hz1 : (![0, 0] : Fin 2 → Nat) = fun _ => 0 := funext fun a => by fin_cases a <;> rfl

section
variable (c : Dev nD) (i : grid1.Coords) (arg1 : Memref sig .tc .vmem S5000x64 .f32) (harg1 : arg1.IsWhole)
  (arg2 : Memref sig .tc .vmem S5000x8 .bf16) (harg2 : arg2.IsWhole) (arg3 : Memref sig .tc .vmem S8x64 .f32)
  (harg3 : arg3.IsWhole) (arg4 : Memref sig .tc .vmem S8x64 .f32) (harg4 : arg4.IsWhole)

section
variable (hc0 : cond1_0 i) (x0 : Vec F S5000x64 .f32) (x1 : Vec F S5000x8 .bf16)

set_option maxHeartbeats 1000000 in
/-- The first grid point: the body zeroes both accumulators, then adds the two block products; the inputs stay. -/
noncomputable def kernelRun1_A :
    { L : List (View.Piece (Elt F) S8x64 .f32) × List (View.Piece (Elt F) S8x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc1__stats_kernel i arg1 harg1 arg2 harg2 arg3 harg3 arg4 harg4) K } := by
  refine ⟨(?_, ?_), fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

/-- The pieces stored into an accumulator tile its whole buffer. -/
theorem cover1_A_2 (y : S8x64.Idx) :
    ∃ pc ∈ (kernelRun1_A c i arg1 harg1 arg2 harg2 arg3 harg3 arg4 harg4 hc0 x0 x1).1.1, y ∈ pc.1.set :=
  View.cover_of_tiledL _ S8x64.size (by sl_kernel_rfl) y

/-- Read back, the accumulator holds the block product added to what it started from. -/
theorem out1_A_2 (f) :
    arg3.view.read (Elt F) (arg3.view.writes (Elt F) f (kernelRun1_A c i arg1 harg1 arg2 harg2 arg3 harg3 arg4 harg4 hc0 x0 x1).1.1)
      = k1_pay5 x0 x1 (k1_pay1 (F := F)) := by
  rw [View.read_writes_eq_canon _ _ _ (cover1_A_2 c i arg1 harg1 arg2 harg2 arg3 harg3 arg4 harg4 hc0 x0 x1)]
  unfold kernelRun1_A
  dsimp only
  sl_unfold_words
  rw [View.canon_cons_unit_zero (S := S8x64) hz1, View.readCov_unit_zero (S := S8x64) _ hz1]
  simp only [View.readAt_eq_ld, harg1.read_unread, harg2.read_unread, View.ld_unit_zero (S := S5000x64) hz1, View.ld_unit_zero (S := S5000x8) hz1]

theorem cover1_A_3 (y : S8x64.Idx) :
    ∃ pc ∈ (kernelRun1_A c i arg1 harg1 arg2 harg2 arg3 harg3 arg4 harg4 hc0 x0 x1).1.2, y ∈ pc.1.set :=
  View.cover_of_tiledL _ S8x64.size (by sl_kernel_rfl) y

theorem out1_A_3 (f) :
    arg4.view.read (Elt F) (arg4.view.writes (Elt F) f (kernelRun1_A c i arg1 harg1 arg2 harg2 arg3 harg3 arg4 harg4 hc0 x0 x1).1.2)
      = k1_pay6 x0 x1 (k1_pay2 (F := F)) := by
  rw [View.read_writes_eq_canon _ _ _ (cover1_A_3 c i arg1 harg1 arg2 harg2 arg3 harg3 arg4 harg4 hc0 x0 x1)]
  unfold kernelRun1_A
  dsimp only
  sl_unfold_words
  rw [View.canon_cons_unit_zero (S := S8x64) hz1, View.readCov_unit_zero (S := S8x64) _ hz1]
  simp only [View.readAt_eq_ld, harg1.read_unread, harg2.read_unread, View.ld_unit_zero (S := S5000x64) hz1, View.ld_unit_zero (S := S5000x8) hz1]

end

section
variable (hc0 : ¬cond1_0 i) (x0 : Vec F S5000x64 .f32) (x1 : Vec F S5000x8 .bf16) (xo2 xo3 : Vec F S8x64 .f32)

set_option maxHeartbeats 1000000 in
/-- A later grid point: the body adds the two block products to the running accumulators; the inputs stay. -/
noncomputable def kernelRun1_B :
    { L : List (View.Piece (Elt F) S8x64 .f32) × List (View.Piece (Elt F) S8x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo2 ∗ owns (c : Thread nD τ) arg4 fullShare xo3
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc1__stats_kernel i arg1 harg1 arg2 harg2 arg3 harg3 arg4 harg4) K } := by
  refine ⟨(?_, ?_), fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

theorem cover1_B_2 (y : S8x64.Idx) :
    ∃ pc ∈ (kernelRun1_B c i arg1 harg1 arg2 harg2 arg3 harg3 arg4 harg4 hc0 x0 x1 xo2 xo3).1.1, y ∈ pc.1.set :=
  View.cover_of_tiledL _ S8x64.size (by sl_kernel_rfl) y

theorem out1_B_2 (f) :
    arg3.view.read (Elt F) (arg3.view.writes (Elt F) f (kernelRun1_B c i arg1 harg1 arg2 harg2 arg3 harg3 arg4 harg4 hc0 x0 x1 xo2 xo3).1.1)
      = k1_pay5 x0 x1 xo2 := by
  rw [View.read_writes_eq_canon _ _ _ (cover1_B_2 c i arg1 harg1 arg2 harg2 arg3 harg3 arg4 harg4 hc0 x0 x1 xo2 xo3)]
  unfold kernelRun1_B
  dsimp only
  rw [View.canon_unit_zero (S := S8x64) hz1]
  simp only [View.readAt_eq_ld, harg1.read_unread, harg2.read_unread, harg3.read_unread, View.ld_unit_zero (S := S5000x64) hz1, View.ld_unit_zero (S := S5000x8) hz1, View.ld_unit_zero (S := S8x64) hz1]

theorem cover1_B_3 (y : S8x64.Idx) :
    ∃ pc ∈ (kernelRun1_B c i arg1 harg1 arg2 harg2 arg3 harg3 arg4 harg4 hc0 x0 x1 xo2 xo3).1.2, y ∈ pc.1.set :=
  View.cover_of_tiledL _ S8x64.size (by sl_kernel_rfl) y

theorem out1_B_3 (f) :
    arg4.view.read (Elt F) (arg4.view.writes (Elt F) f (kernelRun1_B c i arg1 harg1 arg2 harg2 arg3 harg3 arg4 harg4 hc0 x0 x1 xo2 xo3).1.2)
      = k1_pay6 x0 x1 xo3 := by
  rw [View.read_writes_eq_canon _ _ _ (cover1_B_3 c i arg1 harg1 arg2 harg2 arg3 harg3 arg4 harg4 hc0 x0 x1 xo2 xo3)]
  unfold kernelRun1_B
  dsimp only
  rw [View.canon_unit_zero (S := S8x64) hz1]
  simp only [View.readAt_eq_ld, harg1.read_unread, harg2.read_unread, harg4.read_unread, View.ld_unit_zero (S := S5000x64) hz1, View.ld_unit_zero (S := S5000x8) hz1, View.ld_unit_zero (S := S8x64) hz1]

end

end

end Cert.Kernel.Gen

end
-- ==== Proof.BRegStats1.lean ====
import proofs.«404940_j85761906966882_2_alg».proof.Proof.BRegStatsRun1
import proofs.«404940_j85761906966882_2_alg».proof.Proof.Gen.Kernel.Points
import Idealize.ShloMosaic.Lib.Pipeline.FrameBody
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem bigSep_four1 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

theorem N_1' : grid1.N = 20 := by decide

section Stats1
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

noncomputable def acc1_2 (c : Dev nD) : (n : ℕ) → n < cfg1.N → Vec F S8x64 .f32
  | 0, h => k1_pay5 (iblk1 V c 0 ⟨0, h⟩) (iblk1 V c 1 ⟨0, h⟩) (k1_pay1 (F := F))
  | n + 1, h => k1_pay5 (iblk1 V c 0 ⟨n + 1, h⟩) (iblk1 V c 1 ⟨n + 1, h⟩) (acc1_2 c n (Nat.lt_of_succ_lt h))

noncomputable def acc1_3 (c : Dev nD) : (n : ℕ) → n < cfg1.N → Vec F S8x64 .f32
  | 0, h => k1_pay6 (iblk1 V c 0 ⟨0, h⟩) (iblk1 V c 1 ⟨0, h⟩) (k1_pay2 (F := F))
  | n + 1, h => k1_pay6 (iblk1 V c 0 ⟨n + 1, h⟩) (iblk1 V c 1 ⟨n + 1, h⟩) (acc1_3 c n (Nat.lt_of_succ_lt h))

theorem acc1_2_first (c : Dev nD) (t : Fin cfg1.N) (h0 : t.val = 0) :
    acc1_2 V c t.val t.isLt = k1_pay5 (iblk1 V c 0 t) (iblk1 V c 1 t) (k1_pay1 (F := F)) := by
  obtain ⟨n, hn⟩ := t
  cases n with
  | zero => rfl
  | succ n => exact absurd h0 (Nat.succ_ne_zero n)

theorem acc1_2_later (c : Dev nD) (t : Fin cfg1.N) (h0 : t.val ≠ 0) :
    acc1_2 V c t.val t.isLt = k1_pay5 (iblk1 V c 0 t) (iblk1 V c 1 t)
      (acc1_2 V c (t.val - 1) (Nat.lt_of_le_of_lt (Nat.sub_le _ _) t.isLt)) := by
  obtain ⟨n, hn⟩ := t
  cases n with
  | zero => exact absurd rfl h0
  | succ n => rfl

theorem acc1_3_first (c : Dev nD) (t : Fin cfg1.N) (h0 : t.val = 0) :
    acc1_3 V c t.val t.isLt = k1_pay6 (iblk1 V c 0 t) (iblk1 V c 1 t) (k1_pay2 (F := F)) := by
  obtain ⟨n, hn⟩ := t
  cases n with
  | zero => rfl
  | succ n => exact absurd h0 (Nat.succ_ne_zero n)

theorem acc1_3_later (c : Dev nD) (t : Fin cfg1.N) (h0 : t.val ≠ 0) :
    acc1_3 V c t.val t.isLt = k1_pay6 (iblk1 V c 0 t) (iblk1 V c 1 t)
      (acc1_3 V c (t.val - 1) (Nat.lt_of_le_of_lt (Nat.sub_le _ _) t.isLt)) := by
  obtain ⟨n, hn⟩ := t
  cases n with
  | zero => exact absurd rfl h0
  | succ n => rfl

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1_2 V c t.val t.isLt
    | ⟨3, _⟩ => acc1_3 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1_2 V c t.val t.isLt := by dsimp only [dat1]
theorem after1_3 (c : Dev nD) (t : Fin cfg1.N) : (dat1 V c).after 3 t = acc1_3 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem before1_2_later (c : Dev nD) (t : Fin cfg1.N) (h0 : t.val ≠ 0) (d) :
    (dat1 V c).before 2 t d = acc1_2 V c (t.val - 1) (Nat.lt_of_le_of_lt (Nat.sub_le _ _) t.isLt) := by
  have hN : t.val < 20 := lt_of_lt_of_eq t.isLt (show cfg1.N = 20 from N_1')
  rw [Dat.before_out_kept _ 2 rfl t h0 (Bool.eq_false_iff.mpr fun h => by have := (flush1_2 _).mp h; dsimp only at this; omega)
    (fun _ => rfl) (fun _ _ => rfl)]
  dsimp only [dat1]
theorem before1_3_later (c : Dev nD) (t : Fin cfg1.N) (h0 : t.val ≠ 0) (d) :
    (dat1 V c).before 3 t d = acc1_3 V c (t.val - 1) (Nat.lt_of_le_of_lt (Nat.sub_le _ _) t.isLt) := by
  have hN : t.val < 20 := lt_of_lt_of_eq t.isLt (show cfg1.N = 20 from N_1')
  rw [Dat.before_out_kept _ 3 rfl t h0 (Bool.eq_false_iff.mpr fun h => by have := (flush1_3 _).mp h; dsimp only at this; omega)
    (fun _ => rfl) (fun _ _ => rfl)]
  dsimp only [dat1]

noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val = 0
  · rw [acc1_2_first V c t h0, acc1_3_first V c t h0]
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact out1_A_2 c _ _ _ _ _ _ _ _ _ _ _ _ _
    · unfold owns; iexists _; isplitr
      swap; · iexact H3
      ipureintro; exact out1_A_3 c _ _ _ _ _ _ _ _ _ _ _ _ _
  · rw [acc1_2_later V c t h0, acc1_3_later V c t h0]
    simp only [before1_2_later V c t h0, before1_3_later V c t h0]
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) _ _).2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact out1_B_2 c _ _ _ _ _ _ _ _ _ _ _ _ _ _ _
    · unfold owns; iexists _; isplitr
      swap; · iexact H3
      ipureintro; exact out1_B_3 c _ _ _ _ _ _ _ _ _ _ _ _ _ _ _

theorem body_obligation1 (c : Dev nD) : BodyObligation (dat1 (F := F) V c) (defs₀ (F := F)) Variants.none () Set.univ := fun t => by
  rw [bigSep_four1, bigSep_four1]
  exact sound_body1 V c t

end Stats1

end Cert.Kernel.Gen

end
-- ==== Proof.BRegStatsRun4.lean ====
import proofs.«404940_j85761906966882_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

theorem hz4 : (![0, 0] : Fin 2 → Nat) = fun _ => 0 := funext fun a => by fin_cases a <;> rfl

section
variable (c : Dev nD) (i : grid4.Coords) (arg1 : Memref sig .tc .vmem S5000x64 .f32) (harg1 : arg1.IsWhole)
  (arg2 : Memref sig .tc .vmem S5000x8 .bf16) (harg2 : arg2.IsWhole) (arg3 : Memref sig .tc .vmem S8x64 .f32)
  (harg3 : arg3.IsWhole) (arg4 : Memref sig .tc .vmem S8x64 .f32) (harg4 : arg4.IsWhole)

section
variable (hc0 : cond4_0 i) (x0 : Vec F S5000x64 .f32) (x1 : Vec F S5000x8 .bf16)

set_option maxHeartbeats 1000000 in
/-- The first grid point: the body zeroes both accumulators, then adds the two block products; the inputs stay. -/
noncomputable def kernelRun4_A :
    { L : List (View.Piece (Elt F) S8x64 .f32) × List (View.Piece (Elt F) S8x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc4__stats_kernel i arg1 harg1 arg2 harg2 arg3 harg3 arg4 harg4) K } := by
  refine ⟨(?_, ?_), fun E K => ?run⟩
  case run =>
    simp only [cc4__stats_kernel_eq_skeleton]; unfold cc4__stats_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

/-- The pieces stored into an accumulator tile its whole buffer. -/
theorem cover4_A_2 (y : S8x64.Idx) :
    ∃ pc ∈ (kernelRun4_A c i arg1 harg1 arg2 harg2 arg3 harg3 arg4 harg4 hc0 x0 x1).1.1, y ∈ pc.1.set :=
  View.cover_of_tiledL _ S8x64.size (by sl_kernel_rfl) y

/-- Read back, the accumulator holds the block product added to what it started from. -/
theorem out4_A_2 (f) :
    arg3.view.read (Elt F) (arg3.view.writes (Elt F) f (kernelRun4_A c i arg1 harg1 arg2 harg2 arg3 harg3 arg4 harg4 hc0 x0 x1).1.1)
      = k4_pay5 x0 x1 (k4_pay1 (F := F)) := by
  rw [View.read_writes_eq_canon _ _ _ (cover4_A_2 c i arg1 harg1 arg2 harg2 arg3 harg3 arg4 harg4 hc0 x0 x1)]
  unfold kernelRun4_A
  dsimp only
  sl_unfold_words
  rw [View.canon_cons_unit_zero (S := S8x64) hz4, View.readCov_unit_zero (S := S8x64) _ hz4]
  simp only [View.readAt_eq_ld, harg1.read_unread, harg2.read_unread, View.ld_unit_zero (S := S5000x64) hz4, View.ld_unit_zero (S := S5000x8) hz4]

theorem cover4_A_3 (y : S8x64.Idx) :
    ∃ pc ∈ (kernelRun4_A c i arg1 harg1 arg2 harg2 arg3 harg3 arg4 harg4 hc0 x0 x1).1.2, y ∈ pc.1.set :=
  View.cover_of_tiledL _ S8x64.size (by sl_kernel_rfl) y

theorem out4_A_3 (f) :
    arg4.view.read (Elt F) (arg4.view.writes (Elt F) f (kernelRun4_A c i arg1 harg1 arg2 harg2 arg3 harg3 arg4 harg4 hc0 x0 x1).1.2)
      = k4_pay6 x0 x1 (k4_pay2 (F := F)) := by
  rw [View.read_writes_eq_canon _ _ _ (cover4_A_3 c i arg1 harg1 arg2 harg2 arg3 harg3 arg4 harg4 hc0 x0 x1)]
  unfold kernelRun4_A
  dsimp only
  sl_unfold_words
  rw [View.canon_cons_unit_zero (S := S8x64) hz4, View.readCov_unit_zero (S := S8x64) _ hz4]
  simp only [View.readAt_eq_ld, harg1.read_unread, harg2.read_unread, View.ld_unit_zero (S := S5000x64) hz4, View.ld_unit_zero (S := S5000x8) hz4]

end

section
variable (hc0 : ¬cond4_0 i) (x0 : Vec F S5000x64 .f32) (x1 : Vec F S5000x8 .bf16) (xo2 xo3 : Vec F S8x64 .f32)

set_option maxHeartbeats 1000000 in
/-- A later grid point: the body adds the two block products to the running accumulators; the inputs stay. -/
noncomputable def kernelRun4_B :
    { L : List (View.Piece (Elt F) S8x64 .f32) × List (View.Piece (Elt F) S8x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo2 ∗ owns (c : Thread nD τ) arg4 fullShare xo3
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc4__stats_kernel i arg1 harg1 arg2 harg2 arg3 harg3 arg4 harg4) K } := by
  refine ⟨(?_, ?_), fun E K => ?run⟩
  case run =>
    simp only [cc4__stats_kernel_eq_skeleton]; unfold cc4__stats_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

theorem cover4_B_2 (y : S8x64.Idx) :
    ∃ pc ∈ (kernelRun4_B c i arg1 harg1 arg2 harg2 arg3 harg3 arg4 harg4 hc0 x0 x1 xo2 xo3).1.1, y ∈ pc.1.set :=
  View.cover_of_tiledL _ S8x64.size (by sl_kernel_rfl) y

theorem out4_B_2 (f) :
    arg3.view.read (Elt F) (arg3.view.writes (Elt F) f (kernelRun4_B c i arg1 harg1 arg2 harg2 arg3 harg3 arg4 harg4 hc0 x0 x1 xo2 xo3).1.1)
      = k4_pay5 x0 x1 xo2 := by
  rw [View.read_writes_eq_canon _ _ _ (cover4_B_2 c i arg1 harg1 arg2 harg2 arg3 harg3 arg4 harg4 hc0 x0 x1 xo2 xo3)]
  unfold kernelRun4_B
  dsimp only
  rw [View.canon_unit_zero (S := S8x64) hz4]
  simp only [View.readAt_eq_ld, harg1.read_unread, harg2.read_unread, harg3.read_unread, View.ld_unit_zero (S := S5000x64) hz4, View.ld_unit_zero (S := S5000x8) hz4, View.ld_unit_zero (S := S8x64) hz4]

theorem cover4_B_3 (y : S8x64.Idx) :
    ∃ pc ∈ (kernelRun4_B c i arg1 harg1 arg2 harg2 arg3 harg3 arg4 harg4 hc0 x0 x1 xo2 xo3).1.2, y ∈ pc.1.set :=
  View.cover_of_tiledL _ S8x64.size (by sl_kernel_rfl) y

theorem out4_B_3 (f) :
    arg4.view.read (Elt F) (arg4.view.writes (Elt F) f (kernelRun4_B c i arg1 harg1 arg2 harg2 arg3 harg3 arg4 harg4 hc0 x0 x1 xo2 xo3).1.2)
      = k4_pay6 x0 x1 xo3 := by
  rw [View.read_writes_eq_canon _ _ _ (cover4_B_3 c i arg1 harg1 arg2 harg2 arg3 harg3 arg4 harg4 hc0 x0 x1 xo2 xo3)]
  unfold kernelRun4_B
  dsimp only
  rw [View.canon_unit_zero (S := S8x64) hz4]
  simp only [View.readAt_eq_ld, harg1.read_unread, harg2.read_unread, harg4.read_unread, View.ld_unit_zero (S := S5000x64) hz4, View.ld_unit_zero (S := S5000x8) hz4, View.ld_unit_zero (S := S8x64) hz4]

end

end

end Cert.Kernel.Gen

end
-- ==== Proof.BRegStats4.lean ====
import proofs.«404940_j85761906966882_2_alg».proof.Proof.BRegStatsRun4
import proofs.«404940_j85761906966882_2_alg».proof.Proof.Gen.Kernel.Points
import Idealize.ShloMosaic.Lib.Pipeline.FrameBody
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem bigSep_four4 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

theorem N_4' : grid4.N = 20 := by decide

section Stats4
variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

noncomputable def acc4_2 (c : Dev nD) : (n : ℕ) → n < cfg4.N → Vec F S8x64 .f32
  | 0, h => k4_pay5 (iblk4 V c 0 ⟨0, h⟩) (iblk4 V c 1 ⟨0, h⟩) (k4_pay1 (F := F))
  | n + 1, h => k4_pay5 (iblk4 V c 0 ⟨n + 1, h⟩) (iblk4 V c 1 ⟨n + 1, h⟩) (acc4_2 c n (Nat.lt_of_succ_lt h))

noncomputable def acc4_3 (c : Dev nD) : (n : ℕ) → n < cfg4.N → Vec F S8x64 .f32
  | 0, h => k4_pay6 (iblk4 V c 0 ⟨0, h⟩) (iblk4 V c 1 ⟨0, h⟩) (k4_pay2 (F := F))
  | n + 1, h => k4_pay6 (iblk4 V c 0 ⟨n + 1, h⟩) (iblk4 V c 1 ⟨n + 1, h⟩) (acc4_3 c n (Nat.lt_of_succ_lt h))

theorem acc4_2_first (c : Dev nD) (t : Fin cfg4.N) (h0 : t.val = 0) :
    acc4_2 V c t.val t.isLt = k4_pay5 (iblk4 V c 0 t) (iblk4 V c 1 t) (k4_pay1 (F := F)) := by
  obtain ⟨n, hn⟩ := t
  cases n with
  | zero => rfl
  | succ n => exact absurd h0 (Nat.succ_ne_zero n)

theorem acc4_2_later (c : Dev nD) (t : Fin cfg4.N) (h0 : t.val ≠ 0) :
    acc4_2 V c t.val t.isLt = k4_pay5 (iblk4 V c 0 t) (iblk4 V c 1 t)
      (acc4_2 V c (t.val - 1) (Nat.lt_of_le_of_lt (Nat.sub_le _ _) t.isLt)) := by
  obtain ⟨n, hn⟩ := t
  cases n with
  | zero => exact absurd rfl h0
  | succ n => rfl

theorem acc4_3_first (c : Dev nD) (t : Fin cfg4.N) (h0 : t.val = 0) :
    acc4_3 V c t.val t.isLt = k4_pay6 (iblk4 V c 0 t) (iblk4 V c 1 t) (k4_pay2 (F := F)) := by
  obtain ⟨n, hn⟩ := t
  cases n with
  | zero => rfl
  | succ n => exact absurd h0 (Nat.succ_ne_zero n)

theorem acc4_3_later (c : Dev nD) (t : Fin cfg4.N) (h0 : t.val ≠ 0) :
    acc4_3 V c t.val t.isLt = k4_pay6 (iblk4 V c 0 t) (iblk4 V c 1 t)
      (acc4_3 V c (t.val - 1) (Nat.lt_of_le_of_lt (Nat.sub_le _ _) t.isLt)) := by
  obtain ⟨n, hn⟩ := t
  cases n with
  | zero => exact absurd rfl h0
  | succ n => rfl

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4_2 V c t.val t.isLt
    | ⟨3, _⟩ => acc4_3 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4_2 V c t.val t.isLt := by dsimp only [dat4]
theorem after4_3 (c : Dev nD) (t : Fin cfg4.N) : (dat4 V c).after 3 t = acc4_3 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

theorem before4_2_later (c : Dev nD) (t : Fin cfg4.N) (h0 : t.val ≠ 0) (d) :
    (dat4 V c).before 2 t d = acc4_2 V c (t.val - 1) (Nat.lt_of_le_of_lt (Nat.sub_le _ _) t.isLt) := by
  have hN : t.val < 20 := lt_of_lt_of_eq t.isLt (show cfg4.N = 20 from N_4')
  rw [Dat.before_out_kept _ 2 rfl t h0 (Bool.eq_false_iff.mpr fun h => by have := (flush4_2 _).mp h; dsimp only at this; omega)
    (fun _ => rfl) (fun _ _ => rfl)]
  dsimp only [dat4]
theorem before4_3_later (c : Dev nD) (t : Fin cfg4.N) (h0 : t.val ≠ 0) (d) :
    (dat4 V c).before 3 t d = acc4_3 V c (t.val - 1) (Nat.lt_of_le_of_lt (Nat.sub_le _ _) t.isLt) := by
  have hN : t.val < 20 := lt_of_lt_of_eq t.isLt (show cfg4.N = 20 from N_4')
  rw [Dat.before_out_kept _ 3 rfl t h0 (Bool.eq_false_iff.mpr fun h => by have := (flush4_3 _).mp h; dsimp only at this; omega)
    (fun _ => rfl) (fun _ _ => rfl)]
  dsimp only [dat4]

noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

set_option maxHeartbeats 800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3]
  by_cases h0 : t.val = 0
  · rw [acc4_2_first V c t h0, acc4_3_first V c t h0]
    iintro ⟨HΦ, Ho, ⟨%d0, H0⟩, ⟨%d1, H1⟩, ⟨%d2, H2⟩, ⟨%d3, H3⟩⟩
    iapply ((kernelRun4_A c (grid4.coords t) _ _ _ _ _ _ _ _ ((hcond4_0 t).mpr h0) (iblk4 V c 0 t) (iblk4 V c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact out4_A_2 c _ _ _ _ _ _ _ _ _ _ _ _ _
    · unfold owns; iexists _; isplitr
      swap; · iexact H3
      ipureintro; exact out4_A_3 c _ _ _ _ _ _ _ _ _ _ _ _ _
  · rw [acc4_2_later V c t h0, acc4_3_later V c t h0]
    simp only [before4_2_later V c t h0, before4_3_later V c t h0]
    iintro ⟨HΦ, Ho, ⟨%d0, H0⟩, ⟨%d1, H1⟩, ⟨%d2, H2⟩, ⟨%d3, H3⟩⟩
    iapply ((kernelRun4_B c (grid4.coords t) _ _ _ _ _ _ _ _ (fun h => h0 ((hcond4_0 t).mp h)) (iblk4 V c 0 t) (iblk4 V c 1 t) _ _).2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact out4_B_2 c _ _ _ _ _ _ _ _ _ _ _ _ _ _ _
    · unfold owns; iexists _; isplitr
      swap; · iexact H3
      ipureintro; exact out4_B_3 c _ _ _ _ _ _ _ _ _ _ _ _ _ _ _

theorem body_obligation4 (c : Dev nD) : BodyObligation (dat4 (F := F) V c) (defs₀ (F := F)) Variants.none () Set.univ := fun t => by
  rw [bigSep_four4, bigSep_four4]
  exact sound_body4 V c t

end Stats4

end Cert.Kernel.Gen

end
-- ==== Proof.BRegStats.lean ====
import proofs.«404940_j85761906966882_2_alg».proof.Proof.BRegStats1
import proofs.«404940_j85761906966882_2_alg».proof.Proof.BRegStats4
-- ==== Proof.BRegApply.lean ====
import proofs.«404940_j85761906966882_2_alg».proof.Proof.Gen.Kernel.Launch
import proofs.«404940_j85761906966882_2_alg».proof.Proof.Gen.Kernel.Skeleton
import proofs.«404940_j85761906966882_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable abbrev rOut2 : Rect S5000x64 := Rect.unit (s := S5000x64) ![0, 0] S5000x64.size inb_S5000x64_S5000x64_0_0

noncomputable def out2_6 (x0 : Vec F S5000x64 .f32) (x1 : Vec F S5000x8 .bf16) (x2 : Vec F S8x64 .f32) (x3 : Vec F S8x64 .f32) (x4 : Vec F S1x64 .f32) (x5 : Vec F S1x64 .f32) : Vec F S5000x64 .f32 :=
  View.canon [⟨rOut2, k2_pay1 (View.ld x0 (Rect.unit (s := S5000x64) ![0, 0] S5000x64.size inb_S5000x64_S5000x64_0_0)) (View.ld x1 (Rect.unit (s := S5000x8) ![0, 0] S5000x8.size inb_S5000x8_S5000x8_0_0)) (View.ld x2 (Rect.unit (s := S8x64) ![0, 0] S8x64.size inb_S8x64_S8x64_0_0)) (View.ld x3 (Rect.unit (s := S8x64) ![0, 0] S8x64.size inb_S8x64_S8x64_0_0)) (View.ld x4 (Rect.unit (s := S1x64) ![0, 0] S1x64.size inb_S1x64_S1x64_0_0)) (View.ld x5 (Rect.unit (s := S1x64) ![0, 0] S1x64.size inb_S1x64_S1x64_0_0))⟩]

theorem cover2_6 (p0 : Vec F S5000x64 .f32) (y : S5000x64.Idx) :
    ∃ pc ∈ ([⟨rOut2, p0⟩] : List (View.Piece (Elt F) S5000x64 .f32)), y ∈ pc.1.set :=
  View.cover_of_tiled [⟨rOut2, p0⟩] S5000x64.size (by rfl) y

set_option maxHeartbeats 2000000 in

theorem sound_kernel2 (c : Dev nD) (E : Set ℕ) (i : grid2.Coords) (arg1 : Memref sig .tc .vmem S5000x64 .f32) (harg1 : arg1.IsWhole) (arg2 : Memref sig .tc .vmem S5000x8 .bf16) (harg2 : arg2.IsWhole) (arg3 : Memref sig .tc .vmem S8x64 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x8 .bf16) (x2 : Vec F S8x64 .f32) (x3 : Vec F S8x64 .f32) (x4 : Vec F S1x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__apply_kernel i arg1 harg1 arg2 harg2 arg3 harg3 arg4 harg4 arg5 harg5 arg6 harg6 arg7 harg7) K := by
  simp only [cc2__apply_kernel_eq_skeleton]; unfold cc2__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

noncomputable def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Region2

end Cert.Kernel.Gen

end
-- ==== Proof.BRegApply5.lean ====
import proofs.«404940_j85761906966882_2_alg».proof.Proof.Gen.Kernel.Launch
import proofs.«404940_j85761906966882_2_alg».proof.Proof.Gen.Kernel.Skeleton
import proofs.«404940_j85761906966882_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

noncomputable abbrev rOut5 : Rect S5000x64 := Rect.unit (s := S5000x64) ![0, 0] S5000x64.size inb_S5000x64_S5000x64_0_0

noncomputable def out5_7 (x0 : Vec F S5000x64 .f32) (x1 : Vec F S5000x8 .bf16) (x2 : Vec F S8x64 .f32) (x3 : Vec F S8x64 .f32) (x4 : Vec F S1x64 .f32) (x5 : Vec F S1x64 .f32) (x6 : Vec F S5000x64 .f32) : Vec F S5000x64 .f32 :=
  View.canon [⟨rOut5, k5_pay1 (View.ld x0 (Rect.unit (s := S5000x64) ![0, 0] S5000x64.size inb_S5000x64_S5000x64_0_0)) (View.ld x1 (Rect.unit (s := S5000x8) ![0, 0] S5000x8.size inb_S5000x8_S5000x8_0_0)) (View.ld x2 (Rect.unit (s := S8x64) ![0, 0] S8x64.size inb_S8x64_S8x64_0_0)) (View.ld x3 (Rect.unit (s := S8x64) ![0, 0] S8x64.size inb_S8x64_S8x64_0_0)) (View.ld x4 (Rect.unit (s := S1x64) ![0, 0] S1x64.size inb_S1x64_S1x64_0_0)) (View.ld x5 (Rect.unit (s := S1x64) ![0, 0] S1x64.size inb_S1x64_S1x64_0_0)) (View.ld x6 (Rect.unit (s := S5000x64) ![0, 0] S5000x64.size inb_S5000x64_S5000x64_0_0))⟩]

theorem cover5_7 (p0 : Vec F S5000x64 .f32) (y : S5000x64.Idx) :
    ∃ pc ∈ ([⟨rOut5, p0⟩] : List (View.Piece (Elt F) S5000x64 .f32)), y ∈ pc.1.set :=
  View.cover_of_tiled [⟨rOut5, p0⟩] S5000x64.size (by rfl) y

set_option maxHeartbeats 2000000 in

theorem sound_kernel5 (c : Dev nD) (E : Set ℕ) (i : grid5.Coords) (arg1 : Memref sig .tc .vmem S5000x64 .f32) (harg1 : arg1.IsWhole) (arg2 : Memref sig .tc .vmem S5000x8 .bf16) (harg2 : arg2.IsWhole) (arg3 : Memref sig .tc .vmem S8x64 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x8 .bf16) (x2 : Vec F S8x64 .f32) (x3 : Vec F S8x64 .f32) (x4 : Vec F S1x64 .f32) (x5 : Vec F S1x64 .f32) (x6 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__apply_kernel_res i arg1 harg1 arg2 harg2 arg3 harg3 arg4 harg4 arg5 harg5 arg6 harg6 arg7 harg7 arg8 harg8) K := by
  simp only [cc5__apply_kernel_res_eq_skeleton]; unfold cc5__apply_kernel_res_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl)
    (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (fun _ => rfl) (fun _ _ _ => rfl)
    (fun t => by rw [after5_6]; unfold Dat.blockOf iblk5; rw [A_eq5]; try rfl) t d).trans
    (by unfold Dat.fetched Dat.blockOf iblk5; rw [A_eq5]; try rfl)

noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation5 (c : Dev nD) : BodyObligation (dat5 (F := F) V c) (defs₀ (F := F)) Variants.none () Set.univ := fun t => by
  rw [bigSep_W5, bigSep_W5]
  exact sound_body5 V c t

end Region5

end Cert.Kernel.Gen

end
-- ==== Proof.BRun.lean ====
import proofs.«404940_j85761906966882_2_alg».proof.Proof.BRunCongr
import proofs.«404940_j85761906966882_2_alg».proof.Proof.BRegGemm
import proofs.«404940_j85761906966882_2_alg».proof.Proof.BRegGemm3
import proofs.«404940_j85761906966882_2_alg».proof.Proof.BRegStats
import proofs.«404940_j85761906966882_2_alg».proof.Proof.BRegApply
import proofs.«404940_j85761906966882_2_alg».proof.Proof.BRegApply5
import Idealize.ShloMosaic.Lib.Pipeline.RegionsLoop

set_option maxRecDepth 6752

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

-- The contents the regions leave, one region at a time: each stage changes the one before at that region's output arrays only.
def outs0 : Outs (F := F) := fun _ r c => m ((c : Thread nD τ).loc r)
def outs1 : Outs (F := F) := setAt (outs0 m) main_v4 fun c => (dat0 (atTc (V1 m)) c).arrAt 2 cfg0.N
def outs2 : Outs (F := F) :=
  setAt (setAt (outs1 m) main_v132_0 fun c => (dat1 (atTc (V59 m (outs1 m))) c).arrAt 2 cfg1.N)
    main_v132_1 fun c => (dat1 (atTc (V59 m (outs1 m))) c).arrAt 3 cfg1.N
def outs3 : Outs (F := F) := setAt (outs2 m) main_v145 fun c => (dat2 (atTc (V61 m (outs2 m))) c).arrAt 6 cfg2.N
def outs4 : Outs (F := F) := setAt (outs3 m) main_v150 fun c => (dat3 (atTc (V63 m (outs3 m))) c).arrAt 2 cfg3.N
def outs5 : Outs (F := F) :=
  setAt (setAt (outs4 m) main_v278_0 fun c => (dat4 (atTc (V121 m (outs4 m))) c).arrAt 2 cfg4.N)
    main_v278_1 fun c => (dat4 (atTc (V121 m (outs4 m))) c).arrAt 3 cfg4.N
def outs : Outs (F := F) := setAt (outs5 m) main_v291 fun c => (dat5 (atTc (V123 m (outs5 m))) c).arrAt 7 cfg5.N

-- A later stage changes no array an earlier region leaves, so the whole family agrees with each stage on them.
theorem agree1 : AgreeOn Made1 (outs m) (outs1 m) := agree_setAt (by decide) <| agree_setAt (by decide) <| agree_setAt (by decide) <| agree_setAt (by decide) <| agree_setAt (by decide) <| agree_setAt (by decide) <| agree_setAt (by decide) fun _ _ _ _ => rfl
theorem agree2 : AgreeOn Made2 (outs m) (outs2 m) := agree_setAt (by decide) <| agree_setAt (by decide) <| agree_setAt (by decide) <| agree_setAt (by decide) <| agree_setAt (by decide) fun _ _ _ _ => rfl
theorem agree3 : AgreeOn Made3 (outs m) (outs3 m) := agree_setAt (by decide) <| agree_setAt (by decide) <| agree_setAt (by decide) <| agree_setAt (by decide) fun _ _ _ _ => rfl
theorem agree4 : AgreeOn Made4 (outs m) (outs4 m) := agree_setAt (by decide) <| agree_setAt (by decide) <| agree_setAt (by decide) fun _ _ _ _ => rfl
theorem agree5 : AgreeOn Made5 (outs m) (outs5 m) := agree_setAt (by decide) fun _ _ _ _ => rfl

theorem outs_2 (c : Dev nD) : outs m 2 main_v4 c = (dat0 (atTc (V1 m)) c).arrAt 2 cfg0.N := by
  rw [agree1 m 2 main_v4 c (by decide)]; unfold outs1; rw [setAt_self]
theorem outs_60_0 (c : Dev nD) : outs m 60 main_v132_0 c = (dat1 (atTc (V59 m (outs m))) c).arrAt 2 cfg1.N := by
  rw [V59_congr m (agree1 m), agree2 m 60 main_v132_0 c (by decide)]; unfold outs2; rw [setAt_of_ne, setAt_self]; decide
theorem outs_60_1 (c : Dev nD) : outs m 60 main_v132_1 c = (dat1 (atTc (V59 m (outs m))) c).arrAt 3 cfg1.N := by
  rw [V59_congr m (agree1 m), agree2 m 60 main_v132_1 c (by decide)]; unfold outs2; rw [setAt_self]
theorem outs_62 (c : Dev nD) : outs m 62 main_v145 c = (dat2 (atTc (V61 m (outs m))) c).arrAt 6 cfg2.N := by
  rw [V61_congr m (agree2 m), agree3 m 62 main_v145 c (by decide)]; unfold outs3; rw [setAt_self]
theorem outs_64 (c : Dev nD) : outs m 64 main_v150 c = (dat3 (atTc (V63 m (outs m))) c).arrAt 2 cfg3.N := by
  rw [V63_congr m (agree3 m), agree4 m 64 main_v150 c (by decide)]; unfold outs4; rw [setAt_self]
theorem outs_122_0 (c : Dev nD) : outs m 122 main_v278_0 c = (dat4 (atTc (V121 m (outs m))) c).arrAt 2 cfg4.N := by
  rw [V121_congr m (agree4 m), agree5 m 122 main_v278_0 c (by decide)]; unfold outs5; rw [setAt_of_ne, setAt_self]; decide
theorem outs_122_1 (c : Dev nD) : outs m 122 main_v278_1 c = (dat4 (atTc (V121 m (outs m))) c).arrAt 3 cfg4.N := by
  rw [V121_congr m (agree4 m), agree5 m 122 main_v278_1 c (by decide)]; unfold outs5; rw [setAt_self]
theorem outs_124 (c : Dev nD) : outs m 124 main_v291 c = (dat5 (atTc (V123 m (outs m))) c).arrAt 7 cfg5.N := by
  rw [V123_congr m (agree5 m)]; unfold outs; rw [setAt_self]

def pdats : (p : Fin 6) → (c : Dev nD) → Dat τ (Elt F) Unit ℕ (UR sig nD τ) ℕ (cfgs p) c
  | ⟨0, _⟩ => fun c => dat0 (atTc (V1 m)) c
  | ⟨1, _⟩ => fun c => dat1 (atTc (V59 m (outs m))) c
  | ⟨2, _⟩ => fun c => dat2 (atTc (V61 m (outs m))) c
  | ⟨3, _⟩ => fun c => dat3 (atTc (V63 m (outs m))) c
  | ⟨4, _⟩ => fun c => dat4 (atTc (V121 m (outs m))) c
  | ⟨5, _⟩ => fun c => dat5 (atTc (V123 m (outs m))) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 7 → Dev nD → sProp 𝕄 := fun _ c => R c

set_option backward.isDefEq.respectTransparency.types false in
def regionOf (p : Fin 6) (hl : Pipeline.LaunchFacts (nD := nD) (τ := τ) cfgs p) (Vin Vout : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hΦ : ∀ c t, (pdats m p c).Φ t = Pipeline.ΦA (cfgs p).spec c)
    (hA : ∀ c w, (pdats m p c).A w = atTc Vin c (Pipeline.arrRef (cfgs p).spec w))
    (hF : ∀ c w, (pdats m p c).arrAt w (cfgs p).N = atTc Vout c (Pipeline.arrRef (cfgs p).spec w))
    (hrest : ∀ c b, b ∉ Finset.univ.image (Pipeline.arrRef (cfgs p).spec) → atTc Vout c b = atTc Vin c b) :
    RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have hsplit := Pipeline.arrays_of_unscopedBufs (p := p) (pcfgs (F := F)) adm (pdats m) hl.win hl.arr_whole c
      ((pdats m p c).share_full (hq c)) (atTc Vin c) (hA c)
    rw [Pipeline.unscopedBufs_held] at hsplit
    have hr : ∀ x, x ∈ (pdats m p c).recorded 0 := fun x => by rw [hrec c 0]; trivial
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (hr x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (atTc Vin c) (atTc Vout c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

theorem forall_fin3 {P : Fin 3 → Prop} (h0 : P 0) (h1 : P 1) (h2 : P 2) : ∀ w, P w
  | 0 => h0 | 1 => h1 | 2 => h2
theorem forall_fin4 {P : Fin 4 → Prop} (h0 : P 0) (h1 : P 1) (h2 : P 2) (h3 : P 3) : ∀ w, P w
  | 0 => h0 | 1 => h1 | 2 => h2 | 3 => h3
theorem forall_fin7 {P : Fin 7 → Prop} (h0 : P 0) (h1 : P 1) (h2 : P 2) (h3 : P 3) (h4 : P 4) (h5 : P 5) (h6 : P 6) : ∀ w, P w
  | 0 => h0 | 1 => h1 | 2 => h2 | 3 => h3 | 4 => h4 | 5 => h5 | 6 => h6
theorem forall_fin8 {P : Fin 8 → Prop} (h0 : P 0) (h1 : P 1) (h2 : P 2) (h3 : P 3) (h4 : P 4) (h5 : P 5) (h6 : P 6) (h7 : P 7) : ∀ w, P w
  | 0 => h0 | 1 => h1 | 2 => h2 | 3 => h3 | 4 => h4 | 5 => h5 | 6 => h6 | 7 => h7

theorem V2_out (c : Dev nD) : V2 m (outs m) c main_v4 = (pdats m 0 c).arrAt 2 cfg0.N := by
  unfold V2; rw [Function.update_self]; exact outs_2 m c

theorem hF0_in (c : Dev nD) (w : Fin cfg0.W) (hin : (cfg0.win w).isOut = false)
    (hne : Pipeline.arrRef spec0 w ∉ ([main_v4] : List (Ref sig .tc))) :
    (pdats m 0 c).arrAt w cfg0.N = atTc (V2 m (outs m)) c (Pipeline.arrRef spec0 w) :=
  ((pdats m 0 c).arrAt_in w hin _).trans
    ((A_eq0 (atTc (V1 m)) c w).trans (V2_of m (outs m) c (Pipeline.arrRef spec0 w) hne).symm)

theorem hF0 (c : Dev nD) : ∀ w : Fin cfg0.W, (pdats m 0 c).arrAt w cfg0.N = atTc (V2 m (outs m)) c (Pipeline.arrRef spec0 w) := by
  refine forall_fin3 ?_ ?_ ?_
  · exact hF0_in m c 0 rfl (by decide)
  · exact hF0_in m c 1 rfl (by decide)
  · exact (V2_out m c).symm

theorem hrest0 (c : Dev nD) (b : Ref sig .tc) (hb : b ∉ Finset.univ.image (Pipeline.arrRef spec0)) :
    atTc (V2 m (outs m)) c b = atTc (V1 m) c b :=
  V2_of m (outs m) c b fun hm => hb (Finset.mem_image.mpr ⟨2, Finset.mem_univ _, (List.mem_singleton.mp hm).symm⟩)

def reg0 : RegionSeg (pcfgs (F := F)) adm (pdats m) () defs₀ 𝒱₀ L lv 0 :=
  regionOf m 0 launch0 (V1 m) (V2 m (outs m)) (fun c => body_obligation0 _ c) (fun _ _ => rfl) (fun _ _ => rfl) (fun _ _ => rfl) (fun _ _ => rfl)
    (fun c w => A_eq0 _ c w) (hF0 m) (hrest0 m)

theorem V60_out0 (c : Dev nD) : V60 m (outs m) c main_v132_0 = (pdats m 1 c).arrAt 2 cfg1.N := by
  unfold V60
  rw [Function.update_of_ne (StableHlo.devRef_ne_of_ne (show (main_v132_0 : Ref sig .tc) ≠ main_v132_1 by decide)), Function.update_self]
  exact outs_60_0 m c
theorem V60_out1 (c : Dev nD) : V60 m (outs m) c main_v132_1 = (pdats m 1 c).arrAt 3 cfg1.N := by
  unfold V60; rw [Function.update_self]; exact outs_60_1 m c

theorem hF1_in (c : Dev nD) (w : Fin cfg1.W) (hin : (cfg1.win w).isOut = false)
    (hne : Pipeline.arrRef spec1 w ∉ ([main_v132_0, main_v132_1] : List (Ref sig .tc))) :
    (pdats m 1 c).arrAt w cfg1.N = atTc (V60 m (outs m)) c (Pipeline.arrRef spec1 w) :=
  ((pdats m 1 c).arrAt_in w hin _).trans
    ((A_eq1 (atTc (V59 m (outs m))) c w).trans (V60_of m (outs m) c (Pipeline.arrRef spec1 w) hne).symm)

theorem hF1 (c : Dev nD) : ∀ w : Fin cfg1.W, (pdats m 1 c).arrAt w cfg1.N = atTc (V60 m (outs m)) c (Pipeline.arrRef spec1 w) := by
  refine forall_fin4 ?_ ?_ ?_ ?_
  · exact hF1_in m c 0 rfl (by decide)
  · exact hF1_in m c 1 rfl (by decide)
  · exact (V60_out0 m c).symm
  · exact (V60_out1 m c).symm

theorem hrest1 (c : Dev nD) (b : Ref sig .tc) (hb : b ∉ Finset.univ.image (Pipeline.arrRef spec1)) :
    atTc (V60 m (outs m)) c b = atTc (V59 m (outs m)) c b :=
  V60_of m (outs m) c b fun hm => hb <| by
    rcases List.mem_cons.mp hm with h | hm
    · exact Finset.mem_image.mpr ⟨2, Finset.mem_univ _, h.symm⟩
    · exact Finset.mem_image.mpr ⟨3, Finset.mem_univ _, (List.mem_singleton.mp hm).symm⟩

def reg1 : RegionSeg (pcfgs (F := F)) adm (pdats m) () defs₀ 𝒱₀ L lv 1 :=
  regionOf m 1 launch1 (V59 m (outs m)) (V60 m (outs m)) (fun c => body_obligation1 _ c) (fun _ _ => rfl) (fun _ _ => rfl) (fun _ _ => rfl) (fun _ _ => rfl)
    (fun c w => A_eq1 _ c w) (hF1 m) (hrest1 m)

theorem V62_out (c : Dev nD) : V62 m (outs m) c main_v145 = (pdats m 2 c).arrAt 6 cfg2.N := by
  unfold V62; rw [Function.update_self]; exact outs_62 m c

theorem hF2_in (c : Dev nD) (w : Fin cfg2.W) (hin : (cfg2.win w).isOut = false)
    (hne : Pipeline.arrRef spec2 w ∉ ([main_v145] : List (Ref sig .tc))) :
    (pdats m 2 c).arrAt w cfg2.N = atTc (V62 m (outs m)) c (Pipeline.arrRef spec2 w) :=
  ((pdats m 2 c).arrAt_in w hin _).trans
    ((A_eq2 (atTc (V61 m (outs m))) c w).trans (V62_of m (outs m) c (Pipeline.arrRef spec2 w) hne).symm)

theorem hF2 (c : Dev nD) : ∀ w : Fin cfg2.W, (pdats m 2 c).arrAt w cfg2.N = atTc (V62 m (outs m)) c (Pipeline.arrRef spec2 w) := by
  refine forall_fin7 ?_ ?_ ?_ ?_ ?_ ?_ ?_
  · exact hF2_in m c 0 rfl (by decide)
  · exact hF2_in m c 1 rfl (by decide)
  · exact hF2_in m c 2 rfl (by decide)
  · exact hF2_in m c 3 rfl (by decide)
  · exact hF2_in m c 4 rfl (by decide)
  · exact hF2_in m c 5 rfl (by decide)
  · exact (V62_out m c).symm

theorem hrest2 (c : Dev nD) (b : Ref sig .tc) (hb : b ∉ Finset.univ.image (Pipeline.arrRef spec2)) :
    atTc (V62 m (outs m)) c b = atTc (V61 m (outs m)) c b :=
  V62_of m (outs m) c b fun hm => hb (Finset.mem_image.mpr ⟨6, Finset.mem_univ _, (List.mem_singleton.mp hm).symm⟩)

def reg2 : RegionSeg (pcfgs (F := F)) adm (pdats m) () defs₀ 𝒱₀ L lv 2 :=
  regionOf m 2 launch2 (V61 m (outs m)) (V62 m (outs m)) (fun c => body_obligation2 _ c) (fun _ _ => rfl) (fun _ _ => rfl) (fun _ _ => rfl) (fun _ _ => rfl)
    (fun c w => A_eq2 _ c w) (hF2 m) (hrest2 m)

theorem V64_out (c : Dev nD) : V64 m (outs m) c main_v150 = (pdats m 3 c).arrAt 2 cfg3.N := by
  unfold V64; rw [Function.update_self]; exact outs_64 m c

theorem hF3_in (c : Dev nD) (w : Fin cfg3.W) (hin : (cfg3.win w).isOut = false)
    (hne : Pipeline.arrRef spec3 w ∉ ([main_v150] : List (Ref sig .tc))) :
    (pdats m 3 c).arrAt w cfg3.N = atTc (V64 m (outs m)) c (Pipeline.arrRef spec3 w) :=
  ((pdats m 3 c).arrAt_in w hin _).trans
    ((A_eq3 (atTc (V63 m (outs m))) c w).trans (V64_of m (outs m) c (Pipeline.arrRef spec3 w) hne).symm)

theorem hF3 (c : Dev nD) : ∀ w : Fin cfg3.W, (pdats m 3 c).arrAt w cfg3.N = atTc (V64 m (outs m)) c (Pipeline.arrRef spec3 w) := by
  refine forall_fin3 ?_ ?_ ?_
  · exact hF3_in m c 0 rfl (by decide)
  · exact hF3_in m c 1 rfl (by decide)
  · exact (V64_out m c).symm

theorem hrest3 (c : Dev nD) (b : Ref sig .tc) (hb : b ∉ Finset.univ.image (Pipeline.arrRef spec3)) :
    atTc (V64 m (outs m)) c b = atTc (V63 m (outs m)) c b :=
  V64_of m (outs m) c b fun hm => hb (Finset.mem_image.mpr ⟨2, Finset.mem_univ _, (List.mem_singleton.mp hm).symm⟩)

def reg3 : RegionSeg (pcfgs (F := F)) adm (pdats m) () defs₀ 𝒱₀ L lv 3 :=
  regionOf m 3 launch3 (V63 m (outs m)) (V64 m (outs m)) (fun c => body_obligation3 _ c) (fun _ _ => rfl) (fun _ _ => rfl) (fun _ _ => rfl) (fun _ _ => rfl)
    (fun c w => A_eq3 _ c w) (hF3 m) (hrest3 m)

theorem V122_out0 (c : Dev nD) : V122 m (outs m) c main_v278_0 = (pdats m 4 c).arrAt 2 cfg4.N := by
  unfold V122
  rw [Function.update_of_ne (StableHlo.devRef_ne_of_ne (show (main_v278_0 : Ref sig .tc) ≠ main_v278_1 by decide)), Function.update_self]
  exact outs_122_0 m c
theorem V122_out1 (c : Dev nD) : V122 m (outs m) c main_v278_1 = (pdats m 4 c).arrAt 3 cfg4.N := by
  unfold V122; rw [Function.update_self]; exact outs_122_1 m c

theorem hF4_in (c : Dev nD) (w : Fin cfg4.W) (hin : (cfg4.win w).isOut = false)
    (hne : Pipeline.arrRef spec4 w ∉ ([main_v278_0, main_v278_1] : List (Ref sig .tc))) :
    (pdats m 4 c).arrAt w cfg4.N = atTc (V122 m (outs m)) c (Pipeline.arrRef spec4 w) :=
  ((pdats m 4 c).arrAt_in w hin _).trans
    ((A_eq4 (atTc (V121 m (outs m))) c w).trans (V122_of m (outs m) c (Pipeline.arrRef spec4 w) hne).symm)

theorem hF4 (c : Dev nD) : ∀ w : Fin cfg4.W, (pdats m 4 c).arrAt w cfg4.N = atTc (V122 m (outs m)) c (Pipeline.arrRef spec4 w) := by
  refine forall_fin4 ?_ ?_ ?_ ?_
  · exact hF4_in m c 0 rfl (by decide)
  · exact hF4_in m c 1 rfl (by decide)
  · exact (V122_out0 m c).symm
  · exact (V122_out1 m c).symm

theorem hrest4 (c : Dev nD) (b : Ref sig .tc) (hb : b ∉ Finset.univ.image (Pipeline.arrRef spec4)) :
    atTc (V122 m (outs m)) c b = atTc (V121 m (outs m)) c b :=
  V122_of m (outs m) c b fun hm => hb <| by
    rcases List.mem_cons.mp hm with h | hm
    · exact Finset.mem_image.mpr ⟨2, Finset.mem_univ _, h.symm⟩
    · exact Finset.mem_image.mpr ⟨3, Finset.mem_univ _, (List.mem_singleton.mp hm).symm⟩

def reg4 : RegionSeg (pcfgs (F := F)) adm (pdats m) () defs₀ 𝒱₀ L lv 4 :=
  regionOf m 4 launch4 (V121 m (outs m)) (V122 m (outs m)) (fun c => body_obligation4 _ c) (fun _ _ => rfl) (fun _ _ => rfl) (fun _ _ => rfl) (fun _ _ => rfl)
    (fun c w => A_eq4 _ c w) (hF4 m) (hrest4 m)

theorem V124_out (c : Dev nD) : V124 m (outs m) c main_v291 = (pdats m 5 c).arrAt 7 cfg5.N := by
  unfold V124; rw [Function.update_self]; exact outs_124 m c

theorem hF5_in (c : Dev nD) (w : Fin cfg5.W) (hin : (cfg5.win w).isOut = false)
    (hne : Pipeline.arrRef spec5 w ∉ ([main_v291] : List (Ref sig .tc))) :
    (pdats m 5 c).arrAt w cfg5.N = atTc (V124 m (outs m)) c (Pipeline.arrRef spec5 w) :=
  ((pdats m 5 c).arrAt_in w hin _).trans
    ((A_eq5 (atTc (V123 m (outs m))) c w).trans (V124_of m (outs m) c (Pipeline.arrRef spec5 w) hne).symm)

theorem hF5 (c : Dev nD) : ∀ w : Fin cfg5.W, (pdats m 5 c).arrAt w cfg5.N = atTc (V124 m (outs m)) c (Pipeline.arrRef spec5 w) := by
  refine forall_fin8 ?_ ?_ ?_ ?_ ?_ ?_ ?_ ?_
  · exact hF5_in m c 0 rfl (by decide)
  · exact hF5_in m c 1 rfl (by decide)
  · exact hF5_in m c 2 rfl (by decide)
  · exact hF5_in m c 3 rfl (by decide)
  · exact hF5_in m c 4 rfl (by decide)
  · exact hF5_in m c 5 rfl (by decide)
  · exact hF5_in m c 6 rfl (by decide)
  · exact (V124_out m c).symm

theorem hrest5 (c : Dev nD) (b : Ref sig .tc) (hb : b ∉ Finset.univ.image (Pipeline.arrRef spec5)) :
    atTc (V124 m (outs m)) c b = atTc (V123 m (outs m)) c b :=
  V124_of m (outs m) c b fun hm => hb (Finset.mem_image.mpr ⟨7, Finset.mem_univ _, (List.mem_singleton.mp hm).symm⟩)

def reg5 : RegionSeg (pcfgs (F := F)) adm (pdats m) () defs₀ 𝒱₀ L lv 5 :=
  regionOf m 5 launch5 (V123 m (outs m)) (V124 m (outs m)) (fun c => body_obligation5 _ c) (fun _ _ => rfl) (fun _ _ => rfl) (fun _ _ => rfl) (fun _ _ => rfl)
    (fun c w => A_eq5 _ c w) (hF5 m) (hrest5 m)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : E (F := F) 6 c ⊢ (iprop(∃ W, owes (c : Thread nD τ) (0 : CellTallies nD τ sig Unit) W) : sProp 𝕄) := by
  iintro ⟨-, HO⟩; iexact HO

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () 𝒱₀ L lv (fun _ _ => rfl) ρ (outs m) (pdats m) 0 (fun _ => iprop(emp)) _ (hu₀ (F := F)) E (hE0 ρ) hE6
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

end Cert.Kernel.Run

end
-- ==== Proof.RunCongr.lean ====
import proofs.«404940_j85761906966882_2_alg».proof.Proof.RegionsP

set_option maxRecDepth 6752

noncomputable section

namespace Cert.KernelIdeal.Gen

open Idealize.ShloMosaic Idealize.ShloMosaic.TcCoe

variable {F : FTy → Type} [FloatOps F]
variable (m : (ℓ : Loc nD τ sig) → Buf (Elt F) ℓ) {o o' : Outs (F := F)}

def setAt (o : Outs (F := F)) (r₀ : Ref sig .tc) (x : (c : Dev nD) → Buf (Elt F) ((c : Thread nD τ).loc r₀)) : Outs (F := F) :=
  fun J r c => if h : r = r₀ then h ▸ x c else o J r c

theorem setAt_self (o : Outs (F := F)) (r₀ : Ref sig .tc) (x : (c : Dev nD) → Buf (Elt F) ((c : Thread nD τ).loc r₀)) (J : ℕ) (c : Dev nD) :
    setAt o r₀ x J r₀ c = x c := by
  unfold setAt; rw [dif_pos rfl]

theorem setAt_of_ne (o : Outs (F := F)) (r₀ : Ref sig .tc) (x : (c : Dev nD) → Buf (Elt F) ((c : Thread nD τ).loc r₀)) (J : ℕ) {r : Ref sig .tc}
    (h : r ≠ r₀) (c : Dev nD) : setAt o r₀ x J r c = o J r c := by
  unfold setAt; rw [dif_neg h]

def AgreeOn (S : List (Ref sig .tc)) (o o' : Outs (F := F)) : Prop := ∀ J r c, r ∈ S → o J r c = o' J r c

-- Changing a family at a reference outside `S` keeps it in agreement on `S`.
theorem agree_setAt {S : List (Ref sig .tc)} {r₀ : Ref sig .tc} {x : (c : Dev nD) → Buf (Elt F) ((c : Thread nD τ).loc r₀)}
    (hr : r₀ ∉ S) (h : AgreeOn S o o') : AgreeOn S (setAt o r₀ x) o' := fun J r c hm =>
  (setAt_of_ne o r₀ x J (fun e : r = r₀ => hr (e ▸ hm)) c).trans (h J r c hm)

abbrev Made1 : List (Ref sig .tc) := [main_v4]
abbrev Made2 : List (Ref sig .tc) := main_v132_1 :: main_v132_0 :: Made1
abbrev Made3 : List (Ref sig .tc) := main_v145 :: Made2
abbrev Made4 : List (Ref sig .tc) := main_v150 :: Made3
abbrev Made5 : List (Ref sig .tc) := main_v278_1 :: main_v278_0 :: Made4

-- A region's entry valuation reads the regions' contents only at the arrays the earlier regions leave.
theorem V59_congr (h : AgreeOn Made1 o o') : V59 m o = V59 m o' := funext fun c => by
  unfold V59 V58 V57 V56 V55 V54 V53 V52 V51 V50 V49 V48 V47 V46 V45 V44 V43 V42 V41 V40 V39 V38 V37 V36 V35 V34 V33 V32 V31 V30 V29 V28 V27 V26 V25 V24 V23 V22 V21 V20 V19 V18 V17 V16 V15 V14 V13 V12 V11 V10 V9 V8 V7 V6 V5 V4 V3 V2; rw [h 2 main_v4 c (.head _)]
theorem V61_congr (h : AgreeOn Made2 o o') : V61 m o = V61 m o' := funext fun c => by
  unfold V61 V60
  rw [V59_congr m fun J r c hr => h J r c (.tail _ (.tail _ hr)), h 60 main_v132_0 c (.tail _ (.head _)), h 60 main_v132_1 c (.head _)]
theorem V63_congr (h : AgreeOn Made3 o o') : V63 m o = V63 m o' := funext fun c => by
  unfold V63 V62; rw [V61_congr m fun J r c hr => h J r c (.tail _ hr), h 62 main_v145 c (.head _)]
theorem V121_congr (h : AgreeOn Made4 o o') : V121 m o = V121 m o' := funext fun c => by
  unfold V121 V120 V119 V118 V117 V116 V115 V114 V113 V112 V111 V110 V109 V108 V107 V106 V105 V104 V103 V102 V101 V100 V99 V98 V97 V96 V95 V94 V93 V92 V91 V90 V89 V88 V87 V86 V85 V84 V83 V82 V81 V80 V79 V78 V77 V76 V75 V74 V73 V72 V71 V70 V69 V68 V67 V66 V65 V64; rw [V63_congr m fun J r c hr => h J r c (.tail _ hr), h 64 main_v150 c (.head _)]
theorem V123_congr (h : AgreeOn Made5 o o') : V123 m o = V123 m o' := funext fun c => by
  unfold V123 V122
  rw [V121_congr m fun J r c hr => h J r c (.tail _ (.tail _ hr)), h 122 main_v278_0 c (.tail _ (.head _)), h 122 main_v278_1 c (.head _)]

end Cert.KernelIdeal.Gen

end
-- ==== Proof.RegGemm.lean ====
import proofs.«404940_j85761906966882_2_alg».proof.Proof.Gen.KernelIdeal.Launch
import proofs.«404940_j85761906966882_2_alg».proof.Proof.Gen.KernelIdeal.Skeleton
import proofs.«404940_j85761906966882_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Gemm0

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

noncomputable abbrev rx0 : Rect S1000x64 := Rect.unit (s := S1000x64) ![0, 0] S1000x64.size inb_S1000x64_S1000x64_0_0
noncomputable abbrev rw0 : Rect S64x1728 := Rect.unit (s := S64x1728) ![0, 0] S64x1728.size inb_S64x1728_S64x1728_0_0
noncomputable abbrev ro0 : Rect S1000x1728 := Rect.unit (s := S1000x1728) ![0, 0] S1000x1728.size inb_S1000x1728_S1000x1728_0_0

noncomputable def out0_2 (x0 : Vec F S1000x64 .bf16) (x1 : Vec F S64x1728 .bf16) : Vec F S1000x1728 .f32 :=
  View.canon [⟨ro0, k0_pay1 (View.ld x0 rx0) (View.ld x1 rw0)⟩]

theorem cover0_2 (p0 : Vec F S1000x1728 .f32) (y : S1000x1728.Idx) :
    ∃ pc ∈ ([⟨ro0, p0⟩] : List (View.Piece (Elt F) S1000x1728 .f32)), y ∈ pc.1.set :=
  View.cover_of_tiled [⟨ro0, p0⟩] S1000x1728.size (by rfl) y

set_option maxHeartbeats 1000000 in

theorem sound_kernel0 (c : Dev nD) (E : Set ℕ) (i : grid0.Coords)
    (arg1 : Memref sig .tc .vmem S1000x64 .bf16) (harg1 : arg1.IsWhole)
    (arg2 : Memref sig .tc .vmem S64x1728 .bf16) (harg2 : arg2.IsWhole)
    (arg3 : Memref sig .tc .vmem S1000x1728 .f32) (harg3 : arg3.IsWhole)
    (x0 : Vec F S1000x64 .bf16) (x1 : Vec F S64x1728 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__wide_gemm_kernel i arg1 harg1 arg2 harg2 arg3 harg3) K := by
  simp only [cc0__wide_gemm_kernel_eq_skeleton]; unfold cc0__wide_gemm_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Gemm0

end Cert.KernelIdeal.Gen

end
-- ==== Proof.RegGemm3.lean ====
import proofs.«404940_j85761906966882_2_alg».proof.Proof.Gen.KernelIdeal.Launch
import proofs.«404940_j85761906966882_2_alg».proof.Proof.Gen.KernelIdeal.Skeleton
import proofs.«404940_j85761906966882_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Gemm3

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

noncomputable abbrev rx3 : Rect S1000x64 := Rect.unit (s := S1000x64) ![0, 0] S1000x64.size inb_S1000x64_S1000x64_0_0
noncomputable abbrev rw3 : Rect S64x1728 := Rect.unit (s := S64x1728) ![0, 0] S64x1728.size inb_S64x1728_S64x1728_0_0
noncomputable abbrev ro3 : Rect S1000x1728 := Rect.unit (s := S1000x1728) ![0, 0] S1000x1728.size inb_S1000x1728_S1000x1728_0_0

noncomputable def out3_2 (x0 : Vec F S1000x64 .bf16) (x1 : Vec F S64x1728 .bf16) : Vec F S1000x1728 .f32 :=
  View.canon [⟨ro3, k3_pay1 (View.ld x0 rx3) (View.ld x1 rw3)⟩]

theorem cover3_2 (p0 : Vec F S1000x1728 .f32) (y : S1000x1728.Idx) :
    ∃ pc ∈ ([⟨ro3, p0⟩] : List (View.Piece (Elt F) S1000x1728 .f32)), y ∈ pc.1.set :=
  View.cover_of_tiled [⟨ro3, p0⟩] S1000x1728.size (by rfl) y

set_option maxHeartbeats 1000000 in

theorem sound_kernel3 (c : Dev nD) (E : Set ℕ) (i : grid3.Coords)
    (arg1 : Memref sig .tc .vmem S1000x64 .bf16) (harg1 : arg1.IsWhole)
    (arg2 : Memref sig .tc .vmem S64x1728 .bf16) (harg2 : arg2.IsWhole)
    (arg3 : Memref sig .tc .vmem S1000x1728 .f32) (harg3 : arg3.IsWhole)
    (x0 : Vec F S1000x64 .bf16) (x1 : Vec F S64x1728 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__wide_gemm_kernel i arg1 harg1 arg2 harg2 arg3 harg3) K := by
  simp only [cc3__wide_gemm_kernel_eq_skeleton]; unfold cc3__wide_gemm_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Gemm3

end Cert.KernelIdeal.Gen

end
-- ==== Proof.RegStatsRun1.lean ====
import proofs.«404940_j85761906966882_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

theorem hz1 : (![0, 0] : Fin 2 → Nat) = fun _ => 0 := funext fun a => by fin_cases a <;> rfl

section
variable (c : Dev nD) (i : grid1.Coords) (arg1 : Memref sig .tc .vmem S5000x64 .f32) (harg1 : arg1.IsWhole)
  (arg2 : Memref sig .tc .vmem S5000x8 .bf16) (harg2 : arg2.IsWhole) (arg3 : Memref sig .tc .vmem S8x64 .f32)
  (harg3 : arg3.IsWhole) (arg4 : Memref sig .tc .vmem S8x64 .f32) (harg4 : arg4.IsWhole)

section
variable (hc0 : cond1_0 i) (x0 : Vec F S5000x64 .f32) (x1 : Vec F S5000x8 .bf16)

set_option maxHeartbeats 1000000 in
/-- The first grid point: the body zeroes both accumulators, then adds the two block products; the inputs stay. -/
noncomputable def kernelRun1_A :
    { L : List (View.Piece (Elt F) S8x64 .f32) × List (View.Piece (Elt F) S8x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc1__stats_kernel i arg1 harg1 arg2 harg2 arg3 harg3 arg4 harg4) K } := by
  refine ⟨(?_, ?_), fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

/-- The pieces stored into an accumulator tile its whole buffer. -/
theorem cover1_A_2 (y : S8x64.Idx) :
    ∃ pc ∈ (kernelRun1_A c i arg1 harg1 arg2 harg2 arg3 harg3 arg4 harg4 hc0 x0 x1).1.1, y ∈ pc.1.set :=
  View.cover_of_tiledL _ S8x64.size (by sl_kernel_rfl) y

/-- Read back, the accumulator holds the block product added to what it started from. -/
theorem out1_A_2 (f) :
    arg3.view.read (Elt F) (arg3.view.writes (Elt F) f (kernelRun1_A c i arg1 harg1 arg2 harg2 arg3 harg3 arg4 harg4 hc0 x0 x1).1.1)
      = k1_pay5 x0 x1 (k1_pay1 (F := F)) := by
  rw [View.read_writes_eq_canon _ _ _ (cover1_A_2 c i arg1 harg1 arg2 harg2 arg3 harg3 arg4 harg4 hc0 x0 x1)]
  unfold kernelRun1_A
  dsimp only
  sl_unfold_words
  rw [View.canon_cons_unit_zero (S := S8x64) hz1, View.readCov_unit_zero (S := S8x64) _ hz1]
  simp only [View.readAt_eq_ld, harg1.read_unread, harg2.read_unread, View.ld_unit_zero (S := S5000x64) hz1, View.ld_unit_zero (S := S5000x8) hz1]

theorem cover1_A_3 (y : S8x64.Idx) :
    ∃ pc ∈ (kernelRun1_A c i arg1 harg1 arg2 harg2 arg3 harg3 arg4 harg4 hc0 x0 x1).1.2, y ∈ pc.1.set :=
  View.cover_of_tiledL _ S8x64.size (by sl_kernel_rfl) y

theorem out1_A_3 (f) :
    arg4.view.read (Elt F) (arg4.view.writes (Elt F) f (kernelRun1_A c i arg1 harg1 arg2 harg2 arg3 harg3 arg4 harg4 hc0 x0 x1).1.2)
      = k1_pay6 x0 x1 (k1_pay2 (F := F)) := by
  rw [View.read_writes_eq_canon _ _ _ (cover1_A_3 c i arg1 harg1 arg2 harg2 arg3 harg3 arg4 harg4 hc0 x0 x1)]
  unfold kernelRun1_A
  dsimp only
  sl_unfold_words
  rw [View.canon_cons_unit_zero (S := S8x64) hz1, View.readCov_unit_zero (S := S8x64) _ hz1]
  simp only [View.readAt_eq_ld, harg1.read_unread, harg2.read_unread, View.ld_unit_zero (S := S5000x64) hz1, View.ld_unit_zero (S := S5000x8) hz1]

end

section
variable (hc0 : ¬cond1_0 i) (x0 : Vec F S5000x64 .f32) (x1 : Vec F S5000x8 .bf16) (xo2 xo3 : Vec F S8x64 .f32)

set_option maxHeartbeats 1000000 in
/-- A later grid point: the body adds the two block products to the running accumulators; the inputs stay. -/
noncomputable def kernelRun1_B :
    { L : List (View.Piece (Elt F) S8x64 .f32) × List (View.Piece (Elt F) S8x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo2 ∗ owns (c : Thread nD τ) arg4 fullShare xo3
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc1__stats_kernel i arg1 harg1 arg2 harg2 arg3 harg3 arg4 harg4) K } := by
  refine ⟨(?_, ?_), fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

theorem cover1_B_2 (y : S8x64.Idx) :
    ∃ pc ∈ (kernelRun1_B c i arg1 harg1 arg2 harg2 arg3 harg3 arg4 harg4 hc0 x0 x1 xo2 xo3).1.1, y ∈ pc.1.set :=
  View.cover_of_tiledL _ S8x64.size (by sl_kernel_rfl) y

theorem out1_B_2 (f) :
    arg3.view.read (Elt F) (arg3.view.writes (Elt F) f (kernelRun1_B c i arg1 harg1 arg2 harg2 arg3 harg3 arg4 harg4 hc0 x0 x1 xo2 xo3).1.1)
      = k1_pay5 x0 x1 xo2 := by
  rw [View.read_writes_eq_canon _ _ _ (cover1_B_2 c i arg1 harg1 arg2 harg2 arg3 harg3 arg4 harg4 hc0 x0 x1 xo2 xo3)]
  unfold kernelRun1_B
  dsimp only
  rw [View.canon_unit_zero (S := S8x64) hz1]
  simp only [View.readAt_eq_ld, harg1.read_unread, harg2.read_unread, harg3.read_unread, View.ld_unit_zero (S := S5000x64) hz1, View.ld_unit_zero (S := S5000x8) hz1, View.ld_unit_zero (S := S8x64) hz1]

theorem cover1_B_3 (y : S8x64.Idx) :
    ∃ pc ∈ (kernelRun1_B c i arg1 harg1 arg2 harg2 arg3 harg3 arg4 harg4 hc0 x0 x1 xo2 xo3).1.2, y ∈ pc.1.set :=
  View.cover_of_tiledL _ S8x64.size (by sl_kernel_rfl) y

theorem out1_B_3 (f) :
    arg4.view.read (Elt F) (arg4.view.writes (Elt F) f (kernelRun1_B c i arg1 harg1 arg2 harg2 arg3 harg3 arg4 harg4 hc0 x0 x1 xo2 xo3).1.2)
      = k1_pay6 x0 x1 xo3 := by
  rw [View.read_writes_eq_canon _ _ _ (cover1_B_3 c i arg1 harg1 arg2 harg2 arg3 harg3 arg4 harg4 hc0 x0 x1 xo2 xo3)]
  unfold kernelRun1_B
  dsimp only
  rw [View.canon_unit_zero (S := S8x64) hz1]
  simp only [View.readAt_eq_ld, harg1.read_unread, harg2.read_unread, harg4.read_unread, View.ld_unit_zero (S := S5000x64) hz1, View.ld_unit_zero (S := S5000x8) hz1, View.ld_unit_zero (S := S8x64) hz1]

end

end

end Cert.KernelIdeal.Gen

end
-- ==== Proof.RegStats1.lean ====
import proofs.«404940_j85761906966882_2_alg».proof.Proof.RegStatsRun1
import proofs.«404940_j85761906966882_2_alg».proof.Proof.Gen.KernelIdeal.Points
import Idealize.ShloMosaic.Lib.Pipeline.FrameBody
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem bigSep_four1 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

theorem N_1' : grid1.N = 20 := by decide

section Stats1
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

noncomputable def acc1_2 (c : Dev nD) : (n : ℕ) → n < cfg1.N → Vec F S8x64 .f32
  | 0, h => k1_pay5 (iblk1 V c 0 ⟨0, h⟩) (iblk1 V c 1 ⟨0, h⟩) (k1_pay1 (F := F))
  | n + 1, h => k1_pay5 (iblk1 V c 0 ⟨n + 1, h⟩) (iblk1 V c 1 ⟨n + 1, h⟩) (acc1_2 c n (Nat.lt_of_succ_lt h))

noncomputable def acc1_3 (c : Dev nD) : (n : ℕ) → n < cfg1.N → Vec F S8x64 .f32
  | 0, h => k1_pay6 (iblk1 V c 0 ⟨0, h⟩) (iblk1 V c 1 ⟨0, h⟩) (k1_pay2 (F := F))
  | n + 1, h => k1_pay6 (iblk1 V c 0 ⟨n + 1, h⟩) (iblk1 V c 1 ⟨n + 1, h⟩) (acc1_3 c n (Nat.lt_of_succ_lt h))

theorem acc1_2_first (c : Dev nD) (t : Fin cfg1.N) (h0 : t.val = 0) :
    acc1_2 V c t.val t.isLt = k1_pay5 (iblk1 V c 0 t) (iblk1 V c 1 t) (k1_pay1 (F := F)) := by
  obtain ⟨n, hn⟩ := t
  cases n with
  | zero => rfl
  | succ n => exact absurd h0 (Nat.succ_ne_zero n)

theorem acc1_2_later (c : Dev nD) (t : Fin cfg1.N) (h0 : t.val ≠ 0) :
    acc1_2 V c t.val t.isLt = k1_pay5 (iblk1 V c 0 t) (iblk1 V c 1 t)
      (acc1_2 V c (t.val - 1) (Nat.lt_of_le_of_lt (Nat.sub_le _ _) t.isLt)) := by
  obtain ⟨n, hn⟩ := t
  cases n with
  | zero => exact absurd rfl h0
  | succ n => rfl

theorem acc1_3_first (c : Dev nD) (t : Fin cfg1.N) (h0 : t.val = 0) :
    acc1_3 V c t.val t.isLt = k1_pay6 (iblk1 V c 0 t) (iblk1 V c 1 t) (k1_pay2 (F := F)) := by
  obtain ⟨n, hn⟩ := t
  cases n with
  | zero => rfl
  | succ n => exact absurd h0 (Nat.succ_ne_zero n)

theorem acc1_3_later (c : Dev nD) (t : Fin cfg1.N) (h0 : t.val ≠ 0) :
    acc1_3 V c t.val t.isLt = k1_pay6 (iblk1 V c 0 t) (iblk1 V c 1 t)
      (acc1_3 V c (t.val - 1) (Nat.lt_of_le_of_lt (Nat.sub_le _ _) t.isLt)) := by
  obtain ⟨n, hn⟩ := t
  cases n with
  | zero => exact absurd rfl h0
  | succ n => rfl

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1_2 V c t.val t.isLt
    | ⟨3, _⟩ => acc1_3 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1_2 V c t.val t.isLt := by dsimp only [dat1]
theorem after1_3 (c : Dev nD) (t : Fin cfg1.N) : (dat1 V c).after 3 t = acc1_3 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem before1_2_later (c : Dev nD) (t : Fin cfg1.N) (h0 : t.val ≠ 0) (d) :
    (dat1 V c).before 2 t d = acc1_2 V c (t.val - 1) (Nat.lt_of_le_of_lt (Nat.sub_le _ _) t.isLt) := by
  have hN : t.val < 20 := lt_of_lt_of_eq t.isLt (show cfg1.N = 20 from N_1')
  rw [Dat.before_out_kept _ 2 rfl t h0 (Bool.eq_false_iff.mpr fun h => by have := (flush1_2 _).mp h; dsimp only at this; omega)
    (fun _ => rfl) (fun _ _ => rfl)]
  dsimp only [dat1]
theorem before1_3_later (c : Dev nD) (t : Fin cfg1.N) (h0 : t.val ≠ 0) (d) :
    (dat1 V c).before 3 t d = acc1_3 V c (t.val - 1) (Nat.lt_of_le_of_lt (Nat.sub_le _ _) t.isLt) := by
  have hN : t.val < 20 := lt_of_lt_of_eq t.isLt (show cfg1.N = 20 from N_1')
  rw [Dat.before_out_kept _ 3 rfl t h0 (Bool.eq_false_iff.mpr fun h => by have := (flush1_3 _).mp h; dsimp only at this; omega)
    (fun _ => rfl) (fun _ _ => rfl)]
  dsimp only [dat1]

noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val = 0
  · rw [acc1_2_first V c t h0, acc1_3_first V c t h0]
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact out1_A_2 c _ _ _ _ _ _ _ _ _ _ _ _ _
    · unfold owns; iexists _; isplitr
      swap; · iexact H3
      ipureintro; exact out1_A_3 c _ _ _ _ _ _ _ _ _ _ _ _ _
  · rw [acc1_2_later V c t h0, acc1_3_later V c t h0]
    simp only [before1_2_later V c t h0, before1_3_later V c t h0]
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) _ _).2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact out1_B_2 c _ _ _ _ _ _ _ _ _ _ _ _ _ _ _
    · unfold owns; iexists _; isplitr
      swap; · iexact H3
      ipureintro; exact out1_B_3 c _ _ _ _ _ _ _ _ _ _ _ _ _ _ _

theorem body_obligation1 (c : Dev nD) : BodyObligation (dat1 (F := F) V c) (defs₀ (F := F)) Variants.none () Set.univ := fun t => by
  rw [bigSep_four1, bigSep_four1]
  exact sound_body1 V c t

end Stats1

end Cert.KernelIdeal.Gen

end
-- ==== Proof.RegStatsRun4.lean ====
import proofs.«404940_j85761906966882_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

theorem hz4 : (![0, 0] : Fin 2 → Nat) = fun _ => 0 := funext fun a => by fin_cases a <;> rfl

section
variable (c : Dev nD) (i : grid4.Coords) (arg1 : Memref sig .tc .vmem S5000x64 .f32) (harg1 : arg1.IsWhole)
  (arg2 : Memref sig .tc .vmem S5000x8 .bf16) (harg2 : arg2.IsWhole) (arg3 : Memref sig .tc .vmem S8x64 .f32)
  (harg3 : arg3.IsWhole) (arg4 : Memref sig .tc .vmem S8x64 .f32) (harg4 : arg4.IsWhole)

section
variable (hc0 : cond4_0 i) (x0 : Vec F S5000x64 .f32) (x1 : Vec F S5000x8 .bf16)

set_option maxHeartbeats 1000000 in
/-- The first grid point: the body zeroes both accumulators, then adds the two block products; the inputs stay. -/
noncomputable def kernelRun4_A :
    { L : List (View.Piece (Elt F) S8x64 .f32) × List (View.Piece (Elt F) S8x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc4__stats_kernel i arg1 harg1 arg2 harg2 arg3 harg3 arg4 harg4) K } := by
  refine ⟨(?_, ?_), fun E K => ?run⟩
  case run =>
    simp only [cc4__stats_kernel_eq_skeleton]; unfold cc4__stats_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

/-- The pieces stored into an accumulator tile its whole buffer. -/
theorem cover4_A_2 (y : S8x64.Idx) :
    ∃ pc ∈ (kernelRun4_A c i arg1 harg1 arg2 harg2 arg3 harg3 arg4 harg4 hc0 x0 x1).1.1, y ∈ pc.1.set :=
  View.cover_of_tiledL _ S8x64.size (by sl_kernel_rfl) y

/-- Read back, the accumulator holds the block product added to what it started from. -/
theorem out4_A_2 (f) :
    arg3.view.read (Elt F) (arg3.view.writes (Elt F) f (kernelRun4_A c i arg1 harg1 arg2 harg2 arg3 harg3 arg4 harg4 hc0 x0 x1).1.1)
      = k4_pay5 x0 x1 (k4_pay1 (F := F)) := by
  rw [View.read_writes_eq_canon _ _ _ (cover4_A_2 c i arg1 harg1 arg2 harg2 arg3 harg3 arg4 harg4 hc0 x0 x1)]
  unfold kernelRun4_A
  dsimp only
  sl_unfold_words
  rw [View.canon_cons_unit_zero (S := S8x64) hz4, View.readCov_unit_zero (S := S8x64) _ hz4]
  simp only [View.readAt_eq_ld, harg1.read_unread, harg2.read_unread, View.ld_unit_zero (S := S5000x64) hz4, View.ld_unit_zero (S := S5000x8) hz4]

theorem cover4_A_3 (y : S8x64.Idx) :
    ∃ pc ∈ (kernelRun4_A c i arg1 harg1 arg2 harg2 arg3 harg3 arg4 harg4 hc0 x0 x1).1.2, y ∈ pc.1.set :=
  View.cover_of_tiledL _ S8x64.size (by sl_kernel_rfl) y

theorem out4_A_3 (f) :
    arg4.view.read (Elt F) (arg4.view.writes (Elt F) f (kernelRun4_A c i arg1 harg1 arg2 harg2 arg3 harg3 arg4 harg4 hc0 x0 x1).1.2)
      = k4_pay6 x0 x1 (k4_pay2 (F := F)) := by
  rw [View.read_writes_eq_canon _ _ _ (cover4_A_3 c i arg1 harg1 arg2 harg2 arg3 harg3 arg4 harg4 hc0 x0 x1)]
  unfold kernelRun4_A
  dsimp only
  sl_unfold_words
  rw [View.canon_cons_unit_zero (S := S8x64) hz4, View.readCov_unit_zero (S := S8x64) _ hz4]
  simp only [View.readAt_eq_ld, harg1.read_unread, harg2.read_unread, View.ld_unit_zero (S := S5000x64) hz4, View.ld_unit_zero (S := S5000x8) hz4]

end

section
variable (hc0 : ¬cond4_0 i) (x0 : Vec F S5000x64 .f32) (x1 : Vec F S5000x8 .bf16) (xo2 xo3 : Vec F S8x64 .f32)

set_option maxHeartbeats 1000000 in
/-- A later grid point: the body adds the two block products to the running accumulators; the inputs stay. -/
noncomputable def kernelRun4_B :
    { L : List (View.Piece (Elt F) S8x64 .f32) × List (View.Piece (Elt F) S8x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo2 ∗ owns (c : Thread nD τ) arg4 fullShare xo3
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc4__stats_kernel i arg1 harg1 arg2 harg2 arg3 harg3 arg4 harg4) K } := by
  refine ⟨(?_, ?_), fun E K => ?run⟩
  case run =>
    simp only [cc4__stats_kernel_eq_skeleton]; unfold cc4__stats_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

theorem cover4_B_2 (y : S8x64.Idx) :
    ∃ pc ∈ (kernelRun4_B c i arg1 harg1 arg2 harg2 arg3 harg3 arg4 harg4 hc0 x0 x1 xo2 xo3).1.1, y ∈ pc.1.set :=
  View.cover_of_tiledL _ S8x64.size (by sl_kernel_rfl) y

theorem out4_B_2 (f) :
    arg3.view.read (Elt F) (arg3.view.writes (Elt F) f (kernelRun4_B c i arg1 harg1 arg2 harg2 arg3 harg3 arg4 harg4 hc0 x0 x1 xo2 xo3).1.1)
      = k4_pay5 x0 x1 xo2 := by
  rw [View.read_writes_eq_canon _ _ _ (cover4_B_2 c i arg1 harg1 arg2 harg2 arg3 harg3 arg4 harg4 hc0 x0 x1 xo2 xo3)]
  unfold kernelRun4_B
  dsimp only
  rw [View.canon_unit_zero (S := S8x64) hz4]
  simp only [View.readAt_eq_ld, harg1.read_unread, harg2.read_unread, harg3.read_unread, View.ld_unit_zero (S := S5000x64) hz4, View.ld_unit_zero (S := S5000x8) hz4, View.ld_unit_zero (S := S8x64) hz4]

theorem cover4_B_3 (y : S8x64.Idx) :
    ∃ pc ∈ (kernelRun4_B c i arg1 harg1 arg2 harg2 arg3 harg3 arg4 harg4 hc0 x0 x1 xo2 xo3).1.2, y ∈ pc.1.set :=
  View.cover_of_tiledL _ S8x64.size (by sl_kernel_rfl) y

theorem out4_B_3 (f) :
    arg4.view.read (Elt F) (arg4.view.writes (Elt F) f (kernelRun4_B c i arg1 harg1 arg2 harg2 arg3 harg3 arg4 harg4 hc0 x0 x1 xo2 xo3).1.2)
      = k4_pay6 x0 x1 xo3 := by
  rw [View.read_writes_eq_canon _ _ _ (cover4_B_3 c i arg1 harg1 arg2 harg2 arg3 harg3 arg4 harg4 hc0 x0 x1 xo2 xo3)]
  unfold kernelRun4_B
  dsimp only
  rw [View.canon_unit_zero (S := S8x64) hz4]
  simp only [View.readAt_eq_ld, harg1.read_unread, harg2.read_unread, harg4.read_unread, View.ld_unit_zero (S := S5000x64) hz4, View.ld_unit_zero (S := S5000x8) hz4, View.ld_unit_zero (S := S8x64) hz4]

end

end

end Cert.KernelIdeal.Gen

end
-- ==== Proof.RegStats4.lean ====
import proofs.«404940_j85761906966882_2_alg».proof.Proof.RegStatsRun4
import proofs.«404940_j85761906966882_2_alg».proof.Proof.Gen.KernelIdeal.Points
import Idealize.ShloMosaic.Lib.Pipeline.FrameBody
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem bigSep_four4 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

theorem N_4' : grid4.N = 20 := by decide

section Stats4
variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

noncomputable def acc4_2 (c : Dev nD) : (n : ℕ) → n < cfg4.N → Vec F S8x64 .f32
  | 0, h => k4_pay5 (iblk4 V c 0 ⟨0, h⟩) (iblk4 V c 1 ⟨0, h⟩) (k4_pay1 (F := F))
  | n + 1, h => k4_pay5 (iblk4 V c 0 ⟨n + 1, h⟩) (iblk4 V c 1 ⟨n + 1, h⟩) (acc4_2 c n (Nat.lt_of_succ_lt h))

noncomputable def acc4_3 (c : Dev nD) : (n : ℕ) → n < cfg4.N → Vec F S8x64 .f32
  | 0, h => k4_pay6 (iblk4 V c 0 ⟨0, h⟩) (iblk4 V c 1 ⟨0, h⟩) (k4_pay2 (F := F))
  | n + 1, h => k4_pay6 (iblk4 V c 0 ⟨n + 1, h⟩) (iblk4 V c 1 ⟨n + 1, h⟩) (acc4_3 c n (Nat.lt_of_succ_lt h))

theorem acc4_2_first (c : Dev nD) (t : Fin cfg4.N) (h0 : t.val = 0) :
    acc4_2 V c t.val t.isLt = k4_pay5 (iblk4 V c 0 t) (iblk4 V c 1 t) (k4_pay1 (F := F)) := by
  obtain ⟨n, hn⟩ := t
  cases n with
  | zero => rfl
  | succ n => exact absurd h0 (Nat.succ_ne_zero n)

theorem acc4_2_later (c : Dev nD) (t : Fin cfg4.N) (h0 : t.val ≠ 0) :
    acc4_2 V c t.val t.isLt = k4_pay5 (iblk4 V c 0 t) (iblk4 V c 1 t)
      (acc4_2 V c (t.val - 1) (Nat.lt_of_le_of_lt (Nat.sub_le _ _) t.isLt)) := by
  obtain ⟨n, hn⟩ := t
  cases n with
  | zero => exact absurd rfl h0
  | succ n => rfl

theorem acc4_3_first (c : Dev nD) (t : Fin cfg4.N) (h0 : t.val = 0) :
    acc4_3 V c t.val t.isLt = k4_pay6 (iblk4 V c 0 t) (iblk4 V c 1 t) (k4_pay2 (F := F)) := by
  obtain ⟨n, hn⟩ := t
  cases n with
  | zero => rfl
  | succ n => exact absurd h0 (Nat.succ_ne_zero n)

theorem acc4_3_later (c : Dev nD) (t : Fin cfg4.N) (h0 : t.val ≠ 0) :
    acc4_3 V c t.val t.isLt = k4_pay6 (iblk4 V c 0 t) (iblk4 V c 1 t)
      (acc4_3 V c (t.val - 1) (Nat.lt_of_le_of_lt (Nat.sub_le _ _) t.isLt)) := by
  obtain ⟨n, hn⟩ := t
  cases n with
  | zero => exact absurd rfl h0
  | succ n => rfl

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4_2 V c t.val t.isLt
    | ⟨3, _⟩ => acc4_3 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4_2 V c t.val t.isLt := by dsimp only [dat4]
theorem after4_3 (c : Dev nD) (t : Fin cfg4.N) : (dat4 V c).after 3 t = acc4_3 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

theorem before4_2_later (c : Dev nD) (t : Fin cfg4.N) (h0 : t.val ≠ 0) (d) :
    (dat4 V c).before 2 t d = acc4_2 V c (t.val - 1) (Nat.lt_of_le_of_lt (Nat.sub_le _ _) t.isLt) := by
  have hN : t.val < 20 := lt_of_lt_of_eq t.isLt (show cfg4.N = 20 from N_4')
  rw [Dat.before_out_kept _ 2 rfl t h0 (Bool.eq_false_iff.mpr fun h => by have := (flush4_2 _).mp h; dsimp only at this; omega)
    (fun _ => rfl) (fun _ _ => rfl)]
  dsimp only [dat4]
theorem before4_3_later (c : Dev nD) (t : Fin cfg4.N) (h0 : t.val ≠ 0) (d) :
    (dat4 V c).before 3 t d = acc4_3 V c (t.val - 1) (Nat.lt_of_le_of_lt (Nat.sub_le _ _) t.isLt) := by
  have hN : t.val < 20 := lt_of_lt_of_eq t.isLt (show cfg4.N = 20 from N_4')
  rw [Dat.before_out_kept _ 3 rfl t h0 (Bool.eq_false_iff.mpr fun h => by have := (flush4_3 _).mp h; dsimp only at this; omega)
    (fun _ => rfl) (fun _ _ => rfl)]
  dsimp only [dat4]

noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

set_option maxHeartbeats 800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3]
  by_cases h0 : t.val = 0
  · rw [acc4_2_first V c t h0, acc4_3_first V c t h0]
    iintro ⟨HΦ, Ho, ⟨%d0, H0⟩, ⟨%d1, H1⟩, ⟨%d2, H2⟩, ⟨%d3, H3⟩⟩
    iapply ((kernelRun4_A c (grid4.coords t) _ _ _ _ _ _ _ _ ((hcond4_0 t).mpr h0) (iblk4 V c 0 t) (iblk4 V c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact out4_A_2 c _ _ _ _ _ _ _ _ _ _ _ _ _
    · unfold owns; iexists _; isplitr
      swap; · iexact H3
      ipureintro; exact out4_A_3 c _ _ _ _ _ _ _ _ _ _ _ _ _
  · rw [acc4_2_later V c t h0, acc4_3_later V c t h0]
    simp only [before4_2_later V c t h0, before4_3_later V c t h0]
    iintro ⟨HΦ, Ho, ⟨%d0, H0⟩, ⟨%d1, H1⟩, ⟨%d2, H2⟩, ⟨%d3, H3⟩⟩
    iapply ((kernelRun4_B c (grid4.coords t) _ _ _ _ _ _ _ _ (fun h => h0 ((hcond4_0 t).mp h)) (iblk4 V c 0 t) (iblk4 V c 1 t) _ _).2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact out4_B_2 c _ _ _ _ _ _ _ _ _ _ _ _ _ _ _
    · unfold owns; iexists _; isplitr
      swap; · iexact H3
      ipureintro; exact out4_B_3 c _ _ _ _ _ _ _ _ _ _ _ _ _ _ _

theorem body_obligation4 (c : Dev nD) : BodyObligation (dat4 (F := F) V c) (defs₀ (F := F)) Variants.none () Set.univ := fun t => by
  rw [bigSep_four4, bigSep_four4]
  exact sound_body4 V c t

end Stats4

end Cert.KernelIdeal.Gen

end
-- ==== Proof.RegStats.lean ====
import proofs.«404940_j85761906966882_2_alg».proof.Proof.RegStats1
import proofs.«404940_j85761906966882_2_alg».proof.Proof.RegStats4
-- ==== Proof.RegApply.lean ====
import proofs.«404940_j85761906966882_2_alg».proof.Proof.Gen.KernelIdeal.Launch
import proofs.«404940_j85761906966882_2_alg».proof.Proof.Gen.KernelIdeal.Skeleton
import proofs.«404940_j85761906966882_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable abbrev rOut2 : Rect S5000x64 := Rect.unit (s := S5000x64) ![0, 0] S5000x64.size inb_S5000x64_S5000x64_0_0

noncomputable def out2_6 (x0 : Vec F S5000x64 .f32) (x1 : Vec F S5000x8 .bf16) (x2 : Vec F S8x64 .f32) (x3 : Vec F S8x64 .f32) (x4 : Vec F S1x64 .f32) (x5 : Vec F S1x64 .f32) : Vec F S5000x64 .f32 :=
  View.canon [⟨rOut2, k2_pay1 (View.ld x0 (Rect.unit (s := S5000x64) ![0, 0] S5000x64.size inb_S5000x64_S5000x64_0_0)) (View.ld x1 (Rect.unit (s := S5000x8) ![0, 0] S5000x8.size inb_S5000x8_S5000x8_0_0)) (View.ld x2 (Rect.unit (s := S8x64) ![0, 0] S8x64.size inb_S8x64_S8x64_0_0)) (View.ld x3 (Rect.unit (s := S8x64) ![0, 0] S8x64.size inb_S8x64_S8x64_0_0)) (View.ld x4 (Rect.unit (s := S1x64) ![0, 0] S1x64.size inb_S1x64_S1x64_0_0)) (View.ld x5 (Rect.unit (s := S1x64) ![0, 0] S1x64.size inb_S1x64_S1x64_0_0))⟩]

theorem cover2_6 (p0 : Vec F S5000x64 .f32) (y : S5000x64.Idx) :
    ∃ pc ∈ ([⟨rOut2, p0⟩] : List (View.Piece (Elt F) S5000x64 .f32)), y ∈ pc.1.set :=
  View.cover_of_tiled [⟨rOut2, p0⟩] S5000x64.size (by rfl) y

set_option maxHeartbeats 2000000 in

theorem sound_kernel2 (c : Dev nD) (E : Set ℕ) (i : grid2.Coords) (arg1 : Memref sig .tc .vmem S5000x64 .f32) (harg1 : arg1.IsWhole) (arg2 : Memref sig .tc .vmem S5000x8 .bf16) (harg2 : arg2.IsWhole) (arg3 : Memref sig .tc .vmem S8x64 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x8 .bf16) (x2 : Vec F S8x64 .f32) (x3 : Vec F S8x64 .f32) (x4 : Vec F S1x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__apply_kernel i arg1 harg1 arg2 harg2 arg3 harg3 arg4 harg4 arg5 harg5 arg6 harg6 arg7 harg7) K := by
  simp only [cc2__apply_kernel_eq_skeleton]; unfold cc2__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

noncomputable def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Region2

end Cert.KernelIdeal.Gen

end
-- ==== Proof.RegApply5.lean ====
import proofs.«404940_j85761906966882_2_alg».proof.Proof.Gen.KernelIdeal.Launch
import proofs.«404940_j85761906966882_2_alg».proof.Proof.Gen.KernelIdeal.Skeleton
import proofs.«404940_j85761906966882_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

noncomputable abbrev rOut5 : Rect S5000x64 := Rect.unit (s := S5000x64) ![0, 0] S5000x64.size inb_S5000x64_S5000x64_0_0

noncomputable def out5_7 (x0 : Vec F S5000x64 .f32) (x1 : Vec F S5000x8 .bf16) (x2 : Vec F S8x64 .f32) (x3 : Vec F S8x64 .f32) (x4 : Vec F S1x64 .f32) (x5 : Vec F S1x64 .f32) (x6 : Vec F S5000x64 .f32) : Vec F S5000x64 .f32 :=
  View.canon [⟨rOut5, k5_pay1 (View.ld x0 (Rect.unit (s := S5000x64) ![0, 0] S5000x64.size inb_S5000x64_S5000x64_0_0)) (View.ld x1 (Rect.unit (s := S5000x8) ![0, 0] S5000x8.size inb_S5000x8_S5000x8_0_0)) (View.ld x2 (Rect.unit (s := S8x64) ![0, 0] S8x64.size inb_S8x64_S8x64_0_0)) (View.ld x3 (Rect.unit (s := S8x64) ![0, 0] S8x64.size inb_S8x64_S8x64_0_0)) (View.ld x4 (Rect.unit (s := S1x64) ![0, 0] S1x64.size inb_S1x64_S1x64_0_0)) (View.ld x5 (Rect.unit (s := S1x64) ![0, 0] S1x64.size inb_S1x64_S1x64_0_0)) (View.ld x6 (Rect.unit (s := S5000x64) ![0, 0] S5000x64.size inb_S5000x64_S5000x64_0_0))⟩]

theorem cover5_7 (p0 : Vec F S5000x64 .f32) (y : S5000x64.Idx) :
    ∃ pc ∈ ([⟨rOut5, p0⟩] : List (View.Piece (Elt F) S5000x64 .f32)), y ∈ pc.1.set :=
  View.cover_of_tiled [⟨rOut5, p0⟩] S5000x64.size (by rfl) y

set_option maxHeartbeats 2000000 in

theorem sound_kernel5 (c : Dev nD) (E : Set ℕ) (i : grid5.Coords) (arg1 : Memref sig .tc .vmem S5000x64 .f32) (harg1 : arg1.IsWhole) (arg2 : Memref sig .tc .vmem S5000x8 .bf16) (harg2 : arg2.IsWhole) (arg3 : Memref sig .tc .vmem S8x64 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x8 .bf16) (x2 : Vec F S8x64 .f32) (x3 : Vec F S8x64 .f32) (x4 : Vec F S1x64 .f32) (x5 : Vec F S1x64 .f32) (x6 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__apply_kernel_res i arg1 harg1 arg2 harg2 arg3 harg3 arg4 harg4 arg5 harg5 arg6 harg6 arg7 harg7 arg8 harg8) K := by
  simp only [cc5__apply_kernel_res_eq_skeleton]; unfold cc5__apply_kernel_res_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl)
    (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (fun _ => rfl) (fun _ _ _ => rfl)
    (fun t => by rw [after5_6]; unfold Dat.blockOf iblk5; rw [A_eq5]; try rfl) t d).trans
    (by unfold Dat.fetched Dat.blockOf iblk5; rw [A_eq5]; try rfl)

noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation5 (c : Dev nD) : BodyObligation (dat5 (F := F) V c) (defs₀ (F := F)) Variants.none () Set.univ := fun t => by
  rw [bigSep_W5, bigSep_W5]
  exact sound_body5 V c t

end Region5

end Cert.KernelIdeal.Gen

end
-- ==== Proof.Run.lean ====
import proofs.«404940_j85761906966882_2_alg».proof.Proof.RunCongr
import proofs.«404940_j85761906966882_2_alg».proof.Proof.RegGemm
import proofs.«404940_j85761906966882_2_alg».proof.Proof.RegGemm3
import proofs.«404940_j85761906966882_2_alg».proof.Proof.RegStats
import proofs.«404940_j85761906966882_2_alg».proof.Proof.RegApply
import proofs.«404940_j85761906966882_2_alg».proof.Proof.RegApply5
import Idealize.ShloMosaic.Lib.Pipeline.RegionsLoop

set_option maxRecDepth 6752

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

-- The contents the regions leave, one region at a time: each stage changes the one before at that region's output arrays only.
def outs0 : Outs (F := F) := fun _ r c => m ((c : Thread nD τ).loc r)
def outs1 : Outs (F := F) := setAt (outs0 m) main_v4 fun c => (dat0 (atTc (V1 m)) c).arrAt 2 cfg0.N
def outs2 : Outs (F := F) :=
  setAt (setAt (outs1 m) main_v132_0 fun c => (dat1 (atTc (V59 m (outs1 m))) c).arrAt 2 cfg1.N)
    main_v132_1 fun c => (dat1 (atTc (V59 m (outs1 m))) c).arrAt 3 cfg1.N
def outs3 : Outs (F := F) := setAt (outs2 m) main_v145 fun c => (dat2 (atTc (V61 m (outs2 m))) c).arrAt 6 cfg2.N
def outs4 : Outs (F := F) := setAt (outs3 m) main_v150 fun c => (dat3 (atTc (V63 m (outs3 m))) c).arrAt 2 cfg3.N
def outs5 : Outs (F := F) :=
  setAt (setAt (outs4 m) main_v278_0 fun c => (dat4 (atTc (V121 m (outs4 m))) c).arrAt 2 cfg4.N)
    main_v278_1 fun c => (dat4 (atTc (V121 m (outs4 m))) c).arrAt 3 cfg4.N
def outs : Outs (F := F) := setAt (outs5 m) main_v291 fun c => (dat5 (atTc (V123 m (outs5 m))) c).arrAt 7 cfg5.N

-- A later stage changes no array an earlier region leaves, so the whole family agrees with each stage on them.
theorem agree1 : AgreeOn Made1 (outs m) (outs1 m) := agree_setAt (by decide) <| agree_setAt (by decide) <| agree_setAt (by decide) <| agree_setAt (by decide) <| agree_setAt (by decide) <| agree_setAt (by decide) <| agree_setAt (by decide) fun _ _ _ _ => rfl
theorem agree2 : AgreeOn Made2 (outs m) (outs2 m) := agree_setAt (by decide) <| agree_setAt (by decide) <| agree_setAt (by decide) <| agree_setAt (by decide) <| agree_setAt (by decide) fun _ _ _ _ => rfl
theorem agree3 : AgreeOn Made3 (outs m) (outs3 m) := agree_setAt (by decide) <| agree_setAt (by decide) <| agree_setAt (by decide) <| agree_setAt (by decide) fun _ _ _ _ => rfl
theorem agree4 : AgreeOn Made4 (outs m) (outs4 m) := agree_setAt (by decide) <| agree_setAt (by decide) <| agree_setAt (by decide) fun _ _ _ _ => rfl
theorem agree5 : AgreeOn Made5 (outs m) (outs5 m) := agree_setAt (by decide) fun _ _ _ _ => rfl

theorem outs_2 (c : Dev nD) : outs m 2 main_v4 c = (dat0 (atTc (V1 m)) c).arrAt 2 cfg0.N := by
  rw [agree1 m 2 main_v4 c (by decide)]; unfold outs1; rw [setAt_self]
theorem outs_60_0 (c : Dev nD) : outs m 60 main_v132_0 c = (dat1 (atTc (V59 m (outs m))) c).arrAt 2 cfg1.N := by
  rw [V59_congr m (agree1 m), agree2 m 60 main_v132_0 c (by decide)]; unfold outs2; rw [setAt_of_ne, setAt_self]; decide
theorem outs_60_1 (c : Dev nD) : outs m 60 main_v132_1 c = (dat1 (atTc (V59 m (outs m))) c).arrAt 3 cfg1.N := by
  rw [V59_congr m (agree1 m), agree2 m 60 main_v132_1 c (by decide)]; unfold outs2; rw [setAt_self]
theorem outs_62 (c : Dev nD) : outs m 62 main_v145 c = (dat2 (atTc (V61 m (outs m))) c).arrAt 6 cfg2.N := by
  rw [V61_congr m (agree2 m), agree3 m 62 main_v145 c (by decide)]; unfold outs3; rw [setAt_self]
theorem outs_64 (c : Dev nD) : outs m 64 main_v150 c = (dat3 (atTc (V63 m (outs m))) c).arrAt 2 cfg3.N := by
  rw [V63_congr m (agree3 m), agree4 m 64 main_v150 c (by decide)]; unfold outs4; rw [setAt_self]
theorem outs_122_0 (c : Dev nD) : outs m 122 main_v278_0 c = (dat4 (atTc (V121 m (outs m))) c).arrAt 2 cfg4.N := by
  rw [V121_congr m (agree4 m), agree5 m 122 main_v278_0 c (by decide)]; unfold outs5; rw [setAt_of_ne, setAt_self]; decide
theorem outs_122_1 (c : Dev nD) : outs m 122 main_v278_1 c = (dat4 (atTc (V121 m (outs m))) c).arrAt 3 cfg4.N := by
  rw [V121_congr m (agree4 m), agree5 m 122 main_v278_1 c (by decide)]; unfold outs5; rw [setAt_self]
theorem outs_124 (c : Dev nD) : outs m 124 main_v291 c = (dat5 (atTc (V123 m (outs m))) c).arrAt 7 cfg5.N := by
  rw [V123_congr m (agree5 m)]; unfold outs; rw [setAt_self]

def pdats : (p : Fin 6) → (c : Dev nD) → Dat τ (Elt F) Unit ℕ (UR sig nD τ) ℕ (cfgs p) c
  | ⟨0, _⟩ => fun c => dat0 (atTc (V1 m)) c
  | ⟨1, _⟩ => fun c => dat1 (atTc (V59 m (outs m))) c
  | ⟨2, _⟩ => fun c => dat2 (atTc (V61 m (outs m))) c
  | ⟨3, _⟩ => fun c => dat3 (atTc (V63 m (outs m))) c
  | ⟨4, _⟩ => fun c => dat4 (atTc (V121 m (outs m))) c
  | ⟨5, _⟩ => fun c => dat5 (atTc (V123 m (outs m))) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 7 → Dev nD → sProp 𝕄 := fun _ c => R c

set_option backward.isDefEq.respectTransparency.types false in
def regionOf (p : Fin 6) (hl : Pipeline.LaunchFacts (nD := nD) (τ := τ) cfgs p) (Vin Vout : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hΦ : ∀ c t, (pdats m p c).Φ t = Pipeline.ΦA (cfgs p).spec c)
    (hA : ∀ c w, (pdats m p c).A w = atTc Vin c (Pipeline.arrRef (cfgs p).spec w))
    (hF : ∀ c w, (pdats m p c).arrAt w (cfgs p).N = atTc Vout c (Pipeline.arrRef (cfgs p).spec w))
    (hrest : ∀ c b, b ∉ Finset.univ.image (Pipeline.arrRef (cfgs p).spec) → atTc Vout c b = atTc Vin c b) :
    RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have hsplit := Pipeline.arrays_of_unscopedBufs (p := p) (pcfgs (F := F)) adm (pdats m) hl.win hl.arr_whole c
      ((pdats m p c).share_full (hq c)) (atTc Vin c) (hA c)
    rw [Pipeline.unscopedBufs_held] at hsplit
    have hr : ∀ x, x ∈ (pdats m p c).recorded 0 := fun x => by rw [hrec c 0]; trivial
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (hr x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (atTc Vin c) (atTc Vout c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

theorem forall_fin3 {P : Fin 3 → Prop} (h0 : P 0) (h1 : P 1) (h2 : P 2) : ∀ w, P w
  | 0 => h0 | 1 => h1 | 2 => h2
theorem forall_fin4 {P : Fin 4 → Prop} (h0 : P 0) (h1 : P 1) (h2 : P 2) (h3 : P 3) : ∀ w, P w
  | 0 => h0 | 1 => h1 | 2 => h2 | 3 => h3
theorem forall_fin7 {P : Fin 7 → Prop} (h0 : P 0) (h1 : P 1) (h2 : P 2) (h3 : P 3) (h4 : P 4) (h5 : P 5) (h6 : P 6) : ∀ w, P w
  | 0 => h0 | 1 => h1 | 2 => h2 | 3 => h3 | 4 => h4 | 5 => h5 | 6 => h6
theorem forall_fin8 {P : Fin 8 → Prop} (h0 : P 0) (h1 : P 1) (h2 : P 2) (h3 : P 3) (h4 : P 4) (h5 : P 5) (h6 : P 6) (h7 : P 7) : ∀ w, P w
  | 0 => h0 | 1 => h1 | 2 => h2 | 3 => h3 | 4 => h4 | 5 => h5 | 6 => h6 | 7 => h7

theorem V2_out (c : Dev nD) : V2 m (outs m) c main_v4 = (pdats m 0 c).arrAt 2 cfg0.N := by
  unfold V2; rw [Function.update_self]; exact outs_2 m c

theorem hF0_in (c : Dev nD) (w : Fin cfg0.W) (hin : (cfg0.win w).isOut = false)
    (hne : Pipeline.arrRef spec0 w ∉ ([main_v4] : List (Ref sig .tc))) :
    (pdats m 0 c).arrAt w cfg0.N = atTc (V2 m (outs m)) c (Pipeline.arrRef spec0 w) :=
  ((pdats m 0 c).arrAt_in w hin _).trans
    ((A_eq0 (atTc (V1 m)) c w).trans (V2_of m (outs m) c (Pipeline.arrRef spec0 w) hne).symm)

theorem hF0 (c : Dev nD) : ∀ w : Fin cfg0.W, (pdats m 0 c).arrAt w cfg0.N = atTc (V2 m (outs m)) c (Pipeline.arrRef spec0 w) := by
  refine forall_fin3 ?_ ?_ ?_
  · exact hF0_in m c 0 rfl (by decide)
  · exact hF0_in m c 1 rfl (by decide)
  · exact (V2_out m c).symm

theorem hrest0 (c : Dev nD) (b : Ref sig .tc) (hb : b ∉ Finset.univ.image (Pipeline.arrRef spec0)) :
    atTc (V2 m (outs m)) c b = atTc (V1 m) c b :=
  V2_of m (outs m) c b fun hm => hb (Finset.mem_image.mpr ⟨2, Finset.mem_univ _, (List.mem_singleton.mp hm).symm⟩)

def reg0 : RegionSeg (pcfgs (F := F)) adm (pdats m) () defs₀ 𝒱₀ L lv 0 :=
  regionOf m 0 launch0 (V1 m) (V2 m (outs m)) (fun c => body_obligation0 _ c) (fun _ _ => rfl) (fun _ _ => rfl) (fun _ _ => rfl) (fun _ _ => rfl)
    (fun c w => A_eq0 _ c w) (hF0 m) (hrest0 m)

theorem V60_out0 (c : Dev nD) : V60 m (outs m) c main_v132_0 = (pdats m 1 c).arrAt 2 cfg1.N := by
  unfold V60
  rw [Function.update_of_ne (StableHlo.devRef_ne_of_ne (show (main_v132_0 : Ref sig .tc) ≠ main_v132_1 by decide)), Function.update_self]
  exact outs_60_0 m c
theorem V60_out1 (c : Dev nD) : V60 m (outs m) c main_v132_1 = (pdats m 1 c).arrAt 3 cfg1.N := by
  unfold V60; rw [Function.update_self]; exact outs_60_1 m c

theorem hF1_in (c : Dev nD) (w : Fin cfg1.W) (hin : (cfg1.win w).isOut = false)
    (hne : Pipeline.arrRef spec1 w ∉ ([main_v132_0, main_v132_1] : List (Ref sig .tc))) :
    (pdats m 1 c).arrAt w cfg1.N = atTc (V60 m (outs m)) c (Pipeline.arrRef spec1 w) :=
  ((pdats m 1 c).arrAt_in w hin _).trans
    ((A_eq1 (atTc (V59 m (outs m))) c w).trans (V60_of m (outs m) c (Pipeline.arrRef spec1 w) hne).symm)

theorem hF1 (c : Dev nD) : ∀ w : Fin cfg1.W, (pdats m 1 c).arrAt w cfg1.N = atTc (V60 m (outs m)) c (Pipeline.arrRef spec1 w) := by
  refine forall_fin4 ?_ ?_ ?_ ?_
  · exact hF1_in m c 0 rfl (by decide)
  · exact hF1_in m c 1 rfl (by decide)
  · exact (V60_out0 m c).symm
  · exact (V60_out1 m c).symm

theorem hrest1 (c : Dev nD) (b : Ref sig .tc) (hb : b ∉ Finset.univ.image (Pipeline.arrRef spec1)) :
    atTc (V60 m (outs m)) c b = atTc (V59 m (outs m)) c b :=
  V60_of m (outs m) c b fun hm => hb <| by
    rcases List.mem_cons.mp hm with h | hm
    · exact Finset.mem_image.mpr ⟨2, Finset.mem_univ _, h.symm⟩
    · exact Finset.mem_image.mpr ⟨3, Finset.mem_univ _, (List.mem_singleton.mp hm).symm⟩

def reg1 : RegionSeg (pcfgs (F := F)) adm (pdats m) () defs₀ 𝒱₀ L lv 1 :=
  regionOf m 1 launch1 (V59 m (outs m)) (V60 m (outs m)) (fun c => body_obligation1 _ c) (fun _ _ => rfl) (fun _ _ => rfl) (fun _ _ => rfl) (fun _ _ => rfl)
    (fun c w => A_eq1 _ c w) (hF1 m) (hrest1 m)

theorem V62_out (c : Dev nD) : V62 m (outs m) c main_v145 = (pdats m 2 c).arrAt 6 cfg2.N := by
  unfold V62; rw [Function.update_self]; exact outs_62 m c

theorem hF2_in (c : Dev nD) (w : Fin cfg2.W) (hin : (cfg2.win w).isOut = false)
    (hne : Pipeline.arrRef spec2 w ∉ ([main_v145] : List (Ref sig .tc))) :
    (pdats m 2 c).arrAt w cfg2.N = atTc (V62 m (outs m)) c (Pipeline.arrRef spec2 w) :=
  ((pdats m 2 c).arrAt_in w hin _).trans
    ((A_eq2 (atTc (V61 m (outs m))) c w).trans (V62_of m (outs m) c (Pipeline.arrRef spec2 w) hne).symm)

theorem hF2 (c : Dev nD) : ∀ w : Fin cfg2.W, (pdats m 2 c).arrAt w cfg2.N = atTc (V62 m (outs m)) c (Pipeline.arrRef spec2 w) := by
  refine forall_fin7 ?_ ?_ ?_ ?_ ?_ ?_ ?_
  · exact hF2_in m c 0 rfl (by decide)
  · exact hF2_in m c 1 rfl (by decide)
  · exact hF2_in m c 2 rfl (by decide)
  · exact hF2_in m c 3 rfl (by decide)
  · exact hF2_in m c 4 rfl (by decide)
  · exact hF2_in m c 5 rfl (by decide)
  · exact (V62_out m c).symm

theorem hrest2 (c : Dev nD) (b : Ref sig .tc) (hb : b ∉ Finset.univ.image (Pipeline.arrRef spec2)) :
    atTc (V62 m (outs m)) c b = atTc (V61 m (outs m)) c b :=
  V62_of m (outs m) c b fun hm => hb (Finset.mem_image.mpr ⟨6, Finset.mem_univ _, (List.mem_singleton.mp hm).symm⟩)

def reg2 : RegionSeg (pcfgs (F := F)) adm (pdats m) () defs₀ 𝒱₀ L lv 2 :=
  regionOf m 2 launch2 (V61 m (outs m)) (V62 m (outs m)) (fun c => body_obligation2 _ c) (fun _ _ => rfl) (fun _ _ => rfl) (fun _ _ => rfl) (fun _ _ => rfl)
    (fun c w => A_eq2 _ c w) (hF2 m) (hrest2 m)

theorem V64_out (c : Dev nD) : V64 m (outs m) c main_v150 = (pdats m 3 c).arrAt 2 cfg3.N := by
  unfold V64; rw [Function.update_self]; exact outs_64 m c

theorem hF3_in (c : Dev nD) (w : Fin cfg3.W) (hin : (cfg3.win w).isOut = false)
    (hne : Pipeline.arrRef spec3 w ∉ ([main_v150] : List (Ref sig .tc))) :
    (pdats m 3 c).arrAt w cfg3.N = atTc (V64 m (outs m)) c (Pipeline.arrRef spec3 w) :=
  ((pdats m 3 c).arrAt_in w hin _).trans
    ((A_eq3 (atTc (V63 m (outs m))) c w).trans (V64_of m (outs m) c (Pipeline.arrRef spec3 w) hne).symm)

theorem hF3 (c : Dev nD) : ∀ w : Fin cfg3.W, (pdats m 3 c).arrAt w cfg3.N = atTc (V64 m (outs m)) c (Pipeline.arrRef spec3 w) := by
  refine forall_fin3 ?_ ?_ ?_
  · exact hF3_in m c 0 rfl (by decide)
  · exact hF3_in m c 1 rfl (by decide)
  · exact (V64_out m c).symm

theorem hrest3 (c : Dev nD) (b : Ref sig .tc) (hb : b ∉ Finset.univ.image (Pipeline.arrRef spec3)) :
    atTc (V64 m (outs m)) c b = atTc (V63 m (outs m)) c b :=
  V64_of m (outs m) c b fun hm => hb (Finset.mem_image.mpr ⟨2, Finset.mem_univ _, (List.mem_singleton.mp hm).symm⟩)

def reg3 : RegionSeg (pcfgs (F := F)) adm (pdats m) () defs₀ 𝒱₀ L lv 3 :=
  regionOf m 3 launch3 (V63 m (outs m)) (V64 m (outs m)) (fun c => body_obligation3 _ c) (fun _ _ => rfl) (fun _ _ => rfl) (fun _ _ => rfl) (fun _ _ => rfl)
    (fun c w => A_eq3 _ c w) (hF3 m) (hrest3 m)

theorem V122_out0 (c : Dev nD) : V122 m (outs m) c main_v278_0 = (pdats m 4 c).arrAt 2 cfg4.N := by
  unfold V122
  rw [Function.update_of_ne (StableHlo.devRef_ne_of_ne (show (main_v278_0 : Ref sig .tc) ≠ main_v278_1 by decide)), Function.update_self]
  exact outs_122_0 m c
theorem V122_out1 (c : Dev nD) : V122 m (outs m) c main_v278_1 = (pdats m 4 c).arrAt 3 cfg4.N := by
  unfold V122; rw [Function.update_self]; exact outs_122_1 m c

theorem hF4_in (c : Dev nD) (w : Fin cfg4.W) (hin : (cfg4.win w).isOut = false)
    (hne : Pipeline.arrRef spec4 w ∉ ([main_v278_0, main_v278_1] : List (Ref sig .tc))) :
    (pdats m 4 c).arrAt w cfg4.N = atTc (V122 m (outs m)) c (Pipeline.arrRef spec4 w) :=
  ((pdats m 4 c).arrAt_in w hin _).trans
    ((A_eq4 (atTc (V121 m (outs m))) c w).trans (V122_of m (outs m) c (Pipeline.arrRef spec4 w) hne).symm)

theorem hF4 (c : Dev nD) : ∀ w : Fin cfg4.W, (pdats m 4 c).arrAt w cfg4.N = atTc (V122 m (outs m)) c (Pipeline.arrRef spec4 w) := by
  refine forall_fin4 ?_ ?_ ?_ ?_
  · exact hF4_in m c 0 rfl (by decide)
  · exact hF4_in m c 1 rfl (by decide)
  · exact (V122_out0 m c).symm
  · exact (V122_out1 m c).symm

theorem hrest4 (c : Dev nD) (b : Ref sig .tc) (hb : b ∉ Finset.univ.image (Pipeline.arrRef spec4)) :
    atTc (V122 m (outs m)) c b = atTc (V121 m (outs m)) c b :=
  V122_of m (outs m) c b fun hm => hb <| by
    rcases List.mem_cons.mp hm with h | hm
    · exact Finset.mem_image.mpr ⟨2, Finset.mem_univ _, h.symm⟩
    · exact Finset.mem_image.mpr ⟨3, Finset.mem_univ _, (List.mem_singleton.mp hm).symm⟩

def reg4 : RegionSeg (pcfgs (F := F)) adm (pdats m) () defs₀ 𝒱₀ L lv 4 :=
  regionOf m 4 launch4 (V121 m (outs m)) (V122 m (outs m)) (fun c => body_obligation4 _ c) (fun _ _ => rfl) (fun _ _ => rfl) (fun _ _ => rfl) (fun _ _ => rfl)
    (fun c w => A_eq4 _ c w) (hF4 m) (hrest4 m)

theorem V124_out (c : Dev nD) : V124 m (outs m) c main_v291 = (pdats m 5 c).arrAt 7 cfg5.N := by
  unfold V124; rw [Function.update_self]; exact outs_124 m c

theorem hF5_in (c : Dev nD) (w : Fin cfg5.W) (hin : (cfg5.win w).isOut = false)
    (hne : Pipeline.arrRef spec5 w ∉ ([main_v291] : List (Ref sig .tc))) :
    (pdats m 5 c).arrAt w cfg5.N = atTc (V124 m (outs m)) c (Pipeline.arrRef spec5 w) :=
  ((pdats m 5 c).arrAt_in w hin _).trans
    ((A_eq5 (atTc (V123 m (outs m))) c w).trans (V124_of m (outs m) c (Pipeline.arrRef spec5 w) hne).symm)

theorem hF5 (c : Dev nD) : ∀ w : Fin cfg5.W, (pdats m 5 c).arrAt w cfg5.N = atTc (V124 m (outs m)) c (Pipeline.arrRef spec5 w) := by
  refine forall_fin8 ?_ ?_ ?_ ?_ ?_ ?_ ?_ ?_
  · exact hF5_in m c 0 rfl (by decide)
  · exact hF5_in m c 1 rfl (by decide)
  · exact hF5_in m c 2 rfl (by decide)
  · exact hF5_in m c 3 rfl (by decide)
  · exact hF5_in m c 4 rfl (by decide)
  · exact hF5_in m c 5 rfl (by decide)
  · exact hF5_in m c 6 rfl (by decide)
  · exact (V124_out m c).symm

theorem hrest5 (c : Dev nD) (b : Ref sig .tc) (hb : b ∉ Finset.univ.image (Pipeline.arrRef spec5)) :
    atTc (V124 m (outs m)) c b = atTc (V123 m (outs m)) c b :=
  V124_of m (outs m) c b fun hm => hb (Finset.mem_image.mpr ⟨7, Finset.mem_univ _, (List.mem_singleton.mp hm).symm⟩)

def reg5 : RegionSeg (pcfgs (F := F)) adm (pdats m) () defs₀ 𝒱₀ L lv 5 :=
  regionOf m 5 launch5 (V123 m (outs m)) (V124 m (outs m)) (fun c => body_obligation5 _ c) (fun _ _ => rfl) (fun _ _ => rfl) (fun _ _ => rfl) (fun _ _ => rfl)
    (fun c w => A_eq5 _ c w) (hF5 m) (hrest5 m)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : E (F := F) 6 c ⊢ (iprop(∃ W, owes (c : Thread nD τ) (0 : CellTallies nD τ sig Unit) W) : sProp 𝕄) := by
  iintro ⟨-, HO⟩; iexact HO

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () 𝒱₀ L lv (fun _ _ => rfl) ρ (outs m) (pdats m) 0 (fun _ => iprop(emp)) _ (hu₀ (F := F)) E (hE0 ρ) hE6
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

set_option backward.isDefEq.respectTransparency.types false in
theorem run_value (ρ : Dev nD → PrngReg) : θ_run defs (onTc (τ := τ) (main (F := F))) ⟨m, fun _ => 0, ρ⟩ (fun r => ∀ c : Dev nD,
      r.2.mem ((c.tc : Thread nD τ).loc main_v291) = outs m 124 main_v291 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m))
    (fun c Q => by
      rewrite [Seg.run_eq_chain, show main (F := F) c = Pipeline.chain ((segs m (outs m) 𝒱₀ L lv E () (pdats m) (reg0 m) (reg1 m) (reg2 m) (reg3 m) (reg4 m) (reg5 m) c).map Seg.prog) from main_chain c]
      with_reducible exact .rfl)
    (fun c => by simp only [segs, Seg.pipes_host, Seg.pipes_region, Seg.pipes_nil]; decide) 0 (fun _ _ => rfl) (fun _ => iprop(emp)) _ (hu₀ (F := F))
    (T₀ := fun c => iprop(StableHlo.held (c : Thread nD τ) (Pipeline.ucRefs τ sig) (V0 m c) ∗ E 0 c))
    (Tₙ := fun c => StableHlo.held (c : Thread nD τ) (Pipeline.ucRefs τ sig) (V124 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE6 c)⟩)
    (hinit := ?_) (QY := fun c s => s.mem ((c.tc : Thread nD τ).loc main_v291) = outs m 124 main_v291 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 ρ $$ [Hr Hla] with HE
    · isplitl [Hr]; · iexact Hr
      iexact Hla
    imodintro
    rw [bigSep_sep' _ _ (E (F := F) 0)]
    isplitl [Hh]; · iexact Hh
    iexact HE
  · unfold StableHlo.held
    iintro ⟨Hh, HSI⟩
    ihave Hr := (pointsTo_read_all (Pipeline.ucRefs τ sig) (fun b => ((c : Thread nD τ).1, b)) (V124 m (outs m) c) s') $$ [Hh HSI]
    · isplitl [Hh] <;> iassumption
    icases Hr with ⟨%h, HSI⟩
    imodintro
    isplitr
    · ipureintro
      have rd := fun (r : Ref sig .tc) hr => h (Proc.devRef .tc r) (Finset.mem_filter.mpr ⟨StableHlo.devRef_mem_tcRefs r, hr⟩)
      exact ⟨(rd main_v291 (by decide)).trans (Function.update_self _ _ _), (rd main_arg0 (by decide)).trans (V124_main_arg0 m (outs m) c), (rd main_arg1 (by decide)).trans (V124_main_arg1 m (outs m) c), (rd main_arg2 (by decide)).trans (V124_main_arg2 m (outs m) c), (rd main_arg3 (by decide)).trans (V124_main_arg3 m (outs m) c),
        (rd main_arg4 (by decide)).trans (V124_main_arg4 m (outs m) c), (rd main_arg5 (by decide)).trans (V124_main_arg5 m (outs m) c), (rd main_arg6 (by decide)).trans (V124_main_arg6 m (outs m) c), (rd main_arg7 (by decide)).trans (V124_main_arg7 m (outs m) c),
        (rd main_arg8 (by decide)).trans (V124_main_arg8 m (outs m) c), (rd main_arg9 (by decide)).trans (V124_main_arg9 m (outs m) c)⟩
    · iexact HSI

end Cert.KernelIdeal.Run

end
-- ==== Proof.SpecK.lean ====
import Idealize.ShloMosaic.PureOps.Ideal

noncomputable section

namespace Cert.SpecK

open Idealize.ShloMosaic

abbrev S100000x64 : Shape := ⟨2, ![100000, 64]⟩
abbrev S27x64x64 : Shape := ⟨3, ![27, 64, 64]⟩
abbrev S64 : Shape := ⟨1, ![64]⟩
abbrev S27x100000 : Shape := ⟨2, ![27, 100000]⟩
abbrev S100000 : Shape := ⟨1, ![100000]⟩
abbrev S64x27x64 : Shape := ⟨3, ![64, 27, 64]⟩
abbrev S64x1728 : Shape := ⟨2, ![64, 1728]⟩
abbrev S100000x1728 : Shape := ⟨2, ![100000, 1728]⟩
abbrev S1x100000 : Shape := ⟨2, ![1, 100000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S1600000x64 : Shape := ⟨2, ![1600000, 64]⟩
abbrev S1100000x64 : Shape := ⟨2, ![1100000, 64]⟩
abbrev S2700000x64 : Shape := ⟨2, ![2700000, 64]⟩
abbrev S2700000 : Shape := ⟨1, ![2700000]⟩
abbrev S2700000x1 : Shape := ⟨2, ![2700000, 1]⟩
abbrev S1x8 : Shape := ⟨2, ![1, 8]⟩
abbrev S100000x8 : Shape := ⟨2, ![100000, 8]⟩
abbrev S8 : Shape := ⟨1, ![8]⟩
abbrev S8x64 : Shape := ⟨2, ![8, 64]⟩
abbrev S8x1 : Shape := ⟨2, ![8, 1]⟩
abbrev S1x64 : Shape := ⟨2, ![1, 64]⟩

theorem bitsLt_bf16_f32 : FTy.bits .bf16 < FTy.bits .f32 := by decide
theorem transposes_W : S27x64x64.Transposes [1, 0, 2] S64x27x64 := by decide
theorem shapeCasts_W : S64x27x64.ShapeCasts S64x1728 := by decide
theorem shapeCasts_row : S1x100000.ShapeCasts S100000 := by decide
theorem shapeCasts_flat : S27x100000.ShapeCasts S2700000 := by decide
theorem shapeCasts_S64_S1x64 : S64.ShapeCasts S1x64 := by decide
theorem bcast_S_S100000 : S_.BroadcastsInDim S100000 (![] : Fin 0 → Fin S100000.rank) := by decide
theorem bcast_S_S2700000 : S_.BroadcastsInDim S2700000 (![] : Fin 0 → Fin S2700000.rank) := by decide
theorem bcast_S_S100000x1 : S_.BroadcastsInDim S100000x1 (![] : Fin 0 → Fin S100000x1.rank) := by decide
theorem bcast_S_S100000x64 : S_.BroadcastsInDim S100000x64 (![] : Fin 0 → Fin S100000x64.rank) := by decide
theorem bcast_S_S8 : S_.BroadcastsInDim S8 (![] : Fin 0 → Fin S8.rank) := by decide
theorem bcast_S_S8x64 : S_.BroadcastsInDim S8x64 (![] : Fin 0 → Fin S8x64.rank) := by decide
theorem bcast_S100000_S100000x1_0 : S100000.BroadcastsInDim S100000x1 (![0] : Fin 1 → Fin S100000x1.rank) := by decide
theorem bcast_S2700000_S2700000x1_0 : S2700000.BroadcastsInDim S2700000x1 (![0] : Fin 1 → Fin S2700000x1.rank) := by decide
theorem bcast_S1_S1x1_1 : S1.BroadcastsInDim S1x1 (![1] : Fin 1 → Fin S1x1.rank) := by decide
theorem bcast_S1x1_S100000x1_0_1 : S1x1.BroadcastsInDim S100000x1 (![0, 1] : Fin 2 → Fin S100000x1.rank) := by decide
theorem bcast_S100000_S100000x64_0 : S100000.BroadcastsInDim S100000x64 (![0] : Fin 1 → Fin S100000x64.rank) := by decide
theorem bcast_S100000x1_S100000x8_0_1 : S100000x1.BroadcastsInDim S100000x8 (![0, 1] : Fin 2 → Fin S100000x8.rank) := by decide
theorem bcast_S1x8_S100000x8_0_1 : S1x8.BroadcastsInDim S100000x8 (![0, 1] : Fin 2 → Fin S100000x8.rank) := by decide
theorem bcast_S8_S8x1_0 : S8.BroadcastsInDim S8x1 (![0] : Fin 1 → Fin S8x1.rank) := by decide
theorem bcast_S8x1_S8x64_0_1 : S8x1.BroadcastsInDim S8x64 (![0, 1] : Fin 2 → Fin S8x64.rank) := by decide
theorem reducesTo_S100000x1_S100000_d1 : S100000x1.ReducesTo [1] S100000 := by decide
theorem h_S_ : 0 < S_.numel := by decide
theorem concat16 : Shape.Concatenates [S100000x64, S100000x64, S100000x64, S100000x64, S100000x64, S100000x64, S100000x64, S100000x64, S100000x64, S100000x64, S100000x64, S100000x64, S100000x64, S100000x64, S100000x64, S100000x64] S1600000x64 0 := by decide
theorem concat11 : Shape.Concatenates [S100000x64, S100000x64, S100000x64, S100000x64, S100000x64, S100000x64, S100000x64, S100000x64, S100000x64, S100000x64, S100000x64] S1100000x64 0 := by decide
theorem concat2 : Shape.Concatenates [S1600000x64, S1100000x64] S2700000x64 0 := by decide

theorem slicesP (k : Fin 27) : S100000x1728.Slices ![0, 64 * k.val] S100000x64 :=
  ⟨rfl, fun a => by
    match a with
    | ⟨0, _⟩ => exact Nat.le_refl _
    | ⟨1, _⟩ => show 64 * k.val + 64 ≤ 1728; have := k.isLt; omega⟩

theorem slicesMap (k : Fin 27) : S27x100000.Slices ![k.val, 0] S1x100000 :=
  ⟨rfl, fun a => by
    match a with
    | ⟨0, _⟩ => show k.val + 1 ≤ 27; have := k.isLt; omega
    | ⟨1, _⟩ => exact Nat.le_refl _⟩

def gatherRows : GatherDims S100000x64 S100000x1 S100000x64 where
  offsetDims := [1]
  collapsedSliceDims := [0]
  operandBatchingDims := []
  startIndicesBatchingDims := []
  startIndexMap := [0]
  indexVectorDim := 1
  sliceSizes := ![1, 64]
  wf := by decide

def scatterRows : ScatterDims S100000x64 S2700000x1 S2700000x64 where
  updateWindowDims := [1]
  insertedWindowDims := [0]
  scatterDimsToOperandDims := [0]
  indexVectorDim := 1
  wf := by decide

def scatterCount : ScatterDims S8 S100000x1 S100000 where
  updateWindowDims := []
  insertedWindowDims := [0]
  scatterDimsToOperandDims := [0]
  indexVectorDim := 1
  wf := by decide

variable {F : FTy → Type} [FloatOps F]

def wrapRow (i : IVec S100000 32) : IVec S100000 32 :=
  select (cmpi .slt i (broadcastInDim S100000 ![] bcast_S_S100000 (constantI S_ 32 0#32)))
    (addi i (broadcastInDim S100000 ![] bcast_S_S100000 (constantI S_ 32 100000#32))) i

def rowIdx (i : IVec S100000 32) : IVec S100000x1 32 :=
  broadcastInDim S100000x1 ![0] bcast_S100000_S100000x1_0 (wrapRow i)

def rowOk (i : IVec S100000 32) : IVec S100000 1 :=
  Host.reduce IntOp.andi
    (andi (cmpi .sge (rowIdx i) (broadcastInDim S100000x1 ![] bcast_S_S100000x1 (constantI S_ 32 0#32)))
      (cmpi .sle (rowIdx i) (broadcastInDim S100000x1 ![0, 1] bcast_S1x1_S100000x1_0_1
        (broadcastInDim S1x1 ![1] bcast_S1_S1x1_1 (constantI S1 32 99999#32)))))
    (constantI S_ 1 1#1) reducesTo_S100000x1_S100000_d1 h_S_

def takeRows (x : FVec F S100000x64 .f32) (i : IVec S100000 32) : FVec F S100000x64 .f32 :=
  select (broadcastInDim S100000x64 ![0] bcast_S100000_S100000x64_0 (rowOk i))
    (Host.gather gatherRows x (rowIdx i))
    (broadcastInDim S100000x64 ![] bcast_S_S100000x64 (constant S_ .f32 0x7FC00000#32))

def piece (P : FVec F S100000x1728 .f32) (im : IVec S27x100000 32) (k : Fin 27) : FVec F S100000x64 .f32 :=
  takeRows (extractStridedSlice S100000x64 ![0, 64 * k.val] P (slicesP k))
    (shapeCast S100000 (extractStridedSlice S1x100000 ![k.val, 0] im (slicesMap k)) shapeCasts_row)

def stack (p : Fin 27 → FVec F S100000x64 .f32) : FVec F S2700000x64 .f32 :=
  concatenate S2700000x64 0
    [⟨S1600000x64, concatenate S1600000x64 0 [⟨S100000x64, p 0⟩, ⟨S100000x64, p 1⟩, ⟨S100000x64, p 2⟩, ⟨S100000x64, p 3⟩, ⟨S100000x64, p 4⟩, ⟨S100000x64, p 5⟩, ⟨S100000x64, p 6⟩, ⟨S100000x64, p 7⟩, ⟨S100000x64, p 8⟩, ⟨S100000x64, p 9⟩, ⟨S100000x64, p 10⟩, ⟨S100000x64, p 11⟩, ⟨S100000x64, p 12⟩, ⟨S100000x64, p 13⟩, ⟨S100000x64, p 14⟩, ⟨S100000x64, p 15⟩] concat16⟩,
     ⟨S1100000x64, concatenate S1100000x64 0 [⟨S100000x64, p 16⟩, ⟨S100000x64, p 17⟩, ⟨S100000x64, p 18⟩, ⟨S100000x64, p 19⟩, ⟨S100000x64, p 20⟩, ⟨S100000x64, p 21⟩, ⟨S100000x64, p 22⟩, ⟨S100000x64, p 23⟩, ⟨S100000x64, p 24⟩, ⟨S100000x64, p 25⟩, ⟨S100000x64, p 26⟩] concat11⟩] concat2

def pieces (P : FVec F S100000x1728 .f32) (im : IVec S27x100000 32) : FVec F S2700000x64 .f32 :=
  stack (piece P im)

def wrapFlat (i : IVec S2700000 32) : IVec S2700000 32 :=
  select (cmpi .slt i (broadcastInDim S2700000 ![] bcast_S_S2700000 (constantI S_ 32 0#32)))
    (addi i (broadcastInDim S2700000 ![] bcast_S_S2700000 (constantI S_ 32 100000#32))) i

def targetIdx (om : IVec S27x100000 32) : IVec S2700000x1 32 :=
  broadcastInDim S2700000x1 ![0] bcast_S2700000_S2700000x1_0 (wrapFlat (shapeCast S2700000 om shapeCasts_flat))

def scatterTo (om : IVec S27x100000 32) (u : FVec F S2700000x64 .f32) : FVec F S100000x64 .f32 :=
  Host.scatterAdd scatterRows (broadcastInDim S100000x64 ![] bcast_S_S100000x64 (constant S_ .f32 0x00000000#32))
    (targetIdx om) u

def convK (P : FVec F S100000x1728 .f32) (im om : IVec S27x100000 32) : FVec F S100000x64 .f32 :=
  scatterTo om (pieces P im)

def oneHot (b : IVec S100000 32) : FVec F S100000x8 .bf16 :=
  uitofp .bf16 (cmpi .eq
    (broadcastInDim S100000x8 ![0, 1] bcast_S100000x1_S100000x8_0_1 (broadcastInDim S100000x1 ![0] bcast_S100000_S100000x1_0 b))
    (broadcastInDim S100000x8 ![0, 1] bcast_S1x8_S100000x8_0_1 (iotaInDim S1x8 32 1)))

def counts (b : IVec S100000 32) : FVec F S8 .f32 :=
  maximumf
    (Host.scatterAdd scatterCount (broadcastInDim S8 ![] bcast_S_S8 (constant S_ .f32 0x00000000#32))
      (broadcastInDim S100000x1 ![0] bcast_S100000_S100000x1_0 b)
      (broadcastInDim S100000 ![] bcast_S_S100000 (constant S_ .f32 0x3F800000#32)))
    (broadcastInDim S8 ![] bcast_S_S8 (constant S_ .f32 0x3F800000#32))

def perBatch (n : FVec F S8 .f32) : FVec F S8x64 .f32 :=
  broadcastInDim S8x64 ![0, 1] bcast_S8x1_S8x64_0_1 (broadcastInDim S8x1 ![0] bcast_S8_S8x1_0 n)

def meanK (s : FVec F S8x64 .f32) (n : FVec F S8 .f32) : FVec F S8x64 .f32 := Host.divf s (perBatch n)

def varK (s q : FVec F S8x64 .f32) (n : FVec F S8 .f32) : FVec F S8x64 .f32 :=
  maximumf (subf (Host.divf q (perBatch n)) (mulf (meanK s n) (meanK s n)))
    (broadcastInDim S8x64 ![] bcast_S_S8x64 (constant S_ .f32 0x00000000#32))

def asRow (g : FVec F S64 .f32) : FVec F S1x64 .f32 := shapeCast S1x64 g shapeCasts_S64_S1x64

def wideW (W : FVec F S27x64x64 .f32) : FVec F S64x1728 .bf16 :=
  truncf .bf16 (shapeCast S64x1728 (transpose S64x27x64 [1, 0, 2] W transposes_W) shapeCasts_W) bitsLt_bf16_f32

structure Regions (F : FTy → Type) where

  gemmG : FVec F S100000x64 .bf16 → FVec F S64x1728 .bf16 → FVec F S100000x1728 .f32

  statsSumG : FVec F S100000x64 .f32 → FVec F S100000x8 .bf16 → FVec F S8x64 .f32

  statsSqG : FVec F S100000x64 .f32 → FVec F S100000x8 .bf16 → FVec F S8x64 .f32

  applyG : FVec F S100000x64 .f32 → FVec F S100000x8 .bf16 → FVec F S8x64 .f32 → FVec F S8x64 .f32 →
    FVec F S1x64 .f32 → FVec F S1x64 .f32 → FVec F S100000x64 .f32

  applyResG : FVec F S100000x64 .f32 → FVec F S100000x8 .bf16 → FVec F S8x64 .f32 → FVec F S8x64 .f32 →
    FVec F S1x64 .f32 → FVec F S1x64 .f32 → FVec F S100000x64 .f32 → FVec F S100000x64 .f32

variable (R : Regions F)

def convLayer (x : FVec F S100000x64 .f32) (W : FVec F S27x64x64 .f32) (im om : IVec S27x100000 32) :
    FVec F S100000x64 .f32 :=
  convK (R.gemmG (truncf .bf16 x bitsLt_bf16_f32) (wideW W)) im om

def meanOf (y : FVec F S100000x64 .f32) (b : IVec S100000 32) : FVec F S8x64 .f32 :=
  meanK (R.statsSumG y (oneHot b)) (counts b)

def varOf (y : FVec F S100000x64 .f32) (b : IVec S100000 32) : FVec F S8x64 .f32 :=
  varK (R.statsSumG y (oneHot b)) (R.statsSqG y (oneHot b)) (counts b)

def normK (y : FVec F S100000x64 .f32) (b : IVec S100000 32) (g β : FVec F S64 .f32) : FVec F S100000x64 .f32 :=
  R.applyG y (oneHot b) (meanOf R y b) (varOf R y b) (asRow g) (asRow β)

def normResK (y : FVec F S100000x64 .f32) (b : IVec S100000 32) (g β : FVec F S64 .f32)
    (res : FVec F S100000x64 .f32) : FVec F S100000x64 .f32 :=
  R.applyResG y (oneHot b) (meanOf R y b) (varOf R y b) (asRow g) (asRow β) res

def kerG (feats : FVec F S100000x64 .f32) (W1 : FVec F S27x64x64 .f32) (g1 b1 : FVec F S64 .f32)
    (W2 : FVec F S27x64x64 .f32) (g2 b2 : FVec F S64 .f32) (im om : IVec S27x100000 32) (bi : IVec S100000 32) :
    FVec F S100000x64 .f32 :=
  normResK R (convLayer R (normK R (convLayer R feats W1 im om) bi g1 b1) W2 im om) bi g2 b2 feats

end Cert.SpecK
-- ==== Proof.KerHostOps.lean ====
import proofs.«404940_j85761906966882_2_alg».proof.Proof.Gen.KernelIdeal.Launch
import proofs.«404940_j85761906966882_2_alg».proof.Proof.SpecK
import Idealize.ShloMosaic.Lib.StableHlo.Run

set_option maxRecDepth 6752

noncomputable section

namespace Cert.KernelIdeal.Host

open Idealize.ShloMosaic Idealize.ShloMosaic.TcCoe Cert.KernelIdeal Cert.KernelIdeal.Gen

theorem v0_eq (V : Valuation τ sig (Elt Ideal)) :
    StableHlo.after (hostOps0 (F := Ideal)) V main_v0
      = truncf (F := Ideal) (s := SpecK.S100000x64) (φ := .f32) .bf16 (V main_arg0) SpecK.bitsLt_bf16_f32 := by
  after_results

theorem v3_eq (V : Valuation τ sig (Elt Ideal)) :
    StableHlo.after (hostOps0 (F := Ideal)) V main_v3 = SpecK.wideW (F := Ideal) (V main_arg1) := by
  after_results; rfl

theorem v146_eq (V : Valuation τ sig (Elt Ideal)) :
    StableHlo.after (hostOps3 (F := Ideal)) V main_v146
      = truncf (F := Ideal) (s := SpecK.S100000x64) (φ := .f32) .bf16 (V main_v145) SpecK.bitsLt_bf16_f32 := by
  after_results

theorem v149_eq (V : Valuation τ sig (Elt Ideal)) :
    StableHlo.after (hostOps3 (F := Ideal)) V main_v149 = SpecK.wideW (F := Ideal) (V main_arg4) := by
  after_results; rfl

end Cert.KernelIdeal.Host
-- ==== Proof.KerHostStatsA.lean ====
import proofs.«404940_j85761906966882_2_alg».proof.Proof.Gen.KernelIdeal.Launch
import proofs.«404940_j85761906966882_2_alg».proof.Proof.SpecK
import Idealize.ShloMosaic.Lib.StableHlo.Run

set_option maxRecDepth 6752

noncomputable section

namespace Cert.KernelIdeal.Host

open Idealize.ShloMosaic Idealize.ShloMosaic.TcCoe Cert.KernelIdeal Cert.KernelIdeal.Gen

theorem v125_eq (V : Valuation τ sig (Elt Ideal)) :
    StableHlo.after (hostOps1_55 (F := Ideal)) V main_v125 = SpecK.oneHot (F := Ideal) (V main_arg9) := by
  after_results_simp <;> (try simp only [StableHlo.TRef.ofBuf, StableHlo.TRef.toBuf, cast_eq]) <;> rfl

theorem v131_eq (V : Valuation τ sig (Elt Ideal)) :
    StableHlo.after (hostOps1_56 (F := Ideal)) V main_v131 = SpecK.counts (F := Ideal) (V main_arg9) := by
  after_results; rfl

theorem v135_eq (V : Valuation τ sig (Elt Ideal)) :
    StableHlo.after (hostOps2 (F := Ideal)) V main_v135 = SpecK.meanK (F := Ideal) (V main_v132_0) (V main_v131) := by
  after_results; rfl

theorem v142_eq (V : Valuation τ sig (Elt Ideal)) :
    StableHlo.after (hostOps2 (F := Ideal)) V main_v142
      = SpecK.varK (F := Ideal) (V main_v132_0) (V main_v132_1) (V main_v131) := by
  after_results; rfl

theorem v143_eq (V : Valuation τ sig (Elt Ideal)) :
    StableHlo.after (hostOps2 (F := Ideal)) V main_v143 = SpecK.asRow (F := Ideal) (V main_arg2) := by
  after_results; rfl

theorem v144_eq (V : Valuation τ sig (Elt Ideal)) :
    StableHlo.after (hostOps2 (F := Ideal)) V main_v144 = SpecK.asRow (F := Ideal) (V main_arg3) := by
  after_results; rfl

end Cert.KernelIdeal.Host
-- ==== Proof.KerHostStatsB.lean ====
import proofs.«404940_j85761906966882_2_alg».proof.Proof.Gen.KernelIdeal.Launch
import proofs.«404940_j85761906966882_2_alg».proof.Proof.SpecK
import Idealize.ShloMosaic.Lib.StableHlo.Run

set_option maxRecDepth 6752

noncomputable section

namespace Cert.KernelIdeal.Host

open Idealize.ShloMosaic Idealize.ShloMosaic.TcCoe Cert.KernelIdeal Cert.KernelIdeal.Gen

theorem v271_eq (V : Valuation τ sig (Elt Ideal)) :
    StableHlo.after (hostOps4_55 (F := Ideal)) V main_v271 = SpecK.oneHot (F := Ideal) (V main_arg9) := by
  after_results_simp <;> (try simp only [StableHlo.TRef.ofBuf, StableHlo.TRef.toBuf, cast_eq]) <;> rfl

theorem v277_eq (V : Valuation τ sig (Elt Ideal)) :
    StableHlo.after (hostOps4_56 (F := Ideal)) V main_v277 = SpecK.counts (F := Ideal) (V main_arg9) := by
  after_results; rfl

theorem v281_eq (V : Valuation τ sig (Elt Ideal)) :
    StableHlo.after (hostOps5 (F := Ideal)) V main_v281 = SpecK.meanK (F := Ideal) (V main_v278_0) (V main_v277) := by
  after_results; rfl

theorem v288_eq (V : Valuation τ sig (Elt Ideal)) :
    StableHlo.after (hostOps5 (F := Ideal)) V main_v288
      = SpecK.varK (F := Ideal) (V main_v278_0) (V main_v278_1) (V main_v277) := by
  after_results; rfl

theorem v289_eq (V : Valuation τ sig (Elt Ideal)) :
    StableHlo.after (hostOps5 (F := Ideal)) V main_v289 = SpecK.asRow (F := Ideal) (V main_arg5) := by
  after_results; rfl

theorem v290_eq (V : Valuation τ sig (Elt Ideal)) :
    StableHlo.after (hostOps5 (F := Ideal)) V main_v290 = SpecK.asRow (F := Ideal) (V main_arg6) := by
  after_results; rfl

end Cert.KernelIdeal.Host
-- ==== Proof.KerHostTake.lean ====
import proofs.«404940_j85761906966882_2_alg».proof.Proof.Gen.KernelIdeal.Launch
import proofs.«404940_j85761906966882_2_alg».proof.Proof.SpecK
import Idealize.ShloMosaic.Lib.StableHlo.Run

noncomputable section

namespace Cert.KernelIdeal.Host

open Idealize.ShloMosaic Idealize.ShloMosaic.StableHlo Idealize.ShloMosaic.TcCoe Cert.KernelIdeal Cert.KernelIdeal.Gen

variable {F : FTy → Type} [FloatOps F]
variable (x : TRef sig ⟨S100000x64, .f32⟩) (i : TRef sig ⟨S100000, .i32⟩) (φ : fn_take.Bufs)
  (P : TRef sig ⟨S100000x1728, .f32⟩) (M : TRef sig ⟨S27x100000, .i32⟩) (r : TRef sig ⟨S1x100000, .i32⟩) (k : Fin 27)

/-- The row-taking function's operations over the buffers of any one call: rows of `x` by the entries of `i`. -/
def takeOps : List (HloOp τ sig (Elt F)) :=
  [ TRef.nullary φ.c (constantI S_ 32 0#32),
    TRef.unary φ.c φ.v0 (broadcastInDim S100000 ![] bcast_S_S100000),
    TRef.binary i φ.v0 φ.v1 (cmpi .slt),
    TRef.nullary φ.c_0 (constantI S_ 32 100000#32),
    TRef.unary φ.c_0 φ.v2 (broadcastInDim S100000 ![] bcast_S_S100000),
    TRef.binary i φ.v2 φ.v3 addi,
    TRef.ternary φ.v1 φ.v3 i φ.call0.v0 select,
    TRef.unary φ.call0.v0 φ.v5 (broadcastInDim S100000x1 ![0] bcast_S100000_S100000x1_0),
    TRef.nullary φ.c_1 (constantI S1 32 99999#32),
    TRef.nullary φ.c_2 (constantI S_ 32 0#32),
    TRef.unary φ.c_2 φ.v6 (broadcastInDim S100000x1 ![] bcast_S_S100000x1),
    TRef.binary φ.v5 φ.v6 φ.v7 (cmpi .sge),
    TRef.unary φ.c_1 φ.v8 (broadcastInDim S1x1 ![1] bcast_S1_S1x1_1),
    TRef.unary φ.v8 φ.v9 (broadcastInDim S100000x1 ![0, 1] bcast_S1x1_S100000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S100000x1_S100000_d1 h_S_),
    TRef.binary x φ.v5 φ.v13 (fun x i => Host.gather gather_S100000x64_S100000x1_S100000x64_1_0_n_n_0_1_164 x i),
    TRef.unary φ.v12 φ.v14 (broadcastInDim S100000x64 ![0] bcast_S100000_S100000x64_0),
    TRef.nullary φ.cst (constant S_ .f32 0x7FC00000#32),
    TRef.unary φ.cst φ.v15 (broadcastInDim S100000x64 ![] bcast_S_S100000x64),
    TRef.ternary φ.v14 φ.v13 φ.v15 φ.v16 select ]

/-- The buffers one call writes, in the order it writes them. -/
def takeBufs : List (Ref sig .tc) :=
  [φ.c.ref, φ.v0.ref, φ.v1.ref, φ.c_0.ref, φ.v2.ref, φ.v3.ref, φ.call0.v0.ref, φ.v5.ref, φ.c_1.ref, φ.c_2.ref,
  φ.v6.ref, φ.v7.ref, φ.v8.ref, φ.v9.ref, φ.v10.ref, φ.v11.ref, φ.c_3.ref, φ.v12.ref, φ.v13.ref, φ.v14.ref,
  φ.cst.ref, φ.v15.ref, φ.v16.ref]

/-- The two cuts before call k: column block k of the product into `x`; row k of the map, flattened, into `i`. -/
def cutOps : List (HloOp τ sig (Elt F)) :=
  [ TRef.unary P x (extractStridedSlice S100000x64 ![0, 64 * k.val] · (SpecK.slicesP k)),
    TRef.unary M r (extractStridedSlice S1x100000 ![k.val, 0] · (SpecK.slicesMap k)),
    TRef.reshape r i rfl SpecK.shapeCasts_row ]

/-- A reshape's result read at its value's type is the operand reshaped. -/
theorem reshape_ofBuf {Val : EltTy → Type} {Tx Ty : BufTy} (x : TRef sig Tx) (y : TRef sig Ty) (he hn)
    (W : Valuation τ sig Val) :
    y.ofBuf ((TRef.reshape (τ := τ) x y he hn).result W y.ref)
      = fun j => he ▸ shapeCast Ty.shape (x.ofBuf (W x.ref)) hn j := by
  obtain ⟨xr, rfl, _, _⟩ := x; obtain ⟨yr, rfl, _, _⟩ := y; exact reshape_result ..

/-- Each operation writes a buffer of its own, so each operand is read as left: the 23 composed are `takeRows`. -/
theorem after_takeOps (hd : (x.ref :: i.ref :: takeBufs φ).Nodup) (V : Valuation τ sig (Elt F)) :
    φ.v16.ofBuf (after (takeOps x i φ) V φ.v16.ref) = SpecK.takeRows (x.ofBuf (V x.ref)) (i.ofBuf (V i.ref)) := by
  simp only [takeBufs, List.nodup_cons, List.mem_cons, List.not_mem_nil, or_false, not_or, List.nodup_nil,
    and_true] at hd
  unfold takeOps
  simp only [after_cons, after_nil, nullary_result', unary_result', binary_result', ternary_result',
    nullary_result_ne', unary_result_ne', binary_result_ne', ternary_result_ne', ne_eq, hd, not_false_eq_true,
    cast_cast, cast_eq]
  rfl

/-- The cuts hand call k column block k of `p` and row k of `im`, so what it leaves is piece k of them. -/
theorem after_cut_take (hd : (P.ref :: M.ref :: x.ref :: r.ref :: i.ref :: takeBufs φ).Nodup)
    (V : Valuation τ sig (Elt F)) {p : FVec F SpecK.S100000x1728 .f32} {im : IVec SpecK.S27x100000 32}
    (hp : HEq (V P.ref) p) (hm : HEq (V M.ref) im) :
    HEq (after (takeOps x i φ) (after (cutOps (F := F) x i P M r k) V) φ.v16.ref) (SpecK.piece p im k) := by
  obtain rfl := eq_of_heq ((cast_heq _ _).trans hp : HEq (P.ofBuf (V P.ref)) p)
  obtain rfl := eq_of_heq ((cast_heq _ _).trans hm : HEq (M.ofBuf (V M.ref)) im)
  refine cast_eq_iff_heq.mp
    ((after_takeOps x i φ (hd.sublist (.cons _ (.cons _ (.cons₂ _ (.cons _ (.refl _)))))) _).trans ?_)
  simp only [takeBufs, List.nodup_cons, List.mem_cons, List.not_mem_nil, or_false, not_or, List.nodup_nil,
    and_true] at hd
  unfold cutOps SpecK.piece
  simp only [after_cons, after_nil]
  rw [reshape_ofBuf]
  simp only [unary_result', unary_result_ne', reshape_result_ne', ne_eq, hd, not_false_eq_true, cast_cast, cast_eq]

/-- The 27 entries of a family, listed and stacked, are the family stacked. -/
theorem stack_vec (q : Fin 27 → FVec F SpecK.S100000x64 .f32) :
    SpecK.stack ![q 0, q 1, q 2, q 3, q 4, q 5, q 6, q 7, q 8, q 9, q 10, q 11, q 12, q 13, q 14, q 15, q 16, q 17, q 18,
      q 19, q 20, q 21, q 22, q 23, q 24, q 25, q 26]
      = SpecK.stack q := rfl

end Cert.KernelIdeal.Host
-- ==== Proof.KerHostScatterA.lean ====
import proofs.«404940_j85761906966882_2_alg».proof.Proof.Gen.KernelIdeal.Launch
import proofs.«404940_j85761906966882_2_alg».proof.Proof.SpecK
import Idealize.ShloMosaic.Lib.StableHlo.Run

set_option maxRecDepth 6752

noncomputable section

namespace Cert.KernelIdeal.Host

open Idealize.ShloMosaic Idealize.ShloMosaic.TcCoe Cert.KernelIdeal Cert.KernelIdeal.Gen

theorem v124_eq (V : Valuation τ sig (Elt Ideal)) :
    StableHlo.after (hostOps1_54 (F := Ideal)) V main_v124
      = SpecK.scatterTo (F := Ideal) (V main_arg8)
          (SpecK.stack ![V main_v8, V main_v12, V main_v16, V main_v20, V main_v24, V main_v28, V main_v32, V main_v36, V main_v40, V main_v44, V main_v48, V main_v52, V main_v56, V main_v60, V main_v64, V main_v68, V main_v72, V main_v76, V main_v80, V main_v84, V main_v88, V main_v92, V main_v96, V main_v100, V main_v104, V main_v108, V main_v112]) := by
  after_results_simp
  rw [StableHlo.nary_result_ne (r := main_v113)]; rotate_left; decide
  rw [StableHlo.nary_result, StableHlo.nary_result]
  beta_reduce
  repeat (rw [StableHlo.nary_result_ne]; rotate_left; decide)
  rfl

end Cert.KernelIdeal.Host
-- ==== Proof.KerHostHopsA.lean ====
import proofs.«404940_j85761906966882_2_alg».proof.Proof.RegionsP

noncomputable section

namespace Cert.KernelIdeal.Host

open Idealize.ShloMosaic Idealize.ShloMosaic.TcCoe Cert.KernelIdeal Cert.KernelIdeal.Gen

variable {F : FTy → Type} [FloatOps F]

/-- One stage of the program: a map of buffer contents that leaves every buffer outside `W` as it was. -/
structure Step (F : FTy → Type) where
  f : Valuation τ sig (Elt F) → Valuation τ sig (Elt F)
  W : List (Ref sig .tc)
  keep : ∀ V (r : Ref sig .tc), r ∉ W → f V r = V r

def Step.ops {ops : List (HloOp τ sig (Elt F))} {W : List (Ref sig .tc)}
    (h : ops.Forall fun op => op.writes ⊆ (W.map (Proc.devRef (τ := τ) .tc)).toFinset) : Step F :=
  ⟨StableHlo.after ops, W, fun V _ => StableHlo.after_of_writes_sub ops V h⟩

def Step.upd (b : Ref sig .tc) (x : (Proc.devRef (τ := τ) .tc b).ty.Contents (Elt F)) : Step F :=
  ⟨fun V => Function.update V b x, [b], fun V _ h =>
    Function.update_of_ne (StableHlo.devRef_ne_of_ne (List.ne_of_not_mem_cons h)) x V⟩

def Step.next : Step F → Step F → Step F
  | ⟨f, W, k⟩, ⟨g, X, l⟩ => ⟨fun V => g (f V), W ++ X, fun V r h =>
    (l _ r fun h' => h (List.mem_append_right _ h')).trans (k V r fun h' => h (List.mem_append_left _ h'))⟩

/-- The contents after a list of stages, the latest stage first. -/
@[reducible] def Step.run (V₀ : Valuation τ sig (Elt F)) : List (Step F) → Valuation τ sig (Elt F)
  | [] => V₀
  | ⟨f, _, _⟩ :: l => f (Step.run V₀ l)

theorem Step.run_keep {V₀ : Valuation τ sig (Elt F)} {r : Ref sig .tc} :
    ∀ {l : List (Step F)}, (∀ s ∈ l, r ∉ s.W) → Step.run V₀ l r = V₀ r
  | [], _ => rfl
  | ⟨_, _, k⟩ :: _, h =>
    (k _ r (h _ List.mem_cons_self)).trans (Step.run_keep fun s hs => h s (List.mem_cons_of_mem _ hs))

variable (m : (ℓ : Loc nD τ sig) → Buf (Elt F) ℓ) (outs : Outs (F := F))

/-- The stages of the program in order: stage `k` leads from `V(k-1)` to `Vk`. -/
def steps (c : Dev nD) : List (Step F) := [
  .ops hostOps0_writes, .upd main_v4 (outs 2 main_v4 c), .ops hostOps1_writes, .ops hostOps1_1_writes,
  .ops hostOps1_2_writes, .ops hostOps1_3_writes, .ops hostOps1_4_writes, .ops hostOps1_5_writes,
  .ops hostOps1_6_writes, .ops hostOps1_7_writes, .ops hostOps1_8_writes, .ops hostOps1_9_writes,
  .ops hostOps1_10_writes, .ops hostOps1_11_writes, .ops hostOps1_12_writes, .ops hostOps1_13_writes,
  .ops hostOps1_14_writes, .ops hostOps1_15_writes, .ops hostOps1_16_writes, .ops hostOps1_17_writes,
  .ops hostOps1_18_writes, .ops hostOps1_19_writes, .ops hostOps1_20_writes, .ops hostOps1_21_writes,
  .ops hostOps1_22_writes, .ops hostOps1_23_writes, .ops hostOps1_24_writes, .ops hostOps1_25_writes,
  .ops hostOps1_26_writes, .ops hostOps1_27_writes, .ops hostOps1_28_writes, .ops hostOps1_29_writes,
  .ops hostOps1_30_writes, .ops hostOps1_31_writes, .ops hostOps1_32_writes, .ops hostOps1_33_writes,
  .ops hostOps1_34_writes, .ops hostOps1_35_writes, .ops hostOps1_36_writes, .ops hostOps1_37_writes,
  .ops hostOps1_38_writes, .ops hostOps1_39_writes, .ops hostOps1_40_writes, .ops hostOps1_41_writes,
  .ops hostOps1_42_writes, .ops hostOps1_43_writes, .ops hostOps1_44_writes, .ops hostOps1_45_writes,
  .ops hostOps1_46_writes, .ops hostOps1_47_writes, .ops hostOps1_48_writes, .ops hostOps1_49_writes,
  .ops hostOps1_50_writes, .ops hostOps1_51_writes, .ops hostOps1_52_writes, .ops hostOps1_53_writes,
  .ops hostOps1_54_writes, .ops hostOps1_55_writes, .ops hostOps1_56_writes,
  .next (.upd main_v132_0 (outs 60 main_v132_0 c)) (.upd main_v132_1 (outs 60 main_v132_1 c)),
  .ops hostOps2_writes, .upd main_v145 (outs 62 main_v145 c), .ops hostOps3_writes,
  .upd main_v150 (outs 64 main_v150 c), .ops hostOps4_writes, .ops hostOps4_1_writes, .ops hostOps4_2_writes,
  .ops hostOps4_3_writes, .ops hostOps4_4_writes, .ops hostOps4_5_writes, .ops hostOps4_6_writes,
  .ops hostOps4_7_writes, .ops hostOps4_8_writes, .ops hostOps4_9_writes, .ops hostOps4_10_writes,
  .ops hostOps4_11_writes, .ops hostOps4_12_writes, .ops hostOps4_13_writes, .ops hostOps4_14_writes,
  .ops hostOps4_15_writes, .ops hostOps4_16_writes, .ops hostOps4_17_writes, .ops hostOps4_18_writes,
  .ops hostOps4_19_writes, .ops hostOps4_20_writes, .ops hostOps4_21_writes, .ops hostOps4_22_writes,
  .ops hostOps4_23_writes, .ops hostOps4_24_writes, .ops hostOps4_25_writes, .ops hostOps4_26_writes,
  .ops hostOps4_27_writes, .ops hostOps4_28_writes, .ops hostOps4_29_writes, .ops hostOps4_30_writes,
  .ops hostOps4_31_writes, .ops hostOps4_32_writes, .ops hostOps4_33_writes, .ops hostOps4_34_writes,
  .ops hostOps4_35_writes, .ops hostOps4_36_writes, .ops hostOps4_37_writes, .ops hostOps4_38_writes,
  .ops hostOps4_39_writes, .ops hostOps4_40_writes, .ops hostOps4_41_writes, .ops hostOps4_42_writes,
  .ops hostOps4_43_writes, .ops hostOps4_44_writes, .ops hostOps4_45_writes, .ops hostOps4_46_writes,
  .ops hostOps4_47_writes, .ops hostOps4_48_writes, .ops hostOps4_49_writes, .ops hostOps4_50_writes,
  .ops hostOps4_51_writes, .ops hostOps4_52_writes, .ops hostOps4_53_writes, .ops hostOps4_54_writes,
  .ops hostOps4_55_writes, .ops hostOps4_56_writes,
  .next (.upd main_v278_0 (outs 122 main_v278_0 c)) (.upd main_v278_1 (outs 122 main_v278_1 c)),
  .ops hostOps5_writes]

/-- What each stage may write. -/
def foot : List (List (Ref sig .tc)) := [
  hostOps0_W, [main_v4], hostOps1_W, hostOps1_1_W, hostOps1_2_W, hostOps1_3_W, hostOps1_4_W, hostOps1_5_W,
  hostOps1_6_W, hostOps1_7_W, hostOps1_8_W, hostOps1_9_W, hostOps1_10_W, hostOps1_11_W, hostOps1_12_W,
  hostOps1_13_W, hostOps1_14_W, hostOps1_15_W, hostOps1_16_W, hostOps1_17_W, hostOps1_18_W, hostOps1_19_W,
  hostOps1_20_W, hostOps1_21_W, hostOps1_22_W, hostOps1_23_W, hostOps1_24_W, hostOps1_25_W, hostOps1_26_W,
  hostOps1_27_W, hostOps1_28_W, hostOps1_29_W, hostOps1_30_W, hostOps1_31_W, hostOps1_32_W, hostOps1_33_W,
  hostOps1_34_W, hostOps1_35_W, hostOps1_36_W, hostOps1_37_W, hostOps1_38_W, hostOps1_39_W, hostOps1_40_W,
  hostOps1_41_W, hostOps1_42_W, hostOps1_43_W, hostOps1_44_W, hostOps1_45_W, hostOps1_46_W, hostOps1_47_W,
  hostOps1_48_W, hostOps1_49_W, hostOps1_50_W, hostOps1_51_W, hostOps1_52_W, hostOps1_53_W, hostOps1_54_W,
  hostOps1_55_W, hostOps1_56_W, [main_v132_0, main_v132_1], hostOps2_W, [main_v145], hostOps3_W, [main_v150],
  hostOps4_W, hostOps4_1_W, hostOps4_2_W, hostOps4_3_W, hostOps4_4_W, hostOps4_5_W, hostOps4_6_W, hostOps4_7_W,
  hostOps4_8_W, hostOps4_9_W, hostOps4_10_W, hostOps4_11_W, hostOps4_12_W, hostOps4_13_W, hostOps4_14_W,
  hostOps4_15_W, hostOps4_16_W, hostOps4_17_W, hostOps4_18_W, hostOps4_19_W, hostOps4_20_W, hostOps4_21_W,
  hostOps4_22_W, hostOps4_23_W, hostOps4_24_W, hostOps4_25_W, hostOps4_26_W, hostOps4_27_W, hostOps4_28_W,
  hostOps4_29_W, hostOps4_30_W, hostOps4_31_W, hostOps4_32_W, hostOps4_33_W, hostOps4_34_W, hostOps4_35_W,
  hostOps4_36_W, hostOps4_37_W, hostOps4_38_W, hostOps4_39_W, hostOps4_40_W, hostOps4_41_W, hostOps4_42_W,
  hostOps4_43_W, hostOps4_44_W, hostOps4_45_W, hostOps4_46_W, hostOps4_47_W, hostOps4_48_W, hostOps4_49_W,
  hostOps4_50_W, hostOps4_51_W, hostOps4_52_W, hostOps4_53_W, hostOps4_54_W, hostOps4_55_W, hostOps4_56_W,
  [main_v278_0, main_v278_1], hostOps5_W]

theorem steps_W (c : Dev nD) : (steps outs c).map Step.W = foot := rfl

/-- A buffer that none of the stages `i+1 … j` may write holds after them what it held before them. -/
theorem hop (c : Dev nD) (V₀ : Valuation τ sig (Elt F)) (i j : ℕ) (r : Ref sig .tc)
    (h : ∀ W ∈ (foot.take j).drop i, r ∉ W) :
    Step.run V₀ (((steps outs c).take j).drop i).reverse r = V₀ r :=
  Step.run_keep fun s hs => h s.W (by
    rw [← steps_W outs c, ← List.map_take, ← List.map_drop]
    exact List.mem_map_of_mem (List.mem_reverse.mp hs))

/-- An argument that none of the first `k` stages may write still holds its initial contents after them. -/
theorem hop0 (c : Dev nD) (k : ℕ) (r : Ref sig .tc) (h : ∀ W ∈ foot.take k, r ∉ W) :
    Step.run (V0 m c) ((steps outs c).take k).reverse r = m ((c : Thread nD τ).loc r) :=
  hop outs c (V0 m c) 0 k r h

theorem prodA_at00 (c : Dev nD) : V2 m outs c main_v4 = outs 2 main_v4 c :=
  Function.update_self ..

/-- The wide product stays what its region left while no stage writes it. -/
theorem prodA (c : Dev nD) (k : ℕ) (h : ∀ W ∈ (foot.take k).drop 2, main_v4 ∉ W) :
    Step.run (V2 m outs c) (((steps outs c).take k).drop 2).reverse main_v4 = outs 2 main_v4 c :=
  (hop outs c (V2 m outs c) 2 k main_v4 h).trans (prodA_at00 m outs c)

theorem imA_at00 (c : Dev nD) : V2 m outs c main_arg7 = m ((c : Thread nD τ).loc main_arg7) :=
  hop0 m outs c 2 main_arg7 (by decide)

theorem pieceA_keep00 (c : Dev nD) : V56 m outs c main_v8 = V4 m outs c main_v8 :=
  hop outs c (V4 m outs c) 4 56 main_v8 (by decide)

theorem prodA_at01 (c : Dev nD) : V4 m outs c main_v4 = outs 2 main_v4 c :=
  prodA m outs c 4 (by decide)

theorem imA_at01 (c : Dev nD) : V4 m outs c main_arg7 = m ((c : Thread nD τ).loc main_arg7) :=
  hop0 m outs c 4 main_arg7 (by decide)

theorem pieceA_keep01 (c : Dev nD) : V56 m outs c main_v12 = V6 m outs c main_v12 :=
  hop outs c (V6 m outs c) 6 56 main_v12 (by decide)

theorem prodA_at02 (c : Dev nD) : V6 m outs c main_v4 = outs 2 main_v4 c :=
  prodA m outs c 6 (by decide)

theorem imA_at02 (c : Dev nD) : V6 m outs c main_arg7 = m ((c : Thread nD τ).loc main_arg7) :=
  hop0 m outs c 6 main_arg7 (by decide)

theorem pieceA_keep02 (c : Dev nD) : V56 m outs c main_v16 = V8 m outs c main_v16 :=
  hop outs c (V8 m outs c) 8 56 main_v16 (by decide)

theorem prodA_at03 (c : Dev nD) : V8 m outs c main_v4 = outs 2 main_v4 c :=
  prodA m outs c 8 (by decide)

theorem imA_at03 (c : Dev nD) : V8 m outs c main_arg7 = m ((c : Thread nD τ).loc main_arg7) :=
  hop0 m outs c 8 main_arg7 (by decide)

theorem pieceA_keep03 (c : Dev nD) : V56 m outs c main_v20 = V10 m outs c main_v20 :=
  hop outs c (V10 m outs c) 10 56 main_v20 (by decide)

theorem prodA_at04 (c : Dev nD) : V10 m outs c main_v4 = outs 2 main_v4 c :=
  prodA m outs c 10 (by decide)

theorem imA_at04 (c : Dev nD) : V10 m outs c main_arg7 = m ((c : Thread nD τ).loc main_arg7) :=
  hop0 m outs c 10 main_arg7 (by decide)

theorem pieceA_keep04 (c : Dev nD) : V56 m outs c main_v24 = V12 m outs c main_v24 :=
  hop outs c (V12 m outs c) 12 56 main_v24 (by decide)

theorem prodA_at05 (c : Dev nD) : V12 m outs c main_v4 = outs 2 main_v4 c :=
  prodA m outs c 12 (by decide)

theorem imA_at05 (c : Dev nD) : V12 m outs c main_arg7 = m ((c : Thread nD τ).loc main_arg7) :=
  hop0 m outs c 12 main_arg7 (by decide)

theorem pieceA_keep05 (c : Dev nD) : V56 m outs c main_v28 = V14 m outs c main_v28 :=
  hop outs c (V14 m outs c) 14 56 main_v28 (by decide)

theorem prodA_at06 (c : Dev nD) : V14 m outs c main_v4 = outs 2 main_v4 c :=
  prodA m outs c 14 (by decide)

theorem imA_at06 (c : Dev nD) : V14 m outs c main_arg7 = m ((c : Thread nD τ).loc main_arg7) :=
  hop0 m outs c 14 main_arg7 (by decide)

theorem pieceA_keep06 (c : Dev nD) : V56 m outs c main_v32 = V16 m outs c main_v32 :=
  hop outs c (V16 m outs c) 16 56 main_v32 (by decide)

theorem prodA_at07 (c : Dev nD) : V16 m outs c main_v4 = outs 2 main_v4 c :=
  prodA m outs c 16 (by decide)

theorem imA_at07 (c : Dev nD) : V16 m outs c main_arg7 = m ((c : Thread nD τ).loc main_arg7) :=
  hop0 m outs c 16 main_arg7 (by decide)

theorem pieceA_keep07 (c : Dev nD) : V56 m outs c main_v36 = V18 m outs c main_v36 :=
  hop outs c (V18 m outs c) 18 56 main_v36 (by decide)

theorem prodA_at08 (c : Dev nD) : V18 m outs c main_v4 = outs 2 main_v4 c :=
  prodA m outs c 18 (by decide)

theorem imA_at08 (c : Dev nD) : V18 m outs c main_arg7 = m ((c : Thread nD τ).loc main_arg7) :=
  hop0 m outs c 18 main_arg7 (by decide)

theorem pieceA_keep08 (c : Dev nD) : V56 m outs c main_v40 = V20 m outs c main_v40 :=
  hop outs c (V20 m outs c) 20 56 main_v40 (by decide)

theorem prodA_at09 (c : Dev nD) : V20 m outs c main_v4 = outs 2 main_v4 c :=
  prodA m outs c 20 (by decide)

theorem imA_at09 (c : Dev nD) : V20 m outs c main_arg7 = m ((c : Thread nD τ).loc main_arg7) :=
  hop0 m outs c 20 main_arg7 (by decide)

theorem pieceA_keep09 (c : Dev nD) : V56 m outs c main_v44 = V22 m outs c main_v44 :=
  hop outs c (V22 m outs c) 22 56 main_v44 (by decide)

theorem prodA_at10 (c : Dev nD) : V22 m outs c main_v4 = outs 2 main_v4 c :=
  prodA m outs c 22 (by decide)

theorem imA_at10 (c : Dev nD) : V22 m outs c main_arg7 = m ((c : Thread nD τ).loc main_arg7) :=
  hop0 m outs c 22 main_arg7 (by decide)

theorem pieceA_keep10 (c : Dev nD) : V56 m outs c main_v48 = V24 m outs c main_v48 :=
  hop outs c (V24 m outs c) 24 56 main_v48 (by decide)

theorem prodA_at11 (c : Dev nD) : V24 m outs c main_v4 = outs 2 main_v4 c :=
  prodA m outs c 24 (by decide)

theorem imA_at11 (c : Dev nD) : V24 m outs c main_arg7 = m ((c : Thread nD τ).loc main_arg7) :=
  hop0 m outs c 24 main_arg7 (by decide)

theorem pieceA_keep11 (c : Dev nD) : V56 m outs c main_v52 = V26 m outs c main_v52 :=
  hop outs c (V26 m outs c) 26 56 main_v52 (by decide)

theorem prodA_at12 (c : Dev nD) : V26 m outs c main_v4 = outs 2 main_v4 c :=
  prodA m outs c 26 (by decide)

theorem imA_at12 (c : Dev nD) : V26 m outs c main_arg7 = m ((c : Thread nD τ).loc main_arg7) :=
  hop0 m outs c 26 main_arg7 (by decide)

theorem pieceA_keep12 (c : Dev nD) : V56 m outs c main_v56 = V28 m outs c main_v56 :=
  hop outs c (V28 m outs c) 28 56 main_v56 (by decide)

theorem prodA_at13 (c : Dev nD) : V28 m outs c main_v4 = outs 2 main_v4 c :=
  prodA m outs c 28 (by decide)

theorem imA_at13 (c : Dev nD) : V28 m outs c main_arg7 = m ((c : Thread nD τ).loc main_arg7) :=
  hop0 m outs c 28 main_arg7 (by decide)

theorem pieceA_keep13 (c : Dev nD) : V56 m outs c main_v60 = V30 m outs c main_v60 :=
  hop outs c (V30 m outs c) 30 56 main_v60 (by decide)

theorem prodA_at14 (c : Dev nD) : V30 m outs c main_v4 = outs 2 main_v4 c :=
  prodA m outs c 30 (by decide)

theorem imA_at14 (c : Dev nD) : V30 m outs c main_arg7 = m ((c : Thread nD τ).loc main_arg7) :=
  hop0 m outs c 30 main_arg7 (by decide)

theorem pieceA_keep14 (c : Dev nD) : V56 m outs c main_v64 = V32 m outs c main_v64 :=
  hop outs c (V32 m outs c) 32 56 main_v64 (by decide)

theorem prodA_at15 (c : Dev nD) : V32 m outs c main_v4 = outs 2 main_v4 c :=
  prodA m outs c 32 (by decide)

theorem imA_at15 (c : Dev nD) : V32 m outs c main_arg7 = m ((c : Thread nD τ).loc main_arg7) :=
  hop0 m outs c 32 main_arg7 (by decide)

theorem pieceA_keep15 (c : Dev nD) : V56 m outs c main_v68 = V34 m outs c main_v68 :=
  hop outs c (V34 m outs c) 34 56 main_v68 (by decide)

theorem prodA_at16 (c : Dev nD) : V34 m outs c main_v4 = outs 2 main_v4 c :=
  prodA m outs c 34 (by decide)

theorem imA_at16 (c : Dev nD) : V34 m outs c main_arg7 = m ((c : Thread nD τ).loc main_arg7) :=
  hop0 m outs c 34 main_arg7 (by decide)

theorem pieceA_keep16 (c : Dev nD) : V56 m outs c main_v72 = V36 m outs c main_v72 :=
  hop outs c (V36 m outs c) 36 56 main_v72 (by decide)

theorem prodA_at17 (c : Dev nD) : V36 m outs c main_v4 = outs 2 main_v4 c :=
  prodA m outs c 36 (by decide)

theorem imA_at17 (c : Dev nD) : V36 m outs c main_arg7 = m ((c : Thread nD τ).loc main_arg7) :=
  hop0 m outs c 36 main_arg7 (by decide)

theorem pieceA_keep17 (c : Dev nD) : V56 m outs c main_v76 = V38 m outs c main_v76 :=
  hop outs c (V38 m outs c) 38 56 main_v76 (by decide)

theorem prodA_at18 (c : Dev nD) : V38 m outs c main_v4 = outs 2 main_v4 c :=
  prodA m outs c 38 (by decide)

theorem imA_at18 (c : Dev nD) : V38 m outs c main_arg7 = m ((c : Thread nD τ).loc main_arg7) :=
  hop0 m outs c 38 main_arg7 (by decide)

theorem pieceA_keep18 (c : Dev nD) : V56 m outs c main_v80 = V40 m outs c main_v80 :=
  hop outs c (V40 m outs c) 40 56 main_v80 (by decide)

theorem prodA_at19 (c : Dev nD) : V40 m outs c main_v4 = outs 2 main_v4 c :=
  prodA m outs c 40 (by decide)

theorem imA_at19 (c : Dev nD) : V40 m outs c main_arg7 = m ((c : Thread nD τ).loc main_arg7) :=
  hop0 m outs c 40 main_arg7 (by decide)

theorem pieceA_keep19 (c : Dev nD) : V56 m outs c main_v84 = V42 m outs c main_v84 :=
  hop outs c (V42 m outs c) 42 56 main_v84 (by decide)

theorem prodA_at20 (c : Dev nD) : V42 m outs c main_v4 = outs 2 main_v4 c :=
  prodA m outs c 42 (by decide)

theorem imA_at20 (c : Dev nD) : V42 m outs c main_arg7 = m ((c : Thread nD τ).loc main_arg7) :=
  hop0 m outs c 42 main_arg7 (by decide)

theorem pieceA_keep20 (c : Dev nD) : V56 m outs c main_v88 = V44 m outs c main_v88 :=
  hop outs c (V44 m outs c) 44 56 main_v88 (by decide)

theorem prodA_at21 (c : Dev nD) : V44 m outs c main_v4 = outs 2 main_v4 c :=
  prodA m outs c 44 (by decide)

theorem imA_at21 (c : Dev nD) : V44 m outs c main_arg7 = m ((c : Thread nD τ).loc main_arg7) :=
  hop0 m outs c 44 main_arg7 (by decide)

theorem pieceA_keep21 (c : Dev nD) : V56 m outs c main_v92 = V46 m outs c main_v92 :=
  hop outs c (V46 m outs c) 46 56 main_v92 (by decide)

theorem prodA_at22 (c : Dev nD) : V46 m outs c main_v4 = outs 2 main_v4 c :=
  prodA m outs c 46 (by decide)

theorem imA_at22 (c : Dev nD) : V46 m outs c main_arg7 = m ((c : Thread nD τ).loc main_arg7) :=
  hop0 m outs c 46 main_arg7 (by decide)

theorem pieceA_keep22 (c : Dev nD) : V56 m outs c main_v96 = V48 m outs c main_v96 :=
  hop outs c (V48 m outs c) 48 56 main_v96 (by decide)

theorem prodA_at23 (c : Dev nD) : V48 m outs c main_v4 = outs 2 main_v4 c :=
  prodA m outs c 48 (by decide)

theorem imA_at23 (c : Dev nD) : V48 m outs c main_arg7 = m ((c : Thread nD τ).loc main_arg7) :=
  hop0 m outs c 48 main_arg7 (by decide)

theorem pieceA_keep23 (c : Dev nD) : V56 m outs c main_v100 = V50 m outs c main_v100 :=
  hop outs c (V50 m outs c) 50 56 main_v100 (by decide)

theorem prodA_at24 (c : Dev nD) : V50 m outs c main_v4 = outs 2 main_v4 c :=
  prodA m outs c 50 (by decide)

theorem imA_at24 (c : Dev nD) : V50 m outs c main_arg7 = m ((c : Thread nD τ).loc main_arg7) :=
  hop0 m outs c 50 main_arg7 (by decide)

theorem pieceA_keep24 (c : Dev nD) : V56 m outs c main_v104 = V52 m outs c main_v104 :=
  hop outs c (V52 m outs c) 52 56 main_v104 (by decide)

theorem prodA_at25 (c : Dev nD) : V52 m outs c main_v4 = outs 2 main_v4 c :=
  prodA m outs c 52 (by decide)

theorem imA_at25 (c : Dev nD) : V52 m outs c main_arg7 = m ((c : Thread nD τ).loc main_arg7) :=
  hop0 m outs c 52 main_arg7 (by decide)

theorem pieceA_keep25 (c : Dev nD) : V56 m outs c main_v108 = V54 m outs c main_v108 :=
  hop outs c (V54 m outs c) 54 56 main_v108 (by decide)

theorem prodA_at26 (c : Dev nD) : V54 m outs c main_v4 = outs 2 main_v4 c :=
  prodA m outs c 54 (by decide)

theorem imA_at26 (c : Dev nD) : V54 m outs c main_arg7 = m ((c : Thread nD τ).loc main_arg7) :=
  hop0 m outs c 54 main_arg7 (by decide)

theorem pieceA_keep26 (c : Dev nD) : V56 m outs c main_v112 = V56 m outs c main_v112 :=
  rfl

theorem omA_at (c : Dev nD) : V56 m outs c main_arg8 = m ((c : Thread nD τ).loc main_arg8) :=
  hop0 m outs c 56 main_arg8 (by decide)

end Cert.KernelIdeal.Host
-- ==== Proof.KerHostConvA.lean ====
import proofs.«404940_j85761906966882_2_alg».proof.Proof.RegionsP
import proofs.«404940_j85761906966882_2_alg».proof.Proof.KerHostTake
import proofs.«404940_j85761906966882_2_alg».proof.Proof.KerHostScatterA
import proofs.«404940_j85761906966882_2_alg».proof.Proof.KerHostHopsA

noncomputable section

namespace Cert.KernelIdeal.Host

open Idealize.ShloMosaic Idealize.ShloMosaic.TcCoe Cert.KernelIdeal Cert.KernelIdeal.Gen

variable (m : (ℓ : Loc nD τ sig) → Buf (Elt Ideal) ℓ) (outs : Outs (F := Ideal))

theorem pieceA_at00 (c : Dev nD) : V56 m outs c main_v8
    = SpecK.piece (F := Ideal) (outs 2 main_v4 c) (m ((c : Thread nD τ).loc main_arg7)) 0 :=
  (pieceA_keep00 m outs c).trans <| eq_of_heq (after_cut_take (.of main_v5) (.of main_v7) main_call0 (.of main_v4)
    (.of main_arg7) (.of main_v6) 0 (by decide) (V2 m outs c) (heq_of_eq (prodA_at00 m outs c))
    (heq_of_eq (imA_at00 m outs c)) :)

theorem pieceA_at01 (c : Dev nD) : V56 m outs c main_v12
    = SpecK.piece (F := Ideal) (outs 2 main_v4 c) (m ((c : Thread nD τ).loc main_arg7)) 1 :=
  (pieceA_keep01 m outs c).trans <| eq_of_heq (after_cut_take (.of main_v9) (.of main_v11) main_call1 (.of main_v4)
    (.of main_arg7) (.of main_v10) 1 (by decide) (V4 m outs c) (heq_of_eq (prodA_at01 m outs c))
    (heq_of_eq (imA_at01 m outs c)) :)

theorem pieceA_at02 (c : Dev nD) : V56 m outs c main_v16
    = SpecK.piece (F := Ideal) (outs 2 main_v4 c) (m ((c : Thread nD τ).loc main_arg7)) 2 :=
  (pieceA_keep02 m outs c).trans <| eq_of_heq (after_cut_take (.of main_v13) (.of main_v15) main_call2 (.of main_v4)
    (.of main_arg7) (.of main_v14) 2 (by decide) (V6 m outs c) (heq_of_eq (prodA_at02 m outs c))
    (heq_of_eq (imA_at02 m outs c)) :)

theorem pieceA_at03 (c : Dev nD) : V56 m outs c main_v20
    = SpecK.piece (F := Ideal) (outs 2 main_v4 c) (m ((c : Thread nD τ).loc main_arg7)) 3 :=
  (pieceA_keep03 m outs c).trans <| eq_of_heq (after_cut_take (.of main_v17) (.of main_v19) main_call3 (.of main_v4)
    (.of main_arg7) (.of main_v18) 3 (by decide) (V8 m outs c) (heq_of_eq (prodA_at03 m outs c))
    (heq_of_eq (imA_at03 m outs c)) :)

theorem pieceA_at04 (c : Dev nD) : V56 m outs c main_v24
    = SpecK.piece (F := Ideal) (outs 2 main_v4 c) (m ((c : Thread nD τ).loc main_arg7)) 4 :=
  (pieceA_keep04 m outs c).trans <| eq_of_heq (after_cut_take (.of main_v21) (.of main_v23) main_call4 (.of main_v4)
    (.of main_arg7) (.of main_v22) 4 (by decide) (V10 m outs c) (heq_of_eq (prodA_at04 m outs c))
    (heq_of_eq (imA_at04 m outs c)) :)

theorem pieceA_at05 (c : Dev nD) : V56 m outs c main_v28
    = SpecK.piece (F := Ideal) (outs 2 main_v4 c) (m ((c : Thread nD τ).loc main_arg7)) 5 :=
  (pieceA_keep05 m outs c).trans <| eq_of_heq (after_cut_take (.of main_v25) (.of main_v27) main_call5 (.of main_v4)
    (.of main_arg7) (.of main_v26) 5 (by decide) (V12 m outs c) (heq_of_eq (prodA_at05 m outs c))
    (heq_of_eq (imA_at05 m outs c)) :)

theorem pieceA_at06 (c : Dev nD) : V56 m outs c main_v32
    = SpecK.piece (F := Ideal) (outs 2 main_v4 c) (m ((c : Thread nD τ).loc main_arg7)) 6 :=
  (pieceA_keep06 m outs c).trans <| eq_of_heq (after_cut_take (.of main_v29) (.of main_v31) main_call6 (.of main_v4)
    (.of main_arg7) (.of main_v30) 6 (by decide) (V14 m outs c) (heq_of_eq (prodA_at06 m outs c))
    (heq_of_eq (imA_at06 m outs c)) :)

theorem pieceA_at07 (c : Dev nD) : V56 m outs c main_v36
    = SpecK.piece (F := Ideal) (outs 2 main_v4 c) (m ((c : Thread nD τ).loc main_arg7)) 7 :=
  (pieceA_keep07 m outs c).trans <| eq_of_heq (after_cut_take (.of main_v33) (.of main_v35) main_call7 (.of main_v4)
    (.of main_arg7) (.of main_v34) 7 (by decide) (V16 m outs c) (heq_of_eq (prodA_at07 m outs c))
    (heq_of_eq (imA_at07 m outs c)) :)

theorem pieceA_at08 (c : Dev nD) : V56 m outs c main_v40
    = SpecK.piece (F := Ideal) (outs 2 main_v4 c) (m ((c : Thread nD τ).loc main_arg7)) 8 :=
  (pieceA_keep08 m outs c).trans <| eq_of_heq (after_cut_take (.of main_v37) (.of main_v39) main_call8 (.of main_v4)
    (.of main_arg7) (.of main_v38) 8 (by decide) (V18 m outs c) (heq_of_eq (prodA_at08 m outs c))
    (heq_of_eq (imA_at08 m outs c)) :)

theorem pieceA_at09 (c : Dev nD) : V56 m outs c main_v44
    = SpecK.piece (F := Ideal) (outs 2 main_v4 c) (m ((c : Thread nD τ).loc main_arg7)) 9 :=
  (pieceA_keep09 m outs c).trans <| eq_of_heq (after_cut_take (.of main_v41) (.of main_v43) main_call9 (.of main_v4)
    (.of main_arg7) (.of main_v42) 9 (by decide) (V20 m outs c) (heq_of_eq (prodA_at09 m outs c))
    (heq_of_eq (imA_at09 m outs c)) :)

theorem pieceA_at10 (c : Dev nD) : V56 m outs c main_v48
    = SpecK.piece (F := Ideal) (outs 2 main_v4 c) (m ((c : Thread nD τ).loc main_arg7)) 10 :=
  (pieceA_keep10 m outs c).trans <| eq_of_heq (after_cut_take (.of main_v45) (.of main_v47) main_call10 (.of main_v4)
    (.of main_arg7) (.of main_v46) 10 (by decide) (V22 m outs c) (heq_of_eq (prodA_at10 m outs c))
    (heq_of_eq (imA_at10 m outs c)) :)

theorem pieceA_at11 (c : Dev nD) : V56 m outs c main_v52
    = SpecK.piece (F := Ideal) (outs 2 main_v4 c) (m ((c : Thread nD τ).loc main_arg7)) 11 :=
  (pieceA_keep11 m outs c).trans <| eq_of_heq (after_cut_take (.of main_v49) (.of main_v51) main_call11 (.of main_v4)
    (.of main_arg7) (.of main_v50) 11 (by decide) (V24 m outs c) (heq_of_eq (prodA_at11 m outs c))
    (heq_of_eq (imA_at11 m outs c)) :)

theorem pieceA_at12 (c : Dev nD) : V56 m outs c main_v56
    = SpecK.piece (F := Ideal) (outs 2 main_v4 c) (m ((c : Thread nD τ).loc main_arg7)) 12 :=
  (pieceA_keep12 m outs c).trans <| eq_of_heq (after_cut_take (.of main_v53) (.of main_v55) main_call12 (.of main_v4)
    (.of main_arg7) (.of main_v54) 12 (by decide) (V26 m outs c) (heq_of_eq (prodA_at12 m outs c))
    (heq_of_eq (imA_at12 m outs c)) :)

theorem pieceA_at13 (c : Dev nD) : V56 m outs c main_v60
    = SpecK.piece (F := Ideal) (outs 2 main_v4 c) (m ((c : Thread nD τ).loc main_arg7)) 13 :=
  (pieceA_keep13 m outs c).trans <| eq_of_heq (after_cut_take (.of main_v57) (.of main_v59) main_call13 (.of main_v4)
    (.of main_arg7) (.of main_v58) 13 (by decide) (V28 m outs c) (heq_of_eq (prodA_at13 m outs c))
    (heq_of_eq (imA_at13 m outs c)) :)

theorem pieceA_at14 (c : Dev nD) : V56 m outs c main_v64
    = SpecK.piece (F := Ideal) (outs 2 main_v4 c) (m ((c : Thread nD τ).loc main_arg7)) 14 :=
  (pieceA_keep14 m outs c).trans <| eq_of_heq (after_cut_take (.of main_v61) (.of main_v63) main_call14 (.of main_v4)
    (.of main_arg7) (.of main_v62) 14 (by decide) (V30 m outs c) (heq_of_eq (prodA_at14 m outs c))
    (heq_of_eq (imA_at14 m outs c)) :)

theorem pieceA_at15 (c : Dev nD) : V56 m outs c main_v68
    = SpecK.piece (F := Ideal) (outs 2 main_v4 c) (m ((c : Thread nD τ).loc main_arg7)) 15 :=
  (pieceA_keep15 m outs c).trans <| eq_of_heq (after_cut_take (.of main_v65) (.of main_v67) main_call15 (.of main_v4)
    (.of main_arg7) (.of main_v66) 15 (by decide) (V32 m outs c) (heq_of_eq (prodA_at15 m outs c))
    (heq_of_eq (imA_at15 m outs c)) :)

theorem pieceA_at16 (c : Dev nD) : V56 m outs c main_v72
    = SpecK.piece (F := Ideal) (outs 2 main_v4 c) (m ((c : Thread nD τ).loc main_arg7)) 16 :=
  (pieceA_keep16 m outs c).trans <| eq_of_heq (after_cut_take (.of main_v69) (.of main_v71) main_call16 (.of main_v4)
    (.of main_arg7) (.of main_v70) 16 (by decide) (V34 m outs c) (heq_of_eq (prodA_at16 m outs c))
    (heq_of_eq (imA_at16 m outs c)) :)

theorem pieceA_at17 (c : Dev nD) : V56 m outs c main_v76
    = SpecK.piece (F := Ideal) (outs 2 main_v4 c) (m ((c : Thread nD τ).loc main_arg7)) 17 :=
  (pieceA_keep17 m outs c).trans <| eq_of_heq (after_cut_take (.of main_v73) (.of main_v75) main_call17 (.of main_v4)
    (.of main_arg7) (.of main_v74) 17 (by decide) (V36 m outs c) (heq_of_eq (prodA_at17 m outs c))
    (heq_of_eq (imA_at17 m outs c)) :)

theorem pieceA_at18 (c : Dev nD) : V56 m outs c main_v80
    = SpecK.piece (F := Ideal) (outs 2 main_v4 c) (m ((c : Thread nD τ).loc main_arg7)) 18 :=
  (pieceA_keep18 m outs c).trans <| eq_of_heq (after_cut_take (.of main_v77) (.of main_v79) main_call18 (.of main_v4)
    (.of main_arg7) (.of main_v78) 18 (by decide) (V38 m outs c) (heq_of_eq (prodA_at18 m outs c))
    (heq_of_eq (imA_at18 m outs c)) :)

theorem pieceA_at19 (c : Dev nD) : V56 m outs c main_v84
    = SpecK.piece (F := Ideal) (outs 2 main_v4 c) (m ((c : Thread nD τ).loc main_arg7)) 19 :=
  (pieceA_keep19 m outs c).trans <| eq_of_heq (after_cut_take (.of main_v81) (.of main_v83) main_call19 (.of main_v4)
    (.of main_arg7) (.of main_v82) 19 (by decide) (V40 m outs c) (heq_of_eq (prodA_at19 m outs c))
    (heq_of_eq (imA_at19 m outs c)) :)

theorem pieceA_at20 (c : Dev nD) : V56 m outs c main_v88
    = SpecK.piece (F := Ideal) (outs 2 main_v4 c) (m ((c : Thread nD τ).loc main_arg7)) 20 :=
  (pieceA_keep20 m outs c).trans <| eq_of_heq (after_cut_take (.of main_v85) (.of main_v87) main_call20 (.of main_v4)
    (.of main_arg7) (.of main_v86) 20 (by decide) (V42 m outs c) (heq_of_eq (prodA_at20 m outs c))
    (heq_of_eq (imA_at20 m outs c)) :)

theorem pieceA_at21 (c : Dev nD) : V56 m outs c main_v92
    = SpecK.piece (F := Ideal) (outs 2 main_v4 c) (m ((c : Thread nD τ).loc main_arg7)) 21 :=
  (pieceA_keep21 m outs c).trans <| eq_of_heq (after_cut_take (.of main_v89) (.of main_v91) main_call21 (.of main_v4)
    (.of main_arg7) (.of main_v90) 21 (by decide) (V44 m outs c) (heq_of_eq (prodA_at21 m outs c))
    (heq_of_eq (imA_at21 m outs c)) :)

theorem pieceA_at22 (c : Dev nD) : V56 m outs c main_v96
    = SpecK.piece (F := Ideal) (outs 2 main_v4 c) (m ((c : Thread nD τ).loc main_arg7)) 22 :=
  (pieceA_keep22 m outs c).trans <| eq_of_heq (after_cut_take (.of main_v93) (.of main_v95) main_call22 (.of main_v4)
    (.of main_arg7) (.of main_v94) 22 (by decide) (V46 m outs c) (heq_of_eq (prodA_at22 m outs c))
    (heq_of_eq (imA_at22 m outs c)) :)

theorem pieceA_at23 (c : Dev nD) : V56 m outs c main_v100
    = SpecK.piece (F := Ideal) (outs 2 main_v4 c) (m ((c : Thread nD τ).loc main_arg7)) 23 :=
  (pieceA_keep23 m outs c).trans <| eq_of_heq (after_cut_take (.of main_v97) (.of main_v99) main_call23 (.of main_v4)
    (.of main_arg7) (.of main_v98) 23 (by decide) (V48 m outs c) (heq_of_eq (prodA_at23 m outs c))
    (heq_of_eq (imA_at23 m outs c)) :)

theorem pieceA_at24 (c : Dev nD) : V56 m outs c main_v104
    = SpecK.piece (F := Ideal) (outs 2 main_v4 c) (m ((c : Thread nD τ).loc main_arg7)) 24 :=
  (pieceA_keep24 m outs c).trans <| eq_of_heq (after_cut_take (.of main_v101) (.of main_v103) main_call24 (.of main_v4)
    (.of main_arg7) (.of main_v102) 24 (by decide) (V50 m outs c) (heq_of_eq (prodA_at24 m outs c))
    (heq_of_eq (imA_at24 m outs c)) :)

theorem pieceA_at25 (c : Dev nD) : V56 m outs c main_v108
    = SpecK.piece (F := Ideal) (outs 2 main_v4 c) (m ((c : Thread nD τ).loc main_arg7)) 25 :=
  (pieceA_keep25 m outs c).trans <| eq_of_heq (after_cut_take (.of main_v105) (.of main_v107) main_call25 (.of main_v4)
    (.of main_arg7) (.of main_v106) 25 (by decide) (V52 m outs c) (heq_of_eq (prodA_at25 m outs c))
    (heq_of_eq (imA_at25 m outs c)) :)

theorem pieceA_at26 (c : Dev nD) : V56 m outs c main_v112
    = SpecK.piece (F := Ideal) (outs 2 main_v4 c) (m ((c : Thread nD τ).loc main_arg7)) 26 :=
  (pieceA_keep26 m outs c).trans <| eq_of_heq (after_cut_take (.of main_v109) (.of main_v111) main_call26 (.of main_v4)
    (.of main_arg7) (.of main_v110) 26 (by decide) (V54 m outs c) (heq_of_eq (prodA_at26 m outs c))
    (heq_of_eq (imA_at26 m outs c)) :)

/-- The scatter adds the stack of the 27 piece buffers, each the piece of the product and the map as launched. -/
theorem convA_eq (c : Dev nD) : V57 m outs c main_v124
    = SpecK.convK (F := Ideal) (outs 2 main_v4 c) (m ((c : Thread nD τ).loc main_arg7)) (m ((c : Thread nD τ).loc main_arg8)) :=
  (v124_eq (V56 m outs c)).trans <| by
    rw [pieceA_at00 m outs c, pieceA_at01 m outs c, pieceA_at02 m outs c, pieceA_at03 m outs c, pieceA_at04 m outs c,
      pieceA_at05 m outs c, pieceA_at06 m outs c, pieceA_at07 m outs c, pieceA_at08 m outs c, pieceA_at09 m outs c,
      pieceA_at10 m outs c, pieceA_at11 m outs c, pieceA_at12 m outs c, pieceA_at13 m outs c, pieceA_at14 m outs c,
      pieceA_at15 m outs c, pieceA_at16 m outs c, pieceA_at17 m outs c, pieceA_at18 m outs c, pieceA_at19 m outs c,
      pieceA_at20 m outs c, pieceA_at21 m outs c, pieceA_at22 m outs c, pieceA_at23 m outs c, pieceA_at24 m outs c,
      pieceA_at25 m outs c, pieceA_at26 m outs c, omA_at m outs c, stack_vec]
    rfl

end Cert.KernelIdeal.Host
-- ==== Proof.KerHostScatterB.lean ====
import proofs.«404940_j85761906966882_2_alg».proof.Proof.Gen.KernelIdeal.Launch
import proofs.«404940_j85761906966882_2_alg».proof.Proof.SpecK
import Idealize.ShloMosaic.Lib.StableHlo.Run

set_option maxRecDepth 6752

noncomputable section

namespace Cert.KernelIdeal.Host

open Idealize.ShloMosaic Idealize.ShloMosaic.TcCoe Cert.KernelIdeal Cert.KernelIdeal.Gen

theorem v270_eq (V : Valuation τ sig (Elt Ideal)) :
    StableHlo.after (hostOps4_54 (F := Ideal)) V main_v270
      = SpecK.scatterTo (F := Ideal) (V main_arg8)
          (SpecK.stack ![V main_v154, V main_v158, V main_v162, V main_v166, V main_v170, V main_v174, V main_v178, V main_v182, V main_v186, V main_v190, V main_v194, V main_v198, V main_v202, V main_v206, V main_v210, V main_v214, V main_v218, V main_v222, V main_v226, V main_v230, V main_v234, V main_v238, V main_v242, V main_v246, V main_v250, V main_v254, V main_v258]) := by
  after_results_simp
  rw [StableHlo.nary_result_ne (r := main_v259)]; rotate_left; decide
  rw [StableHlo.nary_result, StableHlo.nary_result]
  beta_reduce
  repeat (rw [StableHlo.nary_result_ne]; rotate_left; decide)
  rfl

end Cert.KernelIdeal.Host
-- ==== Proof.KerHostHopsB.lean ====
import proofs.«404940_j85761906966882_2_alg».proof.Proof.KerHostHopsA

noncomputable section

namespace Cert.KernelIdeal.Host

open Idealize.ShloMosaic Idealize.ShloMosaic.TcCoe Cert.KernelIdeal Cert.KernelIdeal.Gen

variable {F : FTy → Type} [FloatOps F]

variable (m : (ℓ : Loc nD τ sig) → Buf (Elt F) ℓ) (outs : Outs (F := F))

theorem prodB_at00 (c : Dev nD) : V64 m outs c main_v150 = outs 64 main_v150 c :=
  Function.update_self ..

/-- The wide product stays what its region left while no stage writes it. -/
theorem prodB (c : Dev nD) (k : ℕ) (h : ∀ W ∈ (foot.take k).drop 64, main_v150 ∉ W) :
    Step.run (V64 m outs c) (((steps outs c).take k).drop 64).reverse main_v150 = outs 64 main_v150 c :=
  (hop outs c (V64 m outs c) 64 k main_v150 h).trans (prodB_at00 m outs c)

theorem imB_at00 (c : Dev nD) : V64 m outs c main_arg7 = m ((c : Thread nD τ).loc main_arg7) :=
  hop0 m outs c 64 main_arg7 (by decide)

/-- The input map still holds its initial contents while no stage writes it. -/
theorem imB (c : Dev nD) (k : ℕ) (h : ∀ W ∈ (foot.take k).drop 64, main_arg7 ∉ W) :
    Step.run (V64 m outs c) (((steps outs c).take k).drop 64).reverse main_arg7 =
      m ((c : Thread nD τ).loc main_arg7) :=
  (hop outs c (V64 m outs c) 64 k main_arg7 h).trans (imB_at00 m outs c)

theorem pieceB_keep00 (c : Dev nD) : V118 m outs c main_v154 = V66 m outs c main_v154 :=
  hop outs c (V66 m outs c) 66 118 main_v154 (by decide)

theorem prodB_at01 (c : Dev nD) : V66 m outs c main_v150 = outs 64 main_v150 c :=
  prodB m outs c 66 (by decide)

theorem imB_at01 (c : Dev nD) : V66 m outs c main_arg7 = m ((c : Thread nD τ).loc main_arg7) :=
  imB m outs c 66 (by decide)

theorem pieceB_keep01 (c : Dev nD) : V118 m outs c main_v158 = V68 m outs c main_v158 :=
  hop outs c (V68 m outs c) 68 118 main_v158 (by decide)

theorem prodB_at02 (c : Dev nD) : V68 m outs c main_v150 = outs 64 main_v150 c :=
  prodB m outs c 68 (by decide)

theorem imB_at02 (c : Dev nD) : V68 m outs c main_arg7 = m ((c : Thread nD τ).loc main_arg7) :=
  imB m outs c 68 (by decide)

theorem pieceB_keep02 (c : Dev nD) : V118 m outs c main_v162 = V70 m outs c main_v162 :=
  hop outs c (V70 m outs c) 70 118 main_v162 (by decide)

theorem prodB_at03 (c : Dev nD) : V70 m outs c main_v150 = outs 64 main_v150 c :=
  prodB m outs c 70 (by decide)

theorem imB_at03 (c : Dev nD) : V70 m outs c main_arg7 = m ((c : Thread nD τ).loc main_arg7) :=
  imB m outs c 70 (by decide)

theorem pieceB_keep03 (c : Dev nD) : V118 m outs c main_v166 = V72 m outs c main_v166 :=
  hop outs c (V72 m outs c) 72 118 main_v166 (by decide)

theorem prodB_at04 (c : Dev nD) : V72 m outs c main_v150 = outs 64 main_v150 c :=
  prodB m outs c 72 (by decide)

theorem imB_at04 (c : Dev nD) : V72 m outs c main_arg7 = m ((c : Thread nD τ).loc main_arg7) :=
  imB m outs c 72 (by decide)

theorem pieceB_keep04 (c : Dev nD) : V118 m outs c main_v170 = V74 m outs c main_v170 :=
  hop outs c (V74 m outs c) 74 118 main_v170 (by decide)

theorem prodB_at05 (c : Dev nD) : V74 m outs c main_v150 = outs 64 main_v150 c :=
  prodB m outs c 74 (by decide)

theorem imB_at05 (c : Dev nD) : V74 m outs c main_arg7 = m ((c : Thread nD τ).loc main_arg7) :=
  imB m outs c 74 (by decide)

theorem pieceB_keep05 (c : Dev nD) : V118 m outs c main_v174 = V76 m outs c main_v174 :=
  hop outs c (V76 m outs c) 76 118 main_v174 (by decide)

theorem prodB_at06 (c : Dev nD) : V76 m outs c main_v150 = outs 64 main_v150 c :=
  prodB m outs c 76 (by decide)

theorem imB_at06 (c : Dev nD) : V76 m outs c main_arg7 = m ((c : Thread nD τ).loc main_arg7) :=
  imB m outs c 76 (by decide)

theorem pieceB_keep06 (c : Dev nD) : V118 m outs c main_v178 = V78 m outs c main_v178 :=
  hop outs c (V78 m outs c) 78 118 main_v178 (by decide)

theorem prodB_at07 (c : Dev nD) : V78 m outs c main_v150 = outs 64 main_v150 c :=
  prodB m outs c 78 (by decide)

theorem imB_at07 (c : Dev nD) : V78 m outs c main_arg7 = m ((c : Thread nD τ).loc main_arg7) :=
  imB m outs c 78 (by decide)

theorem pieceB_keep07 (c : Dev nD) : V118 m outs c main_v182 = V80 m outs c main_v182 :=
  hop outs c (V80 m outs c) 80 118 main_v182 (by decide)

theorem prodB_at08 (c : Dev nD) : V80 m outs c main_v150 = outs 64 main_v150 c :=
  prodB m outs c 80 (by decide)

theorem imB_at08 (c : Dev nD) : V80 m outs c main_arg7 = m ((c : Thread nD τ).loc main_arg7) :=
  imB m outs c 80 (by decide)

theorem pieceB_keep08 (c : Dev nD) : V118 m outs c main_v186 = V82 m outs c main_v186 :=
  hop outs c (V82 m outs c) 82 118 main_v186 (by decide)

theorem prodB_at09 (c : Dev nD) : V82 m outs c main_v150 = outs 64 main_v150 c :=
  prodB m outs c 82 (by decide)

theorem imB_at09 (c : Dev nD) : V82 m outs c main_arg7 = m ((c : Thread nD τ).loc main_arg7) :=
  imB m outs c 82 (by decide)

theorem pieceB_keep09 (c : Dev nD) : V118 m outs c main_v190 = V84 m outs c main_v190 :=
  hop outs c (V84 m outs c) 84 118 main_v190 (by decide)

theorem prodB_at10 (c : Dev nD) : V84 m outs c main_v150 = outs 64 main_v150 c :=
  prodB m outs c 84 (by decide)

theorem imB_at10 (c : Dev nD) : V84 m outs c main_arg7 = m ((c : Thread nD τ).loc main_arg7) :=
  imB m outs c 84 (by decide)

theorem pieceB_keep10 (c : Dev nD) : V118 m outs c main_v194 = V86 m outs c main_v194 :=
  hop outs c (V86 m outs c) 86 118 main_v194 (by decide)

theorem prodB_at11 (c : Dev nD) : V86 m outs c main_v150 = outs 64 main_v150 c :=
  prodB m outs c 86 (by decide)

theorem imB_at11 (c : Dev nD) : V86 m outs c main_arg7 = m ((c : Thread nD τ).loc main_arg7) :=
  imB m outs c 86 (by decide)

theorem pieceB_keep11 (c : Dev nD) : V118 m outs c main_v198 = V88 m outs c main_v198 :=
  hop outs c (V88 m outs c) 88 118 main_v198 (by decide)

theorem prodB_at12 (c : Dev nD) : V88 m outs c main_v150 = outs 64 main_v150 c :=
  prodB m outs c 88 (by decide)

theorem imB_at12 (c : Dev nD) : V88 m outs c main_arg7 = m ((c : Thread nD τ).loc main_arg7) :=
  imB m outs c 88 (by decide)

theorem pieceB_keep12 (c : Dev nD) : V118 m outs c main_v202 = V90 m outs c main_v202 :=
  hop outs c (V90 m outs c) 90 118 main_v202 (by decide)

theorem prodB_at13 (c : Dev nD) : V90 m outs c main_v150 = outs 64 main_v150 c :=
  prodB m outs c 90 (by decide)

theorem imB_at13 (c : Dev nD) : V90 m outs c main_arg7 = m ((c : Thread nD τ).loc main_arg7) :=
  imB m outs c 90 (by decide)

theorem pieceB_keep13 (c : Dev nD) : V118 m outs c main_v206 = V92 m outs c main_v206 :=
  hop outs c (V92 m outs c) 92 118 main_v206 (by decide)

theorem prodB_at14 (c : Dev nD) : V92 m outs c main_v150 = outs 64 main_v150 c :=
  prodB m outs c 92 (by decide)

theorem imB_at14 (c : Dev nD) : V92 m outs c main_arg7 = m ((c : Thread nD τ).loc main_arg7) :=
  imB m outs c 92 (by decide)

theorem pieceB_keep14 (c : Dev nD) : V118 m outs c main_v210 = V94 m outs c main_v210 :=
  hop outs c (V94 m outs c) 94 118 main_v210 (by decide)

theorem prodB_at15 (c : Dev nD) : V94 m outs c main_v150 = outs 64 main_v150 c :=
  prodB m outs c 94 (by decide)

theorem imB_at15 (c : Dev nD) : V94 m outs c main_arg7 = m ((c : Thread nD τ).loc main_arg7) :=
  imB m outs c 94 (by decide)

theorem pieceB_keep15 (c : Dev nD) : V118 m outs c main_v214 = V96 m outs c main_v214 :=
  hop outs c (V96 m outs c) 96 118 main_v214 (by decide)

theorem prodB_at16 (c : Dev nD) : V96 m outs c main_v150 = outs 64 main_v150 c :=
  prodB m outs c 96 (by decide)

theorem imB_at16 (c : Dev nD) : V96 m outs c main_arg7 = m ((c : Thread nD τ).loc main_arg7) :=
  imB m outs c 96 (by decide)

theorem pieceB_keep16 (c : Dev nD) : V118 m outs c main_v218 = V98 m outs c main_v218 :=
  hop outs c (V98 m outs c) 98 118 main_v218 (by decide)

theorem prodB_at17 (c : Dev nD) : V98 m outs c main_v150 = outs 64 main_v150 c :=
  prodB m outs c 98 (by decide)

theorem imB_at17 (c : Dev nD) : V98 m outs c main_arg7 = m ((c : Thread nD τ).loc main_arg7) :=
  imB m outs c 98 (by decide)

theorem pieceB_keep17 (c : Dev nD) : V118 m outs c main_v222 = V100 m outs c main_v222 :=
  hop outs c (V100 m outs c) 100 118 main_v222 (by decide)

theorem prodB_at18 (c : Dev nD) : V100 m outs c main_v150 = outs 64 main_v150 c :=
  prodB m outs c 100 (by decide)

theorem imB_at18 (c : Dev nD) : V100 m outs c main_arg7 = m ((c : Thread nD τ).loc main_arg7) :=
  imB m outs c 100 (by decide)

theorem pieceB_keep18 (c : Dev nD) : V118 m outs c main_v226 = V102 m outs c main_v226 :=
  hop outs c (V102 m outs c) 102 118 main_v226 (by decide)

theorem prodB_at19 (c : Dev nD) : V102 m outs c main_v150 = outs 64 main_v150 c :=
  prodB m outs c 102 (by decide)

theorem imB_at19 (c : Dev nD) : V102 m outs c main_arg7 = m ((c : Thread nD τ).loc main_arg7) :=
  imB m outs c 102 (by decide)

theorem pieceB_keep19 (c : Dev nD) : V118 m outs c main_v230 = V104 m outs c main_v230 :=
  hop outs c (V104 m outs c) 104 118 main_v230 (by decide)

theorem prodB_at20 (c : Dev nD) : V104 m outs c main_v150 = outs 64 main_v150 c :=
  prodB m outs c 104 (by decide)

theorem imB_at20 (c : Dev nD) : V104 m outs c main_arg7 = m ((c : Thread nD τ).loc main_arg7) :=
  imB m outs c 104 (by decide)

theorem pieceB_keep20 (c : Dev nD) : V118 m outs c main_v234 = V106 m outs c main_v234 :=
  hop outs c (V106 m outs c) 106 118 main_v234 (by decide)

theorem prodB_at21 (c : Dev nD) : V106 m outs c main_v150 = outs 64 main_v150 c :=
  prodB m outs c 106 (by decide)

theorem imB_at21 (c : Dev nD) : V106 m outs c main_arg7 = m ((c : Thread nD τ).loc main_arg7) :=
  imB m outs c 106 (by decide)

theorem pieceB_keep21 (c : Dev nD) : V118 m outs c main_v238 = V108 m outs c main_v238 :=
  hop outs c (V108 m outs c) 108 118 main_v238 (by decide)

theorem prodB_at22 (c : Dev nD) : V108 m outs c main_v150 = outs 64 main_v150 c :=
  prodB m outs c 108 (by decide)

theorem imB_at22 (c : Dev nD) : V108 m outs c main_arg7 = m ((c : Thread nD τ).loc main_arg7) :=
  imB m outs c 108 (by decide)

theorem pieceB_keep22 (c : Dev nD) : V118 m outs c main_v242 = V110 m outs c main_v242 :=
  hop outs c (V110 m outs c) 110 118 main_v242 (by decide)

theorem prodB_at23 (c : Dev nD) : V110 m outs c main_v150 = outs 64 main_v150 c :=
  prodB m outs c 110 (by decide)

theorem imB_at23 (c : Dev nD) : V110 m outs c main_arg7 = m ((c : Thread nD τ).loc main_arg7) :=
  imB m outs c 110 (by decide)

theorem pieceB_keep23 (c : Dev nD) : V118 m outs c main_v246 = V112 m outs c main_v246 :=
  hop outs c (V112 m outs c) 112 118 main_v246 (by decide)

theorem prodB_at24 (c : Dev nD) : V112 m outs c main_v150 = outs 64 main_v150 c :=
  prodB m outs c 112 (by decide)

theorem imB_at24 (c : Dev nD) : V112 m outs c main_arg7 = m ((c : Thread nD τ).loc main_arg7) :=
  imB m outs c 112 (by decide)

theorem pieceB_keep24 (c : Dev nD) : V118 m outs c main_v250 = V114 m outs c main_v250 :=
  hop outs c (V114 m outs c) 114 118 main_v250 (by decide)

theorem prodB_at25 (c : Dev nD) : V114 m outs c main_v150 = outs 64 main_v150 c :=
  prodB m outs c 114 (by decide)

theorem imB_at25 (c : Dev nD) : V114 m outs c main_arg7 = m ((c : Thread nD τ).loc main_arg7) :=
  imB m outs c 114 (by decide)

theorem pieceB_keep25 (c : Dev nD) : V118 m outs c main_v254 = V116 m outs c main_v254 :=
  hop outs c (V116 m outs c) 116 118 main_v254 (by decide)

theorem prodB_at26 (c : Dev nD) : V116 m outs c main_v150 = outs 64 main_v150 c :=
  prodB m outs c 116 (by decide)

theorem imB_at26 (c : Dev nD) : V116 m outs c main_arg7 = m ((c : Thread nD τ).loc main_arg7) :=
  imB m outs c 116 (by decide)

theorem pieceB_keep26 (c : Dev nD) : V118 m outs c main_v258 = V118 m outs c main_v258 :=
  rfl

theorem omB_at (c : Dev nD) : V118 m outs c main_arg8 = m ((c : Thread nD τ).loc main_arg8) :=
  hop0 m outs c 118 main_arg8 (by decide)

end Cert.KernelIdeal.Host
-- ==== Proof.KerHostConvB.lean ====
import proofs.«404940_j85761906966882_2_alg».proof.Proof.RegionsP
import proofs.«404940_j85761906966882_2_alg».proof.Proof.KerHostTake
import proofs.«404940_j85761906966882_2_alg».proof.Proof.KerHostScatterB
import proofs.«404940_j85761906966882_2_alg».proof.Proof.KerHostHopsB

noncomputable section

namespace Cert.KernelIdeal.Host

open Idealize.ShloMosaic Idealize.ShloMosaic.TcCoe Cert.KernelIdeal Cert.KernelIdeal.Gen

variable (m : (ℓ : Loc nD τ sig) → Buf (Elt Ideal) ℓ) (outs : Outs (F := Ideal))

theorem pieceB_at00 (c : Dev nD) : V118 m outs c main_v154
    = SpecK.piece (F := Ideal) (outs 64 main_v150 c) (m ((c : Thread nD τ).loc main_arg7)) 0 :=
  (pieceB_keep00 m outs c).trans <| eq_of_heq (after_cut_take (.of main_v151) (.of main_v153) main_call28 (.of main_v150)
    (.of main_arg7) (.of main_v152) 0 (by decide) (V64 m outs c) (heq_of_eq (prodB_at00 m outs c))
    (heq_of_eq (imB_at00 m outs c)) :)

theorem pieceB_at01 (c : Dev nD) : V118 m outs c main_v158
    = SpecK.piece (F := Ideal) (outs 64 main_v150 c) (m ((c : Thread nD τ).loc main_arg7)) 1 :=
  (pieceB_keep01 m outs c).trans <| eq_of_heq (after_cut_take (.of main_v155) (.of main_v157) main_call29 (.of main_v150)
    (.of main_arg7) (.of main_v156) 1 (by decide) (V66 m outs c) (heq_of_eq (prodB_at01 m outs c))
    (heq_of_eq (imB_at01 m outs c)) :)

theorem pieceB_at02 (c : Dev nD) : V118 m outs c main_v162
    = SpecK.piece (F := Ideal) (outs 64 main_v150 c) (m ((c : Thread nD τ).loc main_arg7)) 2 :=
  (pieceB_keep02 m outs c).trans <| eq_of_heq (after_cut_take (.of main_v159) (.of main_v161) main_call30 (.of main_v150)
    (.of main_arg7) (.of main_v160) 2 (by decide) (V68 m outs c) (heq_of_eq (prodB_at02 m outs c))
    (heq_of_eq (imB_at02 m outs c)) :)

theorem pieceB_at03 (c : Dev nD) : V118 m outs c main_v166
    = SpecK.piece (F := Ideal) (outs 64 main_v150 c) (m ((c : Thread nD τ).loc main_arg7)) 3 :=
  (pieceB_keep03 m outs c).trans <| eq_of_heq (after_cut_take (.of main_v163) (.of main_v165) main_call31 (.of main_v150)
    (.of main_arg7) (.of main_v164) 3 (by decide) (V70 m outs c) (heq_of_eq (prodB_at03 m outs c))
    (heq_of_eq (imB_at03 m outs c)) :)

theorem pieceB_at04 (c : Dev nD) : V118 m outs c main_v170
    = SpecK.piece (F := Ideal) (outs 64 main_v150 c) (m ((c : Thread nD τ).loc main_arg7)) 4 :=
  (pieceB_keep04 m outs c).trans <| eq_of_heq (after_cut_take (.of main_v167) (.of main_v169) main_call32 (.of main_v150)
    (.of main_arg7) (.of main_v168) 4 (by decide) (V72 m outs c) (heq_of_eq (prodB_at04 m outs c))
    (heq_of_eq (imB_at04 m outs c)) :)

theorem pieceB_at05 (c : Dev nD) : V118 m outs c main_v174
    = SpecK.piece (F := Ideal) (outs 64 main_v150 c) (m ((c : Thread nD τ).loc main_arg7)) 5 :=
  (pieceB_keep05 m outs c).trans <| eq_of_heq (after_cut_take (.of main_v171) (.of main_v173) main_call33 (.of main_v150)
    (.of main_arg7) (.of main_v172) 5 (by decide) (V74 m outs c) (heq_of_eq (prodB_at05 m outs c))
    (heq_of_eq (imB_at05 m outs c)) :)

theorem pieceB_at06 (c : Dev nD) : V118 m outs c main_v178
    = SpecK.piece (F := Ideal) (outs 64 main_v150 c) (m ((c : Thread nD τ).loc main_arg7)) 6 :=
  (pieceB_keep06 m outs c).trans <| eq_of_heq (after_cut_take (.of main_v175) (.of main_v177) main_call34 (.of main_v150)
    (.of main_arg7) (.of main_v176) 6 (by decide) (V76 m outs c) (heq_of_eq (prodB_at06 m outs c))
    (heq_of_eq (imB_at06 m outs c)) :)

theorem pieceB_at07 (c : Dev nD) : V118 m outs c main_v182
    = SpecK.piece (F := Ideal) (outs 64 main_v150 c) (m ((c : Thread nD τ).loc main_arg7)) 7 :=
  (pieceB_keep07 m outs c).trans <| eq_of_heq (after_cut_take (.of main_v179) (.of main_v181) main_call35 (.of main_v150)
    (.of main_arg7) (.of main_v180) 7 (by decide) (V78 m outs c) (heq_of_eq (prodB_at07 m outs c))
    (heq_of_eq (imB_at07 m outs c)) :)

theorem pieceB_at08 (c : Dev nD) : V118 m outs c main_v186
    = SpecK.piece (F := Ideal) (outs 64 main_v150 c) (m ((c : Thread nD τ).loc main_arg7)) 8 :=
  (pieceB_keep08 m outs c).trans <| eq_of_heq (after_cut_take (.of main_v183) (.of main_v185) main_call36 (.of main_v150)
    (.of main_arg7) (.of main_v184) 8 (by decide) (V80 m outs c) (heq_of_eq (prodB_at08 m outs c))
    (heq_of_eq (imB_at08 m outs c)) :)

theorem pieceB_at09 (c : Dev nD) : V118 m outs c main_v190
    = SpecK.piece (F := Ideal) (outs 64 main_v150 c) (m ((c : Thread nD τ).loc main_arg7)) 9 :=
  (pieceB_keep09 m outs c).trans <| eq_of_heq (after_cut_take (.of main_v187) (.of main_v189) main_call37 (.of main_v150)
    (.of main_arg7) (.of main_v188) 9 (by decide) (V82 m outs c) (heq_of_eq (prodB_at09 m outs c))
    (heq_of_eq (imB_at09 m outs c)) :)

theorem pieceB_at10 (c : Dev nD) : V118 m outs c main_v194
    = SpecK.piece (F := Ideal) (outs 64 main_v150 c) (m ((c : Thread nD τ).loc main_arg7)) 10 :=
  (pieceB_keep10 m outs c).trans <| eq_of_heq (after_cut_take (.of main_v191) (.of main_v193) main_call38 (.of main_v150)
    (.of main_arg7) (.of main_v192) 10 (by decide) (V84 m outs c) (heq_of_eq (prodB_at10 m outs c))
    (heq_of_eq (imB_at10 m outs c)) :)

theorem pieceB_at11 (c : Dev nD) : V118 m outs c main_v198
    = SpecK.piece (F := Ideal) (outs 64 main_v150 c) (m ((c : Thread nD τ).loc main_arg7)) 11 :=
  (pieceB_keep11 m outs c).trans <| eq_of_heq (after_cut_take (.of main_v195) (.of main_v197) main_call39 (.of main_v150)
    (.of main_arg7) (.of main_v196) 11 (by decide) (V86 m outs c) (heq_of_eq (prodB_at11 m outs c))
    (heq_of_eq (imB_at11 m outs c)) :)

theorem pieceB_at12 (c : Dev nD) : V118 m outs c main_v202
    = SpecK.piece (F := Ideal) (outs 64 main_v150 c) (m ((c : Thread nD τ).loc main_arg7)) 12 :=
  (pieceB_keep12 m outs c).trans <| eq_of_heq (after_cut_take (.of main_v199) (.of main_v201) main_call40 (.of main_v150)
    (.of main_arg7) (.of main_v200) 12 (by decide) (V88 m outs c) (heq_of_eq (prodB_at12 m outs c))
    (heq_of_eq (imB_at12 m outs c)) :)

theorem pieceB_at13 (c : Dev nD) : V118 m outs c main_v206
    = SpecK.piece (F := Ideal) (outs 64 main_v150 c) (m ((c : Thread nD τ).loc main_arg7)) 13 :=
  (pieceB_keep13 m outs c).trans <| eq_of_heq (after_cut_take (.of main_v203) (.of main_v205) main_call41 (.of main_v150)
    (.of main_arg7) (.of main_v204) 13 (by decide) (V90 m outs c) (heq_of_eq (prodB_at13 m outs c))
    (heq_of_eq (imB_at13 m outs c)) :)

theorem pieceB_at14 (c : Dev nD) : V118 m outs c main_v210
    = SpecK.piece (F := Ideal) (outs 64 main_v150 c) (m ((c : Thread nD τ).loc main_arg7)) 14 :=
  (pieceB_keep14 m outs c).trans <| eq_of_heq (after_cut_take (.of main_v207) (.of main_v209) main_call42 (.of main_v150)
    (.of main_arg7) (.of main_v208) 14 (by decide) (V92 m outs c) (heq_of_eq (prodB_at14 m outs c))
    (heq_of_eq (imB_at14 m outs c)) :)

theorem pieceB_at15 (c : Dev nD) : V118 m outs c main_v214
    = SpecK.piece (F := Ideal) (outs 64 main_v150 c) (m ((c : Thread nD τ).loc main_arg7)) 15 :=
  (pieceB_keep15 m outs c).trans <| eq_of_heq (after_cut_take (.of main_v211) (.of main_v213) main_call43 (.of main_v150)
    (.of main_arg7) (.of main_v212) 15 (by decide) (V94 m outs c) (heq_of_eq (prodB_at15 m outs c))
    (heq_of_eq (imB_at15 m outs c)) :)

theorem pieceB_at16 (c : Dev nD) : V118 m outs c main_v218
    = SpecK.piece (F := Ideal) (outs 64 main_v150 c) (m ((c : Thread nD τ).loc main_arg7)) 16 :=
  (pieceB_keep16 m outs c).trans <| eq_of_heq (after_cut_take (.of main_v215) (.of main_v217) main_call44 (.of main_v150)
    (.of main_arg7) (.of main_v216) 16 (by decide) (V96 m outs c) (heq_of_eq (prodB_at16 m outs c))
    (heq_of_eq (imB_at16 m outs c)) :)

theorem pieceB_at17 (c : Dev nD) : V118 m outs c main_v222
    = SpecK.piece (F := Ideal) (outs 64 main_v150 c) (m ((c : Thread nD τ).loc main_arg7)) 17 :=
  (pieceB_keep17 m outs c).trans <| eq_of_heq (after_cut_take (.of main_v219) (.of main_v221) main_call45 (.of main_v150)
    (.of main_arg7) (.of main_v220) 17 (by decide) (V98 m outs c) (heq_of_eq (prodB_at17 m outs c))
    (heq_of_eq (imB_at17 m outs c)) :)

theorem pieceB_at18 (c : Dev nD) : V118 m outs c main_v226
    = SpecK.piece (F := Ideal) (outs 64 main_v150 c) (m ((c : Thread nD τ).loc main_arg7)) 18 :=
  (pieceB_keep18 m outs c).trans <| eq_of_heq (after_cut_take (.of main_v223) (.of main_v225) main_call46 (.of main_v150)
    (.of main_arg7) (.of main_v224) 18 (by decide) (V100 m outs c) (heq_of_eq (prodB_at18 m outs c))
    (heq_of_eq (imB_at18 m outs c)) :)

theorem pieceB_at19 (c : Dev nD) : V118 m outs c main_v230
    = SpecK.piece (F := Ideal) (outs 64 main_v150 c) (m ((c : Thread nD τ).loc main_arg7)) 19 :=
  (pieceB_keep19 m outs c).trans <| eq_of_heq (after_cut_take (.of main_v227) (.of main_v229) main_call47 (.of main_v150)
    (.of main_arg7) (.of main_v228) 19 (by decide) (V102 m outs c) (heq_of_eq (prodB_at19 m outs c))
    (heq_of_eq (imB_at19 m outs c)) :)

theorem pieceB_at20 (c : Dev nD) : V118 m outs c main_v234
    = SpecK.piece (F := Ideal) (outs 64 main_v150 c) (m ((c : Thread nD τ).loc main_arg7)) 20 :=
  (pieceB_keep20 m outs c).trans <| eq_of_heq (after_cut_take (.of main_v231) (.of main_v233) main_call48 (.of main_v150)
    (.of main_arg7) (.of main_v232) 20 (by decide) (V104 m outs c) (heq_of_eq (prodB_at20 m outs c))
    (heq_of_eq (imB_at20 m outs c)) :)

theorem pieceB_at21 (c : Dev nD) : V118 m outs c main_v238
    = SpecK.piece (F := Ideal) (outs 64 main_v150 c) (m ((c : Thread nD τ).loc main_arg7)) 21 :=
  (pieceB_keep21 m outs c).trans <| eq_of_heq (after_cut_take (.of main_v235) (.of main_v237) main_call49 (.of main_v150)
    (.of main_arg7) (.of main_v236) 21 (by decide) (V106 m outs c) (heq_of_eq (prodB_at21 m outs c))
    (heq_of_eq (imB_at21 m outs c)) :)

theorem pieceB_at22 (c : Dev nD) : V118 m outs c main_v242
    = SpecK.piece (F := Ideal) (outs 64 main_v150 c) (m ((c : Thread nD τ).loc main_arg7)) 22 :=
  (pieceB_keep22 m outs c).trans <| eq_of_heq (after_cut_take (.of main_v239) (.of main_v241) main_call50 (.of main_v150)
    (.of main_arg7) (.of main_v240) 22 (by decide) (V108 m outs c) (heq_of_eq (prodB_at22 m outs c))
    (heq_of_eq (imB_at22 m outs c)) :)

theorem pieceB_at23 (c : Dev nD) : V118 m outs c main_v246
    = SpecK.piece (F := Ideal) (outs 64 main_v150 c) (m ((c : Thread nD τ).loc main_arg7)) 23 :=
  (pieceB_keep23 m outs c).trans <| eq_of_heq (after_cut_take (.of main_v243) (.of main_v245) main_call51 (.of main_v150)
    (.of main_arg7) (.of main_v244) 23 (by decide) (V110 m outs c) (heq_of_eq (prodB_at23 m outs c))
    (heq_of_eq (imB_at23 m outs c)) :)

theorem pieceB_at24 (c : Dev nD) : V118 m outs c main_v250
    = SpecK.piece (F := Ideal) (outs 64 main_v150 c) (m ((c : Thread nD τ).loc main_arg7)) 24 :=
  (pieceB_keep24 m outs c).trans <| eq_of_heq (after_cut_take (.of main_v247) (.of main_v249) main_call52 (.of main_v150)
    (.of main_arg7) (.of main_v248) 24 (by decide) (V112 m outs c) (heq_of_eq (prodB_at24 m outs c))
    (heq_of_eq (imB_at24 m outs c)) :)

theorem pieceB_at25 (c : Dev nD) : V118 m outs c main_v254
    = SpecK.piece (F := Ideal) (outs 64 main_v150 c) (m ((c : Thread nD τ).loc main_arg7)) 25 :=
  (pieceB_keep25 m outs c).trans <| eq_of_heq (after_cut_take (.of main_v251) (.of main_v253) main_call53 (.of main_v150)
    (.of main_arg7) (.of main_v252) 25 (by decide) (V114 m outs c) (heq_of_eq (prodB_at25 m outs c))
    (heq_of_eq (imB_at25 m outs c)) :)

theorem pieceB_at26 (c : Dev nD) : V118 m outs c main_v258
    = SpecK.piece (F := Ideal) (outs 64 main_v150 c) (m ((c : Thread nD τ).loc main_arg7)) 26 :=
  (pieceB_keep26 m outs c).trans <| eq_of_heq (after_cut_take (.of main_v255) (.of main_v257) main_call54 (.of main_v150)
    (.of main_arg7) (.of main_v256) 26 (by decide) (V116 m outs c) (heq_of_eq (prodB_at26 m outs c))
    (heq_of_eq (imB_at26 m outs c)) :)

/-- The scatter adds the stack of the 27 piece buffers, each the piece of the product and the map as launched. -/
theorem convB_eq (c : Dev nD) : V119 m outs c main_v270
    = SpecK.convK (F := Ideal) (outs 64 main_v150 c) (m ((c : Thread nD τ).loc main_arg7)) (m ((c : Thread nD τ).loc main_arg8)) :=
  (v270_eq (V118 m outs c)).trans <| by
    rw [pieceB_at00 m outs c, pieceB_at01 m outs c, pieceB_at02 m outs c, pieceB_at03 m outs c, pieceB_at04 m outs c,
      pieceB_at05 m outs c, pieceB_at06 m outs c, pieceB_at07 m outs c, pieceB_at08 m outs c, pieceB_at09 m outs c,
      pieceB_at10 m outs c, pieceB_at11 m outs c, pieceB_at12 m outs c, pieceB_at13 m outs c, pieceB_at14 m outs c,
      pieceB_at15 m outs c, pieceB_at16 m outs c, pieceB_at17 m outs c, pieceB_at18 m outs c, pieceB_at19 m outs c,
      pieceB_at20 m outs c, pieceB_at21 m outs c, pieceB_at22 m outs c, pieceB_at23 m outs c, pieceB_at24 m outs c,
      pieceB_at25 m outs c, pieceB_at26 m outs c, omB_at m outs c, stack_vec]
    rfl

end Cert.KernelIdeal.Host
-- ==== Proof.KerHostHopsC.lean ====
import proofs.«404940_j85761906966882_2_alg».proof.Proof.KerHostHopsA

noncomputable section

namespace Cert.KernelIdeal.Host

open Idealize.ShloMosaic Idealize.ShloMosaic.TcCoe Cert.KernelIdeal Cert.KernelIdeal.Gen

variable {F : FTy → Type} [FloatOps F]

variable (m : (ℓ : Loc nD τ sig) → Buf (Elt F) ℓ) (outs : Outs (F := F))

theorem sumA_in59 (c : Dev nD) : V59 m outs c main_v124 = V57 m outs c main_v124 :=
  hop outs c (V57 m outs c) 57 59 main_v124 (by decide)

theorem sumA_in61 (c : Dev nD) : V61 m outs c main_v124 = V57 m outs c main_v124 :=
  hop outs c (V57 m outs c) 57 61 main_v124 (by decide)

theorem hotA_in59 (c : Dev nD) : V59 m outs c main_v125 = V58 m outs c main_v125 :=
  hop outs c (V58 m outs c) 58 59 main_v125 (by decide)

theorem hotA_in61 (c : Dev nD) : V61 m outs c main_v125 = V58 m outs c main_v125 :=
  hop outs c (V58 m outs c) 58 61 main_v125 (by decide)

theorem cntA_in60 (c : Dev nD) : V60 m outs c main_v131 = V59 m outs c main_v131 :=
  hop outs c (V59 m outs c) 59 60 main_v131 (by decide)

theorem bi_at57 (c : Dev nD) : V57 m outs c main_arg9 = m ((c : Thread nD τ).loc main_arg9) :=
  hop0 m outs c 57 main_arg9 (by decide)

theorem bi_at58 (c : Dev nD) : V58 m outs c main_arg9 = m ((c : Thread nD τ).loc main_arg9) :=
  hop0 m outs c 58 main_arg9 (by decide)

theorem g1_at60 (c : Dev nD) : V60 m outs c main_arg2 = m ((c : Thread nD τ).loc main_arg2) :=
  hop0 m outs c 60 main_arg2 (by decide)

theorem b1_at60 (c : Dev nD) : V60 m outs c main_arg3 = m ((c : Thread nD τ).loc main_arg3) :=
  hop0 m outs c 60 main_arg3 (by decide)

theorem w2_at62 (c : Dev nD) : V62 m outs c main_arg4 = m ((c : Thread nD τ).loc main_arg4) :=
  hop0 m outs c 62 main_arg4 (by decide)

theorem sumB_in121 (c : Dev nD) : V121 m outs c main_v270 = V119 m outs c main_v270 :=
  hop outs c (V119 m outs c) 119 121 main_v270 (by decide)

theorem sumB_in123 (c : Dev nD) : V123 m outs c main_v270 = V119 m outs c main_v270 :=
  hop outs c (V119 m outs c) 119 123 main_v270 (by decide)

theorem hotB_in121 (c : Dev nD) : V121 m outs c main_v271 = V120 m outs c main_v271 :=
  hop outs c (V120 m outs c) 120 121 main_v271 (by decide)

theorem hotB_in123 (c : Dev nD) : V123 m outs c main_v271 = V120 m outs c main_v271 :=
  hop outs c (V120 m outs c) 120 123 main_v271 (by decide)

theorem cntB_in122 (c : Dev nD) : V122 m outs c main_v277 = V121 m outs c main_v277 :=
  hop outs c (V121 m outs c) 121 122 main_v277 (by decide)

theorem bi_at119 (c : Dev nD) : V119 m outs c main_arg9 = m ((c : Thread nD τ).loc main_arg9) :=
  hop0 m outs c 119 main_arg9 (by decide)

theorem bi_at120 (c : Dev nD) : V120 m outs c main_arg9 = m ((c : Thread nD τ).loc main_arg9) :=
  hop0 m outs c 120 main_arg9 (by decide)

theorem g2_at122 (c : Dev nD) : V122 m outs c main_arg5 = m ((c : Thread nD τ).loc main_arg5) :=
  hop0 m outs c 122 main_arg5 (by decide)

theorem b2_at122 (c : Dev nD) : V122 m outs c main_arg6 = m ((c : Thread nD τ).loc main_arg6) :=
  hop0 m outs c 122 main_arg6 (by decide)

theorem res_at123 (c : Dev nD) : V123 m outs c main_arg0 = m ((c : Thread nD τ).loc main_arg0) :=
  hop0 m outs c 123 main_arg0 (by decide)

end Cert.KernelIdeal.Host
-- ==== Proof.KerHostOuts.lean ====
import proofs.«404940_j85761906966882_2_alg».proof.Proof.RegionsP

set_option maxRecDepth 6752

noncomputable section

namespace Cert.KernelIdeal.Host

open Idealize.ShloMosaic Idealize.ShloMosaic.TcCoe Cert.KernelIdeal Cert.KernelIdeal.Gen

variable {F : FTy → Type} [FloatOps F]
variable (m : (ℓ : Loc nD τ sig) → Buf (Elt F) ℓ) (outs : Outs (F := F))

theorem out60_sum (c : Dev nD) : V60 m outs c main_v132_0 = outs 60 main_v132_0 c := by
  simp only [V60, Function.update_of_ne (StableHlo.devRef_ne_of_ne (by decide : (main_v132_0 : Ref sig .tc) ≠ main_v132_1) :
    (Proc.devRef .tc main_v132_0 : DevRef τ sig) ≠ Proc.devRef .tc main_v132_1), Function.update_self]

theorem out60_sq (c : Dev nD) : V60 m outs c main_v132_1 = outs 60 main_v132_1 c := by
  simp only [V60, Function.update_self]

theorem out62 (c : Dev nD) : V62 m outs c main_v145 = outs 62 main_v145 c := by
  simp only [V62, Function.update_self]

theorem out122_sum (c : Dev nD) : V122 m outs c main_v278_0 = outs 122 main_v278_0 c := by
  simp only [V122, Function.update_of_ne (StableHlo.devRef_ne_of_ne (by decide : (main_v278_0 : Ref sig .tc) ≠ main_v278_1) :
    (Proc.devRef .tc main_v278_0 : DevRef τ sig) ≠ Proc.devRef .tc main_v278_1), Function.update_self]

theorem out122_sq (c : Dev nD) : V122 m outs c main_v278_1 = outs 122 main_v278_1 c := by
  simp only [V122, Function.update_self]

end Cert.KernelIdeal.Host
-- ==== Proof.KerHostChain.lean ====
import proofs.«404940_j85761906966882_2_alg».proof.Proof.RegionsP
import proofs.«404940_j85761906966882_2_alg».proof.Proof.SpecK
import proofs.«404940_j85761906966882_2_alg».proof.Proof.KerHostOps
import proofs.«404940_j85761906966882_2_alg».proof.Proof.KerHostStatsA
import proofs.«404940_j85761906966882_2_alg».proof.Proof.KerHostStatsB
import proofs.«404940_j85761906966882_2_alg».proof.Proof.KerHostConvA
import proofs.«404940_j85761906966882_2_alg».proof.Proof.KerHostConvB
import proofs.«404940_j85761906966882_2_alg».proof.Proof.KerHostHopsC
import proofs.«404940_j85761906966882_2_alg».proof.Proof.KerHostOuts

set_option maxRecDepth 6752

noncomputable section

namespace Cert.KernelIdeal.Host

open Idealize.ShloMosaic Idealize.ShloMosaic.TcCoe Cert.KernelIdeal Cert.KernelIdeal.Gen

variable (m : (ℓ : Loc nD τ sig) → Buf (Elt Ideal) ℓ) (outs : Outs (F := Ideal)) (R : SpecK.Regions Ideal)

theorem ker_value (c : Dev nD)
    (hO2 : outs 2 main_v4 c = R.gemmG (V1 m c main_v0) (V1 m c main_v3))
    (hO60a : outs 60 main_v132_0 c = R.statsSumG (V59 m outs c main_v124) (V59 m outs c main_v125))
    (hO60b : outs 60 main_v132_1 c = R.statsSqG (V59 m outs c main_v124) (V59 m outs c main_v125))
    (hO62 : outs 62 main_v145 c = R.applyG (V61 m outs c main_v124) (V61 m outs c main_v125) (V61 m outs c main_v135)
      (V61 m outs c main_v142) (V61 m outs c main_v143) (V61 m outs c main_v144))
    (hO64 : outs 64 main_v150 c = R.gemmG (V63 m outs c main_v146) (V63 m outs c main_v149))
    (hO122a : outs 122 main_v278_0 c = R.statsSumG (V121 m outs c main_v270) (V121 m outs c main_v271))
    (hO122b : outs 122 main_v278_1 c = R.statsSqG (V121 m outs c main_v270) (V121 m outs c main_v271))
    (hO124 : outs 124 main_v291 c = R.applyResG (V123 m outs c main_v270) (V123 m outs c main_v271) (V123 m outs c main_v281)
      (V123 m outs c main_v288) (V123 m outs c main_v289) (V123 m outs c main_v290) (V123 m outs c main_arg0)) :
    outs 124 main_v291 c = SpecK.kerG R (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by

  have e0 : V1 m c main_v0 = (truncf (F := Ideal) (s := SpecK.S100000x64) (φ := .f32) .bf16 (m ((c : Thread nD τ).loc main_arg0)) SpecK.bitsLt_bf16_f32) := v0_eq (V0 m c)
  have e3 : V1 m c main_v3 = SpecK.wideW (F := Ideal) (m ((c : Thread nD τ).loc main_arg1)) := v3_eq (V0 m c)
  have P1 : outs 2 main_v4 c = R.gemmG (truncf (F := Ideal) (s := SpecK.S100000x64) (φ := .f32) .bf16 (m ((c : Thread nD τ).loc main_arg0)) SpecK.bitsLt_bf16_f32) (SpecK.wideW (F := Ideal) (m ((c : Thread nD τ).loc main_arg1))) := by rw [hO2, e0, e3]
  have y1 : V57 m outs c main_v124 = (SpecK.convLayer R (m ((c : Thread nD τ).loc main_arg0)) (m ((c : Thread nD τ).loc main_arg1)) (m ((c : Thread nD τ).loc main_arg7)) (m ((c : Thread nD τ).loc main_arg8))) := (convA_eq m outs c).trans (by rw [P1] <;> rfl)

  have oh1 : V58 m outs c main_v125 = (SpecK.oneHot (F := Ideal) (m ((c : Thread nD τ).loc main_arg9))) :=
    (v125_eq (V57 m outs c)).trans (by rw [bi_at57 m outs c])
  have cnt1 : V59 m outs c main_v131 = (SpecK.counts (F := Ideal) (m ((c : Thread nD τ).loc main_arg9))) :=
    (v131_eq (V58 m outs c)).trans (by rw [bi_at58 m outs c])
  have yR1 : V59 m outs c main_v124 = (SpecK.convLayer R (m ((c : Thread nD τ).loc main_arg0)) (m ((c : Thread nD τ).loc main_arg1)) (m ((c : Thread nD τ).loc main_arg7)) (m ((c : Thread nD τ).loc main_arg8))) := (sumA_in59 m outs c).trans y1
  have ohR1 : V59 m outs c main_v125 = (SpecK.oneHot (F := Ideal) (m ((c : Thread nD τ).loc main_arg9))) := (hotA_in59 m outs c).trans oh1
  have s1 : V60 m outs c main_v132_0 = R.statsSumG (SpecK.convLayer R (m ((c : Thread nD τ).loc main_arg0)) (m ((c : Thread nD τ).loc main_arg1)) (m ((c : Thread nD τ).loc main_arg7)) (m ((c : Thread nD τ).loc main_arg8))) (SpecK.oneHot (F := Ideal) (m ((c : Thread nD τ).loc main_arg9))) := by
    rw [out60_sum m outs c, hO60a, yR1, ohR1]
  have q1 : V60 m outs c main_v132_1 = R.statsSqG (SpecK.convLayer R (m ((c : Thread nD τ).loc main_arg0)) (m ((c : Thread nD τ).loc main_arg1)) (m ((c : Thread nD τ).loc main_arg7)) (m ((c : Thread nD τ).loc main_arg8))) (SpecK.oneHot (F := Ideal) (m ((c : Thread nD τ).loc main_arg9))) := by
    rw [out60_sq m outs c, hO60b, yR1, ohR1]
  have cntS1 : V60 m outs c main_v131 = (SpecK.counts (F := Ideal) (m ((c : Thread nD τ).loc main_arg9))) := (cntA_in60 m outs c).trans cnt1
  have mean1 : V61 m outs c main_v135 = SpecK.meanOf R (SpecK.convLayer R (m ((c : Thread nD τ).loc main_arg0)) (m ((c : Thread nD τ).loc main_arg1)) (m ((c : Thread nD τ).loc main_arg7)) (m ((c : Thread nD τ).loc main_arg8))) (m ((c : Thread nD τ).loc main_arg9)) :=
    (v135_eq (V60 m outs c)).trans (by rw [s1, cntS1] <;> rfl)
  have var1 : V61 m outs c main_v142 = SpecK.varOf R (SpecK.convLayer R (m ((c : Thread nD τ).loc main_arg0)) (m ((c : Thread nD τ).loc main_arg1)) (m ((c : Thread nD τ).loc main_arg7)) (m ((c : Thread nD τ).loc main_arg8))) (m ((c : Thread nD τ).loc main_arg9)) :=
    (v142_eq (V60 m outs c)).trans (by rw [s1, q1, cntS1] <;> rfl)
  have gam1 : V61 m outs c main_v143 = SpecK.asRow (F := Ideal) (m ((c : Thread nD τ).loc main_arg2)) :=
    (v143_eq (V60 m outs c)).trans (by rw [g1_at60 m outs c])
  have bet1 : V61 m outs c main_v144 = SpecK.asRow (F := Ideal) (m ((c : Thread nD τ).loc main_arg3)) :=
    (v144_eq (V60 m outs c)).trans (by rw [b1_at60 m outs c])
  have yA1 : V61 m outs c main_v124 = (SpecK.convLayer R (m ((c : Thread nD τ).loc main_arg0)) (m ((c : Thread nD τ).loc main_arg1)) (m ((c : Thread nD τ).loc main_arg7)) (m ((c : Thread nD τ).loc main_arg8))) := (sumA_in61 m outs c).trans y1
  have ohA1 : V61 m outs c main_v125 = (SpecK.oneHot (F := Ideal) (m ((c : Thread nD τ).loc main_arg9))) := (hotA_in61 m outs c).trans oh1
  have a1 : outs 62 main_v145 c = (SpecK.normK R (SpecK.convLayer R (m ((c : Thread nD τ).loc main_arg0)) (m ((c : Thread nD τ).loc main_arg1)) (m ((c : Thread nD τ).loc main_arg7)) (m ((c : Thread nD τ).loc main_arg8))) (m ((c : Thread nD τ).loc main_arg9)) (m ((c : Thread nD τ).loc main_arg2)) (m ((c : Thread nD τ).loc main_arg3))) := by
    rw [hO62, yA1, ohA1, mean1, var1, gam1, bet1] <;> rfl

  have e146 : V63 m outs c main_v146 = (truncf (F := Ideal) (s := SpecK.S100000x64) (φ := .f32) .bf16 (SpecK.normK R (SpecK.convLayer R (m ((c : Thread nD τ).loc main_arg0)) (m ((c : Thread nD τ).loc main_arg1)) (m ((c : Thread nD τ).loc main_arg7)) (m ((c : Thread nD τ).loc main_arg8))) (m ((c : Thread nD τ).loc main_arg9)) (m ((c : Thread nD τ).loc main_arg2)) (m ((c : Thread nD τ).loc main_arg3))) SpecK.bitsLt_bf16_f32) :=
    (v146_eq (V62 m outs c)).trans (by rw [out62 m outs c, a1])
  have e149 : V63 m outs c main_v149 = SpecK.wideW (F := Ideal) (m ((c : Thread nD τ).loc main_arg4)) :=
    (v149_eq (V62 m outs c)).trans (by rw [w2_at62 m outs c])
  have P2 : outs 64 main_v150 c = R.gemmG (truncf (F := Ideal) (s := SpecK.S100000x64) (φ := .f32) .bf16 (SpecK.normK R (SpecK.convLayer R (m ((c : Thread nD τ).loc main_arg0)) (m ((c : Thread nD τ).loc main_arg1)) (m ((c : Thread nD τ).loc main_arg7)) (m ((c : Thread nD τ).loc main_arg8))) (m ((c : Thread nD τ).loc main_arg9)) (m ((c : Thread nD τ).loc main_arg2)) (m ((c : Thread nD τ).loc main_arg3))) SpecK.bitsLt_bf16_f32) (SpecK.wideW (F := Ideal) (m ((c : Thread nD τ).loc main_arg4))) := by rw [hO64, e146, e149]
  have y2 : V119 m outs c main_v270 = (SpecK.convLayer R (SpecK.normK R (SpecK.convLayer R (m ((c : Thread nD τ).loc main_arg0)) (m ((c : Thread nD τ).loc main_arg1)) (m ((c : Thread nD τ).loc main_arg7)) (m ((c : Thread nD τ).loc main_arg8))) (m ((c : Thread nD τ).loc main_arg9)) (m ((c : Thread nD τ).loc main_arg2)) (m ((c : Thread nD τ).loc main_arg3))) (m ((c : Thread nD τ).loc main_arg4)) (m ((c : Thread nD τ).loc main_arg7)) (m ((c : Thread nD τ).loc main_arg8))) := (convB_eq m outs c).trans (by rw [P2] <;> rfl)

  have oh2 : V120 m outs c main_v271 = (SpecK.oneHot (F := Ideal) (m ((c : Thread nD τ).loc main_arg9))) :=
    (v271_eq (V119 m outs c)).trans (by rw [bi_at119 m outs c])
  have cnt2 : V121 m outs c main_v277 = (SpecK.counts (F := Ideal) (m ((c : Thread nD τ).loc main_arg9))) :=
    (v277_eq (V120 m outs c)).trans (by rw [bi_at120 m outs c])
  have yR2 : V121 m outs c main_v270 = (SpecK.convLayer R (SpecK.normK R (SpecK.convLayer R (m ((c : Thread nD τ).loc main_arg0)) (m ((c : Thread nD τ).loc main_arg1)) (m ((c : Thread nD τ).loc main_arg7)) (m ((c : Thread nD τ).loc main_arg8))) (m ((c : Thread nD τ).loc main_arg9)) (m ((c : Thread nD τ).loc main_arg2)) (m ((c : Thread nD τ).loc main_arg3))) (m ((c : Thread nD τ).loc main_arg4)) (m ((c : Thread nD τ).loc main_arg7)) (m ((c : Thread nD τ).loc main_arg8))) := (sumB_in121 m outs c).trans y2
  have ohR2 : V121 m outs c main_v271 = (SpecK.oneHot (F := Ideal) (m ((c : Thread nD τ).loc main_arg9))) := (hotB_in121 m outs c).trans oh2
  have s2 : V122 m outs c main_v278_0 = R.statsSumG (SpecK.convLayer R (SpecK.normK R (SpecK.convLayer R (m ((c : Thread nD τ).loc main_arg0)) (m ((c : Thread nD τ).loc main_arg1)) (m ((c : Thread nD τ).loc main_arg7)) (m ((c : Thread nD τ).loc main_arg8))) (m ((c : Thread nD τ).loc main_arg9)) (m ((c : Thread nD τ).loc main_arg2)) (m ((c : Thread nD τ).loc main_arg3))) (m ((c : Thread nD τ).loc main_arg4)) (m ((c : Thread nD τ).loc main_arg7)) (m ((c : Thread nD τ).loc main_arg8))) (SpecK.oneHot (F := Ideal) (m ((c : Thread nD τ).loc main_arg9))) := by
    rw [out122_sum m outs c, hO122a, yR2, ohR2]
  have q2 : V122 m outs c main_v278_1 = R.statsSqG (SpecK.convLayer R (SpecK.normK R (SpecK.convLayer R (m ((c : Thread nD τ).loc main_arg0)) (m ((c : Thread nD τ).loc main_arg1)) (m ((c : Thread nD τ).loc main_arg7)) (m ((c : Thread nD τ).loc main_arg8))) (m ((c : Thread nD τ).loc main_arg9)) (m ((c : Thread nD τ).loc main_arg2)) (m ((c : Thread nD τ).loc main_arg3))) (m ((c : Thread nD τ).loc main_arg4)) (m ((c : Thread nD τ).loc main_arg7)) (m ((c : Thread nD τ).loc main_arg8))) (SpecK.oneHot (F := Ideal) (m ((c : Thread nD τ).loc main_arg9))) := by
    rw [out122_sq m outs c, hO122b, yR2, ohR2]
  have cntS2 : V122 m outs c main_v277 = (SpecK.counts (F := Ideal) (m ((c : Thread nD τ).loc main_arg9))) := (cntB_in122 m outs c).trans cnt2
  have mean2 : V123 m outs c main_v281 = SpecK.meanOf R (SpecK.convLayer R (SpecK.normK R (SpecK.convLayer R (m ((c : Thread nD τ).loc main_arg0)) (m ((c : Thread nD τ).loc main_arg1)) (m ((c : Thread nD τ).loc main_arg7)) (m ((c : Thread nD τ).loc main_arg8))) (m ((c : Thread nD τ).loc main_arg9)) (m ((c : Thread nD τ).loc main_arg2)) (m ((c : Thread nD τ).loc main_arg3))) (m ((c : Thread nD τ).loc main_arg4)) (m ((c : Thread nD τ).loc main_arg7)) (m ((c : Thread nD τ).loc main_arg8))) (m ((c : Thread nD τ).loc main_arg9)) :=
    (v281_eq (V122 m outs c)).trans (by rw [s2, cntS2] <;> rfl)
  have var2 : V123 m outs c main_v288 = SpecK.varOf R (SpecK.convLayer R (SpecK.normK R (SpecK.convLayer R (m ((c : Thread nD τ).loc main_arg0)) (m ((c : Thread nD τ).loc main_arg1)) (m ((c : Thread nD τ).loc main_arg7)) (m ((c : Thread nD τ).loc main_arg8))) (m ((c : Thread nD τ).loc main_arg9)) (m ((c : Thread nD τ).loc main_arg2)) (m ((c : Thread nD τ).loc main_arg3))) (m ((c : Thread nD τ).loc main_arg4)) (m ((c : Thread nD τ).loc main_arg7)) (m ((c : Thread nD τ).loc main_arg8))) (m ((c : Thread nD τ).loc main_arg9)) :=
    (v288_eq (V122 m outs c)).trans (by rw [s2, q2, cntS2] <;> rfl)
  have gam2 : V123 m outs c main_v289 = SpecK.asRow (F := Ideal) (m ((c : Thread nD τ).loc main_arg5)) :=
    (v289_eq (V122 m outs c)).trans (by rw [g2_at122 m outs c])
  have bet2 : V123 m outs c main_v290 = SpecK.asRow (F := Ideal) (m ((c : Thread nD τ).loc main_arg6)) :=
    (v290_eq (V122 m outs c)).trans (by rw [b2_at122 m outs c])
  have yA2 : V123 m outs c main_v270 = (SpecK.convLayer R (SpecK.normK R (SpecK.convLayer R (m ((c : Thread nD τ).loc main_arg0)) (m ((c : Thread nD τ).loc main_arg1)) (m ((c : Thread nD τ).loc main_arg7)) (m ((c : Thread nD τ).loc main_arg8))) (m ((c : Thread nD τ).loc main_arg9)) (m ((c : Thread nD τ).loc main_arg2)) (m ((c : Thread nD τ).loc main_arg3))) (m ((c : Thread nD τ).loc main_arg4)) (m ((c : Thread nD τ).loc main_arg7)) (m ((c : Thread nD τ).loc main_arg8))) := (sumB_in123 m outs c).trans y2
  have ohA2 : V123 m outs c main_v271 = (SpecK.oneHot (F := Ideal) (m ((c : Thread nD τ).loc main_arg9))) := (hotB_in123 m outs c).trans oh2
  rw [hO124, yA2, ohA2, mean2, var2, gam2, bet2, res_at123 m outs c] <;> rfl

end Cert.KernelIdeal.Host
-- ==== Proof.RegGemmPayValue.lean ====
import proofs.«404940_j85761906966882_2_alg».proof.Proof.Gen.KernelIdeal.Skeleton
import Idealize.ShloMosaic.Lib.ValueIdx
import Idealize.ShloMosaic.PureOps.Ideal.Laws
import Idealize.ShloMosaic.Lib.Pipeline.Value

noncomputable section

namespace Cert.KernelIdeal.Gen

open Idealize.ShloMosaic Idealize.ShloMosaic.ValueIdx
open scoped BigOperators

def gemmG (x : S100000x64.Idx → EReal) (w : S64x1728.Idx → EReal) : S100000x1728.Idx → EReal :=
  fun i => ∑ d : Fin 64, x (ix2 (i 0) d) * w (ix2 d (i 1))

theorem lhs_gemm_0 (i : S1000x1728.Idx) (q : dot_S1000x64_S64x1728_S1000x1728_1_0_0_1_n_n.contr.Idx) :
    (dot_S1000x64_S64x1728_S1000x1728_1_0_0_1_n_n.lhsIdx i q 0).val = (i 0).val := by
  unfold DotDims.lhsIdx
  rw [dif_neg (show ¬(0 : Fin S1000x64.rank) ∈ dot_S1000x64_S64x1728_S1000x1728_1_0_0_1_n_n.lhsBatch by decide), dif_pos (show (0 : Fin S1000x64.rank) ∈ dot_S1000x64_S64x1728_S1000x1728_1_0_0_1_n_n.lhsNonContracting by decide)]
  rfl

theorem lhs_gemm_1 (i : S1000x1728.Idx) (q : dot_S1000x64_S64x1728_S1000x1728_1_0_0_1_n_n.contr.Idx) :
    (dot_S1000x64_S64x1728_S1000x1728_1_0_0_1_n_n.lhsIdx i q 1).val = (q ⟨0, by decide⟩).val :=
  dot_S1000x64_S64x1728_S1000x1728_1_0_0_1_n_n.lhsIdx_val_of_single rfl i q

theorem rhs_gemm_0 (i : S1000x1728.Idx) (q : dot_S1000x64_S64x1728_S1000x1728_1_0_0_1_n_n.contr.Idx) :
    (dot_S1000x64_S64x1728_S1000x1728_1_0_0_1_n_n.rhsIdx i q 0).val = (q ⟨0, by decide⟩).val :=
  dot_S1000x64_S64x1728_S1000x1728_1_0_0_1_n_n.rhsIdx_val_of_single rfl i q

theorem rhs_gemm_1 (i : S1000x1728.Idx) (q : dot_S1000x64_S64x1728_S1000x1728_1_0_0_1_n_n.contr.Idx) :
    (dot_S1000x64_S64x1728_S1000x1728_1_0_0_1_n_n.rhsIdx i q 1).val = (i 1).val := by
  unfold DotDims.rhsIdx
  rw [dif_neg (show ¬(1 : Fin S64x1728.rank) ∈ dot_S1000x64_S64x1728_S1000x1728_1_0_0_1_n_n.rhsBatch by decide), dif_pos (show (1 : Fin S64x1728.rank) ∈ dot_S1000x64_S64x1728_S1000x1728_1_0_0_1_n_n.rhsNonContracting by decide)]
  rfl

theorem blockProduct_apply (v0 : FVec Ideal S1000x64 .bf16) (v2 : FVec Ideal S64x1728 .bf16) (n : Fin 1000) (j : Fin 1728) :
    matmul (F := Ideal) dot_S1000x64_S64x1728_S1000x1728_1_0_0_1_n_n none v0 v2 (constant S1000x1728 .f32 0x00000000#32) (ix2 n j)
      = ∑ d : Fin 64, v0 (ix2 n d) * v2 (ix2 d j) := by
  refine (Ideal.matmul_constant_zero_apply dot_S1000x64_S64x1728_S1000x1728_1_0_0_1_n_n none v0 v2 (ix2 n j)).trans ?_
  rw [← Equiv.sum_comp (ValueIdx.contrEquiv1 dot_S1000x64_S64x1728_S1000x1728_1_0_0_1_n_n 64 rfl rfl).symm]
  refine Finset.sum_congr rfl fun k _ => ?_
  have hk := ValueIdx.contrEquiv1_symm_val dot_S1000x64_S64x1728_S1000x1728_1_0_0_1_n_n 64 rfl rfl k
  have el : dot_S1000x64_S64x1728_S1000x1728_1_0_0_1_n_n.lhsIdx (ix2 n j) ((ValueIdx.contrEquiv1 dot_S1000x64_S64x1728_S1000x1728_1_0_0_1_n_n 64 rfl rfl).symm k) = ix2 n k := funext fun a => Fin.ext (by
    match a with
    | ⟨0, _⟩ => exact lhs_gemm_0 _ _
    | ⟨1, _⟩ => exact (lhs_gemm_1 _ _).trans hk)
  have er : dot_S1000x64_S64x1728_S1000x1728_1_0_0_1_n_n.rhsIdx (ix2 n j) ((ValueIdx.contrEquiv1 dot_S1000x64_S64x1728_S1000x1728_1_0_0_1_n_n 64 rfl rfl).symm k) = ix2 k j := funext fun a => Fin.ext (by
    match a with
    | ⟨0, _⟩ => exact (rhs_gemm_0 _ _).trans hk
    | ⟨1, _⟩ => exact rhs_gemm_1 _ _)
  rw [el, er]

theorem k0_pay1_apply (v0 : Vec Ideal S1000x64 .bf16) (v2 : Vec Ideal S64x1728 .bf16) (n : Fin 1000) (j : Fin 1728) :
    k0_pay1 (F := Ideal) v0 v2 (ix2 n j) = ∑ d : Fin 64, v0 (ix2 n d) * v2 (ix2 d j) := by
  unfold k0_pay1
  simp only [shapeCast_self]
  exact blockProduct_apply v0 v2 n j

theorem k3_pay1_apply (v0 : Vec Ideal S1000x64 .bf16) (v2 : Vec Ideal S64x1728 .bf16) (n : Fin 1000) (j : Fin 1728) :
    k3_pay1 (F := Ideal) v0 v2 (ix2 n j) = ∑ d : Fin 64, v0 (ix2 n d) * v2 (ix2 d j) := by
  unfold k3_pay1
  simp only [shapeCast_self]
  exact blockProduct_apply v0 v2 n j

end Cert.KernelIdeal.Gen

end
-- ==== Proof.RegGemmValue.lean ====
import proofs.«404940_j85761906966882_2_alg».proof.Proof.RegGemm
import proofs.«404940_j85761906966882_2_alg».proof.Proof.RegGemmPayValue

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

section Gemm0Value
variable (V : (c : Dev nD) → (b : Ref sig .tc) → Buf (Elt Ideal) ((c : Thread nD τ).loc b))

theorem origin0 : (![0, 0] : Fin 2 → Nat) = fun _ => 0 := funext fun a => by fin_cases a <;> rfl

theorem blockPos0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem product0_at (x0 : Vec Ideal S1000x64 .bf16) (x1 : Vec Ideal S64x1728 .bf16) (y : S1000x1728.Idx) :
    k0_pay1 (F := Ideal) x0 x1 y = ∑ d : Fin 64, x0 (ix2 (y 0) d) * x1 (ix2 d (y 1)) := by
  obtain ⟨p, q, rfl⟩ : ∃ (p : Fin 1000) (q : Fin 1728), y = ix2 p q := ⟨y 0, y 1, eq_ix2 y⟩
  exact k0_pay1_apply x0 x1 p q

theorem flushed0_2_eq (c : Dev nD) (t : Fin cfg0.N) :
    (dat0 (F := Ideal) V c).flushed 2 t
      = ((cfg0.win 2).blk t).view.read (Elt Ideal) (gemmG (V c main_v0) (V c main_v3)) := by
  show (cfg0.win 2).cut (grid0.coords t) ((dat0 V c).after 2 t) = _
  rw [after0_2]
  unfold out0_2
  rw [View.canon_unit_zero origin0]
  simp only [View.ld_unit_zero (S := S1000x64) origin0, View.ld_unit_zero (S := S64x1728) origin0]
  obtain ⟨e00, e01, e10, e11, e20, e21⟩ := blockPos0 t
  funext y
  show k0_pay1 (F := Ideal) (iblk0 V c 0 t) (iblk0 V c 1 t) y = gemmG (V c main_v0) (V c main_v3) (((cfg0.win 2).blk t).view.emb y)
  refine (product0_at (iblk0 V c 0 t) (iblk0 V c 1 t) y).trans ?_
  unfold gemmG
  refine Finset.sum_congr rfl fun d _ => ?_
  have hy0 : (y 0).val < 1000 := (y 0).isLt
  have hy1 : (y 1).val < 1728 := (y 1).isLt
  have h0 : iblk0 V c 0 t (ix2 (y 0) d) = V c main_v0 (ix2 ((((cfg0.win 2).blk t).view.emb y) 0) d) := by
    show V c main_v0 (((cfg0.win 0).blk t).view.emb (ix2 (y 0) d)) = _
    refine congrArg (V c main_v0) (funext fun a => Fin.ext ?_)
    match a with
    | ⟨0, _⟩ => show win0_0.index t (0 : Fin 2) * 1000 + 1 * (y 0).val = win0_2.index t (0 : Fin 2) * 1000 + 1 * (y 0).val; omega
    | ⟨1, _⟩ => show win0_0.index t (1 : Fin 2) * 64 + 1 * d.val = d.val; omega
  have h1 : iblk0 V c 1 t (ix2 d (y 1)) = V c main_v3 (ix2 d ((((cfg0.win 2).blk t).view.emb y) 1)) := by
    show V c main_v3 (((cfg0.win 1).blk t).view.emb (ix2 d (y 1))) = _
    refine congrArg (V c main_v3) (funext fun a => Fin.ext ?_)
    match a with
    | ⟨0, _⟩ => show win0_1.index t (0 : Fin 2) * 64 + 1 * d.val = d.val; omega
    | ⟨1, _⟩ => show win0_1.index t (1 : Fin 2) * 1728 + 1 * (y 1).val = win0_2.index t (1 : Fin 2) * 1728 + 1 * (y 1).val; omega
  rw [h0, h1]

theorem mem_blk0_2 (t : Fin cfg0.N) (i : S100000x1728.Idx) :
    i ∈ ((cfg0.win 2).blk t).view.set ↔ ∀ a : Fin 2, win0_2.index t a * S1000x1728.size a ≤ (i a).val ∧ (i a).val < win0_2.index t a * S1000x1728.size a + S1000x1728.size a := by
  show i ∈ ((View.whole main_v4).slice (win0_2.rect t)).set ↔ _
  rw [View.set_slice_whole, Rect.mem_set_unit]
  exact Iff.rfl

theorem covered0_2 (i : S100000x1728.Idx) :
    ∃ t : Fin cfg0.N, (cfg0.win 2).flush t = true ∧ i ∈ ((cfg0.win 2).blk t).view.set := by
  have hi0 : (i 0).val < 100000 := (i 0).isLt
  have hi1 : (i 1).val < 1728 := (i 1).isLt
  obtain ⟨t, ht⟩ : ∃ t : Fin cfg0.N, t.val = (i 0).val / 1000 :=
    ⟨⟨(i 0).val / 1000, by show (i 0).val / 1000 < grid0.N; rw [N_0]; omega⟩, rfl⟩
  obtain ⟨e00, e01, e10, e11, e20, e21⟩ := blockPos0 t
  refine ⟨t, flush0_2 t, ?_⟩
  rw [mem_blk0_2]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 1728 ≤ (i 1).val ∧ (i 1).val < win0_2.index t (1 : Fin 2) * 1728 + 1728; omega

theorem final0_2 (c : Dev nD) : (dat0 (F := Ideal) V c).arrAt 2 cfg0.N = gemmG (V c main_v0) (V c main_v3) :=
  (dat0 (F := Ideal) V c).arrAt_eq_of_cover 2 (gemmG (V c main_v0) (V c main_v3)) (fun t _ => flushed0_2_eq V c t) (covered0_2)

end Gemm0Value

end Cert.KernelIdeal.Gen

end
-- ==== Proof.RegGemm3Value.lean ====
import proofs.«404940_j85761906966882_2_alg».proof.Proof.RegGemm3
import proofs.«404940_j85761906966882_2_alg».proof.Proof.RegGemmPayValue

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

section Gemm3Value
variable (V : (c : Dev nD) → (b : Ref sig .tc) → Buf (Elt Ideal) ((c : Thread nD τ).loc b))

theorem origin3 : (![0, 0] : Fin 2 → Nat) = fun _ => 0 := funext fun a => by fin_cases a <;> rfl

theorem blockPos3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem product3_at (x0 : Vec Ideal S1000x64 .bf16) (x1 : Vec Ideal S64x1728 .bf16) (y : S1000x1728.Idx) :
    k3_pay1 (F := Ideal) x0 x1 y = ∑ d : Fin 64, x0 (ix2 (y 0) d) * x1 (ix2 d (y 1)) := by
  obtain ⟨p, q, rfl⟩ : ∃ (p : Fin 1000) (q : Fin 1728), y = ix2 p q := ⟨y 0, y 1, eq_ix2 y⟩
  exact k3_pay1_apply x0 x1 p q

theorem flushed3_2_eq (c : Dev nD) (t : Fin cfg3.N) :
    (dat3 (F := Ideal) V c).flushed 2 t
      = ((cfg3.win 2).blk t).view.read (Elt Ideal) (gemmG (V c main_v146) (V c main_v149)) := by
  show (cfg3.win 2).cut (grid3.coords t) ((dat3 V c).after 2 t) = _
  rw [after3_2]
  unfold out3_2
  rw [View.canon_unit_zero origin3]
  simp only [View.ld_unit_zero (S := S1000x64) origin3, View.ld_unit_zero (S := S64x1728) origin3]
  obtain ⟨e00, e01, e10, e11, e20, e21⟩ := blockPos3 t
  funext y
  show k3_pay1 (F := Ideal) (iblk3 V c 0 t) (iblk3 V c 1 t) y = gemmG (V c main_v146) (V c main_v149) (((cfg3.win 2).blk t).view.emb y)
  refine (product3_at (iblk3 V c 0 t) (iblk3 V c 1 t) y).trans ?_
  unfold gemmG
  refine Finset.sum_congr rfl fun d _ => ?_
  have hy0 : (y 0).val < 1000 := (y 0).isLt
  have hy1 : (y 1).val < 1728 := (y 1).isLt
  have h0 : iblk3 V c 0 t (ix2 (y 0) d) = V c main_v146 (ix2 ((((cfg3.win 2).blk t).view.emb y) 0) d) := by
    show V c main_v146 (((cfg3.win 0).blk t).view.emb (ix2 (y 0) d)) = _
    refine congrArg (V c main_v146) (funext fun a => Fin.ext ?_)
    match a with
    | ⟨0, _⟩ => show win3_0.index t (0 : Fin 2) * 1000 + 1 * (y 0).val = win3_2.index t (0 : Fin 2) * 1000 + 1 * (y 0).val; omega
    | ⟨1, _⟩ => show win3_0.index t (1 : Fin 2) * 64 + 1 * d.val = d.val; omega
  have h1 : iblk3 V c 1 t (ix2 d (y 1)) = V c main_v149 (ix2 d ((((cfg3.win 2).blk t).view.emb y) 1)) := by
    show V c main_v149 (((cfg3.win 1).blk t).view.emb (ix2 d (y 1))) = _
    refine congrArg (V c main_v149) (funext fun a => Fin.ext ?_)
    match a with
    | ⟨0, _⟩ => show win3_1.index t (0 : Fin 2) * 64 + 1 * d.val = d.val; omega
    | ⟨1, _⟩ => show win3_1.index t (1 : Fin 2) * 1728 + 1 * (y 1).val = win3_2.index t (1 : Fin 2) * 1728 + 1 * (y 1).val; omega
  rw [h0, h1]

theorem mem_blk3_2 (t : Fin cfg3.N) (i : S100000x1728.Idx) :
    i ∈ ((cfg3.win 2).blk t).view.set ↔ ∀ a : Fin 2, win3_2.index t a * S1000x1728.size a ≤ (i a).val ∧ (i a).val < win3_2.index t a * S1000x1728.size a + S1000x1728.size a := by
  show i ∈ ((View.whole main_v150).slice (win3_2.rect t)).set ↔ _
  rw [View.set_slice_whole, Rect.mem_set_unit]
  exact Iff.rfl

theorem covered3_2 (i : S100000x1728.Idx) :
    ∃ t : Fin cfg3.N, (cfg3.win 2).flush t = true ∧ i ∈ ((cfg3.win 2).blk t).view.set := by
  have hi0 : (i 0).val < 100000 := (i 0).isLt
  have hi1 : (i 1).val < 1728 := (i 1).isLt
  obtain ⟨t, ht⟩ : ∃ t : Fin cfg3.N, t.val = (i 0).val / 1000 :=
    ⟨⟨(i 0).val / 1000, by show (i 0).val / 1000 < grid3.N; rw [N_3]; omega⟩, rfl⟩
  obtain ⟨e00, e01, e10, e11, e20, e21⟩ := blockPos3 t
  refine ⟨t, flush3_2 t, ?_⟩
  rw [mem_blk3_2]
  intro a
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 1728 ≤ (i 1).val ∧ (i 1).val < win3_2.index t (1 : Fin 2) * 1728 + 1728; omega

theorem final3_2 (c : Dev nD) : (dat3 (F := Ideal) V c).arrAt 2 cfg3.N = gemmG (V c main_v146) (V c main_v149) :=
  (dat3 (F := Ideal) V c).arrAt_eq_of_cover 2 (gemmG (V c main_v146) (V c main_v149)) (fun t _ => flushed3_2_eq V c t) (covered3_2)

end Gemm3Value

end Cert.KernelIdeal.Gen

end
-- ==== Proof.ReadKDefs.lean ====
import Idealize.ShloMosaic.Lib.ValueIdx

noncomputable section

namespace Cert.ReadK

open Idealize.ShloMosaic Idealize.ShloMosaic.ValueIdx

def srcOf (im : IVec ⟨2, ![27, 100000]⟩ 32) (k : Fin 27) (n : Fin 100000) : Fin 100000 :=
  ⟨min (im (ix2 k n)).toInt.toNat 99999, by omega⟩

def wrapInt (v : Int) : Int := if v < 0 then v + 100000 else v

def dstOf (om : IVec ⟨2, ![27, 100000]⟩ 32) (k : Fin 27) (n : Fin 100000) : Option (Fin 100000) :=
  if h : 0 ≤ wrapInt (om (ix2 k n)).toInt ∧ wrapInt (om (ix2 k n)).toInt < 100000 then
    some ⟨(wrapInt (om (ix2 k n)).toInt).toNat, by omega⟩
  else none

def batchOf (bi : IVec ⟨1, ![100000]⟩ 32) (i : Fin 100000) : Fin 8 :=
  ⟨min (bi (ix1 i)).toInt.toNat 7, by omega⟩

def x2 (x : FVec Ideal ⟨2, ![100000, 64]⟩ .f32) (i : Fin 100000) (c : Fin 64) : EReal := x (ix2 i c)

def w3 (W : FVec Ideal ⟨3, ![27, 64, 64]⟩ .f32) (k : Fin 27) (j c : Fin 64) : EReal := W (ix3 k j c)

def v1 (g : FVec Ideal ⟨1, ![64]⟩ .f32) (c : Fin 64) : EReal := g (ix1 c)

def epsE : EReal := Ideal.ofBits .f32 0x3727C5AC#32

def leakyE (y : EReal) : EReal :=
  Scalar.select (Ideal.cmp .ogt y (Ideal.ofBits .f32 0x00000000#32)) y (Ideal.ofBits .f32 0x3C23D70A#32 * y)

theorem toInt_wrap_word (v : BitVec 32) :
    (Scalar.select (IntOp.cmpi .slt v 0#32) (IntOp.addi v 100000#32) v).toInt = wrapInt v.toInt := by
  have hlo := BitVec.le_toInt v
  have hhi := BitVec.toInt_lt (x := v)
  unfold wrapInt
  by_cases hneg : v.toInt < 0
  · have hc : IntOp.cmpi .slt v 0#32 = 1#1 := by
      simp [IntOp.cmpi, BitVec.slt, hneg]
    rw [hc, select_one, if_pos hneg]
    show (v + 100000#32).toInt = _
    rw [BitVec.toInt_add]
    have h1 : (100000#32).toInt = 100000 := by decide
    rw [h1]
    have hlo' : -2147483648 ≤ v.toInt := by simpa using hlo
    have hb : (v.toInt + 100000).bmod (2 ^ 32) = v.toInt + 100000 :=
      Int.bmod_eq_of_le (by omega) (by omega)
    exact hb
  · have hc : IntOp.cmpi .slt v 0#32 = 0#1 := by
      simp [IntOp.cmpi, BitVec.slt, hneg]
    rw [hc, select_zero, if_neg hneg]

end Cert.ReadK
-- ==== Proof.ReadKFacts.lean ====
import proofs.«404940_j85761906966882_2_alg».proof.Proof.SpecK
import proofs.«404940_j85761906966882_2_alg».proof.Proof.ReadKDefs

noncomputable section

namespace Cert.ReadK

open Idealize.ShloMosaic Idealize.ShloMosaic.ValueIdx Cert.SpecK
open scoped BigOperators

structure RegionFacts (R : Regions Ideal) : Prop where
  gemm : ∀ (x : FVec Ideal S100000x64 .bf16) (w : FVec Ideal S64x1728 .bf16) (n : Fin 100000) (q : Fin 1728),
    R.gemmG x w (ix2 n q) = ∑ d : Fin 64, x (ix2 n d) * w (ix2 d q)
  sum : ∀ (x : FVec Ideal S100000x64 .f32) (oh : FVec Ideal S100000x8 .bf16) (b : Fin 8) (c : Fin 64),
    R.statsSumG x oh (ix2 b c) = ∑ i : Fin 100000, oh (ix2 i b) * x (ix2 i c)
  sq : ∀ (x : FVec Ideal S100000x64 .f32) (oh : FVec Ideal S100000x8 .bf16) (b : Fin 8) (c : Fin 64),
    R.statsSqG x oh (ix2 b c) = ∑ i : Fin 100000, oh (ix2 i b) * (x (ix2 i c) * x (ix2 i c))
  apply : ∀ (x : FVec Ideal S100000x64 .f32) (oh : FVec Ideal S100000x8 .bf16) (m v : FVec Ideal S8x64 .f32)
      (g bt : FVec Ideal S1x64 .f32) (i : Fin 100000) (c : Fin 64),
    R.applyG x oh m v g bt (ix2 i c)
      = leakyE ((x (ix2 i c) - ∑ b : Fin 8, oh (ix2 i b) * m (ix2 b c))
          * Ideal.rsqrt ((∑ b : Fin 8, oh (ix2 i b) * v (ix2 b c)) + epsE) * g (ix2 (0 : Fin 1) c) + bt (ix2 (0 : Fin 1) c))
  applyRes : ∀ (x : FVec Ideal S100000x64 .f32) (oh : FVec Ideal S100000x8 .bf16) (m v : FVec Ideal S8x64 .f32)
      (g bt : FVec Ideal S1x64 .f32) (res : FVec Ideal S100000x64 .f32) (i : Fin 100000) (c : Fin 64),
    R.applyResG x oh m v g bt res (ix2 i c)
      = leakyE ((x (ix2 i c) - ∑ b : Fin 8, oh (ix2 i b) * m (ix2 b c))
          * Ideal.rsqrt ((∑ b : Fin 8, oh (ix2 i b) * v (ix2 b c)) + epsE) * g (ix2 (0 : Fin 1) c) + bt (ix2 (0 : Fin 1) c)
          + res (ix2 i c))

end Cert.ReadK
-- ==== Proof.KerRegions.lean ====
import proofs.«404940_j85761906966882_2_alg».proof.Proof.SpecK
import proofs.«404940_j85761906966882_2_alg».proof.Proof.ReadKDefs
import proofs.«404940_j85761906966882_2_alg».proof.Proof.ReadKFacts

noncomputable section

namespace Cert.KerRegions

open Idealize.ShloMosaic Idealize.ShloMosaic.ValueIdx Cert.SpecK Cert.ReadK
open scoped BigOperators

def gemmG (x : FVec Ideal S100000x64 .bf16) (w : FVec Ideal S64x1728 .bf16) : FVec Ideal S100000x1728 .f32 :=
  fun j => ∑ d : Fin 64, x (ix2 (j 0) d) * w (ix2 d (j 1))

def statsSumG (x : FVec Ideal S100000x64 .f32) (oh : FVec Ideal S100000x8 .bf16) : FVec Ideal S8x64 .f32 :=
  fun j => ∑ i : Fin 100000, oh (ix2 i (j 0)) * x (ix2 i (j 1))

def statsSqG (x : FVec Ideal S100000x64 .f32) (oh : FVec Ideal S100000x8 .bf16) : FVec Ideal S8x64 .f32 :=
  fun j => ∑ i : Fin 100000, oh (ix2 i (j 0)) * (x (ix2 i (j 1)) * x (ix2 i (j 1)))

def normE (x m v g b : EReal) : EReal := (x - m) * Ideal.rsqrt (v + epsE) * g + b

def rowOf (oh : FVec Ideal S100000x8 .bf16) (t : FVec Ideal S8x64 .f32) (i : Fin 100000) (c : Fin 64) : EReal :=
  ∑ b : Fin 8, oh (ix2 i b) * t (ix2 b c)

def applyG (x : FVec Ideal S100000x64 .f32) (oh : FVec Ideal S100000x8 .bf16) (m v : FVec Ideal S8x64 .f32)
    (g bt : FVec Ideal S1x64 .f32) : FVec Ideal S100000x64 .f32 :=
  fun j => leakyE (normE (x (ix2 (j 0) (j 1))) (rowOf oh m (j 0) (j 1)) (rowOf oh v (j 0) (j 1))
    (g (ix2 (0 : Fin 1) (j 1))) (bt (ix2 (0 : Fin 1) (j 1))))

def applyResG (x : FVec Ideal S100000x64 .f32) (oh : FVec Ideal S100000x8 .bf16) (m v : FVec Ideal S8x64 .f32)
    (g bt : FVec Ideal S1x64 .f32) (res : FVec Ideal S100000x64 .f32) : FVec Ideal S100000x64 .f32 :=
  fun j => leakyE (normE (x (ix2 (j 0) (j 1))) (rowOf oh m (j 0) (j 1)) (rowOf oh v (j 0) (j 1))
    (g (ix2 (0 : Fin 1) (j 1))) (bt (ix2 (0 : Fin 1) (j 1))) + res (ix2 (j 0) (j 1)))

@[reducible] def R : Regions Ideal where
  gemmG := gemmG
  statsSumG := statsSumG
  statsSqG := statsSqG
  applyG := applyG
  applyResG := applyResG

theorem gemmG_at (x : FVec Ideal S100000x64 .bf16) (w : FVec Ideal S64x1728 .bf16) (n : Fin 100000) (q : Fin 1728) :
    gemmG x w (ix2 n q) = ∑ d : Fin 64, x (ix2 n d) * w (ix2 d q) := rfl

theorem statsSumG_at (x : FVec Ideal S100000x64 .f32) (oh : FVec Ideal S100000x8 .bf16) (b : Fin 8) (c : Fin 64) :
    statsSumG x oh (ix2 b c) = ∑ i : Fin 100000, oh (ix2 i b) * x (ix2 i c) := rfl

theorem statsSqG_at (x : FVec Ideal S100000x64 .f32) (oh : FVec Ideal S100000x8 .bf16) (b : Fin 8) (c : Fin 64) :
    statsSqG x oh (ix2 b c) = ∑ i : Fin 100000, oh (ix2 i b) * (x (ix2 i c) * x (ix2 i c)) := rfl

theorem applyG_at (x : FVec Ideal S100000x64 .f32) (oh : FVec Ideal S100000x8 .bf16) (m v : FVec Ideal S8x64 .f32)
    (g bt : FVec Ideal S1x64 .f32) (i : Fin 100000) (c : Fin 64) :
    applyG x oh m v g bt (ix2 i c)
      = leakyE (normE (x (ix2 i c)) (∑ b : Fin 8, oh (ix2 i b) * m (ix2 b c)) (∑ b : Fin 8, oh (ix2 i b) * v (ix2 b c))
          (g (ix2 (0 : Fin 1) c)) (bt (ix2 (0 : Fin 1) c))) := rfl

theorem applyResG_at (x : FVec Ideal S100000x64 .f32) (oh : FVec Ideal S100000x8 .bf16) (m v : FVec Ideal S8x64 .f32)
    (g bt : FVec Ideal S1x64 .f32) (res : FVec Ideal S100000x64 .f32) (i : Fin 100000) (c : Fin 64) :
    applyResG x oh m v g bt res (ix2 i c)
      = leakyE (normE (x (ix2 i c)) (∑ b : Fin 8, oh (ix2 i b) * m (ix2 b c)) (∑ b : Fin 8, oh (ix2 i b) * v (ix2 b c))
          (g (ix2 (0 : Fin 1) c)) (bt (ix2 (0 : Fin 1) c)) + res (ix2 i c)) := rfl

theorem R_gemmG : R.gemmG = gemmG := by dsimp only [R]
theorem R_statsSumG : R.statsSumG = statsSumG := by dsimp only [R]
theorem R_statsSqG : R.statsSqG = statsSqG := by dsimp only [R]
theorem R_applyG : R.applyG = applyG := by dsimp only [R]
theorem R_applyResG : R.applyResG = applyResG := by dsimp only [R]

theorem facts : RegionFacts R where
  gemm := fun x w n q => by rw [R_gemmG]; exact gemmG_at x w n q
  sum := fun x oh b c => by rw [R_statsSumG]; exact statsSumG_at x oh b c
  sq := fun x oh b c => by rw [R_statsSqG]; exact statsSqG_at x oh b c
  apply := fun x oh m v g bt i c => by rw [R_applyG]; exact applyG_at x oh m v g bt i c
  applyRes := fun x oh m v g bt res i c => by rw [R_applyResG]; exact applyResG_at x oh m v g bt res i c

end Cert.KerRegions

end
-- ==== Proof.RegGemmSpecValue.lean ====
import proofs.«404940_j85761906966882_2_alg».proof.Proof.RegGemmValue
import proofs.«404940_j85761906966882_2_alg».proof.Proof.RegGemm3Value
import proofs.«404940_j85761906966882_2_alg».proof.Proof.KerRegions

noncomputable section

namespace Cert.KernelIdeal.Gen

open Idealize.ShloMosaic Idealize.ShloMosaic.TcCoe
open Idealize.SL Idealize.SL.Sem

section
variable (V : (c : Dev nD) → (b : Ref sig .tc) → Buf (Elt Ideal) ((c : Thread nD τ).loc b))

theorem final0_2_spec (c : Dev nD) :
    (dat0 (F := Ideal) V c).arrAt 2 cfg0.N = Cert.KerRegions.gemmG (V c main_v0) (V c main_v3) :=
  final0_2 V c

theorem final3_2_spec (c : Dev nD) :
    (dat3 (F := Ideal) V c).arrAt 2 cfg3.N = Cert.KerRegions.gemmG (V c main_v146) (V c main_v149) :=
  final3_2 V c

end

end Cert.KernelIdeal.Gen

end
-- ==== Proof.RegApplyPay.lean ====
import proofs.«404940_j85761906966882_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Gen

open Idealize.ShloMosaic Idealize.ShloMosaic.ValueIdx
open scoped BigOperators

theorem hzApply : (![0, 0] : Fin 2 → Nat) = fun _ => 0 := funext fun a => by fin_cases a <;> rfl

theorem lhs_dotApply_0 (j : S5000x64.Idx) (k : dot_S5000x8_S8x64_S5000x64_1_0_0_1_n_n.contr.Idx) :
    ((dot_S5000x8_S8x64_S5000x64_1_0_0_1_n_n.lhsIdx j k) 0).val = (j 0).val := by
  unfold DotDims.lhsIdx
  rw [dif_neg (show ¬(0 : Fin S5000x8.rank) ∈ dot_S5000x8_S8x64_S5000x64_1_0_0_1_n_n.lhsBatch by decide),
    dif_pos (show (0 : Fin S5000x8.rank) ∈ dot_S5000x8_S8x64_S5000x64_1_0_0_1_n_n.lhsNonContracting by decide)]
  rfl

theorem lhs_dotApply_1 (j : S5000x64.Idx) (k : dot_S5000x8_S8x64_S5000x64_1_0_0_1_n_n.contr.Idx) :
    ((dot_S5000x8_S8x64_S5000x64_1_0_0_1_n_n.lhsIdx j k) 1).val = (k ⟨0, by decide⟩).val :=
  dot_S5000x8_S8x64_S5000x64_1_0_0_1_n_n.lhsIdx_val_of_single (cl := 1) rfl j k

theorem rhs_dotApply_0 (j : S5000x64.Idx) (k : dot_S5000x8_S8x64_S5000x64_1_0_0_1_n_n.contr.Idx) :
    ((dot_S5000x8_S8x64_S5000x64_1_0_0_1_n_n.rhsIdx j k) 0).val = (k ⟨0, by decide⟩).val :=
  dot_S5000x8_S8x64_S5000x64_1_0_0_1_n_n.rhsIdx_val_of_single (cr := 0) rfl j k

theorem rhs_dotApply_1 (j : S5000x64.Idx) (k : dot_S5000x8_S8x64_S5000x64_1_0_0_1_n_n.contr.Idx) :
    ((dot_S5000x8_S8x64_S5000x64_1_0_0_1_n_n.rhsIdx j k) 1).val = (j 1).val := by
  unfold DotDims.rhsIdx
  rw [dif_neg (show ¬(1 : Fin S8x64.rank) ∈ dot_S5000x8_S8x64_S5000x64_1_0_0_1_n_n.rhsBatch by decide),
    dif_pos (show (1 : Fin S8x64.rank) ∈ dot_S5000x8_S8x64_S5000x64_1_0_0_1_n_n.rhsNonContracting by decide)]
  rfl

theorem matmulApply_at (l : FVec Ideal S5000x8 .f32) (r : FVec Ideal S8x64 .f32) (p : Fin 5000) (q : Fin 64) :
    matmul dot_S5000x8_S8x64_S5000x64_1_0_0_1_n_n (some .fp32) l r (constant S5000x64 .f32 0x00000000#32) (ix2 p q)
      = ∑ b : Fin 8, l (ix2 p b) * r (ix2 b q) := by
  show FloatOps.matmul dot_S5000x8_S8x64_S5000x64_1_0_0_1_n_n (some .fp32) l r (constant S5000x64 .f32 0x00000000#32) (ix2 p q) = _
  rw [Ideal.matmul_constant_zero_apply]
  rw [← Equiv.sum_comp (contrEquiv1 dot_S5000x8_S8x64_S5000x64_1_0_0_1_n_n 8 rfl rfl).symm]
  refine Finset.sum_congr rfl fun b _ => ?_
  have hk := contrEquiv1_symm_val dot_S5000x8_S8x64_S5000x64_1_0_0_1_n_n 8 rfl rfl b
  congr 2
  · funext a; apply Fin.ext
    match a with
    | ⟨0, _⟩ => exact lhs_dotApply_0 _ _
    | ⟨1, _⟩ => exact (lhs_dotApply_1 _ _).trans hk
  · funext a; apply Fin.ext
    match a with
    | ⟨0, _⟩ => exact (rhs_dotApply_0 _ _).trans hk
    | ⟨1, _⟩ => exact rhs_dotApply_1 _ _

theorem bcastRow_at {α : Type} (g : S1x64.Idx → α) (p : Fin 5000) (q : Fin 64) :
    broadcastTo S5000x64 g broadcasts_S1x64_S5000x64 (ix2 p q) = g (ix2 0 q) := by
  refine broadcastTo_apply g _ (ix2 p q) (ix2 0 q) ?_
  intro a
  match a with
  | ⟨0, _⟩ => rfl
  | ⟨1, _⟩ => rfl

noncomputable def normLin (x m v g b : EReal) : EReal :=
  (x - m) * FloatOps.rsqrt (F := Ideal) (φ := .f32) (v + Scalar.ofBits (F := Ideal) .f32 0x3727C5AC#32) * g + b

noncomputable def leaky (y : EReal) : EReal :=
  Scalar.select (FloatOps.cmpf (F := Ideal) (φ := .f32) .ogt y (Scalar.ofBits (F := Ideal) .f32 0x00000000#32)) y
    (Scalar.ofBits (F := Ideal) .f32 0x3C23D70A#32 * y)

theorem rsqrt_at {s : Shape} {φ : FTy} (a : FVec Ideal s φ) (i : s.Idx) : rsqrt a i = FloatOps.rsqrt (a i) := rfl

theorem pay2_at (x0 : Vec Ideal S5000x64 .f32) (x1 : Vec Ideal S5000x8 .bf16) (x2 x3 : Vec Ideal S8x64 .f32)
    (x4 x5 : Vec Ideal S1x64 .f32) (p : Fin 5000) (q : Fin 64) :
    k2_pay1 x0 x1 x2 x3 x4 x5 (ix2 p q)
      = leaky (normLin (x0 (ix2 p q)) (∑ b : Fin 8, x1 (ix2 p b) * x2 (ix2 b q)) (∑ b : Fin 8, x1 (ix2 p b) * x3 (ix2 b q))
          (x4 (ix2 0 q)) (x5 (ix2 0 q))) := by
  unfold k2_pay1 leaky normLin
  simp only [shapeCast_self, select_apply, cmpf_apply, mulf_apply, addf_apply, subf_apply, broadcast_apply, rsqrt_at,
    matmulApply_at, bcastRow_at, extf_apply]

theorem pay5_at (x0 : Vec Ideal S5000x64 .f32) (x1 : Vec Ideal S5000x8 .bf16) (x2 x3 : Vec Ideal S8x64 .f32)
    (x4 x5 : Vec Ideal S1x64 .f32) (x6 : Vec Ideal S5000x64 .f32) (p : Fin 5000) (q : Fin 64) :
    k5_pay1 x0 x1 x2 x3 x4 x5 x6 (ix2 p q)
      = leaky (normLin (x0 (ix2 p q)) (∑ b : Fin 8, x1 (ix2 p b) * x2 (ix2 b q)) (∑ b : Fin 8, x1 (ix2 p b) * x3 (ix2 b q))
          (x4 (ix2 0 q)) (x5 (ix2 0 q)) + x6 (ix2 p q)) := by
  unfold k5_pay1 leaky normLin
  simp only [shapeCast_self, select_apply, cmpf_apply, mulf_apply, addf_apply, subf_apply, broadcast_apply, rsqrt_at,
    matmulApply_at, bcastRow_at, extf_apply]

end Cert.KernelIdeal.Gen

end
-- ==== Proof.RegApplyValue.lean ====
import proofs.«404940_j85761906966882_2_alg».proof.Proof.RegApply
import proofs.«404940_j85761906966882_2_alg».proof.Proof.RegApplyPay

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

section Value2
variable (V : (c : Dev nD) → (b : Ref sig .tc) → Buf (Elt Ideal) ((c : Thread nD τ).loc b))

noncomputable def applyG2 (x : S100000x64.Idx → EReal) (oh : S100000x8.Idx → EReal) (m v : S8x64.Idx → EReal) (g bt : S1x64.Idx → EReal) : S100000x64.Idx → EReal :=
  fun j => leaky (normLin (x (ix2 (j 0) (j 1))) (∑ b : Fin 8, oh (ix2 (j 0) b) * m (ix2 b (j 1))) (∑ b : Fin 8, oh (ix2 (j 0) b) * v (ix2 b (j 1)))
    (g (ix2 (0 : Fin 1) (j 1))) (bt (ix2 (0 : Fin 1) (j 1))))

theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

theorem flushed2_eq (c : Dev nD) (t : Fin cfg2.N) :
    (dat2 V c).flushed 6 t = ((cfg2.win 6).blk t).view.read (Elt Ideal) (applyG2 (V c main_v124) (V c main_v125) (V c main_v135) (V c main_v142) (V c main_v143) (V c main_v144)) := by
  show (cfg2.win 6).cut (grid2.coords t) ((dat2 V c).after 6 t) = _
  rw [after2_6]
  unfold out2_6
  rw [View.canon_unit_zero hzApply]
  simp only [View.ld_unit_zero (S := S5000x64) hzApply, View.ld_unit_zero (S := S5000x8) hzApply, View.ld_unit_zero (S := S8x64) hzApply, View.ld_unit_zero (S := S1x64) hzApply]
  obtain ⟨e0_0, e0_1, e1_0, e1_1, e2_0, e2_1, e3_0, e3_1, e4_0, e4_1, e5_0, e5_1, e6_0, e6_1⟩ := idx_facts2 t
  have ht : t.val < 20 := t.isLt
  funext j
  obtain ⟨p, q, rfl⟩ : ∃ (p : Fin 5000) (q : Fin 64), j = ix2 p q := ⟨j 0, j 1, eq_ix2 j⟩
  have hp : p.val < 5000 := p.isLt
  let P : Fin 100000 := ⟨t.val * 5000 + p.val, by omega⟩
  have r0 : iblk2 V c 0 t (ix2 p q) = V c main_v124 (ix2 P q) := by
    show V c main_v124 (((cfg2.win 0).blk t).view.emb (ix2 p q)) = V c main_v124 (ix2 P q)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * q.val = q.val; omega
  have r1 : ∀ b : Fin 8, iblk2 V c 1 t (ix2 p b) = V c main_v125 (ix2 P b) := fun b => by
    show V c main_v125 (((cfg2.win 1).blk t).view.emb (ix2 p b)) = V c main_v125 (ix2 P b)
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 8 + 1 * b.val = b.val; omega
  have r2 : ∀ b : Fin 8, iblk2 V c 2 t (ix2 b q) = V c main_v135 (ix2 b q) := fun b => by
    show V c main_v135 (((cfg2.win 2).blk t).view.emb (ix2 b q)) = V c main_v135 (ix2 b q)
    refine congrArg _ (funext fun a => Fin.ext ?_)
    match a with
    | ⟨0, _⟩ => show win2_2.index t (0 : Fin 2) * 8 + 1 * b.val = b.val; omega
    | ⟨1, _⟩ => show win2_2.index t (1 : Fin 2) * 64 + 1 * q.val = q.val; omega
  have r3 : ∀ b : Fin 8, iblk2 V c 3 t (ix2 b q) = V c main_v142 (ix2 b q) := fun b => by
    show V c main_v142 (((cfg2.win 3).blk t).view.emb (ix2 b q)) = V c main_v142 (ix2 b q)
    refine congrArg _ (funext fun a => Fin.ext ?_)
    match a with
    | ⟨0, _⟩ => show win2_3.index t (0 : Fin 2) * 8 + 1 * b.val = b.val; omega
    | ⟨1, _⟩ => show win2_3.index t (1 : Fin 2) * 64 + 1 * q.val = q.val; omega
  have r4 : iblk2 V c 4 t (ix2 (0 : Fin 1) q) = V c main_v143 (ix2 (0 : Fin 1) q) := by
    show V c main_v143 (((cfg2.win 4).blk t).view.emb (ix2 (0 : Fin 1) q)) = V c main_v143 (ix2 (0 : Fin 1) q)
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * q.val = q.val; omega
  have r5 : iblk2 V c 5 t (ix2 (0 : Fin 1) q) = V c main_v144 (ix2 (0 : Fin 1) q) := by
    show V c main_v144 (((cfg2.win 5).blk t).view.emb (ix2 (0 : Fin 1) q)) = V c main_v144 (ix2 (0 : Fin 1) q)
    refine congrArg _ (funext fun a => Fin.ext ?_)
    match a with
    | ⟨0, _⟩ => show win2_5.index t (0 : Fin 2) * 1 + 1 * 0 = 0; omega
    | ⟨1, _⟩ => show win2_5.index t (1 : Fin 2) * 64 + 1 * q.val = q.val; omega
  have rO : ((cfg2.win 6).blk t).view.emb (ix2 p q) = ix2 P q := by
    refine funext fun a => Fin.ext ?_
    match a with
    | ⟨0, _⟩ => show win2_6.index t (0 : Fin 2) * 5000 + 1 * p.val = t.val * 5000 + p.val; omega
    | ⟨1, _⟩ => show win2_6.index t (1 : Fin 2) * 64 + 1 * q.val = q.val; omega
  show k2_pay1 (iblk2 V c 0 t) (iblk2 V c 1 t) (iblk2 V c 2 t) (iblk2 V c 3 t) (iblk2 V c 4 t) (iblk2 V c 5 t) (ix2 p q) = applyG2 (V c main_v124) (V c main_v125) (V c main_v135) (V c main_v142) (V c main_v143) (V c main_v144) (((cfg2.win 6).blk t).view.emb (ix2 p q))
  refine (pay2_at (iblk2 V c 0 t) (iblk2 V c 1 t) (iblk2 V c 2 t) (iblk2 V c 3 t) (iblk2 V c 4 t) (iblk2 V c 5 t) p q).trans ?_
  rw [rO, r0, r4, r5]
  simp only [r1, r2, r3]
  rfl

theorem cover2 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  let t : Fin cfg2.N := ⟨(i 0).val / 5000, by show (i 0).val / 5000 < 20; omega⟩
  obtain ⟨e0_0, e0_1, e1_0, e1_1, e2_0, e2_1, e3_0, e3_1, e4_0, e4_1, e5_0, e5_1, e6_0, e6_1⟩ := idx_facts2 t
  refine ⟨t, flush2_6 t, ?_⟩
  show i ∈ ((View.whole main_v145).slice (win2_6.rect t)).set
  rw [View.set_slice_whole, Rect.mem_set_unit]
  intro a
  have htv : t.val = (i 0).val / 5000 := rfl
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

theorem final2_6 (c : Dev nD) :
    (dat2 V c).arrAt 6 cfg2.N = applyG2 (V c main_v124) (V c main_v125) (V c main_v135) (V c main_v142) (V c main_v143) (V c main_v144) :=
  (dat2 V c).arrAt_eq_of_cover 6 (applyG2 (V c main_v124) (V c main_v125) (V c main_v135) (V c main_v142) (V c main_v143) (V c main_v144)) (fun t _ => flushed2_eq V c t) (cover2)

end Value2

end Cert.KernelIdeal.Gen

end
-- ==== Proof.RegApply5Value.lean ====
import proofs.«404940_j85761906966882_2_alg».proof.Proof.RegApply5
import proofs.«404940_j85761906966882_2_alg».proof.Proof.RegApplyPay

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

section Value5
variable (V : (c : Dev nD) → (b : Ref sig .tc) → Buf (Elt Ideal) ((c : Thread nD τ).loc b))

noncomputable def applyG5 (x : S100000x64.Idx → EReal) (oh : S100000x8.Idx → EReal) (m v : S8x64.Idx → EReal) (g bt : S1x64.Idx → EReal) (res : S100000x64.Idx → EReal) : S100000x64.Idx → EReal :=
  fun j => leaky (normLin (x (ix2 (j 0) (j 1))) (∑ b : Fin 8, oh (ix2 (j 0) b) * m (ix2 b (j 1))) (∑ b : Fin 8, oh (ix2 (j 0) b) * v (ix2 b (j 1)))
    (g (ix2 (0 : Fin 1) (j 1))) (bt (ix2 (0 : Fin 1) (j 1))) + res (ix2 (j 0) (j 1)))

theorem idx_facts5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = t.val
    ∧ win5_6.index t (1 : Fin 2) = 0
    ∧ win5_7.index t (0 : Fin 2) = t.val
    ∧ win5_7.index t (1 : Fin 2) = 0 :=
  (by decide +kernel : ∀ t : Fin grid5.N, _)

theorem flushed5_eq (c : Dev nD) (t : Fin cfg5.N) :
    (dat5 V c).flushed 7 t = ((cfg5.win 7).blk t).view.read (Elt Ideal) (applyG5 (V c main_v270) (V c main_v271) (V c main_v281) (V c main_v288) (V c main_v289) (V c main_v290) (V c main_arg0)) := by
  show (cfg5.win 7).cut (grid5.coords t) ((dat5 V c).after 7 t) = _
  rw [after5_7]
  unfold out5_7
  rw [View.canon_unit_zero hzApply]
  simp only [View.ld_unit_zero (S := S5000x64) hzApply, View.ld_unit_zero (S := S5000x8) hzApply, View.ld_unit_zero (S := S8x64) hzApply, View.ld_unit_zero (S := S1x64) hzApply]
  obtain ⟨e0_0, e0_1, e1_0, e1_1, e2_0, e2_1, e3_0, e3_1, e4_0, e4_1, e5_0, e5_1, e6_0, e6_1, e7_0, e7_1⟩ := idx_facts5 t
  have ht : t.val < 20 := t.isLt
  funext j
  obtain ⟨p, q, rfl⟩ : ∃ (p : Fin 5000) (q : Fin 64), j = ix2 p q := ⟨j 0, j 1, eq_ix2 j⟩
  have hp : p.val < 5000 := p.isLt
  let P : Fin 100000 := ⟨t.val * 5000 + p.val, by omega⟩
  have r0 : iblk5 V c 0 t (ix2 p q) = V c main_v270 (ix2 P q) := by
    show V c main_v270 (((cfg5.win 0).blk t).view.emb (ix2 p q)) = V c main_v270 (ix2 P q)
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 64 + 1 * q.val = q.val; omega
  have r1 : ∀ b : Fin 8, iblk5 V c 1 t (ix2 p b) = V c main_v271 (ix2 P b) := fun b => by
    show V c main_v271 (((cfg5.win 1).blk t).view.emb (ix2 p b)) = V c main_v271 (ix2 P b)
    refine congrArg _ (funext fun a => Fin.ext ?_)
    match a with
    | ⟨0, _⟩ => show win5_1.index t (0 : Fin 2) * 5000 + 1 * p.val = t.val * 5000 + p.val; omega
    | ⟨1, _⟩ => show win5_1.index t (1 : Fin 2) * 8 + 1 * b.val = b.val; omega
  have r2 : ∀ b : Fin 8, iblk5 V c 2 t (ix2 b q) = V c main_v281 (ix2 b q) := fun b => by
    show V c main_v281 (((cfg5.win 2).blk t).view.emb (ix2 b q)) = V c main_v281 (ix2 b q)
    refine congrArg _ (funext fun a => Fin.ext ?_)
    match a with
    | ⟨0, _⟩ => show win5_2.index t (0 : Fin 2) * 8 + 1 * b.val = b.val; omega
    | ⟨1, _⟩ => show win5_2.index t (1 : Fin 2) * 64 + 1 * q.val = q.val; omega
  have r3 : ∀ b : Fin 8, iblk5 V c 3 t (ix2 b q) = V c main_v288 (ix2 b q) := fun b => by
    show V c main_v288 (((cfg5.win 3).blk t).view.emb (ix2 b q)) = V c main_v288 (ix2 b q)
    refine congrArg _ (funext fun a => Fin.ext ?_)
    match a with
    | ⟨0, _⟩ => show win5_3.index t (0 : Fin 2) * 8 + 1 * b.val = b.val; omega
    | ⟨1, _⟩ => show win5_3.index t (1 : Fin 2) * 64 + 1 * q.val = q.val; omega
  have r4 : iblk5 V c 4 t (ix2 (0 : Fin 1) q) = V c main_v289 (ix2 (0 : Fin 1) q) := by
    show V c main_v289 (((cfg5.win 4).blk t).view.emb (ix2 (0 : Fin 1) q)) = V c main_v289 (ix2 (0 : Fin 1) q)
    refine congrArg _ (funext fun a => Fin.ext ?_)
    match a with
    | ⟨0, _⟩ => show win5_4.index t (0 : Fin 2) * 1 + 1 * 0 = 0; omega
    | ⟨1, _⟩ => show win5_4.index t (1 : Fin 2) * 64 + 1 * q.val = q.val; omega
  have r5 : iblk5 V c 5 t (ix2 (0 : Fin 1) q) = V c main_v290 (ix2 (0 : Fin 1) q) := by
    show V c main_v290 (((cfg5.win 5).blk t).view.emb (ix2 (0 : Fin 1) q)) = V c main_v290 (ix2 (0 : Fin 1) q)
    refine congrArg _ (funext fun a => Fin.ext ?_)
    match a with
    | ⟨0, _⟩ => show win5_5.index t (0 : Fin 2) * 1 + 1 * 0 = 0; omega
    | ⟨1, _⟩ => show win5_5.index t (1 : Fin 2) * 64 + 1 * q.val = q.val; omega
  have r6 : iblk5 V c 6 t (ix2 p q) = V c main_arg0 (ix2 P q) := by
    show V c main_arg0 (((cfg5.win 6).blk t).view.emb (ix2 p q)) = V c main_arg0 (ix2 P q)
    refine congrArg _ (funext fun a => Fin.ext ?_)
    match a with
    | ⟨0, _⟩ => show win5_6.index t (0 : Fin 2) * 5000 + 1 * p.val = t.val * 5000 + p.val; omega
    | ⟨1, _⟩ => show win5_6.index t (1 : Fin 2) * 64 + 1 * q.val = q.val; omega
  have rO : ((cfg5.win 7).blk t).view.emb (ix2 p q) = ix2 P q := by
    refine funext fun a => Fin.ext ?_
    match a with
    | ⟨0, _⟩ => show win5_7.index t (0 : Fin 2) * 5000 + 1 * p.val = t.val * 5000 + p.val; omega
    | ⟨1, _⟩ => show win5_7.index t (1 : Fin 2) * 64 + 1 * q.val = q.val; omega
  show k5_pay1 (iblk5 V c 0 t) (iblk5 V c 1 t) (iblk5 V c 2 t) (iblk5 V c 3 t) (iblk5 V c 4 t) (iblk5 V c 5 t) (iblk5 V c 6 t) (ix2 p q) = applyG5 (V c main_v270) (V c main_v271) (V c main_v281) (V c main_v288) (V c main_v289) (V c main_v290) (V c main_arg0) (((cfg5.win 7).blk t).view.emb (ix2 p q))
  refine (pay5_at (iblk5 V c 0 t) (iblk5 V c 1 t) (iblk5 V c 2 t) (iblk5 V c 3 t) (iblk5 V c 4 t) (iblk5 V c 5 t) (iblk5 V c 6 t) p q).trans ?_
  rw [rO, r0, r4, r5, r6]
  simp only [r1, r2, r3]
  rfl

theorem cover5 (i : S100000x64.Idx) :
    ∃ t : Fin cfg5.N, (cfg5.win 7).flush t = true ∧ i ∈ ((cfg5.win 7).blk t).view.set := by
  have hi0 : (i 0).val < 100000 := (i 0).isLt
  have hi1 : (i 1).val < 64 := (i 1).isLt
  let t : Fin cfg5.N := ⟨(i 0).val / 5000, by show (i 0).val / 5000 < 20; omega⟩
  obtain ⟨e0_0, e0_1, e1_0, e1_1, e2_0, e2_1, e3_0, e3_1, e4_0, e4_1, e5_0, e5_1, e6_0, e6_1, e7_0, e7_1⟩ := idx_facts5 t
  refine ⟨t, flush5_7 t, ?_⟩
  show i ∈ ((View.whole main_v291).slice (win5_7.rect t)).set
  rw [View.set_slice_whole, Rect.mem_set_unit]
  intro a
  have htv : t.val = (i 0).val / 5000 := rfl
  match a with
  | ⟨0, _⟩ => show win5_7.index t (0 : Fin 2) * 5000 ≤ (i 0).val ∧ (i 0).val < win5_7.index t (0 : Fin 2) * 5000 + 5000; omega
  | ⟨1, _⟩ => show win5_7.index t (1 : Fin 2) * 64 ≤ (i 1).val ∧ (i 1).val < win5_7.index t (1 : Fin 2) * 64 + 64; omega

theorem final5_7 (c : Dev nD) :
    (dat5 V c).arrAt 7 cfg5.N = applyG5 (V c main_v270) (V c main_v271) (V c main_v281) (V c main_v288) (V c main_v289) (V c main_v290) (V c main_arg0) :=
  (dat5 V c).arrAt_eq_of_cover 7 (applyG5 (V c main_v270) (V c main_v271) (V c main_v281) (V c main_v288) (V c main_v289) (V c main_v290) (V c main_arg0)) (fun t _ => flushed5_eq V c t) (cover5)

end Value5

end Cert.KernelIdeal.Gen

end
-- ==== Proof.RegApplyBridge.lean ====
import proofs.«404940_j85761906966882_2_alg».proof.Proof.RegApplyValue
import proofs.«404940_j85761906966882_2_alg».proof.Proof.RegApply5Value
import proofs.«404940_j85761906966882_2_alg».proof.Proof.KerRegions

noncomputable section

namespace Cert.KernelIdeal.Gen

open Idealize.ShloMosaic Idealize.ShloMosaic.TcCoe Idealize.ShloMosaic.ValueIdx
open Idealize.SL.Sem

theorem applyG2_eq (x : S100000x64.Idx → EReal) (oh : S100000x8.Idx → EReal) (m v : S8x64.Idx → EReal) (g bt : S1x64.Idx → EReal) :
    applyG2 x oh m v g bt = Cert.KerRegions.applyG x oh m v g bt := rfl

theorem applyG5_eq (x : S100000x64.Idx → EReal) (oh : S100000x8.Idx → EReal) (m v : S8x64.Idx → EReal) (g bt : S1x64.Idx → EReal)
    (res : S100000x64.Idx → EReal) :
    applyG5 x oh m v g bt res = Cert.KerRegions.applyResG x oh m v g bt res := rfl

section
variable (V : (c : Dev nD) → (b : Ref sig .tc) → Buf (Elt Ideal) ((c : Thread nD τ).loc b))

theorem final2_6_ker (c : Dev nD) :
    (dat2 V c).arrAt 6 cfg2.N = Cert.KerRegions.applyG (V c main_v124) (V c main_v125) (V c main_v135) (V c main_v142) (V c main_v143) (V c main_v144) :=
  (final2_6 V c).trans (applyG2_eq _ _ _ _ _ _)

theorem final5_7_ker (c : Dev nD) :
    (dat5 V c).arrAt 7 cfg5.N = Cert.KerRegions.applyResG (V c main_v270) (V c main_v271) (V c main_v281) (V c main_v288) (V c main_v289) (V c main_v290) (V c main_arg0) :=
  (final5_7 V c).trans (applyG5_eq _ _ _ _ _ _ _)

end

end Cert.KernelIdeal.Gen

end
-- ==== Proof.RegStatsPay.lean ====
import proofs.«404940_j85761906966882_2_alg».proof.Proof.Gen.KernelIdeal.Skeleton
import Idealize.ShloMosaic.Lib.Pipeline.Value
import Idealize.ShloMosaic.Lib.ValueIdx
import Idealize.ShloMosaic.Lib.ValueIdxCoords
import Idealize.ShloMosaic.PureOps.Ideal.Laws
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

noncomputable def tileSum (x : FVec Ideal S5000x64 .f32) (oh : FVec Ideal S5000x8 .bf16) : FVec Ideal S8x64 .f32 :=
  fun j => ∑ r : Fin 5000, oh (ix2 r (j 0 : Fin 8)) * x (ix2 r (j 1 : Fin 64))

noncomputable def sqBlock (x : FVec Ideal S5000x64 .f32) : FVec Ideal S5000x64 .f32 := fun i => x i * x i

theorem matmul_rows (x : FVec Ideal S5000x64 .f32) (oh : FVec Ideal S5000x8 .f32) (j : S8x64.Idx) :
    matmul dot_S5000x8_S5000x64_S8x64_0_0_1_1_n_n (some .fp32) oh x (constant S8x64 .f32 0x00000000#32) j
      = ∑ r : Fin 5000, oh (ix2 r (j 0 : Fin 8)) * x (ix2 r (j 1 : Fin 64)) := by
  simp only [matmul]
  rw [Ideal.matmul_constant_zero_apply]
  rw [← Equiv.sum_comp (contrEquiv1 dot_S5000x8_S5000x64_S8x64_0_0_1_1_n_n 5000 rfl rfl).symm]
  refine Finset.sum_congr rfl fun r _ => ?_
  congr 2
  · funext a; apply Fin.ext; fin_cases a <;> rfl
  · funext a; apply Fin.ext; fin_cases a <;> rfl

theorem k1_pay1_apply (j : S8x64.Idx) : k1_pay1 (F := Ideal) j = 0 := by
  unfold k1_pay1
  show Ideal.ofBits .f32 0x00000000#32 = 0
  exact Ideal.ofBits_zero_f32

theorem k1_pay2_apply (j : S8x64.Idx) : k1_pay2 (F := Ideal) j = 0 := by
  unfold k1_pay2
  show Ideal.ofBits .f32 0x00000000#32 = 0
  exact Ideal.ofBits_zero_f32

theorem k1_pay5_apply (x : Vec Ideal S5000x64 .f32) (oh : Vec Ideal S5000x8 .bf16) (acc : Vec Ideal S8x64 .f32) (j : S8x64.Idx) :
    k1_pay5 x oh acc j = acc j + tileSum x oh j := by
  unfold k1_pay5 k1_pay4 k1_pay3
  simp only [shapeCast_self]
  rw [addf_apply, matmul_rows]
  rfl

theorem k1_pay6_apply (x : Vec Ideal S5000x64 .f32) (oh : Vec Ideal S5000x8 .bf16) (acc : Vec Ideal S8x64 .f32) (j : S8x64.Idx) :
    k1_pay6 x oh acc j = acc j + tileSum (sqBlock x) oh j := by
  unfold k1_pay6 k1_pay4 k1_pay3
  simp only [shapeCast_self]
  rw [addf_apply, matmul_rows]
  rfl

theorem k4_pay1_apply (j : S8x64.Idx) : k4_pay1 (F := Ideal) j = 0 := by
  unfold k4_pay1
  show Ideal.ofBits .f32 0x00000000#32 = 0
  exact Ideal.ofBits_zero_f32

theorem k4_pay2_apply (j : S8x64.Idx) : k4_pay2 (F := Ideal) j = 0 := by
  unfold k4_pay2
  show Ideal.ofBits .f32 0x00000000#32 = 0
  exact Ideal.ofBits_zero_f32

theorem k4_pay5_apply (x : Vec Ideal S5000x64 .f32) (oh : Vec Ideal S5000x8 .bf16) (acc : Vec Ideal S8x64 .f32) (j : S8x64.Idx) :
    k4_pay5 x oh acc j = acc j + tileSum x oh j := by
  unfold k4_pay5 k4_pay4 k4_pay3
  simp only [shapeCast_self]
  rw [addf_apply, matmul_rows]
  rfl

theorem k4_pay6_apply (x : Vec Ideal S5000x64 .f32) (oh : Vec Ideal S5000x8 .bf16) (acc : Vec Ideal S8x64 .f32) (j : S8x64.Idx) :
    k4_pay6 x oh acc j = acc j + tileSum (sqBlock x) oh j := by
  unfold k4_pay6 k4_pay4 k4_pay3
  simp only [shapeCast_self]
  rw [addf_apply, matmul_rows]
  rfl

noncomputable def rowSumG (x : FVec Ideal S100000x64 .f32) (oh : FVec Ideal S100000x8 .bf16) : FVec Ideal S8x64 .f32 :=
  fun j => ∑ i : Fin 100000, oh (ix2 i (j 0)) * x (ix2 i (j 1))

noncomputable def rowSqG (x : FVec Ideal S100000x64 .f32) (oh : FVec Ideal S100000x8 .bf16) : FVec Ideal S8x64 .f32 :=
  fun j => ∑ i : Fin 100000, oh (ix2 i (j 0)) * (x (ix2 i (j 1)) * x (ix2 i (j 1)))

theorem sum_rows_blocks {M : Type*} [AddCommMonoid M] (g : Fin 100000 → M) :
    ∑ i, g i = ∑ t : Fin 20, ∑ r : Fin 5000, g ⟨5000 * t.val + r.val, by have := t.isLt; have := r.isLt; omega⟩ := by
  show ∑ i : Fin (20 * 5000), g i = _
  rw [← Equiv.sum_comp (finProdFinEquiv (m := 20) (n := 5000)) g, Fintype.sum_prod_type]
  refine Finset.sum_congr rfl fun t _ => Finset.sum_congr rfl fun r _ => ?_
  congr 1
  apply Fin.ext
  simp only [finProdFinEquiv_apply_val]
  omega

end Cert.KernelIdeal.Gen

end
-- ==== Proof.RegStatsValue1.lean ====
import proofs.«404940_j85761906966882_2_alg».proof.Proof.RegStats1
import proofs.«404940_j85761906966882_2_alg».proof.Proof.RegStatsPay
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Final1
variable {F : FTy → Type} [FloatOps F]
variable (V : (c : Dev nD) → (b : Ref sig .tc) → Buf (Elt F) ((c : Thread nD τ).loc b))

theorem lt19_1 : 19 < cfg1.N := lt_of_lt_of_eq (by decide : 19 < 20) N_1'.symm
noncomputable def lastPt1 : Fin cfg1.N := ⟨19, lt19_1⟩

noncomputable abbrev res1_2 (c : Dev nD) : Buf (Elt F) ((c : Thread nD τ).loc main_v132_0) := acc1_2 V c 19 lt19_1
noncomputable abbrev res1_3 (c : Dev nD) : Buf (Elt F) ((c : Thread nD τ).loc main_v132_1) := acc1_3 V c 19 lt19_1

theorem flushed1_2_eq (c : Dev nD) (t : Fin cfg1.N) (hf : (cfg1.win 2).flush t = true) :
    (dat1 V c).flushed 2 t = ((cfg1.win 2).blk t).view.read (Elt F) (res1_2 V c) := by
  have hN : cfg1.N = 20 := N_1'
  have h19 : t.val = 19 := by have := (flush1_2 t).mp hf; have := t.isLt; omega
  obtain rfl : t = lastPt1 := Fin.ext h19
  show (cfg1.win 2).cut (grid1.coords lastPt1) ((dat1 V c).after 2 lastPt1) = _
  rw [after1_2]
  have hz' : (fun a => win1_2.index lastPt1 a * main_v132_0.ty.shape.size a) = fun _ => 0 := funext fun a => by fin_cases a <;> decide
  exact (Memref.read_access_unit_zero (Elt F) main_v132_0 hz' (fun a => by rw [congrFun hz' a]; simp) (res1_2 V c)).symm

theorem flushed1_3_eq (c : Dev nD) (t : Fin cfg1.N) (hf : (cfg1.win 3).flush t = true) :
    (dat1 V c).flushed 3 t = ((cfg1.win 3).blk t).view.read (Elt F) (res1_3 V c) := by
  have hN : cfg1.N = 20 := N_1'
  have h19 : t.val = 19 := by have := (flush1_3 t).mp hf; have := t.isLt; omega
  obtain rfl : t = lastPt1 := Fin.ext h19
  show (cfg1.win 3).cut (grid1.coords lastPt1) ((dat1 V c).after 3 lastPt1) = _
  rw [after1_3]
  have hz' : (fun a => win1_3.index lastPt1 a * main_v132_1.ty.shape.size a) = fun _ => 0 := funext fun a => by fin_cases a <;> decide
  exact (Memref.read_access_unit_zero (Elt F) main_v132_1 hz' (fun a => by rw [congrFun hz' a]; simp) (res1_3 V c)).symm

theorem final1_2_acc (c : Dev nD) : (dat1 V c).arrAt 2 cfg1.N = res1_2 V c :=
  (dat1 V c).arrAt_eq_of_cover 2 (res1_2 V c) (flushed1_2_eq V c) fun i =>
    ⟨lastPt1, (flush1_2 lastPt1).mpr rfl, by
      show i ∈ ((View.whole main_v132_0).slice (win1_2.rect lastPt1)).set
      rw [View.set_slice_whole, Rect.mem_set_unit]
      intro a
      have h0 : (i 0 : Nat) < 8 := (i 0).isLt
      have h1 : (i 1 : Nat) < 64 := (i 1).isLt
      match a with
      | ⟨0, _⟩ => show win1_2.index lastPt1 0 * win1_2.size 0 ≤ (i 0 : Nat) ∧ (i 0 : Nat) < win1_2.index lastPt1 0 * win1_2.size 0 + win1_2.xsize (grid1.coords lastPt1) 0
                  rw [show win1_2.index lastPt1 0 * win1_2.size 0 = 0 from by decide +kernel, show win1_2.xsize (grid1.coords lastPt1) 0 = 8 from by decide +kernel]; omega
      | ⟨1, _⟩ => show win1_2.index lastPt1 1 * win1_2.size 1 ≤ (i 1 : Nat) ∧ (i 1 : Nat) < win1_2.index lastPt1 1 * win1_2.size 1 + win1_2.xsize (grid1.coords lastPt1) 1
                  rw [show win1_2.index lastPt1 1 * win1_2.size 1 = 0 from by decide +kernel, show win1_2.xsize (grid1.coords lastPt1) 1 = 64 from by decide +kernel]; omega⟩

theorem final1_3_acc (c : Dev nD) : (dat1 V c).arrAt 3 cfg1.N = res1_3 V c :=
  (dat1 V c).arrAt_eq_of_cover 3 (res1_3 V c) (flushed1_3_eq V c) fun i =>
    ⟨lastPt1, (flush1_3 lastPt1).mpr rfl, by
      show i ∈ ((View.whole main_v132_1).slice (win1_3.rect lastPt1)).set
      rw [View.set_slice_whole, Rect.mem_set_unit]
      intro a
      have h0 : (i 0 : Nat) < 8 := (i 0).isLt
      have h1 : (i 1 : Nat) < 64 := (i 1).isLt
      match a with
      | ⟨0, _⟩ => show win1_3.index lastPt1 0 * win1_3.size 0 ≤ (i 0 : Nat) ∧ (i 0 : Nat) < win1_3.index lastPt1 0 * win1_3.size 0 + win1_3.xsize (grid1.coords lastPt1) 0
                  rw [show win1_3.index lastPt1 0 * win1_3.size 0 = 0 from by decide +kernel, show win1_3.xsize (grid1.coords lastPt1) 0 = 8 from by decide +kernel]; omega
      | ⟨1, _⟩ => show win1_3.index lastPt1 1 * win1_3.size 1 ≤ (i 1 : Nat) ∧ (i 1 : Nat) < win1_3.index lastPt1 1 * win1_3.size 1 + win1_3.xsize (grid1.coords lastPt1) 1
                  rw [show win1_3.index lastPt1 1 * win1_3.size 1 = 0 from by decide +kernel, show win1_3.xsize (grid1.coords lastPt1) 1 = 64 from by decide +kernel]; omega⟩

end Final1

section Ideal1
open ValueIdx
variable (V : (c : Dev nD) → (b : Ref sig .tc) → Buf (Elt Ideal) ((c : Thread nD τ).loc b))

theorem acc1_2_sum (c : Dev nD) : ∀ (n : ℕ) (h : n < cfg1.N) (j : S8x64.Idx),
    acc1_2 V c n h j = ∑ t : Fin (n + 1), tileSum (iblk1 V c 0 ⟨t.val, lt_of_le_of_lt (Nat.le_of_lt_succ t.isLt) h⟩)
      (iblk1 V c 1 ⟨t.val, lt_of_le_of_lt (Nat.le_of_lt_succ t.isLt) h⟩) j
  | 0, h, j => by
    show k1_pay5 _ _ _ j = _
    rw [k1_pay5_apply, k1_pay1_apply, zero_add, Fin.sum_univ_one]
    rfl
  | n + 1, h, j => by
    show k1_pay5 _ _ (acc1_2 V c n _) j = _
    rw [k1_pay5_apply, acc1_2_sum c n _ j, Fin.sum_univ_castSucc (n := n + 1)]
    rfl

theorem acc1_3_sum (c : Dev nD) : ∀ (n : ℕ) (h : n < cfg1.N) (j : S8x64.Idx),
    acc1_3 V c n h j = ∑ t : Fin (n + 1), tileSum (sqBlock (iblk1 V c 0 ⟨t.val, lt_of_le_of_lt (Nat.le_of_lt_succ t.isLt) h⟩))
      (iblk1 V c 1 ⟨t.val, lt_of_le_of_lt (Nat.le_of_lt_succ t.isLt) h⟩) j
  | 0, h, j => by
    show k1_pay6 _ _ _ j = _
    rw [k1_pay6_apply, k1_pay2_apply, zero_add, Fin.sum_univ_one]
    rfl
  | n + 1, h, j => by
    show k1_pay6 _ _ (acc1_3 V c n _) j = _
    rw [k1_pay6_apply, acc1_3_sum c n _ j, Fin.sum_univ_castSucc (n := n + 1)]
    rfl

theorem idx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, win1_0.index t (0 : Fin 2) = t.val ∧ win1_0.index t (1 : Fin 2) = 0
    ∧ win1_1.index t (0 : Fin 2) = t.val ∧ win1_1.index t (1 : Fin 2) = 0)

theorem iblk1_0_apply (c : Dev nD) (t : Fin cfg1.N) (r : Fin 5000) (q : Fin 64) :
    (iblk1 V c 0 t : Vec Ideal S5000x64 .f32) (ix2 r q)
      = (V c main_v124 : FVec Ideal S100000x64 .f32) (ix2 ⟨5000 * t.val + r.val, by have := lt_of_lt_of_eq t.isLt (show cfg1.N = 20 from N_1'); have := r.isLt; omega⟩ q) := by
  unfold iblk1
  rw [View.read_apply]
  show V c main_v124 _ = V c main_v124 _
  congr 1
  funext a
  apply Fin.ext
  match a with
  | ⟨0, _⟩ => show win1_0.index t 0 * 5000 + 1 * r.val = 5000 * t.val + r.val; rw [(idx1 t).1]; omega
  | ⟨1, _⟩ => show win1_0.index t 1 * 64 + 1 * q.val = q.val; rw [(idx1 t).2.1]; omega

theorem iblk1_1_apply (c : Dev nD) (t : Fin cfg1.N) (r : Fin 5000) (q : Fin 8) :
    (iblk1 V c 1 t : Vec Ideal S5000x8 .bf16) (ix2 r q)
      = (V c main_v125 : FVec Ideal S100000x8 .bf16) (ix2 ⟨5000 * t.val + r.val, by have := lt_of_lt_of_eq t.isLt (show cfg1.N = 20 from N_1'); have := r.isLt; omega⟩ q) := by
  unfold iblk1
  rw [View.read_apply]
  show V c main_v125 _ = V c main_v125 _
  congr 1
  funext a
  apply Fin.ext
  match a with
  | ⟨0, _⟩ => show win1_1.index t 0 * 5000 + 1 * r.val = 5000 * t.val + r.val; rw [(idx1 t).2.2.1]; omega
  | ⟨1, _⟩ => show win1_1.index t 1 * 8 + 1 * q.val = q.val; rw [(idx1 t).2.2.2]; omega

theorem final1_2 (c : Dev nD) : (dat1 V c).arrAt 2 cfg1.N = (rowSumG (V c main_v124) (V c main_v125) : Buf (Elt Ideal) ((c : Thread nD τ).loc main_v132_0)) :=
  (final1_2_acc V c).trans (by
    show (acc1_2 V c 19 lt19_1 : S8x64.Idx → EReal) = rowSumG (V c main_v124) (V c main_v125)
    funext j
    rw [acc1_2_sum]
    unfold rowSumG tileSum
    rw [sum_rows_blocks]
    refine Finset.sum_congr rfl fun t _ => Finset.sum_congr rfl fun r _ => ?_
    exact congrArg₂ (· * ·) (iblk1_1_apply V c _ r (j 0)) (iblk1_0_apply V c _ r (j 1)))

theorem final1_3 (c : Dev nD) : (dat1 V c).arrAt 3 cfg1.N = (rowSqG (V c main_v124) (V c main_v125) : Buf (Elt Ideal) ((c : Thread nD τ).loc main_v132_1)) :=
  (final1_3_acc V c).trans (by
    show (acc1_3 V c 19 lt19_1 : S8x64.Idx → EReal) = rowSqG (V c main_v124) (V c main_v125)
    funext j
    rw [acc1_3_sum]
    unfold rowSqG tileSum sqBlock
    rw [sum_rows_blocks]
    refine Finset.sum_congr rfl fun t _ => Finset.sum_congr rfl fun r _ => ?_
    exact congrArg₂ (· * ·) (iblk1_1_apply V c _ r (j 0))
      (congrArg₂ (· * ·) (iblk1_0_apply V c _ r (j 1)) (iblk1_0_apply V c _ r (j 1))))

end Ideal1

end Cert.KernelIdeal.Gen

end
-- ==== Proof.RegStatsValue4.lean ====
import proofs.«404940_j85761906966882_2_alg».proof.Proof.RegStats4
import proofs.«404940_j85761906966882_2_alg».proof.Proof.RegStatsPay
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Final4
variable {F : FTy → Type} [FloatOps F]
variable (V : (c : Dev nD) → (b : Ref sig .tc) → Buf (Elt F) ((c : Thread nD τ).loc b))

theorem lt19_4 : 19 < cfg4.N := lt_of_lt_of_eq (by decide : 19 < 20) N_4'.symm
noncomputable def lastPt4 : Fin cfg4.N := ⟨19, lt19_4⟩

noncomputable abbrev res4_2 (c : Dev nD) : Buf (Elt F) ((c : Thread nD τ).loc main_v278_0) := acc4_2 V c 19 lt19_4
noncomputable abbrev res4_3 (c : Dev nD) : Buf (Elt F) ((c : Thread nD τ).loc main_v278_1) := acc4_3 V c 19 lt19_4

theorem flushed4_2_eq (c : Dev nD) (t : Fin cfg4.N) (hf : (cfg4.win 2).flush t = true) :
    (dat4 V c).flushed 2 t = ((cfg4.win 2).blk t).view.read (Elt F) (res4_2 V c) := by
  have hN : cfg4.N = 20 := N_4'
  have h19 : t.val = 19 := by have := (flush4_2 t).mp hf; have := t.isLt; omega
  obtain rfl : t = lastPt4 := Fin.ext h19
  show (cfg4.win 2).cut (grid4.coords lastPt4) ((dat4 V c).after 2 lastPt4) = _
  rw [after4_2]
  have hz' : (fun a => win4_2.index lastPt4 a * main_v278_0.ty.shape.size a) = fun _ => 0 := funext fun a => by fin_cases a <;> decide
  exact (Memref.read_access_unit_zero (Elt F) main_v278_0 hz' (fun a => by rw [congrFun hz' a]; simp) (res4_2 V c)).symm

theorem flushed4_3_eq (c : Dev nD) (t : Fin cfg4.N) (hf : (cfg4.win 3).flush t = true) :
    (dat4 V c).flushed 3 t = ((cfg4.win 3).blk t).view.read (Elt F) (res4_3 V c) := by
  have hN : cfg4.N = 20 := N_4'
  have h19 : t.val = 19 := by have := (flush4_3 t).mp hf; have := t.isLt; omega
  obtain rfl : t = lastPt4 := Fin.ext h19
  show (cfg4.win 3).cut (grid4.coords lastPt4) ((dat4 V c).after 3 lastPt4) = _
  rw [after4_3]
  have hz' : (fun a => win4_3.index lastPt4 a * main_v278_1.ty.shape.size a) = fun _ => 0 := funext fun a => by fin_cases a <;> decide
  exact (Memref.read_access_unit_zero (Elt F) main_v278_1 hz' (fun a => by rw [congrFun hz' a]; simp) (res4_3 V c)).symm

theorem final4_2_acc (c : Dev nD) : (dat4 V c).arrAt 2 cfg4.N = res4_2 V c :=
  (dat4 V c).arrAt_eq_of_cover 2 (res4_2 V c) (flushed4_2_eq V c) fun i =>
    ⟨lastPt4, (flush4_2 lastPt4).mpr rfl, by
      show i ∈ ((View.whole main_v278_0).slice (win4_2.rect lastPt4)).set
      rw [View.set_slice_whole, Rect.mem_set_unit]
      intro a
      have h0 : (i 0 : Nat) < 8 := (i 0).isLt
      have h1 : (i 1 : Nat) < 64 := (i 1).isLt
      match a with
      | ⟨0, _⟩ => show win4_2.index lastPt4 0 * win4_2.size 0 ≤ (i 0 : Nat) ∧ (i 0 : Nat) < win4_2.index lastPt4 0 * win4_2.size 0 + win4_2.xsize (grid4.coords lastPt4) 0
                  rw [show win4_2.index lastPt4 0 * win4_2.size 0 = 0 from by decide +kernel, show win4_2.xsize (grid4.coords lastPt4) 0 = 8 from by decide +kernel]; omega
      | ⟨1, _⟩ => show win4_2.index lastPt4 1 * win4_2.size 1 ≤ (i 1 : Nat) ∧ (i 1 : Nat) < win4_2.index lastPt4 1 * win4_2.size 1 + win4_2.xsize (grid4.coords lastPt4) 1
                  rw [show win4_2.index lastPt4 1 * win4_2.size 1 = 0 from by decide +kernel, show win4_2.xsize (grid4.coords lastPt4) 1 = 64 from by decide +kernel]; omega⟩

theorem final4_3_acc (c : Dev nD) : (dat4 V c).arrAt 3 cfg4.N = res4_3 V c :=
  (dat4 V c).arrAt_eq_of_cover 3 (res4_3 V c) (flushed4_3_eq V c) fun i =>
    ⟨lastPt4, (flush4_3 lastPt4).mpr rfl, by
      show i ∈ ((View.whole main_v278_1).slice (win4_3.rect lastPt4)).set
      rw [View.set_slice_whole, Rect.mem_set_unit]
      intro a
      have h0 : (i 0 : Nat) < 8 := (i 0).isLt
      have h1 : (i 1 : Nat) < 64 := (i 1).isLt
      match a with
      | ⟨0, _⟩ => show win4_3.index lastPt4 0 * win4_3.size 0 ≤ (i 0 : Nat) ∧ (i 0 : Nat) < win4_3.index lastPt4 0 * win4_3.size 0 + win4_3.xsize (grid4.coords lastPt4) 0
                  rw [show win4_3.index lastPt4 0 * win4_3.size 0 = 0 from by decide +kernel, show win4_3.xsize (grid4.coords lastPt4) 0 = 8 from by decide +kernel]; omega
      | ⟨1, _⟩ => show win4_3.index lastPt4 1 * win4_3.size 1 ≤ (i 1 : Nat) ∧ (i 1 : Nat) < win4_3.index lastPt4 1 * win4_3.size 1 + win4_3.xsize (grid4.coords lastPt4) 1
                  rw [show win4_3.index lastPt4 1 * win4_3.size 1 = 0 from by decide +kernel, show win4_3.xsize (grid4.coords lastPt4) 1 = 64 from by decide +kernel]; omega⟩

end Final4

section Ideal4
open ValueIdx
variable (V : (c : Dev nD) → (b : Ref sig .tc) → Buf (Elt Ideal) ((c : Thread nD τ).loc b))

theorem acc4_2_sum (c : Dev nD) : ∀ (n : ℕ) (h : n < cfg4.N) (j : S8x64.Idx),
    acc4_2 V c n h j = ∑ t : Fin (n + 1), tileSum (iblk4 V c 0 ⟨t.val, lt_of_le_of_lt (Nat.le_of_lt_succ t.isLt) h⟩)
      (iblk4 V c 1 ⟨t.val, lt_of_le_of_lt (Nat.le_of_lt_succ t.isLt) h⟩) j
  | 0, h, j => by
    show k4_pay5 _ _ _ j = _
    rw [k4_pay5_apply, k4_pay1_apply, zero_add, Fin.sum_univ_one]
    rfl
  | n + 1, h, j => by
    show k4_pay5 _ _ (acc4_2 V c n _) j = _
    rw [k4_pay5_apply, acc4_2_sum c n _ j, Fin.sum_univ_castSucc (n := n + 1)]
    rfl

theorem acc4_3_sum (c : Dev nD) : ∀ (n : ℕ) (h : n < cfg4.N) (j : S8x64.Idx),
    acc4_3 V c n h j = ∑ t : Fin (n + 1), tileSum (sqBlock (iblk4 V c 0 ⟨t.val, lt_of_le_of_lt (Nat.le_of_lt_succ t.isLt) h⟩))
      (iblk4 V c 1 ⟨t.val, lt_of_le_of_lt (Nat.le_of_lt_succ t.isLt) h⟩) j
  | 0, h, j => by
    show k4_pay6 _ _ _ j = _
    rw [k4_pay6_apply, k4_pay2_apply, zero_add, Fin.sum_univ_one]
    rfl
  | n + 1, h, j => by
    show k4_pay6 _ _ (acc4_3 V c n _) j = _
    rw [k4_pay6_apply, acc4_3_sum c n _ j, Fin.sum_univ_castSucc (n := n + 1)]
    rfl

theorem idx4 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, win4_0.index t (0 : Fin 2) = t.val ∧ win4_0.index t (1 : Fin 2) = 0
    ∧ win4_1.index t (0 : Fin 2) = t.val ∧ win4_1.index t (1 : Fin 2) = 0)

theorem iblk4_0_apply (c : Dev nD) (t : Fin cfg4.N) (r : Fin 5000) (q : Fin 64) :
    (iblk4 V c 0 t : Vec Ideal S5000x64 .f32) (ix2 r q)
      = (V c main_v270 : FVec Ideal S100000x64 .f32) (ix2 ⟨5000 * t.val + r.val, by have := lt_of_lt_of_eq t.isLt (show cfg4.N = 20 from N_4'); have := r.isLt; omega⟩ q) := by
  unfold iblk4
  rw [View.read_apply]
  show V c main_v270 _ = V c main_v270 _
  congr 1
  funext a
  apply Fin.ext
  match a with
  | ⟨0, _⟩ => show win4_0.index t 0 * 5000 + 1 * r.val = 5000 * t.val + r.val; rw [(idx4 t).1]; omega
  | ⟨1, _⟩ => show win4_0.index t 1 * 64 + 1 * q.val = q.val; rw [(idx4 t).2.1]; omega

theorem iblk4_1_apply (c : Dev nD) (t : Fin cfg4.N) (r : Fin 5000) (q : Fin 8) :
    (iblk4 V c 1 t : Vec Ideal S5000x8 .bf16) (ix2 r q)
      = (V c main_v271 : FVec Ideal S100000x8 .bf16) (ix2 ⟨5000 * t.val + r.val, by have := lt_of_lt_of_eq t.isLt (show cfg4.N = 20 from N_4'); have := r.isLt; omega⟩ q) := by
  unfold iblk4
  rw [View.read_apply]
  show V c main_v271 _ = V c main_v271 _
  congr 1
  funext a
  apply Fin.ext
  match a with
  | ⟨0, _⟩ => show win4_1.index t 0 * 5000 + 1 * r.val = 5000 * t.val + r.val; rw [(idx4 t).2.2.1]; omega
  | ⟨1, _⟩ => show win4_1.index t 1 * 8 + 1 * q.val = q.val; rw [(idx4 t).2.2.2]; omega

theorem final4_2 (c : Dev nD) : (dat4 V c).arrAt 2 cfg4.N = (rowSumG (V c main_v270) (V c main_v271) : Buf (Elt Ideal) ((c : Thread nD τ).loc main_v278_0)) :=
  (final4_2_acc V c).trans (by
    show (acc4_2 V c 19 lt19_4 : S8x64.Idx → EReal) = rowSumG (V c main_v270) (V c main_v271)
    funext j
    rw [acc4_2_sum]
    unfold rowSumG tileSum
    rw [sum_rows_blocks]
    refine Finset.sum_congr rfl fun t _ => Finset.sum_congr rfl fun r _ => ?_
    exact congrArg₂ (· * ·) (iblk4_1_apply V c _ r (j 0)) (iblk4_0_apply V c _ r (j 1)))

theorem final4_3 (c : Dev nD) : (dat4 V c).arrAt 3 cfg4.N = (rowSqG (V c main_v270) (V c main_v271) : Buf (Elt Ideal) ((c : Thread nD τ).loc main_v278_1)) :=
  (final4_3_acc V c).trans (by
    show (acc4_3 V c 19 lt19_4 : S8x64.Idx → EReal) = rowSqG (V c main_v270) (V c main_v271)
    funext j
    rw [acc4_3_sum]
    unfold rowSqG tileSum sqBlock
    rw [sum_rows_blocks]
    refine Finset.sum_congr rfl fun t _ => Finset.sum_congr rfl fun r _ => ?_
    exact congrArg₂ (· * ·) (iblk4_1_apply V c _ r (j 0))
      (congrArg₂ (· * ·) (iblk4_0_apply V c _ r (j 1)) (iblk4_0_apply V c _ r (j 1))))

end Ideal4

end Cert.KernelIdeal.Gen

end
-- ==== Proof.RegStatsValue.lean ====
import proofs.«404940_j85761906966882_2_alg».proof.Proof.RegStatsValue1
import proofs.«404940_j85761906966882_2_alg».proof.Proof.RegStatsValue4
-- ==== Proof.RegStatsBridge.lean ====
import proofs.«404940_j85761906966882_2_alg».proof.Proof.KerRegions
import proofs.«404940_j85761906966882_2_alg».proof.Proof.RegStatsValue

noncomputable section

namespace Cert.KernelIdeal.Gen

open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem rowSumG_eq : rowSumG = Cert.KerRegions.statsSumG := by
  unfold rowSumG Cert.KerRegions.statsSumG; rfl

theorem rowSqG_eq : rowSqG = Cert.KerRegions.statsSqG := by
  unfold rowSqG Cert.KerRegions.statsSqG; rfl

theorem final1_2_ker (c : Dev nD) : (dat1 (F := Ideal) V c).arrAt 2 cfg1.N = Cert.KerRegions.statsSumG (V c main_v124) (V c main_v125) := by
  rw [← rowSumG_eq]; exact final1_2 V c

theorem final1_3_ker (c : Dev nD) : (dat1 (F := Ideal) V c).arrAt 3 cfg1.N = Cert.KerRegions.statsSqG (V c main_v124) (V c main_v125) := by
  rw [← rowSqG_eq]; exact final1_3 V c

theorem final4_2_ker (c : Dev nD) : (dat4 (F := Ideal) V c).arrAt 2 cfg4.N = Cert.KerRegions.statsSumG (V c main_v270) (V c main_v271) := by
  rw [← rowSumG_eq]; exact final4_2 V c

theorem final4_3_ker (c : Dev nD) : (dat4 (F := Ideal) V c).arrAt 3 cfg4.N = Cert.KerRegions.statsSqG (V c main_v270) (V c main_v271) := by
  rw [← rowSqG_eq]; exact final4_3 V c

end Cert.KernelIdeal.Gen

end
-- ==== Proof.KerFinal.lean ====
import proofs.«404940_j85761906966882_2_alg».proof.Proof.Run
import proofs.«404940_j85761906966882_2_alg».proof.Proof.KerHostChain
import proofs.«404940_j85761906966882_2_alg».proof.Proof.RegGemmSpecValue
import proofs.«404940_j85761906966882_2_alg».proof.Proof.RegApplyBridge
import proofs.«404940_j85761906966882_2_alg».proof.Proof.RegStatsBridge
import proofs.«404940_j85761906966882_2_alg».proof.Proof.KerRegions

noncomputable section

namespace Cert.KernelIdeal.Final

open Idealize.ShloMosaic Idealize.ShloMosaic.TcCoe Idealize.SL Idealize.SL.Sem
open Cert.KernelIdeal Cert.KernelIdeal.Gen

variable (m : (ℓ : Loc nD τ sig) → Buf (Elt Ideal) ℓ)

theorem out2 (c : Dev nD) :
    Run.outs m 2 main_v4 c = Cert.KerRegions.R.gemmG (V1 m c main_v0) (V1 m c main_v3) := by
  rw [Cert.KerRegions.R_gemmG]
  exact (Run.outs_2 m c).trans (final0_2_spec (Run.atTc (V1 m)) c)

theorem out60a (c : Dev nD) :
    Run.outs m 60 main_v132_0 c
      = Cert.KerRegions.R.statsSumG (V59 m (Run.outs m) c main_v124) (V59 m (Run.outs m) c main_v125) := by
  rw [Cert.KerRegions.R_statsSumG]
  exact (Run.outs_60_0 m c).trans (final1_2_ker (Run.atTc (V59 m (Run.outs m))) c)

theorem out60b (c : Dev nD) :
    Run.outs m 60 main_v132_1 c
      = Cert.KerRegions.R.statsSqG (V59 m (Run.outs m) c main_v124) (V59 m (Run.outs m) c main_v125) := by
  rw [Cert.KerRegions.R_statsSqG]
  exact (Run.outs_60_1 m c).trans (final1_3_ker (Run.atTc (V59 m (Run.outs m))) c)

theorem out62 (c : Dev nD) :
    Run.outs m 62 main_v145 c
      = Cert.KerRegions.R.applyG (V61 m (Run.outs m) c main_v124) (V61 m (Run.outs m) c main_v125)
          (V61 m (Run.outs m) c main_v135) (V61 m (Run.outs m) c main_v142) (V61 m (Run.outs m) c main_v143)
          (V61 m (Run.outs m) c main_v144) := by
  rw [Cert.KerRegions.R_applyG]
  exact (Run.outs_62 m c).trans (final2_6_ker (Run.atTc (V61 m (Run.outs m))) c)

theorem out64 (c : Dev nD) :
    Run.outs m 64 main_v150 c
      = Cert.KerRegions.R.gemmG (V63 m (Run.outs m) c main_v146) (V63 m (Run.outs m) c main_v149) := by
  rw [Cert.KerRegions.R_gemmG]
  exact (Run.outs_64 m c).trans (final3_2_spec (Run.atTc (V63 m (Run.outs m))) c)

theorem out122a (c : Dev nD) :
    Run.outs m 122 main_v278_0 c
      = Cert.KerRegions.R.statsSumG (V121 m (Run.outs m) c main_v270) (V121 m (Run.outs m) c main_v271) := by
  rw [Cert.KerRegions.R_statsSumG]
  exact (Run.outs_122_0 m c).trans (final4_2_ker (Run.atTc (V121 m (Run.outs m))) c)

theorem out122b (c : Dev nD) :
    Run.outs m 122 main_v278_1 c
      = Cert.KerRegions.R.statsSqG (V121 m (Run.outs m) c main_v270) (V121 m (Run.outs m) c main_v271) := by
  rw [Cert.KerRegions.R_statsSqG]
  exact (Run.outs_122_1 m c).trans (final4_3_ker (Run.atTc (V121 m (Run.outs m))) c)

theorem out124 (c : Dev nD) :
    Run.outs m 124 main_v291 c
      = Cert.KerRegions.R.applyResG (V123 m (Run.outs m) c main_v270) (V123 m (Run.outs m) c main_v271)
          (V123 m (Run.outs m) c main_v281) (V123 m (Run.outs m) c main_v288) (V123 m (Run.outs m) c main_v289)
          (V123 m (Run.outs m) c main_v290) (V123 m (Run.outs m) c main_arg0) := by
  rw [Cert.KerRegions.R_applyResG]
  exact (Run.outs_124 m c).trans (final5_7_ker (Run.atTc (V123 m (Run.outs m))) c)

theorem result_eq (c : Dev nD) :
    Run.outs m 124 main_v291 c
      = Cert.SpecK.kerG Cert.KerRegions.R (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9)) :=
  Host.ker_value m (Run.outs m) Cert.KerRegions.R c (out2 m c) (out60a m c) (out60b m c) (out62 m c) (out64 m c)
    (out122a m c) (out122b m c) (out124 m c)

theorem ker_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v291)
        = Cert.SpecK.kerG Cert.KerRegions.R (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r h c => ⟨((h c).1).trans (result_eq m c), (h c).2⟩) (Run.run_value m ρ)

end Cert.KernelIdeal.Final

end
-- ==== Proof.RefLib.lean ====
import Idealize.ShloMosaic.Lib.StableHlo.Run

noncomputable section

namespace Cert.ReferenceIdeal.Value

open Idealize.ShloMosaic Idealize.SL.Sem Idealize.ShloMosaic.StableHlo

variable {nD : Nat} {τ : Topo} {sig : RefSig} {Val : EltTy → Type}

theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

theorem forall_append {α : Type*} {p : α → Prop} {l₁ l₂ : List α} (h₁ : l₁.Forall p) (h₂ : l₂.Forall p) : (l₁ ++ l₂).Forall p :=
  List.forall_append.2 ⟨h₁, h₂⟩

theorem fresh_append {l₁ l₂ : List (HloOp τ sig Val)} (h₁ : ∀ op ∈ l₁, op.fresh = ∅) (h₂ : ∀ op ∈ l₂, op.fresh = ∅) :
    ∀ op ∈ l₁ ++ l₂, op.fresh = ∅ :=
  fun op h => (List.mem_append.1 h).elim (h₁ op) (h₂ op)

-- Running `L` changes no buffer that is not in `W`.
def Keeps (L : List (HloOp τ sig Val)) (W : List (Ref sig .tc)) : Prop :=
  ∀ (V : Valuation τ sig Val) (r : Ref sig .tc), r ∉ W → after L V (Proc.devRef .tc r) = V (Proc.devRef .tc r)

theorem Keeps.of_writes {L : List (HloOp τ sig Val)} {W : List (Ref sig .tc)}
    (h : L.Forall fun op => op.writes ⊆ (W.map (Proc.devRef (τ := τ) .tc)).toFinset) : Keeps L W :=
  fun V _ hr => after_of_writes_sub L V h hr

theorem Keeps.append {L₁ L₂ : List (HloOp τ sig Val)} {W₁ W₂ : List (Ref sig .tc)} (h₁ : Keeps L₁ W₁) (h₂ : Keeps L₂ W₂) :
    Keeps (L₁ ++ L₂) (W₁ ++ W₂) := fun V r hr => by
  rw [after_app, h₂ _ r (fun h => hr (List.mem_append_right _ h)), h₁ V r (fun h => hr (List.mem_append_left _ h))]

end Cert.ReferenceIdeal.Value

end
-- ==== Proof.RefLine.lean ====
import proofs.«404940_j85761906966882_2_alg».proof.Proof.RefLib

noncomputable section

namespace Cert.ReferenceIdeal.Value

open Idealize.ShloMosaic Idealize.SL.Sem Idealize.ShloMosaic.StableHlo

variable {nD : Nat} {τ : Topo} {sig : RefSig} {Val : EltTy → Type}

/-- Operation `op` writes the buffer `w` and nothing else, and allocates nothing. -/
def Dst (op : HloOp τ sig Val) (w : Ref sig .tc) : Prop := op.writes = {Proc.devRef (τ := τ) .tc w} ∧ op.fresh = ∅

/-- A line whose k-th operation writes the k-th buffer of `W` leaves every buffer outside `W` alone. -/
theorem Keeps.of_dsts {L : List (HloOp τ sig Val)} {W : List (Ref sig .tc)} (h : List.Forall₂ Dst L W) : Keeps L W := by
  induction h with
  | nil => exact fun _ _ _ => rfl
  | cons hw _ ih =>
    intro V r hr
    rw [after_cons, ih _ r (fun h => hr (List.mem_cons_of_mem _ h))]
    exact HloOp.result_of_not_mem _ V (by
      rw [hw.1, Finset.mem_singleton]
      exact devRef_ne_of_ne (fun e => hr (e ▸ List.mem_cons_self)))

theorem fresh_of_dsts {L : List (HloOp τ sig Val)} {W : List (Ref sig .tc)} (h : List.Forall₂ Dst L W) :
    ∀ op ∈ L, op.fresh = ∅ := by
  induction h with
  | nil => exact fun _ h => nomatch h
  | cons hw _ ih => exact fun op h => (List.mem_cons.1 h).elim (fun e => e ▸ hw.2) (ih op)

end Cert.ReferenceIdeal.Value

end
-- ==== Proof.RefW00.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg0 : List (HloOp τ sig (Elt F)) :=
  [ nullary main_cst (constant S_ .f32 0x00000000#32),
    unary main_cst main_v0 (broadcastInDim S100000x64 ![] bcast_S_S100000x64) ]
abbrev sg0_W : List (Ref sig .tc) := [main_cst, main_v0]
theorem sg0_dsts : List.Forall₂ Dst (sg0 : List (HloOp τ sig (Elt F))) sg0_W := by repeat' constructor
theorem sg0_sub : (sg0 : List (HloOp τ sig (Elt F))).Forall fun op => op.bufs ⊆ tcRefs τ sig :=
  ⟨nullary_bufs_sub .., unary_bufs_sub ..⟩
theorem sg0_fresh : ∀ op ∈ (sg0 : List (HloOp τ sig (Elt F))), op.fresh = ∅ := fresh_of_dsts sg0_dsts
theorem sg0_keeps : Keeps (sg0 : List (HloOp τ sig (Elt F))) sg0_W := .of_dsts sg0_dsts

abbrev sg1 : List (HloOp τ sig (Elt F)) :=
  [ unary main_arg7 main_v1 (extractStridedSlice S1x100000 ![0, 0] · slices_S27x100000_S1x100000_0_0),
    reshape main_v1 main_v2 rfl shapeCasts_S1x100000_S100000,
    nullary main_c (constantI S_ 32 0#32),
    unary main_c main_v3 (broadcastInDim S100000 ![] bcast_S_S100000),
    binary main_v2 main_v3 main_v4 (cmpi .slt),
    nullary main_c_0 (constantI S_ 32 100000#32),
    unary main_c_0 main_v5 (broadcastInDim S100000 ![] bcast_S_S100000),
    binary main_v2 main_v5 main_v6 (addi),
    ternary main_v4 main_v6 main_v2 main_v7 select,
    unary main_v7 main_v8 (broadcastInDim S100000x1 ![0] bcast_S100000_S100000x1_0),
    binary main_arg0 main_v8 main_v9 (Host.gather gather_S100000x64_S100000x1_S100000x64_1_0_n_n_0_1_164),
    unary main_arg1 main_v10 (extractStridedSlice S1x64x64 ![0, 0, 0] · slices_S27x64x64_S1x64x64_0_0_0),
    reshape main_v10 main_v11 rfl shapeCasts_S1x64x64_S64x64,
    binary main_v9 main_v11 main_v12 (Host.dotGeneral dot_S100000x64_S64x64_S100000x64_1_0_0_1_n_n none),
    unary main_arg8 main_v13 (extractStridedSlice S1x100000 ![0, 0] · slices_S27x100000_S1x100000_0_0),
    reshape main_v13 main_v14 rfl shapeCasts_S1x100000_S100000,
    nullary main_c_1 (constantI S_ 32 0#32),
    unary main_c_1 main_v15 (broadcastInDim S100000 ![] bcast_S_S100000),
    binary main_v14 main_v15 main_v16 (cmpi .slt),
    nullary main_c_2 (constantI S_ 32 100000#32),
    unary main_c_2 main_v17 (broadcastInDim S100000 ![] bcast_S_S100000),
    binary main_v14 main_v17 main_v18 (addi),
    ternary main_v16 main_v18 main_v14 main_v19 select,
    unary main_v19 main_v20 (broadcastInDim S100000x1 ![0] bcast_S100000_S100000x1_0),
    ternary main_v0 main_v20 main_v12 main_v21 (Host.scatterAdd scatter_S100000x64_S100000x1_S100000x64_1_0_0_1) ]
abbrev sg1_W : List (Ref sig .tc) := [main_v1, main_v2, main_c, main_v3, main_v4, main_c_0, main_v5, main_v6, main_v7, main_v8, main_v9, main_v10, main_v11, main_v12, main_v13, main_v14, main_c_1, main_v15, main_v16, main_c_2, main_v17, main_v18, main_v19, main_v20, main_v21]
theorem sg1_dsts : List.Forall₂ Dst (sg1 : List (HloOp τ sig (Elt F))) sg1_W := by repeat' constructor
theorem sg1_sub : (sg1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg1_fresh : ∀ op ∈ (sg1 : List (HloOp τ sig (Elt F))), op.fresh = ∅ := fresh_of_dsts sg1_dsts
theorem sg1_keeps : Keeps (sg1 : List (HloOp τ sig (Elt F))) sg1_W := .of_dsts sg1_dsts

abbrev sg2 : List (HloOp τ sig (Elt F)) :=
  [ unary main_arg7 main_v22 (extractStridedSlice S1x100000 ![1, 0] · slices_S27x100000_S1x100000_1_0),
    reshape main_v22 main_v23 rfl shapeCasts_S1x100000_S100000,
    nullary main_c_3 (constantI S_ 32 0#32),
    unary main_c_3 main_v24 (broadcastInDim S100000 ![] bcast_S_S100000),
    binary main_v23 main_v24 main_v25 (cmpi .slt),
    nullary main_c_4 (constantI S_ 32 100000#32),
    unary main_c_4 main_v26 (broadcastInDim S100000 ![] bcast_S_S100000),
    binary main_v23 main_v26 main_v27 (addi),
    ternary main_v25 main_v27 main_v23 main_v28 select,
    unary main_v28 main_v29 (broadcastInDim S100000x1 ![0] bcast_S100000_S100000x1_0),
    binary main_arg0 main_v29 main_v30 (Host.gather gather_S100000x64_S100000x1_S100000x64_1_0_n_n_0_1_164),
    unary main_arg1 main_v31 (extractStridedSlice S1x64x64 ![1, 0, 0] · slices_S27x64x64_S1x64x64_1_0_0),
    reshape main_v31 main_v32 rfl shapeCasts_S1x64x64_S64x64,
    binary main_v30 main_v32 main_v33 (Host.dotGeneral dot_S100000x64_S64x64_S100000x64_1_0_0_1_n_n none),
    unary main_arg8 main_v34 (extractStridedSlice S1x100000 ![1, 0] · slices_S27x100000_S1x100000_1_0),
    reshape main_v34 main_v35 rfl shapeCasts_S1x100000_S100000,
    nullary main_c_5 (constantI S_ 32 0#32),
    unary main_c_5 main_v36 (broadcastInDim S100000 ![] bcast_S_S100000),
    binary main_v35 main_v36 main_v37 (cmpi .slt),
    nullary main_c_6 (constantI S_ 32 100000#32),
    unary main_c_6 main_v38 (broadcastInDim S100000 ![] bcast_S_S100000),
    binary main_v35 main_v38 main_v39 (addi),
    ternary main_v37 main_v39 main_v35 main_v40 select,
    unary main_v40 main_v41 (broadcastInDim S100000x1 ![0] bcast_S100000_S100000x1_0),
    ternary main_v21 main_v41 main_v33 main_v42 (Host.scatterAdd scatter_S100000x64_S100000x1_S100000x64_1_0_0_1) ]
abbrev sg2_W : List (Ref sig .tc) := [main_v22, main_v23, main_c_3, main_v24, main_v25, main_c_4, main_v26, main_v27, main_v28, main_v29, main_v30, main_v31, main_v32, main_v33, main_v34, main_v35, main_c_5, main_v36, main_v37, main_c_6, main_v38, main_v39, main_v40, main_v41, main_v42]
theorem sg2_dsts : List.Forall₂ Dst (sg2 : List (HloOp τ sig (Elt F))) sg2_W := by repeat' constructor
theorem sg2_sub : (sg2 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg2_fresh : ∀ op ∈ (sg2 : List (HloOp τ sig (Elt F))), op.fresh = ∅ := fresh_of_dsts sg2_dsts
theorem sg2_keeps : Keeps (sg2 : List (HloOp τ sig (Elt F))) sg2_W := .of_dsts sg2_dsts

abbrev sg3 : List (HloOp τ sig (Elt F)) :=
  [ unary main_arg7 main_v43 (extractStridedSlice S1x100000 ![2, 0] · slices_S27x100000_S1x100000_2_0),
    reshape main_v43 main_v44 rfl shapeCasts_S1x100000_S100000,
    nullary main_c_7 (constantI S_ 32 0#32),
    unary main_c_7 main_v45 (broadcastInDim S100000 ![] bcast_S_S100000),
    binary main_v44 main_v45 main_v46 (cmpi .slt),
    nullary main_c_8 (constantI S_ 32 100000#32),
    unary main_c_8 main_v47 (broadcastInDim S100000 ![] bcast_S_S100000),
    binary main_v44 main_v47 main_v48 (addi) ]
abbrev sg3_W : List (Ref sig .tc) := [main_v43, main_v44, main_c_7, main_v45, main_v46, main_c_8, main_v47, main_v48]
theorem sg3_dsts : List.Forall₂ Dst (sg3 : List (HloOp τ sig (Elt F))) sg3_W := by repeat' constructor
theorem sg3_sub : (sg3 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub ..⟩
theorem sg3_fresh : ∀ op ∈ (sg3 : List (HloOp τ sig (Elt F))), op.fresh = ∅ := fresh_of_dsts sg3_dsts
theorem sg3_keeps : Keeps (sg3 : List (HloOp τ sig (Elt F))) sg3_W := .of_dsts sg3_dsts

def ops_part0 : List (HloOp τ sig (Elt F)) := sg0 ++ (sg1 ++ (sg2 ++ sg3))
set_option maxRecDepth 8192 in
set_option maxHeartbeats 4000000 in
theorem main_part0_eq (c : Dev nD) : main_part0 (F := F) c = seq ops_part0 := rfl
theorem ops_part0_sub : (ops_part0 : List (HloOp τ sig (Elt F))).Forall fun op => op.bufs ⊆ tcRefs τ sig :=
  forall_append sg0_sub (forall_append sg1_sub (forall_append sg2_sub sg3_sub))
theorem ops_part0_fresh : ∀ op ∈ (ops_part0 : List (HloOp τ sig (Elt F))), op.fresh = ∅ :=
  fresh_append sg0_fresh (fresh_append sg1_fresh (fresh_append sg2_fresh sg3_fresh))

end Cert.ReferenceIdeal.Value

end
-- ==== Proof.RefW01.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg4 : List (HloOp τ sig (Elt F)) :=
  [ ternary main_v46 main_v48 main_v44 main_v49 select,
    unary main_v49 main_v50 (broadcastInDim S100000x1 ![0] bcast_S100000_S100000x1_0),
    binary main_arg0 main_v50 main_v51 (Host.gather gather_S100000x64_S100000x1_S100000x64_1_0_n_n_0_1_164),
    unary main_arg1 main_v52 (extractStridedSlice S1x64x64 ![2, 0, 0] · slices_S27x64x64_S1x64x64_2_0_0),
    reshape main_v52 main_v53 rfl shapeCasts_S1x64x64_S64x64,
    binary main_v51 main_v53 main_v54 (Host.dotGeneral dot_S100000x64_S64x64_S100000x64_1_0_0_1_n_n none),
    unary main_arg8 main_v55 (extractStridedSlice S1x100000 ![2, 0] · slices_S27x100000_S1x100000_2_0),
    reshape main_v55 main_v56 rfl shapeCasts_S1x100000_S100000,
    nullary main_c_9 (constantI S_ 32 0#32),
    unary main_c_9 main_v57 (broadcastInDim S100000 ![] bcast_S_S100000),
    binary main_v56 main_v57 main_v58 (cmpi .slt),
    nullary main_c_10 (constantI S_ 32 100000#32),
    unary main_c_10 main_v59 (broadcastInDim S100000 ![] bcast_S_S100000),
    binary main_v56 main_v59 main_v60 (addi),
    ternary main_v58 main_v60 main_v56 main_v61 select,
    unary main_v61 main_v62 (broadcastInDim S100000x1 ![0] bcast_S100000_S100000x1_0),
    ternary main_v42 main_v62 main_v54 main_v63 (Host.scatterAdd scatter_S100000x64_S100000x1_S100000x64_1_0_0_1) ]
abbrev sg4_W : List (Ref sig .tc) := [main_v49, main_v50, main_v51, main_v52, main_v53, main_v54, main_v55, main_v56, main_c_9, main_v57, main_v58, main_c_10, main_v59, main_v60, main_v61, main_v62, main_v63]
theorem sg4_dsts : List.Forall₂ Dst (sg4 : List (HloOp τ sig (Elt F))) sg4_W := by repeat' constructor
theorem sg4_sub : (sg4 : List (HloOp τ sig (Elt F))).Forall fun op => op.bufs ⊆ tcRefs τ sig :=
  ⟨ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg4_fresh : ∀ op ∈ (sg4 : List (HloOp τ sig (Elt F))), op.fresh = ∅ := fresh_of_dsts sg4_dsts
theorem sg4_keeps : Keeps (sg4 : List (HloOp τ sig (Elt F))) sg4_W := .of_dsts sg4_dsts

abbrev sg5 : List (HloOp τ sig (Elt F)) :=
  [ unary main_arg7 main_v64 (extractStridedSlice S1x100000 ![3, 0] · slices_S27x100000_S1x100000_3_0),
    reshape main_v64 main_v65 rfl shapeCasts_S1x100000_S100000,
    nullary main_c_11 (constantI S_ 32 0#32),
    unary main_c_11 main_v66 (broadcastInDim S100000 ![] bcast_S_S100000),
    binary main_v65 main_v66 main_v67 (cmpi .slt),
    nullary main_c_12 (constantI S_ 32 100000#32),
    unary main_c_12 main_v68 (broadcastInDim S100000 ![] bcast_S_S100000),
    binary main_v65 main_v68 main_v69 (addi),
    ternary main_v67 main_v69 main_v65 main_v70 select,
    unary main_v70 main_v71 (broadcastInDim S100000x1 ![0] bcast_S100000_S100000x1_0),
    binary main_arg0 main_v71 main_v72 (Host.gather gather_S100000x64_S100000x1_S100000x64_1_0_n_n_0_1_164),
    unary main_arg1 main_v73 (extractStridedSlice S1x64x64 ![3, 0, 0] · slices_S27x64x64_S1x64x64_3_0_0),
    reshape main_v73 main_v74 rfl shapeCasts_S1x64x64_S64x64,
    binary main_v72 main_v74 main_v75 (Host.dotGeneral dot_S100000x64_S64x64_S100000x64_1_0_0_1_n_n none),
    unary main_arg8 main_v76 (extractStridedSlice S1x100000 ![3, 0] · slices_S27x100000_S1x100000_3_0),
    reshape main_v76 main_v77 rfl shapeCasts_S1x100000_S100000,
    nullary main_c_13 (constantI S_ 32 0#32),
    unary main_c_13 main_v78 (broadcastInDim S100000 ![] bcast_S_S100000),
    binary main_v77 main_v78 main_v79 (cmpi .slt),
    nullary main_c_14 (constantI S_ 32 100000#32),
    unary main_c_14 main_v80 (broadcastInDim S100000 ![] bcast_S_S100000),
    binary main_v77 main_v80 main_v81 (addi),
    ternary main_v79 main_v81 main_v77 main_v82 select,
    unary main_v82 main_v83 (broadcastInDim S100000x1 ![0] bcast_S100000_S100000x1_0),
    ternary main_v63 main_v83 main_v75 main_v84 (Host.scatterAdd scatter_S100000x64_S100000x1_S100000x64_1_0_0_1) ]
abbrev sg5_W : List (Ref sig .tc) := [main_v64, main_v65, main_c_11, main_v66, main_v67, main_c_12, main_v68, main_v69, main_v70, main_v71, main_v72, main_v73, main_v74, main_v75, main_v76, main_v77, main_c_13, main_v78, main_v79, main_c_14, main_v80, main_v81, main_v82, main_v83, main_v84]
theorem sg5_dsts : List.Forall₂ Dst (sg5 : List (HloOp τ sig (Elt F))) sg5_W := by repeat' constructor
theorem sg5_sub : (sg5 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg5_fresh : ∀ op ∈ (sg5 : List (HloOp τ sig (Elt F))), op.fresh = ∅ := fresh_of_dsts sg5_dsts
theorem sg5_keeps : Keeps (sg5 : List (HloOp τ sig (Elt F))) sg5_W := .of_dsts sg5_dsts

abbrev sg6 : List (HloOp τ sig (Elt F)) :=
  [ unary main_arg7 main_v85 (extractStridedSlice S1x100000 ![4, 0] · slices_S27x100000_S1x100000_4_0),
    reshape main_v85 main_v86 rfl shapeCasts_S1x100000_S100000,
    nullary main_c_15 (constantI S_ 32 0#32),
    unary main_c_15 main_v87 (broadcastInDim S100000 ![] bcast_S_S100000),
    binary main_v86 main_v87 main_v88 (cmpi .slt),
    nullary main_c_16 (constantI S_ 32 100000#32),
    unary main_c_16 main_v89 (broadcastInDim S100000 ![] bcast_S_S100000),
    binary main_v86 main_v89 main_v90 (addi),
    ternary main_v88 main_v90 main_v86 main_v91 select,
    unary main_v91 main_v92 (broadcastInDim S100000x1 ![0] bcast_S100000_S100000x1_0),
    binary main_arg0 main_v92 main_v93 (Host.gather gather_S100000x64_S100000x1_S100000x64_1_0_n_n_0_1_164),
    unary main_arg1 main_v94 (extractStridedSlice S1x64x64 ![4, 0, 0] · slices_S27x64x64_S1x64x64_4_0_0),
    reshape main_v94 main_v95 rfl shapeCasts_S1x64x64_S64x64,
    binary main_v93 main_v95 main_v96 (Host.dotGeneral dot_S100000x64_S64x64_S100000x64_1_0_0_1_n_n none),
    unary main_arg8 main_v97 (extractStridedSlice S1x100000 ![4, 0] · slices_S27x100000_S1x100000_4_0),
    reshape main_v97 main_v98 rfl shapeCasts_S1x100000_S100000,
    nullary main_c_17 (constantI S_ 32 0#32),
    unary main_c_17 main_v99 (broadcastInDim S100000 ![] bcast_S_S100000) ]
abbrev sg6_W : List (Ref sig .tc) := [main_v85, main_v86, main_c_15, main_v87, main_v88, main_c_16, main_v89, main_v90, main_v91, main_v92, main_v93, main_v94, main_v95, main_v96, main_v97, main_v98, main_c_17, main_v99]
theorem sg6_dsts : List.Forall₂ Dst (sg6 : List (HloOp τ sig (Elt F))) sg6_W := by repeat' constructor
theorem sg6_sub : (sg6 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub ..⟩
theorem sg6_fresh : ∀ op ∈ (sg6 : List (HloOp τ sig (Elt F))), op.fresh = ∅ := fresh_of_dsts sg6_dsts
theorem sg6_keeps : Keeps (sg6 : List (HloOp τ sig (Elt F))) sg6_W := .of_dsts sg6_dsts

def ops_part1 : List (HloOp τ sig (Elt F)) := sg4 ++ (sg5 ++ sg6)
set_option maxRecDepth 8192 in
set_option maxHeartbeats 4000000 in
theorem main_part1_eq (c : Dev nD) : main_part1 (F := F) c = seq ops_part1 := rfl
theorem ops_part1_sub : (ops_part1 : List (HloOp τ sig (Elt F))).Forall fun op => op.bufs ⊆ tcRefs τ sig :=
  forall_append sg4_sub (forall_append sg5_sub sg6_sub)
theorem ops_part1_fresh : ∀ op ∈ (ops_part1 : List (HloOp τ sig (Elt F))), op.fresh = ∅ :=
  fresh_append sg4_fresh (fresh_append sg5_fresh sg6_fresh)

end Cert.ReferenceIdeal.Value

end
-- ==== Proof.RefW02.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg7 : List (HloOp τ sig (Elt F)) :=
  [ binary main_v98 main_v99 main_v100 (cmpi .slt),
    nullary main_c_18 (constantI S_ 32 100000#32),
    unary main_c_18 main_v101 (broadcastInDim S100000 ![] bcast_S_S100000),
    binary main_v98 main_v101 main_v102 (addi),
    ternary main_v100 main_v102 main_v98 main_v103 select,
    unary main_v103 main_v104 (broadcastInDim S100000x1 ![0] bcast_S100000_S100000x1_0),
    ternary main_v84 main_v104 main_v96 main_v105 (Host.scatterAdd scatter_S100000x64_S100000x1_S100000x64_1_0_0_1) ]
abbrev sg7_W : List (Ref sig .tc) := [main_v100, main_c_18, main_v101, main_v102, main_v103, main_v104, main_v105]
theorem sg7_dsts : List.Forall₂ Dst (sg7 : List (HloOp τ sig (Elt F))) sg7_W := by repeat' constructor
theorem sg7_sub : (sg7 : List (HloOp τ sig (Elt F))).Forall fun op => op.bufs ⊆ tcRefs τ sig :=
  ⟨binary_bufs_sub .., nullary_bufs_sub .., unary_bufs_sub .., binary_bufs_sub .., ternary_bufs_sub .., unary_bufs_sub .., ternary_bufs_sub ..⟩
theorem sg7_fresh : ∀ op ∈ (sg7 : List (HloOp τ sig (Elt F))), op.fresh = ∅ := fresh_of_dsts sg7_dsts
theorem sg7_keeps : Keeps (sg7 : List (HloOp τ sig (Elt F))) sg7_W := .of_dsts sg7_dsts

abbrev sg8 : List (HloOp τ sig (Elt F)) :=
  [ unary main_arg7 main_v106 (extractStridedSlice S1x100000 ![5, 0] · slices_S27x100000_S1x100000_5_0),
    reshape main_v106 main_v107 rfl shapeCasts_S1x100000_S100000,
    nullary main_c_19 (constantI S_ 32 0#32),
    unary main_c_19 main_v108 (broadcastInDim S100000 ![] bcast_S_S100000),
    binary main_v107 main_v108 main_v109 (cmpi .slt),
    nullary main_c_20 (constantI S_ 32 100000#32),
    unary main_c_20 main_v110 (broadcastInDim S100000 ![] bcast_S_S100000),
    binary main_v107 main_v110 main_v111 (addi),
    ternary main_v109 main_v111 main_v107 main_v112 select,
    unary main_v112 main_v113 (broadcastInDim S100000x1 ![0] bcast_S100000_S100000x1_0),
    binary main_arg0 main_v113 main_v114 (Host.gather gather_S100000x64_S100000x1_S100000x64_1_0_n_n_0_1_164),
    unary main_arg1 main_v115 (extractStridedSlice S1x64x64 ![5, 0, 0] · slices_S27x64x64_S1x64x64_5_0_0),
    reshape main_v115 main_v116 rfl shapeCasts_S1x64x64_S64x64,
    binary main_v114 main_v116 main_v117 (Host.dotGeneral dot_S100000x64_S64x64_S100000x64_1_0_0_1_n_n none),
    unary main_arg8 main_v118 (extractStridedSlice S1x100000 ![5, 0] · slices_S27x100000_S1x100000_5_0),
    reshape main_v118 main_v119 rfl shapeCasts_S1x100000_S100000,
    nullary main_c_21 (constantI S_ 32 0#32),
    unary main_c_21 main_v120 (broadcastInDim S100000 ![] bcast_S_S100000),
    binary main_v119 main_v120 main_v121 (cmpi .slt),
    nullary main_c_22 (constantI S_ 32 100000#32),
    unary main_c_22 main_v122 (broadcastInDim S100000 ![] bcast_S_S100000),
    binary main_v119 main_v122 main_v123 (addi),
    ternary main_v121 main_v123 main_v119 main_v124 select,
    unary main_v124 main_v125 (broadcastInDim S100000x1 ![0] bcast_S100000_S100000x1_0),
    ternary main_v105 main_v125 main_v117 main_v126 (Host.scatterAdd scatter_S100000x64_S100000x1_S100000x64_1_0_0_1) ]
abbrev sg8_W : List (Ref sig .tc) := [main_v106, main_v107, main_c_19, main_v108, main_v109, main_c_20, main_v110, main_v111, main_v112, main_v113, main_v114, main_v115, main_v116, main_v117, main_v118, main_v119, main_c_21, main_v120, main_v121, main_c_22, main_v122, main_v123, main_v124, main_v125, main_v126]
theorem sg8_dsts : List.Forall₂ Dst (sg8 : List (HloOp τ sig (Elt F))) sg8_W := by repeat' constructor
theorem sg8_sub : (sg8 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg8_fresh : ∀ op ∈ (sg8 : List (HloOp τ sig (Elt F))), op.fresh = ∅ := fresh_of_dsts sg8_dsts
theorem sg8_keeps : Keeps (sg8 : List (HloOp τ sig (Elt F))) sg8_W := .of_dsts sg8_dsts

abbrev sg9 : List (HloOp τ sig (Elt F)) :=
  [ unary main_arg7 main_v127 (extractStridedSlice S1x100000 ![6, 0] · slices_S27x100000_S1x100000_6_0),
    reshape main_v127 main_v128 rfl shapeCasts_S1x100000_S100000,
    nullary main_c_23 (constantI S_ 32 0#32),
    unary main_c_23 main_v129 (broadcastInDim S100000 ![] bcast_S_S100000),
    binary main_v128 main_v129 main_v130 (cmpi .slt),
    nullary main_c_24 (constantI S_ 32 100000#32),
    unary main_c_24 main_v131 (broadcastInDim S100000 ![] bcast_S_S100000),
    binary main_v128 main_v131 main_v132 (addi),
    ternary main_v130 main_v132 main_v128 main_v133 select,
    unary main_v133 main_v134 (broadcastInDim S100000x1 ![0] bcast_S100000_S100000x1_0),
    binary main_arg0 main_v134 main_v135 (Host.gather gather_S100000x64_S100000x1_S100000x64_1_0_n_n_0_1_164),
    unary main_arg1 main_v136 (extractStridedSlice S1x64x64 ![6, 0, 0] · slices_S27x64x64_S1x64x64_6_0_0),
    reshape main_v136 main_v137 rfl shapeCasts_S1x64x64_S64x64,
    binary main_v135 main_v137 main_v138 (Host.dotGeneral dot_S100000x64_S64x64_S100000x64_1_0_0_1_n_n none),
    unary main_arg8 main_v139 (extractStridedSlice S1x100000 ![6, 0] · slices_S27x100000_S1x100000_6_0),
    reshape main_v139 main_v140 rfl shapeCasts_S1x100000_S100000,
    nullary main_c_25 (constantI S_ 32 0#32),
    unary main_c_25 main_v141 (broadcastInDim S100000 ![] bcast_S_S100000),
    binary main_v140 main_v141 main_v142 (cmpi .slt),
    nullary main_c_26 (constantI S_ 32 100000#32),
    unary main_c_26 main_v143 (broadcastInDim S100000 ![] bcast_S_S100000),
    binary main_v140 main_v143 main_v144 (addi),
    ternary main_v142 main_v144 main_v140 main_v145 select,
    unary main_v145 main_v146 (broadcastInDim S100000x1 ![0] bcast_S100000_S100000x1_0),
    ternary main_v126 main_v146 main_v138 main_v147 (Host.scatterAdd scatter_S100000x64_S100000x1_S100000x64_1_0_0_1) ]
abbrev sg9_W : List (Ref sig .tc) := [main_v127, main_v128, main_c_23, main_v129, main_v130, main_c_24, main_v131, main_v132, main_v133, main_v134, main_v135, main_v136, main_v137, main_v138, main_v139, main_v140, main_c_25, main_v141, main_v142, main_c_26, main_v143, main_v144, main_v145, main_v146, main_v147]
theorem sg9_dsts : List.Forall₂ Dst (sg9 : List (HloOp τ sig (Elt F))) sg9_W := by repeat' constructor
theorem sg9_sub : (sg9 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg9_fresh : ∀ op ∈ (sg9 : List (HloOp τ sig (Elt F))), op.fresh = ∅ := fresh_of_dsts sg9_dsts
theorem sg9_keeps : Keeps (sg9 : List (HloOp τ sig (Elt F))) sg9_W := .of_dsts sg9_dsts

abbrev sg10 : List (HloOp τ sig (Elt F)) :=
  [ unary main_arg7 main_v148 (extractStridedSlice S1x100000 ![7, 0] · slices_S27x100000_S1x100000_7_0),
    reshape main_v148 main_v149 rfl shapeCasts_S1x100000_S100000,
    nullary main_c_27 (constantI S_ 32 0#32) ]
abbrev sg10_W : List (Ref sig .tc) := [main_v148, main_v149, main_c_27]
theorem sg10_dsts : List.Forall₂ Dst (sg10 : List (HloOp τ sig (Elt F))) sg10_W := by repeat' constructor
theorem sg10_sub : (sg10 : List (HloOp τ sig (Elt F))).Forall fun op => op.bufs ⊆ tcRefs τ sig :=
  ⟨unary_bufs_sub .., reshape_bufs_sub .., nullary_bufs_sub ..⟩
theorem sg10_fresh : ∀ op ∈ (sg10 : List (HloOp τ sig (Elt F))), op.fresh = ∅ := fresh_of_dsts sg10_dsts
theorem sg10_keeps : Keeps (sg10 : List (HloOp τ sig (Elt F))) sg10_W := .of_dsts sg10_dsts

def ops_part2 : List (HloOp τ sig (Elt F)) := sg7 ++ (sg8 ++ (sg9 ++ sg10))
set_option maxRecDepth 8192 in
set_option maxHeartbeats 4000000 in
theorem main_part2_eq (c : Dev nD) : main_part2 (F := F) c = seq ops_part2 := rfl
theorem ops_part2_sub : (ops_part2 : List (HloOp τ sig (Elt F))).Forall fun op => op.bufs ⊆ tcRefs τ sig :=
  forall_append sg7_sub (forall_append sg8_sub (forall_append sg9_sub sg10_sub))
theorem ops_part2_fresh : ∀ op ∈ (ops_part2 : List (HloOp τ sig (Elt F))), op.fresh = ∅ :=
  fresh_append sg7_fresh (fresh_append sg8_fresh (fresh_append sg9_fresh sg10_fresh))

end Cert.ReferenceIdeal.Value

end
-- ==== Proof.RefW03.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg11 : List (HloOp τ sig (Elt F)) :=
  [ unary main_c_27 main_v150 (broadcastInDim S100000 ![] bcast_S_S100000),
    binary main_v149 main_v150 main_v151 (cmpi .slt),
    nullary main_c_28 (constantI S_ 32 100000#32),
    unary main_c_28 main_v152 (broadcastInDim S100000 ![] bcast_S_S100000),
    binary main_v149 main_v152 main_v153 (addi),
    ternary main_v151 main_v153 main_v149 main_v154 select,
    unary main_v154 main_v155 (broadcastInDim S100000x1 ![0] bcast_S100000_S100000x1_0),
    binary main_arg0 main_v155 main_v156 (Host.gather gather_S100000x64_S100000x1_S100000x64_1_0_n_n_0_1_164),
    unary main_arg1 main_v157 (extractStridedSlice S1x64x64 ![7, 0, 0] · slices_S27x64x64_S1x64x64_7_0_0),
    reshape main_v157 main_v158 rfl shapeCasts_S1x64x64_S64x64,
    binary main_v156 main_v158 main_v159 (Host.dotGeneral dot_S100000x64_S64x64_S100000x64_1_0_0_1_n_n none),
    unary main_arg8 main_v160 (extractStridedSlice S1x100000 ![7, 0] · slices_S27x100000_S1x100000_7_0),
    reshape main_v160 main_v161 rfl shapeCasts_S1x100000_S100000,
    nullary main_c_29 (constantI S_ 32 0#32),
    unary main_c_29 main_v162 (broadcastInDim S100000 ![] bcast_S_S100000),
    binary main_v161 main_v162 main_v163 (cmpi .slt),
    nullary main_c_30 (constantI S_ 32 100000#32),
    unary main_c_30 main_v164 (broadcastInDim S100000 ![] bcast_S_S100000),
    binary main_v161 main_v164 main_v165 (addi),
    ternary main_v163 main_v165 main_v161 main_v166 select,
    unary main_v166 main_v167 (broadcastInDim S100000x1 ![0] bcast_S100000_S100000x1_0),
    ternary main_v147 main_v167 main_v159 main_v168 (Host.scatterAdd scatter_S100000x64_S100000x1_S100000x64_1_0_0_1) ]
abbrev sg11_W : List (Ref sig .tc) := [main_v150, main_v151, main_c_28, main_v152, main_v153, main_v154, main_v155, main_v156, main_v157, main_v158, main_v159, main_v160, main_v161, main_c_29, main_v162, main_v163, main_c_30, main_v164, main_v165, main_v166, main_v167, main_v168]
theorem sg11_dsts : List.Forall₂ Dst (sg11 : List (HloOp τ sig (Elt F))) sg11_W := by repeat' constructor
theorem sg11_sub : (sg11 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg11_fresh : ∀ op ∈ (sg11 : List (HloOp τ sig (Elt F))), op.fresh = ∅ := fresh_of_dsts sg11_dsts
theorem sg11_keeps : Keeps (sg11 : List (HloOp τ sig (Elt F))) sg11_W := .of_dsts sg11_dsts

abbrev sg12 : List (HloOp τ sig (Elt F)) :=
  [ unary main_arg7 main_v169 (extractStridedSlice S1x100000 ![8, 0] · slices_S27x100000_S1x100000_8_0),
    reshape main_v169 main_v170 rfl shapeCasts_S1x100000_S100000,
    nullary main_c_31 (constantI S_ 32 0#32),
    unary main_c_31 main_v171 (broadcastInDim S100000 ![] bcast_S_S100000),
    binary main_v170 main_v171 main_v172 (cmpi .slt),
    nullary main_c_32 (constantI S_ 32 100000#32),
    unary main_c_32 main_v173 (broadcastInDim S100000 ![] bcast_S_S100000),
    binary main_v170 main_v173 main_v174 (addi),
    ternary main_v172 main_v174 main_v170 main_v175 select,
    unary main_v175 main_v176 (broadcastInDim S100000x1 ![0] bcast_S100000_S100000x1_0),
    binary main_arg0 main_v176 main_v177 (Host.gather gather_S100000x64_S100000x1_S100000x64_1_0_n_n_0_1_164),
    unary main_arg1 main_v178 (extractStridedSlice S1x64x64 ![8, 0, 0] · slices_S27x64x64_S1x64x64_8_0_0),
    reshape main_v178 main_v179 rfl shapeCasts_S1x64x64_S64x64,
    binary main_v177 main_v179 main_v180 (Host.dotGeneral dot_S100000x64_S64x64_S100000x64_1_0_0_1_n_n none),
    unary main_arg8 main_v181 (extractStridedSlice S1x100000 ![8, 0] · slices_S27x100000_S1x100000_8_0),
    reshape main_v181 main_v182 rfl shapeCasts_S1x100000_S100000,
    nullary main_c_33 (constantI S_ 32 0#32),
    unary main_c_33 main_v183 (broadcastInDim S100000 ![] bcast_S_S100000),
    binary main_v182 main_v183 main_v184 (cmpi .slt),
    nullary main_c_34 (constantI S_ 32 100000#32),
    unary main_c_34 main_v185 (broadcastInDim S100000 ![] bcast_S_S100000),
    binary main_v182 main_v185 main_v186 (addi),
    ternary main_v184 main_v186 main_v182 main_v187 select,
    unary main_v187 main_v188 (broadcastInDim S100000x1 ![0] bcast_S100000_S100000x1_0),
    ternary main_v168 main_v188 main_v180 main_v189 (Host.scatterAdd scatter_S100000x64_S100000x1_S100000x64_1_0_0_1) ]
abbrev sg12_W : List (Ref sig .tc) := [main_v169, main_v170, main_c_31, main_v171, main_v172, main_c_32, main_v173, main_v174, main_v175, main_v176, main_v177, main_v178, main_v179, main_v180, main_v181, main_v182, main_c_33, main_v183, main_v184, main_c_34, main_v185, main_v186, main_v187, main_v188, main_v189]
theorem sg12_dsts : List.Forall₂ Dst (sg12 : List (HloOp τ sig (Elt F))) sg12_W := by repeat' constructor
theorem sg12_sub : (sg12 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg12_fresh : ∀ op ∈ (sg12 : List (HloOp τ sig (Elt F))), op.fresh = ∅ := fresh_of_dsts sg12_dsts
theorem sg12_keeps : Keeps (sg12 : List (HloOp τ sig (Elt F))) sg12_W := .of_dsts sg12_dsts

abbrev sg13 : List (HloOp τ sig (Elt F)) :=
  [ unary main_arg7 main_v190 (extractStridedSlice S1x100000 ![9, 0] · slices_S27x100000_S1x100000_9_0),
    reshape main_v190 main_v191 rfl shapeCasts_S1x100000_S100000,
    nullary main_c_35 (constantI S_ 32 0#32),
    unary main_c_35 main_v192 (broadcastInDim S100000 ![] bcast_S_S100000),
    binary main_v191 main_v192 main_v193 (cmpi .slt),
    nullary main_c_36 (constantI S_ 32 100000#32),
    unary main_c_36 main_v194 (broadcastInDim S100000 ![] bcast_S_S100000),
    binary main_v191 main_v194 main_v195 (addi),
    ternary main_v193 main_v195 main_v191 main_v196 select,
    unary main_v196 main_v197 (broadcastInDim S100000x1 ![0] bcast_S100000_S100000x1_0),
    binary main_arg0 main_v197 main_v198 (Host.gather gather_S100000x64_S100000x1_S100000x64_1_0_n_n_0_1_164),
    unary main_arg1 main_v199 (extractStridedSlice S1x64x64 ![9, 0, 0] · slices_S27x64x64_S1x64x64_9_0_0),
    reshape main_v199 main_v200 rfl shapeCasts_S1x64x64_S64x64 ]
abbrev sg13_W : List (Ref sig .tc) := [main_v190, main_v191, main_c_35, main_v192, main_v193, main_c_36, main_v194, main_v195, main_v196, main_v197, main_v198, main_v199, main_v200]
theorem sg13_dsts : List.Forall₂ Dst (sg13 : List (HloOp τ sig (Elt F))) sg13_W := by repeat' constructor
theorem sg13_sub : (sg13 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩
theorem sg13_fresh : ∀ op ∈ (sg13 : List (HloOp τ sig (Elt F))), op.fresh = ∅ := fresh_of_dsts sg13_dsts
theorem sg13_keeps : Keeps (sg13 : List (HloOp τ sig (Elt F))) sg13_W := .of_dsts sg13_dsts

def ops_part3 : List (HloOp τ sig (Elt F)) := sg11 ++ (sg12 ++ sg13)
set_option maxRecDepth 8192 in
set_option maxHeartbeats 4000000 in
theorem main_part3_eq (c : Dev nD) : main_part3 (F := F) c = seq ops_part3 := rfl
theorem ops_part3_sub : (ops_part3 : List (HloOp τ sig (Elt F))).Forall fun op => op.bufs ⊆ tcRefs τ sig :=
  forall_append sg11_sub (forall_append sg12_sub sg13_sub)
theorem ops_part3_fresh : ∀ op ∈ (ops_part3 : List (HloOp τ sig (Elt F))), op.fresh = ∅ :=
  fresh_append sg11_fresh (fresh_append sg12_fresh sg13_fresh)

end Cert.ReferenceIdeal.Value

end
-- ==== Proof.RefW04.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg14 : List (HloOp τ sig (Elt F)) :=
  [ binary main_v198 main_v200 main_v201 (Host.dotGeneral dot_S100000x64_S64x64_S100000x64_1_0_0_1_n_n none),
    unary main_arg8 main_v202 (extractStridedSlice S1x100000 ![9, 0] · slices_S27x100000_S1x100000_9_0),
    reshape main_v202 main_v203 rfl shapeCasts_S1x100000_S100000,
    nullary main_c_37 (constantI S_ 32 0#32),
    unary main_c_37 main_v204 (broadcastInDim S100000 ![] bcast_S_S100000),
    binary main_v203 main_v204 main_v205 (cmpi .slt),
    nullary main_c_38 (constantI S_ 32 100000#32),
    unary main_c_38 main_v206 (broadcastInDim S100000 ![] bcast_S_S100000),
    binary main_v203 main_v206 main_v207 (addi),
    ternary main_v205 main_v207 main_v203 main_v208 select,
    unary main_v208 main_v209 (broadcastInDim S100000x1 ![0] bcast_S100000_S100000x1_0),
    ternary main_v189 main_v209 main_v201 main_v210 (Host.scatterAdd scatter_S100000x64_S100000x1_S100000x64_1_0_0_1) ]
abbrev sg14_W : List (Ref sig .tc) := [main_v201, main_v202, main_v203, main_c_37, main_v204, main_v205, main_c_38, main_v206, main_v207, main_v208, main_v209, main_v210]
theorem sg14_dsts : List.Forall₂ Dst (sg14 : List (HloOp τ sig (Elt F))) sg14_W := by repeat' constructor
theorem sg14_sub : (sg14 : List (HloOp τ sig (Elt F))).Forall fun op => op.bufs ⊆ tcRefs τ sig :=
  ⟨binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg14_fresh : ∀ op ∈ (sg14 : List (HloOp τ sig (Elt F))), op.fresh = ∅ := fresh_of_dsts sg14_dsts
theorem sg14_keeps : Keeps (sg14 : List (HloOp τ sig (Elt F))) sg14_W := .of_dsts sg14_dsts

abbrev sg15 : List (HloOp τ sig (Elt F)) :=
  [ unary main_arg7 main_v211 (extractStridedSlice S1x100000 ![10, 0] · slices_S27x100000_S1x100000_10_0),
    reshape main_v211 main_v212 rfl shapeCasts_S1x100000_S100000,
    nullary main_c_39 (constantI S_ 32 0#32),
    unary main_c_39 main_v213 (broadcastInDim S100000 ![] bcast_S_S100000),
    binary main_v212 main_v213 main_v214 (cmpi .slt),
    nullary main_c_40 (constantI S_ 32 100000#32),
    unary main_c_40 main_v215 (broadcastInDim S100000 ![] bcast_S_S100000),
    binary main_v212 main_v215 main_v216 (addi),
    ternary main_v214 main_v216 main_v212 main_v217 select,
    unary main_v217 main_v218 (broadcastInDim S100000x1 ![0] bcast_S100000_S100000x1_0),
    binary main_arg0 main_v218 main_v219 (Host.gather gather_S100000x64_S100000x1_S100000x64_1_0_n_n_0_1_164),
    unary main_arg1 main_v220 (extractStridedSlice S1x64x64 ![10, 0, 0] · slices_S27x64x64_S1x64x64_10_0_0),
    reshape main_v220 main_v221 rfl shapeCasts_S1x64x64_S64x64,
    binary main_v219 main_v221 main_v222 (Host.dotGeneral dot_S100000x64_S64x64_S100000x64_1_0_0_1_n_n none),
    unary main_arg8 main_v223 (extractStridedSlice S1x100000 ![10, 0] · slices_S27x100000_S1x100000_10_0),
    reshape main_v223 main_v224 rfl shapeCasts_S1x100000_S100000,
    nullary main_c_41 (constantI S_ 32 0#32),
    unary main_c_41 main_v225 (broadcastInDim S100000 ![] bcast_S_S100000),
    binary main_v224 main_v225 main_v226 (cmpi .slt),
    nullary main_c_42 (constantI S_ 32 100000#32),
    unary main_c_42 main_v227 (broadcastInDim S100000 ![] bcast_S_S100000),
    binary main_v224 main_v227 main_v228 (addi),
    ternary main_v226 main_v228 main_v224 main_v229 select,
    unary main_v229 main_v230 (broadcastInDim S100000x1 ![0] bcast_S100000_S100000x1_0),
    ternary main_v210 main_v230 main_v222 main_v231 (Host.scatterAdd scatter_S100000x64_S100000x1_S100000x64_1_0_0_1) ]
abbrev sg15_W : List (Ref sig .tc) := [main_v211, main_v212, main_c_39, main_v213, main_v214, main_c_40, main_v215, main_v216, main_v217, main_v218, main_v219, main_v220, main_v221, main_v222, main_v223, main_v224, main_c_41, main_v225, main_v226, main_c_42, main_v227, main_v228, main_v229, main_v230, main_v231]
theorem sg15_dsts : List.Forall₂ Dst (sg15 : List (HloOp τ sig (Elt F))) sg15_W := by repeat' constructor
theorem sg15_sub : (sg15 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg15_fresh : ∀ op ∈ (sg15 : List (HloOp τ sig (Elt F))), op.fresh = ∅ := fresh_of_dsts sg15_dsts
theorem sg15_keeps : Keeps (sg15 : List (HloOp τ sig (Elt F))) sg15_W := .of_dsts sg15_dsts

abbrev sg16 : List (HloOp τ sig (Elt F)) :=
  [ unary main_arg7 main_v232 (extractStridedSlice S1x100000 ![11, 0] · slices_S27x100000_S1x100000_11_0),
    reshape main_v232 main_v233 rfl shapeCasts_S1x100000_S100000,
    nullary main_c_43 (constantI S_ 32 0#32),
    unary main_c_43 main_v234 (broadcastInDim S100000 ![] bcast_S_S100000),
    binary main_v233 main_v234 main_v235 (cmpi .slt),
    nullary main_c_44 (constantI S_ 32 100000#32),
    unary main_c_44 main_v236 (broadcastInDim S100000 ![] bcast_S_S100000),
    binary main_v233 main_v236 main_v237 (addi),
    ternary main_v235 main_v237 main_v233 main_v238 select,
    unary main_v238 main_v239 (broadcastInDim S100000x1 ![0] bcast_S100000_S100000x1_0),
    binary main_arg0 main_v239 main_v240 (Host.gather gather_S100000x64_S100000x1_S100000x64_1_0_n_n_0_1_164),
    unary main_arg1 main_v241 (extractStridedSlice S1x64x64 ![11, 0, 0] · slices_S27x64x64_S1x64x64_11_0_0),
    reshape main_v241 main_v242 rfl shapeCasts_S1x64x64_S64x64,
    binary main_v240 main_v242 main_v243 (Host.dotGeneral dot_S100000x64_S64x64_S100000x64_1_0_0_1_n_n none),
    unary main_arg8 main_v244 (extractStridedSlice S1x100000 ![11, 0] · slices_S27x100000_S1x100000_11_0),
    reshape main_v244 main_v245 rfl shapeCasts_S1x100000_S100000,
    nullary main_c_45 (constantI S_ 32 0#32),
    unary main_c_45 main_v246 (broadcastInDim S100000 ![] bcast_S_S100000),
    binary main_v245 main_v246 main_v247 (cmpi .slt),
    nullary main_c_46 (constantI S_ 32 100000#32),
    unary main_c_46 main_v248 (broadcastInDim S100000 ![] bcast_S_S100000),
    binary main_v245 main_v248 main_v249 (addi),
    ternary main_v247 main_v249 main_v245 main_v250 select ]
abbrev sg16_W : List (Ref sig .tc) := [main_v232, main_v233, main_c_43, main_v234, main_v235, main_c_44, main_v236, main_v237, main_v238, main_v239, main_v240, main_v241, main_v242, main_v243, main_v244, main_v245, main_c_45, main_v246, main_v247, main_c_46, main_v248, main_v249, main_v250]
theorem sg16_dsts : List.Forall₂ Dst (sg16 : List (HloOp τ sig (Elt F))) sg16_W := by repeat' constructor
theorem sg16_sub : (sg16 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub ..⟩
theorem sg16_fresh : ∀ op ∈ (sg16 : List (HloOp τ sig (Elt F))), op.fresh = ∅ := fresh_of_dsts sg16_dsts
theorem sg16_keeps : Keeps (sg16 : List (HloOp τ sig (Elt F))) sg16_W := .of_dsts sg16_dsts

def ops_part4 : List (HloOp τ sig (Elt F)) := sg14 ++ (sg15 ++ sg16)
set_option maxRecDepth 8192 in
set_option maxHeartbeats 4000000 in
theorem main_part4_eq (c : Dev nD) : main_part4 (F := F) c = seq ops_part4 := rfl
theorem ops_part4_sub : (ops_part4 : List (HloOp τ sig (Elt F))).Forall fun op => op.bufs ⊆ tcRefs τ sig :=
  forall_append sg14_sub (forall_append sg15_sub sg16_sub)
theorem ops_part4_fresh : ∀ op ∈ (ops_part4 : List (HloOp τ sig (Elt F))), op.fresh = ∅ :=
  fresh_append sg14_fresh (fresh_append sg15_fresh sg16_fresh)

end Cert.ReferenceIdeal.Value

end
-- ==== Proof.RefW05.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg17 : List (HloOp τ sig (Elt F)) :=
  [ unary main_v250 main_v251 (broadcastInDim S100000x1 ![0] bcast_S100000_S100000x1_0),
    ternary main_v231 main_v251 main_v243 main_v252 (Host.scatterAdd scatter_S100000x64_S100000x1_S100000x64_1_0_0_1) ]
abbrev sg17_W : List (Ref sig .tc) := [main_v251, main_v252]
theorem sg17_dsts : List.Forall₂ Dst (sg17 : List (HloOp τ sig (Elt F))) sg17_W := by repeat' constructor
theorem sg17_sub : (sg17 : List (HloOp τ sig (Elt F))).Forall fun op => op.bufs ⊆ tcRefs τ sig :=
  ⟨unary_bufs_sub .., ternary_bufs_sub ..⟩
theorem sg17_fresh : ∀ op ∈ (sg17 : List (HloOp τ sig (Elt F))), op.fresh = ∅ := fresh_of_dsts sg17_dsts
theorem sg17_keeps : Keeps (sg17 : List (HloOp τ sig (Elt F))) sg17_W := .of_dsts sg17_dsts

abbrev sg18 : List (HloOp τ sig (Elt F)) :=
  [ unary main_arg7 main_v253 (extractStridedSlice S1x100000 ![12, 0] · slices_S27x100000_S1x100000_12_0),
    reshape main_v253 main_v254 rfl shapeCasts_S1x100000_S100000,
    nullary main_c_47 (constantI S_ 32 0#32),
    unary main_c_47 main_v255 (broadcastInDim S100000 ![] bcast_S_S100000),
    binary main_v254 main_v255 main_v256 (cmpi .slt),
    nullary main_c_48 (constantI S_ 32 100000#32),
    unary main_c_48 main_v257 (broadcastInDim S100000 ![] bcast_S_S100000),
    binary main_v254 main_v257 main_v258 (addi),
    ternary main_v256 main_v258 main_v254 main_v259 select,
    unary main_v259 main_v260 (broadcastInDim S100000x1 ![0] bcast_S100000_S100000x1_0),
    binary main_arg0 main_v260 main_v261 (Host.gather gather_S100000x64_S100000x1_S100000x64_1_0_n_n_0_1_164),
    unary main_arg1 main_v262 (extractStridedSlice S1x64x64 ![12, 0, 0] · slices_S27x64x64_S1x64x64_12_0_0),
    reshape main_v262 main_v263 rfl shapeCasts_S1x64x64_S64x64,
    binary main_v261 main_v263 main_v264 (Host.dotGeneral dot_S100000x64_S64x64_S100000x64_1_0_0_1_n_n none),
    unary main_arg8 main_v265 (extractStridedSlice S1x100000 ![12, 0] · slices_S27x100000_S1x100000_12_0),
    reshape main_v265 main_v266 rfl shapeCasts_S1x100000_S100000,
    nullary main_c_49 (constantI S_ 32 0#32),
    unary main_c_49 main_v267 (broadcastInDim S100000 ![] bcast_S_S100000),
    binary main_v266 main_v267 main_v268 (cmpi .slt),
    nullary main_c_50 (constantI S_ 32 100000#32),
    unary main_c_50 main_v269 (broadcastInDim S100000 ![] bcast_S_S100000),
    binary main_v266 main_v269 main_v270 (addi),
    ternary main_v268 main_v270 main_v266 main_v271 select,
    unary main_v271 main_v272 (broadcastInDim S100000x1 ![0] bcast_S100000_S100000x1_0),
    ternary main_v252 main_v272 main_v264 main_v273 (Host.scatterAdd scatter_S100000x64_S100000x1_S100000x64_1_0_0_1) ]
abbrev sg18_W : List (Ref sig .tc) := [main_v253, main_v254, main_c_47, main_v255, main_v256, main_c_48, main_v257, main_v258, main_v259, main_v260, main_v261, main_v262, main_v263, main_v264, main_v265, main_v266, main_c_49, main_v267, main_v268, main_c_50, main_v269, main_v270, main_v271, main_v272, main_v273]
theorem sg18_dsts : List.Forall₂ Dst (sg18 : List (HloOp τ sig (Elt F))) sg18_W := by repeat' constructor
theorem sg18_sub : (sg18 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg18_fresh : ∀ op ∈ (sg18 : List (HloOp τ sig (Elt F))), op.fresh = ∅ := fresh_of_dsts sg18_dsts
theorem sg18_keeps : Keeps (sg18 : List (HloOp τ sig (Elt F))) sg18_W := .of_dsts sg18_dsts

abbrev sg19 : List (HloOp τ sig (Elt F)) :=
  [ unary main_arg7 main_v274 (extractStridedSlice S1x100000 ![13, 0] · slices_S27x100000_S1x100000_13_0),
    reshape main_v274 main_v275 rfl shapeCasts_S1x100000_S100000,
    nullary main_c_51 (constantI S_ 32 0#32),
    unary main_c_51 main_v276 (broadcastInDim S100000 ![] bcast_S_S100000),
    binary main_v275 main_v276 main_v277 (cmpi .slt),
    nullary main_c_52 (constantI S_ 32 100000#32),
    unary main_c_52 main_v278 (broadcastInDim S100000 ![] bcast_S_S100000),
    binary main_v275 main_v278 main_v279 (addi),
    ternary main_v277 main_v279 main_v275 main_v280 select,
    unary main_v280 main_v281 (broadcastInDim S100000x1 ![0] bcast_S100000_S100000x1_0),
    binary main_arg0 main_v281 main_v282 (Host.gather gather_S100000x64_S100000x1_S100000x64_1_0_n_n_0_1_164),
    unary main_arg1 main_v283 (extractStridedSlice S1x64x64 ![13, 0, 0] · slices_S27x64x64_S1x64x64_13_0_0),
    reshape main_v283 main_v284 rfl shapeCasts_S1x64x64_S64x64,
    binary main_v282 main_v284 main_v285 (Host.dotGeneral dot_S100000x64_S64x64_S100000x64_1_0_0_1_n_n none),
    unary main_arg8 main_v286 (extractStridedSlice S1x100000 ![13, 0] · slices_S27x100000_S1x100000_13_0),
    reshape main_v286 main_v287 rfl shapeCasts_S1x100000_S100000,
    nullary main_c_53 (constantI S_ 32 0#32),
    unary main_c_53 main_v288 (broadcastInDim S100000 ![] bcast_S_S100000),
    binary main_v287 main_v288 main_v289 (cmpi .slt),
    nullary main_c_54 (constantI S_ 32 100000#32),
    unary main_c_54 main_v290 (broadcastInDim S100000 ![] bcast_S_S100000),
    binary main_v287 main_v290 main_v291 (addi),
    ternary main_v289 main_v291 main_v287 main_v292 select,
    unary main_v292 main_v293 (broadcastInDim S100000x1 ![0] bcast_S100000_S100000x1_0),
    ternary main_v273 main_v293 main_v285 main_v294 (Host.scatterAdd scatter_S100000x64_S100000x1_S100000x64_1_0_0_1) ]
abbrev sg19_W : List (Ref sig .tc) := [main_v274, main_v275, main_c_51, main_v276, main_v277, main_c_52, main_v278, main_v279, main_v280, main_v281, main_v282, main_v283, main_v284, main_v285, main_v286, main_v287, main_c_53, main_v288, main_v289, main_c_54, main_v290, main_v291, main_v292, main_v293, main_v294]
theorem sg19_dsts : List.Forall₂ Dst (sg19 : List (HloOp τ sig (Elt F))) sg19_W := by repeat' constructor
theorem sg19_sub : (sg19 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg19_fresh : ∀ op ∈ (sg19 : List (HloOp τ sig (Elt F))), op.fresh = ∅ := fresh_of_dsts sg19_dsts
theorem sg19_keeps : Keeps (sg19 : List (HloOp τ sig (Elt F))) sg19_W := .of_dsts sg19_dsts

abbrev sg20 : List (HloOp τ sig (Elt F)) :=
  [ unary main_arg7 main_v295 (extractStridedSlice S1x100000 ![14, 0] · slices_S27x100000_S1x100000_14_0),
    reshape main_v295 main_v296 rfl shapeCasts_S1x100000_S100000,
    nullary main_c_55 (constantI S_ 32 0#32),
    unary main_c_55 main_v297 (broadcastInDim S100000 ![] bcast_S_S100000),
    binary main_v296 main_v297 main_v298 (cmpi .slt),
    nullary main_c_56 (constantI S_ 32 100000#32),
    unary main_c_56 main_v299 (broadcastInDim S100000 ![] bcast_S_S100000),
    binary main_v296 main_v299 main_v300 (addi) ]
abbrev sg20_W : List (Ref sig .tc) := [main_v295, main_v296, main_c_55, main_v297, main_v298, main_c_56, main_v299, main_v300]
theorem sg20_dsts : List.Forall₂ Dst (sg20 : List (HloOp τ sig (Elt F))) sg20_W := by repeat' constructor
theorem sg20_sub : (sg20 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub ..⟩
theorem sg20_fresh : ∀ op ∈ (sg20 : List (HloOp τ sig (Elt F))), op.fresh = ∅ := fresh_of_dsts sg20_dsts
theorem sg20_keeps : Keeps (sg20 : List (HloOp τ sig (Elt F))) sg20_W := .of_dsts sg20_dsts

def ops_part5 : List (HloOp τ sig (Elt F)) := sg17 ++ (sg18 ++ (sg19 ++ sg20))
set_option maxRecDepth 8192 in
set_option maxHeartbeats 4000000 in
theorem main_part5_eq (c : Dev nD) : main_part5 (F := F) c = seq ops_part5 := rfl
theorem ops_part5_sub : (ops_part5 : List (HloOp τ sig (Elt F))).Forall fun op => op.bufs ⊆ tcRefs τ sig :=
  forall_append sg17_sub (forall_append sg18_sub (forall_append sg19_sub sg20_sub))
theorem ops_part5_fresh : ∀ op ∈ (ops_part5 : List (HloOp τ sig (Elt F))), op.fresh = ∅ :=
  fresh_append sg17_fresh (fresh_append sg18_fresh (fresh_append sg19_fresh sg20_fresh))

end Cert.ReferenceIdeal.Value

end
-- ==== Proof.RefW06.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg21 : List (HloOp τ sig (Elt F)) :=
  [ ternary main_v298 main_v300 main_v296 main_v301 select,
    unary main_v301 main_v302 (broadcastInDim S100000x1 ![0] bcast_S100000_S100000x1_0),
    binary main_arg0 main_v302 main_v303 (Host.gather gather_S100000x64_S100000x1_S100000x64_1_0_n_n_0_1_164),
    unary main_arg1 main_v304 (extractStridedSlice S1x64x64 ![14, 0, 0] · slices_S27x64x64_S1x64x64_14_0_0),
    reshape main_v304 main_v305 rfl shapeCasts_S1x64x64_S64x64,
    binary main_v303 main_v305 main_v306 (Host.dotGeneral dot_S100000x64_S64x64_S100000x64_1_0_0_1_n_n none),
    unary main_arg8 main_v307 (extractStridedSlice S1x100000 ![14, 0] · slices_S27x100000_S1x100000_14_0),
    reshape main_v307 main_v308 rfl shapeCasts_S1x100000_S100000,
    nullary main_c_57 (constantI S_ 32 0#32),
    unary main_c_57 main_v309 (broadcastInDim S100000 ![] bcast_S_S100000),
    binary main_v308 main_v309 main_v310 (cmpi .slt),
    nullary main_c_58 (constantI S_ 32 100000#32),
    unary main_c_58 main_v311 (broadcastInDim S100000 ![] bcast_S_S100000),
    binary main_v308 main_v311 main_v312 (addi),
    ternary main_v310 main_v312 main_v308 main_v313 select,
    unary main_v313 main_v314 (broadcastInDim S100000x1 ![0] bcast_S100000_S100000x1_0),
    ternary main_v294 main_v314 main_v306 main_v315 (Host.scatterAdd scatter_S100000x64_S100000x1_S100000x64_1_0_0_1) ]
abbrev sg21_W : List (Ref sig .tc) := [main_v301, main_v302, main_v303, main_v304, main_v305, main_v306, main_v307, main_v308, main_c_57, main_v309, main_v310, main_c_58, main_v311, main_v312, main_v313, main_v314, main_v315]
theorem sg21_dsts : List.Forall₂ Dst (sg21 : List (HloOp τ sig (Elt F))) sg21_W := by repeat' constructor
theorem sg21_sub : (sg21 : List (HloOp τ sig (Elt F))).Forall fun op => op.bufs ⊆ tcRefs τ sig :=
  ⟨ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg21_fresh : ∀ op ∈ (sg21 : List (HloOp τ sig (Elt F))), op.fresh = ∅ := fresh_of_dsts sg21_dsts
theorem sg21_keeps : Keeps (sg21 : List (HloOp τ sig (Elt F))) sg21_W := .of_dsts sg21_dsts

abbrev sg22 : List (HloOp τ sig (Elt F)) :=
  [ unary main_arg7 main_v316 (extractStridedSlice S1x100000 ![15, 0] · slices_S27x100000_S1x100000_15_0),
    reshape main_v316 main_v317 rfl shapeCasts_S1x100000_S100000,
    nullary main_c_59 (constantI S_ 32 0#32),
    unary main_c_59 main_v318 (broadcastInDim S100000 ![] bcast_S_S100000),
    binary main_v317 main_v318 main_v319 (cmpi .slt),
    nullary main_c_60 (constantI S_ 32 100000#32),
    unary main_c_60 main_v320 (broadcastInDim S100000 ![] bcast_S_S100000),
    binary main_v317 main_v320 main_v321 (addi),
    ternary main_v319 main_v321 main_v317 main_v322 select,
    unary main_v322 main_v323 (broadcastInDim S100000x1 ![0] bcast_S100000_S100000x1_0),
    binary main_arg0 main_v323 main_v324 (Host.gather gather_S100000x64_S100000x1_S100000x64_1_0_n_n_0_1_164),
    unary main_arg1 main_v325 (extractStridedSlice S1x64x64 ![15, 0, 0] · slices_S27x64x64_S1x64x64_15_0_0),
    reshape main_v325 main_v326 rfl shapeCasts_S1x64x64_S64x64,
    binary main_v324 main_v326 main_v327 (Host.dotGeneral dot_S100000x64_S64x64_S100000x64_1_0_0_1_n_n none),
    unary main_arg8 main_v328 (extractStridedSlice S1x100000 ![15, 0] · slices_S27x100000_S1x100000_15_0),
    reshape main_v328 main_v329 rfl shapeCasts_S1x100000_S100000,
    nullary main_c_61 (constantI S_ 32 0#32),
    unary main_c_61 main_v330 (broadcastInDim S100000 ![] bcast_S_S100000),
    binary main_v329 main_v330 main_v331 (cmpi .slt),
    nullary main_c_62 (constantI S_ 32 100000#32),
    unary main_c_62 main_v332 (broadcastInDim S100000 ![] bcast_S_S100000),
    binary main_v329 main_v332 main_v333 (addi),
    ternary main_v331 main_v333 main_v329 main_v334 select,
    unary main_v334 main_v335 (broadcastInDim S100000x1 ![0] bcast_S100000_S100000x1_0),
    ternary main_v315 main_v335 main_v327 main_v336 (Host.scatterAdd scatter_S100000x64_S100000x1_S100000x64_1_0_0_1) ]
abbrev sg22_W : List (Ref sig .tc) := [main_v316, main_v317, main_c_59, main_v318, main_v319, main_c_60, main_v320, main_v321, main_v322, main_v323, main_v324, main_v325, main_v326, main_v327, main_v328, main_v329, main_c_61, main_v330, main_v331, main_c_62, main_v332, main_v333, main_v334, main_v335, main_v336]
theorem sg22_dsts : List.Forall₂ Dst (sg22 : List (HloOp τ sig (Elt F))) sg22_W := by repeat' constructor
theorem sg22_sub : (sg22 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg22_fresh : ∀ op ∈ (sg22 : List (HloOp τ sig (Elt F))), op.fresh = ∅ := fresh_of_dsts sg22_dsts
theorem sg22_keeps : Keeps (sg22 : List (HloOp τ sig (Elt F))) sg22_W := .of_dsts sg22_dsts

abbrev sg23 : List (HloOp τ sig (Elt F)) :=
  [ unary main_arg7 main_v337 (extractStridedSlice S1x100000 ![16, 0] · slices_S27x100000_S1x100000_16_0),
    reshape main_v337 main_v338 rfl shapeCasts_S1x100000_S100000,
    nullary main_c_63 (constantI S_ 32 0#32),
    unary main_c_63 main_v339 (broadcastInDim S100000 ![] bcast_S_S100000),
    binary main_v338 main_v339 main_v340 (cmpi .slt),
    nullary main_c_64 (constantI S_ 32 100000#32),
    unary main_c_64 main_v341 (broadcastInDim S100000 ![] bcast_S_S100000),
    binary main_v338 main_v341 main_v342 (addi),
    ternary main_v340 main_v342 main_v338 main_v343 select,
    unary main_v343 main_v344 (broadcastInDim S100000x1 ![0] bcast_S100000_S100000x1_0),
    binary main_arg0 main_v344 main_v345 (Host.gather gather_S100000x64_S100000x1_S100000x64_1_0_n_n_0_1_164),
    unary main_arg1 main_v346 (extractStridedSlice S1x64x64 ![16, 0, 0] · slices_S27x64x64_S1x64x64_16_0_0),
    reshape main_v346 main_v347 rfl shapeCasts_S1x64x64_S64x64,
    binary main_v345 main_v347 main_v348 (Host.dotGeneral dot_S100000x64_S64x64_S100000x64_1_0_0_1_n_n none),
    unary main_arg8 main_v349 (extractStridedSlice S1x100000 ![16, 0] · slices_S27x100000_S1x100000_16_0),
    reshape main_v349 main_v350 rfl shapeCasts_S1x100000_S100000,
    nullary main_c_65 (constantI S_ 32 0#32),
    unary main_c_65 main_v351 (broadcastInDim S100000 ![] bcast_S_S100000) ]
abbrev sg23_W : List (Ref sig .tc) := [main_v337, main_v338, main_c_63, main_v339, main_v340, main_c_64, main_v341, main_v342, main_v343, main_v344, main_v345, main_v346, main_v347, main_v348, main_v349, main_v350, main_c_65, main_v351]
theorem sg23_dsts : List.Forall₂ Dst (sg23 : List (HloOp τ sig (Elt F))) sg23_W := by repeat' constructor
theorem sg23_sub : (sg23 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub ..⟩
theorem sg23_fresh : ∀ op ∈ (sg23 : List (HloOp τ sig (Elt F))), op.fresh = ∅ := fresh_of_dsts sg23_dsts
theorem sg23_keeps : Keeps (sg23 : List (HloOp τ sig (Elt F))) sg23_W := .of_dsts sg23_dsts

def ops_part6 : List (HloOp τ sig (Elt F)) := sg21 ++ (sg22 ++ sg23)
set_option maxRecDepth 8192 in
set_option maxHeartbeats 4000000 in
theorem main_part6_eq (c : Dev nD) : main_part6 (F := F) c = seq ops_part6 := rfl
theorem ops_part6_sub : (ops_part6 : List (HloOp τ sig (Elt F))).Forall fun op => op.bufs ⊆ tcRefs τ sig :=
  forall_append sg21_sub (forall_append sg22_sub sg23_sub)
theorem ops_part6_fresh : ∀ op ∈ (ops_part6 : List (HloOp τ sig (Elt F))), op.fresh = ∅ :=
  fresh_append sg21_fresh (fresh_append sg22_fresh sg23_fresh)

end Cert.ReferenceIdeal.Value

end
-- ==== Proof.RefW07.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg24 : List (HloOp τ sig (Elt F)) :=
  [ binary main_v350 main_v351 main_v352 (cmpi .slt),
    nullary main_c_66 (constantI S_ 32 100000#32),
    unary main_c_66 main_v353 (broadcastInDim S100000 ![] bcast_S_S100000),
    binary main_v350 main_v353 main_v354 (addi),
    ternary main_v352 main_v354 main_v350 main_v355 select,
    unary main_v355 main_v356 (broadcastInDim S100000x1 ![0] bcast_S100000_S100000x1_0),
    ternary main_v336 main_v356 main_v348 main_v357 (Host.scatterAdd scatter_S100000x64_S100000x1_S100000x64_1_0_0_1) ]
abbrev sg24_W : List (Ref sig .tc) := [main_v352, main_c_66, main_v353, main_v354, main_v355, main_v356, main_v357]
theorem sg24_dsts : List.Forall₂ Dst (sg24 : List (HloOp τ sig (Elt F))) sg24_W := by repeat' constructor
theorem sg24_sub : (sg24 : List (HloOp τ sig (Elt F))).Forall fun op => op.bufs ⊆ tcRefs τ sig :=
  ⟨binary_bufs_sub .., nullary_bufs_sub .., unary_bufs_sub .., binary_bufs_sub .., ternary_bufs_sub .., unary_bufs_sub .., ternary_bufs_sub ..⟩
theorem sg24_fresh : ∀ op ∈ (sg24 : List (HloOp τ sig (Elt F))), op.fresh = ∅ := fresh_of_dsts sg24_dsts
theorem sg24_keeps : Keeps (sg24 : List (HloOp τ sig (Elt F))) sg24_W := .of_dsts sg24_dsts

abbrev sg25 : List (HloOp τ sig (Elt F)) :=
  [ unary main_arg7 main_v358 (extractStridedSlice S1x100000 ![17, 0] · slices_S27x100000_S1x100000_17_0),
    reshape main_v358 main_v359 rfl shapeCasts_S1x100000_S100000,
    nullary main_c_67 (constantI S_ 32 0#32),
    unary main_c_67 main_v360 (broadcastInDim S100000 ![] bcast_S_S100000),
    binary main_v359 main_v360 main_v361 (cmpi .slt),
    nullary main_c_68 (constantI S_ 32 100000#32),
    unary main_c_68 main_v362 (broadcastInDim S100000 ![] bcast_S_S100000),
    binary main_v359 main_v362 main_v363 (addi),
    ternary main_v361 main_v363 main_v359 main_v364 select,
    unary main_v364 main_v365 (broadcastInDim S100000x1 ![0] bcast_S100000_S100000x1_0),
    binary main_arg0 main_v365 main_v366 (Host.gather gather_S100000x64_S100000x1_S100000x64_1_0_n_n_0_1_164),
    unary main_arg1 main_v367 (extractStridedSlice S1x64x64 ![17, 0, 0] · slices_S27x64x64_S1x64x64_17_0_0),
    reshape main_v367 main_v368 rfl shapeCasts_S1x64x64_S64x64,
    binary main_v366 main_v368 main_v369 (Host.dotGeneral dot_S100000x64_S64x64_S100000x64_1_0_0_1_n_n none),
    unary main_arg8 main_v370 (extractStridedSlice S1x100000 ![17, 0] · slices_S27x100000_S1x100000_17_0),
    reshape main_v370 main_v371 rfl shapeCasts_S1x100000_S100000,
    nullary main_c_69 (constantI S_ 32 0#32),
    unary main_c_69 main_v372 (broadcastInDim S100000 ![] bcast_S_S100000),
    binary main_v371 main_v372 main_v373 (cmpi .slt),
    nullary main_c_70 (constantI S_ 32 100000#32),
    unary main_c_70 main_v374 (broadcastInDim S100000 ![] bcast_S_S100000),
    binary main_v371 main_v374 main_v375 (addi),
    ternary main_v373 main_v375 main_v371 main_v376 select,
    unary main_v376 main_v377 (broadcastInDim S100000x1 ![0] bcast_S100000_S100000x1_0),
    ternary main_v357 main_v377 main_v369 main_v378 (Host.scatterAdd scatter_S100000x64_S100000x1_S100000x64_1_0_0_1) ]
abbrev sg25_W : List (Ref sig .tc) := [main_v358, main_v359, main_c_67, main_v360, main_v361, main_c_68, main_v362, main_v363, main_v364, main_v365, main_v366, main_v367, main_v368, main_v369, main_v370, main_v371, main_c_69, main_v372, main_v373, main_c_70, main_v374, main_v375, main_v376, main_v377, main_v378]
theorem sg25_dsts : List.Forall₂ Dst (sg25 : List (HloOp τ sig (Elt F))) sg25_W := by repeat' constructor
theorem sg25_sub : (sg25 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg25_fresh : ∀ op ∈ (sg25 : List (HloOp τ sig (Elt F))), op.fresh = ∅ := fresh_of_dsts sg25_dsts
theorem sg25_keeps : Keeps (sg25 : List (HloOp τ sig (Elt F))) sg25_W := .of_dsts sg25_dsts

abbrev sg26 : List (HloOp τ sig (Elt F)) :=
  [ unary main_arg7 main_v379 (extractStridedSlice S1x100000 ![18, 0] · slices_S27x100000_S1x100000_18_0),
    reshape main_v379 main_v380 rfl shapeCasts_S1x100000_S100000,
    nullary main_c_71 (constantI S_ 32 0#32),
    unary main_c_71 main_v381 (broadcastInDim S100000 ![] bcast_S_S100000),
    binary main_v380 main_v381 main_v382 (cmpi .slt),
    nullary main_c_72 (constantI S_ 32 100000#32),
    unary main_c_72 main_v383 (broadcastInDim S100000 ![] bcast_S_S100000),
    binary main_v380 main_v383 main_v384 (addi),
    ternary main_v382 main_v384 main_v380 main_v385 select,
    unary main_v385 main_v386 (broadcastInDim S100000x1 ![0] bcast_S100000_S100000x1_0),
    binary main_arg0 main_v386 main_v387 (Host.gather gather_S100000x64_S100000x1_S100000x64_1_0_n_n_0_1_164),
    unary main_arg1 main_v388 (extractStridedSlice S1x64x64 ![18, 0, 0] · slices_S27x64x64_S1x64x64_18_0_0),
    reshape main_v388 main_v389 rfl shapeCasts_S1x64x64_S64x64,
    binary main_v387 main_v389 main_v390 (Host.dotGeneral dot_S100000x64_S64x64_S100000x64_1_0_0_1_n_n none),
    unary main_arg8 main_v391 (extractStridedSlice S1x100000 ![18, 0] · slices_S27x100000_S1x100000_18_0),
    reshape main_v391 main_v392 rfl shapeCasts_S1x100000_S100000,
    nullary main_c_73 (constantI S_ 32 0#32),
    unary main_c_73 main_v393 (broadcastInDim S100000 ![] bcast_S_S100000),
    binary main_v392 main_v393 main_v394 (cmpi .slt),
    nullary main_c_74 (constantI S_ 32 100000#32),
    unary main_c_74 main_v395 (broadcastInDim S100000 ![] bcast_S_S100000),
    binary main_v392 main_v395 main_v396 (addi),
    ternary main_v394 main_v396 main_v392 main_v397 select,
    unary main_v397 main_v398 (broadcastInDim S100000x1 ![0] bcast_S100000_S100000x1_0),
    ternary main_v378 main_v398 main_v390 main_v399 (Host.scatterAdd scatter_S100000x64_S100000x1_S100000x64_1_0_0_1) ]
abbrev sg26_W : List (Ref sig .tc) := [main_v379, main_v380, main_c_71, main_v381, main_v382, main_c_72, main_v383, main_v384, main_v385, main_v386, main_v387, main_v388, main_v389, main_v390, main_v391, main_v392, main_c_73, main_v393, main_v394, main_c_74, main_v395, main_v396, main_v397, main_v398, main_v399]
theorem sg26_dsts : List.Forall₂ Dst (sg26 : List (HloOp τ sig (Elt F))) sg26_W := by repeat' constructor
theorem sg26_sub : (sg26 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg26_fresh : ∀ op ∈ (sg26 : List (HloOp τ sig (Elt F))), op.fresh = ∅ := fresh_of_dsts sg26_dsts
theorem sg26_keeps : Keeps (sg26 : List (HloOp τ sig (Elt F))) sg26_W := .of_dsts sg26_dsts

abbrev sg27 : List (HloOp τ sig (Elt F)) :=
  [ unary main_arg7 main_v400 (extractStridedSlice S1x100000 ![19, 0] · slices_S27x100000_S1x100000_19_0),
    reshape main_v400 main_v401 rfl shapeCasts_S1x100000_S100000,
    nullary main_c_75 (constantI S_ 32 0#32) ]
abbrev sg27_W : List (Ref sig .tc) := [main_v400, main_v401, main_c_75]
theorem sg27_dsts : List.Forall₂ Dst (sg27 : List (HloOp τ sig (Elt F))) sg27_W := by repeat' constructor
theorem sg27_sub : (sg27 : List (HloOp τ sig (Elt F))).Forall fun op => op.bufs ⊆ tcRefs τ sig :=
  ⟨unary_bufs_sub .., reshape_bufs_sub .., nullary_bufs_sub ..⟩
theorem sg27_fresh : ∀ op ∈ (sg27 : List (HloOp τ sig (Elt F))), op.fresh = ∅ := fresh_of_dsts sg27_dsts
theorem sg27_keeps : Keeps (sg27 : List (HloOp τ sig (Elt F))) sg27_W := .of_dsts sg27_dsts

def ops_part7 : List (HloOp τ sig (Elt F)) := sg24 ++ (sg25 ++ (sg26 ++ sg27))
set_option maxRecDepth 8192 in
set_option maxHeartbeats 4000000 in
theorem main_part7_eq (c : Dev nD) : main_part7 (F := F) c = seq ops_part7 := rfl
theorem ops_part7_sub : (ops_part7 : List (HloOp τ sig (Elt F))).Forall fun op => op.bufs ⊆ tcRefs τ sig :=
  forall_append sg24_sub (forall_append sg25_sub (forall_append sg26_sub sg27_sub))
theorem ops_part7_fresh : ∀ op ∈ (ops_part7 : List (HloOp τ sig (Elt F))), op.fresh = ∅ :=
  fresh_append sg24_fresh (fresh_append sg25_fresh (fresh_append sg26_fresh sg27_fresh))

end Cert.ReferenceIdeal.Value

end
-- ==== Proof.RefW08.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg28 : List (HloOp τ sig (Elt F)) :=
  [ unary main_c_75 main_v402 (broadcastInDim S100000 ![] bcast_S_S100000),
    binary main_v401 main_v402 main_v403 (cmpi .slt),
    nullary main_c_76 (constantI S_ 32 100000#32),
    unary main_c_76 main_v404 (broadcastInDim S100000 ![] bcast_S_S100000),
    binary main_v401 main_v404 main_v405 (addi),
    ternary main_v403 main_v405 main_v401 main_v406 select,
    unary main_v406 main_v407 (broadcastInDim S100000x1 ![0] bcast_S100000_S100000x1_0),
    binary main_arg0 main_v407 main_v408 (Host.gather gather_S100000x64_S100000x1_S100000x64_1_0_n_n_0_1_164),
    unary main_arg1 main_v409 (extractStridedSlice S1x64x64 ![19, 0, 0] · slices_S27x64x64_S1x64x64_19_0_0),
    reshape main_v409 main_v410 rfl shapeCasts_S1x64x64_S64x64,
    binary main_v408 main_v410 main_v411 (Host.dotGeneral dot_S100000x64_S64x64_S100000x64_1_0_0_1_n_n none),
    unary main_arg8 main_v412 (extractStridedSlice S1x100000 ![19, 0] · slices_S27x100000_S1x100000_19_0),
    reshape main_v412 main_v413 rfl shapeCasts_S1x100000_S100000,
    nullary main_c_77 (constantI S_ 32 0#32),
    unary main_c_77 main_v414 (broadcastInDim S100000 ![] bcast_S_S100000),
    binary main_v413 main_v414 main_v415 (cmpi .slt),
    nullary main_c_78 (constantI S_ 32 100000#32),
    unary main_c_78 main_v416 (broadcastInDim S100000 ![] bcast_S_S100000),
    binary main_v413 main_v416 main_v417 (addi),
    ternary main_v415 main_v417 main_v413 main_v418 select,
    unary main_v418 main_v419 (broadcastInDim S100000x1 ![0] bcast_S100000_S100000x1_0),
    ternary main_v399 main_v419 main_v411 main_v420 (Host.scatterAdd scatter_S100000x64_S100000x1_S100000x64_1_0_0_1) ]
abbrev sg28_W : List (Ref sig .tc) := [main_v402, main_v403, main_c_76, main_v404, main_v405, main_v406, main_v407, main_v408, main_v409, main_v410, main_v411, main_v412, main_v413, main_c_77, main_v414, main_v415, main_c_78, main_v416, main_v417, main_v418, main_v419, main_v420]
theorem sg28_dsts : List.Forall₂ Dst (sg28 : List (HloOp τ sig (Elt F))) sg28_W := by repeat' constructor
theorem sg28_sub : (sg28 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg28_fresh : ∀ op ∈ (sg28 : List (HloOp τ sig (Elt F))), op.fresh = ∅ := fresh_of_dsts sg28_dsts
theorem sg28_keeps : Keeps (sg28 : List (HloOp τ sig (Elt F))) sg28_W := .of_dsts sg28_dsts

abbrev sg29 : List (HloOp τ sig (Elt F)) :=
  [ unary main_arg7 main_v421 (extractStridedSlice S1x100000 ![20, 0] · slices_S27x100000_S1x100000_20_0),
    reshape main_v421 main_v422 rfl shapeCasts_S1x100000_S100000,
    nullary main_c_79 (constantI S_ 32 0#32),
    unary main_c_79 main_v423 (broadcastInDim S100000 ![] bcast_S_S100000),
    binary main_v422 main_v423 main_v424 (cmpi .slt),
    nullary main_c_80 (constantI S_ 32 100000#32),
    unary main_c_80 main_v425 (broadcastInDim S100000 ![] bcast_S_S100000),
    binary main_v422 main_v425 main_v426 (addi),
    ternary main_v424 main_v426 main_v422 main_v427 select,
    unary main_v427 main_v428 (broadcastInDim S100000x1 ![0] bcast_S100000_S100000x1_0),
    binary main_arg0 main_v428 main_v429 (Host.gather gather_S100000x64_S100000x1_S100000x64_1_0_n_n_0_1_164),
    unary main_arg1 main_v430 (extractStridedSlice S1x64x64 ![20, 0, 0] · slices_S27x64x64_S1x64x64_20_0_0),
    reshape main_v430 main_v431 rfl shapeCasts_S1x64x64_S64x64,
    binary main_v429 main_v431 main_v432 (Host.dotGeneral dot_S100000x64_S64x64_S100000x64_1_0_0_1_n_n none),
    unary main_arg8 main_v433 (extractStridedSlice S1x100000 ![20, 0] · slices_S27x100000_S1x100000_20_0),
    reshape main_v433 main_v434 rfl shapeCasts_S1x100000_S100000,
    nullary main_c_81 (constantI S_ 32 0#32),
    unary main_c_81 main_v435 (broadcastInDim S100000 ![] bcast_S_S100000),
    binary main_v434 main_v435 main_v436 (cmpi .slt),
    nullary main_c_82 (constantI S_ 32 100000#32),
    unary main_c_82 main_v437 (broadcastInDim S100000 ![] bcast_S_S100000),
    binary main_v434 main_v437 main_v438 (addi),
    ternary main_v436 main_v438 main_v434 main_v439 select,
    unary main_v439 main_v440 (broadcastInDim S100000x1 ![0] bcast_S100000_S100000x1_0),
    ternary main_v420 main_v440 main_v432 main_v441 (Host.scatterAdd scatter_S100000x64_S100000x1_S100000x64_1_0_0_1) ]
abbrev sg29_W : List (Ref sig .tc) := [main_v421, main_v422, main_c_79, main_v423, main_v424, main_c_80, main_v425, main_v426, main_v427, main_v428, main_v429, main_v430, main_v431, main_v432, main_v433, main_v434, main_c_81, main_v435, main_v436, main_c_82, main_v437, main_v438, main_v439, main_v440, main_v441]
theorem sg29_dsts : List.Forall₂ Dst (sg29 : List (HloOp τ sig (Elt F))) sg29_W := by repeat' constructor
theorem sg29_sub : (sg29 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg29_fresh : ∀ op ∈ (sg29 : List (HloOp τ sig (Elt F))), op.fresh = ∅ := fresh_of_dsts sg29_dsts
theorem sg29_keeps : Keeps (sg29 : List (HloOp τ sig (Elt F))) sg29_W := .of_dsts sg29_dsts

abbrev sg30 : List (HloOp τ sig (Elt F)) :=
  [ unary main_arg7 main_v442 (extractStridedSlice S1x100000 ![21, 0] · slices_S27x100000_S1x100000_21_0),
    reshape main_v442 main_v443 rfl shapeCasts_S1x100000_S100000,
    nullary main_c_83 (constantI S_ 32 0#32),
    unary main_c_83 main_v444 (broadcastInDim S100000 ![] bcast_S_S100000),
    binary main_v443 main_v444 main_v445 (cmpi .slt),
    nullary main_c_84 (constantI S_ 32 100000#32),
    unary main_c_84 main_v446 (broadcastInDim S100000 ![] bcast_S_S100000),
    binary main_v443 main_v446 main_v447 (addi),
    ternary main_v445 main_v447 main_v443 main_v448 select,
    unary main_v448 main_v449 (broadcastInDim S100000x1 ![0] bcast_S100000_S100000x1_0),
    binary main_arg0 main_v449 main_v450 (Host.gather gather_S100000x64_S100000x1_S100000x64_1_0_n_n_0_1_164),
    unary main_arg1 main_v451 (extractStridedSlice S1x64x64 ![21, 0, 0] · slices_S27x64x64_S1x64x64_21_0_0),
    reshape main_v451 main_v452 rfl shapeCasts_S1x64x64_S64x64 ]
abbrev sg30_W : List (Ref sig .tc) := [main_v442, main_v443, main_c_83, main_v444, main_v445, main_c_84, main_v446, main_v447, main_v448, main_v449, main_v450, main_v451, main_v452]
theorem sg30_dsts : List.Forall₂ Dst (sg30 : List (HloOp τ sig (Elt F))) sg30_W := by repeat' constructor
theorem sg30_sub : (sg30 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩
theorem sg30_fresh : ∀ op ∈ (sg30 : List (HloOp τ sig (Elt F))), op.fresh = ∅ := fresh_of_dsts sg30_dsts
theorem sg30_keeps : Keeps (sg30 : List (HloOp τ sig (Elt F))) sg30_W := .of_dsts sg30_dsts

def ops_part8 : List (HloOp τ sig (Elt F)) := sg28 ++ (sg29 ++ sg30)
set_option maxRecDepth 8192 in
set_option maxHeartbeats 4000000 in
theorem main_part8_eq (c : Dev nD) : main_part8 (F := F) c = seq ops_part8 := rfl
theorem ops_part8_sub : (ops_part8 : List (HloOp τ sig (Elt F))).Forall fun op => op.bufs ⊆ tcRefs τ sig :=
  forall_append sg28_sub (forall_append sg29_sub sg30_sub)
theorem ops_part8_fresh : ∀ op ∈ (ops_part8 : List (HloOp τ sig (Elt F))), op.fresh = ∅ :=
  fresh_append sg28_fresh (fresh_append sg29_fresh sg30_fresh)

end Cert.ReferenceIdeal.Value

end
-- ==== Proof.RefW09.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg31 : List (HloOp τ sig (Elt F)) :=
  [ binary main_v450 main_v452 main_v453 (Host.dotGeneral dot_S100000x64_S64x64_S100000x64_1_0_0_1_n_n none),
    unary main_arg8 main_v454 (extractStridedSlice S1x100000 ![21, 0] · slices_S27x100000_S1x100000_21_0),
    reshape main_v454 main_v455 rfl shapeCasts_S1x100000_S100000,
    nullary main_c_85 (constantI S_ 32 0#32),
    unary main_c_85 main_v456 (broadcastInDim S100000 ![] bcast_S_S100000),
    binary main_v455 main_v456 main_v457 (cmpi .slt),
    nullary main_c_86 (constantI S_ 32 100000#32),
    unary main_c_86 main_v458 (broadcastInDim S100000 ![] bcast_S_S100000),
    binary main_v455 main_v458 main_v459 (addi),
    ternary main_v457 main_v459 main_v455 main_v460 select,
    unary main_v460 main_v461 (broadcastInDim S100000x1 ![0] bcast_S100000_S100000x1_0),
    ternary main_v441 main_v461 main_v453 main_v462 (Host.scatterAdd scatter_S100000x64_S100000x1_S100000x64_1_0_0_1) ]
abbrev sg31_W : List (Ref sig .tc) := [main_v453, main_v454, main_v455, main_c_85, main_v456, main_v457, main_c_86, main_v458, main_v459, main_v460, main_v461, main_v462]
theorem sg31_dsts : List.Forall₂ Dst (sg31 : List (HloOp τ sig (Elt F))) sg31_W := by repeat' constructor
theorem sg31_sub : (sg31 : List (HloOp τ sig (Elt F))).Forall fun op => op.bufs ⊆ tcRefs τ sig :=
  ⟨binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg31_fresh : ∀ op ∈ (sg31 : List (HloOp τ sig (Elt F))), op.fresh = ∅ := fresh_of_dsts sg31_dsts
theorem sg31_keeps : Keeps (sg31 : List (HloOp τ sig (Elt F))) sg31_W := .of_dsts sg31_dsts

abbrev sg32 : List (HloOp τ sig (Elt F)) :=
  [ unary main_arg7 main_v463 (extractStridedSlice S1x100000 ![22, 0] · slices_S27x100000_S1x100000_22_0),
    reshape main_v463 main_v464 rfl shapeCasts_S1x100000_S100000,
    nullary main_c_87 (constantI S_ 32 0#32),
    unary main_c_87 main_v465 (broadcastInDim S100000 ![] bcast_S_S100000),
    binary main_v464 main_v465 main_v466 (cmpi .slt),
    nullary main_c_88 (constantI S_ 32 100000#32),
    unary main_c_88 main_v467 (broadcastInDim S100000 ![] bcast_S_S100000),
    binary main_v464 main_v467 main_v468 (addi),
    ternary main_v466 main_v468 main_v464 main_v469 select,
    unary main_v469 main_v470 (broadcastInDim S100000x1 ![0] bcast_S100000_S100000x1_0),
    binary main_arg0 main_v470 main_v471 (Host.gather gather_S100000x64_S100000x1_S100000x64_1_0_n_n_0_1_164),
    unary main_arg1 main_v472 (extractStridedSlice S1x64x64 ![22, 0, 0] · slices_S27x64x64_S1x64x64_22_0_0),
    reshape main_v472 main_v473 rfl shapeCasts_S1x64x64_S64x64,
    binary main_v471 main_v473 main_v474 (Host.dotGeneral dot_S100000x64_S64x64_S100000x64_1_0_0_1_n_n none),
    unary main_arg8 main_v475 (extractStridedSlice S1x100000 ![22, 0] · slices_S27x100000_S1x100000_22_0),
    reshape main_v475 main_v476 rfl shapeCasts_S1x100000_S100000,
    nullary main_c_89 (constantI S_ 32 0#32),
    unary main_c_89 main_v477 (broadcastInDim S100000 ![] bcast_S_S100000),
    binary main_v476 main_v477 main_v478 (cmpi .slt),
    nullary main_c_90 (constantI S_ 32 100000#32),
    unary main_c_90 main_v479 (broadcastInDim S100000 ![] bcast_S_S100000),
    binary main_v476 main_v479 main_v480 (addi),
    ternary main_v478 main_v480 main_v476 main_v481 select,
    unary main_v481 main_v482 (broadcastInDim S100000x1 ![0] bcast_S100000_S100000x1_0),
    ternary main_v462 main_v482 main_v474 main_v483 (Host.scatterAdd scatter_S100000x64_S100000x1_S100000x64_1_0_0_1) ]
abbrev sg32_W : List (Ref sig .tc) := [main_v463, main_v464, main_c_87, main_v465, main_v466, main_c_88, main_v467, main_v468, main_v469, main_v470, main_v471, main_v472, main_v473, main_v474, main_v475, main_v476, main_c_89, main_v477, main_v478, main_c_90, main_v479, main_v480, main_v481, main_v482, main_v483]
theorem sg32_dsts : List.Forall₂ Dst (sg32 : List (HloOp τ sig (Elt F))) sg32_W := by repeat' constructor
theorem sg32_sub : (sg32 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg32_fresh : ∀ op ∈ (sg32 : List (HloOp τ sig (Elt F))), op.fresh = ∅ := fresh_of_dsts sg32_dsts
theorem sg32_keeps : Keeps (sg32 : List (HloOp τ sig (Elt F))) sg32_W := .of_dsts sg32_dsts

abbrev sg33 : List (HloOp τ sig (Elt F)) :=
  [ unary main_arg7 main_v484 (extractStridedSlice S1x100000 ![23, 0] · slices_S27x100000_S1x100000_23_0),
    reshape main_v484 main_v485 rfl shapeCasts_S1x100000_S100000,
    nullary main_c_91 (constantI S_ 32 0#32),
    unary main_c_91 main_v486 (broadcastInDim S100000 ![] bcast_S_S100000),
    binary main_v485 main_v486 main_v487 (cmpi .slt),
    nullary main_c_92 (constantI S_ 32 100000#32),
    unary main_c_92 main_v488 (broadcastInDim S100000 ![] bcast_S_S100000),
    binary main_v485 main_v488 main_v489 (addi),
    ternary main_v487 main_v489 main_v485 main_v490 select,
    unary main_v490 main_v491 (broadcastInDim S100000x1 ![0] bcast_S100000_S100000x1_0),
    binary main_arg0 main_v491 main_v492 (Host.gather gather_S100000x64_S100000x1_S100000x64_1_0_n_n_0_1_164),
    unary main_arg1 main_v493 (extractStridedSlice S1x64x64 ![23, 0, 0] · slices_S27x64x64_S1x64x64_23_0_0),
    reshape main_v493 main_v494 rfl shapeCasts_S1x64x64_S64x64,
    binary main_v492 main_v494 main_v495 (Host.dotGeneral dot_S100000x64_S64x64_S100000x64_1_0_0_1_n_n none),
    unary main_arg8 main_v496 (extractStridedSlice S1x100000 ![23, 0] · slices_S27x100000_S1x100000_23_0),
    reshape main_v496 main_v497 rfl shapeCasts_S1x100000_S100000,
    nullary main_c_93 (constantI S_ 32 0#32),
    unary main_c_93 main_v498 (broadcastInDim S100000 ![] bcast_S_S100000),
    binary main_v497 main_v498 main_v499 (cmpi .slt),
    nullary main_c_94 (constantI S_ 32 100000#32),
    unary main_c_94 main_v500 (broadcastInDim S100000 ![] bcast_S_S100000),
    binary main_v497 main_v500 main_v501 (addi),
    ternary main_v499 main_v501 main_v497 main_v502 select ]
abbrev sg33_W : List (Ref sig .tc) := [main_v484, main_v485, main_c_91, main_v486, main_v487, main_c_92, main_v488, main_v489, main_v490, main_v491, main_v492, main_v493, main_v494, main_v495, main_v496, main_v497, main_c_93, main_v498, main_v499, main_c_94, main_v500, main_v501, main_v502]
theorem sg33_dsts : List.Forall₂ Dst (sg33 : List (HloOp τ sig (Elt F))) sg33_W := by repeat' constructor
theorem sg33_sub : (sg33 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub ..⟩
theorem sg33_fresh : ∀ op ∈ (sg33 : List (HloOp τ sig (Elt F))), op.fresh = ∅ := fresh_of_dsts sg33_dsts
theorem sg33_keeps : Keeps (sg33 : List (HloOp τ sig (Elt F))) sg33_W := .of_dsts sg33_dsts

def ops_part9 : List (HloOp τ sig (Elt F)) := sg31 ++ (sg32 ++ sg33)
set_option maxRecDepth 8192 in
set_option maxHeartbeats 4000000 in
theorem main_part9_eq (c : Dev nD) : main_part9 (F := F) c = seq ops_part9 := rfl
theorem ops_part9_sub : (ops_part9 : List (HloOp τ sig (Elt F))).Forall fun op => op.bufs ⊆ tcRefs τ sig :=
  forall_append sg31_sub (forall_append sg32_sub sg33_sub)
theorem ops_part9_fresh : ∀ op ∈ (ops_part9 : List (HloOp τ sig (Elt F))), op.fresh = ∅ :=
  fresh_append sg31_fresh (fresh_append sg32_fresh sg33_fresh)

end Cert.ReferenceIdeal.Value

end
-- ==== Proof.RefW10.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg34 : List (HloOp τ sig (Elt F)) :=
  [ unary main_v502 main_v503 (broadcastInDim S100000x1 ![0] bcast_S100000_S100000x1_0),
    ternary main_v483 main_v503 main_v495 main_v504 (Host.scatterAdd scatter_S100000x64_S100000x1_S100000x64_1_0_0_1) ]
abbrev sg34_W : List (Ref sig .tc) := [main_v503, main_v504]
theorem sg34_dsts : List.Forall₂ Dst (sg34 : List (HloOp τ sig (Elt F))) sg34_W := by repeat' constructor
theorem sg34_sub : (sg34 : List (HloOp τ sig (Elt F))).Forall fun op => op.bufs ⊆ tcRefs τ sig :=
  ⟨unary_bufs_sub .., ternary_bufs_sub ..⟩
theorem sg34_fresh : ∀ op ∈ (sg34 : List (HloOp τ sig (Elt F))), op.fresh = ∅ := fresh_of_dsts sg34_dsts
theorem sg34_keeps : Keeps (sg34 : List (HloOp τ sig (Elt F))) sg34_W := .of_dsts sg34_dsts

abbrev sg35 : List (HloOp τ sig (Elt F)) :=
  [ unary main_arg7 main_v505 (extractStridedSlice S1x100000 ![24, 0] · slices_S27x100000_S1x100000_24_0),
    reshape main_v505 main_v506 rfl shapeCasts_S1x100000_S100000,
    nullary main_c_95 (constantI S_ 32 0#32),
    unary main_c_95 main_v507 (broadcastInDim S100000 ![] bcast_S_S100000),
    binary main_v506 main_v507 main_v508 (cmpi .slt),
    nullary main_c_96 (constantI S_ 32 100000#32),
    unary main_c_96 main_v509 (broadcastInDim S100000 ![] bcast_S_S100000),
    binary main_v506 main_v509 main_v510 (addi),
    ternary main_v508 main_v510 main_v506 main_v511 select,
    unary main_v511 main_v512 (broadcastInDim S100000x1 ![0] bcast_S100000_S100000x1_0),
    binary main_arg0 main_v512 main_v513 (Host.gather gather_S100000x64_S100000x1_S100000x64_1_0_n_n_0_1_164),
    unary main_arg1 main_v514 (extractStridedSlice S1x64x64 ![24, 0, 0] · slices_S27x64x64_S1x64x64_24_0_0),
    reshape main_v514 main_v515 rfl shapeCasts_S1x64x64_S64x64,
    binary main_v513 main_v515 main_v516 (Host.dotGeneral dot_S100000x64_S64x64_S100000x64_1_0_0_1_n_n none),
    unary main_arg8 main_v517 (extractStridedSlice S1x100000 ![24, 0] · slices_S27x100000_S1x100000_24_0),
    reshape main_v517 main_v518 rfl shapeCasts_S1x100000_S100000,
    nullary main_c_97 (constantI S_ 32 0#32),
    unary main_c_97 main_v519 (broadcastInDim S100000 ![] bcast_S_S100000),
    binary main_v518 main_v519 main_v520 (cmpi .slt),
    nullary main_c_98 (constantI S_ 32 100000#32),
    unary main_c_98 main_v521 (broadcastInDim S100000 ![] bcast_S_S100000),
    binary main_v518 main_v521 main_v522 (addi),
    ternary main_v520 main_v522 main_v518 main_v523 select,
    unary main_v523 main_v524 (broadcastInDim S100000x1 ![0] bcast_S100000_S100000x1_0),
    ternary main_v504 main_v524 main_v516 main_v525 (Host.scatterAdd scatter_S100000x64_S100000x1_S100000x64_1_0_0_1) ]
abbrev sg35_W : List (Ref sig .tc) := [main_v505, main_v506, main_c_95, main_v507, main_v508, main_c_96, main_v509, main_v510, main_v511, main_v512, main_v513, main_v514, main_v515, main_v516, main_v517, main_v518, main_c_97, main_v519, main_v520, main_c_98, main_v521, main_v522, main_v523, main_v524, main_v525]
theorem sg35_dsts : List.Forall₂ Dst (sg35 : List (HloOp τ sig (Elt F))) sg35_W := by repeat' constructor
theorem sg35_sub : (sg35 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg35_fresh : ∀ op ∈ (sg35 : List (HloOp τ sig (Elt F))), op.fresh = ∅ := fresh_of_dsts sg35_dsts
theorem sg35_keeps : Keeps (sg35 : List (HloOp τ sig (Elt F))) sg35_W := .of_dsts sg35_dsts

abbrev sg36 : List (HloOp τ sig (Elt F)) :=
  [ unary main_arg7 main_v526 (extractStridedSlice S1x100000 ![25, 0] · slices_S27x100000_S1x100000_25_0),
    reshape main_v526 main_v527 rfl shapeCasts_S1x100000_S100000,
    nullary main_c_99 (constantI S_ 32 0#32),
    unary main_c_99 main_v528 (broadcastInDim S100000 ![] bcast_S_S100000),
    binary main_v527 main_v528 main_v529 (cmpi .slt),
    nullary main_c_100 (constantI S_ 32 100000#32),
    unary main_c_100 main_v530 (broadcastInDim S100000 ![] bcast_S_S100000),
    binary main_v527 main_v530 main_v531 (addi),
    ternary main_v529 main_v531 main_v527 main_v532 select,
    unary main_v532 main_v533 (broadcastInDim S100000x1 ![0] bcast_S100000_S100000x1_0),
    binary main_arg0 main_v533 main_v534 (Host.gather gather_S100000x64_S100000x1_S100000x64_1_0_n_n_0_1_164),
    unary main_arg1 main_v535 (extractStridedSlice S1x64x64 ![25, 0, 0] · slices_S27x64x64_S1x64x64_25_0_0),
    reshape main_v535 main_v536 rfl shapeCasts_S1x64x64_S64x64,
    binary main_v534 main_v536 main_v537 (Host.dotGeneral dot_S100000x64_S64x64_S100000x64_1_0_0_1_n_n none),
    unary main_arg8 main_v538 (extractStridedSlice S1x100000 ![25, 0] · slices_S27x100000_S1x100000_25_0),
    reshape main_v538 main_v539 rfl shapeCasts_S1x100000_S100000,
    nullary main_c_101 (constantI S_ 32 0#32),
    unary main_c_101 main_v540 (broadcastInDim S100000 ![] bcast_S_S100000),
    binary main_v539 main_v540 main_v541 (cmpi .slt),
    nullary main_c_102 (constantI S_ 32 100000#32),
    unary main_c_102 main_v542 (broadcastInDim S100000 ![] bcast_S_S100000),
    binary main_v539 main_v542 main_v543 (addi),
    ternary main_v541 main_v543 main_v539 main_v544 select,
    unary main_v544 main_v545 (broadcastInDim S100000x1 ![0] bcast_S100000_S100000x1_0),
    ternary main_v525 main_v545 main_v537 main_v546 (Host.scatterAdd scatter_S100000x64_S100000x1_S100000x64_1_0_0_1) ]
abbrev sg36_W : List (Ref sig .tc) := [main_v526, main_v527, main_c_99, main_v528, main_v529, main_c_100, main_v530, main_v531, main_v532, main_v533, main_v534, main_v535, main_v536, main_v537, main_v538, main_v539, main_c_101, main_v540, main_v541, main_c_102, main_v542, main_v543, main_v544, main_v545, main_v546]
theorem sg36_dsts : List.Forall₂ Dst (sg36 : List (HloOp τ sig (Elt F))) sg36_W := by repeat' constructor
theorem sg36_sub : (sg36 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg36_fresh : ∀ op ∈ (sg36 : List (HloOp τ sig (Elt F))), op.fresh = ∅ := fresh_of_dsts sg36_dsts
theorem sg36_keeps : Keeps (sg36 : List (HloOp τ sig (Elt F))) sg36_W := .of_dsts sg36_dsts

abbrev sg37 : List (HloOp τ sig (Elt F)) :=
  [ unary main_arg7 main_v547 (extractStridedSlice S1x100000 ![26, 0] · slices_S27x100000_S1x100000_26_0),
    reshape main_v547 main_v548 rfl shapeCasts_S1x100000_S100000,
    nullary main_c_103 (constantI S_ 32 0#32),
    unary main_c_103 main_v549 (broadcastInDim S100000 ![] bcast_S_S100000),
    binary main_v548 main_v549 main_v550 (cmpi .slt),
    nullary main_c_104 (constantI S_ 32 100000#32),
    unary main_c_104 main_v551 (broadcastInDim S100000 ![] bcast_S_S100000),
    binary main_v548 main_v551 main_v552 (addi) ]
abbrev sg37_W : List (Ref sig .tc) := [main_v547, main_v548, main_c_103, main_v549, main_v550, main_c_104, main_v551, main_v552]
theorem sg37_dsts : List.Forall₂ Dst (sg37 : List (HloOp τ sig (Elt F))) sg37_W := by repeat' constructor
theorem sg37_sub : (sg37 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub ..⟩
theorem sg37_fresh : ∀ op ∈ (sg37 : List (HloOp τ sig (Elt F))), op.fresh = ∅ := fresh_of_dsts sg37_dsts
theorem sg37_keeps : Keeps (sg37 : List (HloOp τ sig (Elt F))) sg37_W := .of_dsts sg37_dsts

def ops_part10 : List (HloOp τ sig (Elt F)) := sg34 ++ (sg35 ++ (sg36 ++ sg37))
set_option maxRecDepth 8192 in
set_option maxHeartbeats 4000000 in
theorem main_part10_eq (c : Dev nD) : main_part10 (F := F) c = seq ops_part10 := rfl
theorem ops_part10_sub : (ops_part10 : List (HloOp τ sig (Elt F))).Forall fun op => op.bufs ⊆ tcRefs τ sig :=
  forall_append sg34_sub (forall_append sg35_sub (forall_append sg36_sub sg37_sub))
theorem ops_part10_fresh : ∀ op ∈ (ops_part10 : List (HloOp τ sig (Elt F))), op.fresh = ∅ :=
  fresh_append sg34_fresh (fresh_append sg35_fresh (fresh_append sg36_fresh sg37_fresh))

end Cert.ReferenceIdeal.Value

end
-- ==== Proof.RefW11.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg38 : List (HloOp τ sig (Elt F)) :=
  [ ternary main_v550 main_v552 main_v548 main_v553 select,
    unary main_v553 main_v554 (broadcastInDim S100000x1 ![0] bcast_S100000_S100000x1_0),
    binary main_arg0 main_v554 main_v555 (Host.gather gather_S100000x64_S100000x1_S100000x64_1_0_n_n_0_1_164),
    unary main_arg1 main_v556 (extractStridedSlice S1x64x64 ![26, 0, 0] · slices_S27x64x64_S1x64x64_26_0_0),
    reshape main_v556 main_v557 rfl shapeCasts_S1x64x64_S64x64,
    binary main_v555 main_v557 main_v558 (Host.dotGeneral dot_S100000x64_S64x64_S100000x64_1_0_0_1_n_n none),
    unary main_arg8 main_v559 (extractStridedSlice S1x100000 ![26, 0] · slices_S27x100000_S1x100000_26_0),
    reshape main_v559 main_v560 rfl shapeCasts_S1x100000_S100000,
    nullary main_c_105 (constantI S_ 32 0#32),
    unary main_c_105 main_v561 (broadcastInDim S100000 ![] bcast_S_S100000),
    binary main_v560 main_v561 main_v562 (cmpi .slt),
    nullary main_c_106 (constantI S_ 32 100000#32),
    unary main_c_106 main_v563 (broadcastInDim S100000 ![] bcast_S_S100000),
    binary main_v560 main_v563 main_v564 (addi),
    ternary main_v562 main_v564 main_v560 main_v565 select,
    unary main_v565 main_v566 (broadcastInDim S100000x1 ![0] bcast_S100000_S100000x1_0),
    ternary main_v546 main_v566 main_v558 main_v567 (Host.scatterAdd scatter_S100000x64_S100000x1_S100000x64_1_0_0_1) ]
abbrev sg38_W : List (Ref sig .tc) := [main_v553, main_v554, main_v555, main_v556, main_v557, main_v558, main_v559, main_v560, main_c_105, main_v561, main_v562, main_c_106, main_v563, main_v564, main_v565, main_v566, main_v567]
theorem sg38_dsts : List.Forall₂ Dst (sg38 : List (HloOp τ sig (Elt F))) sg38_W := by repeat' constructor
theorem sg38_sub : (sg38 : List (HloOp τ sig (Elt F))).Forall fun op => op.bufs ⊆ tcRefs τ sig :=
  ⟨ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg38_fresh : ∀ op ∈ (sg38 : List (HloOp τ sig (Elt F))), op.fresh = ∅ := fresh_of_dsts sg38_dsts
theorem sg38_keeps : Keeps (sg38 : List (HloOp τ sig (Elt F))) sg38_W := .of_dsts sg38_dsts

abbrev sg39 : List (HloOp τ sig (Elt F)) :=
  [ nullary main_cst_107 (constant S_ .f32 0x3F800000#32),
    unary main_cst_107 main_v568 (broadcastInDim S100000x1 ![] bcast_S_S100000x1),
    nullary main_cst_108 (constant S_ .f32 0x00000000#32),
    unary main_cst_108 main_v569 (broadcastInDim S8x1 ![] bcast_S_S8x1),
    unary main_arg9 main_v570 (broadcastInDim S100000x1 ![0] bcast_S100000_S100000x1_0),
    ternary main_v569 main_v570 main_v568 main_v571 (Host.scatterAdd scatter_S8x1_S100000x1_S100000x1_1_0_0_1),
    nullary main_cst_109 (constant S_ .f32 0x00000000#32),
    unary main_cst_109 main_v572 (broadcastInDim S8x64 ![] bcast_S_S8x64),
    unary main_arg9 main_v573 (broadcastInDim S100000x1 ![0] bcast_S100000_S100000x1_0),
    ternary main_v572 main_v573 main_v567 main_v574 (Host.scatterAdd scatter_S8x64_S100000x1_S100000x64_1_0_0_1),
    unary main_v571 main_v575 (broadcastInDim S8x64 ![0, 1] bcast_S8x1_S8x64_0_1),
    binary main_v574 main_v575 main_v576 (Host.divf),
    nullary main_c_110 (constantI S_ 32 0#32),
    unary main_c_110 main_v577 (broadcastInDim S100000 ![] bcast_S_S100000),
    binary main_arg9 main_v577 main_v578 (cmpi .slt),
    nullary main_c_111 (constantI S_ 32 8#32),
    unary main_c_111 main_v579 (broadcastInDim S100000 ![] bcast_S_S100000),
    binary main_arg9 main_v579 main_v580 (addi),
    ternary main_v578 main_v580 main_arg9 main_v581 select,
    unary main_v581 main_v582 (broadcastInDim S100000x1 ![0] bcast_S100000_S100000x1_0),
    binary main_v576 main_v582 main_v583 (Host.gather gather_S8x64_S100000x1_S100000x64_1_0_n_n_0_1_164),
    binary main_v567 main_v583 main_v584 (subf),
    binary main_v584 main_v584 main_v585 (mulf),
    nullary main_cst_112 (constant S_ .f32 0x00000000#32),
    unary main_cst_112 main_v586 (broadcastInDim S8x64 ![] bcast_S_S8x64),
    unary main_arg9 main_v587 (broadcastInDim S100000x1 ![0] bcast_S100000_S100000x1_0),
    ternary main_v586 main_v587 main_v585 main_v588 (Host.scatterAdd scatter_S8x64_S100000x1_S100000x64_1_0_0_1),
    unary main_v571 main_v589 (broadcastInDim S8x64 ![0, 1] bcast_S8x1_S8x64_0_1),
    binary main_v588 main_v589 main_v590 (Host.divf),
    nullary main_c_113 (constantI S_ 32 0#32),
    unary main_c_113 main_v591 (broadcastInDim S100000 ![] bcast_S_S100000),
    binary main_arg9 main_v591 main_v592 (cmpi .slt),
    nullary main_c_114 (constantI S_ 32 8#32),
    unary main_c_114 main_v593 (broadcastInDim S100000 ![] bcast_S_S100000),
    binary main_arg9 main_v593 main_v594 (addi),
    ternary main_v592 main_v594 main_arg9 main_v595 select,
    unary main_v595 main_v596 (broadcastInDim S100000x1 ![0] bcast_S100000_S100000x1_0),
    binary main_v590 main_v596 main_v597 (Host.gather gather_S8x64_S100000x1_S100000x64_1_0_n_n_0_1_164),
    nullary main_cst_115 (constant S_ .f32 0x3727C5AC#32),
    unary main_cst_115 main_v598 (broadcastInDim S100000x64 ![] bcast_S_S100000x64),
    binary main_v597 main_v598 main_v599 (addf),
    unary main_v599 main_v600 (Host.rsqrt),
    binary main_v584 main_v600 main_v601 (mulf) ]
abbrev sg39_W : List (Ref sig .tc) := [main_cst_107, main_v568, main_cst_108, main_v569, main_v570, main_v571, main_cst_109, main_v572, main_v573, main_v574, main_v575, main_v576, main_c_110, main_v577, main_v578, main_c_111, main_v579, main_v580, main_v581, main_v582, main_v583, main_v584, main_v585, main_cst_112, main_v586, main_v587, main_v588, main_v589, main_v590, main_c_113, main_v591, main_v592, main_c_114, main_v593, main_v594, main_v595, main_v596, main_v597, main_cst_115, main_v598, main_v599, main_v600, main_v601]
theorem sg39_dsts : List.Forall₂ Dst (sg39 : List (HloOp τ sig (Elt F))) sg39_W := by repeat' constructor
theorem sg39_sub : (sg39 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub ..⟩
theorem sg39_fresh : ∀ op ∈ (sg39 : List (HloOp τ sig (Elt F))), op.fresh = ∅ := fresh_of_dsts sg39_dsts
theorem sg39_keeps : Keeps (sg39 : List (HloOp τ sig (Elt F))) sg39_W := .of_dsts sg39_dsts

def ops_part11 : List (HloOp τ sig (Elt F)) := sg38 ++ sg39
set_option maxRecDepth 8192 in
set_option maxHeartbeats 4000000 in
theorem main_part11_eq (c : Dev nD) : main_part11 (F := F) c = seq ops_part11 := rfl
theorem ops_part11_sub : (ops_part11 : List (HloOp τ sig (Elt F))).Forall fun op => op.bufs ⊆ tcRefs τ sig :=
  forall_append sg38_sub sg39_sub
theorem ops_part11_fresh : ∀ op ∈ (ops_part11 : List (HloOp τ sig (Elt F))), op.fresh = ∅ :=
  fresh_append sg38_fresh sg39_fresh

end Cert.ReferenceIdeal.Value

end
-- ==== Proof.RefW12.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg40 : List (HloOp τ sig (Elt F)) :=
  [ unary main_arg2 main_v602 (broadcastInDim S1x64 ![1] bcast_S64_S1x64_1),
    unary main_v602 main_v603 (broadcastInDim S100000x64 ![0, 1] bcast_S1x64_S100000x64_0_1),
    binary main_v601 main_v603 main_v604 (mulf),
    unary main_arg3 main_v605 (broadcastInDim S1x64 ![1] bcast_S64_S1x64_1),
    unary main_v605 main_v606 (broadcastInDim S100000x64 ![0, 1] bcast_S1x64_S100000x64_0_1),
    binary main_v604 main_v606 main_v607 (addf),
    nullary main_cst_116 (constant S_ .f32 0x00000000#32),
    unary main_cst_116 main_v608 (broadcastInDim S100000x64 ![] bcast_S_S100000x64),
    binary main_v607 main_v608 main_v609 (cmpf .ogt),
    nullary main_cst_117 (constant S_ .f32 0x3C23D70A#32),
    unary main_cst_117 main_v610 (broadcastInDim S100000x64 ![] bcast_S_S100000x64),
    binary main_v610 main_v607 main_v611 (mulf),
    TRef.ternary (TRef.of (T := ⟨S100000x64, .i1⟩) main_v609) (TRef.of (T := ⟨S100000x64, .f32⟩) main_v607) (TRef.of (T := ⟨S100000x64, .f32⟩) main_v611) (TRef.of (T := ⟨S100000x64, .f32⟩) main_v612) select ]
abbrev sg40_W : List (Ref sig .tc) := [main_v602, main_v603, main_v604, main_v605, main_v606, main_v607, main_cst_116, main_v608, main_v609, main_cst_117, main_v610, main_v611, main_v612]
theorem sg40_dsts : List.Forall₂ Dst (sg40 : List (HloOp τ sig (Elt F))) sg40_W := by repeat' constructor
theorem sg40_sub : (sg40 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem sg40_fresh : ∀ op ∈ (sg40 : List (HloOp τ sig (Elt F))), op.fresh = ∅ := fresh_of_dsts sg40_dsts
theorem sg40_keeps : Keeps (sg40 : List (HloOp τ sig (Elt F))) sg40_W := .of_dsts sg40_dsts

abbrev sg41 : List (HloOp τ sig (Elt F)) :=
  [ nullary main_cst_118 (constant S_ .f32 0x00000000#32),
    unary main_cst_118 main_v613 (broadcastInDim S100000x64 ![] bcast_S_S100000x64) ]
abbrev sg41_W : List (Ref sig .tc) := [main_cst_118, main_v613]
theorem sg41_dsts : List.Forall₂ Dst (sg41 : List (HloOp τ sig (Elt F))) sg41_W := by repeat' constructor
theorem sg41_sub : (sg41 : List (HloOp τ sig (Elt F))).Forall fun op => op.bufs ⊆ tcRefs τ sig :=
  ⟨nullary_bufs_sub .., unary_bufs_sub ..⟩
theorem sg41_fresh : ∀ op ∈ (sg41 : List (HloOp τ sig (Elt F))), op.fresh = ∅ := fresh_of_dsts sg41_dsts
theorem sg41_keeps : Keeps (sg41 : List (HloOp τ sig (Elt F))) sg41_W := .of_dsts sg41_dsts

abbrev sg42 : List (HloOp τ sig (Elt F)) :=
  [ unary main_arg7 main_v614 (extractStridedSlice S1x100000 ![0, 0] · slices_S27x100000_S1x100000_0_0),
    reshape main_v614 main_v615 rfl shapeCasts_S1x100000_S100000,
    nullary main_c_119 (constantI S_ 32 0#32),
    unary main_c_119 main_v616 (broadcastInDim S100000 ![] bcast_S_S100000),
    binary main_v615 main_v616 main_v617 (cmpi .slt),
    nullary main_c_120 (constantI S_ 32 100000#32),
    unary main_c_120 main_v618 (broadcastInDim S100000 ![] bcast_S_S100000),
    binary main_v615 main_v618 main_v619 (addi),
    ternary main_v617 main_v619 main_v615 main_v620 select,
    unary main_v620 main_v621 (broadcastInDim S100000x1 ![0] bcast_S100000_S100000x1_0),
    binary main_v612 main_v621 main_v622 (Host.gather gather_S100000x64_S100000x1_S100000x64_1_0_n_n_0_1_164),
    unary main_arg4 main_v623 (extractStridedSlice S1x64x64 ![0, 0, 0] · slices_S27x64x64_S1x64x64_0_0_0),
    reshape main_v623 main_v624 rfl shapeCasts_S1x64x64_S64x64,
    binary main_v622 main_v624 main_v625 (Host.dotGeneral dot_S100000x64_S64x64_S100000x64_1_0_0_1_n_n none),
    unary main_arg8 main_v626 (extractStridedSlice S1x100000 ![0, 0] · slices_S27x100000_S1x100000_0_0),
    reshape main_v626 main_v627 rfl shapeCasts_S1x100000_S100000,
    nullary main_c_121 (constantI S_ 32 0#32),
    unary main_c_121 main_v628 (broadcastInDim S100000 ![] bcast_S_S100000),
    binary main_v627 main_v628 main_v629 (cmpi .slt),
    nullary main_c_122 (constantI S_ 32 100000#32),
    unary main_c_122 main_v630 (broadcastInDim S100000 ![] bcast_S_S100000),
    binary main_v627 main_v630 main_v631 (addi),
    ternary main_v629 main_v631 main_v627 main_v632 select,
    unary main_v632 main_v633 (broadcastInDim S100000x1 ![0] bcast_S100000_S100000x1_0),
    ternary main_v613 main_v633 main_v625 main_v634 (Host.scatterAdd scatter_S100000x64_S100000x1_S100000x64_1_0_0_1) ]
abbrev sg42_W : List (Ref sig .tc) := [main_v614, main_v615, main_c_119, main_v616, main_v617, main_c_120, main_v618, main_v619, main_v620, main_v621, main_v622, main_v623, main_v624, main_v625, main_v626, main_v627, main_c_121, main_v628, main_v629, main_c_122, main_v630, main_v631, main_v632, main_v633, main_v634]
theorem sg42_dsts : List.Forall₂ Dst (sg42 : List (HloOp τ sig (Elt F))) sg42_W := by repeat' constructor
theorem sg42_sub : (sg42 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg42_fresh : ∀ op ∈ (sg42 : List (HloOp τ sig (Elt F))), op.fresh = ∅ := fresh_of_dsts sg42_dsts
theorem sg42_keeps : Keeps (sg42 : List (HloOp τ sig (Elt F))) sg42_W := .of_dsts sg42_dsts

abbrev sg43 : List (HloOp τ sig (Elt F)) :=
  [ unary main_arg7 main_v635 (extractStridedSlice S1x100000 ![1, 0] · slices_S27x100000_S1x100000_1_0),
    reshape main_v635 main_v636 rfl shapeCasts_S1x100000_S100000,
    nullary main_c_123 (constantI S_ 32 0#32),
    unary main_c_123 main_v637 (broadcastInDim S100000 ![] bcast_S_S100000),
    binary main_v636 main_v637 main_v638 (cmpi .slt),
    nullary main_c_124 (constantI S_ 32 100000#32),
    unary main_c_124 main_v639 (broadcastInDim S100000 ![] bcast_S_S100000),
    binary main_v636 main_v639 main_v640 (addi),
    ternary main_v638 main_v640 main_v636 main_v641 select,
    unary main_v641 main_v642 (broadcastInDim S100000x1 ![0] bcast_S100000_S100000x1_0),
    binary main_v612 main_v642 main_v643 (Host.gather gather_S100000x64_S100000x1_S100000x64_1_0_n_n_0_1_164),
    unary main_arg4 main_v644 (extractStridedSlice S1x64x64 ![1, 0, 0] · slices_S27x64x64_S1x64x64_1_0_0),
    reshape main_v644 main_v645 rfl shapeCasts_S1x64x64_S64x64,
    binary main_v643 main_v645 main_v646 (Host.dotGeneral dot_S100000x64_S64x64_S100000x64_1_0_0_1_n_n none),
    unary main_arg8 main_v647 (extractStridedSlice S1x100000 ![1, 0] · slices_S27x100000_S1x100000_1_0),
    reshape main_v647 main_v648 rfl shapeCasts_S1x100000_S100000,
    nullary main_c_125 (constantI S_ 32 0#32),
    unary main_c_125 main_v649 (broadcastInDim S100000 ![] bcast_S_S100000),
    binary main_v648 main_v649 main_v650 (cmpi .slt),
    nullary main_c_126 (constantI S_ 32 100000#32) ]
abbrev sg43_W : List (Ref sig .tc) := [main_v635, main_v636, main_c_123, main_v637, main_v638, main_c_124, main_v639, main_v640, main_v641, main_v642, main_v643, main_v644, main_v645, main_v646, main_v647, main_v648, main_c_125, main_v649, main_v650, main_c_126]
theorem sg43_dsts : List.Forall₂ Dst (sg43 : List (HloOp τ sig (Elt F))) sg43_W := by repeat' constructor
theorem sg43_sub : (sg43 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub ..⟩
theorem sg43_fresh : ∀ op ∈ (sg43 : List (HloOp τ sig (Elt F))), op.fresh = ∅ := fresh_of_dsts sg43_dsts
theorem sg43_keeps : Keeps (sg43 : List (HloOp τ sig (Elt F))) sg43_W := .of_dsts sg43_dsts

def ops_part12 : List (HloOp τ sig (Elt F)) := sg40 ++ (sg41 ++ (sg42 ++ sg43))
set_option maxRecDepth 8192 in
set_option maxHeartbeats 4000000 in
theorem main_part12_eq (c : Dev nD) : main_part12 (F := F) c = seq ops_part12 := rfl
theorem ops_part12_sub : (ops_part12 : List (HloOp τ sig (Elt F))).Forall fun op => op.bufs ⊆ tcRefs τ sig :=
  forall_append sg40_sub (forall_append sg41_sub (forall_append sg42_sub sg43_sub))
theorem ops_part12_fresh : ∀ op ∈ (ops_part12 : List (HloOp τ sig (Elt F))), op.fresh = ∅ :=
  fresh_append sg40_fresh (fresh_append sg41_fresh (fresh_append sg42_fresh sg43_fresh))

end Cert.ReferenceIdeal.Value

end
-- ==== Proof.RefW13.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg44 : List (HloOp τ sig (Elt F)) :=
  [ unary main_c_126 main_v651 (broadcastInDim S100000 ![] bcast_S_S100000),
    binary main_v648 main_v651 main_v652 (addi),
    ternary main_v650 main_v652 main_v648 main_v653 select,
    unary main_v653 main_v654 (broadcastInDim S100000x1 ![0] bcast_S100000_S100000x1_0),
    ternary main_v634 main_v654 main_v646 main_v655 (Host.scatterAdd scatter_S100000x64_S100000x1_S100000x64_1_0_0_1) ]
abbrev sg44_W : List (Ref sig .tc) := [main_v651, main_v652, main_v653, main_v654, main_v655]
theorem sg44_dsts : List.Forall₂ Dst (sg44 : List (HloOp τ sig (Elt F))) sg44_W := by repeat' constructor
theorem sg44_sub : (sg44 : List (HloOp τ sig (Elt F))).Forall fun op => op.bufs ⊆ tcRefs τ sig :=
  ⟨unary_bufs_sub .., binary_bufs_sub .., ternary_bufs_sub .., unary_bufs_sub .., ternary_bufs_sub ..⟩
theorem sg44_fresh : ∀ op ∈ (sg44 : List (HloOp τ sig (Elt F))), op.fresh = ∅ := fresh_of_dsts sg44_dsts
theorem sg44_keeps : Keeps (sg44 : List (HloOp τ sig (Elt F))) sg44_W := .of_dsts sg44_dsts

abbrev sg45 : List (HloOp τ sig (Elt F)) :=
  [ unary main_arg7 main_v656 (extractStridedSlice S1x100000 ![2, 0] · slices_S27x100000_S1x100000_2_0),
    reshape main_v656 main_v657 rfl shapeCasts_S1x100000_S100000,
    nullary main_c_127 (constantI S_ 32 0#32),
    unary main_c_127 main_v658 (broadcastInDim S100000 ![] bcast_S_S100000),
    binary main_v657 main_v658 main_v659 (cmpi .slt),
    nullary main_c_128 (constantI S_ 32 100000#32),
    unary main_c_128 main_v660 (broadcastInDim S100000 ![] bcast_S_S100000),
    binary main_v657 main_v660 main_v661 (addi),
    ternary main_v659 main_v661 main_v657 main_v662 select,
    unary main_v662 main_v663 (broadcastInDim S100000x1 ![0] bcast_S100000_S100000x1_0),
    binary main_v612 main_v663 main_v664 (Host.gather gather_S100000x64_S100000x1_S100000x64_1_0_n_n_0_1_164),
    unary main_arg4 main_v665 (extractStridedSlice S1x64x64 ![2, 0, 0] · slices_S27x64x64_S1x64x64_2_0_0),
    reshape main_v665 main_v666 rfl shapeCasts_S1x64x64_S64x64,
    binary main_v664 main_v666 main_v667 (Host.dotGeneral dot_S100000x64_S64x64_S100000x64_1_0_0_1_n_n none),
    unary main_arg8 main_v668 (extractStridedSlice S1x100000 ![2, 0] · slices_S27x100000_S1x100000_2_0),
    reshape main_v668 main_v669 rfl shapeCasts_S1x100000_S100000,
    nullary main_c_129 (constantI S_ 32 0#32),
    unary main_c_129 main_v670 (broadcastInDim S100000 ![] bcast_S_S100000),
    binary main_v669 main_v670 main_v671 (cmpi .slt),
    nullary main_c_130 (constantI S_ 32 100000#32),
    unary main_c_130 main_v672 (broadcastInDim S100000 ![] bcast_S_S100000),
    binary main_v669 main_v672 main_v673 (addi),
    ternary main_v671 main_v673 main_v669 main_v674 select,
    unary main_v674 main_v675 (broadcastInDim S100000x1 ![0] bcast_S100000_S100000x1_0),
    ternary main_v655 main_v675 main_v667 main_v676 (Host.scatterAdd scatter_S100000x64_S100000x1_S100000x64_1_0_0_1) ]
abbrev sg45_W : List (Ref sig .tc) := [main_v656, main_v657, main_c_127, main_v658, main_v659, main_c_128, main_v660, main_v661, main_v662, main_v663, main_v664, main_v665, main_v666, main_v667, main_v668, main_v669, main_c_129, main_v670, main_v671, main_c_130, main_v672, main_v673, main_v674, main_v675, main_v676]
theorem sg45_dsts : List.Forall₂ Dst (sg45 : List (HloOp τ sig (Elt F))) sg45_W := by repeat' constructor
theorem sg45_sub : (sg45 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg45_fresh : ∀ op ∈ (sg45 : List (HloOp τ sig (Elt F))), op.fresh = ∅ := fresh_of_dsts sg45_dsts
theorem sg45_keeps : Keeps (sg45 : List (HloOp τ sig (Elt F))) sg45_W := .of_dsts sg45_dsts

abbrev sg46 : List (HloOp τ sig (Elt F)) :=
  [ unary main_arg7 main_v677 (extractStridedSlice S1x100000 ![3, 0] · slices_S27x100000_S1x100000_3_0),
    reshape main_v677 main_v678 rfl shapeCasts_S1x100000_S100000,
    nullary main_c_131 (constantI S_ 32 0#32),
    unary main_c_131 main_v679 (broadcastInDim S100000 ![] bcast_S_S100000),
    binary main_v678 main_v679 main_v680 (cmpi .slt),
    nullary main_c_132 (constantI S_ 32 100000#32),
    unary main_c_132 main_v681 (broadcastInDim S100000 ![] bcast_S_S100000),
    binary main_v678 main_v681 main_v682 (addi),
    ternary main_v680 main_v682 main_v678 main_v683 select,
    unary main_v683 main_v684 (broadcastInDim S100000x1 ![0] bcast_S100000_S100000x1_0),
    binary main_v612 main_v684 main_v685 (Host.gather gather_S100000x64_S100000x1_S100000x64_1_0_n_n_0_1_164),
    unary main_arg4 main_v686 (extractStridedSlice S1x64x64 ![3, 0, 0] · slices_S27x64x64_S1x64x64_3_0_0),
    reshape main_v686 main_v687 rfl shapeCasts_S1x64x64_S64x64,
    binary main_v685 main_v687 main_v688 (Host.dotGeneral dot_S100000x64_S64x64_S100000x64_1_0_0_1_n_n none),
    unary main_arg8 main_v689 (extractStridedSlice S1x100000 ![3, 0] · slices_S27x100000_S1x100000_3_0),
    reshape main_v689 main_v690 rfl shapeCasts_S1x100000_S100000,
    nullary main_c_133 (constantI S_ 32 0#32),
    unary main_c_133 main_v691 (broadcastInDim S100000 ![] bcast_S_S100000),
    binary main_v690 main_v691 main_v692 (cmpi .slt),
    nullary main_c_134 (constantI S_ 32 100000#32),
    unary main_c_134 main_v693 (broadcastInDim S100000 ![] bcast_S_S100000),
    binary main_v690 main_v693 main_v694 (addi),
    ternary main_v692 main_v694 main_v690 main_v695 select,
    unary main_v695 main_v696 (broadcastInDim S100000x1 ![0] bcast_S100000_S100000x1_0),
    ternary main_v676 main_v696 main_v688 main_v697 (Host.scatterAdd scatter_S100000x64_S100000x1_S100000x64_1_0_0_1) ]
abbrev sg46_W : List (Ref sig .tc) := [main_v677, main_v678, main_c_131, main_v679, main_v680, main_c_132, main_v681, main_v682, main_v683, main_v684, main_v685, main_v686, main_v687, main_v688, main_v689, main_v690, main_c_133, main_v691, main_v692, main_c_134, main_v693, main_v694, main_v695, main_v696, main_v697]
theorem sg46_dsts : List.Forall₂ Dst (sg46 : List (HloOp τ sig (Elt F))) sg46_W := by repeat' constructor
theorem sg46_sub : (sg46 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg46_fresh : ∀ op ∈ (sg46 : List (HloOp τ sig (Elt F))), op.fresh = ∅ := fresh_of_dsts sg46_dsts
theorem sg46_keeps : Keeps (sg46 : List (HloOp τ sig (Elt F))) sg46_W := .of_dsts sg46_dsts

abbrev sg47 : List (HloOp τ sig (Elt F)) :=
  [ unary main_arg7 main_v698 (extractStridedSlice S1x100000 ![4, 0] · slices_S27x100000_S1x100000_4_0),
    reshape main_v698 main_v699 rfl shapeCasts_S1x100000_S100000,
    nullary main_c_135 (constantI S_ 32 0#32),
    unary main_c_135 main_v700 (broadcastInDim S100000 ![] bcast_S_S100000),
    binary main_v699 main_v700 main_v701 (cmpi .slt) ]
abbrev sg47_W : List (Ref sig .tc) := [main_v698, main_v699, main_c_135, main_v700, main_v701]
theorem sg47_dsts : List.Forall₂ Dst (sg47 : List (HloOp τ sig (Elt F))) sg47_W := by repeat' constructor
theorem sg47_sub : (sg47 : List (HloOp τ sig (Elt F))).Forall fun op => op.bufs ⊆ tcRefs τ sig :=
  ⟨unary_bufs_sub .., reshape_bufs_sub .., nullary_bufs_sub .., unary_bufs_sub .., binary_bufs_sub ..⟩
theorem sg47_fresh : ∀ op ∈ (sg47 : List (HloOp τ sig (Elt F))), op.fresh = ∅ := fresh_of_dsts sg47_dsts
theorem sg47_keeps : Keeps (sg47 : List (HloOp τ sig (Elt F))) sg47_W := .of_dsts sg47_dsts

def ops_part13 : List (HloOp τ sig (Elt F)) := sg44 ++ (sg45 ++ (sg46 ++ sg47))
set_option maxRecDepth 8192 in
set_option maxHeartbeats 4000000 in
theorem main_part13_eq (c : Dev nD) : main_part13 (F := F) c = seq ops_part13 := rfl
theorem ops_part13_sub : (ops_part13 : List (HloOp τ sig (Elt F))).Forall fun op => op.bufs ⊆ tcRefs τ sig :=
  forall_append sg44_sub (forall_append sg45_sub (forall_append sg46_sub sg47_sub))
theorem ops_part13_fresh : ∀ op ∈ (ops_part13 : List (HloOp τ sig (Elt F))), op.fresh = ∅ :=
  fresh_append sg44_fresh (fresh_append sg45_fresh (fresh_append sg46_fresh sg47_fresh))

end Cert.ReferenceIdeal.Value

end
-- ==== Proof.RefW14.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg48 : List (HloOp τ sig (Elt F)) :=
  [ nullary main_c_136 (constantI S_ 32 100000#32),
    unary main_c_136 main_v702 (broadcastInDim S100000 ![] bcast_S_S100000),
    binary main_v699 main_v702 main_v703 (addi),
    ternary main_v701 main_v703 main_v699 main_v704 select,
    unary main_v704 main_v705 (broadcastInDim S100000x1 ![0] bcast_S100000_S100000x1_0),
    binary main_v612 main_v705 main_v706 (Host.gather gather_S100000x64_S100000x1_S100000x64_1_0_n_n_0_1_164),
    unary main_arg4 main_v707 (extractStridedSlice S1x64x64 ![4, 0, 0] · slices_S27x64x64_S1x64x64_4_0_0),
    reshape main_v707 main_v708 rfl shapeCasts_S1x64x64_S64x64,
    binary main_v706 main_v708 main_v709 (Host.dotGeneral dot_S100000x64_S64x64_S100000x64_1_0_0_1_n_n none),
    unary main_arg8 main_v710 (extractStridedSlice S1x100000 ![4, 0] · slices_S27x100000_S1x100000_4_0),
    reshape main_v710 main_v711 rfl shapeCasts_S1x100000_S100000,
    nullary main_c_137 (constantI S_ 32 0#32),
    unary main_c_137 main_v712 (broadcastInDim S100000 ![] bcast_S_S100000),
    binary main_v711 main_v712 main_v713 (cmpi .slt),
    nullary main_c_138 (constantI S_ 32 100000#32),
    unary main_c_138 main_v714 (broadcastInDim S100000 ![] bcast_S_S100000),
    binary main_v711 main_v714 main_v715 (addi),
    ternary main_v713 main_v715 main_v711 main_v716 select,
    unary main_v716 main_v717 (broadcastInDim S100000x1 ![0] bcast_S100000_S100000x1_0),
    ternary main_v697 main_v717 main_v709 main_v718 (Host.scatterAdd scatter_S100000x64_S100000x1_S100000x64_1_0_0_1) ]
abbrev sg48_W : List (Ref sig .tc) := [main_c_136, main_v702, main_v703, main_v704, main_v705, main_v706, main_v707, main_v708, main_v709, main_v710, main_v711, main_c_137, main_v712, main_v713, main_c_138, main_v714, main_v715, main_v716, main_v717, main_v718]
theorem sg48_dsts : List.Forall₂ Dst (sg48 : List (HloOp τ sig (Elt F))) sg48_W := by repeat' constructor
theorem sg48_sub : (sg48 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg48_fresh : ∀ op ∈ (sg48 : List (HloOp τ sig (Elt F))), op.fresh = ∅ := fresh_of_dsts sg48_dsts
theorem sg48_keeps : Keeps (sg48 : List (HloOp τ sig (Elt F))) sg48_W := .of_dsts sg48_dsts

abbrev sg49 : List (HloOp τ sig (Elt F)) :=
  [ unary main_arg7 main_v719 (extractStridedSlice S1x100000 ![5, 0] · slices_S27x100000_S1x100000_5_0),
    reshape main_v719 main_v720 rfl shapeCasts_S1x100000_S100000,
    nullary main_c_139 (constantI S_ 32 0#32),
    unary main_c_139 main_v721 (broadcastInDim S100000 ![] bcast_S_S100000),
    binary main_v720 main_v721 main_v722 (cmpi .slt),
    nullary main_c_140 (constantI S_ 32 100000#32),
    unary main_c_140 main_v723 (broadcastInDim S100000 ![] bcast_S_S100000),
    binary main_v720 main_v723 main_v724 (addi),
    ternary main_v722 main_v724 main_v720 main_v725 select,
    unary main_v725 main_v726 (broadcastInDim S100000x1 ![0] bcast_S100000_S100000x1_0),
    binary main_v612 main_v726 main_v727 (Host.gather gather_S100000x64_S100000x1_S100000x64_1_0_n_n_0_1_164),
    unary main_arg4 main_v728 (extractStridedSlice S1x64x64 ![5, 0, 0] · slices_S27x64x64_S1x64x64_5_0_0),
    reshape main_v728 main_v729 rfl shapeCasts_S1x64x64_S64x64,
    binary main_v727 main_v729 main_v730 (Host.dotGeneral dot_S100000x64_S64x64_S100000x64_1_0_0_1_n_n none),
    unary main_arg8 main_v731 (extractStridedSlice S1x100000 ![5, 0] · slices_S27x100000_S1x100000_5_0),
    reshape main_v731 main_v732 rfl shapeCasts_S1x100000_S100000,
    nullary main_c_141 (constantI S_ 32 0#32),
    unary main_c_141 main_v733 (broadcastInDim S100000 ![] bcast_S_S100000),
    binary main_v732 main_v733 main_v734 (cmpi .slt),
    nullary main_c_142 (constantI S_ 32 100000#32),
    unary main_c_142 main_v735 (broadcastInDim S100000 ![] bcast_S_S100000),
    binary main_v732 main_v735 main_v736 (addi),
    ternary main_v734 main_v736 main_v732 main_v737 select,
    unary main_v737 main_v738 (broadcastInDim S100000x1 ![0] bcast_S100000_S100000x1_0),
    ternary main_v718 main_v738 main_v730 main_v739 (Host.scatterAdd scatter_S100000x64_S100000x1_S100000x64_1_0_0_1) ]
abbrev sg49_W : List (Ref sig .tc) := [main_v719, main_v720, main_c_139, main_v721, main_v722, main_c_140, main_v723, main_v724, main_v725, main_v726, main_v727, main_v728, main_v729, main_v730, main_v731, main_v732, main_c_141, main_v733, main_v734, main_c_142, main_v735, main_v736, main_v737, main_v738, main_v739]
theorem sg49_dsts : List.Forall₂ Dst (sg49 : List (HloOp τ sig (Elt F))) sg49_W := by repeat' constructor
theorem sg49_sub : (sg49 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg49_fresh : ∀ op ∈ (sg49 : List (HloOp τ sig (Elt F))), op.fresh = ∅ := fresh_of_dsts sg49_dsts
theorem sg49_keeps : Keeps (sg49 : List (HloOp τ sig (Elt F))) sg49_W := .of_dsts sg49_dsts

abbrev sg50 : List (HloOp τ sig (Elt F)) :=
  [ unary main_arg7 main_v740 (extractStridedSlice S1x100000 ![6, 0] · slices_S27x100000_S1x100000_6_0),
    reshape main_v740 main_v741 rfl shapeCasts_S1x100000_S100000,
    nullary main_c_143 (constantI S_ 32 0#32),
    unary main_c_143 main_v742 (broadcastInDim S100000 ![] bcast_S_S100000),
    binary main_v741 main_v742 main_v743 (cmpi .slt),
    nullary main_c_144 (constantI S_ 32 100000#32),
    unary main_c_144 main_v744 (broadcastInDim S100000 ![] bcast_S_S100000),
    binary main_v741 main_v744 main_v745 (addi),
    ternary main_v743 main_v745 main_v741 main_v746 select,
    unary main_v746 main_v747 (broadcastInDim S100000x1 ![0] bcast_S100000_S100000x1_0),
    binary main_v612 main_v747 main_v748 (Host.gather gather_S100000x64_S100000x1_S100000x64_1_0_n_n_0_1_164),
    unary main_arg4 main_v749 (extractStridedSlice S1x64x64 ![6, 0, 0] · slices_S27x64x64_S1x64x64_6_0_0),
    reshape main_v749 main_v750 rfl shapeCasts_S1x64x64_S64x64,
    binary main_v748 main_v750 main_v751 (Host.dotGeneral dot_S100000x64_S64x64_S100000x64_1_0_0_1_n_n none),
    unary main_arg8 main_v752 (extractStridedSlice S1x100000 ![6, 0] · slices_S27x100000_S1x100000_6_0) ]
abbrev sg50_W : List (Ref sig .tc) := [main_v740, main_v741, main_c_143, main_v742, main_v743, main_c_144, main_v744, main_v745, main_v746, main_v747, main_v748, main_v749, main_v750, main_v751, main_v752]
theorem sg50_dsts : List.Forall₂ Dst (sg50 : List (HloOp τ sig (Elt F))) sg50_W := by repeat' constructor
theorem sg50_sub : (sg50 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub ..⟩
theorem sg50_fresh : ∀ op ∈ (sg50 : List (HloOp τ sig (Elt F))), op.fresh = ∅ := fresh_of_dsts sg50_dsts
theorem sg50_keeps : Keeps (sg50 : List (HloOp τ sig (Elt F))) sg50_W := .of_dsts sg50_dsts

def ops_part14 : List (HloOp τ sig (Elt F)) := sg48 ++ (sg49 ++ sg50)
set_option maxRecDepth 8192 in
set_option maxHeartbeats 4000000 in
theorem main_part14_eq (c : Dev nD) : main_part14 (F := F) c = seq ops_part14 := rfl
theorem ops_part14_sub : (ops_part14 : List (HloOp τ sig (Elt F))).Forall fun op => op.bufs ⊆ tcRefs τ sig :=
  forall_append sg48_sub (forall_append sg49_sub sg50_sub)
theorem ops_part14_fresh : ∀ op ∈ (ops_part14 : List (HloOp τ sig (Elt F))), op.fresh = ∅ :=
  fresh_append sg48_fresh (fresh_append sg49_fresh sg50_fresh)

end Cert.ReferenceIdeal.Value

end
-- ==== Proof.RefW15.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg51 : List (HloOp τ sig (Elt F)) :=
  [ reshape main_v752 main_v753 rfl shapeCasts_S1x100000_S100000,
    nullary main_c_145 (constantI S_ 32 0#32),
    unary main_c_145 main_v754 (broadcastInDim S100000 ![] bcast_S_S100000),
    binary main_v753 main_v754 main_v755 (cmpi .slt),
    nullary main_c_146 (constantI S_ 32 100000#32),
    unary main_c_146 main_v756 (broadcastInDim S100000 ![] bcast_S_S100000),
    binary main_v753 main_v756 main_v757 (addi),
    ternary main_v755 main_v757 main_v753 main_v758 select,
    unary main_v758 main_v759 (broadcastInDim S100000x1 ![0] bcast_S100000_S100000x1_0),
    ternary main_v739 main_v759 main_v751 main_v760 (Host.scatterAdd scatter_S100000x64_S100000x1_S100000x64_1_0_0_1) ]
abbrev sg51_W : List (Ref sig .tc) := [main_v753, main_c_145, main_v754, main_v755, main_c_146, main_v756, main_v757, main_v758, main_v759, main_v760]
theorem sg51_dsts : List.Forall₂ Dst (sg51 : List (HloOp τ sig (Elt F))) sg51_W := by repeat' constructor
theorem sg51_sub : (sg51 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., ternary_bufs_sub ..⟩
theorem sg51_fresh : ∀ op ∈ (sg51 : List (HloOp τ sig (Elt F))), op.fresh = ∅ := fresh_of_dsts sg51_dsts
theorem sg51_keeps : Keeps (sg51 : List (HloOp τ sig (Elt F))) sg51_W := .of_dsts sg51_dsts

abbrev sg52 : List (HloOp τ sig (Elt F)) :=
  [ unary main_arg7 main_v761 (extractStridedSlice S1x100000 ![7, 0] · slices_S27x100000_S1x100000_7_0),
    reshape main_v761 main_v762 rfl shapeCasts_S1x100000_S100000,
    nullary main_c_147 (constantI S_ 32 0#32),
    unary main_c_147 main_v763 (broadcastInDim S100000 ![] bcast_S_S100000),
    binary main_v762 main_v763 main_v764 (cmpi .slt),
    nullary main_c_148 (constantI S_ 32 100000#32),
    unary main_c_148 main_v765 (broadcastInDim S100000 ![] bcast_S_S100000),
    binary main_v762 main_v765 main_v766 (addi),
    ternary main_v764 main_v766 main_v762 main_v767 select,
    unary main_v767 main_v768 (broadcastInDim S100000x1 ![0] bcast_S100000_S100000x1_0),
    binary main_v612 main_v768 main_v769 (Host.gather gather_S100000x64_S100000x1_S100000x64_1_0_n_n_0_1_164),
    unary main_arg4 main_v770 (extractStridedSlice S1x64x64 ![7, 0, 0] · slices_S27x64x64_S1x64x64_7_0_0),
    reshape main_v770 main_v771 rfl shapeCasts_S1x64x64_S64x64,
    binary main_v769 main_v771 main_v772 (Host.dotGeneral dot_S100000x64_S64x64_S100000x64_1_0_0_1_n_n none),
    unary main_arg8 main_v773 (extractStridedSlice S1x100000 ![7, 0] · slices_S27x100000_S1x100000_7_0),
    reshape main_v773 main_v774 rfl shapeCasts_S1x100000_S100000,
    nullary main_c_149 (constantI S_ 32 0#32),
    unary main_c_149 main_v775 (broadcastInDim S100000 ![] bcast_S_S100000),
    binary main_v774 main_v775 main_v776 (cmpi .slt),
    nullary main_c_150 (constantI S_ 32 100000#32),
    unary main_c_150 main_v777 (broadcastInDim S100000 ![] bcast_S_S100000),
    binary main_v774 main_v777 main_v778 (addi),
    ternary main_v776 main_v778 main_v774 main_v779 select,
    unary main_v779 main_v780 (broadcastInDim S100000x1 ![0] bcast_S100000_S100000x1_0),
    ternary main_v760 main_v780 main_v772 main_v781 (Host.scatterAdd scatter_S100000x64_S100000x1_S100000x64_1_0_0_1) ]
abbrev sg52_W : List (Ref sig .tc) := [main_v761, main_v762, main_c_147, main_v763, main_v764, main_c_148, main_v765, main_v766, main_v767, main_v768, main_v769, main_v770, main_v771, main_v772, main_v773, main_v774, main_c_149, main_v775, main_v776, main_c_150, main_v777, main_v778, main_v779, main_v780, main_v781]
theorem sg52_dsts : List.Forall₂ Dst (sg52 : List (HloOp τ sig (Elt F))) sg52_W := by repeat' constructor
theorem sg52_sub : (sg52 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg52_fresh : ∀ op ∈ (sg52 : List (HloOp τ sig (Elt F))), op.fresh = ∅ := fresh_of_dsts sg52_dsts
theorem sg52_keeps : Keeps (sg52 : List (HloOp τ sig (Elt F))) sg52_W := .of_dsts sg52_dsts

abbrev sg53 : List (HloOp τ sig (Elt F)) :=
  [ unary main_arg7 main_v782 (extractStridedSlice S1x100000 ![8, 0] · slices_S27x100000_S1x100000_8_0),
    reshape main_v782 main_v783 rfl shapeCasts_S1x100000_S100000,
    nullary main_c_151 (constantI S_ 32 0#32),
    unary main_c_151 main_v784 (broadcastInDim S100000 ![] bcast_S_S100000),
    binary main_v783 main_v784 main_v785 (cmpi .slt),
    nullary main_c_152 (constantI S_ 32 100000#32),
    unary main_c_152 main_v786 (broadcastInDim S100000 ![] bcast_S_S100000),
    binary main_v783 main_v786 main_v787 (addi),
    ternary main_v785 main_v787 main_v783 main_v788 select,
    unary main_v788 main_v789 (broadcastInDim S100000x1 ![0] bcast_S100000_S100000x1_0),
    binary main_v612 main_v789 main_v790 (Host.gather gather_S100000x64_S100000x1_S100000x64_1_0_n_n_0_1_164),
    unary main_arg4 main_v791 (extractStridedSlice S1x64x64 ![8, 0, 0] · slices_S27x64x64_S1x64x64_8_0_0),
    reshape main_v791 main_v792 rfl shapeCasts_S1x64x64_S64x64,
    binary main_v790 main_v792 main_v793 (Host.dotGeneral dot_S100000x64_S64x64_S100000x64_1_0_0_1_n_n none),
    unary main_arg8 main_v794 (extractStridedSlice S1x100000 ![8, 0] · slices_S27x100000_S1x100000_8_0),
    reshape main_v794 main_v795 rfl shapeCasts_S1x100000_S100000,
    nullary main_c_153 (constantI S_ 32 0#32),
    unary main_c_153 main_v796 (broadcastInDim S100000 ![] bcast_S_S100000),
    binary main_v795 main_v796 main_v797 (cmpi .slt),
    nullary main_c_154 (constantI S_ 32 100000#32),
    unary main_c_154 main_v798 (broadcastInDim S100000 ![] bcast_S_S100000),
    binary main_v795 main_v798 main_v799 (addi),
    ternary main_v797 main_v799 main_v795 main_v800 select,
    unary main_v800 main_v801 (broadcastInDim S100000x1 ![0] bcast_S100000_S100000x1_0),
    ternary main_v781 main_v801 main_v793 main_v802 (Host.scatterAdd scatter_S100000x64_S100000x1_S100000x64_1_0_0_1) ]
abbrev sg53_W : List (Ref sig .tc) := [main_v782, main_v783, main_c_151, main_v784, main_v785, main_c_152, main_v786, main_v787, main_v788, main_v789, main_v790, main_v791, main_v792, main_v793, main_v794, main_v795, main_c_153, main_v796, main_v797, main_c_154, main_v798, main_v799, main_v800, main_v801, main_v802]
theorem sg53_dsts : List.Forall₂ Dst (sg53 : List (HloOp τ sig (Elt F))) sg53_W := by repeat' constructor
theorem sg53_sub : (sg53 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg53_fresh : ∀ op ∈ (sg53 : List (HloOp τ sig (Elt F))), op.fresh = ∅ := fresh_of_dsts sg53_dsts
theorem sg53_keeps : Keeps (sg53 : List (HloOp τ sig (Elt F))) sg53_W := .of_dsts sg53_dsts

def ops_part15 : List (HloOp τ sig (Elt F)) := sg51 ++ (sg52 ++ sg53)
set_option maxRecDepth 8192 in
set_option maxHeartbeats 4000000 in
theorem main_part15_eq (c : Dev nD) : main_part15 (F := F) c = seq ops_part15 := rfl
theorem ops_part15_sub : (ops_part15 : List (HloOp τ sig (Elt F))).Forall fun op => op.bufs ⊆ tcRefs τ sig :=
  forall_append sg51_sub (forall_append sg52_sub sg53_sub)
theorem ops_part15_fresh : ∀ op ∈ (ops_part15 : List (HloOp τ sig (Elt F))), op.fresh = ∅ :=
  fresh_append sg51_fresh (fresh_append sg52_fresh sg53_fresh)

end Cert.ReferenceIdeal.Value

end
-- ==== Proof.RefW16.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg54 : List (HloOp τ sig (Elt F)) :=
  [ unary main_arg7 main_v803 (extractStridedSlice S1x100000 ![9, 0] · slices_S27x100000_S1x100000_9_0),
    reshape main_v803 main_v804 rfl shapeCasts_S1x100000_S100000,
    nullary main_c_155 (constantI S_ 32 0#32),
    unary main_c_155 main_v805 (broadcastInDim S100000 ![] bcast_S_S100000),
    binary main_v804 main_v805 main_v806 (cmpi .slt),
    nullary main_c_156 (constantI S_ 32 100000#32),
    unary main_c_156 main_v807 (broadcastInDim S100000 ![] bcast_S_S100000),
    binary main_v804 main_v807 main_v808 (addi),
    ternary main_v806 main_v808 main_v804 main_v809 select,
    unary main_v809 main_v810 (broadcastInDim S100000x1 ![0] bcast_S100000_S100000x1_0),
    binary main_v612 main_v810 main_v811 (Host.gather gather_S100000x64_S100000x1_S100000x64_1_0_n_n_0_1_164),
    unary main_arg4 main_v812 (extractStridedSlice S1x64x64 ![9, 0, 0] · slices_S27x64x64_S1x64x64_9_0_0),
    reshape main_v812 main_v813 rfl shapeCasts_S1x64x64_S64x64,
    binary main_v811 main_v813 main_v814 (Host.dotGeneral dot_S100000x64_S64x64_S100000x64_1_0_0_1_n_n none),
    unary main_arg8 main_v815 (extractStridedSlice S1x100000 ![9, 0] · slices_S27x100000_S1x100000_9_0),
    reshape main_v815 main_v816 rfl shapeCasts_S1x100000_S100000,
    nullary main_c_157 (constantI S_ 32 0#32),
    unary main_c_157 main_v817 (broadcastInDim S100000 ![] bcast_S_S100000),
    binary main_v816 main_v817 main_v818 (cmpi .slt),
    nullary main_c_158 (constantI S_ 32 100000#32),
    unary main_c_158 main_v819 (broadcastInDim S100000 ![] bcast_S_S100000),
    binary main_v816 main_v819 main_v820 (addi),
    ternary main_v818 main_v820 main_v816 main_v821 select,
    unary main_v821 main_v822 (broadcastInDim S100000x1 ![0] bcast_S100000_S100000x1_0),
    ternary main_v802 main_v822 main_v814 main_v823 (Host.scatterAdd scatter_S100000x64_S100000x1_S100000x64_1_0_0_1) ]
abbrev sg54_W : List (Ref sig .tc) := [main_v803, main_v804, main_c_155, main_v805, main_v806, main_c_156, main_v807, main_v808, main_v809, main_v810, main_v811, main_v812, main_v813, main_v814, main_v815, main_v816, main_c_157, main_v817, main_v818, main_c_158, main_v819, main_v820, main_v821, main_v822, main_v823]
theorem sg54_dsts : List.Forall₂ Dst (sg54 : List (HloOp τ sig (Elt F))) sg54_W := by repeat' constructor
theorem sg54_sub : (sg54 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg54_fresh : ∀ op ∈ (sg54 : List (HloOp τ sig (Elt F))), op.fresh = ∅ := fresh_of_dsts sg54_dsts
theorem sg54_keeps : Keeps (sg54 : List (HloOp τ sig (Elt F))) sg54_W := .of_dsts sg54_dsts

abbrev sg55 : List (HloOp τ sig (Elt F)) :=
  [ unary main_arg7 main_v824 (extractStridedSlice S1x100000 ![10, 0] · slices_S27x100000_S1x100000_10_0),
    reshape main_v824 main_v825 rfl shapeCasts_S1x100000_S100000,
    nullary main_c_159 (constantI S_ 32 0#32),
    unary main_c_159 main_v826 (broadcastInDim S100000 ![] bcast_S_S100000),
    binary main_v825 main_v826 main_v827 (cmpi .slt),
    nullary main_c_160 (constantI S_ 32 100000#32),
    unary main_c_160 main_v828 (broadcastInDim S100000 ![] bcast_S_S100000),
    binary main_v825 main_v828 main_v829 (addi),
    ternary main_v827 main_v829 main_v825 main_v830 select,
    unary main_v830 main_v831 (broadcastInDim S100000x1 ![0] bcast_S100000_S100000x1_0),
    binary main_v612 main_v831 main_v832 (Host.gather gather_S100000x64_S100000x1_S100000x64_1_0_n_n_0_1_164),
    unary main_arg4 main_v833 (extractStridedSlice S1x64x64 ![10, 0, 0] · slices_S27x64x64_S1x64x64_10_0_0),
    reshape main_v833 main_v834 rfl shapeCasts_S1x64x64_S64x64,
    binary main_v832 main_v834 main_v835 (Host.dotGeneral dot_S100000x64_S64x64_S100000x64_1_0_0_1_n_n none),
    unary main_arg8 main_v836 (extractStridedSlice S1x100000 ![10, 0] · slices_S27x100000_S1x100000_10_0),
    reshape main_v836 main_v837 rfl shapeCasts_S1x100000_S100000,
    nullary main_c_161 (constantI S_ 32 0#32),
    unary main_c_161 main_v838 (broadcastInDim S100000 ![] bcast_S_S100000),
    binary main_v837 main_v838 main_v839 (cmpi .slt),
    nullary main_c_162 (constantI S_ 32 100000#32),
    unary main_c_162 main_v840 (broadcastInDim S100000 ![] bcast_S_S100000),
    binary main_v837 main_v840 main_v841 (addi),
    ternary main_v839 main_v841 main_v837 main_v842 select,
    unary main_v842 main_v843 (broadcastInDim S100000x1 ![0] bcast_S100000_S100000x1_0),
    ternary main_v823 main_v843 main_v835 main_v844 (Host.scatterAdd scatter_S100000x64_S100000x1_S100000x64_1_0_0_1) ]
abbrev sg55_W : List (Ref sig .tc) := [main_v824, main_v825, main_c_159, main_v826, main_v827, main_c_160, main_v828, main_v829, main_v830, main_v831, main_v832, main_v833, main_v834, main_v835, main_v836, main_v837, main_c_161, main_v838, main_v839, main_c_162, main_v840, main_v841, main_v842, main_v843, main_v844]
theorem sg55_dsts : List.Forall₂ Dst (sg55 : List (HloOp τ sig (Elt F))) sg55_W := by repeat' constructor
theorem sg55_sub : (sg55 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg55_fresh : ∀ op ∈ (sg55 : List (HloOp τ sig (Elt F))), op.fresh = ∅ := fresh_of_dsts sg55_dsts
theorem sg55_keeps : Keeps (sg55 : List (HloOp τ sig (Elt F))) sg55_W := .of_dsts sg55_dsts

abbrev sg56 : List (HloOp τ sig (Elt F)) :=
  [ unary main_arg7 main_v845 (extractStridedSlice S1x100000 ![11, 0] · slices_S27x100000_S1x100000_11_0),
    reshape main_v845 main_v846 rfl shapeCasts_S1x100000_S100000,
    nullary main_c_163 (constantI S_ 32 0#32),
    unary main_c_163 main_v847 (broadcastInDim S100000 ![] bcast_S_S100000),
    binary main_v846 main_v847 main_v848 (cmpi .slt),
    nullary main_c_164 (constantI S_ 32 100000#32),
    unary main_c_164 main_v849 (broadcastInDim S100000 ![] bcast_S_S100000),
    binary main_v846 main_v849 main_v850 (addi),
    ternary main_v848 main_v850 main_v846 main_v851 select,
    unary main_v851 main_v852 (broadcastInDim S100000x1 ![0] bcast_S100000_S100000x1_0) ]
abbrev sg56_W : List (Ref sig .tc) := [main_v845, main_v846, main_c_163, main_v847, main_v848, main_c_164, main_v849, main_v850, main_v851, main_v852]
theorem sg56_dsts : List.Forall₂ Dst (sg56 : List (HloOp τ sig (Elt F))) sg56_W := by repeat' constructor
theorem sg56_sub : (sg56 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub ..⟩
theorem sg56_fresh : ∀ op ∈ (sg56 : List (HloOp τ sig (Elt F))), op.fresh = ∅ := fresh_of_dsts sg56_dsts
theorem sg56_keeps : Keeps (sg56 : List (HloOp τ sig (Elt F))) sg56_W := .of_dsts sg56_dsts

def ops_part16 : List (HloOp τ sig (Elt F)) := sg54 ++ (sg55 ++ sg56)
set_option maxRecDepth 8192 in
set_option maxHeartbeats 4000000 in
theorem main_part16_eq (c : Dev nD) : main_part16 (F := F) c = seq ops_part16 := rfl
theorem ops_part16_sub : (ops_part16 : List (HloOp τ sig (Elt F))).Forall fun op => op.bufs ⊆ tcRefs τ sig :=
  forall_append sg54_sub (forall_append sg55_sub sg56_sub)
theorem ops_part16_fresh : ∀ op ∈ (ops_part16 : List (HloOp τ sig (Elt F))), op.fresh = ∅ :=
  fresh_append sg54_fresh (fresh_append sg55_fresh sg56_fresh)

end Cert.ReferenceIdeal.Value

end
-- ==== Proof.RefW17.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg57 : List (HloOp τ sig (Elt F)) :=
  [ binary main_v612 main_v852 main_v853 (Host.gather gather_S100000x64_S100000x1_S100000x64_1_0_n_n_0_1_164),
    unary main_arg4 main_v854 (extractStridedSlice S1x64x64 ![11, 0, 0] · slices_S27x64x64_S1x64x64_11_0_0),
    reshape main_v854 main_v855 rfl shapeCasts_S1x64x64_S64x64,
    binary main_v853 main_v855 main_v856 (Host.dotGeneral dot_S100000x64_S64x64_S100000x64_1_0_0_1_n_n none),
    unary main_arg8 main_v857 (extractStridedSlice S1x100000 ![11, 0] · slices_S27x100000_S1x100000_11_0),
    reshape main_v857 main_v858 rfl shapeCasts_S1x100000_S100000,
    nullary main_c_165 (constantI S_ 32 0#32),
    unary main_c_165 main_v859 (broadcastInDim S100000 ![] bcast_S_S100000),
    binary main_v858 main_v859 main_v860 (cmpi .slt),
    nullary main_c_166 (constantI S_ 32 100000#32),
    unary main_c_166 main_v861 (broadcastInDim S100000 ![] bcast_S_S100000),
    binary main_v858 main_v861 main_v862 (addi),
    ternary main_v860 main_v862 main_v858 main_v863 select,
    unary main_v863 main_v864 (broadcastInDim S100000x1 ![0] bcast_S100000_S100000x1_0),
    ternary main_v844 main_v864 main_v856 main_v865 (Host.scatterAdd scatter_S100000x64_S100000x1_S100000x64_1_0_0_1) ]
abbrev sg57_W : List (Ref sig .tc) := [main_v853, main_v854, main_v855, main_v856, main_v857, main_v858, main_c_165, main_v859, main_v860, main_c_166, main_v861, main_v862, main_v863, main_v864, main_v865]
theorem sg57_dsts : List.Forall₂ Dst (sg57 : List (HloOp τ sig (Elt F))) sg57_W := by repeat' constructor
theorem sg57_sub : (sg57 : List (HloOp τ sig (Elt F))).Forall fun op => op.bufs ⊆ tcRefs τ sig :=
  ⟨binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg57_fresh : ∀ op ∈ (sg57 : List (HloOp τ sig (Elt F))), op.fresh = ∅ := fresh_of_dsts sg57_dsts
theorem sg57_keeps : Keeps (sg57 : List (HloOp τ sig (Elt F))) sg57_W := .of_dsts sg57_dsts

abbrev sg58 : List (HloOp τ sig (Elt F)) :=
  [ unary main_arg7 main_v866 (extractStridedSlice S1x100000 ![12, 0] · slices_S27x100000_S1x100000_12_0),
    reshape main_v866 main_v867 rfl shapeCasts_S1x100000_S100000,
    nullary main_c_167 (constantI S_ 32 0#32),
    unary main_c_167 main_v868 (broadcastInDim S100000 ![] bcast_S_S100000),
    binary main_v867 main_v868 main_v869 (cmpi .slt),
    nullary main_c_168 (constantI S_ 32 100000#32),
    unary main_c_168 main_v870 (broadcastInDim S100000 ![] bcast_S_S100000),
    binary main_v867 main_v870 main_v871 (addi),
    ternary main_v869 main_v871 main_v867 main_v872 select,
    unary main_v872 main_v873 (broadcastInDim S100000x1 ![0] bcast_S100000_S100000x1_0),
    binary main_v612 main_v873 main_v874 (Host.gather gather_S100000x64_S100000x1_S100000x64_1_0_n_n_0_1_164),
    unary main_arg4 main_v875 (extractStridedSlice S1x64x64 ![12, 0, 0] · slices_S27x64x64_S1x64x64_12_0_0),
    reshape main_v875 main_v876 rfl shapeCasts_S1x64x64_S64x64,
    binary main_v874 main_v876 main_v877 (Host.dotGeneral dot_S100000x64_S64x64_S100000x64_1_0_0_1_n_n none),
    unary main_arg8 main_v878 (extractStridedSlice S1x100000 ![12, 0] · slices_S27x100000_S1x100000_12_0),
    reshape main_v878 main_v879 rfl shapeCasts_S1x100000_S100000,
    nullary main_c_169 (constantI S_ 32 0#32),
    unary main_c_169 main_v880 (broadcastInDim S100000 ![] bcast_S_S100000),
    binary main_v879 main_v880 main_v881 (cmpi .slt),
    nullary main_c_170 (constantI S_ 32 100000#32),
    unary main_c_170 main_v882 (broadcastInDim S100000 ![] bcast_S_S100000),
    binary main_v879 main_v882 main_v883 (addi),
    ternary main_v881 main_v883 main_v879 main_v884 select,
    unary main_v884 main_v885 (broadcastInDim S100000x1 ![0] bcast_S100000_S100000x1_0),
    ternary main_v865 main_v885 main_v877 main_v886 (Host.scatterAdd scatter_S100000x64_S100000x1_S100000x64_1_0_0_1) ]
abbrev sg58_W : List (Ref sig .tc) := [main_v866, main_v867, main_c_167, main_v868, main_v869, main_c_168, main_v870, main_v871, main_v872, main_v873, main_v874, main_v875, main_v876, main_v877, main_v878, main_v879, main_c_169, main_v880, main_v881, main_c_170, main_v882, main_v883, main_v884, main_v885, main_v886]
theorem sg58_dsts : List.Forall₂ Dst (sg58 : List (HloOp τ sig (Elt F))) sg58_W := by repeat' constructor
theorem sg58_sub : (sg58 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg58_fresh : ∀ op ∈ (sg58 : List (HloOp τ sig (Elt F))), op.fresh = ∅ := fresh_of_dsts sg58_dsts
theorem sg58_keeps : Keeps (sg58 : List (HloOp τ sig (Elt F))) sg58_W := .of_dsts sg58_dsts

abbrev sg59 : List (HloOp τ sig (Elt F)) :=
  [ unary main_arg7 main_v887 (extractStridedSlice S1x100000 ![13, 0] · slices_S27x100000_S1x100000_13_0),
    reshape main_v887 main_v888 rfl shapeCasts_S1x100000_S100000,
    nullary main_c_171 (constantI S_ 32 0#32),
    unary main_c_171 main_v889 (broadcastInDim S100000 ![] bcast_S_S100000),
    binary main_v888 main_v889 main_v890 (cmpi .slt),
    nullary main_c_172 (constantI S_ 32 100000#32),
    unary main_c_172 main_v891 (broadcastInDim S100000 ![] bcast_S_S100000),
    binary main_v888 main_v891 main_v892 (addi),
    ternary main_v890 main_v892 main_v888 main_v893 select,
    unary main_v893 main_v894 (broadcastInDim S100000x1 ![0] bcast_S100000_S100000x1_0),
    binary main_v612 main_v894 main_v895 (Host.gather gather_S100000x64_S100000x1_S100000x64_1_0_n_n_0_1_164),
    unary main_arg4 main_v896 (extractStridedSlice S1x64x64 ![13, 0, 0] · slices_S27x64x64_S1x64x64_13_0_0),
    reshape main_v896 main_v897 rfl shapeCasts_S1x64x64_S64x64,
    binary main_v895 main_v897 main_v898 (Host.dotGeneral dot_S100000x64_S64x64_S100000x64_1_0_0_1_n_n none),
    unary main_arg8 main_v899 (extractStridedSlice S1x100000 ![13, 0] · slices_S27x100000_S1x100000_13_0),
    reshape main_v899 main_v900 rfl shapeCasts_S1x100000_S100000,
    nullary main_c_173 (constantI S_ 32 0#32),
    unary main_c_173 main_v901 (broadcastInDim S100000 ![] bcast_S_S100000),
    binary main_v900 main_v901 main_v902 (cmpi .slt),
    nullary main_c_174 (constantI S_ 32 100000#32) ]
abbrev sg59_W : List (Ref sig .tc) := [main_v887, main_v888, main_c_171, main_v889, main_v890, main_c_172, main_v891, main_v892, main_v893, main_v894, main_v895, main_v896, main_v897, main_v898, main_v899, main_v900, main_c_173, main_v901, main_v902, main_c_174]
theorem sg59_dsts : List.Forall₂ Dst (sg59 : List (HloOp τ sig (Elt F))) sg59_W := by repeat' constructor
theorem sg59_sub : (sg59 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub ..⟩
theorem sg59_fresh : ∀ op ∈ (sg59 : List (HloOp τ sig (Elt F))), op.fresh = ∅ := fresh_of_dsts sg59_dsts
theorem sg59_keeps : Keeps (sg59 : List (HloOp τ sig (Elt F))) sg59_W := .of_dsts sg59_dsts

def ops_part17 : List (HloOp τ sig (Elt F)) := sg57 ++ (sg58 ++ sg59)
set_option maxRecDepth 8192 in
set_option maxHeartbeats 4000000 in
theorem main_part17_eq (c : Dev nD) : main_part17 (F := F) c = seq ops_part17 := rfl
theorem ops_part17_sub : (ops_part17 : List (HloOp τ sig (Elt F))).Forall fun op => op.bufs ⊆ tcRefs τ sig :=
  forall_append sg57_sub (forall_append sg58_sub sg59_sub)
theorem ops_part17_fresh : ∀ op ∈ (ops_part17 : List (HloOp τ sig (Elt F))), op.fresh = ∅ :=
  fresh_append sg57_fresh (fresh_append sg58_fresh sg59_fresh)

end Cert.ReferenceIdeal.Value

end
-- ==== Proof.RefW18.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg60 : List (HloOp τ sig (Elt F)) :=
  [ unary main_c_174 main_v903 (broadcastInDim S100000 ![] bcast_S_S100000),
    binary main_v900 main_v903 main_v904 (addi),
    ternary main_v902 main_v904 main_v900 main_v905 select,
    unary main_v905 main_v906 (broadcastInDim S100000x1 ![0] bcast_S100000_S100000x1_0),
    ternary main_v886 main_v906 main_v898 main_v907 (Host.scatterAdd scatter_S100000x64_S100000x1_S100000x64_1_0_0_1) ]
abbrev sg60_W : List (Ref sig .tc) := [main_v903, main_v904, main_v905, main_v906, main_v907]
theorem sg60_dsts : List.Forall₂ Dst (sg60 : List (HloOp τ sig (Elt F))) sg60_W := by repeat' constructor
theorem sg60_sub : (sg60 : List (HloOp τ sig (Elt F))).Forall fun op => op.bufs ⊆ tcRefs τ sig :=
  ⟨unary_bufs_sub .., binary_bufs_sub .., ternary_bufs_sub .., unary_bufs_sub .., ternary_bufs_sub ..⟩
theorem sg60_fresh : ∀ op ∈ (sg60 : List (HloOp τ sig (Elt F))), op.fresh = ∅ := fresh_of_dsts sg60_dsts
theorem sg60_keeps : Keeps (sg60 : List (HloOp τ sig (Elt F))) sg60_W := .of_dsts sg60_dsts

abbrev sg61 : List (HloOp τ sig (Elt F)) :=
  [ unary main_arg7 main_v908 (extractStridedSlice S1x100000 ![14, 0] · slices_S27x100000_S1x100000_14_0),
    reshape main_v908 main_v909 rfl shapeCasts_S1x100000_S100000,
    nullary main_c_175 (constantI S_ 32 0#32),
    unary main_c_175 main_v910 (broadcastInDim S100000 ![] bcast_S_S100000),
    binary main_v909 main_v910 main_v911 (cmpi .slt),
    nullary main_c_176 (constantI S_ 32 100000#32),
    unary main_c_176 main_v912 (broadcastInDim S100000 ![] bcast_S_S100000),
    binary main_v909 main_v912 main_v913 (addi),
    ternary main_v911 main_v913 main_v909 main_v914 select,
    unary main_v914 main_v915 (broadcastInDim S100000x1 ![0] bcast_S100000_S100000x1_0),
    binary main_v612 main_v915 main_v916 (Host.gather gather_S100000x64_S100000x1_S100000x64_1_0_n_n_0_1_164),
    unary main_arg4 main_v917 (extractStridedSlice S1x64x64 ![14, 0, 0] · slices_S27x64x64_S1x64x64_14_0_0),
    reshape main_v917 main_v918 rfl shapeCasts_S1x64x64_S64x64,
    binary main_v916 main_v918 main_v919 (Host.dotGeneral dot_S100000x64_S64x64_S100000x64_1_0_0_1_n_n none),
    unary main_arg8 main_v920 (extractStridedSlice S1x100000 ![14, 0] · slices_S27x100000_S1x100000_14_0),
    reshape main_v920 main_v921 rfl shapeCasts_S1x100000_S100000,
    nullary main_c_177 (constantI S_ 32 0#32),
    unary main_c_177 main_v922 (broadcastInDim S100000 ![] bcast_S_S100000),
    binary main_v921 main_v922 main_v923 (cmpi .slt),
    nullary main_c_178 (constantI S_ 32 100000#32),
    unary main_c_178 main_v924 (broadcastInDim S100000 ![] bcast_S_S100000),
    binary main_v921 main_v924 main_v925 (addi),
    ternary main_v923 main_v925 main_v921 main_v926 select,
    unary main_v926 main_v927 (broadcastInDim S100000x1 ![0] bcast_S100000_S100000x1_0),
    ternary main_v907 main_v927 main_v919 main_v928 (Host.scatterAdd scatter_S100000x64_S100000x1_S100000x64_1_0_0_1) ]
abbrev sg61_W : List (Ref sig .tc) := [main_v908, main_v909, main_c_175, main_v910, main_v911, main_c_176, main_v912, main_v913, main_v914, main_v915, main_v916, main_v917, main_v918, main_v919, main_v920, main_v921, main_c_177, main_v922, main_v923, main_c_178, main_v924, main_v925, main_v926, main_v927, main_v928]
theorem sg61_dsts : List.Forall₂ Dst (sg61 : List (HloOp τ sig (Elt F))) sg61_W := by repeat' constructor
theorem sg61_sub : (sg61 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg61_fresh : ∀ op ∈ (sg61 : List (HloOp τ sig (Elt F))), op.fresh = ∅ := fresh_of_dsts sg61_dsts
theorem sg61_keeps : Keeps (sg61 : List (HloOp τ sig (Elt F))) sg61_W := .of_dsts sg61_dsts

abbrev sg62 : List (HloOp τ sig (Elt F)) :=
  [ unary main_arg7 main_v929 (extractStridedSlice S1x100000 ![15, 0] · slices_S27x100000_S1x100000_15_0),
    reshape main_v929 main_v930 rfl shapeCasts_S1x100000_S100000,
    nullary main_c_179 (constantI S_ 32 0#32),
    unary main_c_179 main_v931 (broadcastInDim S100000 ![] bcast_S_S100000),
    binary main_v930 main_v931 main_v932 (cmpi .slt),
    nullary main_c_180 (constantI S_ 32 100000#32),
    unary main_c_180 main_v933 (broadcastInDim S100000 ![] bcast_S_S100000),
    binary main_v930 main_v933 main_v934 (addi),
    ternary main_v932 main_v934 main_v930 main_v935 select,
    unary main_v935 main_v936 (broadcastInDim S100000x1 ![0] bcast_S100000_S100000x1_0),
    binary main_v612 main_v936 main_v937 (Host.gather gather_S100000x64_S100000x1_S100000x64_1_0_n_n_0_1_164),
    unary main_arg4 main_v938 (extractStridedSlice S1x64x64 ![15, 0, 0] · slices_S27x64x64_S1x64x64_15_0_0),
    reshape main_v938 main_v939 rfl shapeCasts_S1x64x64_S64x64,
    binary main_v937 main_v939 main_v940 (Host.dotGeneral dot_S100000x64_S64x64_S100000x64_1_0_0_1_n_n none),
    unary main_arg8 main_v941 (extractStridedSlice S1x100000 ![15, 0] · slices_S27x100000_S1x100000_15_0),
    reshape main_v941 main_v942 rfl shapeCasts_S1x100000_S100000,
    nullary main_c_181 (constantI S_ 32 0#32),
    unary main_c_181 main_v943 (broadcastInDim S100000 ![] bcast_S_S100000),
    binary main_v942 main_v943 main_v944 (cmpi .slt),
    nullary main_c_182 (constantI S_ 32 100000#32),
    unary main_c_182 main_v945 (broadcastInDim S100000 ![] bcast_S_S100000),
    binary main_v942 main_v945 main_v946 (addi),
    ternary main_v944 main_v946 main_v942 main_v947 select,
    unary main_v947 main_v948 (broadcastInDim S100000x1 ![0] bcast_S100000_S100000x1_0),
    ternary main_v928 main_v948 main_v940 main_v949 (Host.scatterAdd scatter_S100000x64_S100000x1_S100000x64_1_0_0_1) ]
abbrev sg62_W : List (Ref sig .tc) := [main_v929, main_v930, main_c_179, main_v931, main_v932, main_c_180, main_v933, main_v934, main_v935, main_v936, main_v937, main_v938, main_v939, main_v940, main_v941, main_v942, main_c_181, main_v943, main_v944, main_c_182, main_v945, main_v946, main_v947, main_v948, main_v949]
theorem sg62_dsts : List.Forall₂ Dst (sg62 : List (HloOp τ sig (Elt F))) sg62_W := by repeat' constructor
theorem sg62_sub : (sg62 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg62_fresh : ∀ op ∈ (sg62 : List (HloOp τ sig (Elt F))), op.fresh = ∅ := fresh_of_dsts sg62_dsts
theorem sg62_keeps : Keeps (sg62 : List (HloOp τ sig (Elt F))) sg62_W := .of_dsts sg62_dsts

abbrev sg63 : List (HloOp τ sig (Elt F)) :=
  [ unary main_arg7 main_v950 (extractStridedSlice S1x100000 ![16, 0] · slices_S27x100000_S1x100000_16_0),
    reshape main_v950 main_v951 rfl shapeCasts_S1x100000_S100000,
    nullary main_c_183 (constantI S_ 32 0#32),
    unary main_c_183 main_v952 (broadcastInDim S100000 ![] bcast_S_S100000),
    binary main_v951 main_v952 main_v953 (cmpi .slt) ]
abbrev sg63_W : List (Ref sig .tc) := [main_v950, main_v951, main_c_183, main_v952, main_v953]
theorem sg63_dsts : List.Forall₂ Dst (sg63 : List (HloOp τ sig (Elt F))) sg63_W := by repeat' constructor
theorem sg63_sub : (sg63 : List (HloOp τ sig (Elt F))).Forall fun op => op.bufs ⊆ tcRefs τ sig :=
  ⟨unary_bufs_sub .., reshape_bufs_sub .., nullary_bufs_sub .., unary_bufs_sub .., binary_bufs_sub ..⟩
theorem sg63_fresh : ∀ op ∈ (sg63 : List (HloOp τ sig (Elt F))), op.fresh = ∅ := fresh_of_dsts sg63_dsts
theorem sg63_keeps : Keeps (sg63 : List (HloOp τ sig (Elt F))) sg63_W := .of_dsts sg63_dsts

def ops_part18 : List (HloOp τ sig (Elt F)) := sg60 ++ (sg61 ++ (sg62 ++ sg63))
set_option maxRecDepth 8192 in
set_option maxHeartbeats 4000000 in
theorem main_part18_eq (c : Dev nD) : main_part18 (F := F) c = seq ops_part18 := rfl
theorem ops_part18_sub : (ops_part18 : List (HloOp τ sig (Elt F))).Forall fun op => op.bufs ⊆ tcRefs τ sig :=
  forall_append sg60_sub (forall_append sg61_sub (forall_append sg62_sub sg63_sub))
theorem ops_part18_fresh : ∀ op ∈ (ops_part18 : List (HloOp τ sig (Elt F))), op.fresh = ∅ :=
  fresh_append sg60_fresh (fresh_append sg61_fresh (fresh_append sg62_fresh sg63_fresh))

end Cert.ReferenceIdeal.Value

end
-- ==== Proof.RefW19.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg64 : List (HloOp τ sig (Elt F)) :=
  [ nullary main_c_184 (constantI S_ 32 100000#32),
    unary main_c_184 main_v954 (broadcastInDim S100000 ![] bcast_S_S100000),
    binary main_v951 main_v954 main_v955 (addi),
    ternary main_v953 main_v955 main_v951 main_v956 select,
    unary main_v956 main_v957 (broadcastInDim S100000x1 ![0] bcast_S100000_S100000x1_0),
    binary main_v612 main_v957 main_v958 (Host.gather gather_S100000x64_S100000x1_S100000x64_1_0_n_n_0_1_164),
    unary main_arg4 main_v959 (extractStridedSlice S1x64x64 ![16, 0, 0] · slices_S27x64x64_S1x64x64_16_0_0),
    reshape main_v959 main_v960 rfl shapeCasts_S1x64x64_S64x64,
    binary main_v958 main_v960 main_v961 (Host.dotGeneral dot_S100000x64_S64x64_S100000x64_1_0_0_1_n_n none),
    unary main_arg8 main_v962 (extractStridedSlice S1x100000 ![16, 0] · slices_S27x100000_S1x100000_16_0),
    reshape main_v962 main_v963 rfl shapeCasts_S1x100000_S100000,
    nullary main_c_185 (constantI S_ 32 0#32),
    unary main_c_185 main_v964 (broadcastInDim S100000 ![] bcast_S_S100000),
    binary main_v963 main_v964 main_v965 (cmpi .slt),
    nullary main_c_186 (constantI S_ 32 100000#32),
    unary main_c_186 main_v966 (broadcastInDim S100000 ![] bcast_S_S100000),
    binary main_v963 main_v966 main_v967 (addi),
    ternary main_v965 main_v967 main_v963 main_v968 select,
    unary main_v968 main_v969 (broadcastInDim S100000x1 ![0] bcast_S100000_S100000x1_0),
    ternary main_v949 main_v969 main_v961 main_v970 (Host.scatterAdd scatter_S100000x64_S100000x1_S100000x64_1_0_0_1) ]
abbrev sg64_W : List (Ref sig .tc) := [main_c_184, main_v954, main_v955, main_v956, main_v957, main_v958, main_v959, main_v960, main_v961, main_v962, main_v963, main_c_185, main_v964, main_v965, main_c_186, main_v966, main_v967, main_v968, main_v969, main_v970]
theorem sg64_dsts : List.Forall₂ Dst (sg64 : List (HloOp τ sig (Elt F))) sg64_W := by repeat' constructor
theorem sg64_sub : (sg64 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg64_fresh : ∀ op ∈ (sg64 : List (HloOp τ sig (Elt F))), op.fresh = ∅ := fresh_of_dsts sg64_dsts
theorem sg64_keeps : Keeps (sg64 : List (HloOp τ sig (Elt F))) sg64_W := .of_dsts sg64_dsts

abbrev sg65 : List (HloOp τ sig (Elt F)) :=
  [ unary main_arg7 main_v971 (extractStridedSlice S1x100000 ![17, 0] · slices_S27x100000_S1x100000_17_0),
    reshape main_v971 main_v972 rfl shapeCasts_S1x100000_S100000,
    nullary main_c_187 (constantI S_ 32 0#32),
    unary main_c_187 main_v973 (broadcastInDim S100000 ![] bcast_S_S100000),
    binary main_v972 main_v973 main_v974 (cmpi .slt),
    nullary main_c_188 (constantI S_ 32 100000#32),
    unary main_c_188 main_v975 (broadcastInDim S100000 ![] bcast_S_S100000),
    binary main_v972 main_v975 main_v976 (addi),
    ternary main_v974 main_v976 main_v972 main_v977 select,
    unary main_v977 main_v978 (broadcastInDim S100000x1 ![0] bcast_S100000_S100000x1_0),
    binary main_v612 main_v978 main_v979 (Host.gather gather_S100000x64_S100000x1_S100000x64_1_0_n_n_0_1_164),
    unary main_arg4 main_v980 (extractStridedSlice S1x64x64 ![17, 0, 0] · slices_S27x64x64_S1x64x64_17_0_0),
    reshape main_v980 main_v981 rfl shapeCasts_S1x64x64_S64x64,
    binary main_v979 main_v981 main_v982 (Host.dotGeneral dot_S100000x64_S64x64_S100000x64_1_0_0_1_n_n none),
    unary main_arg8 main_v983 (extractStridedSlice S1x100000 ![17, 0] · slices_S27x100000_S1x100000_17_0),
    reshape main_v983 main_v984 rfl shapeCasts_S1x100000_S100000,
    nullary main_c_189 (constantI S_ 32 0#32),
    unary main_c_189 main_v985 (broadcastInDim S100000 ![] bcast_S_S100000),
    binary main_v984 main_v985 main_v986 (cmpi .slt),
    nullary main_c_190 (constantI S_ 32 100000#32),
    unary main_c_190 main_v987 (broadcastInDim S100000 ![] bcast_S_S100000),
    binary main_v984 main_v987 main_v988 (addi),
    ternary main_v986 main_v988 main_v984 main_v989 select,
    unary main_v989 main_v990 (broadcastInDim S100000x1 ![0] bcast_S100000_S100000x1_0),
    ternary main_v970 main_v990 main_v982 main_v991 (Host.scatterAdd scatter_S100000x64_S100000x1_S100000x64_1_0_0_1) ]
abbrev sg65_W : List (Ref sig .tc) := [main_v971, main_v972, main_c_187, main_v973, main_v974, main_c_188, main_v975, main_v976, main_v977, main_v978, main_v979, main_v980, main_v981, main_v982, main_v983, main_v984, main_c_189, main_v985, main_v986, main_c_190, main_v987, main_v988, main_v989, main_v990, main_v991]
theorem sg65_dsts : List.Forall₂ Dst (sg65 : List (HloOp τ sig (Elt F))) sg65_W := by repeat' constructor
theorem sg65_sub : (sg65 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg65_fresh : ∀ op ∈ (sg65 : List (HloOp τ sig (Elt F))), op.fresh = ∅ := fresh_of_dsts sg65_dsts
theorem sg65_keeps : Keeps (sg65 : List (HloOp τ sig (Elt F))) sg65_W := .of_dsts sg65_dsts

abbrev sg66 : List (HloOp τ sig (Elt F)) :=
  [ unary main_arg7 main_v992 (extractStridedSlice S1x100000 ![18, 0] · slices_S27x100000_S1x100000_18_0),
    reshape main_v992 main_v993 rfl shapeCasts_S1x100000_S100000,
    nullary main_c_191 (constantI S_ 32 0#32),
    unary main_c_191 main_v994 (broadcastInDim S100000 ![] bcast_S_S100000),
    binary main_v993 main_v994 main_v995 (cmpi .slt),
    nullary main_c_192 (constantI S_ 32 100000#32),
    unary main_c_192 main_v996 (broadcastInDim S100000 ![] bcast_S_S100000),
    binary main_v993 main_v996 main_v997 (addi),
    ternary main_v995 main_v997 main_v993 main_v998 select,
    unary main_v998 main_v999 (broadcastInDim S100000x1 ![0] bcast_S100000_S100000x1_0),
    binary main_v612 main_v999 main_v1000 (Host.gather gather_S100000x64_S100000x1_S100000x64_1_0_n_n_0_1_164),
    unary main_arg4 main_v1001 (extractStridedSlice S1x64x64 ![18, 0, 0] · slices_S27x64x64_S1x64x64_18_0_0),
    reshape main_v1001 main_v1002 rfl shapeCasts_S1x64x64_S64x64,
    binary main_v1000 main_v1002 main_v1003 (Host.dotGeneral dot_S100000x64_S64x64_S100000x64_1_0_0_1_n_n none),
    unary main_arg8 main_v1004 (extractStridedSlice S1x100000 ![18, 0] · slices_S27x100000_S1x100000_18_0) ]
abbrev sg66_W : List (Ref sig .tc) := [main_v992, main_v993, main_c_191, main_v994, main_v995, main_c_192, main_v996, main_v997, main_v998, main_v999, main_v1000, main_v1001, main_v1002, main_v1003, main_v1004]
theorem sg66_dsts : List.Forall₂ Dst (sg66 : List (HloOp τ sig (Elt F))) sg66_W := by repeat' constructor
theorem sg66_sub : (sg66 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub ..⟩
theorem sg66_fresh : ∀ op ∈ (sg66 : List (HloOp τ sig (Elt F))), op.fresh = ∅ := fresh_of_dsts sg66_dsts
theorem sg66_keeps : Keeps (sg66 : List (HloOp τ sig (Elt F))) sg66_W := .of_dsts sg66_dsts

def ops_part19 : List (HloOp τ sig (Elt F)) := sg64 ++ (sg65 ++ sg66)
set_option maxRecDepth 8192 in
set_option maxHeartbeats 4000000 in
theorem main_part19_eq (c : Dev nD) : main_part19 (F := F) c = seq ops_part19 := rfl
theorem ops_part19_sub : (ops_part19 : List (HloOp τ sig (Elt F))).Forall fun op => op.bufs ⊆ tcRefs τ sig :=
  forall_append sg64_sub (forall_append sg65_sub sg66_sub)
theorem ops_part19_fresh : ∀ op ∈ (ops_part19 : List (HloOp τ sig (Elt F))), op.fresh = ∅ :=
  fresh_append sg64_fresh (fresh_append sg65_fresh sg66_fresh)

end Cert.ReferenceIdeal.Value

end
-- ==== Proof.RefW20.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg67 : List (HloOp τ sig (Elt F)) :=
  [ reshape main_v1004 main_v1005 rfl shapeCasts_S1x100000_S100000,
    nullary main_c_193 (constantI S_ 32 0#32),
    unary main_c_193 main_v1006 (broadcastInDim S100000 ![] bcast_S_S100000),
    binary main_v1005 main_v1006 main_v1007 (cmpi .slt),
    nullary main_c_194 (constantI S_ 32 100000#32),
    unary main_c_194 main_v1008 (broadcastInDim S100000 ![] bcast_S_S100000),
    binary main_v1005 main_v1008 main_v1009 (addi),
    ternary main_v1007 main_v1009 main_v1005 main_v1010 select,
    unary main_v1010 main_v1011 (broadcastInDim S100000x1 ![0] bcast_S100000_S100000x1_0),
    ternary main_v991 main_v1011 main_v1003 main_v1012 (Host.scatterAdd scatter_S100000x64_S100000x1_S100000x64_1_0_0_1) ]
abbrev sg67_W : List (Ref sig .tc) := [main_v1005, main_c_193, main_v1006, main_v1007, main_c_194, main_v1008, main_v1009, main_v1010, main_v1011, main_v1012]
theorem sg67_dsts : List.Forall₂ Dst (sg67 : List (HloOp τ sig (Elt F))) sg67_W := by repeat' constructor
theorem sg67_sub : (sg67 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., ternary_bufs_sub ..⟩
theorem sg67_fresh : ∀ op ∈ (sg67 : List (HloOp τ sig (Elt F))), op.fresh = ∅ := fresh_of_dsts sg67_dsts
theorem sg67_keeps : Keeps (sg67 : List (HloOp τ sig (Elt F))) sg67_W := .of_dsts sg67_dsts

abbrev sg68 : List (HloOp τ sig (Elt F)) :=
  [ unary main_arg7 main_v1013 (extractStridedSlice S1x100000 ![19, 0] · slices_S27x100000_S1x100000_19_0),
    reshape main_v1013 main_v1014 rfl shapeCasts_S1x100000_S100000,
    nullary main_c_195 (constantI S_ 32 0#32),
    unary main_c_195 main_v1015 (broadcastInDim S100000 ![] bcast_S_S100000),
    binary main_v1014 main_v1015 main_v1016 (cmpi .slt),
    nullary main_c_196 (constantI S_ 32 100000#32),
    unary main_c_196 main_v1017 (broadcastInDim S100000 ![] bcast_S_S100000),
    binary main_v1014 main_v1017 main_v1018 (addi),
    ternary main_v1016 main_v1018 main_v1014 main_v1019 select,
    unary main_v1019 main_v1020 (broadcastInDim S100000x1 ![0] bcast_S100000_S100000x1_0),
    binary main_v612 main_v1020 main_v1021 (Host.gather gather_S100000x64_S100000x1_S100000x64_1_0_n_n_0_1_164),
    unary main_arg4 main_v1022 (extractStridedSlice S1x64x64 ![19, 0, 0] · slices_S27x64x64_S1x64x64_19_0_0),
    reshape main_v1022 main_v1023 rfl shapeCasts_S1x64x64_S64x64,
    binary main_v1021 main_v1023 main_v1024 (Host.dotGeneral dot_S100000x64_S64x64_S100000x64_1_0_0_1_n_n none),
    unary main_arg8 main_v1025 (extractStridedSlice S1x100000 ![19, 0] · slices_S27x100000_S1x100000_19_0),
    reshape main_v1025 main_v1026 rfl shapeCasts_S1x100000_S100000,
    nullary main_c_197 (constantI S_ 32 0#32),
    unary main_c_197 main_v1027 (broadcastInDim S100000 ![] bcast_S_S100000),
    binary main_v1026 main_v1027 main_v1028 (cmpi .slt),
    nullary main_c_198 (constantI S_ 32 100000#32),
    unary main_c_198 main_v1029 (broadcastInDim S100000 ![] bcast_S_S100000),
    binary main_v1026 main_v1029 main_v1030 (addi),
    ternary main_v1028 main_v1030 main_v1026 main_v1031 select,
    unary main_v1031 main_v1032 (broadcastInDim S100000x1 ![0] bcast_S100000_S100000x1_0),
    ternary main_v1012 main_v1032 main_v1024 main_v1033 (Host.scatterAdd scatter_S100000x64_S100000x1_S100000x64_1_0_0_1) ]
abbrev sg68_W : List (Ref sig .tc) := [main_v1013, main_v1014, main_c_195, main_v1015, main_v1016, main_c_196, main_v1017, main_v1018, main_v1019, main_v1020, main_v1021, main_v1022, main_v1023, main_v1024, main_v1025, main_v1026, main_c_197, main_v1027, main_v1028, main_c_198, main_v1029, main_v1030, main_v1031, main_v1032, main_v1033]
theorem sg68_dsts : List.Forall₂ Dst (sg68 : List (HloOp τ sig (Elt F))) sg68_W := by repeat' constructor
theorem sg68_sub : (sg68 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg68_fresh : ∀ op ∈ (sg68 : List (HloOp τ sig (Elt F))), op.fresh = ∅ := fresh_of_dsts sg68_dsts
theorem sg68_keeps : Keeps (sg68 : List (HloOp τ sig (Elt F))) sg68_W := .of_dsts sg68_dsts

abbrev sg69 : List (HloOp τ sig (Elt F)) :=
  [ unary main_arg7 main_v1034 (extractStridedSlice S1x100000 ![20, 0] · slices_S27x100000_S1x100000_20_0),
    reshape main_v1034 main_v1035 rfl shapeCasts_S1x100000_S100000,
    nullary main_c_199 (constantI S_ 32 0#32),
    unary main_c_199 main_v1036 (broadcastInDim S100000 ![] bcast_S_S100000),
    binary main_v1035 main_v1036 main_v1037 (cmpi .slt),
    nullary main_c_200 (constantI S_ 32 100000#32),
    unary main_c_200 main_v1038 (broadcastInDim S100000 ![] bcast_S_S100000),
    binary main_v1035 main_v1038 main_v1039 (addi),
    ternary main_v1037 main_v1039 main_v1035 main_v1040 select,
    unary main_v1040 main_v1041 (broadcastInDim S100000x1 ![0] bcast_S100000_S100000x1_0),
    binary main_v612 main_v1041 main_v1042 (Host.gather gather_S100000x64_S100000x1_S100000x64_1_0_n_n_0_1_164),
    unary main_arg4 main_v1043 (extractStridedSlice S1x64x64 ![20, 0, 0] · slices_S27x64x64_S1x64x64_20_0_0),
    reshape main_v1043 main_v1044 rfl shapeCasts_S1x64x64_S64x64,
    binary main_v1042 main_v1044 main_v1045 (Host.dotGeneral dot_S100000x64_S64x64_S100000x64_1_0_0_1_n_n none),
    unary main_arg8 main_v1046 (extractStridedSlice S1x100000 ![20, 0] · slices_S27x100000_S1x100000_20_0),
    reshape main_v1046 main_v1047 rfl shapeCasts_S1x100000_S100000,
    nullary main_c_201 (constantI S_ 32 0#32),
    unary main_c_201 main_v1048 (broadcastInDim S100000 ![] bcast_S_S100000),
    binary main_v1047 main_v1048 main_v1049 (cmpi .slt),
    nullary main_c_202 (constantI S_ 32 100000#32),
    unary main_c_202 main_v1050 (broadcastInDim S100000 ![] bcast_S_S100000),
    binary main_v1047 main_v1050 main_v1051 (addi),
    ternary main_v1049 main_v1051 main_v1047 main_v1052 select,
    unary main_v1052 main_v1053 (broadcastInDim S100000x1 ![0] bcast_S100000_S100000x1_0),
    ternary main_v1033 main_v1053 main_v1045 main_v1054 (Host.scatterAdd scatter_S100000x64_S100000x1_S100000x64_1_0_0_1) ]
abbrev sg69_W : List (Ref sig .tc) := [main_v1034, main_v1035, main_c_199, main_v1036, main_v1037, main_c_200, main_v1038, main_v1039, main_v1040, main_v1041, main_v1042, main_v1043, main_v1044, main_v1045, main_v1046, main_v1047, main_c_201, main_v1048, main_v1049, main_c_202, main_v1050, main_v1051, main_v1052, main_v1053, main_v1054]
theorem sg69_dsts : List.Forall₂ Dst (sg69 : List (HloOp τ sig (Elt F))) sg69_W := by repeat' constructor
theorem sg69_sub : (sg69 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg69_fresh : ∀ op ∈ (sg69 : List (HloOp τ sig (Elt F))), op.fresh = ∅ := fresh_of_dsts sg69_dsts
theorem sg69_keeps : Keeps (sg69 : List (HloOp τ sig (Elt F))) sg69_W := .of_dsts sg69_dsts

def ops_part20 : List (HloOp τ sig (Elt F)) := sg67 ++ (sg68 ++ sg69)
set_option maxRecDepth 8192 in
set_option maxHeartbeats 4000000 in
theorem main_part20_eq (c : Dev nD) : main_part20 (F := F) c = seq ops_part20 := rfl
theorem ops_part20_sub : (ops_part20 : List (HloOp τ sig (Elt F))).Forall fun op => op.bufs ⊆ tcRefs τ sig :=
  forall_append sg67_sub (forall_append sg68_sub sg69_sub)
theorem ops_part20_fresh : ∀ op ∈ (ops_part20 : List (HloOp τ sig (Elt F))), op.fresh = ∅ :=
  fresh_append sg67_fresh (fresh_append sg68_fresh sg69_fresh)

end Cert.ReferenceIdeal.Value

end
-- ==== Proof.RefW21.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg70 : List (HloOp τ sig (Elt F)) :=
  [ unary main_arg7 main_v1055 (extractStridedSlice S1x100000 ![21, 0] · slices_S27x100000_S1x100000_21_0),
    reshape main_v1055 main_v1056 rfl shapeCasts_S1x100000_S100000,
    nullary main_c_203 (constantI S_ 32 0#32),
    unary main_c_203 main_v1057 (broadcastInDim S100000 ![] bcast_S_S100000),
    binary main_v1056 main_v1057 main_v1058 (cmpi .slt),
    nullary main_c_204 (constantI S_ 32 100000#32),
    unary main_c_204 main_v1059 (broadcastInDim S100000 ![] bcast_S_S100000),
    binary main_v1056 main_v1059 main_v1060 (addi),
    ternary main_v1058 main_v1060 main_v1056 main_v1061 select,
    unary main_v1061 main_v1062 (broadcastInDim S100000x1 ![0] bcast_S100000_S100000x1_0),
    binary main_v612 main_v1062 main_v1063 (Host.gather gather_S100000x64_S100000x1_S100000x64_1_0_n_n_0_1_164),
    unary main_arg4 main_v1064 (extractStridedSlice S1x64x64 ![21, 0, 0] · slices_S27x64x64_S1x64x64_21_0_0),
    reshape main_v1064 main_v1065 rfl shapeCasts_S1x64x64_S64x64,
    binary main_v1063 main_v1065 main_v1066 (Host.dotGeneral dot_S100000x64_S64x64_S100000x64_1_0_0_1_n_n none),
    unary main_arg8 main_v1067 (extractStridedSlice S1x100000 ![21, 0] · slices_S27x100000_S1x100000_21_0),
    reshape main_v1067 main_v1068 rfl shapeCasts_S1x100000_S100000,
    nullary main_c_205 (constantI S_ 32 0#32),
    unary main_c_205 main_v1069 (broadcastInDim S100000 ![] bcast_S_S100000),
    binary main_v1068 main_v1069 main_v1070 (cmpi .slt),
    nullary main_c_206 (constantI S_ 32 100000#32),
    unary main_c_206 main_v1071 (broadcastInDim S100000 ![] bcast_S_S100000),
    binary main_v1068 main_v1071 main_v1072 (addi),
    ternary main_v1070 main_v1072 main_v1068 main_v1073 select,
    unary main_v1073 main_v1074 (broadcastInDim S100000x1 ![0] bcast_S100000_S100000x1_0),
    ternary main_v1054 main_v1074 main_v1066 main_v1075 (Host.scatterAdd scatter_S100000x64_S100000x1_S100000x64_1_0_0_1) ]
abbrev sg70_W : List (Ref sig .tc) := [main_v1055, main_v1056, main_c_203, main_v1057, main_v1058, main_c_204, main_v1059, main_v1060, main_v1061, main_v1062, main_v1063, main_v1064, main_v1065, main_v1066, main_v1067, main_v1068, main_c_205, main_v1069, main_v1070, main_c_206, main_v1071, main_v1072, main_v1073, main_v1074, main_v1075]
theorem sg70_dsts : List.Forall₂ Dst (sg70 : List (HloOp τ sig (Elt F))) sg70_W := by repeat' constructor
theorem sg70_sub : (sg70 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg70_fresh : ∀ op ∈ (sg70 : List (HloOp τ sig (Elt F))), op.fresh = ∅ := fresh_of_dsts sg70_dsts
theorem sg70_keeps : Keeps (sg70 : List (HloOp τ sig (Elt F))) sg70_W := .of_dsts sg70_dsts

abbrev sg71 : List (HloOp τ sig (Elt F)) :=
  [ unary main_arg7 main_v1076 (extractStridedSlice S1x100000 ![22, 0] · slices_S27x100000_S1x100000_22_0),
    reshape main_v1076 main_v1077 rfl shapeCasts_S1x100000_S100000,
    nullary main_c_207 (constantI S_ 32 0#32),
    unary main_c_207 main_v1078 (broadcastInDim S100000 ![] bcast_S_S100000),
    binary main_v1077 main_v1078 main_v1079 (cmpi .slt),
    nullary main_c_208 (constantI S_ 32 100000#32),
    unary main_c_208 main_v1080 (broadcastInDim S100000 ![] bcast_S_S100000),
    binary main_v1077 main_v1080 main_v1081 (addi),
    ternary main_v1079 main_v1081 main_v1077 main_v1082 select,
    unary main_v1082 main_v1083 (broadcastInDim S100000x1 ![0] bcast_S100000_S100000x1_0),
    binary main_v612 main_v1083 main_v1084 (Host.gather gather_S100000x64_S100000x1_S100000x64_1_0_n_n_0_1_164),
    unary main_arg4 main_v1085 (extractStridedSlice S1x64x64 ![22, 0, 0] · slices_S27x64x64_S1x64x64_22_0_0),
    reshape main_v1085 main_v1086 rfl shapeCasts_S1x64x64_S64x64,
    binary main_v1084 main_v1086 main_v1087 (Host.dotGeneral dot_S100000x64_S64x64_S100000x64_1_0_0_1_n_n none),
    unary main_arg8 main_v1088 (extractStridedSlice S1x100000 ![22, 0] · slices_S27x100000_S1x100000_22_0),
    reshape main_v1088 main_v1089 rfl shapeCasts_S1x100000_S100000,
    nullary main_c_209 (constantI S_ 32 0#32),
    unary main_c_209 main_v1090 (broadcastInDim S100000 ![] bcast_S_S100000),
    binary main_v1089 main_v1090 main_v1091 (cmpi .slt),
    nullary main_c_210 (constantI S_ 32 100000#32),
    unary main_c_210 main_v1092 (broadcastInDim S100000 ![] bcast_S_S100000),
    binary main_v1089 main_v1092 main_v1093 (addi),
    ternary main_v1091 main_v1093 main_v1089 main_v1094 select,
    unary main_v1094 main_v1095 (broadcastInDim S100000x1 ![0] bcast_S100000_S100000x1_0),
    ternary main_v1075 main_v1095 main_v1087 main_v1096 (Host.scatterAdd scatter_S100000x64_S100000x1_S100000x64_1_0_0_1) ]
abbrev sg71_W : List (Ref sig .tc) := [main_v1076, main_v1077, main_c_207, main_v1078, main_v1079, main_c_208, main_v1080, main_v1081, main_v1082, main_v1083, main_v1084, main_v1085, main_v1086, main_v1087, main_v1088, main_v1089, main_c_209, main_v1090, main_v1091, main_c_210, main_v1092, main_v1093, main_v1094, main_v1095, main_v1096]
theorem sg71_dsts : List.Forall₂ Dst (sg71 : List (HloOp τ sig (Elt F))) sg71_W := by repeat' constructor
theorem sg71_sub : (sg71 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg71_fresh : ∀ op ∈ (sg71 : List (HloOp τ sig (Elt F))), op.fresh = ∅ := fresh_of_dsts sg71_dsts
theorem sg71_keeps : Keeps (sg71 : List (HloOp τ sig (Elt F))) sg71_W := .of_dsts sg71_dsts

abbrev sg72 : List (HloOp τ sig (Elt F)) :=
  [ unary main_arg7 main_v1097 (extractStridedSlice S1x100000 ![23, 0] · slices_S27x100000_S1x100000_23_0),
    reshape main_v1097 main_v1098 rfl shapeCasts_S1x100000_S100000,
    nullary main_c_211 (constantI S_ 32 0#32),
    unary main_c_211 main_v1099 (broadcastInDim S100000 ![] bcast_S_S100000),
    binary main_v1098 main_v1099 main_v1100 (cmpi .slt),
    nullary main_c_212 (constantI S_ 32 100000#32),
    unary main_c_212 main_v1101 (broadcastInDim S100000 ![] bcast_S_S100000),
    binary main_v1098 main_v1101 main_v1102 (addi),
    ternary main_v1100 main_v1102 main_v1098 main_v1103 select,
    unary main_v1103 main_v1104 (broadcastInDim S100000x1 ![0] bcast_S100000_S100000x1_0) ]
abbrev sg72_W : List (Ref sig .tc) := [main_v1097, main_v1098, main_c_211, main_v1099, main_v1100, main_c_212, main_v1101, main_v1102, main_v1103, main_v1104]
theorem sg72_dsts : List.Forall₂ Dst (sg72 : List (HloOp τ sig (Elt F))) sg72_W := by repeat' constructor
theorem sg72_sub : (sg72 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub ..⟩
theorem sg72_fresh : ∀ op ∈ (sg72 : List (HloOp τ sig (Elt F))), op.fresh = ∅ := fresh_of_dsts sg72_dsts
theorem sg72_keeps : Keeps (sg72 : List (HloOp τ sig (Elt F))) sg72_W := .of_dsts sg72_dsts

def ops_part21 : List (HloOp τ sig (Elt F)) := sg70 ++ (sg71 ++ sg72)
set_option maxRecDepth 8192 in
set_option maxHeartbeats 4000000 in
theorem main_part21_eq (c : Dev nD) : main_part21 (F := F) c = seq ops_part21 := rfl
theorem ops_part21_sub : (ops_part21 : List (HloOp τ sig (Elt F))).Forall fun op => op.bufs ⊆ tcRefs τ sig :=
  forall_append sg70_sub (forall_append sg71_sub sg72_sub)
theorem ops_part21_fresh : ∀ op ∈ (ops_part21 : List (HloOp τ sig (Elt F))), op.fresh = ∅ :=
  fresh_append sg70_fresh (fresh_append sg71_fresh sg72_fresh)

end Cert.ReferenceIdeal.Value

end
-- ==== Proof.RefW22.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg73 : List (HloOp τ sig (Elt F)) :=
  [ binary main_v612 main_v1104 main_v1105 (Host.gather gather_S100000x64_S100000x1_S100000x64_1_0_n_n_0_1_164),
    unary main_arg4 main_v1106 (extractStridedSlice S1x64x64 ![23, 0, 0] · slices_S27x64x64_S1x64x64_23_0_0),
    reshape main_v1106 main_v1107 rfl shapeCasts_S1x64x64_S64x64,
    binary main_v1105 main_v1107 main_v1108 (Host.dotGeneral dot_S100000x64_S64x64_S100000x64_1_0_0_1_n_n none),
    unary main_arg8 main_v1109 (extractStridedSlice S1x100000 ![23, 0] · slices_S27x100000_S1x100000_23_0),
    reshape main_v1109 main_v1110 rfl shapeCasts_S1x100000_S100000,
    nullary main_c_213 (constantI S_ 32 0#32),
    unary main_c_213 main_v1111 (broadcastInDim S100000 ![] bcast_S_S100000),
    binary main_v1110 main_v1111 main_v1112 (cmpi .slt),
    nullary main_c_214 (constantI S_ 32 100000#32),
    unary main_c_214 main_v1113 (broadcastInDim S100000 ![] bcast_S_S100000),
    binary main_v1110 main_v1113 main_v1114 (addi),
    ternary main_v1112 main_v1114 main_v1110 main_v1115 select,
    unary main_v1115 main_v1116 (broadcastInDim S100000x1 ![0] bcast_S100000_S100000x1_0),
    ternary main_v1096 main_v1116 main_v1108 main_v1117 (Host.scatterAdd scatter_S100000x64_S100000x1_S100000x64_1_0_0_1) ]
abbrev sg73_W : List (Ref sig .tc) := [main_v1105, main_v1106, main_v1107, main_v1108, main_v1109, main_v1110, main_c_213, main_v1111, main_v1112, main_c_214, main_v1113, main_v1114, main_v1115, main_v1116, main_v1117]
theorem sg73_dsts : List.Forall₂ Dst (sg73 : List (HloOp τ sig (Elt F))) sg73_W := by repeat' constructor
theorem sg73_sub : (sg73 : List (HloOp τ sig (Elt F))).Forall fun op => op.bufs ⊆ tcRefs τ sig :=
  ⟨binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg73_fresh : ∀ op ∈ (sg73 : List (HloOp τ sig (Elt F))), op.fresh = ∅ := fresh_of_dsts sg73_dsts
theorem sg73_keeps : Keeps (sg73 : List (HloOp τ sig (Elt F))) sg73_W := .of_dsts sg73_dsts

abbrev sg74 : List (HloOp τ sig (Elt F)) :=
  [ unary main_arg7 main_v1118 (extractStridedSlice S1x100000 ![24, 0] · slices_S27x100000_S1x100000_24_0),
    reshape main_v1118 main_v1119 rfl shapeCasts_S1x100000_S100000,
    nullary main_c_215 (constantI S_ 32 0#32),
    unary main_c_215 main_v1120 (broadcastInDim S100000 ![] bcast_S_S100000),
    binary main_v1119 main_v1120 main_v1121 (cmpi .slt),
    nullary main_c_216 (constantI S_ 32 100000#32),
    unary main_c_216 main_v1122 (broadcastInDim S100000 ![] bcast_S_S100000),
    binary main_v1119 main_v1122 main_v1123 (addi),
    ternary main_v1121 main_v1123 main_v1119 main_v1124 select,
    unary main_v1124 main_v1125 (broadcastInDim S100000x1 ![0] bcast_S100000_S100000x1_0),
    binary main_v612 main_v1125 main_v1126 (Host.gather gather_S100000x64_S100000x1_S100000x64_1_0_n_n_0_1_164),
    unary main_arg4 main_v1127 (extractStridedSlice S1x64x64 ![24, 0, 0] · slices_S27x64x64_S1x64x64_24_0_0),
    reshape main_v1127 main_v1128 rfl shapeCasts_S1x64x64_S64x64,
    binary main_v1126 main_v1128 main_v1129 (Host.dotGeneral dot_S100000x64_S64x64_S100000x64_1_0_0_1_n_n none),
    unary main_arg8 main_v1130 (extractStridedSlice S1x100000 ![24, 0] · slices_S27x100000_S1x100000_24_0),
    reshape main_v1130 main_v1131 rfl shapeCasts_S1x100000_S100000,
    nullary main_c_217 (constantI S_ 32 0#32),
    unary main_c_217 main_v1132 (broadcastInDim S100000 ![] bcast_S_S100000),
    binary main_v1131 main_v1132 main_v1133 (cmpi .slt),
    nullary main_c_218 (constantI S_ 32 100000#32),
    unary main_c_218 main_v1134 (broadcastInDim S100000 ![] bcast_S_S100000),
    binary main_v1131 main_v1134 main_v1135 (addi),
    ternary main_v1133 main_v1135 main_v1131 main_v1136 select,
    unary main_v1136 main_v1137 (broadcastInDim S100000x1 ![0] bcast_S100000_S100000x1_0),
    ternary main_v1117 main_v1137 main_v1129 main_v1138 (Host.scatterAdd scatter_S100000x64_S100000x1_S100000x64_1_0_0_1) ]
abbrev sg74_W : List (Ref sig .tc) := [main_v1118, main_v1119, main_c_215, main_v1120, main_v1121, main_c_216, main_v1122, main_v1123, main_v1124, main_v1125, main_v1126, main_v1127, main_v1128, main_v1129, main_v1130, main_v1131, main_c_217, main_v1132, main_v1133, main_c_218, main_v1134, main_v1135, main_v1136, main_v1137, main_v1138]
theorem sg74_dsts : List.Forall₂ Dst (sg74 : List (HloOp τ sig (Elt F))) sg74_W := by repeat' constructor
theorem sg74_sub : (sg74 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg74_fresh : ∀ op ∈ (sg74 : List (HloOp τ sig (Elt F))), op.fresh = ∅ := fresh_of_dsts sg74_dsts
theorem sg74_keeps : Keeps (sg74 : List (HloOp τ sig (Elt F))) sg74_W := .of_dsts sg74_dsts

abbrev sg75 : List (HloOp τ sig (Elt F)) :=
  [ unary main_arg7 main_v1139 (extractStridedSlice S1x100000 ![25, 0] · slices_S27x100000_S1x100000_25_0),
    reshape main_v1139 main_v1140 rfl shapeCasts_S1x100000_S100000,
    nullary main_c_219 (constantI S_ 32 0#32),
    unary main_c_219 main_v1141 (broadcastInDim S100000 ![] bcast_S_S100000),
    binary main_v1140 main_v1141 main_v1142 (cmpi .slt),
    nullary main_c_220 (constantI S_ 32 100000#32),
    unary main_c_220 main_v1143 (broadcastInDim S100000 ![] bcast_S_S100000),
    binary main_v1140 main_v1143 main_v1144 (addi),
    ternary main_v1142 main_v1144 main_v1140 main_v1145 select,
    unary main_v1145 main_v1146 (broadcastInDim S100000x1 ![0] bcast_S100000_S100000x1_0),
    binary main_v612 main_v1146 main_v1147 (Host.gather gather_S100000x64_S100000x1_S100000x64_1_0_n_n_0_1_164),
    unary main_arg4 main_v1148 (extractStridedSlice S1x64x64 ![25, 0, 0] · slices_S27x64x64_S1x64x64_25_0_0),
    reshape main_v1148 main_v1149 rfl shapeCasts_S1x64x64_S64x64,
    binary main_v1147 main_v1149 main_v1150 (Host.dotGeneral dot_S100000x64_S64x64_S100000x64_1_0_0_1_n_n none),
    unary main_arg8 main_v1151 (extractStridedSlice S1x100000 ![25, 0] · slices_S27x100000_S1x100000_25_0),
    reshape main_v1151 main_v1152 rfl shapeCasts_S1x100000_S100000,
    nullary main_c_221 (constantI S_ 32 0#32),
    unary main_c_221 main_v1153 (broadcastInDim S100000 ![] bcast_S_S100000),
    binary main_v1152 main_v1153 main_v1154 (cmpi .slt),
    nullary main_c_222 (constantI S_ 32 100000#32) ]
abbrev sg75_W : List (Ref sig .tc) := [main_v1139, main_v1140, main_c_219, main_v1141, main_v1142, main_c_220, main_v1143, main_v1144, main_v1145, main_v1146, main_v1147, main_v1148, main_v1149, main_v1150, main_v1151, main_v1152, main_c_221, main_v1153, main_v1154, main_c_222]
theorem sg75_dsts : List.Forall₂ Dst (sg75 : List (HloOp τ sig (Elt F))) sg75_W := by repeat' constructor
theorem sg75_sub : (sg75 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub ..⟩
theorem sg75_fresh : ∀ op ∈ (sg75 : List (HloOp τ sig (Elt F))), op.fresh = ∅ := fresh_of_dsts sg75_dsts
theorem sg75_keeps : Keeps (sg75 : List (HloOp τ sig (Elt F))) sg75_W := .of_dsts sg75_dsts

def ops_part22 : List (HloOp τ sig (Elt F)) := sg73 ++ (sg74 ++ sg75)
set_option maxRecDepth 8192 in
set_option maxHeartbeats 4000000 in
theorem main_part22_eq (c : Dev nD) : main_part22 (F := F) c = seq ops_part22 := rfl
theorem ops_part22_sub : (ops_part22 : List (HloOp τ sig (Elt F))).Forall fun op => op.bufs ⊆ tcRefs τ sig :=
  forall_append sg73_sub (forall_append sg74_sub sg75_sub)
theorem ops_part22_fresh : ∀ op ∈ (ops_part22 : List (HloOp τ sig (Elt F))), op.fresh = ∅ :=
  fresh_append sg73_fresh (fresh_append sg74_fresh sg75_fresh)

end Cert.ReferenceIdeal.Value

end
-- ==== Proof.RefW23.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg76 : List (HloOp τ sig (Elt F)) :=
  [ unary main_c_222 main_v1155 (broadcastInDim S100000 ![] bcast_S_S100000),
    binary main_v1152 main_v1155 main_v1156 (addi),
    ternary main_v1154 main_v1156 main_v1152 main_v1157 select,
    unary main_v1157 main_v1158 (broadcastInDim S100000x1 ![0] bcast_S100000_S100000x1_0),
    ternary main_v1138 main_v1158 main_v1150 main_v1159 (Host.scatterAdd scatter_S100000x64_S100000x1_S100000x64_1_0_0_1) ]
abbrev sg76_W : List (Ref sig .tc) := [main_v1155, main_v1156, main_v1157, main_v1158, main_v1159]
theorem sg76_dsts : List.Forall₂ Dst (sg76 : List (HloOp τ sig (Elt F))) sg76_W := by repeat' constructor
theorem sg76_sub : (sg76 : List (HloOp τ sig (Elt F))).Forall fun op => op.bufs ⊆ tcRefs τ sig :=
  ⟨unary_bufs_sub .., binary_bufs_sub .., ternary_bufs_sub .., unary_bufs_sub .., ternary_bufs_sub ..⟩
theorem sg76_fresh : ∀ op ∈ (sg76 : List (HloOp τ sig (Elt F))), op.fresh = ∅ := fresh_of_dsts sg76_dsts
theorem sg76_keeps : Keeps (sg76 : List (HloOp τ sig (Elt F))) sg76_W := .of_dsts sg76_dsts

abbrev sg77 : List (HloOp τ sig (Elt F)) :=
  [ unary main_arg7 main_v1160 (extractStridedSlice S1x100000 ![26, 0] · slices_S27x100000_S1x100000_26_0),
    reshape main_v1160 main_v1161 rfl shapeCasts_S1x100000_S100000,
    nullary main_c_223 (constantI S_ 32 0#32),
    unary main_c_223 main_v1162 (broadcastInDim S100000 ![] bcast_S_S100000),
    binary main_v1161 main_v1162 main_v1163 (cmpi .slt),
    nullary main_c_224 (constantI S_ 32 100000#32),
    unary main_c_224 main_v1164 (broadcastInDim S100000 ![] bcast_S_S100000),
    binary main_v1161 main_v1164 main_v1165 (addi),
    ternary main_v1163 main_v1165 main_v1161 main_v1166 select,
    unary main_v1166 main_v1167 (broadcastInDim S100000x1 ![0] bcast_S100000_S100000x1_0),
    binary main_v612 main_v1167 main_v1168 (Host.gather gather_S100000x64_S100000x1_S100000x64_1_0_n_n_0_1_164),
    unary main_arg4 main_v1169 (extractStridedSlice S1x64x64 ![26, 0, 0] · slices_S27x64x64_S1x64x64_26_0_0),
    reshape main_v1169 main_v1170 rfl shapeCasts_S1x64x64_S64x64,
    binary main_v1168 main_v1170 main_v1171 (Host.dotGeneral dot_S100000x64_S64x64_S100000x64_1_0_0_1_n_n none),
    unary main_arg8 main_v1172 (extractStridedSlice S1x100000 ![26, 0] · slices_S27x100000_S1x100000_26_0),
    reshape main_v1172 main_v1173 rfl shapeCasts_S1x100000_S100000,
    nullary main_c_225 (constantI S_ 32 0#32),
    unary main_c_225 main_v1174 (broadcastInDim S100000 ![] bcast_S_S100000),
    binary main_v1173 main_v1174 main_v1175 (cmpi .slt),
    nullary main_c_226 (constantI S_ 32 100000#32),
    unary main_c_226 main_v1176 (broadcastInDim S100000 ![] bcast_S_S100000),
    binary main_v1173 main_v1176 main_v1177 (addi),
    ternary main_v1175 main_v1177 main_v1173 main_v1178 select,
    unary main_v1178 main_v1179 (broadcastInDim S100000x1 ![0] bcast_S100000_S100000x1_0),
    ternary main_v1159 main_v1179 main_v1171 main_v1180 (Host.scatterAdd scatter_S100000x64_S100000x1_S100000x64_1_0_0_1) ]
abbrev sg77_W : List (Ref sig .tc) := [main_v1160, main_v1161, main_c_223, main_v1162, main_v1163, main_c_224, main_v1164, main_v1165, main_v1166, main_v1167, main_v1168, main_v1169, main_v1170, main_v1171, main_v1172, main_v1173, main_c_225, main_v1174, main_v1175, main_c_226, main_v1176, main_v1177, main_v1178, main_v1179, main_v1180]
theorem sg77_dsts : List.Forall₂ Dst (sg77 : List (HloOp τ sig (Elt F))) sg77_W := by repeat' constructor
theorem sg77_sub : (sg77 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem sg77_fresh : ∀ op ∈ (sg77 : List (HloOp τ sig (Elt F))), op.fresh = ∅ := fresh_of_dsts sg77_dsts
theorem sg77_keeps : Keeps (sg77 : List (HloOp τ sig (Elt F))) sg77_W := .of_dsts sg77_dsts

abbrev sg78 : List (HloOp τ sig (Elt F)) :=
  [ nullary main_cst_227 (constant S_ .f32 0x3F800000#32),
    unary main_cst_227 main_v1181 (broadcastInDim S100000x1 ![] bcast_S_S100000x1),
    nullary main_cst_228 (constant S_ .f32 0x00000000#32),
    unary main_cst_228 main_v1182 (broadcastInDim S8x1 ![] bcast_S_S8x1),
    unary main_arg9 main_v1183 (broadcastInDim S100000x1 ![0] bcast_S100000_S100000x1_0),
    ternary main_v1182 main_v1183 main_v1181 main_v1184 (Host.scatterAdd scatter_S8x1_S100000x1_S100000x1_1_0_0_1),
    nullary main_cst_229 (constant S_ .f32 0x00000000#32),
    unary main_cst_229 main_v1185 (broadcastInDim S8x64 ![] bcast_S_S8x64),
    unary main_arg9 main_v1186 (broadcastInDim S100000x1 ![0] bcast_S100000_S100000x1_0),
    ternary main_v1185 main_v1186 main_v1180 main_v1187 (Host.scatterAdd scatter_S8x64_S100000x1_S100000x64_1_0_0_1),
    unary main_v1184 main_v1188 (broadcastInDim S8x64 ![0, 1] bcast_S8x1_S8x64_0_1),
    binary main_v1187 main_v1188 main_v1189 (Host.divf),
    nullary main_c_230 (constantI S_ 32 0#32),
    unary main_c_230 main_v1190 (broadcastInDim S100000 ![] bcast_S_S100000),
    binary main_arg9 main_v1190 main_v1191 (cmpi .slt),
    nullary main_c_231 (constantI S_ 32 8#32),
    unary main_c_231 main_v1192 (broadcastInDim S100000 ![] bcast_S_S100000),
    binary main_arg9 main_v1192 main_v1193 (addi),
    ternary main_v1191 main_v1193 main_arg9 main_v1194 select,
    unary main_v1194 main_v1195 (broadcastInDim S100000x1 ![0] bcast_S100000_S100000x1_0),
    binary main_v1189 main_v1195 main_v1196 (Host.gather gather_S8x64_S100000x1_S100000x64_1_0_n_n_0_1_164),
    binary main_v1180 main_v1196 main_v1197 (subf),
    binary main_v1197 main_v1197 main_v1198 (mulf),
    nullary main_cst_232 (constant S_ .f32 0x00000000#32),
    unary main_cst_232 main_v1199 (broadcastInDim S8x64 ![] bcast_S_S8x64),
    unary main_arg9 main_v1200 (broadcastInDim S100000x1 ![0] bcast_S100000_S100000x1_0),
    ternary main_v1199 main_v1200 main_v1198 main_v1201 (Host.scatterAdd scatter_S8x64_S100000x1_S100000x64_1_0_0_1),
    unary main_v1184 main_v1202 (broadcastInDim S8x64 ![0, 1] bcast_S8x1_S8x64_0_1),
    binary main_v1201 main_v1202 main_v1203 (Host.divf),
    nullary main_c_233 (constantI S_ 32 0#32) ]
abbrev sg78_W : List (Ref sig .tc) := [main_cst_227, main_v1181, main_cst_228, main_v1182, main_v1183, main_v1184, main_cst_229, main_v1185, main_v1186, main_v1187, main_v1188, main_v1189, main_c_230, main_v1190, main_v1191, main_c_231, main_v1192, main_v1193, main_v1194, main_v1195, main_v1196, main_v1197, main_v1198, main_cst_232, main_v1199, main_v1200, main_v1201, main_v1202, main_v1203, main_c_233]
theorem sg78_dsts : List.Forall₂ Dst (sg78 : List (HloOp τ sig (Elt F))) sg78_W := by repeat' constructor
theorem sg78_sub : (sg78 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., unary_bufs_sub .., binary_bufs_sub .., nullary_bufs_sub ..⟩
theorem sg78_fresh : ∀ op ∈ (sg78 : List (HloOp τ sig (Elt F))), op.fresh = ∅ := fresh_of_dsts sg78_dsts
theorem sg78_keeps : Keeps (sg78 : List (HloOp τ sig (Elt F))) sg78_W := .of_dsts sg78_dsts

def ops_part23 : List (HloOp τ sig (Elt F)) := sg76 ++ (sg77 ++ sg78)
set_option maxRecDepth 8192 in
set_option maxHeartbeats 4000000 in
theorem main_part23_eq (c : Dev nD) : main_part23 (F := F) c = seq ops_part23 := rfl
theorem ops_part23_sub : (ops_part23 : List (HloOp τ sig (Elt F))).Forall fun op => op.bufs ⊆ tcRefs τ sig :=
  forall_append sg76_sub (forall_append sg77_sub sg78_sub)
theorem ops_part23_fresh : ∀ op ∈ (ops_part23 : List (HloOp τ sig (Elt F))), op.fresh = ∅ :=
  fresh_append sg76_fresh (fresh_append sg77_fresh sg78_fresh)

end Cert.ReferenceIdeal.Value

end
-- ==== Proof.RefW24.lean ====
import proofs.«404940_j85761906966882_2_alg».proof.Proof.Gen.ReferenceIdeal
import proofs.«404940_j85761906966882_2_alg».proof.Proof.RefLine

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev sg79 : List (HloOp τ sig (Elt F)) :=
  [ unary main_c_233 main_v1204 (broadcastInDim S100000 ![] bcast_S_S100000),
    binary main_arg9 main_v1204 main_v1205 (cmpi .slt),
    nullary main_c_234 (constantI S_ 32 8#32),
    unary main_c_234 main_v1206 (broadcastInDim S100000 ![] bcast_S_S100000),
    binary main_arg9 main_v1206 main_v1207 (addi),
    ternary main_v1205 main_v1207 main_arg9 main_v1208 select,
    unary main_v1208 main_v1209 (broadcastInDim S100000x1 ![0] bcast_S100000_S100000x1_0),
    binary main_v1203 main_v1209 main_v1210 (Host.gather gather_S8x64_S100000x1_S100000x64_1_0_n_n_0_1_164),
    nullary main_cst_235 (constant S_ .f32 0x3727C5AC#32),
    unary main_cst_235 main_v1211 (broadcastInDim S100000x64 ![] bcast_S_S100000x64),
    binary main_v1210 main_v1211 main_v1212 (addf),
    unary main_v1212 main_v1213 (Host.rsqrt),
    binary main_v1197 main_v1213 main_v1214 (mulf),
    unary main_arg5 main_v1215 (broadcastInDim S1x64 ![1] bcast_S64_S1x64_1),
    unary main_v1215 main_v1216 (broadcastInDim S100000x64 ![0, 1] bcast_S1x64_S100000x64_0_1),
    binary main_v1214 main_v1216 main_v1217 (mulf),
    unary main_arg6 main_v1218 (broadcastInDim S1x64 ![1] bcast_S64_S1x64_1),
    unary main_v1218 main_v1219 (broadcastInDim S100000x64 ![0, 1] bcast_S1x64_S100000x64_0_1),
    binary main_v1217 main_v1219 main_v1220 (addf),
    binary main_v1220 main_arg0 main_v1221 (addf),
    nullary main_cst_236 (constant S_ .f32 0x00000000#32),
    unary main_cst_236 main_v1222 (broadcastInDim S100000x64 ![] bcast_S_S100000x64),
    binary main_v1221 main_v1222 main_v1223 (cmpf .ogt),
    nullary main_cst_237 (constant S_ .f32 0x3C23D70A#32),
    unary main_cst_237 main_v1224 (broadcastInDim S100000x64 ![] bcast_S_S100000x64),
    binary main_v1224 main_v1221 main_v1225 (mulf),
    TRef.ternary (TRef.of (T := ⟨S100000x64, .i1⟩) main_v1223) (TRef.of (T := ⟨S100000x64, .f32⟩) main_v1221) (TRef.of (T := ⟨S100000x64, .f32⟩) main_v1225) (TRef.of (T := ⟨S100000x64, .f32⟩) main_v1226) select ]
abbrev sg79_W : List (Ref sig .tc) := [main_v1204, main_v1205, main_c_234, main_v1206, main_v1207, main_v1208, main_v1209, main_v1210, main_cst_235, main_v1211, main_v1212, main_v1213, main_v1214, main_v1215, main_v1216, main_v1217, main_v1218, main_v1219, main_v1220, main_v1221, main_cst_236, main_v1222, main_v1223, main_cst_237, main_v1224, main_v1225, main_v1226]
theorem sg79_dsts : List.Forall₂ Dst (sg79 : List (HloOp τ sig (Elt F))) sg79_W := by repeat' constructor
theorem sg79_sub : (sg79 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩
theorem sg79_fresh : ∀ op ∈ (sg79 : List (HloOp τ sig (Elt F))), op.fresh = ∅ := fresh_of_dsts sg79_dsts
theorem sg79_keeps : Keeps (sg79 : List (HloOp τ sig (Elt F))) sg79_W := .of_dsts sg79_dsts

def ops_part24 : List (HloOp τ sig (Elt F)) := sg79
set_option maxRecDepth 8192 in
set_option maxHeartbeats 4000000 in
theorem main_part24_eq (c : Dev nD) : main_part24 (F := F) c = seq ops_part24 := rfl
theorem ops_part24_sub : (ops_part24 : List (HloOp τ sig (Elt F))).Forall fun op => op.bufs ⊆ tcRefs τ sig :=
  sg79_sub
theorem ops_part24_fresh : ∀ op ∈ (ops_part24 : List (HloOp τ sig (Elt F))), op.fresh = ∅ :=
  sg79_fresh

end Cert.ReferenceIdeal.Value

end
-- ==== Proof.SpecR.lean ====
import Idealize.ShloMosaic.PureOps.Ideal

noncomputable section

namespace Cert.SpecR

open Idealize.ShloMosaic

abbrev S100000x64 : Shape := ⟨2, ![100000, 64]⟩
abbrev S27x64x64 : Shape := ⟨3, ![27, 64, 64]⟩
abbrev S64 : Shape := ⟨1, ![64]⟩
abbrev S27x100000 : Shape := ⟨2, ![27, 100000]⟩
abbrev S100000 : Shape := ⟨1, ![100000]⟩
abbrev S_ : Shape := ⟨0, ![]⟩
abbrev S1x100000 : Shape := ⟨2, ![1, 100000]⟩
abbrev S100000x1 : Shape := ⟨2, ![100000, 1]⟩
abbrev S1x64x64 : Shape := ⟨3, ![1, 64, 64]⟩
abbrev S64x64 : Shape := ⟨2, ![64, 64]⟩
abbrev S8x1 : Shape := ⟨2, ![8, 1]⟩
abbrev S8x64 : Shape := ⟨2, ![8, 64]⟩
abbrev S1x64 : Shape := ⟨2, ![1, 64]⟩

theorem shapeCasts_row : S1x100000.ShapeCasts S100000 := by decide
theorem shapeCasts_weight : S1x64x64.ShapeCasts S64x64 := by decide
theorem bcast_S_S100000 : S_.BroadcastsInDim S100000 (![] : Fin 0 → Fin S100000.rank) := by decide
theorem bcast_S_S100000x1 : S_.BroadcastsInDim S100000x1 (![] : Fin 0 → Fin S100000x1.rank) := by decide
theorem bcast_S_S100000x64 : S_.BroadcastsInDim S100000x64 (![] : Fin 0 → Fin S100000x64.rank) := by decide
theorem bcast_S_S8x1 : S_.BroadcastsInDim S8x1 (![] : Fin 0 → Fin S8x1.rank) := by decide
theorem bcast_S_S8x64 : S_.BroadcastsInDim S8x64 (![] : Fin 0 → Fin S8x64.rank) := by decide
theorem bcast_S100000_S100000x1_0 : S100000.BroadcastsInDim S100000x1 (![0] : Fin 1 → Fin S100000x1.rank) := by decide
theorem bcast_S8x1_S8x64_0_1 : S8x1.BroadcastsInDim S8x64 (![0, 1] : Fin 2 → Fin S8x64.rank) := by decide
theorem bcast_S64_S1x64_1 : S64.BroadcastsInDim S1x64 (![1] : Fin 1 → Fin S1x64.rank) := by decide
theorem bcast_S1x64_S100000x64_0_1 : S1x64.BroadcastsInDim S100000x64 (![0, 1] : Fin 2 → Fin S100000x64.rank) := by decide

theorem slicesMap (k : Fin 27) : S27x100000.Slices ![k.val, 0] S1x100000 :=
  ⟨rfl, fun a => by
    match a with
    | ⟨0, _⟩ => show k.val + 1 ≤ 27; have := k.isLt; omega
    | ⟨1, _⟩ => exact Nat.le_refl _⟩

theorem slicesWeight (k : Fin 27) : S27x64x64.Slices ![k.val, 0, 0] S1x64x64 :=
  ⟨rfl, fun a => by
    match a with
    | ⟨0, _⟩ => show k.val + 1 ≤ 27; have := k.isLt; omega
    | ⟨1, _⟩ => exact Nat.le_refl _
    | ⟨2, _⟩ => exact Nat.le_refl _⟩

def gatherRows : GatherDims S100000x64 S100000x1 S100000x64 where
  offsetDims := [1]
  collapsedSliceDims := [0]
  operandBatchingDims := []
  startIndicesBatchingDims := []
  startIndexMap := [0]
  indexVectorDim := 1
  sliceSizes := ![1, 64]
  wf := by decide

def dotRows : DotDims S100000x64 S64x64 S100000x64 where
  lhsContracting := [1]
  rhsContracting := [0]
  lhsNonContracting := [0]
  rhsNonContracting := [1]
  lhsBatch := []
  rhsBatch := []
  wf := by decide

def scatterRows : ScatterDims S100000x64 S100000x1 S100000x64 where
  updateWindowDims := [1]
  insertedWindowDims := [0]
  scatterDimsToOperandDims := [0]
  indexVectorDim := 1
  wf := by decide

def scatterCount : ScatterDims S8x1 S100000x1 S100000x1 where
  updateWindowDims := [1]
  insertedWindowDims := [0]
  scatterDimsToOperandDims := [0]
  indexVectorDim := 1
  wf := by decide

def scatterBatch : ScatterDims S8x64 S100000x1 S100000x64 where
  updateWindowDims := [1]
  insertedWindowDims := [0]
  scatterDimsToOperandDims := [0]
  indexVectorDim := 1
  wf := by decide

def gatherBatch : GatherDims S8x64 S100000x1 S100000x64 where
  offsetDims := [1]
  collapsedSliceDims := [0]
  operandBatchingDims := []
  startIndicesBatchingDims := []
  startIndexMap := [0]
  indexVectorDim := 1
  sliceSizes := ![1, 64]
  wf := by decide

variable {F : FTy → Type} [FloatOps F]

def wrapRow (i : IVec S100000 32) : IVec S100000 32 :=
  select (cmpi .slt i (broadcastInDim S100000 ![] bcast_S_S100000 (constantI S_ 32 0#32)))
    (addi i (broadcastInDim S100000 ![] bcast_S_S100000 (constantI S_ 32 100000#32))) i

def rowIdx (i : IVec S100000 32) : IVec S100000x1 32 :=
  broadcastInDim S100000x1 ![0] bcast_S100000_S100000x1_0 (wrapRow i)

def mapRow (m : IVec S27x100000 32) (k : Fin 27) : IVec S100000 32 :=
  shapeCast S100000 (extractStridedSlice S1x100000 ![k.val, 0] m (slicesMap k)) shapeCasts_row

def weight (W : FVec F S27x64x64 .f32) (k : Fin 27) : FVec F S64x64 .f32 :=
  shapeCast S64x64 (extractStridedSlice S1x64x64 ![k.val, 0, 0] W (slicesWeight k)) shapeCasts_weight

def zeros : FVec F S100000x64 .f32 :=
  broadcastInDim S100000x64 ![] bcast_S_S100000x64 (constant S_ .f32 0x00000000#32)

def convStep (x : FVec F S100000x64 .f32) (W : FVec F S27x64x64 .f32) (im om : IVec S27x100000 32) (k : Fin 27)
    (acc : FVec F S100000x64 .f32) : FVec F S100000x64 .f32 :=
  Host.scatterAdd scatterRows acc (rowIdx (mapRow om k))
    (Host.dotGeneral dotRows none (Host.gather gatherRows x (rowIdx (mapRow im k))) (weight W k))

def convAcc (x : FVec F S100000x64 .f32) (W : FVec F S27x64x64 .f32) (im om : IVec S27x100000 32) :
    (n : ℕ) → n ≤ 27 → FVec F S100000x64 .f32
  | 0, _ => zeros
  | n + 1, h => convStep x W im om ⟨n, h⟩ (convAcc x W im om n (Nat.le_of_succ_le h))

def convR (x : FVec F S100000x64 .f32) (W : FVec F S27x64x64 .f32) (im om : IVec S27x100000 32) : FVec F S100000x64 .f32 :=
  convAcc x W im om 27 (Nat.le_refl _)

theorem convAcc_zero (x : FVec F S100000x64 .f32) (W : FVec F S27x64x64 .f32) (im om : IVec S27x100000 32) (h : 0 ≤ 27) :
    convAcc x W im om 0 h = zeros := rfl

theorem convAcc_succ (x : FVec F S100000x64 .f32) (W : FVec F S27x64x64 .f32) (im om : IVec S27x100000 32) (n : ℕ) (h : n + 1 ≤ 27) :
    convAcc x W im om (n + 1) h = convStep x W im om ⟨n, h⟩ (convAcc x W im om n (Nat.le_of_succ_le h)) := rfl

def batchCol (b : IVec S100000 32) : IVec S100000x1 32 :=
  broadcastInDim S100000x1 ![0] bcast_S100000_S100000x1_0 b

def counts (b : IVec S100000 32) : FVec F S8x1 .f32 :=
  Host.scatterAdd scatterCount (broadcastInDim S8x1 ![] bcast_S_S8x1 (constant S_ .f32 0x00000000#32)) (batchCol b)
    (broadcastInDim S100000x1 ![] bcast_S_S100000x1 (constant S_ .f32 0x3F800000#32))

def batchSum (b : IVec S100000 32) (x : FVec F S100000x64 .f32) : FVec F S8x64 .f32 :=
  Host.scatterAdd scatterBatch (broadcastInDim S8x64 ![] bcast_S_S8x64 (constant S_ .f32 0x00000000#32)) (batchCol b) x

def batchMean (b : IVec S100000 32) (x : FVec F S100000x64 .f32) : FVec F S8x64 .f32 :=
  Host.divf (batchSum b x) (broadcastInDim S8x64 ![0, 1] bcast_S8x1_S8x64_0_1 (counts b))

def wrapBatch (b : IVec S100000 32) : IVec S100000 32 :=
  select (cmpi .slt b (broadcastInDim S100000 ![] bcast_S_S100000 (constantI S_ 32 0#32)))
    (addi b (broadcastInDim S100000 ![] bcast_S_S100000 (constantI S_ 32 8#32))) b

def rowsOf (b : IVec S100000 32) (t : FVec F S8x64 .f32) : FVec F S100000x64 .f32 :=
  Host.gather gatherBatch t (broadcastInDim S100000x1 ![0] bcast_S100000_S100000x1_0 (wrapBatch b))

def centred (b : IVec S100000 32) (x : FVec F S100000x64 .f32) : FVec F S100000x64 .f32 :=
  subf x (rowsOf b (batchMean b x))

def batchVar (b : IVec S100000 32) (x : FVec F S100000x64 .f32) : FVec F S8x64 .f32 :=
  batchMean b (mulf (centred b x) (centred b x))

def normalised (b : IVec S100000 32) (x : FVec F S100000x64 .f32) : FVec F S100000x64 .f32 :=
  mulf (centred b x)
    (Host.rsqrt (addf (rowsOf b (batchVar b x))
      (broadcastInDim S100000x64 ![] bcast_S_S100000x64 (constant S_ .f32 0x3727C5AC#32))))

def affine (g bt : FVec F S64 .f32) (y : FVec F S100000x64 .f32) : FVec F S100000x64 .f32 :=
  addf (mulf y (broadcastInDim S100000x64 ![0, 1] bcast_S1x64_S100000x64_0_1 (broadcastInDim S1x64 ![1] bcast_S64_S1x64_1 g)))
    (broadcastInDim S100000x64 ![0, 1] bcast_S1x64_S100000x64_0_1 (broadcastInDim S1x64 ![1] bcast_S64_S1x64_1 bt))

def leaky (y : FVec F S100000x64 .f32) : FVec F S100000x64 .f32 :=
  select (cmpf (F := F) .ogt y (broadcastInDim S100000x64 ![] bcast_S_S100000x64 (constant S_ .f32 0x00000000#32))) y
    (mulf (broadcastInDim S100000x64 ![] bcast_S_S100000x64 (constant S_ .f32 0x3C23D70A#32)) y)

def normR (g bt : FVec F S64 .f32) (b : IVec S100000 32) (x : FVec F S100000x64 .f32) : FVec F S100000x64 .f32 :=
  leaky (affine g bt (normalised b x))

def normResR (g bt : FVec F S64 .f32) (b : IVec S100000 32) (x res : FVec F S100000x64 .f32) : FVec F S100000x64 .f32 :=
  leaky (addf (affine g bt (normalised b x)) res)

def refG (x : FVec F S100000x64 .f32) (W1 : FVec F S27x64x64 .f32) (g1 b1 : FVec F S64 .f32)
    (W2 : FVec F S27x64x64 .f32) (g2 b2 : FVec F S64 .f32) (im om : IVec S27x100000 32) (b : IVec S100000 32) :
    FVec F S100000x64 .f32 :=
  normResR g2 b2 b (convR (normR g1 b1 b (convR x W1 im om)) W2 im om) x

end Cert.SpecR

end
-- ==== Proof.RefKeep.lean ====
import proofs.«404940_j85761906966882_2_alg».proof.Proof.Gen.ReferenceIdeal
import proofs.«404940_j85761906966882_2_alg».proof.Proof.RefLib
import proofs.«404940_j85761906966882_2_alg».proof.Proof.SpecR

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Every buffer numbered below `n` holds in `V` what it held in `V₀`. -/
def Below (n : ℕ) (V V₀ : Valuation τ sig (Elt F)) : Prop :=
  ∀ r : Ref sig .tc, r.idx.val < n → V (Proc.devRef .tc r) = V₀ (Proc.devRef .tc r)

theorem Below.refl (n : ℕ) (V : Valuation τ sig (Elt F)) : Below n V V := fun _ _ => rfl

theorem Below.trans {n m : ℕ} {V V₁ V₀ : Valuation τ sig (Elt F)} (h : Below n V V₁) (h₀ : Below m V₁ V₀) (hm : m ≤ n) : Below m V V₀ :=
  fun r hr => (h r (Nat.lt_of_lt_of_le hr hm)).trans (h₀ r hr)

-- Operations that write only buffers numbered from `n` on leave those below `n`.
theorem Below.after {n : ℕ} {V V₀ : Valuation τ sig (Elt F)} (h : Below n V V₀) {L : List (HloOp τ sig (Elt F))} {W : List (Ref sig .tc)}
    (hK : Keeps L W) (hW : W.Forall fun w => n ≤ w.idx.val) : Below n (StableHlo.after L V) V₀ :=
  fun r hr => (hK V r fun hm => Nat.not_le.2 hr (List.forall_iff_forall_mem.1 hW r hm)).trans (h r hr)

/-- After `k` offsets the running sum `a` is `convAcc … k` of the inputs `x w i j`, which `g` reads from any contents that agree with `VB` below `n`, as `V` does. -/
structure ConvAt (n : ℕ) (g : Valuation τ sig (Elt F) → Fin 27 → FVec F SpecR.S100000x64 .f32 → FVec F SpecR.S100000x64 .f32)
    (x : FVec F SpecR.S100000x64 .f32) (w : FVec F SpecR.S27x64x64 .f32) (i j : IVec SpecR.S27x100000 32) (k : ℕ) (hk : k ≤ 27)
    (a : FVec F SpecR.S100000x64 .f32) (V VB : Valuation τ sig (Elt F)) : Prop where
  acc : a = SpecR.convAcc x w i j k hk
  low : Below n V VB
  rd : ∀ V', Below n V' VB → g V' = SpecR.convStep x w i j

-- One offset: operations that take the running sum by offset `k`'s step and write nothing below `n` take `convAcc … k` to `convAcc … (k + 1)`.
theorem ConvAt.step {n : ℕ} {g : Valuation τ sig (Elt F) → Fin 27 → FVec F SpecR.S100000x64 .f32 → FVec F SpecR.S100000x64 .f32}
    {x : FVec F SpecR.S100000x64 .f32} {w : FVec F SpecR.S27x64x64 .f32} {i j : IVec SpecR.S27x100000 32} {k : ℕ} {hk : k < 27}
    {a b : FVec F SpecR.S100000x64 .f32} {V VB : Valuation τ sig (Elt F)} (h : ConvAt n g x w i j k hk.le a V VB)
    {L : List (HloOp τ sig (Elt F))} {W : List (Ref sig .tc)} (hK : Keeps L W) (hW : W.Forall fun w => n ≤ w.idx.val)
    (hb : b = g V ⟨k, hk⟩ a) : ConvAt n g x w i j (k + 1) hk b (StableHlo.after L V) VB :=
  ⟨by rw [hb, h.rd V h.low, h.acc, SpecR.convAcc_succ], h.low.after hK hW, h.rd⟩

/-- Convolution 1's step, its inputs read from `V`. -/
def step1 (V : Valuation τ sig (Elt F)) : Fin 27 → FVec F SpecR.S100000x64 .f32 → FVec F SpecR.S100000x64 .f32 :=
  SpecR.convStep (V (Proc.devRef .tc main_arg0)) (V (Proc.devRef .tc main_arg1)) (V (Proc.devRef .tc main_arg7)) (V (Proc.devRef .tc main_arg8))

theorem step1_rd (VB V : Valuation τ sig (Elt F)) (h : Below 10 V VB) :
    step1 V = SpecR.convStep (VB (Proc.devRef .tc main_arg0)) (VB (Proc.devRef .tc main_arg1)) (VB (Proc.devRef .tc main_arg7)) (VB (Proc.devRef .tc main_arg8)) := by
  rw [step1, h main_arg0 (by decide), h main_arg1 (by decide), h main_arg7 (by decide), h main_arg8 (by decide)]

/-- Convolution 2's step: its first input is the first normalisation's result. -/
def step2 (V : Valuation τ sig (Elt F)) : Fin 27 → FVec F SpecR.S100000x64 .f32 → FVec F SpecR.S100000x64 .f32 :=
  SpecR.convStep (V (Proc.devRef .tc main_v612)) (V (Proc.devRef .tc main_arg4)) (V (Proc.devRef .tc main_arg7)) (V (Proc.devRef .tc main_arg8))

theorem step2_rd (VB V : Valuation τ sig (Elt F)) (h : Below 743 V VB) :
    step2 V = SpecR.convStep (VB (Proc.devRef .tc main_v612)) (VB (Proc.devRef .tc main_arg4)) (VB (Proc.devRef .tc main_arg7)) (VB (Proc.devRef .tc main_arg8)) := by
  rw [step2, h main_v612 (by decide), h main_arg4 (by decide), h main_arg7 (by decide), h main_arg8 (by decide)]

end Cert.ReferenceIdeal.Value

end
-- ==== Proof.RefConv1a.lean ====
import proofs.«404940_j85761906966882_2_alg».proof.Proof.RefW00
import proofs.«404940_j85761906966882_2_alg».proof.Proof.RefW01
import proofs.«404940_j85761906966882_2_alg».proof.Proof.RefW02
import proofs.«404940_j85761906966882_2_alg».proof.Proof.RefW03
import proofs.«404940_j85761906966882_2_alg».proof.Proof.RefKeep

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem c1s0_val (V : Valuation τ sig (Elt F)) :
    after sg1 V (Proc.devRef .tc main_v21) = step1 V ⟨0, by decide⟩ (V (Proc.devRef .tc main_v0)) := by
  simp only [step1, sg1, List.cons_append, List.nil_append]
  after_results_simp
  all_goals rfl

theorem c1s1_val (V : Valuation τ sig (Elt F)) :
    after sg2 V (Proc.devRef .tc main_v42) = step1 V ⟨1, by decide⟩ (V (Proc.devRef .tc main_v21)) := by
  simp only [step1, sg2, List.cons_append, List.nil_append]
  after_results_simp
  all_goals rfl

theorem c1s2_val (V : Valuation τ sig (Elt F)) :
    after (sg3 ++ sg4) V (Proc.devRef .tc main_v63) = step1 V ⟨2, by decide⟩ (V (Proc.devRef .tc main_v42)) := by
  simp only [step1, sg3, sg4, List.cons_append, List.nil_append]
  after_results_simp
  all_goals rfl

theorem c1s3_val (V : Valuation τ sig (Elt F)) :
    after sg5 V (Proc.devRef .tc main_v84) = step1 V ⟨3, by decide⟩ (V (Proc.devRef .tc main_v63)) := by
  simp only [step1, sg5, List.cons_append, List.nil_append]
  after_results_simp
  all_goals rfl

theorem c1s4_val (V : Valuation τ sig (Elt F)) :
    after (sg6 ++ sg7) V (Proc.devRef .tc main_v105) = step1 V ⟨4, by decide⟩ (V (Proc.devRef .tc main_v84)) := by
  simp only [step1, sg6, sg7, List.cons_append, List.nil_append]
  after_results_simp
  all_goals rfl

theorem c1s5_val (V : Valuation τ sig (Elt F)) :
    after sg8 V (Proc.devRef .tc main_v126) = step1 V ⟨5, by decide⟩ (V (Proc.devRef .tc main_v105)) := by
  simp only [step1, sg8, List.cons_append, List.nil_append]
  after_results_simp
  all_goals rfl

theorem c1s6_val (V : Valuation τ sig (Elt F)) :
    after sg9 V (Proc.devRef .tc main_v147) = step1 V ⟨6, by decide⟩ (V (Proc.devRef .tc main_v126)) := by
  simp only [step1, sg9, List.cons_append, List.nil_append]
  after_results_simp
  all_goals rfl

theorem c1s7_val (V : Valuation τ sig (Elt F)) :
    after (sg10 ++ sg11) V (Proc.devRef .tc main_v168) = step1 V ⟨7, by decide⟩ (V (Proc.devRef .tc main_v147)) := by
  simp only [step1, sg10, sg11, List.cons_append, List.nil_append]
  after_results_simp
  all_goals rfl

theorem c1s8_val (V : Valuation τ sig (Elt F)) :
    after sg12 V (Proc.devRef .tc main_v189) = step1 V ⟨8, by decide⟩ (V (Proc.devRef .tc main_v168)) := by
  simp only [step1, sg12, List.cons_append, List.nil_append]
  after_results_simp
  all_goals rfl

end Cert.ReferenceIdeal.Value

end
-- ==== Proof.RefConv1b.lean ====
import proofs.«404940_j85761906966882_2_alg».proof.Proof.RefW03
import proofs.«404940_j85761906966882_2_alg».proof.Proof.RefW04
import proofs.«404940_j85761906966882_2_alg».proof.Proof.RefW05
import proofs.«404940_j85761906966882_2_alg».proof.Proof.RefW06
import proofs.«404940_j85761906966882_2_alg».proof.Proof.RefW07
import proofs.«404940_j85761906966882_2_alg».proof.Proof.RefKeep

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem c1s9_val (V : Valuation τ sig (Elt F)) :
    after (sg13 ++ sg14) V (Proc.devRef .tc main_v210) = step1 V ⟨9, by decide⟩ (V (Proc.devRef .tc main_v189)) := by
  simp only [step1, sg13, sg14, List.cons_append, List.nil_append]
  after_results_simp
  all_goals rfl

theorem c1s10_val (V : Valuation τ sig (Elt F)) :
    after sg15 V (Proc.devRef .tc main_v231) = step1 V ⟨10, by decide⟩ (V (Proc.devRef .tc main_v210)) := by
  simp only [step1, sg15, List.cons_append, List.nil_append]
  after_results_simp
  all_goals rfl

theorem c1s11_val (V : Valuation τ sig (Elt F)) :
    after (sg16 ++ sg17) V (Proc.devRef .tc main_v252) = step1 V ⟨11, by decide⟩ (V (Proc.devRef .tc main_v231)) := by
  simp only [step1, sg16, sg17, List.cons_append, List.nil_append]
  after_results_simp
  all_goals rfl

theorem c1s12_val (V : Valuation τ sig (Elt F)) :
    after sg18 V (Proc.devRef .tc main_v273) = step1 V ⟨12, by decide⟩ (V (Proc.devRef .tc main_v252)) := by
  simp only [step1, sg18, List.cons_append, List.nil_append]
  after_results_simp
  all_goals rfl

theorem c1s13_val (V : Valuation τ sig (Elt F)) :
    after sg19 V (Proc.devRef .tc main_v294) = step1 V ⟨13, by decide⟩ (V (Proc.devRef .tc main_v273)) := by
  simp only [step1, sg19, List.cons_append, List.nil_append]
  after_results_simp
  all_goals rfl

theorem c1s14_val (V : Valuation τ sig (Elt F)) :
    after (sg20 ++ sg21) V (Proc.devRef .tc main_v315) = step1 V ⟨14, by decide⟩ (V (Proc.devRef .tc main_v294)) := by
  simp only [step1, sg20, sg21, List.cons_append, List.nil_append]
  after_results_simp
  all_goals rfl

theorem c1s15_val (V : Valuation τ sig (Elt F)) :
    after sg22 V (Proc.devRef .tc main_v336) = step1 V ⟨15, by decide⟩ (V (Proc.devRef .tc main_v315)) := by
  simp only [step1, sg22, List.cons_append, List.nil_append]
  after_results_simp
  all_goals rfl

theorem c1s16_val (V : Valuation τ sig (Elt F)) :
    after (sg23 ++ sg24) V (Proc.devRef .tc main_v357) = step1 V ⟨16, by decide⟩ (V (Proc.devRef .tc main_v336)) := by
  simp only [step1, sg23, sg24, List.cons_append, List.nil_append]
  after_results_simp
  all_goals rfl

theorem c1s17_val (V : Valuation τ sig (Elt F)) :
    after sg25 V (Proc.devRef .tc main_v378) = step1 V ⟨17, by decide⟩ (V (Proc.devRef .tc main_v357)) := by
  simp only [step1, sg25, List.cons_append, List.nil_append]
  after_results_simp
  all_goals rfl

end Cert.ReferenceIdeal.Value

end
-- ==== Proof.RefConv1c.lean ====
import proofs.«404940_j85761906966882_2_alg».proof.Proof.RefW07
import proofs.«404940_j85761906966882_2_alg».proof.Proof.RefW08
import proofs.«404940_j85761906966882_2_alg».proof.Proof.RefW09
import proofs.«404940_j85761906966882_2_alg».proof.Proof.RefW10
import proofs.«404940_j85761906966882_2_alg».proof.Proof.RefW11
import proofs.«404940_j85761906966882_2_alg».proof.Proof.RefKeep

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem c1s18_val (V : Valuation τ sig (Elt F)) :
    after sg26 V (Proc.devRef .tc main_v399) = step1 V ⟨18, by decide⟩ (V (Proc.devRef .tc main_v378)) := by
  simp only [step1, sg26, List.cons_append, List.nil_append]
  after_results_simp
  all_goals rfl

theorem c1s19_val (V : Valuation τ sig (Elt F)) :
    after (sg27 ++ sg28) V (Proc.devRef .tc main_v420) = step1 V ⟨19, by decide⟩ (V (Proc.devRef .tc main_v399)) := by
  simp only [step1, sg27, sg28, List.cons_append, List.nil_append]
  after_results_simp
  all_goals rfl

theorem c1s20_val (V : Valuation τ sig (Elt F)) :
    after sg29 V (Proc.devRef .tc main_v441) = step1 V ⟨20, by decide⟩ (V (Proc.devRef .tc main_v420)) := by
  simp only [step1, sg29, List.cons_append, List.nil_append]
  after_results_simp
  all_goals rfl

theorem c1s21_val (V : Valuation τ sig (Elt F)) :
    after (sg30 ++ sg31) V (Proc.devRef .tc main_v462) = step1 V ⟨21, by decide⟩ (V (Proc.devRef .tc main_v441)) := by
  simp only [step1, sg30, sg31, List.cons_append, List.nil_append]
  after_results_simp
  all_goals rfl

theorem c1s22_val (V : Valuation τ sig (Elt F)) :
    after sg32 V (Proc.devRef .tc main_v483) = step1 V ⟨22, by decide⟩ (V (Proc.devRef .tc main_v462)) := by
  simp only [step1, sg32, List.cons_append, List.nil_append]
  after_results_simp
  all_goals rfl

theorem c1s23_val (V : Valuation τ sig (Elt F)) :
    after (sg33 ++ sg34) V (Proc.devRef .tc main_v504) = step1 V ⟨23, by decide⟩ (V (Proc.devRef .tc main_v483)) := by
  simp only [step1, sg33, sg34, List.cons_append, List.nil_append]
  after_results_simp
  all_goals rfl

theorem c1s24_val (V : Valuation τ sig (Elt F)) :
    after sg35 V (Proc.devRef .tc main_v525) = step1 V ⟨24, by decide⟩ (V (Proc.devRef .tc main_v504)) := by
  simp only [step1, sg35, List.cons_append, List.nil_append]
  after_results_simp
  all_goals rfl

theorem c1s25_val (V : Valuation τ sig (Elt F)) :
    after sg36 V (Proc.devRef .tc main_v546) = step1 V ⟨25, by decide⟩ (V (Proc.devRef .tc main_v525)) := by
  simp only [step1, sg36, List.cons_append, List.nil_append]
  after_results_simp
  all_goals rfl

theorem c1s26_val (V : Valuation τ sig (Elt F)) :
    after (sg37 ++ sg38) V (Proc.devRef .tc main_v567) = step1 V ⟨26, by decide⟩ (V (Proc.devRef .tc main_v546)) := by
  simp only [step1, sg37, sg38, List.cons_append, List.nil_append]
  after_results_simp
  all_goals rfl

end Cert.ReferenceIdeal.Value

end
-- ==== Proof.RefNorm1.lean ====
import proofs.«404940_j85761906966882_2_alg».proof.Proof.RefW00
import proofs.«404940_j85761906966882_2_alg».proof.Proof.RefW11
import proofs.«404940_j85761906966882_2_alg».proof.Proof.RefW12
import proofs.«404940_j85761906966882_2_alg».proof.Proof.SpecR

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem pre1_val (V : Valuation τ sig (Elt F)) :
    after sg0 V (Proc.devRef .tc main_v0) = (SpecR.zeros : FVec F SpecR.S100000x64 .f32) := by
  simp only [sg0, List.cons_append, List.nil_append]
  after_results_simp
  all_goals rfl

theorem nrm1_val (V : Valuation τ sig (Elt F)) :
    after (sg39 ++ sg40) V (Proc.devRef .tc main_v612) = SpecR.normR (V (Proc.devRef .tc main_arg2)) (V (Proc.devRef .tc main_arg3)) (V (Proc.devRef .tc main_arg9)) (V (Proc.devRef .tc main_v567)) := by
  simp only [sg39, sg40, List.cons_append, List.nil_append]
  after_results_simp
  all_goals (try simp only [TRef.ofBuf, TRef.toBuf, cast_eq])
  all_goals rfl

end Cert.ReferenceIdeal.Value

end
-- ==== Proof.RefChain1.lean ====
import proofs.«404940_j85761906966882_2_alg».proof.Proof.RefConv1a
import proofs.«404940_j85761906966882_2_alg».proof.Proof.RefConv1b
import proofs.«404940_j85761906966882_2_alg».proof.Proof.RefConv1c
import proofs.«404940_j85761906966882_2_alg».proof.Proof.RefNorm1

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

attribute [local irreducible] StableHlo.after

/-- The contents after convolution 1: the zero array, then the 27 offsets in turn. -/
def c1v27 (V : Valuation τ sig (Elt F)) : Valuation τ sig (Elt F) :=
  after (sg37 ++ sg38) (after sg36 (after sg35 (after (sg33 ++ sg34) (after sg32 (after (sg30 ++ sg31) (after sg29 (after (sg27 ++ sg28) (after sg26 (after sg25 (after (sg23 ++ sg24) (after sg22 (after (sg20 ++ sg21) (after sg19 (after sg18 (after (sg16 ++ sg17) (after sg15 (after (sg13 ++ sg14) (after sg12 (after (sg10 ++ sg11) (after sg9 (after sg8 (after (sg6 ++ sg7) (after sg5 (after (sg3 ++ sg4) (after sg2 (after sg1 (after sg0 V)))))))))))))))))))))))))))

theorem c1v0_at (VB : Valuation τ sig (Elt F)) :
    ConvAt 10 step1 (VB (Proc.devRef .tc main_arg0)) (VB (Proc.devRef .tc main_arg1)) (VB (Proc.devRef .tc main_arg7)) (VB (Proc.devRef .tc main_arg8)) 0 (Nat.zero_le _) (after sg0 VB (Proc.devRef .tc main_v0)) (after sg0 VB) VB :=
  ⟨pre1_val VB, (Below.refl 10 VB).after sg0_keeps (by simp only [sg0_W, List.Forall]; decide), step1_rd VB⟩

theorem c1v27_at (VB : Valuation τ sig (Elt F)) :
    ConvAt 10 step1 (VB (Proc.devRef .tc main_arg0)) (VB (Proc.devRef .tc main_arg1)) (VB (Proc.devRef .tc main_arg7)) (VB (Proc.devRef .tc main_arg8)) 27 (by decide) (c1v27 VB (Proc.devRef .tc main_v567)) (c1v27 VB) VB :=
  c1v0_at VB
    |>.step sg1_keeps (by simp only [sg1_W, List.Forall]; decide) (c1s0_val _)
    |>.step sg2_keeps (by simp only [sg2_W, List.Forall]; decide) (c1s1_val _)
    |>.step (sg3_keeps.append sg4_keeps) (by simp only [sg3_W, sg4_W, List.cons_append, List.nil_append, List.Forall]; decide) (c1s2_val _)
    |>.step sg5_keeps (by simp only [sg5_W, List.Forall]; decide) (c1s3_val _)
    |>.step (sg6_keeps.append sg7_keeps) (by simp only [sg6_W, sg7_W, List.cons_append, List.nil_append, List.Forall]; decide) (c1s4_val _)
    |>.step sg8_keeps (by simp only [sg8_W, List.Forall]; decide) (c1s5_val _)
    |>.step sg9_keeps (by simp only [sg9_W, List.Forall]; decide) (c1s6_val _)
    |>.step (sg10_keeps.append sg11_keeps) (by simp only [sg10_W, sg11_W, List.cons_append, List.nil_append, List.Forall]; decide) (c1s7_val _)
    |>.step sg12_keeps (by simp only [sg12_W, List.Forall]; decide) (c1s8_val _)
    |>.step (sg13_keeps.append sg14_keeps) (by simp only [sg13_W, sg14_W, List.cons_append, List.nil_append, List.Forall]; decide) (c1s9_val _)
    |>.step sg15_keeps (by simp only [sg15_W, List.Forall]; decide) (c1s10_val _)
    |>.step (sg16_keeps.append sg17_keeps) (by simp only [sg16_W, sg17_W, List.cons_append, List.nil_append, List.Forall]; decide) (c1s11_val _)
    |>.step sg18_keeps (by simp only [sg18_W, List.Forall]; decide) (c1s12_val _)
    |>.step sg19_keeps (by simp only [sg19_W, List.Forall]; decide) (c1s13_val _)
    |>.step (sg20_keeps.append sg21_keeps) (by simp only [sg20_W, sg21_W, List.cons_append, List.nil_append, List.Forall]; decide) (c1s14_val _)
    |>.step sg22_keeps (by simp only [sg22_W, List.Forall]; decide) (c1s15_val _)
    |>.step (sg23_keeps.append sg24_keeps) (by simp only [sg23_W, sg24_W, List.cons_append, List.nil_append, List.Forall]; decide) (c1s16_val _)
    |>.step sg25_keeps (by simp only [sg25_W, List.Forall]; decide) (c1s17_val _)
    |>.step sg26_keeps (by simp only [sg26_W, List.Forall]; decide) (c1s18_val _)
    |>.step (sg27_keeps.append sg28_keeps) (by simp only [sg27_W, sg28_W, List.cons_append, List.nil_append, List.Forall]; decide) (c1s19_val _)
    |>.step sg29_keeps (by simp only [sg29_W, List.Forall]; decide) (c1s20_val _)
    |>.step (sg30_keeps.append sg31_keeps) (by simp only [sg30_W, sg31_W, List.cons_append, List.nil_append, List.Forall]; decide) (c1s21_val _)
    |>.step sg32_keeps (by simp only [sg32_W, List.Forall]; decide) (c1s22_val _)
    |>.step (sg33_keeps.append sg34_keeps) (by simp only [sg33_W, sg34_W, List.cons_append, List.nil_append, List.Forall]; decide) (c1s23_val _)
    |>.step sg35_keeps (by simp only [sg35_W, List.Forall]; decide) (c1s24_val _)
    |>.step sg36_keeps (by simp only [sg36_W, List.Forall]; decide) (c1s25_val _)
    |>.step (sg37_keeps.append sg38_keeps) (by simp only [sg37_W, sg38_W, List.cons_append, List.nil_append, List.Forall]; decide) (c1s26_val _)

end Cert.ReferenceIdeal.Value

end
-- ==== Proof.RefConv2a.lean ====
import proofs.«404940_j85761906966882_2_alg».proof.Proof.RefW12
import proofs.«404940_j85761906966882_2_alg».proof.Proof.RefW13
import proofs.«404940_j85761906966882_2_alg».proof.Proof.RefW14
import proofs.«404940_j85761906966882_2_alg».proof.Proof.RefW15
import proofs.«404940_j85761906966882_2_alg».proof.Proof.RefKeep

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem c2s0_val (V : Valuation τ sig (Elt F)) :
    after sg42 V (Proc.devRef .tc main_v634) = step2 V ⟨0, by decide⟩ (V (Proc.devRef .tc main_v613)) := by
  simp only [step2, sg42, List.cons_append, List.nil_append]
  after_results_simp
  all_goals rfl

theorem c2s1_val (V : Valuation τ sig (Elt F)) :
    after (sg43 ++ sg44) V (Proc.devRef .tc main_v655) = step2 V ⟨1, by decide⟩ (V (Proc.devRef .tc main_v634)) := by
  simp only [step2, sg43, sg44, List.cons_append, List.nil_append]
  after_results_simp
  all_goals rfl

theorem c2s2_val (V : Valuation τ sig (Elt F)) :
    after sg45 V (Proc.devRef .tc main_v676) = step2 V ⟨2, by decide⟩ (V (Proc.devRef .tc main_v655)) := by
  simp only [step2, sg45, List.cons_append, List.nil_append]
  after_results_simp
  all_goals rfl

theorem c2s3_val (V : Valuation τ sig (Elt F)) :
    after sg46 V (Proc.devRef .tc main_v697) = step2 V ⟨3, by decide⟩ (V (Proc.devRef .tc main_v676)) := by
  simp only [step2, sg46, List.cons_append, List.nil_append]
  after_results_simp
  all_goals rfl

theorem c2s4_val (V : Valuation τ sig (Elt F)) :
    after (sg47 ++ sg48) V (Proc.devRef .tc main_v718) = step2 V ⟨4, by decide⟩ (V (Proc.devRef .tc main_v697)) := by
  simp only [step2, sg47, sg48, List.cons_append, List.nil_append]
  after_results_simp
  all_goals rfl

theorem c2s5_val (V : Valuation τ sig (Elt F)) :
    after sg49 V (Proc.devRef .tc main_v739) = step2 V ⟨5, by decide⟩ (V (Proc.devRef .tc main_v718)) := by
  simp only [step2, sg49, List.cons_append, List.nil_append]
  after_results_simp
  all_goals rfl

theorem c2s6_val (V : Valuation τ sig (Elt F)) :
    after (sg50 ++ sg51) V (Proc.devRef .tc main_v760) = step2 V ⟨6, by decide⟩ (V (Proc.devRef .tc main_v739)) := by
  simp only [step2, sg50, sg51, List.cons_append, List.nil_append]
  after_results_simp
  all_goals rfl

theorem c2s7_val (V : Valuation τ sig (Elt F)) :
    after sg52 V (Proc.devRef .tc main_v781) = step2 V ⟨7, by decide⟩ (V (Proc.devRef .tc main_v760)) := by
  simp only [step2, sg52, List.cons_append, List.nil_append]
  after_results_simp
  all_goals rfl

theorem c2s8_val (V : Valuation τ sig (Elt F)) :
    after sg53 V (Proc.devRef .tc main_v802) = step2 V ⟨8, by decide⟩ (V (Proc.devRef .tc main_v781)) := by
  simp only [step2, sg53, List.cons_append, List.nil_append]
  after_results_simp
  all_goals rfl

end Cert.ReferenceIdeal.Value

end
-- ==== Proof.RefConv2b.lean ====
import proofs.«404940_j85761906966882_2_alg».proof.Proof.RefW16
import proofs.«404940_j85761906966882_2_alg».proof.Proof.RefW17
import proofs.«404940_j85761906966882_2_alg».proof.Proof.RefW18
import proofs.«404940_j85761906966882_2_alg».proof.Proof.RefW19
import proofs.«404940_j85761906966882_2_alg».proof.Proof.RefKeep

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem c2s9_val (V : Valuation τ sig (Elt F)) :
    after sg54 V (Proc.devRef .tc main_v823) = step2 V ⟨9, by decide⟩ (V (Proc.devRef .tc main_v802)) := by
  simp only [step2, sg54, List.cons_append, List.nil_append]
  after_results_simp
  all_goals rfl

theorem c2s10_val (V : Valuation τ sig (Elt F)) :
    after sg55 V (Proc.devRef .tc main_v844) = step2 V ⟨10, by decide⟩ (V (Proc.devRef .tc main_v823)) := by
  simp only [step2, sg55, List.cons_append, List.nil_append]
  after_results_simp
  all_goals rfl

theorem c2s11_val (V : Valuation τ sig (Elt F)) :
    after (sg56 ++ sg57) V (Proc.devRef .tc main_v865) = step2 V ⟨11, by decide⟩ (V (Proc.devRef .tc main_v844)) := by
  simp only [step2, sg56, sg57, List.cons_append, List.nil_append]
  after_results_simp
  all_goals rfl

theorem c2s12_val (V : Valuation τ sig (Elt F)) :
    after sg58 V (Proc.devRef .tc main_v886) = step2 V ⟨12, by decide⟩ (V (Proc.devRef .tc main_v865)) := by
  simp only [step2, sg58, List.cons_append, List.nil_append]
  after_results_simp
  all_goals rfl

theorem c2s13_val (V : Valuation τ sig (Elt F)) :
    after (sg59 ++ sg60) V (Proc.devRef .tc main_v907) = step2 V ⟨13, by decide⟩ (V (Proc.devRef .tc main_v886)) := by
  simp only [step2, sg59, sg60, List.cons_append, List.nil_append]
  after_results_simp
  all_goals rfl

theorem c2s14_val (V : Valuation τ sig (Elt F)) :
    after sg61 V (Proc.devRef .tc main_v928) = step2 V ⟨14, by decide⟩ (V (Proc.devRef .tc main_v907)) := by
  simp only [step2, sg61, List.cons_append, List.nil_append]
  after_results_simp
  all_goals rfl

theorem c2s15_val (V : Valuation τ sig (Elt F)) :
    after sg62 V (Proc.devRef .tc main_v949) = step2 V ⟨15, by decide⟩ (V (Proc.devRef .tc main_v928)) := by
  simp only [step2, sg62, List.cons_append, List.nil_append]
  after_results_simp
  all_goals rfl

theorem c2s16_val (V : Valuation τ sig (Elt F)) :
    after (sg63 ++ sg64) V (Proc.devRef .tc main_v970) = step2 V ⟨16, by decide⟩ (V (Proc.devRef .tc main_v949)) := by
  simp only [step2, sg63, sg64, List.cons_append, List.nil_append]
  after_results_simp
  all_goals rfl

theorem c2s17_val (V : Valuation τ sig (Elt F)) :
    after sg65 V (Proc.devRef .tc main_v991) = step2 V ⟨17, by decide⟩ (V (Proc.devRef .tc main_v970)) := by
  simp only [step2, sg65, List.cons_append, List.nil_append]
  after_results_simp
  all_goals rfl

end Cert.ReferenceIdeal.Value

end
-- ==== Proof.RefConv2c.lean ====
import proofs.«404940_j85761906966882_2_alg».proof.Proof.RefW19
import proofs.«404940_j85761906966882_2_alg».proof.Proof.RefW20
import proofs.«404940_j85761906966882_2_alg».proof.Proof.RefW21
import proofs.«404940_j85761906966882_2_alg».proof.Proof.RefW22
import proofs.«404940_j85761906966882_2_alg».proof.Proof.RefW23
import proofs.«404940_j85761906966882_2_alg».proof.Proof.RefKeep

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem c2s18_val (V : Valuation τ sig (Elt F)) :
    after (sg66 ++ sg67) V (Proc.devRef .tc main_v1012) = step2 V ⟨18, by decide⟩ (V (Proc.devRef .tc main_v991)) := by
  simp only [step2, sg66, sg67, List.cons_append, List.nil_append]
  after_results_simp
  all_goals rfl

theorem c2s19_val (V : Valuation τ sig (Elt F)) :
    after sg68 V (Proc.devRef .tc main_v1033) = step2 V ⟨19, by decide⟩ (V (Proc.devRef .tc main_v1012)) := by
  simp only [step2, sg68, List.cons_append, List.nil_append]
  after_results_simp
  all_goals rfl

theorem c2s20_val (V : Valuation τ sig (Elt F)) :
    after sg69 V (Proc.devRef .tc main_v1054) = step2 V ⟨20, by decide⟩ (V (Proc.devRef .tc main_v1033)) := by
  simp only [step2, sg69, List.cons_append, List.nil_append]
  after_results_simp
  all_goals rfl

theorem c2s21_val (V : Valuation τ sig (Elt F)) :
    after sg70 V (Proc.devRef .tc main_v1075) = step2 V ⟨21, by decide⟩ (V (Proc.devRef .tc main_v1054)) := by
  simp only [step2, sg70, List.cons_append, List.nil_append]
  after_results_simp
  all_goals rfl

theorem c2s22_val (V : Valuation τ sig (Elt F)) :
    after sg71 V (Proc.devRef .tc main_v1096) = step2 V ⟨22, by decide⟩ (V (Proc.devRef .tc main_v1075)) := by
  simp only [step2, sg71, List.cons_append, List.nil_append]
  after_results_simp
  all_goals rfl

theorem c2s23_val (V : Valuation τ sig (Elt F)) :
    after (sg72 ++ sg73) V (Proc.devRef .tc main_v1117) = step2 V ⟨23, by decide⟩ (V (Proc.devRef .tc main_v1096)) := by
  simp only [step2, sg72, sg73, List.cons_append, List.nil_append]
  after_results_simp
  all_goals rfl

theorem c2s24_val (V : Valuation τ sig (Elt F)) :
    after sg74 V (Proc.devRef .tc main_v1138) = step2 V ⟨24, by decide⟩ (V (Proc.devRef .tc main_v1117)) := by
  simp only [step2, sg74, List.cons_append, List.nil_append]
  after_results_simp
  all_goals rfl

theorem c2s25_val (V : Valuation τ sig (Elt F)) :
    after (sg75 ++ sg76) V (Proc.devRef .tc main_v1159) = step2 V ⟨25, by decide⟩ (V (Proc.devRef .tc main_v1138)) := by
  simp only [step2, sg75, sg76, List.cons_append, List.nil_append]
  after_results_simp
  all_goals rfl

theorem c2s26_val (V : Valuation τ sig (Elt F)) :
    after sg77 V (Proc.devRef .tc main_v1180) = step2 V ⟨26, by decide⟩ (V (Proc.devRef .tc main_v1159)) := by
  simp only [step2, sg77, List.cons_append, List.nil_append]
  after_results_simp
  all_goals rfl

end Cert.ReferenceIdeal.Value

end
-- ==== Proof.RefNorm2.lean ====
import proofs.«404940_j85761906966882_2_alg».proof.Proof.RefW12
import proofs.«404940_j85761906966882_2_alg».proof.Proof.RefW23
import proofs.«404940_j85761906966882_2_alg».proof.Proof.RefW24
import proofs.«404940_j85761906966882_2_alg».proof.Proof.SpecR

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem pre2_val (V : Valuation τ sig (Elt F)) :
    after sg41 V (Proc.devRef .tc main_v613) = (SpecR.zeros : FVec F SpecR.S100000x64 .f32) := by
  simp only [sg41, List.cons_append, List.nil_append]
  after_results_simp
  all_goals rfl

theorem nrm2_val (V : Valuation τ sig (Elt F)) :
    after (sg78 ++ sg79) V (Proc.devRef .tc main_v1226) = SpecR.normResR (V (Proc.devRef .tc main_arg5)) (V (Proc.devRef .tc main_arg6)) (V (Proc.devRef .tc main_arg9)) (V (Proc.devRef .tc main_v1180)) (V (Proc.devRef .tc main_arg0)) := by
  simp only [sg78, sg79, List.cons_append, List.nil_append]
  after_results_simp
  all_goals (try simp only [TRef.ofBuf, TRef.toBuf, cast_eq])
  all_goals rfl

end Cert.ReferenceIdeal.Value

end
-- ==== Proof.RefChain2.lean ====
import proofs.«404940_j85761906966882_2_alg».proof.Proof.RefConv2a
import proofs.«404940_j85761906966882_2_alg».proof.Proof.RefConv2b
import proofs.«404940_j85761906966882_2_alg».proof.Proof.RefConv2c
import proofs.«404940_j85761906966882_2_alg».proof.Proof.RefNorm2

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

attribute [local irreducible] StableHlo.after

/-- The contents after convolution 2: the zero array, then the 27 offsets in turn. -/
def c2v27 (V : Valuation τ sig (Elt F)) : Valuation τ sig (Elt F) :=
  after sg77 (after (sg75 ++ sg76) (after sg74 (after (sg72 ++ sg73) (after sg71 (after sg70 (after sg69 (after sg68 (after (sg66 ++ sg67) (after sg65 (after (sg63 ++ sg64) (after sg62 (after sg61 (after (sg59 ++ sg60) (after sg58 (after (sg56 ++ sg57) (after sg55 (after sg54 (after sg53 (after sg52 (after (sg50 ++ sg51) (after sg49 (after (sg47 ++ sg48) (after sg46 (after sg45 (after (sg43 ++ sg44) (after sg42 (after sg41 V)))))))))))))))))))))))))))

theorem c2v0_at (VB : Valuation τ sig (Elt F)) :
    ConvAt 743 step2 (VB (Proc.devRef .tc main_v612)) (VB (Proc.devRef .tc main_arg4)) (VB (Proc.devRef .tc main_arg7)) (VB (Proc.devRef .tc main_arg8)) 0 (Nat.zero_le _) (after sg41 VB (Proc.devRef .tc main_v613)) (after sg41 VB) VB :=
  ⟨pre2_val VB, (Below.refl 743 VB).after sg41_keeps (by simp only [sg41_W, List.Forall]; decide), step2_rd VB⟩

theorem c2v27_at (VB : Valuation τ sig (Elt F)) :
    ConvAt 743 step2 (VB (Proc.devRef .tc main_v612)) (VB (Proc.devRef .tc main_arg4)) (VB (Proc.devRef .tc main_arg7)) (VB (Proc.devRef .tc main_arg8)) 27 (by decide) (c2v27 VB (Proc.devRef .tc main_v1180)) (c2v27 VB) VB :=
  c2v0_at VB
    |>.step sg42_keeps (by simp only [sg42_W, List.Forall]; decide) (c2s0_val _)
    |>.step (sg43_keeps.append sg44_keeps) (by simp only [sg43_W, sg44_W, List.cons_append, List.nil_append, List.Forall]; decide) (c2s1_val _)
    |>.step sg45_keeps (by simp only [sg45_W, List.Forall]; decide) (c2s2_val _)
    |>.step sg46_keeps (by simp only [sg46_W, List.Forall]; decide) (c2s3_val _)
    |>.step (sg47_keeps.append sg48_keeps) (by simp only [sg47_W, sg48_W, List.cons_append, List.nil_append, List.Forall]; decide) (c2s4_val _)
    |>.step sg49_keeps (by simp only [sg49_W, List.Forall]; decide) (c2s5_val _)
    |>.step (sg50_keeps.append sg51_keeps) (by simp only [sg50_W, sg51_W, List.cons_append, List.nil_append, List.Forall]; decide) (c2s6_val _)
    |>.step sg52_keeps (by simp only [sg52_W, List.Forall]; decide) (c2s7_val _)
    |>.step sg53_keeps (by simp only [sg53_W, List.Forall]; decide) (c2s8_val _)
    |>.step sg54_keeps (by simp only [sg54_W, List.Forall]; decide) (c2s9_val _)
    |>.step sg55_keeps (by simp only [sg55_W, List.Forall]; decide) (c2s10_val _)
    |>.step (sg56_keeps.append sg57_keeps) (by simp only [sg56_W, sg57_W, List.cons_append, List.nil_append, List.Forall]; decide) (c2s11_val _)
    |>.step sg58_keeps (by simp only [sg58_W, List.Forall]; decide) (c2s12_val _)
    |>.step (sg59_keeps.append sg60_keeps) (by simp only [sg59_W, sg60_W, List.cons_append, List.nil_append, List.Forall]; decide) (c2s13_val _)
    |>.step sg61_keeps (by simp only [sg61_W, List.Forall]; decide) (c2s14_val _)
    |>.step sg62_keeps (by simp only [sg62_W, List.Forall]; decide) (c2s15_val _)
    |>.step (sg63_keeps.append sg64_keeps) (by simp only [sg63_W, sg64_W, List.cons_append, List.nil_append, List.Forall]; decide) (c2s16_val _)
    |>.step sg65_keeps (by simp only [sg65_W, List.Forall]; decide) (c2s17_val _)
    |>.step (sg66_keeps.append sg67_keeps) (by simp only [sg66_W, sg67_W, List.cons_append, List.nil_append, List.Forall]; decide) (c2s18_val _)
    |>.step sg68_keeps (by simp only [sg68_W, List.Forall]; decide) (c2s19_val _)
    |>.step sg69_keeps (by simp only [sg69_W, List.Forall]; decide) (c2s20_val _)
    |>.step sg70_keeps (by simp only [sg70_W, List.Forall]; decide) (c2s21_val _)
    |>.step sg71_keeps (by simp only [sg71_W, List.Forall]; decide) (c2s22_val _)
    |>.step (sg72_keeps.append sg73_keeps) (by simp only [sg72_W, sg73_W, List.cons_append, List.nil_append, List.Forall]; decide) (c2s23_val _)
    |>.step sg74_keeps (by simp only [sg74_W, List.Forall]; decide) (c2s24_val _)
    |>.step (sg75_keeps.append sg76_keeps) (by simp only [sg75_W, sg76_W, List.cons_append, List.nil_append, List.Forall]; decide) (c2s25_val _)
    |>.step sg77_keeps (by simp only [sg77_W, List.Forall]; decide) (c2s26_val _)

end Cert.ReferenceIdeal.Value

end
-- ==== Proof.RefRun.lean ====
import proofs.«404940_j85761906966882_2_alg».proof.Proof.RefW00
import proofs.«404940_j85761906966882_2_alg».proof.Proof.RefW01
import proofs.«404940_j85761906966882_2_alg».proof.Proof.RefW02
import proofs.«404940_j85761906966882_2_alg».proof.Proof.RefW03
import proofs.«404940_j85761906966882_2_alg».proof.Proof.RefW04
import proofs.«404940_j85761906966882_2_alg».proof.Proof.RefW05
import proofs.«404940_j85761906966882_2_alg».proof.Proof.RefW06
import proofs.«404940_j85761906966882_2_alg».proof.Proof.RefW07
import proofs.«404940_j85761906966882_2_alg».proof.Proof.RefW08
import proofs.«404940_j85761906966882_2_alg».proof.Proof.RefW09
import proofs.«404940_j85761906966882_2_alg».proof.Proof.RefW10
import proofs.«404940_j85761906966882_2_alg».proof.Proof.RefW11
import proofs.«404940_j85761906966882_2_alg».proof.Proof.RefW12
import proofs.«404940_j85761906966882_2_alg».proof.Proof.RefW13
import proofs.«404940_j85761906966882_2_alg».proof.Proof.RefW14
import proofs.«404940_j85761906966882_2_alg».proof.Proof.RefW15
import proofs.«404940_j85761906966882_2_alg».proof.Proof.RefW16
import proofs.«404940_j85761906966882_2_alg».proof.Proof.RefW17
import proofs.«404940_j85761906966882_2_alg».proof.Proof.RefW18
import proofs.«404940_j85761906966882_2_alg».proof.Proof.RefW19
import proofs.«404940_j85761906966882_2_alg».proof.Proof.RefW20
import proofs.«404940_j85761906966882_2_alg».proof.Proof.RefW21
import proofs.«404940_j85761906966882_2_alg».proof.Proof.RefW22
import proofs.«404940_j85761906966882_2_alg».proof.Proof.RefW23
import proofs.«404940_j85761906966882_2_alg».proof.Proof.RefW24
import proofs.«404940_j85761906966882_2_alg».proof.Proof.RefChain1
import proofs.«404940_j85761906966882_2_alg».proof.Proof.RefChain2

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21 ++ (ops_part22 ++ (ops_part23 ++ (ops_part24))))))))))))))))))))))))

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c, ← main_part16_eq c, ← main_part17_eq c, ← main_part18_eq c, ← main_part19_eq c, ← main_part20_eq c, ← main_part21_eq c, ← main_part22_eq c, ← main_part23_eq c, ← main_part24_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append ops_part0_sub (forall_append ops_part1_sub (forall_append ops_part2_sub (forall_append ops_part3_sub (forall_append ops_part4_sub (forall_append ops_part5_sub (forall_append ops_part6_sub (forall_append ops_part7_sub (forall_append ops_part8_sub (forall_append ops_part9_sub (forall_append ops_part10_sub (forall_append ops_part11_sub (forall_append ops_part12_sub (forall_append ops_part13_sub (forall_append ops_part14_sub (forall_append ops_part15_sub (forall_append ops_part16_sub (forall_append ops_part17_sub (forall_append ops_part18_sub (forall_append ops_part19_sub (forall_append ops_part20_sub (forall_append ops_part21_sub (forall_append ops_part22_sub (forall_append ops_part23_sub (ops_part24_sub))))))))))))))))))))))))

theorem ops_fresh : ∀ op ∈ (ops : List (HloOp τ sig (Elt F))), op.fresh = ∅ :=
  fresh_append ops_part0_fresh (fresh_append ops_part1_fresh (fresh_append ops_part2_fresh (fresh_append ops_part3_fresh (fresh_append ops_part4_fresh (fresh_append ops_part5_fresh (fresh_append ops_part6_fresh (fresh_append ops_part7_fresh (fresh_append ops_part8_fresh (fresh_append ops_part9_fresh (fresh_append ops_part10_fresh (fresh_append ops_part11_fresh (fresh_append ops_part12_fresh (fresh_append ops_part13_fresh (fresh_append ops_part14_fresh (fresh_append ops_part15_fresh (fresh_append ops_part16_fresh (fresh_append ops_part17_fresh (fresh_append ops_part18_fresh (fresh_append ops_part19_fresh (fresh_append ops_part20_fresh (fresh_append ops_part21_fresh (fresh_append ops_part22_fresh (fresh_append ops_part23_fresh (ops_part24_fresh))))))))))))))))))))))))

attribute [local irreducible] StableHlo.after

-- The whole program is the two convolutions, each followed by its normalisation.
theorem after_ops (V₀ : Valuation τ sig (Elt F)) :
    after ops V₀ = after (sg78 ++ sg79) (c2v27 (after (sg39 ++ sg40) (c1v27 V₀))) := by
  simp only [ops, ops_part0, ops_part1, ops_part2, ops_part3, ops_part4, ops_part5, ops_part6, ops_part7, ops_part8, ops_part9, ops_part10, ops_part11, ops_part12, ops_part13, ops_part14, ops_part15, ops_part16, ops_part17, ops_part18, ops_part19, ops_part20, ops_part21, ops_part22, ops_part23, ops_part24, c1v27, c2v27, after_app]

theorem low1 (V₀ : Valuation τ sig (Elt F)) : Below 10 (after (sg39 ++ sg40) (c1v27 V₀)) V₀ :=
  (c1v27_at V₀).low.after (sg39_keeps.append sg40_keeps) (forall_append (by simp only [sg39_W, List.Forall]; decide) (by simp only [sg40_W, List.Forall]; decide))

theorem low2 (V₀ : Valuation τ sig (Elt F)) : Below 10 (c2v27 (after (sg39 ++ sg40) (c1v27 V₀))) V₀ :=
  (c2v27_at _).low.trans (low1 V₀) (by decide)

-- The arguments are as they were after the whole program.
theorem ops_low (V₀ : Valuation τ sig (Elt F)) : Below 10 (after ops V₀) V₀ := by
  rw [after_ops]
  exact (low2 V₀).after (sg78_keeps.append sg79_keeps) (forall_append (by simp only [sg78_W, List.Forall]; decide) (by simp only [sg79_W, List.Forall]; decide))

-- The result after the whole program is `refG` of the arguments.
theorem ops_val (V₀ : Valuation τ sig (Elt F)) :
    after ops V₀ (Proc.devRef .tc main_v1226) = SpecR.refG (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) := by
  rw [after_ops, nrm2_val, (c2v27_at _).acc, nrm1_val, (c1v27_at V₀).acc,
    low2 V₀ main_arg5 (by decide), low2 V₀ main_arg6 (by decide), low2 V₀ main_arg9 (by decide), low2 V₀ main_arg0 (by decide),
    low1 V₀ main_arg4 (by decide), low1 V₀ main_arg7 (by decide), low1 V₀ main_arg8 (by decide),
    (c1v27_at V₀).low main_arg2 (by decide), (c1v27_at V₀).low main_arg3 (by decide), (c1v27_at V₀).low main_arg9 (by decide)]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1226) = Cert.SpecR.refG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v1226).trans (ops_val (launchContents m c)),
      (h c main_arg0).trans (ops_low (launchContents m c) main_arg0 (by decide)),
      (h c main_arg1).trans (ops_low (launchContents m c) main_arg1 (by decide)),
      (h c main_arg2).trans (ops_low (launchContents m c) main_arg2 (by decide)),
      (h c main_arg3).trans (ops_low (launchContents m c) main_arg3 (by decide)),
      (h c main_arg4).trans (ops_low (launchContents m c) main_arg4 (by decide)),
      (h c main_arg5).trans (ops_low (launchContents m c) main_arg5 (by decide)),
      (h c main_arg6).trans (ops_low (launchContents m c) main_arg6 (by decide)),
      (h c main_arg7).trans (ops_low (launchContents m c) main_arg7 (by decide)),
      (h c main_arg8).trans (ops_low (launchContents m c) main_arg8 (by decide)),
      (h c main_arg9).trans (ops_low (launchContents m c) main_arg9 (by decide))⟩)
    (run_seq scopedRefs_eq scopedSems_eq defs main (fun _ => ops) main_eq (fun _ => ops_sub) m ρ (fun _ => ops_fresh))

theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => (h c).2) (run m ρ)

end Cert.ReferenceIdeal.Value

end
-- ==== Proof.PreFacts.lean ====
import proofs.«404940_j85761906966882_2_alg».proof.Pre_finite_inputs
import Idealize.ShloMosaic.Lib.ReduceAll
import Idealize.ShloMosaic.Lib.ValueIdx
import Idealize.ShloMosaic.PureOps.Ideal

namespace Cert.PreFacts

open Idealize.ShloMosaic Cert.Pre_finite_inputs

instance : Subsingleton S_.Idx := ⟨fun a b => funext fun d => d.elim0⟩

theorem real_of_abs_lt_top (x : EReal) (h : max x (-x) < ⊤) : ∃ r : ℝ, x = (r : EReal) := by
  induction x using EReal.rec with
  | bot => simp at h
  | coe r => exact ⟨r, rfl⟩
  | top => simp at h

theorem inf_pattern : Ideal.ofBits .f32 0x7F800000#32 = ⊤ := by simp [Ideal.ofBits, Ideal.ieee]

theorem real_of_cmp (x : Ideal .f32)
    (h : FloatOps.cmpf (F := Ideal) (φ := .f32) .olt (FloatOps.hostAbsf (F := Ideal) x)
      (FloatOps.ofBits (F := Ideal) .f32 0x7F800000#32) = 1#1) : ∃ r : ℝ, x = (r : EReal) := by
  change BitVec.ofBool (decide (max x (-x) < Ideal.ofBits .f32 0x7F800000#32)) = 1#1 at h
  rw [inf_pattern] at h
  refine real_of_abs_lt_top x ?_
  by_contra hn
  rw [decide_eq_false hn] at h
  exact absurd h (by decide)

theorem reals_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
      (cmpf .olt (Host.absf a) (broadcastInDim s ![] hb (constant (F := Ideal) S_ .f32 0x7F800000#32))) init hr hu
        ValueIdx.ix0 = 1#1) :
    ∀ i, ∃ r : ℝ, a i = (r : EReal) := fun i =>
  real_of_cmp (a i) (Host.reduce_andi_all _ init hr hu _ e i)

theorem range_of_all {s : Shape} {axes : List (Fin s.rank)} (a : IVec s 32) (lo hi : BitVec 32)
    (hb : S_.BroadcastsInDim s (![] : Fin 0 → Fin s.rank)) (hr : s.ReducesTo axes S_) (hu : 0 < S_.numel)
    (init : IVec S_ 1)
    (e : Host.reduce IntOp.andi
      (andi (cmpi .sge a (broadcastInDim s ![] hb (constantI S_ 32 lo)))
        (cmpi .slt a (broadcastInDim s ![] hb (constantI S_ 32 hi)))) init hr hu ValueIdx.ix0 = 1#1) :
    ∀ i, lo.toInt ≤ (a i).toInt ∧ (a i).toInt < hi.toInt := fun i => by
  have h := Host.reduce_andi_all _ init hr hu _ e i
  obtain ⟨h1, h2⟩ := IntOp.andi_eq_one.1 h
  exact ⟨IntOp.cmpi_sge.1 h1, IntOp.cmpi_slt.1 h2⟩

theorem and_scalar (x y : IVec S_ 1) :
    andi x y ValueIdx.ix0 = 1#1 ↔ x ValueIdx.ix0 = 1#1 ∧ y ValueIdx.ix0 = 1#1 := IntOp.andi_eq_one

structure Inputs (a0 : FVec Ideal S100000x64 .f32) (a1 : FVec Ideal S27x64x64 .f32) (a2 a3 : FVec Ideal S64 .f32)
    (a4 : FVec Ideal S27x64x64 .f32) (a5 a6 : FVec Ideal S64 .f32) (a7 : IVec S27x100000 32) (a9 : IVec S100000 32) : Prop where
  real0 : ∀ i, ∃ r : ℝ, a0 i = (r : EReal)
  real1 : ∀ i, ∃ r : ℝ, a1 i = (r : EReal)
  real2 : ∀ i, ∃ r : ℝ, a2 i = (r : EReal)
  real3 : ∀ i, ∃ r : ℝ, a3 i = (r : EReal)
  real4 : ∀ i, ∃ r : ℝ, a4 i = (r : EReal)
  real5 : ∀ i, ∃ r : ℝ, a5 i = (r : EReal)
  real6 : ∀ i, ∃ r : ℝ, a6 i = (r : EReal)
  inMap : ∀ i, 0 ≤ (a7 i).toInt ∧ (a7 i).toInt < 100000
  batch : ∀ i, 0 ≤ (a9 i).toInt ∧ (a9 i).toInt < 8

variable [Facts]

theorem decode (a0 : FVec Ideal S100000x64 .f32) (a1 : FVec Ideal S27x64x64 .f32) (a2 a3 : FVec Ideal S64 .f32)
    (a4 : FVec Ideal S27x64x64 .f32) (a5 a6 : FVec Ideal S64 .f32) (a7 a8 : IVec S27x100000 32) (a9 : IVec S100000 32)
    (h : fn (F := Ideal) a0 a1 a2 a3 a4 a5 a6 a7 a8 a9 = (fun _ => 1#1)) : Inputs a0 a1 a2 a3 a4 a5 a6 a7 a9 := by
  have h0 := congrFun h ValueIdx.ix0
  dsimp only [fn, fn_part1, fn_part2] at h0
  simp only [and_scalar] at h0
  obtain ⟨⟨⟨⟨⟨⟨⟨⟨h3, h7⟩, h12⟩, h17⟩, h22⟩, h27⟩, h32⟩, h39⟩, h46⟩ := h0
  have z0 : (0#32 : BitVec 32).toInt = 0 := by decide
  have z1 : (100000#32 : BitVec 32).toInt = 100000 := by decide
  have z8 : (8#32 : BitVec 32).toInt = 8 := by decide
  exact
    { real0 := reals_of_all a0 _ _ _ _ h3
      real1 := reals_of_all a1 _ _ _ _ h7
      real2 := reals_of_all a2 _ _ _ _ h12
      real3 := reals_of_all a3 _ _ _ _ h17
      real4 := reals_of_all a4 _ _ _ _ h22
      real5 := reals_of_all a5 _ _ _ _ h27
      real6 := reals_of_all a6 _ _ _ _ h32
      inMap := fun i => by have := range_of_all a7 _ _ _ _ _ _ h39 i; rwa [z0, z1] at this
      batch := fun i => by have := range_of_all a9 _ _ _ _ _ _ h46 i; rwa [z0, z8] at this }

end Cert.PreFacts
-- ==== Proof.AlgebraSum.lean ====
import Idealize.ShloMosaic.PureOps.Ideal.Laws

noncomputable section

namespace Cert.Algebra

open scoped BigOperators

variable {I J J' K N M : Type*} [AddCommMonoid M] [DecidableEq I]

def scatterSum [Fintype J] (tgt : J → Option I) (upd : J → M) (i : I) : M :=
  ∑ j ∈ Finset.univ.filter (fun j => tgt j = some i), upd j

theorem scatterSum_eq_sum_ite [Fintype J] (tgt : J → Option I) (upd : J → M) (i : I) :
    scatterSum tgt upd i = ∑ j, if tgt j = some i then upd j else 0 :=
  Finset.sum_filter _ _

theorem scatterSum_congr [Fintype J] {tgt tgt' : J → Option I} {upd upd' : J → M}
    (ht : ∀ j, tgt j = tgt' j) (hu : ∀ j, upd j = upd' j) (i : I) :
    scatterSum tgt upd i = scatterSum tgt' upd' i := by
  have h1 : tgt = tgt' := funext ht
  have h2 : upd = upd' := funext hu
  rw [h1, h2]

theorem scatterSum_equiv [Fintype J] [Fintype J'] (e : J' ≃ J) (tgt : J → Option I) (upd : J → M) (i : I) :
    scatterSum (fun j' => tgt (e j')) (fun j' => upd (e j')) i = scatterSum tgt upd i := by
  rw [scatterSum_eq_sum_ite, scatterSum_eq_sum_ite]
  exact Fintype.sum_equiv e _ _ fun _ => rfl

theorem scatterSum_prod [Fintype K] [Fintype N] (tgt : K → N → Option I) (upd : K → N → M) (i : I) :
    scatterSum (fun p : K × N => tgt p.1 p.2) (fun p : K × N => upd p.1 p.2) i
      = ∑ k, scatterSum (tgt k) (upd k) i := by
  rw [scatterSum_eq_sum_ite, Fintype.sum_prod_type]
  exact Finset.sum_congr rfl fun k _ => (scatterSum_eq_sum_ite (tgt k) (upd k) i).symm

theorem scatterSum_concat [Fintype J] [Fintype K] [Fintype N] (e : J ≃ K × N) (tgt : J → Option I) (upd : J → M)
    (i : I) :
    scatterSum tgt upd i
      = ∑ k, scatterSum (fun n => tgt (e.symm (k, n))) (fun n => upd (e.symm (k, n))) i := by
  rw [← scatterSum_equiv e.symm tgt upd i]
  exact scatterSum_prod (fun k n => tgt (e.symm (k, n))) (fun k n => upd (e.symm (k, n))) i

end Cert.Algebra
-- ==== Proof.AlgebraReal.lean ====
import Idealize.ShloMosaic.PureOps.Ideal.Laws

noncomputable section

namespace Cert.Algebra

open Idealize.ShloMosaic
open scoped BigOperators

def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem IsReal.max {x y : EReal} (hx : IsReal x) (hy : IsReal y) : IsReal (max x y) := by
  obtain ⟨a, rfl⟩ := hx; obtain ⟨b, rfl⟩ := hy; exact ⟨_, coe_max a b⟩

theorem coe_sum {ι : Type*} (s : Finset ι) (r : ι → ℝ) :
    ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) :
    IsReal (∑ i ∈ s, f i) :=
  Finset.sum_induction f IsReal (fun _ _ => IsReal.add) IsReal.zero h

theorem div_coe (a : ℝ) {d : ℝ} (hd : d ≠ 0) : Ideal.div (a : EReal) (d : EReal) = ((a / d : ℝ) : EReal) := by
  unfold Ideal.div
  rw [if_neg (EReal.coe_ne_zero.mpr hd), ← EReal.coe_inv, ← EReal.coe_mul, div_eq_mul_inv]

theorem IsReal.div {x : EReal} (hx : IsReal x) {d : ℝ} (hd : d ≠ 0) : IsReal (Ideal.div x (d : EReal)) := by
  obtain ⟨a, rfl⟩ := hx; exact ⟨_, div_coe a hd⟩

theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem IsReal.rsqrt {r : ℝ} (h : 0 < r) : IsReal (Ideal.rsqrt (r : EReal)) := ⟨_, rsqrt_coe_pos h⟩

theorem IsReal.select (c : BitVec 1) {x y : EReal} (hx : IsReal x) (hy : IsReal y) : IsReal (Scalar.select c x y) := by
  unfold Scalar.select; split_ifs <;> assumption

end Cert.Algebra
-- ==== Proof.AlgebraNorm.lean ====
import proofs.«404940_j85761906966882_2_alg».proof.Proof.AlgebraReal

noncomputable section

namespace Cert.Algebra

open Idealize.ShloMosaic
open scoped BigOperators

variable {ι β : Type*} [Fintype ι] [Fintype β] [DecidableEq β]

def oneHot (batch : ι → β) (i : ι) (b : β) : EReal := if batch i = b then 1 else 0

theorem sum_oneHot_mul (batch : ι → β) (i : ι) (t : β → EReal) :
    ∑ b, oneHot batch i b * t b = t (batch i) := by
  unfold oneHot
  simp only [ite_mul, one_mul, zero_mul]
  rw [Finset.sum_ite_eq]
  simp

def members (batch : ι → β) (b : β) : Finset ι := Finset.univ.filter fun i => batch i = b

def seg (batch : ι → β) (b : β) (f : ι → EReal) : EReal := ∑ i ∈ members batch b, f i

theorem sum_oneHot_mul_seg (batch : ι → β) (b : β) (y : ι → EReal) :
    ∑ i, oneHot batch i b * y i = seg batch b y := by
  unfold oneHot seg members
  simp only [ite_mul, one_mul, zero_mul]
  exact (Finset.sum_filter _ _).symm

theorem seg_one (batch : ι → β) (b : β) :
    seg batch b (fun _ => 1) = (((members batch b).card : ℝ) : EReal) := by
  unfold seg
  have h := coe_sum (members batch b) (fun _ => (1 : ℝ))
  simp only [EReal.coe_one] at h
  rw [h]
  simp

theorem sum_sq_dev (s : Finset ι) (r : ι → ℝ) (m : ℝ) :
    ∑ i ∈ s, (r i - m) * (r i - m)
      = (∑ i ∈ s, r i * r i) - 2 * m * (∑ i ∈ s, r i) + (s.card : ℝ) * (m * m) := by
  have h : ∀ i, (r i - m) * (r i - m) = r i * r i - 2 * m * r i + m * m := fun i => by ring
  simp only [h, Finset.sum_add_distrib, Finset.sum_sub_distrib, ← Finset.mul_sum, Finset.sum_const, nsmul_eq_mul]
  ring

theorem real_var_identity (s : Finset ι) (r : ι → ℝ) (hn : 0 < s.card) :
    (∑ i ∈ s, r i * r i) / (s.card : ℝ) - (∑ i ∈ s, r i) / (s.card : ℝ) * ((∑ i ∈ s, r i) / (s.card : ℝ))
      = (∑ i ∈ s, (r i - (∑ i ∈ s, r i) / (s.card : ℝ)) * (r i - (∑ i ∈ s, r i) / (s.card : ℝ))) / (s.card : ℝ) := by
  have hn' : (s.card : ℝ) ≠ 0 := Nat.cast_ne_zero.mpr hn.ne'
  rw [sum_sq_dev]
  field_simp
  ring

theorem real_var_nonneg (s : Finset ι) (r : ι → ℝ) (μ : ℝ) :
    0 ≤ (∑ i ∈ s, (r i - μ) * (r i - μ)) / (s.card : ℝ) :=
  div_nonneg (Finset.sum_nonneg fun _ _ => mul_self_nonneg _) (Nat.cast_nonneg _)

def cnt (batch : ι → β) (b : β) : EReal := seg batch b fun _ => 1

def meanK (batch : ι → β) (y : ι → EReal) (b : β) : EReal :=
  Ideal.div (seg batch b y) (max (cnt batch b) 1)

def varK (batch : ι → β) (y : ι → EReal) (b : β) : EReal :=
  max (Ideal.div (seg batch b fun i => y i * y i) (max (cnt batch b) 1) - meanK batch y b * meanK batch y b) 0

def meanR (batch : ι → β) (y : ι → EReal) (b : β) : EReal :=
  Ideal.div (seg batch b y) (cnt batch b)

def varR (batch : ι → β) (y : ι → EReal) (b : β) : EReal :=
  Ideal.div (seg batch b fun i => (y i - meanR batch y (batch i)) * (y i - meanR batch y (batch i))) (cnt batch b)

theorem stats_eq (batch : ι → β) (r : ι → ℝ) (i₀ : ι) :
    ∃ μ v : ℝ, 0 ≤ v
      ∧ meanK batch (fun i => (r i : EReal)) (batch i₀) = (μ : EReal)
      ∧ meanR batch (fun i => (r i : EReal)) (batch i₀) = (μ : EReal)
      ∧ varK batch (fun i => (r i : EReal)) (batch i₀) = (v : EReal)
      ∧ varR batch (fun i => (r i : EReal)) (batch i₀) = (v : EReal) := by
  set b := batch i₀ with hb
  set s := members batch b with hs
  have hmem : i₀ ∈ s := by simp [hs, members, hb]
  have hn : 0 < s.card := Finset.card_pos.mpr ⟨i₀, hmem⟩
  have hn1 : (1 : ℝ) ≤ (s.card : ℝ) := by exact_mod_cast hn
  have hn0 : (s.card : ℝ) ≠ 0 := by positivity
  have hcnt : cnt batch b = ((s.card : ℝ) : EReal) := seg_one batch b
  have hcntK : max (cnt batch b) 1 = ((s.card : ℝ) : EReal) := by
    rw [hcnt, ← EReal.coe_one, coe_max, max_eq_left hn1]
  have hS : seg batch b (fun i => (r i : EReal)) = ((∑ i ∈ s, r i : ℝ) : EReal) := coe_sum s r
  have hQ : seg batch b (fun i => (r i : EReal) * (r i : EReal)) = ((∑ i ∈ s, r i * r i : ℝ) : EReal) := by
    unfold seg
    simp only [← EReal.coe_mul]
    exact coe_sum s fun i => r i * r i
  set μ : ℝ := (∑ i ∈ s, r i) / (s.card : ℝ) with hμ
  have hmK : meanK batch (fun i => (r i : EReal)) b = (μ : EReal) := by
    unfold meanK; rw [hcntK, hS, div_coe _ hn0]
  have hmR : meanR batch (fun i => (r i : EReal)) b = (μ : EReal) := by
    unfold meanR; rw [hcnt, hS, div_coe _ hn0]
  have hD : seg batch b (fun i => ((r i : EReal) - meanR batch (fun i => (r i : EReal)) (batch i))
        * ((r i : EReal) - meanR batch (fun i => (r i : EReal)) (batch i)))
      = ((∑ i ∈ s, (r i - μ) * (r i - μ) : ℝ) : EReal) := by
    unfold seg
    rw [← coe_sum]
    refine Finset.sum_congr rfl fun i hi => ?_
    have hbi : batch i = b := by simpa [hs, members] using hi
    beta_reduce
    rw [hbi, hmR, ← EReal.coe_sub, ← EReal.coe_mul]
  refine ⟨μ, (∑ i ∈ s, (r i - μ) * (r i - μ)) / (s.card : ℝ), real_var_nonneg s r μ, hmK, hmR, ?_, ?_⟩
  · unfold varK
    rw [hmK, hcntK, hQ, div_coe _ hn0, ← EReal.coe_mul, ← EReal.coe_sub, ← EReal.coe_zero, coe_max,
      real_var_identity s r hn, max_eq_left (real_var_nonneg s r μ)]
  · unfold varR
    rw [hD, hcnt, div_coe _ hn0]

end Cert.Algebra
-- ==== Proof.AlgebraSpec.lean ====
import proofs.«404940_j85761906966882_2_alg».proof.Proof.AlgebraSum
import proofs.«404940_j85761906966882_2_alg».proof.Proof.AlgebraNorm

noncomputable section

namespace Cert.Algebra

open Idealize.ShloMosaic
open scoped BigOperators

variable {ι γ κ β : Type*} [Fintype ι] [Fintype γ] [Fintype κ] [Fintype β] [DecidableEq ι] [DecidableEq β]

def msg (x : ι → γ → EReal) (W : κ → γ → γ → EReal) (src : κ → ι → ι) (k : κ) (n : ι) (c : γ) : EReal :=
  ∑ j, x (src k n) j * W k j c

def conv (x : ι → γ → EReal) (W : κ → γ → γ → EReal) (src : κ → ι → ι) (dst : κ → ι → Option ι)
    (i : ι) (c : γ) : EReal :=
  ∑ k, scatterSum (dst k) (fun n => msg x W src k n c) i

theorem msg_real {x : ι → γ → EReal} {W : κ → γ → γ → EReal} (hx : ∀ i c, IsReal (x i c))
    (hW : ∀ k j c, IsReal (W k j c)) (src : κ → ι → ι) (k : κ) (n : ι) (c : γ) : IsReal (msg x W src k n c) :=
  IsReal.sum _ _ fun j _ => (hx _ j).mul (hW k j c)

theorem conv_real {x : ι → γ → EReal} {W : κ → γ → γ → EReal} (hx : ∀ i c, IsReal (x i c))
    (hW : ∀ k j c, IsReal (W k j c)) (src : κ → ι → ι) (dst : κ → ι → Option ι) (i : ι) (c : γ) :
    IsReal (conv x W src dst i c) :=
  IsReal.sum _ _ fun k _ => IsReal.sum _ _ fun n _ => msg_real hx hW src k n c

def normTail (eps : EReal) (act : EReal → EReal) (x m v g b : EReal) : EReal :=
  act ((x - m) * Ideal.rsqrt (v + eps) * g + b)

def normTailRes (eps : EReal) (act : EReal → EReal) (x m v g b r : EReal) : EReal :=
  act ((x - m) * Ideal.rsqrt (v + eps) * g + b + r)

theorem preAct_real {e : ℝ} (he : 0 < e) {x m g b : EReal} {v : ℝ} (hv : 0 ≤ v)
    (hx : IsReal x) (hm : IsReal m) (hg : IsReal g) (hb : IsReal b) :
    IsReal ((x - m) * Ideal.rsqrt ((v : EReal) + (e : EReal)) * g + b) := by
  rw [← EReal.coe_add]
  exact (((hx.sub hm).mul (IsReal.rsqrt (by positivity))).mul hg).add hb

def normK (eps : EReal) (act : EReal → EReal) (batch : ι → β) (y : ι → γ → EReal) (g b : γ → EReal)
    (i : ι) (c : γ) : EReal :=
  normTail eps act (y i c) (meanK batch (fun i => y i c) (batch i)) (varK batch (fun i => y i c) (batch i)) (g c) (b c)

def normR (eps : EReal) (act : EReal → EReal) (batch : ι → β) (y : ι → γ → EReal) (g b : γ → EReal)
    (i : ι) (c : γ) : EReal :=
  normTail eps act (y i c) (meanR batch (fun i => y i c) (batch i)) (varR batch (fun i => y i c) (batch i)) (g c) (b c)

def normKRes (eps : EReal) (act : EReal → EReal) (batch : ι → β) (y : ι → γ → EReal) (g b : γ → EReal)
    (res : ι → γ → EReal) (i : ι) (c : γ) : EReal :=
  normTailRes eps act (y i c) (meanK batch (fun i => y i c) (batch i)) (varK batch (fun i => y i c) (batch i)) (g c) (b c)
    (res i c)

def normRRes (eps : EReal) (act : EReal → EReal) (batch : ι → β) (y : ι → γ → EReal) (g b : γ → EReal)
    (res : ι → γ → EReal) (i : ι) (c : γ) : EReal :=
  normTailRes eps act (y i c) (meanR batch (fun i => y i c) (batch i)) (varR batch (fun i => y i c) (batch i)) (g c) (b c)
    (res i c)

theorem stats_at {y : ι → γ → EReal} (hy : ∀ i c, IsReal (y i c)) (batch : ι → β) (i : ι) (c : γ) :
    ∃ μ v : ℝ, 0 ≤ v
      ∧ meanK batch (fun i => y i c) (batch i) = (μ : EReal) ∧ meanR batch (fun i => y i c) (batch i) = (μ : EReal)
      ∧ varK batch (fun i => y i c) (batch i) = (v : EReal) ∧ varR batch (fun i => y i c) (batch i) = (v : EReal) := by
  choose r hr using fun i => hy i c
  have h : (fun i => y i c) = fun i => ((r i : ℝ) : EReal) := funext hr
  rw [h]
  exact stats_eq batch r i

theorem normK_eq_normR (eps : EReal) (act : EReal → EReal) (batch : ι → β) {y : ι → γ → EReal}
    (hy : ∀ i c, IsReal (y i c)) (g b : γ → EReal) :
    normK eps act batch y g b = normR eps act batch y g b := by
  funext i c
  obtain ⟨μ, v, _, hmK, hmR, hvK, hvR⟩ := stats_at hy batch i c
  unfold normK normR
  rw [hmK, hmR, hvK, hvR]

theorem normKRes_eq_normRRes (eps : EReal) (act : EReal → EReal) (batch : ι → β) {y : ι → γ → EReal}
    (hy : ∀ i c, IsReal (y i c)) (g b : γ → EReal) (res : ι → γ → EReal) :
    normKRes eps act batch y g b res = normRRes eps act batch y g b res := by
  funext i c
  obtain ⟨μ, v, _, hmK, hmR, hvK, hvR⟩ := stats_at hy batch i c
  unfold normKRes normRRes
  rw [hmK, hmR, hvK, hvR]

theorem normR_real {e : ℝ} (he : 0 < e) {act : EReal → EReal} (hact : ∀ x, IsReal x → IsReal (act x))
    (batch : ι → β) {y : ι → γ → EReal} (hy : ∀ i c, IsReal (y i c)) {g b : γ → EReal}
    (hg : ∀ c, IsReal (g c)) (hb : ∀ c, IsReal (b c)) (i : ι) (c : γ) :
    IsReal (normR (e : EReal) act batch y g b i c) := by
  obtain ⟨μ, v, hv, _, hmR, _, hvR⟩ := stats_at hy batch i c
  unfold normR normTail
  rw [hmR, hvR]
  exact hact _ (preAct_real he hv (hy i c) (IsReal.coe μ) (hg c) (hb c))

def blockK (eps : EReal) (act : EReal → EReal) (batch : ι → β) (src : κ → ι → ι) (dst : κ → ι → Option ι)
    (x : ι → γ → EReal) (W₁ : κ → γ → γ → EReal) (g₁ b₁ : γ → EReal) (W₂ : κ → γ → γ → EReal) (g₂ b₂ : γ → EReal) :
    ι → γ → EReal :=
  normKRes eps act batch (conv (normK eps act batch (conv x W₁ src dst) g₁ b₁) W₂ src dst) g₂ b₂ x

def blockR (eps : EReal) (act : EReal → EReal) (batch : ι → β) (src : κ → ι → ι) (dst : κ → ι → Option ι)
    (x : ι → γ → EReal) (W₁ : κ → γ → γ → EReal) (g₁ b₁ : γ → EReal) (W₂ : κ → γ → γ → EReal) (g₂ b₂ : γ → EReal) :
    ι → γ → EReal :=
  normRRes eps act batch (conv (normR eps act batch (conv x W₁ src dst) g₁ b₁) W₂ src dst) g₂ b₂ x

theorem blockK_eq_blockR {e : ℝ} (he : 0 < e) {act : EReal → EReal} (hact : ∀ x, IsReal x → IsReal (act x))
    (batch : ι → β) (src : κ → ι → ι) (dst : κ → ι → Option ι)
    {x : ι → γ → EReal} {W₁ W₂ : κ → γ → γ → EReal} {g₁ b₁ g₂ b₂ : γ → EReal}
    (hx : ∀ i c, IsReal (x i c)) (hW₁ : ∀ k j c, IsReal (W₁ k j c)) (hW₂ : ∀ k j c, IsReal (W₂ k j c))
    (hg₁ : ∀ c, IsReal (g₁ c)) (hb₁ : ∀ c, IsReal (b₁ c)) :
    blockK (e : EReal) act batch src dst x W₁ g₁ b₁ W₂ g₂ b₂ = blockR (e : EReal) act batch src dst x W₁ g₁ b₁ W₂ g₂ b₂ := by
  have h1 : ∀ i c, IsReal (conv x W₁ src dst i c) := conv_real hx hW₁ src dst
  have h2 : ∀ i c, IsReal (normR (e : EReal) act batch (conv x W₁ src dst) g₁ b₁ i c) :=
    normR_real he hact batch h1 hg₁ hb₁
  have h3 : ∀ i c, IsReal (conv (normR (e : EReal) act batch (conv x W₁ src dst) g₁ b₁) W₂ src dst i c) :=
    conv_real h2 hW₂ src dst
  unfold blockK blockR
  rw [normK_eq_normR (e : EReal) act batch h1 g₁ b₁, normKRes_eq_normRRes (e : EReal) act batch h3 g₂ b₂ x]

end Cert.Algebra
-- ==== Proof.AlgebraConst.lean ====
import proofs.«404940_j85761906966882_2_alg».proof.Proof.AlgebraReal

noncomputable section

namespace Cert.Algebra

open Idealize.ShloMosaic

theorem ofBits_one : Ideal.ofBits .f32 0x3F800000#32 = 1 := by
  simp only [Ideal.ofBits, Ideal.ieee]
  simp
  rw [← EReal.coe_mul]
  norm_num

theorem ofBits_eps : ∃ e : ℝ, 0 < e ∧ Ideal.ofBits .f32 0x3727C5AC#32 = (e : EReal) := by
  refine ⟨10995116 * (2 ^ 40)⁻¹, by positivity, ?_⟩
  simp only [Ideal.ofBits, Ideal.ieee]
  simp

theorem ofBits_slope : IsReal (Ideal.ofBits .f32 0x3C23D70A#32) := by
  simp only [Ideal.ofBits, Ideal.ieee]
  simp
  exact (IsReal.coe _).mul (IsReal.coe _)

def leaky (z s : EReal) (t : EReal) : EReal := Scalar.select (Ideal.cmp .ogt t z) t (s * t)

end Cert.Algebra
-- ==== Proof.Bridge.lean ====
import proofs.«404940_j85761906966882_2_alg».proof.Proof.PreFacts
import proofs.«404940_j85761906966882_2_alg».proof.Proof.ReadKDefs
import proofs.«404940_j85761906966882_2_alg».proof.Proof.AlgebraSpec
import proofs.«404940_j85761906966882_2_alg».proof.Proof.AlgebraConst

noncomputable section

namespace Cert.Bridge

open Idealize.ShloMosaic Idealize.ShloMosaic.ValueIdx Cert.Algebra Cert.ReadK

theorem epsE_pos : ∃ e : ℝ, 0 < e ∧ epsE = (e : EReal) := ofBits_eps

theorem leakyE_real (y : EReal) (hy : IsReal y) : IsReal (leakyE y) :=
  IsReal.select _ hy (ofBits_slope.mul hy)

theorem blocks_agree {a0 : FVec Ideal ⟨2, ![100000, 64]⟩ .f32} {a1 : FVec Ideal ⟨3, ![27, 64, 64]⟩ .f32}
    {a2 a3 : FVec Ideal ⟨1, ![64]⟩ .f32} {a4 : FVec Ideal ⟨3, ![27, 64, 64]⟩ .f32} {a5 a6 : FVec Ideal ⟨1, ![64]⟩ .f32}
    {a7 : IVec ⟨2, ![27, 100000]⟩ 32} {a9 : IVec ⟨1, ![100000]⟩ 32}
    (hin : Cert.PreFacts.Inputs a0 a1 a2 a3 a4 a5 a6 a7 a9) (a8 : IVec ⟨2, ![27, 100000]⟩ 32) :
    blockK epsE leakyE (batchOf a9) (srcOf a7) (dstOf a8) (x2 a0) (w3 a1) (v1 a2) (v1 a3) (w3 a4) (v1 a5) (v1 a6)
      = blockR epsE leakyE (batchOf a9) (srcOf a7) (dstOf a8) (x2 a0) (w3 a1) (v1 a2) (v1 a3) (w3 a4) (v1 a5) (v1 a6) := by
  obtain ⟨e, he, hE⟩ := epsE_pos
  rw [hE]
  exact blockK_eq_blockR he leakyE_real _ _ _ (fun _ _ => hin.real0 _) (fun _ _ _ => hin.real1 _)
    (fun _ _ _ => hin.real4 _) (fun _ => hin.real2 _) (fun _ => hin.real3 _)

theorem eq_of_reads {G H : FVec Ideal ⟨2, ![100000, 64]⟩ .f32} {B B' : Fin 100000 → Fin 64 → EReal}
    (hG : ∀ i c, G (ix2 i c) = B i c) (hH : ∀ i c, H (ix2 i c) = B' i c) (hB : B = B') : G = H := by
  funext idx
  obtain ⟨a, b, rfl⟩ : ∃ (a : Fin 100000) (b : Fin 64), idx = ix2 a b := ⟨idx 0, idx 1, eq_ix2 idx⟩
  rw [hG, hH, hB]

theorem bridge {a0 : FVec Ideal ⟨2, ![100000, 64]⟩ .f32} {a1 : FVec Ideal ⟨3, ![27, 64, 64]⟩ .f32}
    {a2 a3 : FVec Ideal ⟨1, ![64]⟩ .f32} {a4 : FVec Ideal ⟨3, ![27, 64, 64]⟩ .f32} {a5 a6 : FVec Ideal ⟨1, ![64]⟩ .f32}
    {a7 a8 : IVec ⟨2, ![27, 100000]⟩ 32} {a9 : IVec ⟨1, ![100000]⟩ 32}
    (hin : Cert.PreFacts.Inputs a0 a1 a2 a3 a4 a5 a6 a7 a9)
    {G H : FVec Ideal ⟨2, ![100000, 64]⟩ .f32}
    (hG : ∀ i c, G (ix2 i c)
      = blockK epsE leakyE (batchOf a9) (srcOf a7) (dstOf a8) (x2 a0) (w3 a1) (v1 a2) (v1 a3) (w3 a4) (v1 a5) (v1 a6) i c)
    (hH : ∀ i c, H (ix2 i c)
      = blockR epsE leakyE (batchOf a9) (srcOf a7) (dstOf a8) (x2 a0) (w3 a1) (v1 a2) (v1 a3) (w3 a4) (v1 a5) (v1 a6) i c) :
    G = H :=
  eq_of_reads hG hH (blocks_agree hin a8)

end Cert.Bridge
-- ==== Proof.AlgebraOps.lean ====
import Idealize.ShloMosaic.Lib.ValueIdx
import Idealize.ShloMosaic.PureOps.Ideal.Laws
import proofs.«404940_j85761906966882_2_alg».proof.Proof.AlgebraSum

noncomputable section

namespace Cert.Algebra

open Idealize.ShloMosaic Idealize.ShloMosaic.ValueIdx
open scoped BigOperators

theorem scatterAdd_apply {s si su : Shape} {φ : FTy} {w : Nat} (d : ScatterDims s si su) (x : FVec Ideal s φ)
    (idx : IVec si w) (upd : FVec Ideal su φ) (i : s.Idx) :
    Host.scatterAdd d x idx upd i = x i + scatterSum (fun j => d.resultIdx? j idx) upd i := rfl

abbrev rowGather (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowGather N R C wf) x idx y
      = x (ix2 ⟨min (idx (ix2 (y 0) (0 : Fin 1))).toInt.toNat (N - 1), by omega⟩ (y 1)) := by
  unfold Host.gather
  congr 1
  funext a
  refine Fin.ext ?_
  show (rowGather N R C wf).start y idx a + (rowGather N R C wf).batchCoord y a + (rowGather N R C wf).offCoord y a = _
  rw [GatherDims.batchCoord_eq_zero _ _ _ List.not_mem_nil]
  have ha : a = (0 : Fin 2) ∨ a = (1 : Fin 2) := by
    rcases a with ⟨v, hv⟩
    have hv2 : v < 2 := hv
    interval_cases v
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx y ⟨List.idxOf (0 : Fin 2) (rowGather N R C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  · have hs : (rowGather N R C wf).start y idx (1 : Fin 2) = 0 := by
      unfold GatherDims.start
      rw [dif_neg (show (1 : Fin 2) ∉ ([0] : List (Fin 2)) by decide)]
    rw [hs]
    simp only [Nat.zero_add]
    rfl

abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

theorem rowScatter_resultIdx_iff {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx) :
    (rowScatter N R C wf).resultIdx? j idx = some i
      ↔ (idx (ix2 (j 0) (0 : Fin 1))).toInt = ((i 0).val : ℤ) ∧ (j 1).val = (i 1).val := by
  have hs0 : (rowScatter N R C wf).start j idx (0 : Fin 2) = (idx (ix2 (j 0) (0 : Fin 1))).toInt := by
    unfold ScatterDims.start
    rw [dif_pos (show (0 : Fin 2) ∈ (rowScatter N R C wf).scatterDimsToOperandDims from List.mem_singleton.mpr rfl)]
    have hsi : (rowScatter N R C wf).siIdx j ⟨List.idxOf (0 : Fin 2) (rowScatter N R C wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hs1 : (rowScatter N R C wf).start j idx (1 : Fin 2) = 0 := by
    unfold ScatterDims.start
    rw [dif_neg (show (1 : Fin 2) ∉ ([0] : List (Fin 2)) by decide)]
  have hw0 : (rowScatter N R C wf).window j (0 : Fin 2) = 0 := by
    unfold ScatterDims.window
    rw [dif_neg (show (0 : Fin 2) ∉ (rowScatter N R C wf).sKept by simp [ScatterDims.sKept, Shape.kept])]
  have hw1 : (rowScatter N R C wf).window j (1 : Fin 2) = (j 1).val := by
    unfold ScatterDims.window
    rw [dif_pos (show (1 : Fin 2) ∈ (rowScatter N R C wf).sKept by simp [ScatterDims.sKept, Shape.kept])]
    rfl
  have hi0 : (i 0).val < N := idx2_lt0 i
  have hi1 : (i 1).val < C := idx2_lt1 i
  have hj1 : (j 1).val < C := idx2_lt1 j
  have hall : ∀ P : Fin 2 → Prop, (∀ a, P a) ↔ P 0 ∧ P 1 := fun P =>
    ⟨fun h => ⟨h 0, h 1⟩, fun h a => by
      rcases a with ⟨v, hv⟩
      interval_cases v
      · exact h.1
      · exact h.2⟩
  unfold ScatterDims.resultIdx?
  split
  · next h =>
    have h0 := h (0 : Fin 2)
    have h1 := h (1 : Fin 2)
    rw [hs0, hw0] at h0
    rw [hs1, hw1] at h1
    rw [Option.some.injEq]
    constructor
    · intro heq
      have e0 : ((rowScatter N R C wf).start j idx (0 : Fin 2) + ((rowScatter N R C wf).window j (0 : Fin 2) : ℤ)).toNat = (i 0).val :=
        congrArg (fun f : (⟨2, ![N, C]⟩ : Shape).Idx => (f 0).val) heq
      have e1 : ((rowScatter N R C wf).start j idx (1 : Fin 2) + ((rowScatter N R C wf).window j (1 : Fin 2) : ℤ)).toNat = (i 1).val :=
        congrArg (fun f : (⟨2, ![N, C]⟩ : Shape).Idx => (f 1).val) heq
      rw [hs0, hw0] at e0
      rw [hs1, hw1] at e1
      constructor <;> omega
    · rintro ⟨e0, e1⟩
      funext a
      refine Fin.ext ?_
      revert a
      rw [hall]
      constructor
      · show ((rowScatter N R C wf).start j idx (0 : Fin 2) + ((rowScatter N R C wf).window j (0 : Fin 2) : ℤ)).toNat = (i 0).val
        rw [hs0, hw0]; omega
      · show ((rowScatter N R C wf).start j idx (1 : Fin 2) + ((rowScatter N R C wf).window j (1 : Fin 2) : ℤ)).toNat = (i 1).val
        rw [hs1, hw1]; omega
  · next h =>
    constructor
    · intro h'; exact absurd h' (by simp)
    · rintro ⟨e0, e1⟩
      exfalso
      apply h
      rw [hall]
      constructor
      · show 0 ≤ (rowScatter N R C wf).start j idx (0 : Fin 2) + ((rowScatter N R C wf).window j (0 : Fin 2) : ℤ)
          ∧ (rowScatter N R C wf).start j idx (0 : Fin 2) + ((rowScatter N R C wf).window j (0 : Fin 2) : ℤ) < (N : ℤ)
        rw [hs0, hw0]; omega
      · show 0 ≤ (rowScatter N R C wf).start j idx (1 : Fin 2) + ((rowScatter N R C wf).window j (1 : Fin 2) : ℤ)
          ∧ (rowScatter N R C wf).start j idx (1 : Fin 2) + ((rowScatter N R C wf).window j (1 : Fin 2) : ℤ) < (C : ℤ)
        rw [hs1, hw1]; omega

abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

theorem vecScatter_resultIdx_iff {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (i : (⟨1, ![N]⟩ : Shape).Idx) :
    (vecScatter N R wf).resultIdx? j idx = some i ↔ (idx (ix2 (j 0) (0 : Fin 1))).toInt = ((i 0).val : ℤ) := by
  have hs0 : (vecScatter N R wf).start j idx (0 : Fin 1) = (idx (ix2 (j 0) (0 : Fin 1))).toInt := by
    unfold ScatterDims.start
    rw [dif_pos (show (0 : Fin 1) ∈ (vecScatter N R wf).scatterDimsToOperandDims from List.mem_singleton.mpr rfl)]
    have hsi : (vecScatter N R wf).siIdx j ⟨List.idxOf (0 : Fin 1) (vecScatter N R wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hw0 : (vecScatter N R wf).window j (0 : Fin 1) = 0 := by
    unfold ScatterDims.window
    rw [dif_neg (show (0 : Fin 1) ∉ (vecScatter N R wf).sKept by simp [ScatterDims.sKept, Shape.kept])]
  have hi0 : (i 0).val < N := (i 0).isLt
  have hall : ∀ P : Fin 1 → Prop, (∀ a, P a) ↔ P 0 := fun P =>
    ⟨fun h => h 0, fun h a => by
      rcases a with ⟨v, hv⟩
      interval_cases v
      exact h⟩
  unfold ScatterDims.resultIdx?
  split
  · next h =>
    have h0 := h (0 : Fin 1)
    rw [hs0, hw0] at h0
    rw [Option.some.injEq]
    constructor
    · intro heq
      have e0 : ((vecScatter N R wf).start j idx (0 : Fin 1) + ((vecScatter N R wf).window j (0 : Fin 1) : ℤ)).toNat = (i 0).val :=
        congrArg (fun f : (⟨1, ![N]⟩ : Shape).Idx => (f 0).val) heq
      rw [hs0, hw0] at e0
      omega
    · intro e0
      funext a
      refine Fin.ext ?_
      revert a
      rw [hall]
      show ((vecScatter N R wf).start j idx (0 : Fin 1) + ((vecScatter N R wf).window j (0 : Fin 1) : ℤ)).toNat = (i 0).val
      rw [hs0, hw0]; omega
  · next h =>
    constructor
    · intro h'; exact absurd h' (by simp)
    · intro e0
      exfalso
      apply h
      rw [hall]
      show 0 ≤ (vecScatter N R wf).start j idx (0 : Fin 1) + ((vecScatter N R wf).window j (0 : Fin 1) : ℤ)
        ∧ (vecScatter N R wf).start j idx (0 : Fin 1) + ((vecScatter N R wf).window j (0 : Fin 1) : ℤ) < (N : ℤ)
      rw [hs0, hw0]; omega

end Cert.Algebra
-- ==== Proof.ReadKTake.lean ====
import proofs.«404940_j85761906966882_2_alg».proof.Proof.SpecK
import proofs.«404940_j85761906966882_2_alg».proof.Proof.ReadKDefs
import proofs.«404940_j85761906966882_2_alg».proof.Proof.AlgebraOps
import Idealize.ShloMosaic.Lib.ValueLayout
import Idealize.ShloMosaic.Lib.ReduceAll

set_option maxRecDepth 8192

noncomputable section

namespace Cert.ReadK

open Idealize.ShloMosaic Idealize.ShloMosaic.ValueIdx Cert.SpecK

variable {F : FTy → Type} [FloatOps F]

theorem slt_zero_of_nonneg (v : BitVec 32) (h : 0 ≤ v.toInt) : IntOp.cmpi .slt v 0#32 = 0#1 := by
  have : ¬ v.toInt < 0 := by omega
  simp [IntOp.cmpi, BitVec.slt, this]

theorem range_test_one (v : BitVec 32) (h0 : 0 ≤ v.toInt) (h1 : v.toInt < 100000) :
    IntOp.andi (IntOp.cmpi .sge v 0#32) (IntOp.cmpi .sle v 99999#32) = 1#1 := by
  have e : (99999#32 : BitVec 32).toInt = 99999 := by decide
  have h2 : v.toInt ≤ 99999 := by omega
  simp [IntOp.cmpi, IntOp.andi, BitVec.sle, h0, e, h2]

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

theorem col_apply {α : Type} (x : S100000.Idx → α) (n : Fin 100000) (u : Fin 1) :
    broadcastInDim S100000x1 ![0] bcast_S100000_S100000x1_0 x (ix2 n u) = x (ix1 n) :=
  broadcastInDim_apply _ _ x _ _ fun a => by
    match a with
    | ⟨0, _⟩ => exact (if_neg (show ¬ (100000 : ℕ) = 1 by decide)).symm

theorem rows_apply {α : Type} (x : S100000.Idx → α) (n : Fin 100000) (c : Fin 64) :
    broadcastInDim S100000x64 ![0] bcast_S100000_S100000x64_0 x (ix2 n c) = x (ix1 n) :=
  broadcastInDim_apply _ _ x _ _ fun a => by
    match a with
    | ⟨0, _⟩ => exact (if_neg (show ¬ (100000 : ℕ) = 1 by decide)).symm

theorem wrapRow_apply (i : IVec S100000 32) (j : S100000.Idx) :
    wrapRow i j = Scalar.select (IntOp.cmpi .slt (i j) 0#32) (IntOp.addi (i j) 100000#32) (i j) := rfl

theorem wrapRow_of_nonneg (i : IVec S100000 32) (j : S100000.Idx) (h0 : 0 ≤ (i j).toInt) : wrapRow i j = i j := by
  rw [wrapRow_apply, slt_zero_of_nonneg _ h0, select_zero]

theorem rowIdx_apply (i : IVec S100000 32) (n : Fin 100000) (u : Fin 1) : rowIdx i (ix2 n u) = wrapRow i (ix1 n) :=
  col_apply _ n u

theorem rowOk_eq_one (i : IVec S100000 32) (n : Fin 100000) (h0 : 0 ≤ (i (ix1 n)).toInt)
    (h1 : (i (ix1 n)).toInt < 100000) : rowOk i (ix1 n) = 1#1 := by
  unfold rowOk
  rw [Host.reduce_eq_foldl]
  refine foldl_andi_one _ _ fun i' hi' => ?_
  have hd : reducesTo_S100000x1_S100000_d1.drop i' = ix1 n := by simpa using (List.mem_filter.1 hi').2
  have h0' : (i' 0).val = n.val := by
    have := Shape.ReducesTo.drop_apply_val_of_eq reducesTo_S100000x1_S100000_d1 i' 0 0
    rw [hd] at this
    exact this.symm
  obtain ⟨a, u, rfl⟩ : ∃ (a : Fin 100000) (u : Fin 1), i' = ix2 a u := ⟨i' 0, i' 1, eq_ix2 i'⟩
  obtain rfl : a = n := Fin.ext h0'
  show IntOp.andi (IntOp.cmpi .sge (rowIdx i (ix2 a u)) 0#32) (IntOp.cmpi .sle (rowIdx i (ix2 a u)) 99999#32) = 1#1
  rw [rowIdx_apply, wrapRow_of_nonneg _ _ h0]
  exact range_test_one _ h0 h1

theorem gatherRows_apply {α : Type} (x : S100000x64.Idx → α) (idx : IVec S100000x1 32) (n : Fin 100000) (c : Fin 64) :
    Host.gather gatherRows x idx (ix2 n c)
      = x (ix2 ⟨min (idx (ix2 n (0 : Fin 1))).toInt.toNat 99999, by omega⟩ c) := by
  exact Cert.Algebra.gather_rows_apply (N := 100000) (R := 100000) (C := 64) (by decide) gatherRows.wf x idx (ix2 n c)

theorem takeRows_apply (x : FVec F S100000x64 .f32) (i : IVec S100000 32) (n : Fin 100000) (c : Fin 64)
    (h0 : 0 ≤ (i (ix1 n)).toInt) (h1 : (i (ix1 n)).toInt < 100000) :
    takeRows x i (ix2 n c) = x (ix2 ⟨min (i (ix1 n)).toInt.toNat 99999, by omega⟩ c) := by
  unfold takeRows
  rw [select_apply, rows_apply, rowOk_eq_one i n h0 h1, select_one, gatherRows_apply]
  congr 2
  refine Fin.ext ?_
  show min (rowIdx i (ix2 n 0)).toInt.toNat 99999 = min (i (ix1 n)).toInt.toNat 99999
  rw [rowIdx_apply, wrapRow_of_nonneg _ _ h0]

end Cert.ReadK
-- ==== Proof.ReadKPiece.lean ====
import proofs.«404940_j85761906966882_2_alg».proof.Proof.ReadKTake

set_option maxRecDepth 8192

noncomputable section

namespace Cert.ReadK

open Idealize.ShloMosaic Idealize.ShloMosaic.ValueIdx Cert.SpecK

variable {F : FTy → Type} [FloatOps F]

theorem mapRow_apply (im : IVec S27x100000 32) (k : Fin 27) (n : Fin 100000) :
    shapeCast S100000 (extractStridedSlice S1x100000 ![k.val, 0] im (slicesMap k)) shapeCasts_row (ix1 n)
      = im (ix2 k n) := by
  rw [shapeCast_1a_a_apply]
  exact slice2_axis0_apply k.val im (slicesMap k) (0 : Fin 1) n k (by simp)

theorem col_lt (k : Fin 27) (c : Fin 64) : 64 * k.val + c.val < 1728 := by omega

theorem colBlock_apply {α : Type} (P : S100000x1728.Idx → α) (k : Fin 27) (r : Fin 100000) (c : Fin 64) :
    extractStridedSlice S100000x64 ![0, 64 * k.val] P (slicesP k) (ix2 r c) = P (ix2 r ⟨64 * k.val + c.val, col_lt k c⟩) :=
  slice2_axis1_apply (64 * k.val) P (slicesP k) r c ⟨64 * k.val + c.val, col_lt k c⟩ rfl

theorem piece_apply (P : FVec F S100000x1728 .f32) (im : IVec S27x100000 32) (k : Fin 27) (n : Fin 100000) (c : Fin 64)
    (h0 : 0 ≤ (im (ix2 k n)).toInt) (h1 : (im (ix2 k n)).toInt < 100000) :
    Cert.SpecK.piece P im k (ix2 n c) = P (ix2 (srcOf im k n) ⟨64 * k.val + c.val, col_lt k c⟩) := by
  unfold Cert.SpecK.piece
  rw [takeRows_apply _ _ n c (by rw [mapRow_apply]; exact h0) (by rw [mapRow_apply]; exact h1), colBlock_apply]
  congr 2
  exact Fin.ext (by show min _ 99999 = min _ 99999; rw [mapRow_apply])

theorem row_lt (k : Fin 27) (n : Fin 100000) : k.val * 100000 + n.val < 2700000 := by omega

theorem stack_apply (p : Fin 27 → FVec F S100000x64 .f32) (k : Fin 27) (n : Fin 100000) (c : Fin 64) :
    stack p (ix2 ⟨k.val * 100000 + n.val, row_lt k n⟩ c) = p k (ix2 n c) := by
  obtain ⟨k, hk⟩ := k
  unfold stack
  by_cases h16 : k < 16
  · refine Eq.trans (concatenate_apply_piece (t := S2700000x64) (0 : Fin 2) _ _ _ 0 (by show 0 < 2; omega) S1600000x64 _ rfl rfl 0 rfl
      (ix2 ⟨k * 100000 + n.val, by omega⟩ c) ?_ ?_) ?_
    · intro b hb
      match b with
      | ⟨0, _⟩ => exact absurd rfl hb
      | ⟨1, _⟩ => rfl
    · exact Nat.zero_add _
    · refine concatenate_apply_piece (t := S1600000x64) (0 : Fin 2) _ _ _ k (by simpa using h16) S100000x64 (p ⟨k, hk⟩) ?_ rfl
        (k * 100000) ?_ (ix2 n c) ?_ ?_
      · interval_cases k <;> rfl
      · interval_cases k <;> simp
      · intro b hb
        match b with
        | ⟨0, _⟩ => exact absurd rfl hb
        | ⟨1, _⟩ => rfl
      · rfl
  · have h16' : 16 ≤ k := Nat.not_lt.mp h16
    obtain ⟨q, rfl⟩ : ∃ q, k = 16 + q := ⟨k - 16, by omega⟩
    have hq : q < 11 := by omega
    refine Eq.trans (concatenate_apply_piece (t := S2700000x64) (0 : Fin 2) _ _ _ 1 (by show 1 < 2; omega) S1100000x64 _ rfl rfl 1600000 rfl
      (ix2 ⟨q * 100000 + n.val, by omega⟩ c) ?_ ?_) ?_
    · intro b hb
      match b with
      | ⟨0, _⟩ => exact absurd rfl hb
      | ⟨1, _⟩ => rfl
    · show 1600000 + (q * 100000 + n.val) = (16 + q) * 100000 + n.val
      omega
    · refine concatenate_apply_piece (t := S1100000x64) (0 : Fin 2) _ _ _ q (by simpa using hq) S100000x64 (p ⟨16 + q, hk⟩) ?_ rfl
        (q * 100000) ?_ (ix2 n c) ?_ ?_
      · interval_cases q <;> rfl
      · interval_cases q <;> simp
      · intro b hb
        match b with
        | ⟨0, _⟩ => exact absurd rfl hb
        | ⟨1, _⟩ => rfl
      · rfl

theorem pieces_apply (P : FVec F S100000x1728 .f32) (im : IVec S27x100000 32) (k : Fin 27) (n : Fin 100000) (c : Fin 64) :
    pieces P im (ix2 ⟨k.val * 100000 + n.val, row_lt k n⟩ c) = Cert.SpecK.piece P im k (ix2 n c) :=
  stack_apply (Cert.SpecK.piece P im) k n c

theorem wideW_apply (W : FVec Ideal S27x64x64 .f32) (k : Fin 27) (j c : Fin 64) :
    wideW W (ix2 j ⟨64 * k.val + c.val, col_lt k c⟩) = W (ix3 k j c) := by
  show shapeCast S64x1728 (transpose S64x27x64 [1, 0, 2] W transposes_W) shapeCasts_W (ix2 j ⟨64 * k.val + c.val, col_lt k c⟩) = _
  rw [shapeCast_apply _ shapeCasts_W _ (ix3 j k c) (by
    rw [Shape.rowMajor_val_three, Shape.rowMajor_val_two]
    show (j.val * 27 + k.val) * 64 + c.val = j.val * 1728 + (64 * k.val + c.val)
    omega)]
  exact transpose_apply _ W transposes_W _ (ix3 k j c) fun b => by
    match b with
    | ⟨0, _⟩ => rfl
    | ⟨1, _⟩ => rfl
    | ⟨2, _⟩ => rfl

end Cert.ReadK
-- ==== Proof.AlgebraRows.lean ====
import proofs.«404940_j85761906966882_2_alg».proof.Proof.AlgebraOps
import proofs.«404940_j85761906966882_2_alg».proof.Proof.AlgebraNorm

noncomputable section

namespace Cert.Algebra

open Idealize.ShloMosaic Idealize.ShloMosaic.ValueIdx
open scoped BigOperators

def rowTarget (N : ℕ) (t : ℤ) : Option (Fin N) :=
  if h : 0 ≤ t ∧ t < (N : ℤ) then some ⟨t.toNat, by omega⟩ else none

theorem rowTarget_eq_some_iff {N : ℕ} (t : ℤ) (i : Fin N) : rowTarget N t = some i ↔ t = (i.val : ℤ) := by
  have hi := i.isLt
  unfold rowTarget
  split
  · next h =>
    rw [Option.some.injEq]
    constructor
    · intro heq
      have := congrArg Fin.val heq
      simp only at this
      omega
    · intro e
      refine Fin.ext ?_
      show t.toNat = i.val
      omega
  · next h =>
    constructor
    · intro h'; exact absurd h' (by simp)
    · intro e; exfalso; apply h; omega

theorem rowTarget_of_range {N : ℕ} {t : ℤ} (h0 : 0 ≤ t) (h1 : t < (N : ℤ)) :
    rowTarget N t = some ⟨t.toNat, by omega⟩ := by
  unfold rowTarget
  rw [dif_pos ⟨h0, h1⟩]

variable {M : Type*} [AddCommMonoid M]

theorem rowScatter_sum {N R C w : Nat} (wf : ScatterDims.WF ⟨2, ![N, C]⟩ ⟨2, ![R, 1]⟩ ⟨2, ![R, C]⟩ [1] [0] [0] 1)
    (idx : IVec ⟨2, ![R, 1]⟩ w) (upd : (⟨2, ![R, C]⟩ : Shape).Idx → M) (i : Fin N) (c : Fin C) :
    scatterSum (fun j => (rowScatter N R C wf).resultIdx? j idx) upd (ix2 i c)
      = scatterSum (fun r : Fin R => rowTarget N (idx (ix2 r (0 : Fin 1))).toInt) (fun r => upd (ix2 r c)) i := by
  rw [scatterSum_eq_sum_ite, scatterSum_eq_sum_ite, sum_idx2]
  refine Finset.sum_congr rfl fun r _ => ?_
  have hcond : ∀ c' : Fin C, ((rowScatter N R C wf).resultIdx? (ix2 r c') idx = some (ix2 i c))
      ↔ ((idx (ix2 r (0 : Fin 1))).toInt = (i.val : ℤ) ∧ c' = c) := fun c' => by
    rw [rowScatter_resultIdx_iff]
    exact and_congr Iff.rfl ⟨fun h => Fin.ext h, fun h => congrArg Fin.val h⟩
  simp only [hcond, rowTarget_eq_some_iff]
  by_cases ht : (idx (ix2 r (0 : Fin 1))).toInt = (i.val : ℤ)
  · simp only [ht, true_and]
    rw [Finset.sum_ite_eq' Finset.univ c]
    simp
  · simp [ht]

theorem vecScatter_sum {N R w : Nat} (wf : ScatterDims.WF ⟨1, ![N]⟩ ⟨2, ![R, 1]⟩ ⟨1, ![R]⟩ [] [0] [0] 1)
    (idx : IVec ⟨2, ![R, 1]⟩ w) (upd : (⟨1, ![R]⟩ : Shape).Idx → M) (i : Fin N) :
    scatterSum (fun j => (vecScatter N R wf).resultIdx? j idx) upd (ix1 i)
      = scatterSum (fun r : Fin R => rowTarget N (idx (ix2 r (0 : Fin 1))).toInt) (fun r => upd (ix1 r)) i := by
  rw [scatterSum_eq_sum_ite, scatterSum_eq_sum_ite]
  let e : (⟨1, ![R]⟩ : Shape).Idx ≃ Fin R :=
    { toFun := fun j => j 0, invFun := fun r => ix1 r, left_inv := fun j => (eq_ix1 j).symm, right_inv := fun _ => rfl }
  refine Fintype.sum_equiv e _ _ fun j => ?_
  obtain ⟨r, rfl⟩ : ∃ r : Fin R, j = ix1 r := ⟨j 0, eq_ix1 j⟩
  simp only [vecScatter_resultIdx_iff, rowTarget_eq_some_iff]
  rfl

def blockEquiv {K N T : ℕ} (h : K * N = T) : Fin T ≃ Fin K × Fin N :=
  (finCongr h.symm).trans finProdFinEquiv.symm

theorem blockEquiv_symm_val {K N T : ℕ} (h : K * N = T) (k : Fin K) (n : Fin N) :
    ((blockEquiv h).symm (k, n)).val = k.val * N + n.val := by
  simp [blockEquiv, finProdFinEquiv, Nat.mul_comm, Nat.add_comm]

theorem scatterSum_some {I J : Type*} [Fintype J] [DecidableEq I] (t : J → I) (upd : J → M) (i : I) :
    scatterSum (fun j => some (t j)) upd i = ∑ j ∈ Finset.univ.filter (fun j => t j = i), upd j := by
  unfold scatterSum
  refine Finset.sum_congr ?_ fun _ _ => rfl
  ext j
  simp

theorem seg_eq_scatterSum {ι β : Type*} [Fintype ι] [DecidableEq β] (batch : ι → β) (b : β) (f : ι → EReal) :
    seg batch b f = scatterSum (fun i => some (batch i)) f b :=
  (scatterSum_some batch f b).symm

end Cert.Algebra
-- ==== Proof.ReadKConv.lean ====
import proofs.«404940_j85761906966882_2_alg».proof.Proof.ReadKPiece
import proofs.«404940_j85761906966882_2_alg».proof.Proof.ReadKFacts
import proofs.«404940_j85761906966882_2_alg».proof.Proof.AlgebraRows
import proofs.«404940_j85761906966882_2_alg».proof.Proof.AlgebraSpec

set_option maxRecDepth 8192

noncomputable section

namespace Cert.ReadK

open Idealize.ShloMosaic Idealize.ShloMosaic.ValueIdx Cert.SpecK
open scoped BigOperators

theorem dstOf_eq (om : IVec S27x100000 32) (k : Fin 27) (n : Fin 100000) :
    dstOf om k n = Cert.Algebra.rowTarget 100000 (wrapInt (om (ix2 k n)).toInt) := by
  unfold dstOf Cert.Algebra.rowTarget
  rfl

theorem flat_apply (om : IVec S27x100000 32) (k : Fin 27) (n : Fin 100000) :
    shapeCast S2700000 om shapeCasts_flat (ix1 ⟨k.val * 100000 + n.val, row_lt k n⟩) = om (ix2 k n) :=
  shapeCast_apply om shapeCasts_flat _ (ix2 k n) (by
    rw [Shape.rowMajor_val_two, Shape.rowMajor_val_one]
    rfl)

theorem colFlat_apply {α : Type} (x : S2700000.Idx → α) (r : Fin 2700000) (u : Fin 1) :
    broadcastInDim S2700000x1 ![0] bcast_S2700000_S2700000x1_0 x (ix2 r u) = x (ix1 r) :=
  broadcastInDim_apply _ _ x _ _ fun a => by
    match a with
    | ⟨0, _⟩ => exact (if_neg (show ¬ (2700000 : ℕ) = 1 by decide)).symm

theorem targetIdx_toInt (om : IVec S27x100000 32) (k : Fin 27) (n : Fin 100000) :
    (targetIdx om (ix2 ⟨k.val * 100000 + n.val, row_lt k n⟩ (0 : Fin 1))).toInt = wrapInt (om (ix2 k n)).toInt := by
  unfold targetIdx
  rw [colFlat_apply]
  show (Scalar.select (IntOp.cmpi .slt (shapeCast S2700000 om shapeCasts_flat (ix1 ⟨k.val * 100000 + n.val, row_lt k n⟩)) 0#32)
    (IntOp.addi (shapeCast S2700000 om shapeCasts_flat (ix1 ⟨k.val * 100000 + n.val, row_lt k n⟩)) 100000#32)
    (shapeCast S2700000 om shapeCasts_flat (ix1 ⟨k.val * 100000 + n.val, row_lt k n⟩))).toInt = _
  rw [flat_apply, toInt_wrap_word]

theorem convK_apply (P : FVec Ideal S100000x1728 .f32) (im om : IVec S27x100000 32)
    (hIm : ∀ (k : Fin 27) (n : Fin 100000), 0 ≤ (im (ix2 k n)).toInt ∧ (im (ix2 k n)).toInt < 100000)
    (i : Fin 100000) (c : Fin 64) :
    convK P im om (ix2 i c)
      = ∑ k : Fin 27, Cert.Algebra.scatterSum (dstOf om k)
          (fun n => P (ix2 (srcOf im k n) ⟨64 * k.val + c.val, col_lt k c⟩)) i := by
  unfold convK scatterTo
  rw [Cert.Algebra.scatterAdd_apply]
  have hz : broadcastInDim S100000x64 ![] bcast_S_S100000x64 (constant (F := Ideal) S_ .f32 0x00000000#32) (ix2 i c) = (0 : EReal) :=
    Ideal.ofBits_zero_f32
  rw [hz, zero_add]
  refine (Cert.Algebra.rowScatter_sum (N := 100000) (R := 2700000) (C := 64) scatterRows.wf (targetIdx om) (pieces P im) i c).trans ?_
  rw [Cert.Algebra.scatterSum_concat (Cert.Algebra.blockEquiv (K := 27) (N := 100000) (T := 2700000) rfl)]
  refine Finset.sum_congr rfl fun k _ => ?_
  have hv : ∀ n : Fin 100000, (Cert.Algebra.blockEquiv (K := 27) (N := 100000) (T := 2700000) rfl).symm (k, n)
      = ⟨k.val * 100000 + n.val, row_lt k n⟩ := fun n => Fin.ext (Cert.Algebra.blockEquiv_symm_val _ k n)
  refine Cert.Algebra.scatterSum_congr (fun n => ?_) (fun n => ?_) i
  · rw [hv n, targetIdx_toInt, dstOf_eq]
  · rw [hv n, pieces_apply, piece_apply _ _ _ _ _ (hIm k n).1 (hIm k n).2]

theorem convLayer_apply (R : Regions Ideal) (hR : RegionFacts R) (x : FVec Ideal S100000x64 .f32)
    (W : FVec Ideal S27x64x64 .f32) (im om : IVec S27x100000 32)
    (hIm : ∀ (k : Fin 27) (n : Fin 100000), 0 ≤ (im (ix2 k n)).toInt ∧ (im (ix2 k n)).toInt < 100000)
    (i : Fin 100000) (c : Fin 64) :
    convLayer R x W im om (ix2 i c) = Cert.Algebra.conv (x2 x) (w3 W) (srcOf im) (dstOf om) i c := by
  unfold convLayer
  rw [convK_apply _ _ _ hIm]
  unfold Cert.Algebra.conv
  refine Finset.sum_congr rfl fun k _ => Cert.Algebra.scatterSum_congr (fun _ => rfl) (fun n => ?_) i
  rw [hR.gemm]
  unfold Cert.Algebra.msg
  refine Finset.sum_congr rfl fun d _ => ?_
  rw [wideW_apply]
  rfl

theorem x2_convLayer (R : Regions Ideal) (hR : RegionFacts R) (x : FVec Ideal S100000x64 .f32)
    (W : FVec Ideal S27x64x64 .f32) (im om : IVec S27x100000 32)
    (hIm : ∀ (k : Fin 27) (n : Fin 100000), 0 ≤ (im (ix2 k n)).toInt ∧ (im (ix2 k n)).toInt < 100000) :
    x2 (convLayer R x W im om) = Cert.Algebra.conv (x2 x) (w3 W) (srcOf im) (dstOf om) :=
  funext fun i => funext fun c => convLayer_apply R hR x W im om hIm i c

end Cert.ReadK
-- ==== Proof.ReadKNorm.lean ====
import proofs.«404940_j85761906966882_2_alg».proof.Proof.ReadKFacts
import proofs.«404940_j85761906966882_2_alg».proof.Proof.AlgebraRows
import proofs.«404940_j85761906966882_2_alg».proof.Proof.AlgebraSpec
import proofs.«404940_j85761906966882_2_alg».proof.Proof.AlgebraConst
import Idealize.ShloMosaic.Lib.ValueLayout
import Idealize.ShloMosaic.Lib.IdealHost
import Idealize.ShloMosaic.Lib.Pipeline.Value

noncomputable section

namespace Cert.ReadK

open Idealize.ShloMosaic Idealize.ShloMosaic.ValueIdx
open scoped BigOperators

theorem toInt_ofNat_lt8 (q : Fin 8) : (BitVec.ofNat 32 q.val).toInt = (q.val : ℤ) := by
  revert q; decide

theorem word_eq_iff (v : BitVec 32) (h0 : 0 ≤ v.toInt) (h1 : v.toInt < 8) (q : Fin 8) :
    v = BitVec.ofNat 32 q.val ↔ (⟨min v.toInt.toNat 7, by omega⟩ : Fin 8) = q := by
  have hq := q.isLt
  constructor
  · rintro rfl
    refine Fin.ext ?_
    show min (BitVec.ofNat 32 q.val).toInt.toNat 7 = q.val
    rw [toInt_ofNat_lt8]; omega
  · intro h
    have hv : min v.toInt.toNat 7 = q.val := congrArg Fin.val h
    apply BitVec.eq_of_toInt_eq
    rw [toInt_ofNat_lt8]; omega

theorem colw_apply {α : Type} (x : SpecK.S100000.Idx → α) (n : Fin 100000) (u : Fin 1) :
    broadcastInDim SpecK.S100000x1 ![0] SpecK.bcast_S100000_S100000x1_0 x (ix2 n u) = x (ix1 n) :=
  broadcastInDim_apply _ _ x _ _ fun a => by
    match a with
    | ⟨0, _⟩ => exact (if_neg (show ¬ (100000 : ℕ) = 1 by decide)).symm

theorem perBatch_apply (n : FVec Ideal SpecK.S8 .f32) (β : Fin 8) (c : Fin 64) :
    SpecK.perBatch n (ix2 β c) = n (ix1 β) := by
  unfold SpecK.perBatch
  rw [broadcastInDim_apply _ _ _ _ (ix2 β (0 : Fin 1)) (fun a => by
    match a with
    | ⟨0, _⟩ => exact (if_neg (show ¬ (8 : ℕ) = 1 by decide)).symm
    | ⟨1, _⟩ => exact (if_pos rfl).symm)]
  exact broadcastInDim_apply _ _ n _ (ix1 β) fun a => by
    match a with
    | ⟨0, _⟩ => exact (if_neg (show ¬ (8 : ℕ) = 1 by decide)).symm

theorem oneHot_apply (b : IVec SpecK.S100000 32)
    (hBi : ∀ i : Fin 100000, 0 ≤ (b (ix1 i)).toInt ∧ (b (ix1 i)).toInt < 8) (i : Fin 100000) (q : Fin 8) :
    SpecK.oneHot (F := Ideal) b (ix2 i q) = Algebra.oneHot (batchOf b) i q := by
  have hA : broadcastInDim SpecK.S100000x8 ![0, 1] SpecK.bcast_S100000x1_S100000x8_0_1
      (broadcastInDim SpecK.S100000x1 ![0] SpecK.bcast_S100000_S100000x1_0 b) (ix2 i q) = b (ix1 i) := by
    rw [broadcastInDim_apply _ _ _ _ (ix2 i (0 : Fin 1)) (fun a => by
      match a with
      | ⟨0, _⟩ => exact (if_neg (show ¬ (100000 : ℕ) = 1 by decide)).symm
      | ⟨1, _⟩ => exact (if_pos rfl).symm)]
    exact colw_apply b i 0
  have hB : broadcastInDim SpecK.S100000x8 ![0, 1] SpecK.bcast_S1x8_S100000x8_0_1 (iotaInDim SpecK.S1x8 32 1) (ix2 i q)
      = BitVec.ofNat 32 q.val := by
    rw [broadcastInDim_apply _ _ _ _ (ix2 (0 : Fin 1) q) (fun a => by
      match a with
      | ⟨0, _⟩ => exact (if_pos rfl).symm
      | ⟨1, _⟩ => exact (if_neg (show ¬ (8 : ℕ) = 1 by decide)).symm)]
    rfl
  show FloatOps.uitofp (F := Ideal) .bf16 (IntOp.cmpi .eq
      (broadcastInDim SpecK.S100000x8 ![0, 1] SpecK.bcast_S100000x1_S100000x8_0_1
        (broadcastInDim SpecK.S100000x1 ![0] SpecK.bcast_S100000_S100000x1_0 b) (ix2 i q))
      (broadcastInDim SpecK.S100000x8 ![0, 1] SpecK.bcast_S1x8_S100000x8_0_1 (iotaInDim SpecK.S1x8 32 1) (ix2 i q))) = _
  rw [hA, hB]
  show (((IntOp.cmpi .eq (b (ix1 i)) (BitVec.ofNat 32 q.val)).toNat : ℝ) : EReal) = _
  unfold Algebra.oneHot
  by_cases h : b (ix1 i) = BitVec.ofNat 32 q.val
  · have hq : batchOf b i = q := (word_eq_iff _ (hBi i).1 (hBi i).2 q).mp h
    have hc : IntOp.cmpi .eq (b (ix1 i)) (BitVec.ofNat 32 q.val) = 1#1 := by simp [IntOp.cmpi, h]
    rw [if_pos hq, hc]
    simp
  · have hq : ¬ batchOf b i = q := fun hq => h ((word_eq_iff _ (hBi i).1 (hBi i).2 q).mpr hq)
    have hc : IntOp.cmpi .eq (b (ix1 i)) (BitVec.ofNat 32 q.val) = 0#1 := by
      show BitVec.ofBool (b (ix1 i) == BitVec.ofNat 32 q.val) = 0#1
      rw [beq_eq_false_iff_ne.mpr h]
      rfl
    rw [if_neg hq, hc]
    simp

theorem counts_apply (b : IVec SpecK.S100000 32)
    (hBi : ∀ i : Fin 100000, 0 ≤ (b (ix1 i)).toInt ∧ (b (ix1 i)).toInt < 8) (β : Fin 8) :
    SpecK.counts (F := Ideal) b (ix1 β) = max (Algebra.cnt (batchOf b) β) 1 := by
  have hones : ∀ j, broadcastInDim SpecK.S100000 ![] SpecK.bcast_S_S100000
      (constant (F := Ideal) SpecK.S_ .f32 0x3F800000#32) j = 1 := fun j => by
    rw [broadcastInDim_scalar_apply]; exact Algebra.ofBits_one
  have hone8 : broadcastInDim SpecK.S8 ![] SpecK.bcast_S_S8 (constant (F := Ideal) SpecK.S_ .f32 0x3F800000#32) (ix1 β) = 1 := by
    rw [broadcastInDim_scalar_apply]; exact Algebra.ofBits_one
  have hzero8 : broadcastInDim SpecK.S8 ![] SpecK.bcast_S_S8 (constant (F := Ideal) SpecK.S_ .f32 0x00000000#32) (ix1 β) = 0 := by
    rw [broadcastInDim_scalar_apply]; exact Ideal.ofBits_zero_f32
  have htgt : ∀ r : Fin 100000,
      Algebra.rowTarget 8 ((broadcastInDim SpecK.S100000x1 ![0] SpecK.bcast_S100000_S100000x1_0 b) (ix2 r (0 : Fin 1))).toInt
        = some (batchOf b r) := fun r => by
    rw [colw_apply, Algebra.rowTarget_of_range (hBi r).1 (hBi r).2]
    refine congrArg some (Fin.ext ?_)
    show (b (ix1 r)).toInt.toNat = min (b (ix1 r)).toInt.toNat 7
    have := (hBi r).1; have := (hBi r).2; omega
  unfold SpecK.counts
  rw [maximumf_apply, hone8, Algebra.scatterAdd_apply, hzero8, zero_add]
  have hsc : SpecK.scatterCount = Algebra.vecScatter 8 100000 (by decide) := rfl
  rw [hsc, Algebra.vecScatter_sum]
  simp only [htgt, hones]
  rw [← Algebra.seg_eq_scatterSum]
  rfl

theorem hostDivf_apply {s : Shape} (a b : FVec Ideal s .f32) (j : s.Idx) : Host.divf a b j = Ideal.div (a j) (b j) := rfl

theorem meanK_apply (s : FVec Ideal SpecK.S8x64 .f32) (n : FVec Ideal SpecK.S8 .f32) (β : Fin 8) (c : Fin 64) :
    SpecK.meanK s n (ix2 β c) = Ideal.div (s (ix2 β c)) (n (ix1 β)) := by
  unfold SpecK.meanK
  rw [hostDivf_apply, perBatch_apply]

theorem varK_apply (s q : FVec Ideal SpecK.S8x64 .f32) (n : FVec Ideal SpecK.S8 .f32) (β : Fin 8) (c : Fin 64) :
    SpecK.varK s q n (ix2 β c)
      = max (Ideal.div (q (ix2 β c)) (n (ix1 β)) - SpecK.meanK s n (ix2 β c) * SpecK.meanK s n (ix2 β c)) 0 := by
  have hz : broadcastInDim SpecK.S8x64 ![] SpecK.bcast_S_S8x64 (constant (F := Ideal) SpecK.S_ .f32 0x00000000#32) (ix2 β c) = 0 := by
    rw [broadcastInDim_scalar_apply]; exact Ideal.ofBits_zero_f32
  unfold SpecK.varK
  rw [maximumf_apply, subf_apply, mulf_apply, hostDivf_apply, perBatch_apply, hz]

theorem meanOf_apply (R : SpecK.Regions Ideal) (hR : RegionFacts R) (y : FVec Ideal SpecK.S100000x64 .f32)
    (b : IVec SpecK.S100000 32) (hBi : ∀ i : Fin 100000, 0 ≤ (b (ix1 i)).toInt ∧ (b (ix1 i)).toInt < 8)
    (β : Fin 8) (c : Fin 64) :
    SpecK.meanOf R y b (ix2 β c) = Algebra.meanK (batchOf b) (fun i => x2 y i c) β := by
  unfold SpecK.meanOf
  rw [meanK_apply, hR.sum, counts_apply b hBi]
  simp only [oneHot_apply b hBi]
  rw [Algebra.sum_oneHot_mul_seg]
  rfl

theorem varOf_apply (R : SpecK.Regions Ideal) (hR : RegionFacts R) (y : FVec Ideal SpecK.S100000x64 .f32)
    (b : IVec SpecK.S100000 32) (hBi : ∀ i : Fin 100000, 0 ≤ (b (ix1 i)).toInt ∧ (b (ix1 i)).toInt < 8)
    (β : Fin 8) (c : Fin 64) :
    SpecK.varOf R y b (ix2 β c) = Algebra.varK (batchOf b) (fun i => x2 y i c) β := by
  have hm : SpecK.meanK (R.statsSumG y (SpecK.oneHot b)) (SpecK.counts b) (ix2 β c)
      = Algebra.meanK (batchOf b) (fun i => x2 y i c) β := meanOf_apply R hR y b hBi β c
  unfold SpecK.varOf
  rw [varK_apply, hm, hR.sq, counts_apply b hBi]
  simp only [oneHot_apply b hBi]
  rw [Algebra.sum_oneHot_mul_seg]
  rfl

theorem asRow_apply (g : FVec Ideal SpecK.S64 .f32) (c : Fin 64) : SpecK.asRow g (ix2 (0 : Fin 1) c) = v1 g c :=
  shapeCast_a_1a_apply g SpecK.shapeCasts_S64_S1x64 0 c

theorem normK_apply (R : SpecK.Regions Ideal) (hR : RegionFacts R) (y : FVec Ideal SpecK.S100000x64 .f32)
    (b : IVec SpecK.S100000 32) (hBi : ∀ i : Fin 100000, 0 ≤ (b (ix1 i)).toInt ∧ (b (ix1 i)).toInt < 8)
    (g β : FVec Ideal SpecK.S64 .f32) (i : Fin 100000) (c : Fin 64) :
    SpecK.normK R y b g β (ix2 i c) = Algebra.normK epsE leakyE (batchOf b) (x2 y) (v1 g) (v1 β) i c := by
  unfold SpecK.normK
  rw [hR.apply]
  simp only [oneHot_apply b hBi, meanOf_apply R hR y b hBi, varOf_apply R hR y b hBi, asRow_apply]
  rw [Algebra.sum_oneHot_mul (batchOf b) i fun q => Algebra.meanK (batchOf b) (fun i => x2 y i c) q,
    Algebra.sum_oneHot_mul (batchOf b) i fun q => Algebra.varK (batchOf b) (fun i => x2 y i c) q]
  rfl

theorem normResK_apply (R : SpecK.Regions Ideal) (hR : RegionFacts R) (y : FVec Ideal SpecK.S100000x64 .f32)
    (b : IVec SpecK.S100000 32) (hBi : ∀ i : Fin 100000, 0 ≤ (b (ix1 i)).toInt ∧ (b (ix1 i)).toInt < 8)
    (g β : FVec Ideal SpecK.S64 .f32) (res : FVec Ideal SpecK.S100000x64 .f32) (i : Fin 100000) (c : Fin 64) :
    SpecK.normResK R y b g β res (ix2 i c)
      = Algebra.normKRes epsE leakyE (batchOf b) (x2 y) (v1 g) (v1 β) (x2 res) i c := by
  unfold SpecK.normResK
  rw [hR.applyRes]
  simp only [oneHot_apply b hBi, meanOf_apply R hR y b hBi, varOf_apply R hR y b hBi, asRow_apply]
  rw [Algebra.sum_oneHot_mul (batchOf b) i fun q => Algebra.meanK (batchOf b) (fun i => x2 y i c) q,
    Algebra.sum_oneHot_mul (batchOf b) i fun q => Algebra.varK (batchOf b) (fun i => x2 y i c) q]
  rfl

end Cert.ReadK
-- ==== Proof.ReadK.lean ====
import proofs.«404940_j85761906966882_2_alg».proof.Proof.ReadKConv
import proofs.«404940_j85761906966882_2_alg».proof.Proof.ReadKNorm

set_option maxRecDepth 8192

noncomputable section

namespace Cert.ReadK

open Idealize.ShloMosaic Idealize.ShloMosaic.ValueIdx Cert.SpecK
open scoped BigOperators

theorem x2_normK (R : Regions Ideal) (hR : RegionFacts R) (y : FVec Ideal S100000x64 .f32) (b : IVec S100000 32)
    (hBi : ∀ i : Fin 100000, 0 ≤ (b (ix1 i)).toInt ∧ (b (ix1 i)).toInt < 8) (g β : FVec Ideal S64 .f32) :
    x2 (Cert.SpecK.normK R y b g β) = Cert.Algebra.normK epsE leakyE (batchOf b) (x2 y) (v1 g) (v1 β) :=
  funext fun i => funext fun c => normK_apply R hR y b hBi g β i c

theorem kerG_eq_blockK (R : Regions Ideal) (hR : RegionFacts R) (a0 : FVec Ideal S100000x64 .f32)
    (a1 : FVec Ideal S27x64x64 .f32) (a2 a3 : FVec Ideal S64 .f32) (a4 : FVec Ideal S27x64x64 .f32)
    (a5 a6 : FVec Ideal S64 .f32) (a7 a8 : IVec S27x100000 32) (a9 : IVec S100000 32)
    (hIm : ∀ (k : Fin 27) (n : Fin 100000), 0 ≤ (a7 (ix2 k n)).toInt ∧ (a7 (ix2 k n)).toInt < 100000)
    (hBi : ∀ i : Fin 100000, 0 ≤ (a9 (ix1 i)).toInt ∧ (a9 (ix1 i)).toInt < 8) (i : Fin 100000) (c : Fin 64) :
    kerG R a0 a1 a2 a3 a4 a5 a6 a7 a8 a9 (ix2 i c)
      = Cert.Algebra.blockK epsE leakyE (batchOf a9) (srcOf a7) (dstOf a8) (x2 a0) (w3 a1) (v1 a2) (v1 a3) (w3 a4)
          (v1 a5) (v1 a6) i c := by
  unfold kerG Cert.Algebra.blockK
  rw [normResK_apply R hR _ a9 hBi a5 a6 a0 i c, x2_convLayer R hR _ a4 a7 a8 hIm, x2_normK R hR _ a9 hBi a2 a3,
    x2_convLayer R hR a0 a1 a7 a8 hIm]

end Cert.ReadK
-- ==== Proof.ReadRScatter.lean ====
import proofs.«404940_j85761906966882_2_alg».proof.Proof.AlgebraOps

noncomputable section

namespace Cert.ReadR

open Idealize.ShloMosaic Idealize.ShloMosaic.ValueIdx Cert.Algebra
open scoped BigOperators

theorem rowScatterSum {M : Type*} [AddCommMonoid M] {N R C w : Nat}
    (wf : ScatterDims.WF ⟨2, ![N, C]⟩ ⟨2, ![R, 1]⟩ ⟨2, ![R, C]⟩ [1] [0] [0] 1)
    (idx : IVec ⟨2, ![R, 1]⟩ w) (upd : (⟨2, ![R, C]⟩ : Shape).Idx → M) (tgt : Fin R → Option (Fin N))
    (htgt : ∀ n i, tgt n = some i ↔ (idx (ix2 n (0 : Fin 1))).toInt = ((i : Fin N).val : ℤ)) (i : Fin N) (c : Fin C) :
    scatterSum (fun j => (rowScatter N R C wf).resultIdx? j idx) upd (ix2 i c)
      = scatterSum tgt (fun n => upd (ix2 n c)) i := by
  rw [scatterSum_eq_sum_ite, scatterSum_eq_sum_ite, sum_idx2]
  refine Finset.sum_congr rfl fun n _ => ?_
  have hiff : ∀ c' : Fin C, (rowScatter N R C wf).resultIdx? (ix2 n c') idx = some (ix2 i c) ↔ (tgt n = some i ∧ c' = c) := fun c' => by
    rw [rowScatter_resultIdx_iff, htgt n i]
    exact and_congr_right fun _ => Fin.val_inj
  by_cases ht : tgt n = some i
  · rw [if_pos ht]
    rw [Finset.sum_congr rfl fun c' _ => if_congr ((hiff c').trans (and_iff_right ht)) rfl rfl]
    rw [Finset.sum_ite_eq' Finset.univ c fun c' => upd (ix2 n c')]
    exact if_pos (Finset.mem_univ c)
  · rw [if_neg ht]
    exact Finset.sum_eq_zero fun c' _ => if_neg fun h => ht ((hiff c').1 h).1

end Cert.ReadR
-- ==== Proof.ReadRMaps.lean ====
import Idealize.ShloMosaic.Lib.ValueLayout
import Idealize.ShloMosaic.Lib.Pipeline.Value
import proofs.«404940_j85761906966882_2_alg».proof.Proof.SpecR
import proofs.«404940_j85761906966882_2_alg».proof.Proof.ReadKDefs

namespace Cert.ReadR

open Idealize.ShloMosaic Idealize.ShloMosaic.ValueIdx Cert.SpecR Cert.ReadK

theorem mapRow_apply (m : IVec S27x100000 32) (k : Fin 27) (n : Fin 100000) :
    mapRow m k (ix1 n) = m (ix2 k n) := by
  unfold mapRow
  rw [shapeCast_1a_a_apply]
  exact extractStridedSlice_apply _ _ _ _ _ (fun a => by
    match a with
    | ⟨0, _⟩ => rfl
    | ⟨1, _⟩ => show n.val = 0 + n.val; omega)

theorem weight_apply {F : FTy → Type} [FloatOps F] (W : FVec F S27x64x64 .f32) (k : Fin 27) (j c : Fin 64) :
    weight W k (ix2 j c) = W (ix3 k j c) := by
  unfold weight
  rw [shapeCast_1ab_ab_apply]
  exact extractStridedSlice_apply _ _ _ _ _ (fun a => by
    match a with
    | ⟨0, _⟩ => rfl
    | ⟨1, _⟩ => show j.val = 0 + j.val; omega
    | ⟨2, _⟩ => show c.val = 0 + c.val; omega)

theorem column_apply {α : Type} (v : S100000.Idx → α) (n : Fin 100000) (u : Fin 1) :
    broadcastInDim S100000x1 ![0] bcast_S100000_S100000x1_0 v (ix2 n u) = v (ix1 n) :=
  broadcastInDim_apply _ _ _ _ _ (fun a => by
    match a with
    | ⟨0, _⟩ => rfl)

theorem wrapRow_toInt (v : IVec S100000 32) (n : Fin 100000) :
    (wrapRow v (ix1 n)).toInt = wrapInt (v (ix1 n)).toInt :=
  toInt_wrap_word (v (ix1 n))

theorem rowIdx_toInt (v : IVec S100000 32) (n : Fin 100000) (u : Fin 1) :
    (rowIdx v (ix2 n u)).toInt = wrapInt (v (ix1 n)).toInt := by
  unfold rowIdx
  rw [column_apply]
  exact wrapRow_toInt v n

theorem batchCol_apply (b : IVec S100000 32) (n : Fin 100000) (u : Fin 1) :
    batchCol b (ix2 n u) = b (ix1 n) := column_apply b n u

end Cert.ReadR
-- ==== Proof.ReadRDot.lean ====
import Idealize.ShloMosaic.PureOps.Ideal.Laws
import proofs.«404940_j85761906966882_2_alg».proof.Proof.AlgebraOps
import proofs.«404940_j85761906966882_2_alg».proof.Proof.ReadRMaps

noncomputable section

namespace Cert.ReadR

open Idealize.ShloMosaic Idealize.ShloMosaic.ValueIdx Cert.SpecR Cert.ReadK Cert.Algebra
open scoped BigOperators

theorem lhs_dotRows_0 (j : S100000x64.Idx) (q : dotRows.contr.Idx) :
    (dotRows.lhsIdx j q 0).val = (j 0).val := rfl
theorem lhs_dotRows_1 (j : S100000x64.Idx) (q : dotRows.contr.Idx) :
    (dotRows.lhsIdx j q 1).val = (q ⟨0, by decide⟩).val := rfl
theorem rhs_dotRows_0 (j : S100000x64.Idx) (q : dotRows.contr.Idx) :
    (dotRows.rhsIdx j q 0).val = (q ⟨0, by decide⟩).val := rfl
theorem rhs_dotRows_1 (j : S100000x64.Idx) (q : dotRows.contr.Idx) :
    (dotRows.rhsIdx j q 1).val = (j 1).val := rfl

theorem dotRows_apply (G : FVec Ideal S100000x64 .f32) (Wk : FVec Ideal S64x64 .f32) (n : Fin 100000) (c : Fin 64) :
    Host.dotGeneral dotRows none G Wk (ix2 n c) = ∑ j : Fin 64, G (ix2 n j) * Wk (ix2 j c) := by
  show FloatOps.dotGeneral dotRows none .single G Wk (ix2 n c) = _
  rw [Ideal.dotGeneral_apply, ← Equiv.sum_comp (contrEquiv1 dotRows 64 rfl rfl).symm]
  refine Finset.sum_congr rfl fun j _ => ?_
  have hq := contrEquiv1_symm_val dotRows 64 rfl rfl j
  have hl : dotRows.lhsIdx (ix2 n c) ((contrEquiv1 dotRows 64 rfl rfl).symm j) = ix2 n j := by
    funext a; refine Fin.ext ?_
    match a with
    | ⟨0, _⟩ => exact lhs_dotRows_0 _ _
    | ⟨1, _⟩ => exact (lhs_dotRows_1 _ _).trans hq
  have hr : dotRows.rhsIdx (ix2 n c) ((contrEquiv1 dotRows 64 rfl rfl).symm j) = ix2 j c := by
    funext a; refine Fin.ext ?_
    match a with
    | ⟨0, _⟩ => exact (rhs_dotRows_0 _ _).trans hq
    | ⟨1, _⟩ => exact rhs_dotRows_1 _ _
  rw [hl, hr]

theorem gatherRows_apply (x : FVec Ideal S100000x64 .f32) (v : IVec S100000 32)
    (hv : ∀ n : Fin 100000, 0 ≤ (v (ix1 n)).toInt ∧ (v (ix1 n)).toInt < 100000) (n : Fin 100000) (j : Fin 64) :
    Host.gather gatherRows x (rowIdx v) (ix2 n j)
      = x (ix2 ⟨min (v (ix1 n)).toInt.toNat 99999, by omega⟩ j) := by
  have h := gather_rows_apply (N := 100000) (R := 100000) (C := 64) (by decide) gatherRows.wf x (rowIdx v) (ix2 n j)
  refine h.trans ?_
  congr 1
  have hw : (rowIdx v (ix2 n (0 : Fin 1))).toInt = (v (ix1 n)).toInt := by
    rw [rowIdx_toInt]
    unfold wrapInt
    rw [if_neg (not_lt.2 (hv n).1)]
  funext a
  refine Fin.ext ?_
  match a with
  | ⟨0, _⟩ =>
    show min (rowIdx v (ix2 n (0 : Fin 1))).toInt.toNat (100000 - 1) = min (v (ix1 n)).toInt.toNat 99999
    rw [hw]
  | ⟨1, _⟩ => rfl

end Cert.ReadR
-- ==== Proof.ReadRConv.lean ====
import proofs.«404940_j85761906966882_2_alg».proof.Proof.AlgebraSpec
import proofs.«404940_j85761906966882_2_alg».proof.Proof.ReadRScatter
import proofs.«404940_j85761906966882_2_alg».proof.Proof.ReadRDot

noncomputable section

namespace Cert.ReadR

open Idealize.ShloMosaic Idealize.ShloMosaic.ValueIdx Cert.SpecR Cert.ReadK Cert.Algebra
open scoped BigOperators

theorem dstOf_eq_some_iff (om : IVec S27x100000 32) (k : Fin 27) (n i : Fin 100000) :
    dstOf om k n = some i ↔ (rowIdx (mapRow om k) (ix2 n (0 : Fin 1))).toInt = (i.val : ℤ) := by
  rw [rowIdx_toInt, mapRow_apply]
  have hi := i.isLt
  unfold dstOf
  split
  · next h =>
    rw [Option.some.injEq, Fin.ext_iff]
    show (wrapInt (om (ix2 k n)).toInt).toNat = i.val ↔ _
    omega
  · next h =>
    constructor
    · intro h'; exact absurd h' (by simp)
    · intro h'; exfalso; apply h; omega

theorem zeros_apply (j : S100000x64.Idx) : (zeros (F := Ideal)) j = 0 := by
  show Ideal.ofBits .f32 0x00000000#32 = 0
  exact Ideal.ofBits_zero_f32

variable (x : FVec Ideal S100000x64 .f32) (W : FVec Ideal S27x64x64 .f32) (im om : IVec S27x100000 32)

theorem message_apply (him : ∀ j, 0 ≤ (im j).toInt ∧ (im j).toInt < 100000) (k : Fin 27) (n : Fin 100000) (c : Fin 64) :
    Host.dotGeneral dotRows none (Host.gather gatherRows x (rowIdx (mapRow im k))) (weight W k) (ix2 n c)
      = msg (fun i c => x (ix2 i c)) (fun k j c => W (ix3 k j c)) (srcOf im) k n c := by
  rw [dotRows_apply]
  unfold msg
  refine Finset.sum_congr rfl fun j _ => ?_
  rw [gatherRows_apply x (mapRow im k) (fun m => by rw [mapRow_apply]; exact him _) n j, weight_apply]
  have hs : (⟨min (mapRow im k (ix1 n)).toInt.toNat 99999, by omega⟩ : Fin 100000) = srcOf im k n := by
    refine Fin.ext ?_
    show min (mapRow im k (ix1 n)).toInt.toNat 99999 = min (im (ix2 k n)).toInt.toNat 99999
    rw [mapRow_apply]
  rw [hs]

theorem convStep_apply (him : ∀ j, 0 ≤ (im j).toInt ∧ (im j).toInt < 100000) (k : Fin 27)
    (acc : FVec Ideal S100000x64 .f32) (i : Fin 100000) (c : Fin 64) :
    convStep x W im om k acc (ix2 i c)
      = acc (ix2 i c) + scatterSum (dstOf om k)
          (fun n => msg (fun i c => x (ix2 i c)) (fun k j c => W (ix3 k j c)) (srcOf im) k n c) i := by
  unfold convStep
  rw [scatterAdd_apply]
  refine congrArg (acc (ix2 i c) + ·) ?_
  refine (rowScatterSum (N := 100000) (R := 100000) (C := 64) scatterRows.wf (rowIdx (mapRow om k)) _ (dstOf om k)
    (dstOf_eq_some_iff om k) i c).trans ?_
  exact scatterSum_congr (fun _ => rfl) (fun n => message_apply x W im him k n c) i

theorem convAcc_apply (him : ∀ j, 0 ≤ (im j).toInt ∧ (im j).toInt < 100000) (n : ℕ) (h : n ≤ 27)
    (i : Fin 100000) (c : Fin 64) :
    convAcc x W im om n h (ix2 i c)
      = ∑ k : Fin n, scatterSum (dstOf om (Fin.castLE h k))
          (fun m => msg (fun i c => x (ix2 i c)) (fun k j c => W (ix3 k j c)) (srcOf im) (Fin.castLE h k) m c) i := by
  induction n with
  | zero => rw [convAcc_zero, zeros_apply]; rfl
  | succ m ih =>
    rw [convAcc_succ, convStep_apply x W im om him, ih (Nat.le_of_succ_le h), Fin.sum_univ_castSucc]
    rfl

theorem convR_apply (him : ∀ j, 0 ≤ (im j).toInt ∧ (im j).toInt < 100000) (i : Fin 100000) (c : Fin 64) :
    convR x W im om (ix2 i c) = conv (x2 x) (w3 W) (srcOf im) (dstOf om) i c := by
  show convR x W im om (ix2 i c)
    = conv (fun i c => x (ix2 i c)) (fun k j c => W (ix3 k j c)) (srcOf im) (dstOf om) i c
  unfold convR conv
  rw [convAcc_apply x W im om him 27 (Nat.le_refl _) i c]
  rfl

end Cert.ReadR
-- ==== Proof.ReadRNorm.lean ====
import Idealize.ShloMosaic.Lib.IdealHost
import proofs.«404940_j85761906966882_2_alg».proof.Proof.AlgebraSpec
import proofs.«404940_j85761906966882_2_alg».proof.Proof.AlgebraRows
import proofs.«404940_j85761906966882_2_alg».proof.Proof.ReadRScatter
import proofs.«404940_j85761906966882_2_alg».proof.Proof.ReadRMaps

noncomputable section

namespace Cert.ReadR

open Idealize.ShloMosaic Idealize.ShloMosaic.ValueIdx Cert.SpecR Cert.ReadK
open Cert.Algebra (scatterSum scatterSum_congr scatterAdd_apply seg cnt meanR varR seg_eq_scatterSum normTail normTailRes)
open scoped BigOperators

variable (b : IVec S100000 32)

theorem batch_target (hb : ∀ j, 0 ≤ (b j).toInt ∧ (b j).toInt < 8) (n : Fin 100000) (β : Fin 8) :
    some (batchOf b n) = some β ↔ (batchCol b (ix2 n (0 : Fin 1))).toInt = (β.val : ℤ) := by
  rw [batchCol_apply, Option.some.injEq, Fin.ext_iff]
  show min (b (ix1 n)).toInt.toNat 7 = β.val ↔ _
  have h := hb (ix1 n)
  have hβ := β.isLt
  omega

theorem batchSum_apply (hb : ∀ j, 0 ≤ (b j).toInt ∧ (b j).toInt < 8) (y : FVec Ideal S100000x64 .f32)
    (β : Fin 8) (c : Fin 64) :
    batchSum b y (ix2 β c) = seg (batchOf b) β (fun n => y (ix2 n c)) := by
  have h1 : scatterSum (fun j => scatterBatch.resultIdx? j (batchCol b)) y (ix2 β c)
      = seg (batchOf b) β (fun n => y (ix2 n c)) :=
    (rowScatterSum (N := 8) (R := 100000) (C := 64) scatterBatch.wf (batchCol b) y (fun n => some (batchOf b n))
      (batch_target b hb) β c).trans (seg_eq_scatterSum (batchOf b) β _).symm
  unfold batchSum
  rw [scatterAdd_apply, h1]
  show Ideal.ofBits .f32 0x00000000#32 + _ = _
  rw [Ideal.ofBits_zero_f32, zero_add]

theorem counts_apply (hb : ∀ j, 0 ≤ (b j).toInt ∧ (b j).toInt < 8) (β : Fin 8) (u : Fin 1) :
    counts (F := Ideal) b (ix2 β u) = cnt (batchOf b) β := by
  have h1 : scatterSum (fun j => scatterCount.resultIdx? j (batchCol b))
      (broadcastInDim S100000x1 ![] bcast_S_S100000x1 (constant (F := Ideal) S_ .f32 0x3F800000#32)) (ix2 β u)
      = seg (batchOf b) β (fun _ => 1) :=
    (rowScatterSum (N := 8) (R := 100000) (C := 1) scatterCount.wf (batchCol b) _ (fun n => some (batchOf b n))
      (batch_target b hb) β u).trans
      ((scatterSum_congr (fun _ => rfl) (fun _ => Ideal.ofBits_one_f32) β).trans
        (seg_eq_scatterSum (batchOf b) β fun _ => 1).symm)
  unfold counts
  rw [scatterAdd_apply, h1]
  show Ideal.ofBits .f32 0x00000000#32 + _ = _
  rw [Ideal.ofBits_zero_f32, zero_add]
  rfl

theorem countsBcast_apply (t : FVec Ideal S8x1 .f32) (β : Fin 8) (c : Fin 64) :
    broadcastInDim S8x64 ![0, 1] bcast_S8x1_S8x64_0_1 t (ix2 β c) = t (ix2 β (0 : Fin 1)) :=
  broadcastInDim_apply _ _ _ _ _ (fun a => by
    match a with
    | ⟨0, _⟩ => rfl
    | ⟨1, _⟩ => rfl)

theorem batchMean_apply (hb : ∀ j, 0 ≤ (b j).toInt ∧ (b j).toInt < 8) (y : FVec Ideal S100000x64 .f32)
    (β : Fin 8) (c : Fin 64) :
    batchMean b y (ix2 β c) = meanR (batchOf b) (fun n => y (ix2 n c)) β := by
  unfold batchMean Host.divf
  simp only [Ideal.hostDivf_def]
  rw [batchSum_apply b hb, countsBcast_apply, counts_apply b hb]
  rfl

theorem wrapBatch_apply (hb : ∀ j, 0 ≤ (b j).toInt ∧ (b j).toInt < 8) (i : Fin 100000) :
    wrapBatch b (ix1 i) = b (ix1 i) := by
  have hc : IntOp.cmpi .slt (b (ix1 i)) 0#32 = 0#1 := by
    simp [IntOp.cmpi, BitVec.slt, not_lt.2 (hb (ix1 i)).1]
  show Scalar.select (IntOp.cmpi .slt (b (ix1 i)) 0#32) _ _ = _
  rw [hc, select_zero]

theorem rowsOf_apply (hb : ∀ j, 0 ≤ (b j).toInt ∧ (b j).toInt < 8) (t : FVec Ideal S8x64 .f32)
    (i : Fin 100000) (c : Fin 64) :
    rowsOf b t (ix2 i c) = t (ix2 (batchOf b i) c) := by
  unfold rowsOf
  refine (Cert.Algebra.gather_rows_apply (N := 8) (R := 100000) (C := 64) (by decide) gatherBatch.wf t _ (ix2 i c)).trans ?_
  refine congrArg t (funext fun a => Fin.ext ?_)
  match a with
  | ⟨0, _⟩ =>
    show min (broadcastInDim S100000x1 ![0] bcast_S100000_S100000x1_0 (wrapBatch b) (ix2 i (0 : Fin 1))).toInt.toNat (8 - 1)
      = min (b (ix1 i)).toInt.toNat 7
    rw [column_apply, wrapBatch_apply b hb]
  | ⟨1, _⟩ => rfl

theorem centred_apply (hb : ∀ j, 0 ≤ (b j).toInt ∧ (b j).toInt < 8) (y : FVec Ideal S100000x64 .f32)
    (i : Fin 100000) (c : Fin 64) :
    centred b y (ix2 i c) = y (ix2 i c) - meanR (batchOf b) (fun n => y (ix2 n c)) (batchOf b i) := by
  show y (ix2 i c) - rowsOf b (batchMean b y) (ix2 i c) = _
  rw [rowsOf_apply b hb, batchMean_apply b hb]

theorem batchVar_apply (hb : ∀ j, 0 ≤ (b j).toInt ∧ (b j).toInt < 8) (y : FVec Ideal S100000x64 .f32)
    (β : Fin 8) (c : Fin 64) :
    batchVar b y (ix2 β c) = varR (batchOf b) (fun n => y (ix2 n c)) β := by
  unfold batchVar
  rw [batchMean_apply b hb]
  have hf : (fun n => mulf (centred b y) (centred b y) (ix2 n c))
      = fun n => (y (ix2 n c) - meanR (batchOf b) (fun n => y (ix2 n c)) (batchOf b n))
          * (y (ix2 n c) - meanR (batchOf b) (fun n => y (ix2 n c)) (batchOf b n)) :=
    funext fun n => by
      show centred b y (ix2 n c) * centred b y (ix2 n c) = _
      rw [centred_apply b hb]
  rw [hf]
  rfl

theorem normalised_apply (hb : ∀ j, 0 ≤ (b j).toInt ∧ (b j).toInt < 8) (y : FVec Ideal S100000x64 .f32)
    (i : Fin 100000) (c : Fin 64) :
    normalised b y (ix2 i c)
      = (y (ix2 i c) - meanR (batchOf b) (fun n => y (ix2 n c)) (batchOf b i))
          * Ideal.rsqrt (varR (batchOf b) (fun n => y (ix2 n c)) (batchOf b i) + epsE) := by
  unfold normalised Host.rsqrt
  rw [mulf_apply]
  simp only [Ideal.hostUnary_rsqrt_def, addf_apply]
  rw [centred_apply b hb, rowsOf_apply b hb, batchVar_apply b hb]
  rfl

theorem channel_apply (g : FVec Ideal S64 .f32) (i : Fin 100000) (c : Fin 64) :
    broadcastInDim S100000x64 ![0, 1] bcast_S1x64_S100000x64_0_1 (broadcastInDim S1x64 ![1] bcast_S64_S1x64_1 g) (ix2 i c)
      = g (ix1 c) :=
  (broadcastInDim_apply _ _ _ _ (ix2 (0 : Fin 1) c) (fun a => by
    match a with
    | ⟨0, _⟩ => rfl
    | ⟨1, _⟩ => rfl)).trans
  (broadcastInDim_apply _ _ _ _ (ix1 c) (fun a => by
    match a with
    | ⟨0, _⟩ => rfl))

theorem affine_apply (g bt : FVec Ideal S64 .f32) (z : FVec Ideal S100000x64 .f32) (i : Fin 100000) (c : Fin 64) :
    affine g bt z (ix2 i c) = z (ix2 i c) * g (ix1 c) + bt (ix1 c) := by
  show z (ix2 i c) * _ + _ = _
  rw [channel_apply, channel_apply]

theorem leaky_apply (z : FVec Ideal S100000x64 .f32) (j : S100000x64.Idx) : leaky z j = leakyE (z j) := rfl

theorem normR_apply (hb : ∀ j, 0 ≤ (b j).toInt ∧ (b j).toInt < 8) (g bt : FVec Ideal S64 .f32)
    (y : FVec Ideal S100000x64 .f32) (i : Fin 100000) (c : Fin 64) :
    Cert.SpecR.normR g bt b y (ix2 i c) = Cert.Algebra.normR epsE leakyE (batchOf b) (x2 y) (v1 g) (v1 bt) i c := by
  unfold Cert.SpecR.normR
  rw [leaky_apply, affine_apply, normalised_apply b hb]
  rfl

theorem normResR_apply (hb : ∀ j, 0 ≤ (b j).toInt ∧ (b j).toInt < 8) (g bt : FVec Ideal S64 .f32)
    (y res : FVec Ideal S100000x64 .f32) (i : Fin 100000) (c : Fin 64) :
    normResR g bt b y res (ix2 i c)
      = Cert.Algebra.normRRes epsE leakyE (batchOf b) (x2 y) (v1 g) (v1 bt) (x2 res) i c := by
  unfold normResR
  rw [leaky_apply]
  show leakyE (affine g bt (normalised b y) (ix2 i c) + res (ix2 i c)) = _
  rw [affine_apply, normalised_apply b hb]
  rfl

end Cert.ReadR
-- ==== Proof.ReadR.lean ====
import proofs.«404940_j85761906966882_2_alg».proof.Proof.ReadRConv
import proofs.«404940_j85761906966882_2_alg».proof.Proof.ReadRNorm

noncomputable section

namespace Cert.ReadR

open Idealize.ShloMosaic Idealize.ShloMosaic.ValueIdx Cert.SpecR Cert.ReadK

theorem refG_apply (x : FVec Ideal S100000x64 .f32) (W1 : FVec Ideal S27x64x64 .f32) (g1 b1 : FVec Ideal S64 .f32)
    (W2 : FVec Ideal S27x64x64 .f32) (g2 b2 : FVec Ideal S64 .f32) (im om : IVec S27x100000 32) (b : IVec S100000 32)
    (him : ∀ j, 0 ≤ (im j).toInt ∧ (im j).toInt < 100000) (hb : ∀ j, 0 ≤ (b j).toInt ∧ (b j).toInt < 8)
    (i : Fin 100000) (c : Fin 64) :
    refG x W1 g1 b1 W2 g2 b2 im om b (ix2 i c)
      = Cert.Algebra.blockR epsE leakyE (batchOf b) (srcOf im) (dstOf om) (x2 x) (w3 W1) (v1 g1) (v1 b1) (w3 W2) (v1 g2)
          (v1 b2) i c := by
  have h1 : x2 (convR x W1 im om) = Cert.Algebra.conv (x2 x) (w3 W1) (srcOf im) (dstOf om) :=
    funext fun i => funext fun c => convR_apply x W1 im om him i c
  have h2 : x2 (Cert.SpecR.normR g1 b1 b (convR x W1 im om))
      = Cert.Algebra.normR epsE leakyE (batchOf b) (Cert.Algebra.conv (x2 x) (w3 W1) (srcOf im) (dstOf om)) (v1 g1) (v1 b1) :=
    funext fun i => funext fun c => by
      show Cert.SpecR.normR g1 b1 b (convR x W1 im om) (ix2 i c) = _
      rw [normR_apply b hb, h1]
  have h3 : x2 (convR (Cert.SpecR.normR g1 b1 b (convR x W1 im om)) W2 im om)
      = Cert.Algebra.conv (Cert.Algebra.normR epsE leakyE (batchOf b)
          (Cert.Algebra.conv (x2 x) (w3 W1) (srcOf im) (dstOf om)) (v1 g1) (v1 b1)) (w3 W2) (srcOf im) (dstOf om) :=
    funext fun i => funext fun c => by
      show convR (Cert.SpecR.normR g1 b1 b (convR x W1 im om)) W2 im om (ix2 i c) = _
      rw [convR_apply _ W2 im om him, h2]
  unfold refG Cert.Algebra.blockR
  rw [normResR_apply b hb, h3]

end Cert.ReadR
-- ==== Proof.BridgeFinal.lean ====
import proofs.«404940_j85761906966882_2_alg».proof.Proof.Bridge
import proofs.«404940_j85761906966882_2_alg».proof.Proof.ReadK
import proofs.«404940_j85761906966882_2_alg».proof.Proof.ReadR

noncomputable section

namespace Cert.Bridge

open Idealize.ShloMosaic Idealize.ShloMosaic.ValueIdx

theorem kerG_eq_refG (R : Cert.SpecK.Regions Ideal) (hR : Cert.ReadK.RegionFacts R)
    {a0 : FVec Ideal ⟨2, ![100000, 64]⟩ .f32} {a1 : FVec Ideal ⟨3, ![27, 64, 64]⟩ .f32}
    {a2 a3 : FVec Ideal ⟨1, ![64]⟩ .f32} {a4 : FVec Ideal ⟨3, ![27, 64, 64]⟩ .f32} {a5 a6 : FVec Ideal ⟨1, ![64]⟩ .f32}
    {a7 : IVec ⟨2, ![27, 100000]⟩ 32} {a9 : IVec ⟨1, ![100000]⟩ 32}
    (hin : Cert.PreFacts.Inputs a0 a1 a2 a3 a4 a5 a6 a7 a9) (a8 : IVec ⟨2, ![27, 100000]⟩ 32) :
    Cert.SpecK.kerG R a0 a1 a2 a3 a4 a5 a6 a7 a8 a9 = Cert.SpecR.refG a0 a1 a2 a3 a4 a5 a6 a7 a8 a9 :=
  bridge hin
    (fun i c => Cert.ReadK.kerG_eq_blockK R hR a0 a1 a2 a3 a4 a5 a6 a7 a8 a9 (fun _ _ => hin.inMap _) (fun _ => hin.batch _) i c)
    (fun i c => Cert.ReadR.refG_apply a0 a1 a2 a3 a4 a5 a6 a7 a8 a9 hin.inMap hin.batch i c)

end Cert.Bridge
-- ==== Proof.PreFactsK.lean ====
import proofs.«404940_j85761906966882_2_alg».proof.Defs
import proofs.«404940_j85761906966882_2_alg».proof.Proof.PreFacts

namespace Cert.PreFacts

open Idealize.ShloMosaic Idealize.SL.Sem

variable [Cert.Pre_finite_inputs.Facts]

theorem of_pre_KernelIdeal (m : (ℓ : Loc Cert.KernelIdeal.nD Cert.KernelIdeal.τ Cert.KernelIdeal.sig) → Buf (Elt Ideal) ℓ)
    (h : Cert.Pre_KernelIdeal m) (c : Dev Cert.KernelIdeal.nD) :
    Inputs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg9)) :=
  decode _ _ _ _ _ _ _ _ _ _ (h c)

end Cert.PreFacts
-- ==== Proof.lean ====
import proofs.«404940_j85761906966882_2_alg».proof.Defs
import proofs.«404940_j85761906966882_2_alg».proof.Proof.Gen.Kernel
import proofs.«404940_j85761906966882_2_alg».proof.Proof.Gen.KernelIdeal
import proofs.«404940_j85761906966882_2_alg».proof.Proof.Gen.ReferenceIdeal
import proofs.«404940_j85761906966882_2_alg».proof.Proof.Gen.Pre_finite_inputs
import proofs.«404940_j85761906966882_2_alg».proof.Proof.BRun
import proofs.«404940_j85761906966882_2_alg».proof.Proof.KerFinal
import proofs.«404940_j85761906966882_2_alg».proof.Proof.RefRun
import proofs.«404940_j85761906966882_2_alg».proof.Proof.BridgeFinal
import proofs.«404940_j85761906966882_2_alg».proof.Proof.PreFactsK
import Idealize.ShloMosaic.Adequacy
import Idealize.ShloMosaic.Init

noncomputable section

namespace Cert.Proof

open Idealize.ShloMosaic Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

theorem frame_ri : Cert.frame_ReferenceIdeal := fun m ρ _ => Cert.ReferenceIdeal.Value.run_frame (F := Ideal) m ρ

/-- Each run ends at a pure function of the ten arguments, and on real inputs with in-range indices the two functions agree entry by entry. -/
theorem algebraic : Cert.algebraic_KernelIdeal_ReferenceIdeal := by
  intro m g m' g' hpre hagree
  refine ⟨_, Cert.KernelIdeal.Final.ker_run m g, ?_⟩
  refine (θ_run (Cert.ReferenceIdeal.defs (F := Ideal)) _ _).mono (fun _ h c => ⟨(h c).1.trans ?_, (h c).2⟩)
    (Cert.ReferenceIdeal.Value.run (F := Ideal) m' g')
  obtain ⟨h0, h1, h2, h3, h4, h5, h6, h7, h8, h9⟩ := hagree c
  rw [h0, h1, h2, h3, h4, h5, h6, h7, h8, h9]
  exact (Cert.Bridge.kerG_eq_refG Cert.KerRegions.R Cert.KerRegions.facts
    (Cert.PreFacts.of_pre_KernelIdeal m hpre c) _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
